-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v74)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v74) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S4096 : Shape := ⟨1, ![4096]⟩
abbrev S20000x1024 : Shape := ⟨2, ![20000, 1024]⟩
abbrev S2x1024 : Shape := ⟨2, ![2, 1024]⟩
abbrev S256x1024 : Shape := ⟨2, ![256, 1024]⟩
abbrev S20000x256 : Shape := ⟨2, ![20000, 256]⟩
abbrev S64x1024 : Shape := ⟨2, ![64, 1024]⟩
abbrev S10257x64 : Shape := ⟨2, ![10257, 64]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S20000x1024 : S_.BroadcastsInDim S20000x1024 (![] : Fin 0 → Fin S20000x1024.rank)
  reducesTo_S20000x1024_S_d0_1 : S20000x1024.ReducesTo [0, 1] S_
  bcast_S_S2x1024 : S_.BroadcastsInDim S2x1024 (![] : Fin 0 → Fin S2x1024.rank)
  reducesTo_S2x1024_S_d0_1 : S2x1024.ReducesTo [0, 1] S_
  bcast_S_S256x1024 : S_.BroadcastsInDim S256x1024 (![] : Fin 0 → Fin S256x1024.rank)
  reducesTo_S256x1024_S_d0_1 : S256x1024.ReducesTo [0, 1] S_
  bcast_S_S20000x256 : S_.BroadcastsInDim S20000x256 (![] : Fin 0 → Fin S20000x256.rank)
  reducesTo_S20000x256_S_d0_1 : S20000x256.ReducesTo [0, 1] S_
  bcast_S_S64x1024 : S_.BroadcastsInDim S64x1024 (![] : Fin 0 → Fin S64x1024.rank)
  reducesTo_S64x1024_S_d0_1 : S64x1024.ReducesTo [0, 1] S_
  bcast_S_S10257x64 : S_.BroadcastsInDim S10257x64 (![] : Fin 0 → Fin S10257x64.rank)
  reducesTo_S10257x64_S_d0_1 : S10257x64.ReducesTo [0, 1] S_
  bcast_S_S4096 : S_.BroadcastsInDim S4096 (![] : Fin 0 → Fin S4096.rank)
  reducesTo_S4096_S_d0 : S4096.ReducesTo [0] S_

variable [Facts]

def fn_part2 {F : FTy → Type} [FloatOps F] (main_arg1 : IVec S4096 32) (main_v33 : IVec S_ 1) : IVec S_ 1 :=
  let main_c_12 : IVec S_ 32 := constantI S_ 32 0#32
  let main_v34 : IVec S4096 32 := broadcastInDim S4096 ![] bcast_S_S4096 main_c_12
  let main_v35 : IVec S4096 1 := cmpi .sge main_arg1 main_v34
  let main_c_13 : IVec S_ 32 := constantI S_ 32 50257#32
  let main_v36 : IVec S4096 32 := broadcastInDim S4096 ![] bcast_S_S4096 main_c_13
  let main_v37 : IVec S4096 1 := cmpi .slt main_arg1 main_v36
  let main_v38 : IVec S4096 1 := andi main_v35 main_v37
  let main_c_14 : IVec S_ 1 := constantI S_ 1 1#1
  let main_v39 : IVec S_ 1 := (fun x v => Host.reduce IntOp.andi x v reducesTo_S4096_S_d0 h_S_) main_v38 main_c_14
  let main_v40 : IVec S_ 1 := andi main_v33 main_v39
  main_v40

def fn_part1 {F : FTy → Type} [FloatOps F] (main_arg1 : IVec S4096 32) (main_arg5 : FVec F S20000x256 .f32) (main_arg6 : FVec F S64x1024 .f32) (main_arg7 : FVec F S10257x64 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S20000x256 .f32 := Host.absf main_arg5
  let main_cst_6 : FVec F S_ .f32 := constant S_ .f32 0x7F800000#32
  let main_v20 : FVec F S20000x256 .f32 := broadcastInDim S20000x256 ![] bcast_S_S20000x256 main_cst_6
  let main_v21 : IVec S20000x256 1 := cmpf .olt main_v19 main_v20
  let main_c_7 : IVec S_ 1 := constantI S_ 1 1#1
  let main_v22 : IVec S_ 1 := (fun x v => Host.reduce IntOp.andi x v reducesTo_S20000x256_S_d0_1 h_S_) main_v21 main_c_7
  let main_v23 : IVec S_ 1 := andi main_v18 main_v22
  let main_v24 : FVec F S64x1024 .f32 := Host.absf main_arg6
  let main_cst_8 : FVec F S_ .f32 := constant S_ .f32 0x7F800000#32
  let main_v25 : FVec F S64x1024 .f32 := broadcastInDim S64x1024 ![] bcast_S_S64x1024 main_cst_8
  let main_v26 : IVec S64x1024 1 := cmpf .olt main_v24 main_v25
  let main_c_9 : IVec S_ 1 := constantI S_ 1 1#1
  let main_v27 : IVec S_ 1 := (fun x v => Host.reduce IntOp.andi x v reducesTo_S64x1024_S_d0_1 h_S_) main_v26 main_c_9
  let main_v28 : IVec S_ 1 := andi main_v23 main_v27
  let main_v29 : FVec F S10257x64 .f32 := Host.absf main_arg7
  let main_cst_10 : FVec F S_ .f32 := constant S_ .f32 0x7F800000#32
  let main_v30 : FVec F S10257x64 .f32 := broadcastInDim S10257x64 ![] bcast_S_S10257x64 main_cst_10
  let main_v31 : IVec S10257x64 1 := cmpf .olt main_v29 main_v30
  let main_c_11 : IVec S_ 1 := constantI S_ 1 1#1
  let main_v32 : IVec S_ 1 := (fun x v => Host.reduce IntOp.andi x v reducesTo_S10257x64_S_d0_1 h_S_) main_v31 main_c_11
  let main_v33 : IVec S_ 1 := andi main_v28 main_v32
  fn_part2 (F := F) main_arg1 main_v33

def fn {F : FTy → Type} [FloatOps F] (main_arg0 : FVec F S4096x1024 .f32) (main_arg1 : IVec S4096 32) (main_arg2 : FVec F S20000x1024 .f32) (main_arg3 : FVec F S2x1024 .f32) (main_arg4 : FVec F S256x1024 .f32) (main_arg5 : FVec F S20000x256 .f32) (main_arg6 : FVec F S64x1024 .f32) (main_arg7 : FVec F S10257x64 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S20000x1024 .f32 := Host.absf main_arg2
  let main_cst_0 : FVec F S_ .f32 := constant S_ .f32 0x7F800000#32
  let main_v5 : FVec F S20000x1024 .f32 := broadcastInDim S20000x1024 ![] bcast_S_S20000x1024 main_cst_0
  let main_v6 : IVec S20000x1024 1 := cmpf .olt main_v4 main_v5
  let main_c_1 : IVec S_ 1 := constantI S_ 1 1#1
  let main_v7 : IVec S_ 1 := (fun x v => Host.reduce IntOp.andi x v reducesTo_S20000x1024_S_d0_1 h_S_) main_v6 main_c_1
  let main_v8 : IVec S_ 1 := andi main_v3 main_v7
  let main_v9 : FVec F S2x1024 .f32 := Host.absf main_arg3
  let main_cst_2 : FVec F S_ .f32 := constant S_ .f32 0x7F800000#32
  let main_v10 : FVec F S2x1024 .f32 := broadcastInDim S2x1024 ![] bcast_S_S2x1024 main_cst_2
  let main_v11 : IVec S2x1024 1 := cmpf .olt main_v9 main_v10
  let main_c_3 : IVec S_ 1 := constantI S_ 1 1#1
  let main_v12 : IVec S_ 1 := (fun x v => Host.reduce IntOp.andi x v reducesTo_S2x1024_S_d0_1 h_S_) main_v11 main_c_3
  let main_v13 : IVec S_ 1 := andi main_v8 main_v12
  let main_v14 : FVec F S256x1024 .f32 := Host.absf main_arg4
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg1 main_arg5 main_arg6 main_arg7 main_v13 main_v16
-- ==== Kernel.lean ====
abbrev S4096x1024 : Shape := ⟨2, ![4096, 1024]⟩
abbrev S4096 : Shape := ⟨1, ![4096]⟩
abbrev S20000x1024 : Shape := ⟨2, ![20000, 1024]⟩
abbrev S2x1024 : Shape := ⟨2, ![2, 1024]⟩
abbrev S256x1024 : Shape := ⟨2, ![256, 1024]⟩
abbrev S20000x256 : Shape := ⟨2, ![20000, 256]⟩
abbrev S64x1024 : Shape := ⟨2, ![64, 1024]⟩
abbrev S10257x64 : Shape := ⟨2, ![10257, 64]⟩
abbrev S_ : Shape := ⟨0, ![]⟩
abbrev S4096x1 : Shape := ⟨2, ![4096, 1]⟩
abbrev S1024x2 : Shape := ⟨2, ![1024, 2]⟩
abbrev S4096x2 : Shape := ⟨2, ![4096, 2]⟩
abbrev S20480x1024 : Shape := ⟨2, ![20480, 1024]⟩
abbrev S512x1024 : Shape := ⟨2, ![512, 1024]⟩
abbrev S2048x1024 : Shape := ⟨2, ![2048, 1024]⟩
abbrev S512x1 : Shape := ⟨2, ![512, 1]⟩
abbrev S1024x2048 : Shape := ⟨2, ![1024, 2048]⟩
abbrev S512x2048 : Shape := ⟨2, ![512, 2048]⟩
abbrev S512 : Shape := ⟨1, ![512]⟩
abbrev S20480x256 : Shape := ⟨2, ![20480, 256]⟩
abbrev S2048x256 : Shape := ⟨2, ![2048, 256]⟩
abbrev S512x256 : Shape := ⟨2, ![512, 256]⟩
abbrev S1024x256 : Shape := ⟨2, ![1024, 256]⟩
abbrev S256x2048 : Shape := ⟨2, ![256, 2048]⟩
abbrev S11264x64 : Shape := ⟨2, ![11264, 64]⟩
abbrev S1024x64 : Shape := ⟨2, ![1024, 64]⟩
abbrev S512x64 : Shape := ⟨2, ![512, 64]⟩

abbrev nBuf : Space → Nat
  | .hbm => 121
  | .vmem => 49
  | .smem => 0
  | _ => 0

abbrev bufTy : (tb : Table) → Fin (tcTables nBuf tb) → BufTy
  | .hbm, ⟨0, _⟩ => ⟨S4096x1024, .f32⟩
  | .hbm, ⟨1, _⟩ => ⟨S4096, .i32⟩
  | .hbm, ⟨2, _⟩ => ⟨S20000x1024, .f32⟩
  | .hbm, ⟨3, _⟩ => ⟨S2x1024, .f32⟩
  | .hbm, ⟨4, _⟩ => ⟨S256x1024, .f32⟩
  | .hbm, ⟨5, _⟩ => ⟨S20000x256, .f32⟩
  | .hbm, ⟨6, _⟩ => ⟨S64x1024, .f32⟩
  | .hbm, ⟨7, _⟩ => ⟨S10257x64, .f32⟩
  | .hbm, ⟨8, _⟩ => ⟨S_, .i32⟩
  | .hbm, ⟨9, _⟩ => ⟨S4096, .i32⟩
  | .hbm, ⟨10, _⟩ => ⟨S4096, .i1⟩
  | .hbm, ⟨11, _⟩ => ⟨S_, .i32⟩
  | .hbm, ⟨12, _⟩ => ⟨S4096, .i32⟩
  | .hbm, ⟨13, _⟩ => ⟨S4096, .i1⟩
  | .hbm, ⟨14, _⟩ => ⟨S_, .i32⟩
  | .hbm, ⟨15, _⟩ => ⟨S4096, .i32⟩
  | .hbm, ⟨16, _⟩ => ⟨S4096, .i1⟩
  | .hbm, ⟨17, _⟩ => ⟨S4096, .i1⟩
  | .hbm, ⟨18, _⟩ => ⟨S_, .i32⟩
  | .hbm, ⟨19, _⟩ => ⟨S4096, .i32⟩
  | .hbm, ⟨20, _⟩ => ⟨S4096, .i1⟩
  | .hbm, ⟨21, _⟩ => ⟨S_, .i32⟩
  | .hbm, ⟨22, _⟩ => ⟨S_, .i32⟩
  | .hbm, ⟨23, _⟩ => ⟨S4096, .i32⟩
  | .hbm, ⟨24, _⟩ => ⟨S4096, .i32⟩
  | .hbm, ⟨25, _⟩ => ⟨S4096x1, .i32⟩
  | .hbm, ⟨26, _⟩ => ⟨S_, .i32⟩
  | .hbm, ⟨27, _⟩ => ⟨S4096, .i32⟩
  | .hbm, ⟨28, _⟩ => ⟨S4096, .i32⟩
  | .hbm, ⟨29, _⟩ => ⟨S_, .i32⟩
  | .hbm, ⟨30, _⟩ => ⟨S_, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S_, .i32⟩
  | .hbm, ⟨35, _⟩ => ⟨S4096, .i32⟩
  | .hbm, ⟨36, _⟩ => ⟨S4096, .i32⟩
  | .hbm, ⟨37, _⟩ => ⟨S_, .i32⟩
  | .hbm, ⟨38, _⟩ => ⟨S_, .i32⟩
  | .hbm, ⟨39, _⟩ => ⟨S4096, .i32⟩
  | .hbm, ⟨40, _⟩ => ⟨S4096, .i32⟩
  | .hbm, ⟨41, _⟩ => ⟨S4096x1, .i32⟩
  | .hbm, ⟨42, _⟩ => ⟨S4096x1024, .bf16⟩
  | .hbm, ⟨43, _⟩ => ⟨S20000x1024, .bf16⟩
  | .hbm, ⟨44, _⟩ => ⟨S2x1024, .bf16⟩
  | .hbm, ⟨45, _⟩ => ⟨S256x1024, .bf16⟩
  | .hbm, ⟨46, _⟩ => ⟨S20000x256, .bf16⟩
  | .hbm, ⟨47, _⟩ => ⟨S64x1024, .bf16⟩
  | .hbm, ⟨48, _⟩ => ⟨S10257x64, .bf16⟩
  | .hbm, ⟨49, _⟩ => ⟨S1024x2, .bf16⟩
  | .hbm, ⟨50, _⟩ => ⟨S4096x2, .f32⟩
  | .hbm, ⟨51, _⟩ => ⟨S_, .i32⟩
  | .hbm, ⟨52, _⟩ => ⟨S_, .bf16⟩
  | .hbm, ⟨53, _⟩ => ⟨S20480x1024, .bf16⟩
  | .hbm, ⟨54, _⟩ => ⟨S4096x1, .f32⟩
  | .hbm, ⟨55, _⟩ => ⟨S4096x1, .f32⟩
  | .hbm, ⟨56, _⟩ => ⟨S4096x1, .f32⟩
  | .hbm, ⟨57, _⟩ => ⟨S_, .i32⟩
  | .hbm, ⟨58, _⟩ => ⟨S_, .bf16⟩
  | .hbm, ⟨59, _⟩ => ⟨S20480x256, .bf16⟩
  | .hbm, ⟨60, _⟩ => ⟨S4096x1, .f32⟩
  | .hbm, ⟨61, _⟩ => ⟨S4096x1, .f32⟩
  | .hbm, ⟨62, _⟩ => ⟨S4096x1, .f32⟩
  | .hbm, ⟨63, _⟩ => ⟨S_, .i32⟩
  | .hbm, ⟨64, _⟩ => ⟨S_, .bf16⟩
  | .hbm, ⟨65, _⟩ => ⟨S11264x64, .bf16⟩
  | .hbm, ⟨66, _⟩ => ⟨S4096x1, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x2, .f32⟩
  | .hbm, ⟨77, _⟩ => ⟨S4096x2, .f32⟩
  | .hbm, ⟨78, _⟩ => ⟨S4096x2, .f32⟩
  | .hbm, ⟨79, _⟩ => ⟨S_, .f32⟩
  | .hbm, ⟨80, _⟩ => ⟨S4096, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x1, .f32⟩
  | .hbm, ⟨85, _⟩ => ⟨S4096x1, .f32⟩
  | .hbm, ⟨86, _⟩ => ⟨S4096x1, .f32⟩
  | .hbm, ⟨87, _⟩ => ⟨S4096x1, .f32⟩
  | .hbm, ⟨88, _⟩ => ⟨S4096x1, .f32⟩
  | .hbm, ⟨89, _⟩ => ⟨S4096x1, .f32⟩
  | .hbm, ⟨90, _⟩ => ⟨S4096x1, .f32⟩
  | .hbm, ⟨91, _⟩ => ⟨S4096x1, .f32⟩
  | .hbm, ⟨92, _⟩ => ⟨S4096x1, .f32⟩
  | .hbm, ⟨93, _⟩ => ⟨S4096x1, .f32⟩
  | .hbm, ⟨94, _⟩ => ⟨S4096x1, .f32⟩
  | .hbm, ⟨95, _⟩ => ⟨S4096x1, .f32⟩
  | .hbm, ⟨96, _⟩ => ⟨S4096x1, .f32⟩
  | .hbm, ⟨97, _⟩ => ⟨S4096x1, .f32⟩
  | .hbm, ⟨98, _⟩ => ⟨S4096x1, .f32⟩
  | .hbm, ⟨99, _⟩ => ⟨S4096x1, .f32⟩
  | .hbm, ⟨100, _⟩ => ⟨S4096x1, .i1⟩
  | .hbm, ⟨101, _⟩ => ⟨S4096x1, .i1⟩
  | .hbm, ⟨102, _⟩ => ⟨S4096x1, .i1⟩
  | .hbm, ⟨103, _⟩ => ⟨S_, .f32⟩
  | .hbm, ⟨104, _⟩ => ⟨S4096x1, .f32⟩
  | .hbm, ⟨105, _⟩ => ⟨S4096x1, .f32⟩
  | .hbm, ⟨106, _⟩ => ⟨S_, .f32⟩
  | .hbm, ⟨107, _⟩ => ⟨S_, .f32⟩
  | .hbm, ⟨108, _⟩ => ⟨S_, .f32⟩
  | .hbm, ⟨109, _⟩ => ⟨S4096x1, .f32⟩
  | .hbm, ⟨110, _⟩ => ⟨S4096x1, .f32⟩
  | .hbm, ⟨111, _⟩ => ⟨S_, .f32⟩
  | .hbm, ⟨112, _⟩ => ⟨S_, .f32⟩
  | .hbm, ⟨113, _⟩ => ⟨S_, .f32⟩
  | .hbm, ⟨114, _⟩ => ⟨S_, .f32⟩
  | .hbm, ⟨115, _⟩ => ⟨S4096x1, .f32⟩
  | .hbm, ⟨116, _⟩ => ⟨S4096x1, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .local _ .vmem, ⟨0, _⟩ => ⟨S512x1024, .bf16⟩
  | .local _ .vmem, ⟨1, _⟩ => ⟨S512x1024, .bf16⟩
  | .local _ .vmem, ⟨2, _⟩ => ⟨S2048x1024, .bf16⟩
  | .local _ .vmem, ⟨3, _⟩ => ⟨S2048x1024, .bf16⟩
  | .local _ .vmem, ⟨4, _⟩ => ⟨S512x1, .i32⟩
  | .local _ .vmem, ⟨5, _⟩ => ⟨S512x1, .i32⟩
  | .local _ .vmem, ⟨6, _⟩ => ⟨S512x1, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1024, .bf16⟩
  | .local _ .vmem, ⟨16, _⟩ => ⟨S512x1024, .bf16⟩
  | .local _ .vmem, ⟨17, _⟩ => ⟨S256x1024, .bf16⟩
  | .local _ .vmem, ⟨18, _⟩ => ⟨S2048x256, .bf16⟩
  | .local _ .vmem, ⟨19, _⟩ => ⟨S2048x256, .bf16⟩
  | .local _ .vmem, ⟨20, _⟩ => ⟨S512x1, .i32⟩
  | .local _ .vmem, ⟨21, _⟩ => ⟨S512x1, .i32⟩
  | .local _ .vmem, ⟨22, _⟩ => ⟨S512x1, .f32⟩
  | .local _ .vmem, ⟨23, _⟩ => ⟨S512x1, .f32⟩
  | .local _ .vmem, ⟨24, _⟩ => ⟨S512x1, .f32⟩
  | .local _ .vmem, ⟨25, _⟩ => ⟨S512x1, .f32⟩
  | .local _ .vmem, ⟨26, _⟩ => ⟨S512x1, .f32⟩
  | .local _ .vmem, ⟨27, _⟩ => ⟨S512x1, .f32⟩
  | .local _ .vmem, ⟨28, _⟩ => ⟨S512x256, .bf16⟩
  | .local _ .vmem, ⟨29, _⟩ => ⟨S512x1, .f32⟩
  | .local _ .vmem, ⟨30, _⟩ => ⟨S512x1, .f32⟩
  | .local _ .vmem, ⟨31, _⟩ => ⟨S512x1, .f32⟩
  | .local _ .vmem, ⟨32, _⟩ => ⟨S512x1024, .bf16⟩
  | .local _ .vmem, ⟨33, _⟩ => ⟨S512x1024, .bf16⟩
  | .local _ .vmem, ⟨34, _⟩ => ⟨S64x1024, .bf16⟩
  | .local _ .vmem, ⟨35, _⟩ => ⟨S1024x64, .bf16⟩
  | .local _ .vmem, ⟨36, _⟩ => ⟨S1024x64, .bf16⟩
  | .local _ .vmem, ⟨37, _⟩ => ⟨S512x1, .i32⟩
  | .local _ .vmem, ⟨38, _⟩ => ⟨S512x1, .i32⟩
  | .local _ .vmem, ⟨39, _⟩ => ⟨S512x1, .f32⟩
  | .local _ .vmem, ⟨40, _⟩ => ⟨S512x1, .f32⟩
  | .local _ .vmem, ⟨41, _⟩ => ⟨S512x1, .f32⟩
  | .local _ .vmem, ⟨42, _⟩ => ⟨S512x1, .f32⟩
  | .local _ .vmem, ⟨43, _⟩ => ⟨S512x1, .f32⟩
  | .local _ .vmem, ⟨44, _⟩ => ⟨S512x1, .f32⟩
  | .local _ .vmem, ⟨45, _⟩ => ⟨S512x64, .bf16⟩
  | .local _ .vmem, ⟨46, _⟩ => ⟨S512x1, .f32⟩
  | .local _ .vmem, ⟨47, _⟩ => ⟨S512x1, .f32⟩
  | .local _ .vmem, ⟨48, _⟩ => ⟨S512x1, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | _, _ => false

abbrev semScoped : Fin 0 → Bool
  | ⟨_, h⟩ => absurd h (Nat.not_lt_zero _)

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  ofTc nBuf bufTy 0 38 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_v0 : Ref sig .tc := ⟨.hbm, 9, rfl⟩
abbrev main_v1 : Ref sig .tc := ⟨.hbm, 10, rfl⟩
abbrev main_c_0 : Ref sig .tc := ⟨.hbm, 11, rfl⟩
abbrev main_v2 : Ref sig .tc := ⟨.hbm, 12, rfl⟩
abbrev main_v3 : Ref sig .tc := ⟨.hbm, 13, rfl⟩
abbrev main_c_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_call0_v0 : Ref sig .tc := ⟨.hbm, 22, rfl⟩
abbrev main_call0_v1 : Ref sig .tc := ⟨.hbm, 23, rfl⟩
abbrev main_v9 : Ref sig .tc := ⟨.hbm, 24, rfl⟩
abbrev main_v10 : Ref sig .tc := ⟨.hbm, 25, rfl⟩
abbrev main_c_4 : Ref sig .tc := ⟨.hbm, 26, rfl⟩
abbrev main_v11 : Ref sig .tc := ⟨.hbm, 27, rfl⟩
abbrev main_v12 : Ref sig .tc := ⟨.hbm, 28, rfl⟩
abbrev main_c_5 : Ref sig .tc := ⟨.hbm, 29, rfl⟩
abbrev main_call1_v0 : Ref sig .tc := ⟨.hbm, 30, rfl⟩
abbrev main_call1_v1 : Ref sig .tc := ⟨.hbm, 31, rfl⟩
abbrev main_v13 : Ref sig .tc := ⟨.hbm, 32, rfl⟩
abbrev main_v14 : Ref sig .tc := ⟨.hbm, 33, rfl⟩
abbrev main_c_6 : Ref sig .tc := ⟨.hbm, 34, rfl⟩
abbrev main_v15 : Ref sig .tc := ⟨.hbm, 35, rfl⟩
abbrev main_v16 : Ref sig .tc := ⟨.hbm, 36, rfl⟩
abbrev main_c_7 : Ref sig .tc := ⟨.hbm, 37, rfl⟩
abbrev main_call2_v0 : Ref sig .tc := ⟨.hbm, 38, rfl⟩
abbrev main_call2_v1 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_c_8 : Ref sig .tc := ⟨.hbm, 51, rfl⟩
abbrev main_call3_v0 : Ref sig .tc := ⟨.hbm, 52, rfl⟩
abbrev main_v28 : Ref sig .tc := ⟨.hbm, 53, rfl⟩
abbrev main_v29_0 : Ref sig .tc := ⟨.hbm, 54, rfl⟩
abbrev main_v29_1 : Ref sig .tc := ⟨.hbm, 55, rfl⟩
abbrev main_v29_2 : Ref sig .tc := ⟨.hbm, 56, rfl⟩
abbrev main_c_9 : Ref sig .tc := ⟨.hbm, 57, rfl⟩
abbrev main_call4_v0 : Ref sig .tc := ⟨.hbm, 58, rfl⟩
abbrev main_v30 : Ref sig .tc := ⟨.hbm, 59, rfl⟩
abbrev main_v31_0 : Ref sig .tc := ⟨.hbm, 60, rfl⟩
abbrev main_v31_1 : Ref sig .tc := ⟨.hbm, 61, rfl⟩
abbrev main_v31_2 : Ref sig .tc := ⟨.hbm, 62, rfl⟩
abbrev main_c_10 : Ref sig .tc := ⟨.hbm, 63, rfl⟩
abbrev main_call5_v0 : Ref sig .tc := ⟨.hbm, 64, rfl⟩
abbrev main_v32 : Ref sig .tc := ⟨.hbm, 65, rfl⟩
abbrev main_v33_0 : Ref sig .tc := ⟨.hbm, 66, rfl⟩
abbrev main_v33_1 : Ref sig .tc := ⟨.hbm, 67, rfl⟩
abbrev main_v33_2 : Ref sig .tc := ⟨.hbm, 68, rfl⟩
abbrev main_cst : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_cst_11 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_cst_12 : Ref sig .tc := ⟨.hbm, 103, rfl⟩
abbrev main_call6_v0 : Ref sig .tc := ⟨.hbm, 104, rfl⟩
abbrev main_v66 : Ref sig .tc := ⟨.hbm, 105, rfl⟩
abbrev main_cst_13 : Ref sig .tc := ⟨.hbm, 106, rfl⟩
abbrev main_v67 : Ref sig .tc := ⟨.hbm, 107, rfl⟩
abbrev main_cst_14 : Ref sig .tc := ⟨.hbm, 108, rfl⟩
abbrev main_call7_v0 : Ref sig .tc := ⟨.hbm, 109, rfl⟩
abbrev main_v68 : Ref sig .tc := ⟨.hbm, 110, rfl⟩
abbrev main_cst_15 : Ref sig .tc := ⟨.hbm, 111, rfl⟩
abbrev main_v69 : Ref sig .tc := ⟨.hbm, 112, rfl⟩
abbrev main_v70 : Ref sig .tc := ⟨.hbm, 113, rfl⟩
abbrev main_cst_16 : Ref sig .tc := ⟨.hbm, 114, rfl⟩
abbrev main_call8_v0 : Ref sig .tc := ⟨.hbm, 115, rfl⟩
abbrev main_v71 : Ref sig .tc := ⟨.hbm, 116, rfl⟩
abbrev main_cst_17 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc1_stg0_0 : Ref sig .tc := ⟨.vmem, 15, rfl⟩
abbrev cc1_stg0_1 : Ref sig .tc := ⟨.vmem, 16, rfl⟩
abbrev cc1_stg1_0 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg2_0 : Ref sig .tc := ⟨.vmem, 35, rfl⟩
abbrev cc2_stg2_1 : Ref sig .tc := ⟨.vmem, 36, rfl⟩
abbrev cc2_stg3_0 : Ref sig .tc := ⟨.vmem, 37, rfl⟩
abbrev cc2_stg3_1 : Ref sig .tc := ⟨.vmem, 38, rfl⟩
abbrev cc2_stg4_0 : Ref sig .tc := ⟨.vmem, 39, rfl⟩
abbrev cc2_stg4_1 : Ref sig .tc := ⟨.vmem, 40, rfl⟩
abbrev cc2_stg5_0 : Ref sig .tc := ⟨.vmem, 41, rfl⟩
abbrev cc2_stg5_1 : Ref sig .tc := ⟨.vmem, 42, rfl⟩
abbrev cc2_stg6_0 : Ref sig .tc := ⟨.vmem, 43, rfl⟩
abbrev cc2_stg6_1 : Ref sig .tc := ⟨.vmem, 44, rfl⟩
abbrev cc2_scratch0 : Ref sig .tc := ⟨.vmem, 45, rfl⟩
abbrev cc2_scratch1 : Ref sig .tc := ⟨.vmem, 46, rfl⟩
abbrev cc2_scratch2 : Ref sig .tc := ⟨.vmem, 47, rfl⟩
abbrev cc2_scratch3 : Ref sig .tc := ⟨.vmem, 48, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem2_1 : DmaSem sig := 16
abbrev cc1_sem3_0 : DmaSem sig := 17
abbrev cc1_sem3_1 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem6_1 : DmaSem sig := 24
abbrev cc2_sem0_0 : DmaSem sig := 25
abbrev cc2_sem0_1 : DmaSem sig := 26
abbrev cc2_sem1_0 : DmaSem sig := 27
abbrev cc2_sem2_0 : DmaSem sig := 28
abbrev cc2_sem2_1 : DmaSem sig := 29
abbrev cc2_sem3_0 : DmaSem sig := 30
abbrev cc2_sem3_1 : DmaSem sig := 31
abbrev cc2_sem4_0 : DmaSem sig := 32
abbrev cc2_sem4_1 : DmaSem sig := 33
abbrev cc2_sem5_0 : DmaSem sig := 34
abbrev cc2_sem5_1 : DmaSem sig := 35
abbrev cc2_sem6_0 : DmaSem sig := 36
abbrev cc2_sem6_1 : DmaSem sig := 37

abbrev nD : Nat := 1
abbrev τ : Topo := Topo.v7x

variable {F : FTy → Type} [FloatOps F]

abbrev grid0 : Pipeline.Grid := ⟨2, ![8, 10], ![false, false]⟩

def k0_cond2 (i : grid0.Coords) : BitVec 1 :=
  let arg1 : BitVec 32 := BitVec.ofNat 32 (i 1).val
  let c9_i32 : BitVec 32 := 9#32
  let v51 : BitVec 1 := Scalar.cmpi .eq arg1 c9_i32
  let v52 : BitVec 32 := Scalar.extui v51
  let c0_i32_25 : BitVec 32 := 0#32
  let v53 : BitVec 1 := Scalar.cmpi .ne v52 c0_i32_25
  v53

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev grid1 : Pipeline.Grid := ⟨2, ![8, 10], ![false, false]⟩

def k1_cond2 (i : grid1.Coords) : BitVec 1 :=
  let arg1 : BitVec 32 := BitVec.ofNat 32 (i 1).val
  let c9_i32 : BitVec 32 := 9#32
  let v50 : BitVec 1 := Scalar.cmpi .eq arg1 c9_i32
  let v51 : BitVec 32 := Scalar.extui v50
  let c0_i32_25 : BitVec 32 := 0#32
  let v52 : BitVec 1 := Scalar.cmpi .ne v51 c0_i32_25
  v52

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 1 → Memref sig .tc .vmem S256x1024 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S2048x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S512x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S512x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S512x1 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨2, ![8, 11], ![false, false]⟩

def k2_cond2 (i : grid2.Coords) : BitVec 1 :=
  let arg1 : BitVec 32 := BitVec.ofNat 32 (i 1).val
  let c10_i32 : BitVec 32 := 10#32
  let v50 : BitVec 1 := Scalar.cmpi .eq arg1 c10_i32
  let v51 : BitVec 32 := Scalar.extui v50
  let c0_i32_25 : BitVec 32 := 0#32
  let v52 : BitVec 1 := Scalar.cmpi .ne v51 c0_i32_25
  v52

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S512x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S64x1024 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1024x64 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S512x1 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, false]

abbrev stage2_4 : Fin 2 → Memref sig .tc .vmem S512x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

abbrev stage2_5 : Fin 2 → Memref sig .tc .vmem S512x1 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, false]

abbrev stage2_6 : Fin 2 → Memref sig .tc .vmem S512x1 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, false]

class Facts₀ : Prop where
  bcast_S_S4096 : S_.BroadcastsInDim S4096 (![] : Fin 0 → Fin S4096.rank)
  shapeCasts_S4096_S4096x1 : S4096.ShapeCasts S4096x1
  bitsLt_bf16_f32 : FTy.bits .bf16 < FTy.bits .f32
  transposes_S2x1024_S1024x2_1_0 : S2x1024.Transposes [1, 0] S1024x2
  pads_S20000x1024_S20480x1024_04800_000 : S20000x1024.Pads (![0, 0] : Fin 2 → Nat) ![480, 0] ![0, 0] S20480x1024
  h_S_ : 0 < S_.numel
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  transposes_S2048x1024_p1_0_S1024x2048 : S2048x1024.Transposes [1, 0] S1024x2048
  iota_S512x2048_d1_w32 : S512x2048.Iotas .tc 32 [1]
  reduces_S512x2048_S512 : S512x2048.Reduces [1] S512
  shapeCasts_S512_S512x1 : S512.ShapeCasts S512x1
  broadcasts_S512x1_S512x2048 : S512x1.Broadcasts S512x2048
  pads_S20000x256_S20480x256_04800_000 : S20000x256.Pads (![0, 0] : Fin 2 → Nat) ![480, 0] ![0, 0] S20480x256
  inb_S256x1024_S256x1024_0_0 : ∀ a, (![0, 0] : Fin 2 → Nat) a + S256x1024.size a ≤ S256x1024.size a
  h_S256x1024 : 0 < S256x1024.numel
  shapeCasts_S256x1024_S256x1024 : S256x1024.ShapeCasts S256x1024
  transposes_S256x1024_p1_0_S1024x256 : S256x1024.Transposes [1, 0] S1024x256
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S512x256_S512x256_0_0 : (Rect.unit (s := S512x256) ![0, 0] S512x256.size inb_S512x256_S512x256_0_0).PackedRows (EltTy.packing .bf16)
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  transposes_S2048x256_p1_0_S256x2048 : S2048x256.Transposes [1, 0] S256x2048
  pads_S10257x64_S11264x64_010070_000 : S10257x64.Pads (![0, 0] : Fin 2 → Nat) ![1007, 0] ![0, 0] S11264x64
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  transposes_S64x1024_p1_0_S1024x64 : S64x1024.Transposes [1, 0] S1024x64
  inb_S512x64_S512x64_0_0 : ∀ a, (![0, 0] : Fin 2 → Nat) a + S512x64.size a ≤ S512x64.size a
  h_S512x64 : 0 < S512x64.numel
  shapeCasts_S512x64_S512x64 : S512x64.ShapeCasts S512x64
  packedbf16_S512x64_S512x64_0_0 : (Rect.unit (s := S512x64) ![0, 0] S512x64.size inb_S512x64_S512x64_0_0).PackedRows (EltTy.packing .bf16)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  transposes_S1024x64_p1_0_S64x1024 : S1024x64.Transposes [1, 0] S64x1024
  iota_S512x1024_d1_w32 : S512x1024.Iotas .tc 32 [1]
  reduces_S512x1024_S512 : S512x1024.Reduces [1] S512
  broadcasts_S512x1_S512x1024 : S512x1.Broadcasts S512x1024
  reducesTo_S4096x2_S4096_d1 : S4096x2.ReducesTo [1] S4096
  bcast_S4096_S4096x1_0 : S4096.BroadcastsInDim S4096x1 (![0] : Fin 1 → Fin S4096x1.rank)
  bcast_S4096x1_S4096x2_0_1 : S4096x1.BroadcastsInDim S4096x2 (![0, 1] : Fin 2 → Fin S4096x2.rank)
  slices_S4096x2_S4096x1_0_0 : S4096x2.Slices ![0, 0] S4096x1
  slices_S4096x2_S4096x1_0_1 : S4096x2.Slices ![0, 1] S4096x1
  bcast_S_S4096x1 : S_.BroadcastsInDim S4096x1 (![] : Fin 0 → Fin S4096x1.rank)
  reducesTo_S4096x1_S_d0_1 : S4096x1.ReducesTo [0, 1] S_
  dot_S4096x1024_S1024x2_S4096x2_1_0_0_1_n_n_wf : DotDims.WF S4096x1024 S1024x2 S4096x2 [1] [0] [0] [1] [] []
  dot_S512x1024_S1024x2048_S512x2048_1_0_0_1_n_n_wf : DotDims.WF S512x1024 S1024x2048 S512x2048 [1] [0] [0] [1] [] []
  dot_S512x1024_S1024x256_S512x256_1_0_0_1_n_n_wf : DotDims.WF S512x1024 S1024x256 S512x256 [1] [0] [0] [1] [] []
  dot_S512x256_S256x2048_S512x2048_1_0_0_1_n_n_wf : DotDims.WF S512x256 S256x2048 S512x2048 [1] [0] [0] [1] [] []
  dot_S512x1024_S1024x64_S512x64_1_0_0_1_n_n_wf : DotDims.WF S512x1024 S1024x64 S512x64 [1] [0] [0] [1] [] []
  dot_S512x64_S64x1024_S512x1024_1_0_0_1_n_n_wf : DotDims.WF S512x64 S64x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .bf16 = 32 ∨ (Rect.block (s := S4096x1024) S512x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x1024.size a ≤ S20480x1024.size a
  hwx0_1 : ∀ i : grid0.Coords, EltTy.bits .bf16 = 32 ∨ (Rect.block (s := S20480x1024) S2048x1024.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S4096x1.size a
  hwx0_2 : ∀ i : grid0.Coords, EltTy.bits .i32 = 32 ∨ (Rect.block (s := S4096x1) S512x1.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S4096x1.size a
  hwx0_3 : ∀ i : grid0.Coords, EltTy.bits .f32 = 32 ∨ (Rect.block (s := S4096x1) S512x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x1024.size a ≤ S4096x1024.size a
  hwx1_0 : ∀ i : grid1.Coords, EltTy.bits .bf16 = 32 ∨ (Rect.block (s := S4096x1024) S512x1024.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x1024.size a ≤ S256x1024.size a
  hwx1_1 : ∀ i : grid1.Coords, EltTy.bits .bf16 = 32 ∨ (Rect.block (s := S256x1024) S256x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x256.size a ≤ S20480x256.size a
  hwx1_2 : ∀ i : grid1.Coords, EltTy.bits .bf16 = 32 ∨ (Rect.block (s := S20480x256) S2048x256.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x1.size a ≤ S4096x1.size a
  hwx1_3 : ∀ i : grid1.Coords, EltTy.bits .i32 = 32 ∨ (Rect.block (s := S4096x1) S512x1.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1.size a ≤ S4096x1.size a
  hwx1_4 : ∀ i : grid1.Coords, EltTy.bits .f32 = 32 ∨ (Rect.block (s := S4096x1) S512x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x1.size a ≤ S4096x1.size a
  hwx1_5 : ∀ i : grid1.Coords, EltTy.bits .f32 = 32 ∨ (Rect.block (s := S4096x1) S512x1.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S4096x1.size a
  hwx1_6 : ∀ i : grid1.Coords, EltTy.bits .f32 = 32 ∨ (Rect.block (s := S4096x1) S512x1.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x1024.size a ≤ S4096x1024.size a
  hwx2_0 : ∀ i : grid2.Coords, EltTy.bits .bf16 = 32 ∨ (Rect.block (s := S4096x1024) S512x1024.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x1024.size a ≤ S64x1024.size a
  hwx2_1 : ∀ i : grid2.Coords, EltTy.bits .bf16 = 32 ∨ (Rect.block (s := S64x1024) S64x1024.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x64.size a ≤ S11264x64.size a
  hwx2_2 : ∀ i : grid2.Coords, EltTy.bits .bf16 = 32 ∨ (Rect.block (s := S11264x64) S1024x64.size (cc2_transform_2 i) (hinb2_2 i)).WholeWords (EltTy.packing .bf16)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S512x1.size a ≤ S4096x1.size a
  hwx2_3 : ∀ i : grid2.Coords, EltTy.bits .i32 = 32 ∨ (Rect.block (s := S4096x1) S512x1.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S512x1.size a ≤ S4096x1.size a
  hwx2_4 : ∀ i : grid2.Coords, EltTy.bits .f32 = 32 ∨ (Rect.block (s := S4096x1) S512x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S512x1.size a ≤ S4096x1.size a
  hwx2_5 : ∀ i : grid2.Coords, EltTy.bits .f32 = 32 ∨ (Rect.block (s := S4096x1) S512x1.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S512x1.size a ≤ S4096x1.size a
  hwx2_6 : ∀ i : grid2.Coords, EltTy.bits .f32 = 32 ∨ (Rect.block (s := S4096x1) S512x1.size (cc2_transform_6 i) (hinb2_6 i)).WholeWords (EltTy.packing .f32)

variable [Facts₀]

def dot_S4096x1024_S1024x2_S4096x2_1_0_0_1_n_n : DotDims S4096x1024 S1024x2 S4096x2 where
  lhsContracting := [1]
  rhsContracting := [0]
  lhsNonContracting := [0]
  rhsNonContracting := [1]
  lhsBatch := []
  rhsBatch := []
  wf := dot_S4096x1024_S1024x2_S4096x2_1_0_0_1_n_n_wf
def dot_S512x1024_S1024x2048_S512x2048_1_0_0_1_n_n : DotDims S512x1024 S1024x2048 S512x2048 where
  lhsContracting := [1]
  rhsContracting := [0]
  lhsNonContracting := [0]
  rhsNonContracting := [1]
  lhsBatch := []
  rhsBatch := []
  wf := dot_S512x1024_S1024x2048_S512x2048_1_0_0_1_n_n_wf
def dot_S512x1024_S1024x256_S512x256_1_0_0_1_n_n : DotDims S512x1024 S1024x256 S512x256 where
  lhsContracting := [1]
  rhsContracting := [0]
  lhsNonContracting := [0]
  rhsNonContracting := [1]
  lhsBatch := []
  rhsBatch := []
  wf := dot_S512x1024_S1024x256_S512x256_1_0_0_1_n_n_wf
def dot_S512x256_S256x2048_S512x2048_1_0_0_1_n_n : DotDims S512x256 S256x2048 S512x2048 where
  lhsContracting := [1]
  rhsContracting := [0]
  lhsNonContracting := [0]
  rhsNonContracting := [1]
  lhsBatch := []
  rhsBatch := []
  wf := dot_S512x256_S256x2048_S512x2048_1_0_0_1_n_n_wf
def dot_S512x1024_S1024x64_S512x64_1_0_0_1_n_n : DotDims S512x1024 S1024x64 S512x64 where
  lhsContracting := [1]
  rhsContracting := [0]
  lhsNonContracting := [0]
  rhsNonContracting := [1]
  lhsBatch := []
  rhsBatch := []
  wf := dot_S512x1024_S1024x64_S512x64_1_0_0_1_n_n_wf
def dot_S512x64_S64x1024_S512x1024_1_0_0_1_n_n : DotDims S512x64 S64x1024 S512x1024 where
  lhsContracting := [1]
  rhsContracting := [0]
  lhsNonContracting := [0]
  rhsNonContracting := [1]
  lhsBatch := []
  rhsBatch := []
  wf := dot_S512x64_S64x1024_S512x1024_1_0_0_1_n_n_wf

abbrev win0_0 : Pipeline.Window sig grid0 :=
  Pipeline.Window.ofSpec (Memref.whole main_v19) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v28) S2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v29_0) S512x1.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v29_1) S512x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v29_2) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun i => !(k0_cond2 i == 1#1) | 4 => fun i => !(k0_cond2 i == 1#1) | 5 => fun i => !(k0_cond2 i == 1#1) | ⟨_ + 6, h⟩ => absurd h (Nat.not_lt.2 (Nat.le_add_left _ _))

abbrev win1_0 : Pipeline.Window sig grid1 :=
  Pipeline.Window.ofSpec (Memref.whole main_v19) S512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S256x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v30) S2048x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v14) S512x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v31_0) S512x1.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v31_1) S512x1.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v31_2) S512x1.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev idle1 : Fin 7 → grid1.Coords → Bool := fun | 0 => fun _ => false | 1 => fun _ => false | 2 => fun _ => false | 3 => fun _ => false | 4 => fun i => !(k1_cond2 i == 1#1) | 5 => fun i => !(k1_cond2 i == 1#1) | 6 => fun i => !(k1_cond2 i == 1#1) | ⟨_ + 7, h⟩ => absurd h (Nat.not_lt.2 (Nat.le_add_left _ _))

abbrev win2_0 : Pipeline.Window sig grid2 :=
  Pipeline.Window.ofSpec (Memref.whole main_v19) S512x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v24) S64x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v32) S1024x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v18) S512x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v33_0) S512x1.size cc2_transform_4 reads2_4 true false 2 stage2_4 sem2_4
    hrank2 hreads2_4 hinb2_4 nbuf2_4 (Memref.isWhole_whole _) hwx2_4 hstage2_4

abbrev win2_5 : Pipeline.Window sig grid2 :=
  Pipeline.Window.ofSpec (Memref.whole main_v33_1) S512x1.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v33_2) S512x1.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun i => !(k2_cond2 i == 1#1) | 5 => fun i => !(k2_cond2 i == 1#1) | 6 => fun i => !(k2_cond2 i == 1#1) | ⟨_ + 7, h⟩ => absurd h (Nat.not_lt.2 (Nat.le_add_left _ _))

class Facts : Prop extends Facts₀ where

variable [Facts]
-- ==== ReferenceIdeal.lean ====
abbrev S4096x1024 : Shape := ⟨2, ![4096, 1024]⟩
abbrev S4096 : Shape := ⟨1, ![4096]⟩
abbrev S20000x1024 : Shape := ⟨2, ![20000, 1024]⟩
abbrev S2x1024 : Shape := ⟨2, ![2, 1024]⟩
abbrev S256x1024 : Shape := ⟨2, ![256, 1024]⟩
abbrev S20000x256 : Shape := ⟨2, ![20000, 256]⟩
abbrev S64x1024 : Shape := ⟨2, ![64, 1024]⟩
abbrev S10257x64 : Shape := ⟨2, ![10257, 64]⟩
abbrev S1024x20000 : Shape := ⟨2, ![1024, 20000]⟩
abbrev S4096x20000 : Shape := ⟨2, ![4096, 20000]⟩
abbrev S1024x2 : Shape := ⟨2, ![1024, 2]⟩
abbrev S4096x2 : Shape := ⟨2, ![4096, 2]⟩
abbrev S4096x20002 : Shape := ⟨2, ![4096, 20002]⟩
abbrev S_ : Shape := ⟨0, ![]⟩
abbrev S4096x1 : Shape := ⟨2, ![4096, 1]⟩
abbrev S1024x256 : Shape := ⟨2, ![1024, 256]⟩
abbrev S4096x256 : Shape := ⟨2, ![4096, 256]⟩
abbrev S256x20000 : Shape := ⟨2, ![256, 20000]⟩
abbrev S1024x64 : Shape := ⟨2, ![1024, 64]⟩
abbrev S4096x64 : Shape := ⟨2, ![4096, 64]⟩
abbrev S64x10257 : Shape := ⟨2, ![64, 10257]⟩
abbrev S4096x10257 : Shape := ⟨2, ![4096, 10257]⟩

abbrev nBuf : Space → Nat
  | .hbm => 176
  | .vmem => 0
  | .smem => 0
  | _ => 0

abbrev hbmTy0_0 (i : Nat) : BufTy := match i % 128 with
  | 0 => ⟨S4096x1024, .f32⟩
  | 1 => ⟨S4096, .i32⟩
  | 2 => ⟨S20000x1024, .f32⟩
  | 3 => ⟨S2x1024, .f32⟩
  | 4 => ⟨S256x1024, .f32⟩
  | 5 => ⟨S20000x256, .f32⟩
  | 6 => ⟨S64x1024, .f32⟩
  | 7 => ⟨S10257x64, .f32⟩
  | 8 => ⟨S4096, .i32⟩
  | 9 => ⟨S1024x20000, .f32⟩
  | 10 => ⟨S4096x20000, .f32⟩
  | 11 => ⟨S1024x2, .f32⟩
  | 12 => ⟨S4096x2, .f32⟩
  | 13 => ⟨S4096x20002, .f32⟩
  | 14 => ⟨S_, .f32⟩
  | 15 => ⟨S4096, .f32⟩
  | 16 => ⟨S_, .f32⟩
  | 17 => ⟨S4096, .f32⟩
  | 18 => ⟨S4096, .f32⟩
  | 19 => ⟨S4096x1, .f32⟩
  | 20 => ⟨S4096x20002, .f32⟩
  | 21 => ⟨S4096x20002, .f32⟩
  | 22 => ⟨S4096x20002, .f32⟩
  | 23 => ⟨S_, .f32⟩
  | 24 => ⟨S4096, .f32⟩
  | 25 => ⟨S4096x1, .f32⟩
  | 26 => ⟨S4096x1, .f32⟩
  | 27 => ⟨S4096x20002, .f32⟩
  | 28 => ⟨S4096x20002, .f32⟩
  | 29 => ⟨S_, .i32⟩
  | 30 => ⟨S4096, .i32⟩
  | 31 => ⟨S4096, .i1⟩
  | 32 => ⟨S_, .i32⟩
  | 33 => ⟨S_, .i32⟩
  | 34 => ⟨S4096, .i32⟩
  | 35 => ⟨S4096, .i32⟩
  | 36 => ⟨S_, .i32⟩
  | 37 => ⟨S4096, .i32⟩
  | 38 => ⟨S4096, .i1⟩
  | 39 => ⟨S_, .i32⟩
  | 40 => ⟨S4096, .i32⟩
  | 41 => ⟨S4096, .i32⟩
  | 42 => ⟨S4096, .i32⟩
  | 43 => ⟨S_, .i32⟩
  | 44 => ⟨S4096, .i32⟩
  | 45 => ⟨S4096, .i1⟩
  | 46 => ⟨S_, .i32⟩
  | 47 => ⟨S4096, .i32⟩
  | 48 => ⟨S4096, .i32⟩
  | 49 => ⟨S4096, .i32⟩
  | 50 => ⟨S4096x1, .i32⟩
  | 51 => ⟨S4096x1, .i32⟩
  | 52 => ⟨S4096x2, .i32⟩
  | 53 => ⟨S4096, .f32⟩
  | 54 => ⟨S_, .i32⟩
  | 55 => ⟨S4096, .i32⟩
  | 56 => ⟨S4096, .i1⟩
  | 57 => ⟨S_, .i32⟩
  | 58 => ⟨S4096, .i32⟩
  | 59 => ⟨S4096, .i1⟩
  | 60 => ⟨S4096, .i1⟩
  | 61 => ⟨S1024x256, .f32⟩
  | 62 => ⟨S4096x256, .f32⟩
  | 63 => ⟨S256x20000, .f32⟩
  | 64 => ⟨S4096x20000, .f32⟩
  | 65 => ⟨S_, .f32⟩
  | 66 => ⟨S4096, .f32⟩
  | 67 => ⟨S_, .f32⟩
  | 68 => ⟨S4096, .f32⟩
  | 69 => ⟨S4096, .f32⟩
  | 70 => ⟨S4096x1, .f32⟩
  | 71 => ⟨S4096x20000, .f32⟩
  | 72 => ⟨S4096x20000, .f32⟩
  | 73 => ⟨S4096x20000, .f32⟩
  | 74 => ⟨S_, .f32⟩
  | 75 => ⟨S4096, .f32⟩
  | 76 => ⟨S4096x1, .f32⟩
  | 77 => ⟨S4096x1, .f32⟩
  | 78 => ⟨S4096x20000, .f32⟩
  | 79 => ⟨S4096x20000, .f32⟩
  | 80 => ⟨S4096x1, .f32⟩
  | 81 => ⟨S4096, .f32⟩
  | 82 => ⟨S_, .i32⟩
  | 83 => ⟨S4096, .i32⟩
  | 84 => ⟨S4096, .i32⟩
  | 85 => ⟨S_, .i32⟩
  | 86 => ⟨S_, .i32⟩
  | 87 => ⟨S4096, .i32⟩
  | 88 => ⟨S4096, .i32⟩
  | 89 => ⟨S_, .i32⟩
  | 90 => ⟨S4096, .i32⟩
  | 91 => ⟨S4096, .i1⟩
  | 92 => ⟨S_, .i32⟩
  | 93 => ⟨S4096, .i32⟩
  | 94 => ⟨S4096, .i32⟩
  | 95 => ⟨S4096, .i32⟩
  | 96 => ⟨S_, .i32⟩
  | 97 => ⟨S4096, .i32⟩
  | 98 => ⟨S4096, .i1⟩
  | 99 => ⟨S_, .i32⟩
  | 100 => ⟨S4096, .i32⟩
  | 101 => ⟨S4096, .i32⟩
  | 102 => ⟨S4096, .i32⟩
  | 103 => ⟨S4096x1, .i32⟩
  | 104 => ⟨S4096x1, .i32⟩
  | 105 => ⟨S4096x2, .i32⟩
  | 106 => ⟨S4096, .f32⟩
  | 107 => ⟨S4096, .f32⟩
  | 108 => ⟨S_, .i32⟩
  | 109 => ⟨S4096, .i32⟩
  | 110 => ⟨S4096, .i1⟩
  | 111 => ⟨S1024x64, .f32⟩
  | 112 => ⟨S4096x64, .f32⟩
  | 113 => ⟨S64x10257, .f32⟩
  | 114 => ⟨S4096x10257, .f32⟩
  | 115 => ⟨S_, .f32⟩
  | 116 => ⟨S4096, .f32⟩
  | 117 => ⟨S_, .f32⟩
  | 118 => ⟨S4096, .f32⟩
  | 119 => ⟨S4096, .f32⟩
  | 120 => ⟨S4096x1, .f32⟩
  | 121 => ⟨S4096x10257, .f32⟩
  | 122 => ⟨S4096x10257, .f32⟩
  | 123 => ⟨S4096x10257, .f32⟩
  | 124 => ⟨S_, .f32⟩
  | 125 => ⟨S4096, .f32⟩
  | 126 => ⟨S4096x1, .f32⟩
  | 127 => ⟨S4096x1, .f32⟩
  | _ => ⟨S4096x1024, .f32⟩

abbrev hbmTy0_1 (i : Nat) : BufTy := match i % 128 with
  | 0 => ⟨S4096x10257, .f32⟩
  | 1 => ⟨S4096x10257, .f32⟩
  | 2 => ⟨S4096x1, .f32⟩
  | 3 => ⟨S4096, .f32⟩
  | 4 => ⟨S_, .i32⟩
  | 5 => ⟨S4096, .i32⟩
  | 6 => ⟨S4096, .i32⟩
  | 7 => ⟨S_, .i32⟩
  | 8 => ⟨S_, .i32⟩
  | 9 => ⟨S4096, .i32⟩
  | 10 => ⟨S4096, .i32⟩
  | 11 => ⟨S_, .i32⟩
  | 12 => ⟨S4096, .i32⟩
  | 13 => ⟨S4096, .i1⟩
  | 14 => ⟨S_, .i32⟩
  | 15 => ⟨S4096, .i32⟩
  | 16 => ⟨S4096, .i32⟩
  | 17 => ⟨S4096, .i32⟩
  | 18 => ⟨S_, .i32⟩
  | 19 => ⟨S4096, .i32⟩
  | 20 => ⟨S4096, .i1⟩
  | 21 => ⟨S_, .i32⟩
  | 22 => ⟨S4096, .i32⟩
  | 23 => ⟨S4096, .i32⟩
  | 24 => ⟨S4096, .i32⟩
  | 25 => ⟨S4096x1, .i32⟩
  | 26 => ⟨S4096x1, .i32⟩
  | 27 => ⟨S4096x2, .i32⟩
  | 28 => ⟨S4096, .f32⟩
  | 29 => ⟨S4096, .f32⟩
  | 30 => ⟨S_, .f32⟩
  | 31 => ⟨S4096, .f32⟩
  | 32 => ⟨S4096, .f32⟩
  | 33 => ⟨S_, .f32⟩
  | 34 => ⟨S_, .f32⟩
  | 35 => ⟨S_, .f32⟩
  | 36 => ⟨S4096, .f32⟩
  | 37 => ⟨S4096, .f32⟩
  | 38 => ⟨S_, .f32⟩
  | 39 => ⟨S_, .f32⟩
  | 40 => ⟨S_, .f32⟩
  | 41 => ⟨S_, .f32⟩
  | 42 => ⟨S4096, .f32⟩
  | 43 => ⟨S4096, .f32⟩
  | 44 => ⟨S_, .f32⟩
  | 45 => ⟨S_, .f32⟩
  | 46 => ⟨S_, .f32⟩
  | 47 => ⟨S_, .f32⟩
  | _ => ⟨S4096x1024, .f32⟩

abbrev hbmTy (i : Nat) : BufTy := match i / 128 with
  | 0 => hbmTy0_0 i
  | 1 => hbmTy0_1 i
  | _ => ⟨S4096x1024, .f32⟩

abbrev bufTy : (tb : Table) → Fin (tcTables nBuf tb) → BufTy
  | .hbm, ⟨i, _⟩ => hbmTy i
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_call0_cst : Ref sig .tc := ⟨.hbm, 14, rfl⟩
abbrev main_call0_v0 : Ref sig .tc := ⟨.hbm, 15, rfl⟩
abbrev main_call0_cst_0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_cst_1 : Ref sig .tc := ⟨.hbm, 23, rfl⟩
abbrev main_call0_v7 : Ref sig .tc := ⟨.hbm, 24, rfl⟩
abbrev main_call0_v8 : Ref sig .tc := ⟨.hbm, 25, rfl⟩
abbrev main_call0_v9 : Ref sig .tc := ⟨.hbm, 26, rfl⟩
abbrev main_call0_v10 : Ref sig .tc := ⟨.hbm, 27, rfl⟩
abbrev main_v6 : Ref sig .tc := ⟨.hbm, 28, rfl⟩
abbrev main_c : Ref sig .tc := ⟨.hbm, 29, rfl⟩
abbrev main_v7 : Ref sig .tc := ⟨.hbm, 30, rfl⟩
abbrev main_v8 : Ref sig .tc := ⟨.hbm, 31, rfl⟩
abbrev main_c_0 : Ref sig .tc := ⟨.hbm, 32, rfl⟩
abbrev main_call1_v0 : Ref sig .tc := ⟨.hbm, 33, rfl⟩
abbrev main_call1_v1 : Ref sig .tc := ⟨.hbm, 34, rfl⟩
abbrev main_v9 : Ref sig .tc := ⟨.hbm, 35, rfl⟩
abbrev main_c_1 : Ref sig .tc := ⟨.hbm, 36, rfl⟩
abbrev main_v10 : Ref sig .tc := ⟨.hbm, 37, rfl⟩
abbrev main_v11 : Ref sig .tc := ⟨.hbm, 38, rfl⟩
abbrev main_c_2 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_c_3 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_5 : Ref sig .tc := ⟨.hbm, 54, rfl⟩
abbrev main_v24 : Ref sig .tc := ⟨.hbm, 55, rfl⟩
abbrev main_v25 : Ref sig .tc := ⟨.hbm, 56, rfl⟩
abbrev main_c_6 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_call2_cst : Ref sig .tc := ⟨.hbm, 65, rfl⟩
abbrev main_call2_v0 : Ref sig .tc := ⟨.hbm, 66, rfl⟩
abbrev main_call2_cst_0 : Ref sig .tc := ⟨.hbm, 67, rfl⟩
abbrev main_call2_v1 : Ref sig .tc := ⟨.hbm, 68, rfl⟩
abbrev main_call2_v2 : Ref sig .tc := ⟨.hbm, 69, rfl⟩
abbrev main_call2_v3 : Ref sig .tc := ⟨.hbm, 70, rfl⟩
abbrev main_call2_v4 : Ref sig .tc := ⟨.hbm, 71, rfl⟩
abbrev main_call2_v5 : Ref sig .tc := ⟨.hbm, 72, rfl⟩
abbrev main_call2_v6 : Ref sig .tc := ⟨.hbm, 73, rfl⟩
abbrev main_call2_cst_1 : Ref sig .tc := ⟨.hbm, 74, rfl⟩
abbrev main_call2_v7 : Ref sig .tc := ⟨.hbm, 75, rfl⟩
abbrev main_call2_v8 : Ref sig .tc := ⟨.hbm, 76, rfl⟩
abbrev main_call2_v9 : Ref sig .tc := ⟨.hbm, 77, rfl⟩
abbrev main_call2_v10 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_c_7 : Ref sig .tc := ⟨.hbm, 82, rfl⟩
abbrev main_v36 : Ref sig .tc := ⟨.hbm, 83, rfl⟩
abbrev main_v37 : Ref sig .tc := ⟨.hbm, 84, rfl⟩
abbrev main_c_8 : Ref sig .tc := ⟨.hbm, 85, rfl⟩
abbrev main_call3_v0 : Ref sig .tc := ⟨.hbm, 86, rfl⟩
abbrev main_call3_v1 : Ref sig .tc := ⟨.hbm, 87, rfl⟩
abbrev main_v38 : Ref sig .tc := ⟨.hbm, 88, rfl⟩
abbrev main_c_9 : Ref sig .tc := ⟨.hbm, 89, rfl⟩
abbrev main_v39 : Ref sig .tc := ⟨.hbm, 90, rfl⟩
abbrev main_v40 : Ref sig .tc := ⟨.hbm, 91, rfl⟩
abbrev main_c_10 : Ref sig .tc := ⟨.hbm, 92, rfl⟩
abbrev main_v41 : Ref sig .tc := ⟨.hbm, 93, rfl⟩
abbrev main_v42 : Ref sig .tc := ⟨.hbm, 94, rfl⟩
abbrev main_v43 : Ref sig .tc := ⟨.hbm, 95, rfl⟩
abbrev main_c_11 : Ref sig .tc := ⟨.hbm, 96, rfl⟩
abbrev main_v44 : Ref sig .tc := ⟨.hbm, 97, rfl⟩
abbrev main_v45 : Ref sig .tc := ⟨.hbm, 98, rfl⟩
abbrev main_c_12 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_c_13 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_v57 : Ref sig .tc := ⟨.hbm, 112, rfl⟩
abbrev main_v58 : Ref sig .tc := ⟨.hbm, 113, rfl⟩
abbrev main_v59 : Ref sig .tc := ⟨.hbm, 114, rfl⟩
abbrev main_call4_cst : Ref sig .tc := ⟨.hbm, 115, rfl⟩
abbrev main_call4_v0 : Ref sig .tc := ⟨.hbm, 116, rfl⟩
abbrev main_call4_cst_0 : Ref sig .tc := ⟨.hbm, 117, rfl⟩
abbrev main_call4_v1 : Ref sig .tc := ⟨.hbm, 118, rfl⟩
abbrev main_call4_v2 : Ref sig .tc := ⟨.hbm, 119, rfl⟩
abbrev main_call4_v3 : Ref sig .tc := ⟨.hbm, 120, rfl⟩
abbrev main_call4_v4 : Ref sig .tc := ⟨.hbm, 121, rfl⟩
abbrev main_call4_v5 : Ref sig .tc := ⟨.hbm, 122, rfl⟩
abbrev main_call4_v6 : Ref sig .tc := ⟨.hbm, 123, rfl⟩
abbrev main_call4_cst_1 : Ref sig .tc := ⟨.hbm, 124, rfl⟩
abbrev main_call4_v7 : Ref sig .tc := ⟨.hbm, 125, rfl⟩
abbrev main_call4_v8 : Ref sig .tc := ⟨.hbm, 126, rfl⟩
abbrev main_call4_v9 : Ref sig .tc := ⟨.hbm, 127, rfl⟩
abbrev main_call4_v10 : Ref sig .tc := ⟨.hbm, 128, rfl⟩
abbrev main_v60 : Ref sig .tc := ⟨.hbm, 129, rfl⟩
abbrev main_v61 : Ref sig .tc := ⟨.hbm, 130, rfl⟩
abbrev main_v62 : Ref sig .tc := ⟨.hbm, 131, rfl⟩
abbrev main_c_14 : Ref sig .tc := ⟨.hbm, 132, rfl⟩
abbrev main_v63 : Ref sig .tc := ⟨.hbm, 133, rfl⟩
abbrev main_v64 : Ref sig .tc := ⟨.hbm, 134, rfl⟩
abbrev main_c_15 : Ref sig .tc := ⟨.hbm, 135, rfl⟩
abbrev main_call5_v0 : Ref sig .tc := ⟨.hbm, 136, rfl⟩
abbrev main_call5_v1 : Ref sig .tc := ⟨.hbm, 137, rfl⟩
abbrev main_v65 : Ref sig .tc := ⟨.hbm, 138, rfl⟩
abbrev main_c_16 : Ref sig .tc := ⟨.hbm, 139, rfl⟩
abbrev main_v66 : Ref sig .tc := ⟨.hbm, 140, rfl⟩
abbrev main_v67 : Ref sig .tc := ⟨.hbm, 141, rfl⟩
abbrev main_c_17 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_c_18 : Ref sig .tc := ⟨.hbm, 146, rfl⟩
abbrev main_v71 : Ref sig .tc := ⟨.hbm, 147, rfl⟩
abbrev main_v72 : Ref sig .tc := ⟨.hbm, 148, rfl⟩
abbrev main_c_19 : Ref sig .tc := ⟨.hbm, 149, rfl⟩
abbrev main_v73 : Ref sig .tc := ⟨.hbm, 150, rfl⟩
abbrev main_v74 : Ref sig .tc := ⟨.hbm, 151, rfl⟩
abbrev main_v75 : Ref sig .tc := ⟨.hbm, 152, rfl⟩
abbrev main_v76 : Ref sig .tc := ⟨.hbm, 153, rfl⟩
abbrev main_v77 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_cst : Ref sig .tc := ⟨.hbm, 158, rfl⟩
abbrev main_call6_v0 : Ref sig .tc := ⟨.hbm, 159, rfl⟩
abbrev main_v81 : Ref sig .tc := ⟨.hbm, 160, rfl⟩
abbrev main_cst_20 : Ref sig .tc := ⟨.hbm, 161, rfl⟩
abbrev main_v82 : Ref sig .tc := ⟨.hbm, 162, rfl⟩
abbrev main_cst_21 : Ref sig .tc := ⟨.hbm, 163, rfl⟩
abbrev main_call7_v0 : Ref sig .tc := ⟨.hbm, 164, rfl⟩
abbrev main_v83 : Ref sig .tc := ⟨.hbm, 165, rfl⟩
abbrev main_cst_22 : Ref sig .tc := ⟨.hbm, 166, rfl⟩
abbrev main_v84 : Ref sig .tc := ⟨.hbm, 167, rfl⟩
abbrev main_v85 : Ref sig .tc := ⟨.hbm, 168, rfl⟩
abbrev main_cst_23 : Ref sig .tc := ⟨.hbm, 169, rfl⟩
abbrev main_call8_v0 : Ref sig .tc := ⟨.hbm, 170, rfl⟩
abbrev main_v86 : Ref sig .tc := ⟨.hbm, 171, rfl⟩
abbrev main_cst_24 : Ref sig .tc := ⟨.hbm, 172, rfl⟩
abbrev main_v87 : Ref sig .tc := ⟨.hbm, 173, rfl⟩
abbrev main_v88 : Ref sig .tc := ⟨.hbm, 174, rfl⟩
abbrev main_v89 : Ref sig .tc := ⟨.hbm, 175, rfl⟩

abbrev nD : Nat := 1
abbrev τ : Topo := Topo.v7x

variable {F : FTy → Type} [FloatOps F]

class Facts₀ : Prop where
  transposes_S20000x1024_S1024x20000_1_0 : S20000x1024.Transposes [1, 0] S1024x20000
  transposes_S2x1024_S1024x2_1_0 : S2x1024.Transposes [1, 0] S1024x2
  concatenates_S4096x20000_S4096x2_S4096x20002_d1 : Shape.Concatenates [S4096x20000, S4096x2] S4096x20002 1
  reducesTo_S4096x20002_S4096_d1 : S4096x20002.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x20002_0_1 : S4096x1.BroadcastsInDim S4096x20002 (![0, 1] : Fin 2 → Fin S4096x20002.rank)
  concatenates_S4096x1_S4096x1_S4096x2_d1 : Shape.Concatenates [S4096x1, S4096x1] S4096x2 1
  transposes_S256x1024_S1024x256_1_0 : S256x1024.Transposes [1, 0] S1024x256
  transposes_S20000x256_S256x20000_1_0 : S20000x256.Transposes [1, 0] S256x20000
  reducesTo_S4096x20000_S4096_d1 : S4096x20000.ReducesTo [1] S4096
  bcast_S4096x1_S4096x20000_0_1 : S4096x1.BroadcastsInDim S4096x20000 (![0, 1] : Fin 2 → Fin S4096x20000.rank)
  slices_S4096x20002_S4096x1_0_20000 : S4096x20002.Slices ![0, 20000] S4096x1
  shapeCasts_S4096x1_S4096 : S4096x1.ShapeCasts S4096
  transposes_S64x1024_S1024x64_1_0 : S64x1024.Transposes [1, 0] S1024x64
  transposes_S10257x64_S64x10257_1_0 : S10257x64.Transposes [1, 0] S64x10257
  reducesTo_S4096x10257_S4096_d1 : S4096x10257.ReducesTo [1] S4096
  bcast_S4096x1_S4096x10257_0_1 : S4096x1.BroadcastsInDim S4096x10257 (![0, 1] : Fin 2 → Fin S4096x10257.rank)
  slices_S4096x20002_S4096x1_0_20001 : S4096x20002.Slices ![0, 20001] S4096x1
  reducesTo_S4096_S_d0 : S4096.ReducesTo [0] S_
  dot_S4096x1024_S1024x20000_S4096x20000_1_0_0_1_n_n_wf : DotDims.WF S4096x1024 S1024x20000 S4096x20000 [1] [0] [0] [1] [] []
  dot_S4096x1024_S1024x2_S4096x2_1_0_0_1_n_n_wf : DotDims.WF S4096x1024 S1024x2 S4096x2 [1] [0] [0] [1] [] []
  gather_S4096x20002_S4096x2_S4096_n_01_n_n_01_1_11_wf : GatherDims.WF S4096x20002 S4096x2 S4096 [] [0, 1] [] [0, 1] [] 1 ![1, 1]
  dot_S4096x1024_S1024x256_S4096x256_1_0_0_1_n_n_wf : DotDims.WF S4096x1024 S1024x256 S4096x256 [1] [0] [0] [1] [] []
  dot_S4096x256_S256x20000_S4096x20000_1_0_0_1_n_n_wf : DotDims.WF S4096x256 S256x20000 S4096x20000 [1] [0] [0] [1] [] []
  gather_S4096x20000_S4096x2_S4096_n_01_n_n_01_1_11_wf : GatherDims.WF S4096x20000 S4096x2 S4096 [] [0, 1] [] [0, 1] [] 1 ![1, 1]
  dot_S4096x1024_S1024x64_S4096x64_1_0_0_1_n_n_wf : DotDims.WF S4096x1024 S1024x64 S4096x64 [1] [0] [0] [1] [] []
  dot_S4096x64_S64x10257_S4096x10257_1_0_0_1_n_n_wf : DotDims.WF S4096x64 S64x10257 S4096x10257 [1] [0] [0] [1] [] []
  gather_S4096x10257_S4096x2_S4096_n_01_n_n_01_1_11_wf : GatherDims.WF S4096x10257 S4096x2 S4096 [] [0, 1] [] [0, 1] [] 1 ![1, 1]

variable [Facts₀]

def dot_S4096x1024_S1024x20000_S4096x20000_1_0_0_1_n_n : DotDims S4096x1024 S1024x20000 S4096x20000 where
  lhsContracting := [1]
  rhsContracting := [0]
  lhsNonContracting := [0]
  rhsNonContracting := [1]
  lhsBatch := []
  rhsBatch := []
  wf := dot_S4096x1024_S1024x20000_S4096x20000_1_0_0_1_n_n_wf
def dot_S4096x1024_S1024x2_S4096x2_1_0_0_1_n_n : DotDims S4096x1024 S1024x2 S4096x2 where
  lhsContracting := [1]
  rhsContracting := [0]
  lhsNonContracting := [0]
  rhsNonContracting := [1]
  lhsBatch := []
  rhsBatch := []
  wf := dot_S4096x1024_S1024x2_S4096x2_1_0_0_1_n_n_wf
def gather_S4096x20002_S4096x2_S4096_n_01_n_n_01_1_11 : GatherDims S4096x20002 S4096x2 S4096 where
  offsetDims := []
  collapsedSliceDims := [0, 1]
  operandBatchingDims := []
  startIndicesBatchingDims := []
  startIndexMap := [0, 1]
  indexVectorDim := 1
  sliceSizes := ![1, 1]
  wf := gather_S4096x20002_S4096x2_S4096_n_01_n_n_01_1_11_wf
def dot_S4096x1024_S1024x256_S4096x256_1_0_0_1_n_n : DotDims S4096x1024 S1024x256 S4096x256 where
  lhsContracting := [1]
  rhsContracting := [0]
  lhsNonContracting := [0]
  rhsNonContracting := [1]
  lhsBatch := []
  rhsBatch := []
  wf := dot_S4096x1024_S1024x256_S4096x256_1_0_0_1_n_n_wf
def dot_S4096x256_S256x20000_S4096x20000_1_0_0_1_n_n : DotDims S4096x256 S256x20000 S4096x20000 where
  lhsContracting := [1]
  rhsContracting := [0]
  lhsNonContracting := [0]
  rhsNonContracting := [1]
  lhsBatch := []
  rhsBatch := []
  wf := dot_S4096x256_S256x20000_S4096x20000_1_0_0_1_n_n_wf
def gather_S4096x20000_S4096x2_S4096_n_01_n_n_01_1_11 : GatherDims S4096x20000 S4096x2 S4096 where
  offsetDims := []
  collapsedSliceDims := [0, 1]
  operandBatchingDims := []
  startIndicesBatchingDims := []
  startIndexMap := [0, 1]
  indexVectorDim := 1
  sliceSizes := ![1, 1]
  wf := gather_S4096x20000_S4096x2_S4096_n_01_n_n_01_1_11_wf
def dot_S4096x1024_S1024x64_S4096x64_1_0_0_1_n_n : DotDims S4096x1024 S1024x64 S4096x64 where
  lhsContracting := [1]
  rhsContracting := [0]
  lhsNonContracting := [0]
  rhsNonContracting := [1]
  lhsBatch := []
  rhsBatch := []
  wf := dot_S4096x1024_S1024x64_S4096x64_1_0_0_1_n_n_wf
def dot_S4096x64_S64x10257_S4096x10257_1_0_0_1_n_n : DotDims S4096x64 S64x10257 S4096x10257 where
  lhsContracting := [1]
  rhsContracting := [0]
  lhsNonContracting := [0]
  rhsNonContracting := [1]
  lhsBatch := []
  rhsBatch := []
  wf := dot_S4096x64_S64x10257_S4096x10257_1_0_0_1_n_n_wf
def gather_S4096x10257_S4096x2_S4096_n_01_n_n_01_1_11 : GatherDims S4096x10257 S4096x2 S4096 where
  offsetDims := []
  collapsedSliceDims := [0, 1]
  operandBatchingDims := []
  startIndicesBatchingDims := []
  startIndexMap := [0, 1]
  indexVectorDim := 1
  sliceSizes := ![1, 1]
  wf := gather_S4096x10257_S4096x2_S4096_n_01_n_n_01_1_11_wf

class Facts : Prop extends Facts₀ where

variable [Facts]
-- ==== Proof.Ref.Ops0.lean ====
import proofs.«402100_j83614423319285_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops0 : List (HloOp τ sig (Elt F)) :=
  [ nullary main_v0 (iotaInDim S4096 32 0),
    unary main_arg2 main_v1 ((transpose S1024x20000 [1, 0] · transposes_S20000x1024_S1024x20000_1_0) : (⟨S20000x1024, .f32⟩ : BufTy).Contents (Elt F) → (⟨S1024x20000, .f32⟩ : BufTy).Contents (Elt F)),
    binary main_arg0 main_v1 main_v2 ((fun l r => Host.dotGeneral dot_S4096x1024_S1024x20000_S4096x20000_1_0_0_1_n_n none l r) : (⟨S4096x1024, .f32⟩ : BufTy).Contents (Elt F) → (⟨S1024x20000, .f32⟩ : BufTy).Contents (Elt F) → (⟨S4096x20000, .f32⟩ : BufTy).Contents (Elt F)),
    unary main_arg3 main_v3 ((transpose S1024x2 [1, 0] · transposes_S2x1024_S1024x2_1_0) : (⟨S2x1024, .f32⟩ : BufTy).Contents (Elt F) → (⟨S1024x2, .f32⟩ : BufTy).Contents (Elt F)),
    binary main_arg0 main_v3 main_v4 ((fun l r => Host.dotGeneral dot_S4096x1024_S1024x2_S4096x2_1_0_0_1_n_n none l r) : (⟨S4096x1024, .f32⟩ : BufTy).Contents (Elt F) → (⟨S1024x2, .f32⟩ : BufTy).Contents (Elt F) → (⟨S4096x2, .f32⟩ : BufTy).Contents (Elt F)) ]

set_option maxRecDepth 8192 in

theorem ops0_sub : (ops0 : List (HloOp τ sig (Elt F))).Forall fun op => op.bufs ⊆ tcRefs τ sig :=
  ⟨nullary_bufs_sub .., unary_bufs_sub .., binary_bufs_sub .., unary_bufs_sub .., binary_bufs_sub ..⟩

set_option maxRecDepth 8192 in

theorem ops0_fresh : (ops0 : List (HloOp τ sig (Elt F))).Forall fun op => op.fresh = ∅ := by
  simp only [List.Forall]; repeat' constructor

end Cert.ReferenceIdeal.HandRun

end
-- ==== Proof.Ref.Typed.lean ====
import Idealize.ShloMosaic.Lib.StableHlo

noncomputable section

namespace Cert.ReferenceIdeal.HandRun

open Idealize.ShloMosaic Idealize.ShloMosaic.StableHlo

variable {τ : Topo} {sig : RefSig} {Val : EltTy → Type}

theorem nullary_of (y : Ref sig .tc) (hyd : y.space ≠ .host) (hys : y.isScoped = false) (v : y.ty.Contents Val) :
    (TRef.nullary (TRef.of (T := y.ty) y rfl hyd hys) v : HloOp τ sig Val)
      = nullary y v (TRef.of (T := y.ty) y rfl hyd hys).dev := rfl

theorem unary_of (x y : Ref sig .tc) (hxd : x.space ≠ .host) (hxs : x.isScoped = false)
    (hyd : y.space ≠ .host) (hys : y.isScoped = false) (f : x.ty.Contents Val → y.ty.Contents Val) :
    (TRef.unary (TRef.of (T := x.ty) x rfl hxd hxs) (TRef.of (T := y.ty) y rfl hyd hys) f : HloOp τ sig Val)
      = unary x y f (TRef.of (T := x.ty) x rfl hxd hxs).dev (TRef.of (T := y.ty) y rfl hyd hys).dev := rfl

theorem binary_of (a b y : Ref sig .tc) (had : a.space ≠ .host) (has : a.isScoped = false)
    (hbd : b.space ≠ .host) (hbs : b.isScoped = false) (hyd : y.space ≠ .host) (hys : y.isScoped = false)
    (f : a.ty.Contents Val → b.ty.Contents Val → y.ty.Contents Val) :
    (TRef.binary (TRef.of (T := a.ty) a rfl had has) (TRef.of (T := b.ty) b rfl hbd hbs) (TRef.of (T := y.ty) y rfl hyd hys) f
        : HloOp τ sig Val)
      = binary a b y f (TRef.of (T := a.ty) a rfl had has).dev (TRef.of (T := b.ty) b rfl hbd hbs).dev
          (TRef.of (T := y.ty) y rfl hyd hys).dev := rfl

theorem ternary_of (c a b y : Ref sig .tc) (hcd : c.space ≠ .host) (hcs : c.isScoped = false)
    (had : a.space ≠ .host) (has : a.isScoped = false) (hbd : b.space ≠ .host) (hbs : b.isScoped = false)
    (hyd : y.space ≠ .host) (hys : y.isScoped = false)
    (f : c.ty.Contents Val → a.ty.Contents Val → b.ty.Contents Val → y.ty.Contents Val) :
    (TRef.ternary (TRef.of (T := c.ty) c rfl hcd hcs) (TRef.of (T := a.ty) a rfl had has) (TRef.of (T := b.ty) b rfl hbd hbs)
        (TRef.of (T := y.ty) y rfl hyd hys) f : HloOp τ sig Val)
      = ternary c a b y f (TRef.of (T := c.ty) c rfl hcd hcs).dev (TRef.of (T := a.ty) a rfl had has).dev
          (TRef.of (T := b.ty) b rfl hbd hbs).dev (TRef.of (T := y.ty) y rfl hyd hys).dev := rfl

end Cert.ReferenceIdeal.HandRun

end
-- ==== Proof.Ref.Stage0.lean ====
import proofs.«402100_j83614423319285_2_alg».proof.Proof.Ref.Ops0
import proofs.«402100_j83614423319285_2_alg».proof.Proof.Ref.ReadP
import proofs.«402100_j83614423319285_2_alg».proof.Proof.Ref.Typed
import Idealize.ShloMosaic.Lib.Pipeline.Frame

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

variable (V : Valuation τ sig (Elt F)) (x0 : (⟨S4096x1024, .f32⟩ : BufTy).Contents (Elt F)) (x1 : (⟨S4096, .i32⟩ : BufTy).Contents (Elt F)) (x2 : (⟨S20000x1024, .f32⟩ : BufTy).Contents (Elt F)) (x3 : (⟨S2x1024, .f32⟩ : BufTy).Contents (Elt F)) (x4 : (⟨S256x1024, .f32⟩ : BufTy).Contents (Elt F)) (x5 : (⟨S20000x256, .f32⟩ : BufTy).Contents (Elt F)) (x6 : (⟨S64x1024, .f32⟩ : BufTy).Contents (Elt F)) (x7 : (⟨S10257x64, .f32⟩ : BufTy).Contents (Elt F))

abbrev ops0_0 : List (HloOp τ sig (Elt F)) :=
  [ nullary main_v0 (iotaInDim S4096 32 0),
    unary main_arg2 main_v1 ((transpose S1024x20000 [1, 0] · transposes_S20000x1024_S1024x20000_1_0) : (⟨S20000x1024, .f32⟩ : BufTy).Contents (Elt F) → (⟨S1024x20000, .f32⟩ : BufTy).Contents (Elt F)),
    binary main_arg0 main_v1 main_v2 ((fun l r => Host.dotGeneral dot_S4096x1024_S1024x20000_S4096x20000_1_0_0_1_n_n none l r) : (⟨S4096x1024, .f32⟩ : BufTy).Contents (Elt F) → (⟨S1024x20000, .f32⟩ : BufTy).Contents (Elt F) → (⟨S4096x20000, .f32⟩ : BufTy).Contents (Elt F)),
    unary main_arg3 main_v3 ((transpose S1024x2 [1, 0] · transposes_S2x1024_S1024x2_1_0) : (⟨S2x1024, .f32⟩ : BufTy).Contents (Elt F) → (⟨S1024x2, .f32⟩ : BufTy).Contents (Elt F)),
    binary main_arg0 main_v3 main_v4 ((fun l r => Host.dotGeneral dot_S4096x1024_S1024x2_S4096x2_1_0_0_1_n_n none l r) : (⟨S4096x1024, .f32⟩ : BufTy).Contents (Elt F) → (⟨S1024x2, .f32⟩ : BufTy).Contents (Elt F) → (⟨S4096x2, .f32⟩ : BufTy).Contents (Elt F)) ]

theorem k0_0_arg0 : after ops0_0 V main_arg0 = V main_arg0 := by
  after_results_simp
theorem k0_0_arg1 : after ops0_0 V main_arg1 = V main_arg1 := by
  after_results_simp
theorem k0_0_arg4 : after ops0_0 V main_arg4 = V main_arg4 := by
  after_results_simp
theorem k0_0_arg5 : after ops0_0 V main_arg5 = V main_arg5 := by
  after_results_simp
theorem k0_0_arg6 : after ops0_0 V main_arg6 = V main_arg6 := by
  after_results_simp
theorem k0_0_arg7 : after ops0_0 V main_arg7 = V main_arg7 := by
  after_results_simp

section
include x0 x1 x2 x3 x4 x5 x6 x7
theorem o0_0_v0
     :
    after ops0_0 V main_v0 = val_main_v0 (F := F) := by
  after_results_simp
  all_goals rfl

theorem o0_0_v2
    (a0 : V main_arg0 = x0) (a2 : V main_arg2 = x2) :
    after ops0_0 V main_v2 = val_main_v2 (F := F) x0 x2 := by
  after_results_simp
  all_goals (try rw [a0, a2])
  all_goals rfl

theorem o0_0_v4
    (a0 : V main_arg0 = x0) (a3 : V main_arg3 = x3) :
    after ops0_0 V main_v4 = val_main_v4 (F := F) x0 x3 := by
  after_results_simp
  all_goals (try rw [a0, a3])
  all_goals rfl
end

set_option maxRecDepth 100000 in

theorem ops0_steps : (ops0 : List (HloOp τ sig (Elt F))) = ops0_0 := rfl

theorem after0_split :
    after ops0 V = after ops0_0 (V) := by
  rw [ops0_steps]

end Cert.ReferenceIdeal.HandRun

end
-- ==== Proof.Ref.Ops1.lean ====
import proofs.«402100_j83614423319285_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops1 : List (HloOp τ sig (Elt F)) :=
  [ binary main_v2 main_v4 main_v5 ((fun a b => concatenate S4096x20002 1 [⟨S4096x20000, a⟩, ⟨S4096x2, b⟩] concatenates_S4096x20000_S4096x2_S4096x20002_d1) : (⟨S4096x20000, .f32⟩ : BufTy).Contents (Elt F) → (⟨S4096x2, .f32⟩ : BufTy).Contents (Elt F) → (⟨S4096x20002, .f32⟩ : BufTy).Contents (Elt F)),
    TRef.nullary (TRef.of (T := ⟨S_, .f32⟩) main_call0_cst) (constant S_ .f32 0xFF800000#32),
    TRef.binary (TRef.of (T := ⟨S4096x20002, .f32⟩) main_v5) (TRef.of (T := ⟨S_, .f32⟩) main_call0_cst) (TRef.of (T := ⟨S4096, .f32⟩) main_call0_v0) (fun x v => Host.reduce FloatOps.maximumf x v reducesTo_S4096x20002_S4096_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S4096, .f32⟩) main_call0_v1) (broadcastInDim S4096 ![] bcast_S_S4096),
    TRef.binary (TRef.of (T := ⟨S4096, .f32⟩) main_call0_v1) (TRef.of (T := ⟨S4096, .f32⟩) main_call0_v0) (TRef.of (T := ⟨S4096, .f32⟩) main_call0_v2) maximumf,
    TRef.unary (TRef.of (T := ⟨S4096, .f32⟩) main_call0_v2) (TRef.of (T := ⟨S4096x1, .f32⟩) main_call0_v3) (broadcastInDim S4096x1 ![0] bcast_S4096_S4096x1_0),
    TRef.unary (TRef.of (T := ⟨S4096x1, .f32⟩) main_call0_v3) (TRef.of (T := ⟨S4096x20002, .f32⟩) main_call0_v4) (broadcastInDim S4096x20002 ![0, 1] bcast_S4096x1_S4096x20002_0_1),
    TRef.binary (TRef.of (T := ⟨S4096x20002, .f32⟩) main_v5) (TRef.of (T := ⟨S4096x20002, .f32⟩) main_call0_v4) (TRef.of (T := ⟨S4096x20002, .f32⟩) main_call0_v5) subf,
    TRef.unary (TRef.of (T := ⟨S4096x20002, .f32⟩) main_call0_v5) (TRef.of (T := ⟨S4096x20002, .f32⟩) main_call0_v6) Host.exp,
    TRef.nullary (TRef.of (T := ⟨S_, .f32⟩) main_call0_cst_1) (constant S_ .f32 0x00000000#32),
    TRef.binary (TRef.of (T := ⟨S4096x20002, .f32⟩) main_call0_v6) (TRef.of (T := ⟨S_, .f32⟩) main_call0_cst_1) (TRef.of (T := ⟨S4096, .f32⟩) main_call0_v7) (fun x v => Host.reduceAdd x v reducesTo_S4096x20002_S4096_d1 h_S_),
    TRef.unary (TRef.of (T := ⟨S4096, .f32⟩) main_call0_v7) (TRef.of (T := ⟨S4096x1, .f32⟩) main_call0_v8) (broadcastInDim S4096x1 ![0] bcast_S4096_S4096x1_0),
    TRef.unary (TRef.of (T := ⟨S4096x1, .f32⟩) main_call0_v8) (TRef.of (T := ⟨S4096x1, .f32⟩) main_call0_v9) Host.log,
    TRef.unary (TRef.of (T := ⟨S4096x1, .f32⟩) main_call0_v9) (TRef.of (T := ⟨S4096x20002, .f32⟩) main_call0_v10) (broadcastInDim S4096x20002 ![0, 1] bcast_S4096x1_S4096x20002_0_1),
    TRef.binary (TRef.of (T := ⟨S4096x20002, .f32⟩) main_call0_v5) (TRef.of (T := ⟨S4096x20002, .f32⟩) main_call0_v10) (TRef.of (T := ⟨S4096x20002, .f32⟩) main_v6) subf,
    nullary main_c (constantI S_ 32 20000#32),
    unary main_c main_v7 (broadcastInDim S4096 ![] bcast_S_S4096 : (⟨S_, .i32⟩ : BufTy).Contents (Elt F) → (⟨S4096, .i32⟩ : BufTy).Contents (Elt F)),
    binary main_arg1 main_v7 main_v8 (cmpi .slt : (⟨S4096, .i32⟩ : BufTy).Contents (Elt F) → (⟨S4096, .i32⟩ : BufTy).Contents (Elt F) → (⟨S4096, .i1⟩ : BufTy).Contents (Elt F)),
    nullary main_c_0 (constantI S_ 32 0#32),
    TRef.unary (TRef.of (T := ⟨S_, .i32⟩) main_c_0) (TRef.of (T := ⟨S_, .i32⟩) main_call1_v0) id,
    TRef.unary (TRef.of (T := ⟨S_, .i32⟩) main_call1_v0) (TRef.of (T := ⟨S4096, .i32⟩) main_call1_v1) (broadcastInDim S4096 ![] bcast_S_S4096),
    TRef.ternary (TRef.of (T := ⟨S4096, .i1⟩) main_v8) (TRef.of (T := ⟨S4096, .i32⟩) main_arg1) (TRef.of (T := ⟨S4096, .i32⟩) main_call1_v1) (TRef.of (T := ⟨S4096, .i32⟩) main_v9) select,
    nullary main_c_1 (constantI S_ 32 0#32),
    unary main_c_1 main_v10 (broadcastInDim S4096 ![] bcast_S_S4096 : (⟨S_, .i32⟩ : BufTy).Contents (Elt F) → (⟨S4096, .i32⟩ : BufTy).Contents (Elt F)),
    binary main_v0 main_v10 main_v11 (cmpi .slt : (⟨S4096, .i32⟩ : BufTy).Contents (Elt F) → (⟨S4096, .i32⟩ : BufTy).Contents (Elt F) → (⟨S4096, .i1⟩ : BufTy).Contents (Elt F)),
    nullary main_c_2 (constantI S_ 32 4096#32),
    unary main_c_2 main_v12 (broadcastInDim S4096 ![] bcast_S_S4096 : (⟨S_, .i32⟩ : BufTy).Contents (Elt F) → (⟨S4096, .i32⟩ : BufTy).Contents (Elt F)),
    binary main_v0 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_v0 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_3 (constantI S_ 32 0#32),
    unary main_c_3 main_v15 (broadcastInDim S4096 ![] bcast_S_S4096 : (⟨S_, .i32⟩ : BufTy).Contents (Elt F) → (⟨S4096, .i32⟩ : BufTy).Contents (Elt F)),
    binary main_v9 main_v15 main_v16 (cmpi .slt : (⟨S4096, .i32⟩ : BufTy).Contents (Elt F) → (⟨S4096, .i32⟩ : BufTy).Contents (Elt F) → (⟨S4096, .i1⟩ : BufTy).Contents (Elt F)),
    nullary main_c_4 (constantI S_ 32 20002#32),
    unary main_c_4 main_v17 (broadcastInDim S4096 ![] bcast_S_S4096 : (⟨S_, .i32⟩ : BufTy).Contents (Elt F) → (⟨S4096, .i32⟩ : BufTy).Contents (Elt F)),
    binary main_v9 main_v17 main_v18 (addi : (⟨S4096, .i32⟩ : BufTy).Contents (Elt F) → (⟨S4096, .i32⟩ : BufTy).Contents (Elt F) → (⟨S4096, .i32⟩ : BufTy).Contents (Elt F)),
    ternary main_v16 main_v18 main_v9 main_v19 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v20 (broadcastInDim S4096x1 ![0] bcast_S4096_S4096x1_0 : (⟨S4096, .i32⟩ : BufTy).Contents (Elt F) → (⟨S4096x1, .i32⟩ : BufTy).Contents (Elt F)),
    unary main_v19 main_v21 (broadcastInDim S4096x1 ![0] bcast_S4096_S4096x1_0 : (⟨S4096, .i32⟩ : BufTy).Contents (Elt F) → (⟨S4096x1, .i32⟩ : BufTy).Contents (Elt F)) ]

set_option maxRecDepth 8192 in

theorem ops1_sub : (ops1 : List (HloOp τ sig (Elt F))).Forall fun op => op.bufs ⊆ tcRefs τ sig :=
  ⟨binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in

theorem ops1_fresh : (ops1 : List (HloOp τ sig (Elt F))).Forall fun op => op.fresh = ∅ := by
  simp only [List.Forall]; repeat' constructor

end Cert.ReferenceIdeal.HandRun

end
-- ==== Proof.Ref.Stage1.lean ====
import proofs.«402100_j83614423319285_2_alg».proof.Proof.Ref.Ops1
import proofs.«402100_j83614423319285_2_alg».proof.Proof.Ref.ReadP
import proofs.«402100_j83614423319285_2_alg».proof.Proof.Ref.Typed
import Idealize.ShloMosaic.Lib.Pipeline.Frame

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

variable (V : Valuation τ sig (Elt F)) (x0 : (⟨S4096x1024, .f32⟩ : BufTy).Contents (Elt F)) (x1 : (⟨S4096, .i32⟩ : BufTy).Contents (Elt F)) (x2 : (⟨S20000x1024, .f32⟩ : BufTy).Contents (Elt F)) (x3 : (⟨S2x1024, .f32⟩ : BufTy).Contents (Elt F)) (x4 : (⟨S256x1024, .f32⟩ : BufTy).Contents (Elt F)) (x5 : (⟨S20000x256, .f32⟩ : BufTy).Contents (Elt F)) (x6 : (⟨S64x1024, .f32⟩ : BufTy).Contents (Elt F)) (x7 : (⟨S10257x64, .f32⟩ : BufTy).Contents (Elt F))

abbrev ops1_0 : List (HloOp τ sig (Elt F)) :=
  [ binary main_v2 main_v4 main_v5 ((fun a b => concatenate S4096x20002 1 [⟨S4096x20000, a⟩, ⟨S4096x2, b⟩] concatenates_S4096x20000_S4096x2_S4096x20002_d1) : (⟨S4096x20000, .f32⟩ : BufTy).Contents (Elt F) → (⟨S4096x2, .f32⟩ : BufTy).Contents (Elt F) → (⟨S4096x20002, .f32⟩ : BufTy).Contents (Elt F)),
    nullary main_call0_cst ((constant S_ .f32 0xFF800000#32) : (⟨S_, .f32⟩ : BufTy).Contents (Elt F)),
    binary main_v5 main_call0_cst main_call0_v0 ((fun x v => Host.reduce FloatOps.maximumf x v reducesTo_S4096x20002_S4096_d1 h_S_) : (⟨S4096x20002, .f32⟩ : BufTy).Contents (Elt F) → (⟨S_, .f32⟩ : BufTy).Contents (Elt F) → (⟨S4096, .f32⟩ : BufTy).Contents (Elt F)),
    nullary main_call0_cst_0 ((constant S_ .f32 0xFF800000#32) : (⟨S_, .f32⟩ : BufTy).Contents (Elt F)),
    unary main_call0_cst_0 main_call0_v1 ((broadcastInDim S4096 ![] bcast_S_S4096) : (⟨S_, .f32⟩ : BufTy).Contents (Elt F) → (⟨S4096, .f32⟩ : BufTy).Contents (Elt F)),
    binary main_call0_v1 main_call0_v0 main_call0_v2 (maximumf : (⟨S4096, .f32⟩ : BufTy).Contents (Elt F) → (⟨S4096, .f32⟩ : BufTy).Contents (Elt F) → (⟨S4096, .f32⟩ : BufTy).Contents (Elt F)),
    unary main_call0_v2 main_call0_v3 ((broadcastInDim S4096x1 ![0] bcast_S4096_S4096x1_0) : (⟨S4096, .f32⟩ : BufTy).Contents (Elt F) → (⟨S4096x1, .f32⟩ : BufTy).Contents (Elt F)),
    unary main_call0_v3 main_call0_v4 ((broadcastInDim S4096x20002 ![0, 1] bcast_S4096x1_S4096x20002_0_1) : (⟨S4096x1, .f32⟩ : BufTy).Contents (Elt F) → (⟨S4096x20002, .f32⟩ : BufTy).Contents (Elt F)) ]

theorem k1_0_arg1 : after ops1_0 V main_arg1 = V main_arg1 := by
  after_results_simp
theorem k1_0_v0 : after ops1_0 V main_v0 = V main_v0 := by
  after_results_simp
theorem k1_0_arg4 : after ops1_0 V main_arg4 = V main_arg4 := by
  after_results_simp
theorem k1_0_arg0 : after ops1_0 V main_arg0 = V main_arg0 := by
  after_results_simp
theorem k1_0_arg5 : after ops1_0 V main_arg5 = V main_arg5 := by
  after_results_simp
theorem k1_0_arg6 : after ops1_0 V main_arg6 = V main_arg6 := by
  after_results_simp
theorem k1_0_arg7 : after ops1_0 V main_arg7 = V main_arg7 := by
  after_results_simp

section
include x0 x1 x2 x3 x4 x5 x6 x7
theorem o1_0_v5
    (h_v2 : V main_v2 = val_main_v2 (F := F) x0 x2) (h_v4 : V main_v4 = val_main_v4 (F := F) x0 x3) :
    after ops1_0 V main_v5 = val_main_v5 (F := F) x0 x2 x3 := by
  after_results_simp
  all_goals (try rw [h_v2, h_v4])
  all_goals rfl

theorem o1_0_call0_v4
    (h_v2 : V main_v2 = val_main_v2 (F := F) x0 x2) (h_v4 : V main_v4 = val_main_v4 (F := F) x0 x3) :
    after ops1_0 V main_call0_v4 = val_main_call0_v4 (F := F) x0 x2 x3 := by
  after_results_simp
  all_goals (try rw [h_v2, h_v4])
  all_goals rfl
end

abbrev ops1_1 : List (HloOp τ sig (Elt F)) :=
  [ binary main_v5 main_call0_v4 main_call0_v5 (subf : (⟨S4096x20002, .f32⟩ : BufTy).Contents (Elt F) → (⟨S4096x20002, .f32⟩ : BufTy).Contents (Elt F) → (⟨S4096x20002, .f32⟩ : BufTy).Contents (Elt F)),
    unary main_call0_v5 main_call0_v6 (Host.exp : (⟨S4096x20002, .f32⟩ : BufTy).Contents (Elt F) → (⟨S4096x20002, .f32⟩ : BufTy).Contents (Elt F)),
    nullary main_call0_cst_1 ((constant S_ .f32 0x00000000#32) : (⟨S_, .f32⟩ : BufTy).Contents (Elt F)),
    binary main_call0_v6 main_call0_cst_1 main_call0_v7 ((fun x v => Host.reduceAdd x v reducesTo_S4096x20002_S4096_d1 h_S_) : (⟨S4096x20002, .f32⟩ : BufTy).Contents (Elt F) → (⟨S_, .f32⟩ : BufTy).Contents (Elt F) → (⟨S4096, .f32⟩ : BufTy).Contents (Elt F)),
    unary main_call0_v7 main_call0_v8 ((broadcastInDim S4096x1 ![0] bcast_S4096_S4096x1_0) : (⟨S4096, .f32⟩ : BufTy).Contents (Elt F) → (⟨S4096x1, .f32⟩ : BufTy).Contents (Elt F)),
    unary main_call0_v8 main_call0_v9 (Host.log : (⟨S4096x1, .f32⟩ : BufTy).Contents (Elt F) → (⟨S4096x1, .f32⟩ : BufTy).Contents (Elt F)),
    unary main_call0_v9 main_call0_v10 ((broadcastInDim S4096x20002 ![0, 1] bcast_S4096x1_S4096x20002_0_1) : (⟨S4096x1, .f32⟩ : BufTy).Contents (Elt F) → (⟨S4096x20002, .f32⟩ : BufTy).Contents (Elt F)),
    binary main_call0_v5 main_call0_v10 main_v6 (subf : (⟨S4096x20002, .f32⟩ : BufTy).Contents (Elt F) → (⟨S4096x20002, .f32⟩ : BufTy).Contents (Elt F) → (⟨S4096x20002, .f32⟩ : BufTy).Contents (Elt F)) ]

theorem k1_1_arg1 : after ops1_1 V main_arg1 = V main_arg1 := by
  after_results_simp
theorem k1_1_v0 : after ops1_1 V main_v0 = V main_v0 := by
  after_results_simp
theorem k1_1_arg4 : after ops1_1 V main_arg4 = V main_arg4 := by
  after_results_simp
theorem k1_1_arg0 : after ops1_1 V main_arg0 = V main_arg0 := by
  after_results_simp
theorem k1_1_arg5 : after ops1_1 V main_arg5 = V main_arg5 := by
  after_results_simp
theorem k1_1_arg6 : after ops1_1 V main_arg6 = V main_arg6 := by
  after_results_simp
theorem k1_1_arg7 : after ops1_1 V main_arg7 = V main_arg7 := by
  after_results_simp

section
include x0 x1 x2 x3 x4 x5 x6 x7
theorem o1_1_v6
    (h_v5 : V main_v5 = val_main_v5 (F := F) x0 x2 x3) (h_call0_v4 : V main_call0_v4 = val_main_call0_v4 (F := F) x0 x2 x3) :
    after ops1_1 V main_v6 = val_main_v6 (F := F) x0 x2 x3 := by
  after_results_simp
  all_goals (try rw [h_v5, h_call0_v4])
  all_goals rfl
end

abbrev ops1_2 : List (HloOp τ sig (Elt F)) :=
  [ nullary main_c (constantI S_ 32 20000#32),
    unary main_c main_v7 (broadcastInDim S4096 ![] bcast_S_S4096 : (⟨S_, .i32⟩ : BufTy).Contents (Elt F) → (⟨S4096, .i32⟩ : BufTy).Contents (Elt F)),
    binary main_arg1 main_v7 main_v8 (cmpi .slt : (⟨S4096, .i32⟩ : BufTy).Contents (Elt F) → (⟨S4096, .i32⟩ : BufTy).Contents (Elt F) → (⟨S4096, .i1⟩ : BufTy).Contents (Elt F)),
    nullary main_c_0 (constantI S_ 32 0#32),
    unary main_c_0 main_call1_v0 (id : (⟨S_, .i32⟩ : BufTy).Contents (Elt F) → (⟨S_, .i32⟩ : BufTy).Contents (Elt F)),
    unary main_call1_v0 main_call1_v1 ((broadcastInDim S4096 ![] bcast_S_S4096) : (⟨S_, .i32⟩ : BufTy).Contents (Elt F) → (⟨S4096, .i32⟩ : BufTy).Contents (Elt F)),
    ternary main_v8 main_arg1 main_call1_v1 main_v9 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_1 (constantI S_ 32 0#32) ]

theorem k1_2_arg1 : after ops1_2 V main_arg1 = V main_arg1 := by
  after_results_simp
theorem k1_2_v0 : after ops1_2 V main_v0 = V main_v0 := by
  after_results_simp
theorem k1_2_v6 : after ops1_2 V main_v6 = V main_v6 := by
  after_results_simp
theorem k1_2_arg4 : after ops1_2 V main_arg4 = V main_arg4 := by
  after_results_simp
theorem k1_2_arg0 : after ops1_2 V main_arg0 = V main_arg0 := by
  after_results_simp
theorem k1_2_arg5 : after ops1_2 V main_arg5 = V main_arg5 := by
  after_results_simp
theorem k1_2_arg6 : after ops1_2 V main_arg6 = V main_arg6 := by
  after_results_simp
theorem k1_2_arg7 : after ops1_2 V main_arg7 = V main_arg7 := by
  after_results_simp

section
include x0 x1 x2 x3 x4 x5 x6 x7
theorem o1_2_v8
    (a1 : V main_arg1 = x1) :
    after ops1_2 V main_v8 = val_main_v8 (F := F) x1 := by
  after_results_simp
  all_goals (try rw [a1])
  all_goals rfl

theorem o1_2_v9
    (a1 : V main_arg1 = x1) :
    after ops1_2 V main_v9 = val_main_v9 (F := F) x1 := by
  after_results_simp
  all_goals (try rw [a1])
  all_goals rfl

theorem o1_2_c_1
     :
    after ops1_2 V main_c_1 = val_main_c_1 (F := F) := by
  after_results_simp
  all_goals rfl
end

abbrev ops1_3 : List (HloOp τ sig (Elt F)) :=
  [ unary main_c_1 main_v10 (broadcastInDim S4096 ![] bcast_S_S4096 : (⟨S_, .i32⟩ : BufTy).Contents (Elt F) → (⟨S4096, .i32⟩ : BufTy).Contents (Elt F)),
    binary main_v0 main_v10 main_v11 (cmpi .slt : (⟨S4096, .i32⟩ : BufTy).Contents (Elt F) → (⟨S4096, .i32⟩ : BufTy).Contents (Elt F) → (⟨S4096, .i1⟩ : BufTy).Contents (Elt F)),
    nullary main_c_2 (constantI S_ 32 4096#32),
    unary main_c_2 main_v12 (broadcastInDim S4096 ![] bcast_S_S4096 : (⟨S_, .i32⟩ : BufTy).Contents (Elt F) → (⟨S4096, .i32⟩ : BufTy).Contents (Elt F)),
    binary main_v0 main_v12 main_v13 (addi : (⟨S4096, .i32⟩ : BufTy).Contents (Elt F) → (⟨S4096, .i32⟩ : BufTy).Contents (Elt F) → (⟨S4096, .i32⟩ : BufTy).Contents (Elt F)),
    ternary main_v11 main_v13 main_v0 main_v14 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_3 (constantI S_ 32 0#32),
    unary main_c_3 main_v15 (broadcastInDim S4096 ![] bcast_S_S4096 : (⟨S_, .i32⟩ : BufTy).Contents (Elt F) → (⟨S4096, .i32⟩ : BufTy).Contents (Elt F)) ]

theorem k1_3_v0 : after ops1_3 V main_v0 = V main_v0 := by
  after_results_simp
theorem k1_3_v9 : after ops1_3 V main_v9 = V main_v9 := by
  after_results_simp
theorem k1_3_v6 : after ops1_3 V main_v6 = V main_v6 := by
  after_results_simp
theorem k1_3_arg1 : after ops1_3 V main_arg1 = V main_arg1 := by
  after_results_simp
theorem k1_3_arg4 : after ops1_3 V main_arg4 = V main_arg4 := by
  after_results_simp
theorem k1_3_arg0 : after ops1_3 V main_arg0 = V main_arg0 := by
  after_results_simp
theorem k1_3_arg5 : after ops1_3 V main_arg5 = V main_arg5 := by
  after_results_simp
theorem k1_3_arg6 : after ops1_3 V main_arg6 = V main_arg6 := by
  after_results_simp
theorem k1_3_arg7 : after ops1_3 V main_arg7 = V main_arg7 := by
  after_results_simp
theorem k1_3_v8 : after ops1_3 V main_v8 = V main_v8 := by
  after_results_simp

section
include x0 x1 x2 x3 x4 x5 x6 x7
theorem o1_3_v14
    (h_v0 : V main_v0 = val_main_v0 (F := F)) (h_c_1 : V main_c_1 = val_main_c_1 (F := F)) :
    after ops1_3 V main_v14 = val_main_v14 (F := F) := by
  after_results_simp
  all_goals (try rw [h_v0, h_c_1])
  all_goals rfl

theorem o1_3_v15
     :
    after ops1_3 V main_v15 = val_main_v15 (F := F) := by
  after_results_simp
  all_goals rfl
end

abbrev ops1_4 : List (HloOp τ sig (Elt F)) :=
  [ binary main_v9 main_v15 main_v16 (cmpi .slt : (⟨S4096, .i32⟩ : BufTy).Contents (Elt F) → (⟨S4096, .i32⟩ : BufTy).Contents (Elt F) → (⟨S4096, .i1⟩ : BufTy).Contents (Elt F)),
    nullary main_c_4 (constantI S_ 32 20002#32),
    unary main_c_4 main_v17 (broadcastInDim S4096 ![] bcast_S_S4096 : (⟨S_, .i32⟩ : BufTy).Contents (Elt F) → (⟨S4096, .i32⟩ : BufTy).Contents (Elt F)),
    binary main_v9 main_v17 main_v18 (addi : (⟨S4096, .i32⟩ : BufTy).Contents (Elt F) → (⟨S4096, .i32⟩ : BufTy).Contents (Elt F) → (⟨S4096, .i32⟩ : BufTy).Contents (Elt F)),
    ternary main_v16 main_v18 main_v9 main_v19 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v14 main_v20 (broadcastInDim S4096x1 ![0] bcast_S4096_S4096x1_0 : (⟨S4096, .i32⟩ : BufTy).Contents (Elt F) → (⟨S4096x1, .i32⟩ : BufTy).Contents (Elt F)),
    unary main_v19 main_v21 (broadcastInDim S4096x1 ![0] bcast_S4096_S4096x1_0 : (⟨S4096, .i32⟩ : BufTy).Contents (Elt F) → (⟨S4096x1, .i32⟩ : BufTy).Contents (Elt F)) ]

theorem k1_4_v6 : after ops1_4 V main_v6 = V main_v6 := by
  after_results_simp
theorem k1_4_arg1 : after ops1_4 V main_arg1 = V main_arg1 := by
  after_results_simp
theorem k1_4_arg4 : after ops1_4 V main_arg4 = V main_arg4 := by
  after_results_simp
theorem k1_4_arg0 : after ops1_4 V main_arg0 = V main_arg0 := by
  after_results_simp
theorem k1_4_arg5 : after ops1_4 V main_arg5 = V main_arg5 := by
  after_results_simp
theorem k1_4_v0 : after ops1_4 V main_v0 = V main_v0 := by
  after_results_simp
theorem k1_4_arg6 : after ops1_4 V main_arg6 = V main_arg6 := by
  after_results_simp
theorem k1_4_arg7 : after ops1_4 V main_arg7 = V main_arg7 := by
  after_results_simp
theorem k1_4_v8 : after ops1_4 V main_v8 = V main_v8 := by
  after_results_simp

section
include x0 x1 x2 x3 x4 x5 x6 x7
theorem o1_4_v20
    (h_v14 : V main_v14 = val_main_v14 (F := F)) :
    after ops1_4 V main_v20 = val_main_v20 (F := F) := by
  after_results_simp
  all_goals (try rw [h_v14])
  all_goals rfl

theorem o1_4_v21
    (h_v9 : V main_v9 = val_main_v9 (F := F) x1) (h_v15 : V main_v15 = val_main_v15 (F := F)) :
    after ops1_4 V main_v21 = val_main_v21 (F := F) x1 := by
  after_results_simp
  all_goals (try rw [h_v9, h_v15])
  all_goals rfl
end

theorem ops1_steps : (ops1 : List (HloOp τ sig (Elt F))) = ops1_0 ++ ops1_1 ++ ops1_2 ++ ops1_3 ++ ops1_4 :=
  congrArg₂ List.cons rfl <|
  congrArg₂ List.cons (nullary_of _ (by decide) (by rfl) _) <|
  congrArg₂ List.cons (binary_of _ _ _ (by decide) (by rfl) (by decide) (by rfl) (by decide) (by rfl) _) <|
  congrArg₂ List.cons (nullary_of _ (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (nullary_of _ (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons rfl <|
  congrArg₂ List.cons rfl <|
  congrArg₂ List.cons rfl <|
  congrArg₂ List.cons rfl <|
  congrArg₂ List.cons (unary_of _ _ (by decide) (by rfl) (by decide) (by rfl) _) <|
  congrArg₂ List.cons (unary_of _ _ (by decide) (by rfl) (by decide) (by rfl) _) <|
  congrArg₂ List.cons (ternary_of _ _ _ _ (by decide) (by rfl) (by decide) (by rfl) (by decide) (by rfl) (by decide) (by rfl) _) <|
  congrArg₂ List.cons rfl <|
  rfl

theorem after1_split :
    after ops1 V = after ops1_4 (after ops1_3 (after ops1_2 (after ops1_1 (after ops1_0 (V))))) := by
  rw [ops1_steps, StableHlo.after_append, StableHlo.after_append, StableHlo.after_append, StableHlo.after_append]

end Cert.ReferenceIdeal.HandRun

end
-- ==== Proof.Ref.Ops2.lean ====
import proofs.«402100_j83614423319285_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops2 : List (HloOp τ sig (Elt F)) :=
  [ binary main_v20 main_v21 main_v22 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v6 main_v22 main_v23 ((fun x i => Host.gather gather_S4096x20002_S4096x2_S4096_n_01_n_n_01_1_11 x i) : (⟨S4096x20002, .f32⟩ : BufTy).Contents (Elt F) → (⟨S4096x2, .i32⟩ : BufTy).Contents (Elt F) → (⟨S4096, .f32⟩ : BufTy).Contents (Elt F)),
    nullary main_c_5 (constantI S_ 32 20000#32),
    unary main_c_5 main_v24 (broadcastInDim S4096 ![] bcast_S_S4096 : (⟨S_, .i32⟩ : BufTy).Contents (Elt F) → (⟨S4096, .i32⟩ : BufTy).Contents (Elt F)),
    binary main_arg1 main_v24 main_v25 (cmpi .sge : (⟨S4096, .i32⟩ : BufTy).Contents (Elt F) → (⟨S4096, .i32⟩ : BufTy).Contents (Elt F) → (⟨S4096, .i1⟩ : BufTy).Contents (Elt F)),
    nullary main_c_6 (constantI S_ 32 40000#32),
    unary main_c_6 main_v26 (broadcastInDim S4096 ![] bcast_S_S4096 : (⟨S_, .i32⟩ : BufTy).Contents (Elt F) → (⟨S4096, .i32⟩ : BufTy).Contents (Elt F)),
    binary main_arg1 main_v26 main_v27 (cmpi .slt : (⟨S4096, .i32⟩ : BufTy).Contents (Elt F) → (⟨S4096, .i32⟩ : BufTy).Contents (Elt F) → (⟨S4096, .i1⟩ : BufTy).Contents (Elt F)),
    binary main_v25 main_v27 main_v28 (andi : (⟨S4096, .i1⟩ : BufTy).Contents (Elt F) → (⟨S4096, .i1⟩ : BufTy).Contents (Elt F) → (⟨S4096, .i1⟩ : BufTy).Contents (Elt F)),
    unary main_arg4 main_v29 ((transpose S1024x256 [1, 0] · transposes_S256x1024_S1024x256_1_0) : (⟨S256x1024, .f32⟩ : BufTy).Contents (Elt F) → (⟨S1024x256, .f32⟩ : BufTy).Contents (Elt F)),
    binary main_arg0 main_v29 main_v30 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg5 main_v31 ((transpose S256x20000 [1, 0] · transposes_S20000x256_S256x20000_1_0) : (⟨S20000x256, .f32⟩ : BufTy).Contents (Elt F) → (⟨S256x20000, .f32⟩ : BufTy).Contents (Elt F)),
    binary main_v30 main_v31 main_v32 ((fun l r => Host.dotGeneral dot_S4096x256_S256x20000_S4096x20000_1_0_0_1_n_n none l r) : (⟨S4096x256, .f32⟩ : BufTy).Contents (Elt F) → (⟨S256x20000, .f32⟩ : BufTy).Contents (Elt F) → (⟨S4096x20000, .f32⟩ : BufTy).Contents (Elt F)),
    TRef.nullary (TRef.of (T := ⟨S_, .f32⟩) main_call2_cst) (constant S_ .f32 0xFF800000#32),
    TRef.binary (TRef.of (T := ⟨S4096x20000, .f32⟩) main_v32) (TRef.of (T := ⟨S_, .f32⟩) main_call2_cst) (TRef.of (T := ⟨S4096, .f32⟩) main_call2_v0) (fun x v => Host.reduce FloatOps.maximumf x v reducesTo_S4096x20000_S4096_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S4096, .f32⟩) main_call2_v1) (broadcastInDim S4096 ![] bcast_S_S4096),
    TRef.binary (TRef.of (T := ⟨S4096, .f32⟩) main_call2_v1) (TRef.of (T := ⟨S4096, .f32⟩) main_call2_v0) (TRef.of (T := ⟨S4096, .f32⟩) main_call2_v2) maximumf,
    TRef.unary (TRef.of (T := ⟨S4096, .f32⟩) main_call2_v2) (TRef.of (T := ⟨S4096x1, .f32⟩) main_call2_v3) (broadcastInDim S4096x1 ![0] bcast_S4096_S4096x1_0),
    TRef.unary (TRef.of (T := ⟨S4096x1, .f32⟩) main_call2_v3) (TRef.of (T := ⟨S4096x20000, .f32⟩) main_call2_v4) (broadcastInDim S4096x20000 ![0, 1] bcast_S4096x1_S4096x20000_0_1),
    TRef.binary (TRef.of (T := ⟨S4096x20000, .f32⟩) main_v32) (TRef.of (T := ⟨S4096x20000, .f32⟩) main_call2_v4) (TRef.of (T := ⟨S4096x20000, .f32⟩) main_call2_v5) subf,
    TRef.unary (TRef.of (T := ⟨S4096x20000, .f32⟩) main_call2_v5) (TRef.of (T := ⟨S4096x20000, .f32⟩) main_call2_v6) Host.exp,
    TRef.nullary (TRef.of (T := ⟨S_, .f32⟩) main_call2_cst_1) (constant S_ .f32 0x00000000#32),
    TRef.binary (TRef.of (T := ⟨S4096x20000, .f32⟩) main_call2_v6) (TRef.of (T := ⟨S_, .f32⟩) main_call2_cst_1) (TRef.of (T := ⟨S4096, .f32⟩) main_call2_v7) (fun x v => Host.reduceAdd x v reducesTo_S4096x20000_S4096_d1 h_S_),
    TRef.unary (TRef.of (T := ⟨S4096, .f32⟩) main_call2_v7) (TRef.of (T := ⟨S4096x1, .f32⟩) main_call2_v8) (broadcastInDim S4096x1 ![0] bcast_S4096_S4096x1_0),
    TRef.unary (TRef.of (T := ⟨S4096x1, .f32⟩) main_call2_v8) (TRef.of (T := ⟨S4096x1, .f32⟩) main_call2_v9) Host.log,
    TRef.unary (TRef.of (T := ⟨S4096x1, .f32⟩) main_call2_v9) (TRef.of (T := ⟨S4096x20000, .f32⟩) main_call2_v10) (broadcastInDim S4096x20000 ![0, 1] bcast_S4096x1_S4096x20000_0_1),
    TRef.binary (TRef.of (T := ⟨S4096x20000, .f32⟩) main_call2_v5) (TRef.of (T := ⟨S4096x20000, .f32⟩) main_call2_v10) (TRef.of (T := ⟨S4096x20000, .f32⟩) main_v33) subf,
    unary main_v6 main_v34 ((extractStridedSlice S4096x1 ![0, 20000] · slices_S4096x20002_S4096x1_0_20000) : (⟨S4096x20002, .f32⟩ : BufTy).Contents (Elt F) → (⟨S4096x1, .f32⟩ : BufTy).Contents (Elt F)),
    reshape main_v34 main_v35 rfl shapeCasts_S4096x1_S4096,
    nullary main_c_7 (constantI S_ 32 20000#32),
    unary main_c_7 main_v36 (broadcastInDim S4096 ![] bcast_S_S4096 : (⟨S_, .i32⟩ : BufTy).Contents (Elt F) → (⟨S4096, .i32⟩ : BufTy).Contents (Elt F)),
    binary main_arg1 main_v36 main_v37 (subi : (⟨S4096, .i32⟩ : BufTy).Contents (Elt F) → (⟨S4096, .i32⟩ : BufTy).Contents (Elt F) → (⟨S4096, .i32⟩ : BufTy).Contents (Elt F)),
    nullary main_c_8 (constantI S_ 32 0#32),
    TRef.unary (TRef.of (T := ⟨S_, .i32⟩) main_c_8) (TRef.of (T := ⟨S_, .i32⟩) main_call3_v0) id,
    TRef.unary (TRef.of (T := ⟨S_, .i32⟩) main_call3_v0) (TRef.of (T := ⟨S4096, .i32⟩) main_call3_v1) (broadcastInDim S4096 ![] bcast_S_S4096),
    TRef.ternary (TRef.of (T := ⟨S4096, .i1⟩) main_v28) (TRef.of (T := ⟨S4096, .i32⟩) main_v37) (TRef.of (T := ⟨S4096, .i32⟩) main_call3_v1) (TRef.of (T := ⟨S4096, .i32⟩) main_v38) select,
    nullary main_c_9 (constantI S_ 32 0#32),
    unary main_c_9 main_v39 (broadcastInDim S4096 ![] bcast_S_S4096 : (⟨S_, .i32⟩ : BufTy).Contents (Elt F) → (⟨S4096, .i32⟩ : BufTy).Contents (Elt F)),
    binary main_v0 main_v39 main_v40 (cmpi .slt : (⟨S4096, .i32⟩ : BufTy).Contents (Elt F) → (⟨S4096, .i32⟩ : BufTy).Contents (Elt F) → (⟨S4096, .i1⟩ : BufTy).Contents (Elt F)),
    nullary main_c_10 (constantI S_ 32 4096#32),
    unary main_c_10 main_v41 (broadcastInDim S4096 ![] bcast_S_S4096 : (⟨S_, .i32⟩ : BufTy).Contents (Elt F) → (⟨S4096, .i32⟩ : BufTy).Contents (Elt F)),
    binary main_v0 main_v41 main_v42 (addi : (⟨S4096, .i32⟩ : BufTy).Contents (Elt F) → (⟨S4096, .i32⟩ : BufTy).Contents (Elt F) → (⟨S4096, .i32⟩ : BufTy).Contents (Elt F)),
    ternary main_v40 main_v42 main_v0 main_v43 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_11 (constantI S_ 32 0#32),
    unary main_c_11 main_v44 (broadcastInDim S4096 ![] bcast_S_S4096 : (⟨S_, .i32⟩ : BufTy).Contents (Elt F) → (⟨S4096, .i32⟩ : BufTy).Contents (Elt F)),
    binary main_v38 main_v44 main_v45 (cmpi .slt : (⟨S4096, .i32⟩ : BufTy).Contents (Elt F) → (⟨S4096, .i32⟩ : BufTy).Contents (Elt F) → (⟨S4096, .i1⟩ : BufTy).Contents (Elt F)),
    nullary main_c_12 (constantI S_ 32 20000#32),
    unary main_c_12 main_v46 (broadcastInDim S4096 ![] bcast_S_S4096 : (⟨S_, .i32⟩ : BufTy).Contents (Elt F) → (⟨S4096, .i32⟩ : BufTy).Contents (Elt F)),
    binary main_v38 main_v46 main_v47 (addi : (⟨S4096, .i32⟩ : BufTy).Contents (Elt F) → (⟨S4096, .i32⟩ : BufTy).Contents (Elt F) → (⟨S4096, .i32⟩ : BufTy).Contents (Elt F)),
    ternary main_v45 main_v47 main_v38 main_v48 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v43 main_v49 (broadcastInDim S4096x1 ![0] bcast_S4096_S4096x1_0 : (⟨S4096, .i32⟩ : BufTy).Contents (Elt F) → (⟨S4096x1, .i32⟩ : BufTy).Contents (Elt F)),
    unary main_v48 main_v50 (broadcastInDim S4096x1 ![0] bcast_S4096_S4096x1_0 : (⟨S4096, .i32⟩ : BufTy).Contents (Elt F) → (⟨S4096x1, .i32⟩ : BufTy).Contents (Elt F)) ]

set_option maxRecDepth 8192 in

theorem ops2_sub : (ops2 : List (HloOp τ sig (Elt F))).Forall fun op => op.bufs ⊆ tcRefs τ sig :=
  ⟨binary_bufs_sub .., binary_bufs_sub .., nullary_bufs_sub .., unary_bufs_sub .., binary_bufs_sub .., nullary_bufs_sub .., unary_bufs_sub .., binary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in

theorem ops2_fresh : (ops2 : List (HloOp τ sig (Elt F))).Forall fun op => op.fresh = ∅ := by
  simp only [List.Forall]; repeat' constructor

end Cert.ReferenceIdeal.HandRun

end
-- ==== Proof.Ref.Stage2.lean ====
import proofs.«402100_j83614423319285_2_alg».proof.Proof.Ref.Ops2
import proofs.«402100_j83614423319285_2_alg».proof.Proof.Ref.ReadP
import proofs.«402100_j83614423319285_2_alg».proof.Proof.Ref.Typed
import Idealize.ShloMosaic.Lib.Pipeline.Frame

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

variable (V : Valuation τ sig (Elt F)) (x0 : (⟨S4096x1024, .f32⟩ : BufTy).Contents (Elt F)) (x1 : (⟨S4096, .i32⟩ : BufTy).Contents (Elt F)) (x2 : (⟨S20000x1024, .f32⟩ : BufTy).Contents (Elt F)) (x3 : (⟨S2x1024, .f32⟩ : BufTy).Contents (Elt F)) (x4 : (⟨S256x1024, .f32⟩ : BufTy).Contents (Elt F)) (x5 : (⟨S20000x256, .f32⟩ : BufTy).Contents (Elt F)) (x6 : (⟨S64x1024, .f32⟩ : BufTy).Contents (Elt F)) (x7 : (⟨S10257x64, .f32⟩ : BufTy).Contents (Elt F))

abbrev ops2_0 : List (HloOp τ sig (Elt F)) :=
  [ binary main_v20 main_v21 main_v22 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v6 main_v22 main_v23 ((fun x i => Host.gather gather_S4096x20002_S4096x2_S4096_n_01_n_n_01_1_11 x i) : (⟨S4096x20002, .f32⟩ : BufTy).Contents (Elt F) → (⟨S4096x2, .i32⟩ : BufTy).Contents (Elt F) → (⟨S4096, .f32⟩ : BufTy).Contents (Elt F)),
    nullary main_c_5 (constantI S_ 32 20000#32),
    unary main_c_5 main_v24 (broadcastInDim S4096 ![] bcast_S_S4096 : (⟨S_, .i32⟩ : BufTy).Contents (Elt F) → (⟨S4096, .i32⟩ : BufTy).Contents (Elt F)),
    binary main_arg1 main_v24 main_v25 (cmpi .sge : (⟨S4096, .i32⟩ : BufTy).Contents (Elt F) → (⟨S4096, .i32⟩ : BufTy).Contents (Elt F) → (⟨S4096, .i1⟩ : BufTy).Contents (Elt F)),
    nullary main_c_6 (constantI S_ 32 40000#32),
    unary main_c_6 main_v26 (broadcastInDim S4096 ![] bcast_S_S4096 : (⟨S_, .i32⟩ : BufTy).Contents (Elt F) → (⟨S4096, .i32⟩ : BufTy).Contents (Elt F)),
    binary main_arg1 main_v26 main_v27 (cmpi .slt : (⟨S4096, .i32⟩ : BufTy).Contents (Elt F) → (⟨S4096, .i32⟩ : BufTy).Contents (Elt F) → (⟨S4096, .i1⟩ : BufTy).Contents (Elt F)) ]

theorem k2_0_v6 : after ops2_0 V main_v6 = V main_v6 := by
  after_results_simp
theorem k2_0_arg1 : after ops2_0 V main_arg1 = V main_arg1 := by
  after_results_simp
theorem k2_0_arg4 : after ops2_0 V main_arg4 = V main_arg4 := by
  after_results_simp
theorem k2_0_arg0 : after ops2_0 V main_arg0 = V main_arg0 := by
  after_results_simp
theorem k2_0_arg5 : after ops2_0 V main_arg5 = V main_arg5 := by
  after_results_simp
theorem k2_0_v0 : after ops2_0 V main_v0 = V main_v0 := by
  after_results_simp
theorem k2_0_arg6 : after ops2_0 V main_arg6 = V main_arg6 := by
  after_results_simp
theorem k2_0_arg7 : after ops2_0 V main_arg7 = V main_arg7 := by
  after_results_simp
theorem k2_0_v8 : after ops2_0 V main_v8 = V main_v8 := by
  after_results_simp

section
include x0 x1 x2 x3 x4 x5 x6 x7
theorem o2_0_v23
    (h_v6 : V main_v6 = val_main_v6 (F := F) x0 x2 x3) (h_v20 : V main_v20 = val_main_v20 (F := F)) (h_v21 : V main_v21 = val_main_v21 (F := F) x1) :
    after ops2_0 V main_v23 = val_main_v23 (F := F) x0 x1 x2 x3 := by
  after_results_simp
  all_goals (try rw [h_v6, h_v20, h_v21])
  all_goals rfl

theorem o2_0_v25
    (a1 : V main_arg1 = x1) :
    after ops2_0 V main_v25 = val_main_v25 (F := F) x1 := by
  after_results_simp
  all_goals (try rw [a1])
  all_goals rfl

theorem o2_0_v27
    (a1 : V main_arg1 = x1) :
    after ops2_0 V main_v27 = val_main_v27 (F := F) x1 := by
  after_results_simp
  all_goals (try rw [a1])
  all_goals rfl
end

abbrev ops2_1 : List (HloOp τ sig (Elt F)) :=
  [ binary main_v25 main_v27 main_v28 (andi : (⟨S4096, .i1⟩ : BufTy).Contents (Elt F) → (⟨S4096, .i1⟩ : BufTy).Contents (Elt F) → (⟨S4096, .i1⟩ : BufTy).Contents (Elt F)),
    unary main_arg4 main_v29 ((transpose S1024x256 [1, 0] · transposes_S256x1024_S1024x256_1_0) : (⟨S256x1024, .f32⟩ : BufTy).Contents (Elt F) → (⟨S1024x256, .f32⟩ : BufTy).Contents (Elt F)),
    binary main_arg0 main_v29 main_v30 ((fun l r => Host.dotGeneral dot_S4096x1024_S1024x256_S4096x256_1_0_0_1_n_n none l r) : (⟨S4096x1024, .f32⟩ : BufTy).Contents (Elt F) → (⟨S1024x256, .f32⟩ : BufTy).Contents (Elt F) → (⟨S4096x256, .f32⟩ : BufTy).Contents (Elt F)),
    unary main_arg5 main_v31 ((transpose S256x20000 [1, 0] · transposes_S20000x256_S256x20000_1_0) : (⟨S20000x256, .f32⟩ : BufTy).Contents (Elt F) → (⟨S256x20000, .f32⟩ : BufTy).Contents (Elt F)),
    binary main_v30 main_v31 main_v32 ((fun l r => Host.dotGeneral dot_S4096x256_S256x20000_S4096x20000_1_0_0_1_n_n none l r) : (⟨S4096x256, .f32⟩ : BufTy).Contents (Elt F) → (⟨S256x20000, .f32⟩ : BufTy).Contents (Elt F) → (⟨S4096x20000, .f32⟩ : BufTy).Contents (Elt F)),
    nullary main_call2_cst ((constant S_ .f32 0xFF800000#32) : (⟨S_, .f32⟩ : BufTy).Contents (Elt F)),
    binary main_v32 main_call2_cst main_call2_v0 ((fun x v => Host.reduce FloatOps.maximumf x v reducesTo_S4096x20000_S4096_d1 h_S_) : (⟨S4096x20000, .f32⟩ : BufTy).Contents (Elt F) → (⟨S_, .f32⟩ : BufTy).Contents (Elt F) → (⟨S4096, .f32⟩ : BufTy).Contents (Elt F)),
    nullary main_call2_cst_0 ((constant S_ .f32 0xFF800000#32) : (⟨S_, .f32⟩ : BufTy).Contents (Elt F)) ]

theorem k2_1_arg0 : after ops2_1 V main_arg0 = V main_arg0 := by
  after_results_simp
theorem k2_1_v6 : after ops2_1 V main_v6 = V main_v6 := by
  after_results_simp
theorem k2_1_arg1 : after ops2_1 V main_arg1 = V main_arg1 := by
  after_results_simp
theorem k2_1_v0 : after ops2_1 V main_v0 = V main_v0 := by
  after_results_simp
theorem k2_1_arg6 : after ops2_1 V main_arg6 = V main_arg6 := by
  after_results_simp
theorem k2_1_arg7 : after ops2_1 V main_arg7 = V main_arg7 := by
  after_results_simp
theorem k2_1_v8 : after ops2_1 V main_v8 = V main_v8 := by
  after_results_simp
theorem k2_1_v23 : after ops2_1 V main_v23 = V main_v23 := by
  after_results_simp

section
include x0 x1 x2 x3 x4 x5 x6 x7
theorem o2_1_v28
    (h_v25 : V main_v25 = val_main_v25 (F := F) x1) (h_v27 : V main_v27 = val_main_v27 (F := F) x1) :
    after ops2_1 V main_v28 = val_main_v28 (F := F) x1 := by
  after_results_simp
  all_goals (try rw [h_v25, h_v27])
  all_goals rfl

theorem o2_1_v32
    (a0 : V main_arg0 = x0) (a4 : V main_arg4 = x4) (a5 : V main_arg5 = x5) :
    after ops2_1 V main_v32 = val_main_v32 (F := F) x0 x4 x5 := by
  after_results_simp
  all_goals (try rw [a0, a4, a5])
  all_goals rfl

theorem o2_1_call2_v0
    (a0 : V main_arg0 = x0) (a4 : V main_arg4 = x4) (a5 : V main_arg5 = x5) :
    after ops2_1 V main_call2_v0 = val_main_call2_v0 (F := F) x0 x4 x5 := by
  after_results_simp
  all_goals (try rw [a0, a4, a5])
  all_goals rfl

theorem o2_1_call2_cst_0
     :
    after ops2_1 V main_call2_cst_0 = val_main_call2_cst_0 (F := F) := by
  after_results_simp
  all_goals rfl
end

abbrev ops2_2 : List (HloOp τ sig (Elt F)) :=
  [ unary main_call2_cst_0 main_call2_v1 ((broadcastInDim S4096 ![] bcast_S_S4096) : (⟨S_, .f32⟩ : BufTy).Contents (Elt F) → (⟨S4096, .f32⟩ : BufTy).Contents (Elt F)),
    binary main_call2_v1 main_call2_v0 main_call2_v2 (maximumf : (⟨S4096, .f32⟩ : BufTy).Contents (Elt F) → (⟨S4096, .f32⟩ : BufTy).Contents (Elt F) → (⟨S4096, .f32⟩ : BufTy).Contents (Elt F)),
    unary main_call2_v2 main_call2_v3 ((broadcastInDim S4096x1 ![0] bcast_S4096_S4096x1_0) : (⟨S4096, .f32⟩ : BufTy).Contents (Elt F) → (⟨S4096x1, .f32⟩ : BufTy).Contents (Elt F)),
    unary main_call2_v3 main_call2_v4 ((broadcastInDim S4096x20000 ![0, 1] bcast_S4096x1_S4096x20000_0_1) : (⟨S4096x1, .f32⟩ : BufTy).Contents (Elt F) → (⟨S4096x20000, .f32⟩ : BufTy).Contents (Elt F)),
    binary main_v32 main_call2_v4 main_call2_v5 (subf : (⟨S4096x20000, .f32⟩ : BufTy).Contents (Elt F) → (⟨S4096x20000, .f32⟩ : BufTy).Contents (Elt F) → (⟨S4096x20000, .f32⟩ : BufTy).Contents (Elt F)),
    unary main_call2_v5 main_call2_v6 (Host.exp : (⟨S4096x20000, .f32⟩ : BufTy).Contents (Elt F) → (⟨S4096x20000, .f32⟩ : BufTy).Contents (Elt F)),
    nullary main_call2_cst_1 ((constant S_ .f32 0x00000000#32) : (⟨S_, .f32⟩ : BufTy).Contents (Elt F)),
    binary main_call2_v6 main_call2_cst_1 main_call2_v7 ((fun x v => Host.reduceAdd x v reducesTo_S4096x20000_S4096_d1 h_S_) : (⟨S4096x20000, .f32⟩ : BufTy).Contents (Elt F) → (⟨S_, .f32⟩ : BufTy).Contents (Elt F) → (⟨S4096, .f32⟩ : BufTy).Contents (Elt F)) ]

theorem k2_2_v6 : after ops2_2 V main_v6 = V main_v6 := by
  after_results_simp
theorem k2_2_arg1 : after ops2_2 V main_arg1 = V main_arg1 := by
  after_results_simp
theorem k2_2_v28 : after ops2_2 V main_v28 = V main_v28 := by
  after_results_simp
theorem k2_2_v0 : after ops2_2 V main_v0 = V main_v0 := by
  after_results_simp
theorem k2_2_arg6 : after ops2_2 V main_arg6 = V main_arg6 := by
  after_results_simp
theorem k2_2_arg0 : after ops2_2 V main_arg0 = V main_arg0 := by
  after_results_simp
theorem k2_2_arg7 : after ops2_2 V main_arg7 = V main_arg7 := by
  after_results_simp
theorem k2_2_v8 : after ops2_2 V main_v8 = V main_v8 := by
  after_results_simp
theorem k2_2_v23 : after ops2_2 V main_v23 = V main_v23 := by
  after_results_simp

section
include x0 x1 x2 x3 x4 x5 x6 x7
theorem o2_2_call2_v5
    (h_v32 : V main_v32 = val_main_v32 (F := F) x0 x4 x5) (h_call2_cst_0 : V main_call2_cst_0 = val_main_call2_cst_0 (F := F)) (h_call2_v0 : V main_call2_v0 = val_main_call2_v0 (F := F) x0 x4 x5) :
    after ops2_2 V main_call2_v5 = val_main_call2_v5 (F := F) x0 x4 x5 := by
  after_results_simp
  all_goals (try rw [h_v32, h_call2_cst_0, h_call2_v0])
  all_goals rfl

theorem o2_2_call2_v7
    (h_v32 : V main_v32 = val_main_v32 (F := F) x0 x4 x5) (h_call2_cst_0 : V main_call2_cst_0 = val_main_call2_cst_0 (F := F)) (h_call2_v0 : V main_call2_v0 = val_main_call2_v0 (F := F) x0 x4 x5) :
    after ops2_2 V main_call2_v7 = val_main_call2_v7 (F := F) x0 x4 x5 := by
  after_results_simp
  all_goals (try rw [h_v32, h_call2_cst_0, h_call2_v0])
  all_goals rfl
end

abbrev ops2_3 : List (HloOp τ sig (Elt F)) :=
  [ unary main_call2_v7 main_call2_v8 ((broadcastInDim S4096x1 ![0] bcast_S4096_S4096x1_0) : (⟨S4096, .f32⟩ : BufTy).Contents (Elt F) → (⟨S4096x1, .f32⟩ : BufTy).Contents (Elt F)),
    unary main_call2_v8 main_call2_v9 (Host.log : (⟨S4096x1, .f32⟩ : BufTy).Contents (Elt F) → (⟨S4096x1, .f32⟩ : BufTy).Contents (Elt F)),
    unary main_call2_v9 main_call2_v10 ((broadcastInDim S4096x20000 ![0, 1] bcast_S4096x1_S4096x20000_0_1) : (⟨S4096x1, .f32⟩ : BufTy).Contents (Elt F) → (⟨S4096x20000, .f32⟩ : BufTy).Contents (Elt F)),
    binary main_call2_v5 main_call2_v10 main_v33 (subf : (⟨S4096x20000, .f32⟩ : BufTy).Contents (Elt F) → (⟨S4096x20000, .f32⟩ : BufTy).Contents (Elt F) → (⟨S4096x20000, .f32⟩ : BufTy).Contents (Elt F)),
    unary main_v6 main_v34 ((extractStridedSlice S4096x1 ![0, 20000] · slices_S4096x20002_S4096x1_0_20000) : (⟨S4096x20002, .f32⟩ : BufTy).Contents (Elt F) → (⟨S4096x1, .f32⟩ : BufTy).Contents (Elt F)),
    reshape main_v34 main_v35 rfl shapeCasts_S4096x1_S4096,
    nullary main_c_7 (constantI S_ 32 20000#32),
    unary main_c_7 main_v36 (broadcastInDim S4096 ![] bcast_S_S4096 : (⟨S_, .i32⟩ : BufTy).Contents (Elt F) → (⟨S4096, .i32⟩ : BufTy).Contents (Elt F)) ]

theorem k2_3_v6 : after ops2_3 V main_v6 = V main_v6 := by
  after_results_simp
theorem k2_3_arg1 : after ops2_3 V main_arg1 = V main_arg1 := by
  after_results_simp
theorem k2_3_v28 : after ops2_3 V main_v28 = V main_v28 := by
  after_results_simp
theorem k2_3_v0 : after ops2_3 V main_v0 = V main_v0 := by
  after_results_simp
theorem k2_3_arg6 : after ops2_3 V main_arg6 = V main_arg6 := by
  after_results_simp
theorem k2_3_arg0 : after ops2_3 V main_arg0 = V main_arg0 := by
  after_results_simp
theorem k2_3_arg7 : after ops2_3 V main_arg7 = V main_arg7 := by
  after_results_simp
theorem k2_3_v8 : after ops2_3 V main_v8 = V main_v8 := by
  after_results_simp
theorem k2_3_v23 : after ops2_3 V main_v23 = V main_v23 := by
  after_results_simp

section
include x0 x1 x2 x3 x4 x5 x6 x7
theorem o2_3_v33
    (h_call2_v5 : V main_call2_v5 = val_main_call2_v5 (F := F) x0 x4 x5) (h_call2_v7 : V main_call2_v7 = val_main_call2_v7 (F := F) x0 x4 x5) :
    after ops2_3 V main_v33 = val_main_v33 (F := F) x0 x4 x5 := by
  after_results_simp
  all_goals (try rw [h_call2_v5, h_call2_v7])
  all_goals rfl

theorem o2_3_v35
    (h_v6 : V main_v6 = val_main_v6 (F := F) x0 x2 x3) :
    after ops2_3 V main_v35 = val_main_v35 (F := F) x0 x2 x3 := by
  after_results_simp
  all_goals (try rw [h_v6])
  all_goals rfl

theorem o2_3_v36
     :
    after ops2_3 V main_v36 = val_main_v36 (F := F) := by
  after_results_simp
  all_goals rfl
end

abbrev ops2_4 : List (HloOp τ sig (Elt F)) :=
  [ binary main_arg1 main_v36 main_v37 (subi : (⟨S4096, .i32⟩ : BufTy).Contents (Elt F) → (⟨S4096, .i32⟩ : BufTy).Contents (Elt F) → (⟨S4096, .i32⟩ : BufTy).Contents (Elt F)),
    nullary main_c_8 (constantI S_ 32 0#32),
    unary main_c_8 main_call3_v0 (id : (⟨S_, .i32⟩ : BufTy).Contents (Elt F) → (⟨S_, .i32⟩ : BufTy).Contents (Elt F)),
    unary main_call3_v0 main_call3_v1 ((broadcastInDim S4096 ![] bcast_S_S4096) : (⟨S_, .i32⟩ : BufTy).Contents (Elt F) → (⟨S4096, .i32⟩ : BufTy).Contents (Elt F)),
    ternary main_v28 main_v37 main_call3_v1 main_v38 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_9 (constantI S_ 32 0#32),
    unary main_c_9 main_v39 (broadcastInDim S4096 ![] bcast_S_S4096 : (⟨S_, .i32⟩ : BufTy).Contents (Elt F) → (⟨S4096, .i32⟩ : BufTy).Contents (Elt F)),
    binary main_v0 main_v39 main_v40 (cmpi .slt : (⟨S4096, .i32⟩ : BufTy).Contents (Elt F) → (⟨S4096, .i32⟩ : BufTy).Contents (Elt F) → (⟨S4096, .i1⟩ : BufTy).Contents (Elt F)) ]

theorem k2_4_arg1 : after ops2_4 V main_arg1 = V main_arg1 := by
  after_results_simp
theorem k2_4_v28 : after ops2_4 V main_v28 = V main_v28 := by
  after_results_simp
theorem k2_4_v0 : after ops2_4 V main_v0 = V main_v0 := by
  after_results_simp
theorem k2_4_v33 : after ops2_4 V main_v33 = V main_v33 := by
  after_results_simp
theorem k2_4_v35 : after ops2_4 V main_v35 = V main_v35 := by
  after_results_simp
theorem k2_4_arg6 : after ops2_4 V main_arg6 = V main_arg6 := by
  after_results_simp
theorem k2_4_arg0 : after ops2_4 V main_arg0 = V main_arg0 := by
  after_results_simp
theorem k2_4_arg7 : after ops2_4 V main_arg7 = V main_arg7 := by
  after_results_simp
theorem k2_4_v6 : after ops2_4 V main_v6 = V main_v6 := by
  after_results_simp
theorem k2_4_v8 : after ops2_4 V main_v8 = V main_v8 := by
  after_results_simp
theorem k2_4_v23 : after ops2_4 V main_v23 = V main_v23 := by
  after_results_simp

section
include x0 x1 x2 x3 x4 x5 x6 x7
theorem o2_4_v38
    (h_v28 : V main_v28 = val_main_v28 (F := F) x1) (a1 : V main_arg1 = x1) (h_v36 : V main_v36 = val_main_v36 (F := F)) :
    after ops2_4 V main_v38 = val_main_v38 (F := F) x1 := by
  after_results_simp
  all_goals (try rw [h_v28, a1, h_v36])
  all_goals rfl

theorem o2_4_v40
    (h_v0 : V main_v0 = val_main_v0 (F := F)) :
    after ops2_4 V main_v40 = val_main_v40 (F := F) := by
  after_results_simp
  all_goals (try rw [h_v0])
  all_goals rfl
end

abbrev ops2_5 : List (HloOp τ sig (Elt F)) :=
  [ nullary main_c_10 (constantI S_ 32 4096#32),
    unary main_c_10 main_v41 (broadcastInDim S4096 ![] bcast_S_S4096 : (⟨S_, .i32⟩ : BufTy).Contents (Elt F) → (⟨S4096, .i32⟩ : BufTy).Contents (Elt F)),
    binary main_v0 main_v41 main_v42 (addi : (⟨S4096, .i32⟩ : BufTy).Contents (Elt F) → (⟨S4096, .i32⟩ : BufTy).Contents (Elt F) → (⟨S4096, .i32⟩ : BufTy).Contents (Elt F)),
    ternary main_v40 main_v42 main_v0 main_v43 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_11 (constantI S_ 32 0#32),
    unary main_c_11 main_v44 (broadcastInDim S4096 ![] bcast_S_S4096 : (⟨S_, .i32⟩ : BufTy).Contents (Elt F) → (⟨S4096, .i32⟩ : BufTy).Contents (Elt F)),
    binary main_v38 main_v44 main_v45 (cmpi .slt : (⟨S4096, .i32⟩ : BufTy).Contents (Elt F) → (⟨S4096, .i32⟩ : BufTy).Contents (Elt F) → (⟨S4096, .i1⟩ : BufTy).Contents (Elt F)),
    nullary main_c_12 (constantI S_ 32 20000#32) ]

theorem k2_5_v0 : after ops2_5 V main_v0 = V main_v0 := by
  after_results_simp
theorem k2_5_v38 : after ops2_5 V main_v38 = V main_v38 := by
  after_results_simp
theorem k2_5_v33 : after ops2_5 V main_v33 = V main_v33 := by
  after_results_simp
theorem k2_5_v35 : after ops2_5 V main_v35 = V main_v35 := by
  after_results_simp
theorem k2_5_arg1 : after ops2_5 V main_arg1 = V main_arg1 := by
  after_results_simp
theorem k2_5_arg6 : after ops2_5 V main_arg6 = V main_arg6 := by
  after_results_simp
theorem k2_5_arg0 : after ops2_5 V main_arg0 = V main_arg0 := by
  after_results_simp
theorem k2_5_arg7 : after ops2_5 V main_arg7 = V main_arg7 := by
  after_results_simp
theorem k2_5_v6 : after ops2_5 V main_v6 = V main_v6 := by
  after_results_simp
theorem k2_5_v8 : after ops2_5 V main_v8 = V main_v8 := by
  after_results_simp
theorem k2_5_v23 : after ops2_5 V main_v23 = V main_v23 := by
  after_results_simp
theorem k2_5_v28 : after ops2_5 V main_v28 = V main_v28 := by
  after_results_simp

section
include x0 x1 x2 x3 x4 x5 x6 x7
theorem o2_5_v43
    (h_v40 : V main_v40 = val_main_v40 (F := F)) (h_v0 : V main_v0 = val_main_v0 (F := F)) :
    after ops2_5 V main_v43 = val_main_v43 (F := F) := by
  after_results_simp
  all_goals (try rw [h_v40, h_v0])
  all_goals rfl

theorem o2_5_v45
    (h_v38 : V main_v38 = val_main_v38 (F := F) x1) :
    after ops2_5 V main_v45 = val_main_v45 (F := F) x1 := by
  after_results_simp
  all_goals (try rw [h_v38])
  all_goals rfl

theorem o2_5_c_12
     :
    after ops2_5 V main_c_12 = val_main_c_12 (F := F) := by
  after_results_simp
  all_goals rfl
end

abbrev ops2_6 : List (HloOp τ sig (Elt F)) :=
  [ unary main_c_12 main_v46 (broadcastInDim S4096 ![] bcast_S_S4096 : (⟨S_, .i32⟩ : BufTy).Contents (Elt F) → (⟨S4096, .i32⟩ : BufTy).Contents (Elt F)),
    binary main_v38 main_v46 main_v47 (addi : (⟨S4096, .i32⟩ : BufTy).Contents (Elt F) → (⟨S4096, .i32⟩ : BufTy).Contents (Elt F) → (⟨S4096, .i32⟩ : BufTy).Contents (Elt F)),
    ternary main_v45 main_v47 main_v38 main_v48 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v43 main_v49 (broadcastInDim S4096x1 ![0] bcast_S4096_S4096x1_0 : (⟨S4096, .i32⟩ : BufTy).Contents (Elt F) → (⟨S4096x1, .i32⟩ : BufTy).Contents (Elt F)),
    unary main_v48 main_v50 (broadcastInDim S4096x1 ![0] bcast_S4096_S4096x1_0 : (⟨S4096, .i32⟩ : BufTy).Contents (Elt F) → (⟨S4096x1, .i32⟩ : BufTy).Contents (Elt F)) ]

theorem k2_6_v33 : after ops2_6 V main_v33 = V main_v33 := by
  after_results_simp
theorem k2_6_v35 : after ops2_6 V main_v35 = V main_v35 := by
  after_results_simp
theorem k2_6_arg1 : after ops2_6 V main_arg1 = V main_arg1 := by
  after_results_simp
theorem k2_6_arg6 : after ops2_6 V main_arg6 = V main_arg6 := by
  after_results_simp
theorem k2_6_arg0 : after ops2_6 V main_arg0 = V main_arg0 := by
  after_results_simp
theorem k2_6_arg7 : after ops2_6 V main_arg7 = V main_arg7 := by
  after_results_simp
theorem k2_6_v6 : after ops2_6 V main_v6 = V main_v6 := by
  after_results_simp
theorem k2_6_v0 : after ops2_6 V main_v0 = V main_v0 := by
  after_results_simp
theorem k2_6_v8 : after ops2_6 V main_v8 = V main_v8 := by
  after_results_simp
theorem k2_6_v23 : after ops2_6 V main_v23 = V main_v23 := by
  after_results_simp
theorem k2_6_v28 : after ops2_6 V main_v28 = V main_v28 := by
  after_results_simp

section
include x0 x1 x2 x3 x4 x5 x6 x7
theorem o2_6_v49
    (h_v43 : V main_v43 = val_main_v43 (F := F)) :
    after ops2_6 V main_v49 = val_main_v49 (F := F) := by
  after_results_simp
  all_goals (try rw [h_v43])
  all_goals rfl

theorem o2_6_v50
    (h_v45 : V main_v45 = val_main_v45 (F := F) x1) (h_v38 : V main_v38 = val_main_v38 (F := F) x1) (h_c_12 : V main_c_12 = val_main_c_12 (F := F)) :
    after ops2_6 V main_v50 = val_main_v50 (F := F) x1 := by
  after_results_simp
  all_goals (try rw [h_v45, h_v38, h_c_12])
  all_goals rfl
end

theorem ops2_steps : (ops2 : List (HloOp τ sig (Elt F))) = ops2_0 ++ ops2_1 ++ ops2_2 ++ ops2_3 ++ ops2_4 ++ ops2_5 ++ ops2_6 :=
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons (nullary_of _ (by decide) (by rfl) _) <|
  congrArg₂ List.cons (binary_of _ _ _ (by decide) (by rfl) (by decide) (by rfl) (by decide) (by rfl) _) <|
  congrArg₂ List.cons (nullary_of _ (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (nullary_of _ (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons rfl <|
  congrArg₂ List.cons rfl <|
  congrArg₂ List.cons rfl <|
  congrArg₂ List.cons rfl <|
  congrArg₂ List.cons rfl <|
  congrArg₂ List.cons rfl <|
  congrArg₂ List.cons (unary_of _ _ (by decide) (by rfl) (by decide) (by rfl) _) <|
  congrArg₂ List.cons (unary_of _ _ (by decide) (by rfl) (by decide) (by rfl) _) <|
  congrArg₂ List.cons (ternary_of _ _ _ _ (by decide) (by rfl) (by decide) (by rfl) (by decide) (by rfl) (by decide) (by rfl) _) <|
  congrArg₂ List.cons rfl <|
  congrArg₂ List.cons rfl <|
  congrArg₂ List.cons rfl <|
  rfl

theorem after2_split :
    after ops2 V = after ops2_6 (after ops2_5 (after ops2_4 (after ops2_3 (after ops2_2 (after ops2_1 (after ops2_0 (V))))))) := by
  rw [ops2_steps, StableHlo.after_append, StableHlo.after_append, StableHlo.after_append, StableHlo.after_append, StableHlo.after_append, StableHlo.after_append]

end Cert.ReferenceIdeal.HandRun

end
-- ==== Proof.Ref.Ops3.lean ====
import proofs.«402100_j83614423319285_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops3 : List (HloOp τ sig (Elt F)) :=
  [ binary main_v49 main_v50 main_v51 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v33 main_v51 main_v52 ((fun x i => Host.gather gather_S4096x20000_S4096x2_S4096_n_01_n_n_01_1_11 x i) : (⟨S4096x20000, .f32⟩ : BufTy).Contents (Elt F) → (⟨S4096x2, .i32⟩ : BufTy).Contents (Elt F) → (⟨S4096, .f32⟩ : BufTy).Contents (Elt F)),
    binary main_v35 main_v52 main_v53 (addf : (⟨S4096, .f32⟩ : BufTy).Contents (Elt F) → (⟨S4096, .f32⟩ : BufTy).Contents (Elt F) → (⟨S4096, .f32⟩ : BufTy).Contents (Elt F)),
    nullary main_c_13 (constantI S_ 32 40000#32),
    unary main_c_13 main_v54 (broadcastInDim S4096 ![] bcast_S_S4096 : (⟨S_, .i32⟩ : BufTy).Contents (Elt F) → (⟨S4096, .i32⟩ : BufTy).Contents (Elt F)),
    binary main_arg1 main_v54 main_v55 (cmpi .sge : (⟨S4096, .i32⟩ : BufTy).Contents (Elt F) → (⟨S4096, .i32⟩ : BufTy).Contents (Elt F) → (⟨S4096, .i1⟩ : BufTy).Contents (Elt F)),
    unary main_arg6 main_v56 ((transpose S1024x64 [1, 0] · transposes_S64x1024_S1024x64_1_0) : (⟨S64x1024, .f32⟩ : BufTy).Contents (Elt F) → (⟨S1024x64, .f32⟩ : BufTy).Contents (Elt F)),
    binary main_arg0 main_v56 main_v57 ((fun l r => Host.dotGeneral dot_S4096x1024_S1024x64_S4096x64_1_0_0_1_n_n none l r) : (⟨S4096x1024, .f32⟩ : BufTy).Contents (Elt F) → (⟨S1024x64, .f32⟩ : BufTy).Contents (Elt F) → (⟨S4096x64, .f32⟩ : BufTy).Contents (Elt F)),
    unary main_arg7 main_v58 ((transpose S64x10257 [1, 0] · transposes_S10257x64_S64x10257_1_0) : (⟨S10257x64, .f32⟩ : BufTy).Contents (Elt F) → (⟨S64x10257, .f32⟩ : BufTy).Contents (Elt F)),
    binary main_v57 main_v58 main_v59 ((fun l r => Host.dotGeneral dot_S4096x64_S64x10257_S4096x10257_1_0_0_1_n_n none l r) : (⟨S4096x64, .f32⟩ : BufTy).Contents (Elt F) → (⟨S64x10257, .f32⟩ : BufTy).Contents (Elt F) → (⟨S4096x10257, .f32⟩ : BufTy).Contents (Elt F)),
    TRef.nullary (TRef.of (T := ⟨S_, .f32⟩) main_call4_cst) (constant S_ .f32 0xFF800000#32),
    TRef.binary (TRef.of (T := ⟨S4096x10257, .f32⟩) main_v59) (TRef.of (T := ⟨S_, .f32⟩) main_call4_cst) (TRef.of (T := ⟨S4096, .f32⟩) main_call4_v0) (fun x v => Host.reduce FloatOps.maximumf x v reducesTo_S4096x10257_S4096_d1 h_S_),
    TRef.nullary (TRef.of (T := ⟨S_, .f32⟩) main_call4_cst_0) (constant S_ .f32 0xFF800000#32),
    TRef.unary (TRef.of (T := ⟨S_, .f32⟩) main_call4_cst_0) (TRef.of (T := ⟨S4096, .f32⟩) main_call4_v1) (broadcastInDim S4096 ![] bcast_S_S4096),
    TRef.binary (TRef.of (T := ⟨S4096, .f32⟩) main_call4_v1) (TRef.of (T := ⟨S4096, .f32⟩) main_call4_v0) (TRef.of (T := ⟨S4096, .f32⟩) main_call4_v2) maximumf,
    TRef.unary (TRef.of (T := ⟨S4096, .f32⟩) main_call4_v2) (TRef.of (T := ⟨S4096x1, .f32⟩) main_call4_v3) (broadcastInDim S4096x1 ![0] bcast_S4096_S4096x1_0),
    TRef.unary (TRef.of (T := ⟨S4096x1, .f32⟩) main_call4_v3) (TRef.of (T := ⟨S4096x10257, .f32⟩) main_call4_v4) (broadcastInDim S4096x10257 ![0, 1] bcast_S4096x1_S4096x10257_0_1),
    TRef.binary (TRef.of (T := ⟨S4096x10257, .f32⟩) main_v59) (TRef.of (T := ⟨S4096x10257, .f32⟩) main_call4_v4) (TRef.of (T := ⟨S4096x10257, .f32⟩) main_call4_v5) subf,
    TRef.unary (TRef.of (T := ⟨S4096x10257, .f32⟩) main_call4_v5) (TRef.of (T := ⟨S4096x10257, .f32⟩) main_call4_v6) Host.exp,
    TRef.nullary (TRef.of (T := ⟨S_, .f32⟩) main_call4_cst_1) (constant S_ .f32 0x00000000#32),
    TRef.binary (TRef.of (T := ⟨S4096x10257, .f32⟩) main_call4_v6) (TRef.of (T := ⟨S_, .f32⟩) main_call4_cst_1) (TRef.of (T := ⟨S4096, .f32⟩) main_call4_v7) (fun x v => Host.reduceAdd x v reducesTo_S4096x10257_S4096_d1 h_S_),
    TRef.unary (TRef.of (T := ⟨S4096, .f32⟩) main_call4_v7) (TRef.of (T := ⟨S4096x1, .f32⟩) main_call4_v8) (broadcastInDim S4096x1 ![0] bcast_S4096_S4096x1_0),
    TRef.unary (TRef.of (T := ⟨S4096x1, .f32⟩) main_call4_v8) (TRef.of (T := ⟨S4096x1, .f32⟩) main_call4_v9) Host.log,
    TRef.unary (TRef.of (T := ⟨S4096x1, .f32⟩) main_call4_v9) (TRef.of (T := ⟨S4096x10257, .f32⟩) main_call4_v10) (broadcastInDim S4096x10257 ![0, 1] bcast_S4096x1_S4096x10257_0_1),
    TRef.binary (TRef.of (T := ⟨S4096x10257, .f32⟩) main_call4_v5) (TRef.of (T := ⟨S4096x10257, .f32⟩) main_call4_v10) (TRef.of (T := ⟨S4096x10257, .f32⟩) main_v60) subf,
    unary main_v6 main_v61 ((extractStridedSlice S4096x1 ![0, 20001] · slices_S4096x20002_S4096x1_0_20001) : (⟨S4096x20002, .f32⟩ : BufTy).Contents (Elt F) → (⟨S4096x1, .f32⟩ : BufTy).Contents (Elt F)),
    reshape main_v61 main_v62 rfl shapeCasts_S4096x1_S4096,
    nullary main_c_14 (constantI S_ 32 40000#32),
    unary main_c_14 main_v63 (broadcastInDim S4096 ![] bcast_S_S4096 : (⟨S_, .i32⟩ : BufTy).Contents (Elt F) → (⟨S4096, .i32⟩ : BufTy).Contents (Elt F)),
    binary main_arg1 main_v63 main_v64 (subi : (⟨S4096, .i32⟩ : BufTy).Contents (Elt F) → (⟨S4096, .i32⟩ : BufTy).Contents (Elt F) → (⟨S4096, .i32⟩ : BufTy).Contents (Elt F)),
    nullary main_c_15 (constantI S_ 32 0#32),
    TRef.unary (TRef.of (T := ⟨S_, .i32⟩) main_c_15) (TRef.of (T := ⟨S_, .i32⟩) main_call5_v0) id,
    TRef.unary (TRef.of (T := ⟨S_, .i32⟩) main_call5_v0) (TRef.of (T := ⟨S4096, .i32⟩) main_call5_v1) (broadcastInDim S4096 ![] bcast_S_S4096),
    TRef.ternary (TRef.of (T := ⟨S4096, .i1⟩) main_v55) (TRef.of (T := ⟨S4096, .i32⟩) main_v64) (TRef.of (T := ⟨S4096, .i32⟩) main_call5_v1) (TRef.of (T := ⟨S4096, .i32⟩) main_v65) select,
    nullary main_c_16 (constantI S_ 32 0#32),
    unary main_c_16 main_v66 (broadcastInDim S4096 ![] bcast_S_S4096 : (⟨S_, .i32⟩ : BufTy).Contents (Elt F) → (⟨S4096, .i32⟩ : BufTy).Contents (Elt F)),
    binary main_v0 main_v66 main_v67 (cmpi .slt : (⟨S4096, .i32⟩ : BufTy).Contents (Elt F) → (⟨S4096, .i32⟩ : BufTy).Contents (Elt F) → (⟨S4096, .i1⟩ : BufTy).Contents (Elt F)),
    nullary main_c_17 (constantI S_ 32 4096#32),
    unary main_c_17 main_v68 (broadcastInDim S4096 ![] bcast_S_S4096 : (⟨S_, .i32⟩ : BufTy).Contents (Elt F) → (⟨S4096, .i32⟩ : BufTy).Contents (Elt F)),
    binary main_v0 main_v68 main_v69 (addi : (⟨S4096, .i32⟩ : BufTy).Contents (Elt F) → (⟨S4096, .i32⟩ : BufTy).Contents (Elt F) → (⟨S4096, .i32⟩ : BufTy).Contents (Elt F)),
    ternary main_v67 main_v69 main_v0 main_v70 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_18 (constantI S_ 32 0#32),
    unary main_c_18 main_v71 (broadcastInDim S4096 ![] bcast_S_S4096 : (⟨S_, .i32⟩ : BufTy).Contents (Elt F) → (⟨S4096, .i32⟩ : BufTy).Contents (Elt F)),
    binary main_v65 main_v71 main_v72 (cmpi .slt : (⟨S4096, .i32⟩ : BufTy).Contents (Elt F) → (⟨S4096, .i32⟩ : BufTy).Contents (Elt F) → (⟨S4096, .i1⟩ : BufTy).Contents (Elt F)),
    nullary main_c_19 (constantI S_ 32 10257#32),
    unary main_c_19 main_v73 (broadcastInDim S4096 ![] bcast_S_S4096 : (⟨S_, .i32⟩ : BufTy).Contents (Elt F) → (⟨S4096, .i32⟩ : BufTy).Contents (Elt F)),
    binary main_v65 main_v73 main_v74 (addi : (⟨S4096, .i32⟩ : BufTy).Contents (Elt F) → (⟨S4096, .i32⟩ : BufTy).Contents (Elt F) → (⟨S4096, .i32⟩ : BufTy).Contents (Elt F)),
    ternary main_v72 main_v74 main_v65 main_v75 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    unary main_v70 main_v76 (broadcastInDim S4096x1 ![0] bcast_S4096_S4096x1_0 : (⟨S4096, .i32⟩ : BufTy).Contents (Elt F) → (⟨S4096x1, .i32⟩ : BufTy).Contents (Elt F)),
    unary main_v75 main_v77 (broadcastInDim S4096x1 ![0] bcast_S4096_S4096x1_0 : (⟨S4096, .i32⟩ : BufTy).Contents (Elt F) → (⟨S4096x1, .i32⟩ : BufTy).Contents (Elt F)) ]

set_option maxRecDepth 8192 in

theorem ops3_sub : (ops3 : List (HloOp τ sig (Elt F))).Forall fun op => op.bufs ⊆ tcRefs τ sig :=
  ⟨binary_bufs_sub .., binary_bufs_sub .., binary_bufs_sub .., nullary_bufs_sub .., unary_bufs_sub .., binary_bufs_sub .., unary_bufs_sub .., binary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., reshape_bufs_sub .., nullary_bufs_sub .., unary_bufs_sub .., binary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub ..⟩

set_option maxRecDepth 8192 in

theorem ops3_fresh : (ops3 : List (HloOp τ sig (Elt F))).Forall fun op => op.fresh = ∅ := by
  simp only [List.Forall]; repeat' constructor

end Cert.ReferenceIdeal.HandRun

end
-- ==== Proof.Ref.Stage3.lean ====
import proofs.«402100_j83614423319285_2_alg».proof.Proof.Ref.Ops3
import proofs.«402100_j83614423319285_2_alg».proof.Proof.Ref.ReadP
import proofs.«402100_j83614423319285_2_alg».proof.Proof.Ref.Typed
import Idealize.ShloMosaic.Lib.Pipeline.Frame

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

variable (V : Valuation τ sig (Elt F)) (x0 : (⟨S4096x1024, .f32⟩ : BufTy).Contents (Elt F)) (x1 : (⟨S4096, .i32⟩ : BufTy).Contents (Elt F)) (x2 : (⟨S20000x1024, .f32⟩ : BufTy).Contents (Elt F)) (x3 : (⟨S2x1024, .f32⟩ : BufTy).Contents (Elt F)) (x4 : (⟨S256x1024, .f32⟩ : BufTy).Contents (Elt F)) (x5 : (⟨S20000x256, .f32⟩ : BufTy).Contents (Elt F)) (x6 : (⟨S64x1024, .f32⟩ : BufTy).Contents (Elt F)) (x7 : (⟨S10257x64, .f32⟩ : BufTy).Contents (Elt F))

abbrev ops3_0 : List (HloOp τ sig (Elt F)) :=
  [ binary main_v49 main_v50 main_v51 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v33 main_v51 main_v52 ((fun x i => Host.gather gather_S4096x20000_S4096x2_S4096_n_01_n_n_01_1_11 x i) : (⟨S4096x20000, .f32⟩ : BufTy).Contents (Elt F) → (⟨S4096x2, .i32⟩ : BufTy).Contents (Elt F) → (⟨S4096, .f32⟩ : BufTy).Contents (Elt F)),
    binary main_v35 main_v52 main_v53 (addf : (⟨S4096, .f32⟩ : BufTy).Contents (Elt F) → (⟨S4096, .f32⟩ : BufTy).Contents (Elt F) → (⟨S4096, .f32⟩ : BufTy).Contents (Elt F)),
    nullary main_c_13 (constantI S_ 32 40000#32),
    unary main_c_13 main_v54 (broadcastInDim S4096 ![] bcast_S_S4096 : (⟨S_, .i32⟩ : BufTy).Contents (Elt F) → (⟨S4096, .i32⟩ : BufTy).Contents (Elt F)),
    binary main_arg1 main_v54 main_v55 (cmpi .sge : (⟨S4096, .i32⟩ : BufTy).Contents (Elt F) → (⟨S4096, .i32⟩ : BufTy).Contents (Elt F) → (⟨S4096, .i1⟩ : BufTy).Contents (Elt F)),
    unary main_arg6 main_v56 ((transpose S1024x64 [1, 0] · transposes_S64x1024_S1024x64_1_0) : (⟨S64x1024, .f32⟩ : BufTy).Contents (Elt F) → (⟨S1024x64, .f32⟩ : BufTy).Contents (Elt F)),
    binary main_arg0 main_v56 main_v57 ((fun l r => Host.dotGeneral dot_S4096x1024_S1024x64_S4096x64_1_0_0_1_n_n none l r) : (⟨S4096x1024, .f32⟩ : BufTy).Contents (Elt F) → (⟨S1024x64, .f32⟩ : BufTy).Contents (Elt F) → (⟨S4096x64, .f32⟩ : BufTy).Contents (Elt F)) ]

theorem k3_0_arg1 : after ops3_0 V main_arg1 = V main_arg1 := by
  after_results_simp
theorem k3_0_arg7 : after ops3_0 V main_arg7 = V main_arg7 := by
  after_results_simp
theorem k3_0_v6 : after ops3_0 V main_v6 = V main_v6 := by
  after_results_simp
theorem k3_0_v0 : after ops3_0 V main_v0 = V main_v0 := by
  after_results_simp
theorem k3_0_v8 : after ops3_0 V main_v8 = V main_v8 := by
  after_results_simp
theorem k3_0_v23 : after ops3_0 V main_v23 = V main_v23 := by
  after_results_simp
theorem k3_0_v28 : after ops3_0 V main_v28 = V main_v28 := by
  after_results_simp

section
include x0 x1 x2 x3 x4 x5 x6 x7
theorem o3_0_v53
    (h_v35 : V main_v35 = val_main_v35 (F := F) x0 x2 x3) (h_v33 : V main_v33 = val_main_v33 (F := F) x0 x4 x5) (h_v49 : V main_v49 = val_main_v49 (F := F)) (h_v50 : V main_v50 = val_main_v50 (F := F) x1) :
    after ops3_0 V main_v53 = val_main_v53 (F := F) x0 x1 x2 x3 x4 x5 := by
  after_results_simp
  all_goals (try rw [h_v35, h_v33, h_v49, h_v50])
  all_goals rfl

theorem o3_0_v55
    (a1 : V main_arg1 = x1) :
    after ops3_0 V main_v55 = val_main_v55 (F := F) x1 := by
  after_results_simp
  all_goals (try rw [a1])
  all_goals rfl

theorem o3_0_v57
    (a0 : V main_arg0 = x0) (a6 : V main_arg6 = x6) :
    after ops3_0 V main_v57 = val_main_v57 (F := F) x0 x6 := by
  after_results_simp
  all_goals (try rw [a0, a6])
  all_goals rfl
end

abbrev ops3_1 : List (HloOp τ sig (Elt F)) :=
  [ unary main_arg7 main_v58 ((transpose S64x10257 [1, 0] · transposes_S10257x64_S64x10257_1_0) : (⟨S10257x64, .f32⟩ : BufTy).Contents (Elt F) → (⟨S64x10257, .f32⟩ : BufTy).Contents (Elt F)),
    binary main_v57 main_v58 main_v59 ((fun l r => Host.dotGeneral dot_S4096x64_S64x10257_S4096x10257_1_0_0_1_n_n none l r) : (⟨S4096x64, .f32⟩ : BufTy).Contents (Elt F) → (⟨S64x10257, .f32⟩ : BufTy).Contents (Elt F) → (⟨S4096x10257, .f32⟩ : BufTy).Contents (Elt F)),
    nullary main_call4_cst ((constant S_ .f32 0xFF800000#32) : (⟨S_, .f32⟩ : BufTy).Contents (Elt F)),
    binary main_v59 main_call4_cst main_call4_v0 ((fun x v => Host.reduce FloatOps.maximumf x v reducesTo_S4096x10257_S4096_d1 h_S_) : (⟨S4096x10257, .f32⟩ : BufTy).Contents (Elt F) → (⟨S_, .f32⟩ : BufTy).Contents (Elt F) → (⟨S4096, .f32⟩ : BufTy).Contents (Elt F)),
    nullary main_call4_cst_0 ((constant S_ .f32 0xFF800000#32) : (⟨S_, .f32⟩ : BufTy).Contents (Elt F)),
    unary main_call4_cst_0 main_call4_v1 ((broadcastInDim S4096 ![] bcast_S_S4096) : (⟨S_, .f32⟩ : BufTy).Contents (Elt F) → (⟨S4096, .f32⟩ : BufTy).Contents (Elt F)),
    binary main_call4_v1 main_call4_v0 main_call4_v2 (maximumf : (⟨S4096, .f32⟩ : BufTy).Contents (Elt F) → (⟨S4096, .f32⟩ : BufTy).Contents (Elt F) → (⟨S4096, .f32⟩ : BufTy).Contents (Elt F)),
    unary main_call4_v2 main_call4_v3 ((broadcastInDim S4096x1 ![0] bcast_S4096_S4096x1_0) : (⟨S4096, .f32⟩ : BufTy).Contents (Elt F) → (⟨S4096x1, .f32⟩ : BufTy).Contents (Elt F)) ]

theorem k3_1_v6 : after ops3_1 V main_v6 = V main_v6 := by
  after_results_simp
theorem k3_1_arg1 : after ops3_1 V main_arg1 = V main_arg1 := by
  after_results_simp
theorem k3_1_v55 : after ops3_1 V main_v55 = V main_v55 := by
  after_results_simp
theorem k3_1_v0 : after ops3_1 V main_v0 = V main_v0 := by
  after_results_simp
theorem k3_1_v8 : after ops3_1 V main_v8 = V main_v8 := by
  after_results_simp
theorem k3_1_v23 : after ops3_1 V main_v23 = V main_v23 := by
  after_results_simp
theorem k3_1_v28 : after ops3_1 V main_v28 = V main_v28 := by
  after_results_simp
theorem k3_1_v53 : after ops3_1 V main_v53 = V main_v53 := by
  after_results_simp

section
include x0 x1 x2 x3 x4 x5 x6 x7
theorem o3_1_v59
    (h_v57 : V main_v57 = val_main_v57 (F := F) x0 x6) (a7 : V main_arg7 = x7) :
    after ops3_1 V main_v59 = val_main_v59 (F := F) x0 x6 x7 := by
  after_results_simp
  all_goals (try rw [h_v57, a7])
  all_goals rfl

theorem o3_1_call4_v3
    (h_v57 : V main_v57 = val_main_v57 (F := F) x0 x6) (a7 : V main_arg7 = x7) :
    after ops3_1 V main_call4_v3 = val_main_call4_v3 (F := F) x0 x6 x7 := by
  after_results_simp
  all_goals (try rw [h_v57, a7])
  all_goals rfl
end

abbrev ops3_2 : List (HloOp τ sig (Elt F)) :=
  [ unary main_call4_v3 main_call4_v4 ((broadcastInDim S4096x10257 ![0, 1] bcast_S4096x1_S4096x10257_0_1) : (⟨S4096x1, .f32⟩ : BufTy).Contents (Elt F) → (⟨S4096x10257, .f32⟩ : BufTy).Contents (Elt F)),
    binary main_v59 main_call4_v4 main_call4_v5 (subf : (⟨S4096x10257, .f32⟩ : BufTy).Contents (Elt F) → (⟨S4096x10257, .f32⟩ : BufTy).Contents (Elt F) → (⟨S4096x10257, .f32⟩ : BufTy).Contents (Elt F)),
    unary main_call4_v5 main_call4_v6 (Host.exp : (⟨S4096x10257, .f32⟩ : BufTy).Contents (Elt F) → (⟨S4096x10257, .f32⟩ : BufTy).Contents (Elt F)),
    nullary main_call4_cst_1 ((constant S_ .f32 0x00000000#32) : (⟨S_, .f32⟩ : BufTy).Contents (Elt F)),
    binary main_call4_v6 main_call4_cst_1 main_call4_v7 ((fun x v => Host.reduceAdd x v reducesTo_S4096x10257_S4096_d1 h_S_) : (⟨S4096x10257, .f32⟩ : BufTy).Contents (Elt F) → (⟨S_, .f32⟩ : BufTy).Contents (Elt F) → (⟨S4096, .f32⟩ : BufTy).Contents (Elt F)),
    unary main_call4_v7 main_call4_v8 ((broadcastInDim S4096x1 ![0] bcast_S4096_S4096x1_0) : (⟨S4096, .f32⟩ : BufTy).Contents (Elt F) → (⟨S4096x1, .f32⟩ : BufTy).Contents (Elt F)),
    unary main_call4_v8 main_call4_v9 (Host.log : (⟨S4096x1, .f32⟩ : BufTy).Contents (Elt F) → (⟨S4096x1, .f32⟩ : BufTy).Contents (Elt F)),
    unary main_call4_v9 main_call4_v10 ((broadcastInDim S4096x10257 ![0, 1] bcast_S4096x1_S4096x10257_0_1) : (⟨S4096x1, .f32⟩ : BufTy).Contents (Elt F) → (⟨S4096x10257, .f32⟩ : BufTy).Contents (Elt F)) ]

theorem k3_2_v6 : after ops3_2 V main_v6 = V main_v6 := by
  after_results_simp
theorem k3_2_arg1 : after ops3_2 V main_arg1 = V main_arg1 := by
  after_results_simp
theorem k3_2_v55 : after ops3_2 V main_v55 = V main_v55 := by
  after_results_simp
theorem k3_2_v0 : after ops3_2 V main_v0 = V main_v0 := by
  after_results_simp
theorem k3_2_v8 : after ops3_2 V main_v8 = V main_v8 := by
  after_results_simp
theorem k3_2_v23 : after ops3_2 V main_v23 = V main_v23 := by
  after_results_simp
theorem k3_2_v28 : after ops3_2 V main_v28 = V main_v28 := by
  after_results_simp
theorem k3_2_v53 : after ops3_2 V main_v53 = V main_v53 := by
  after_results_simp

section
include x0 x1 x2 x3 x4 x5 x6 x7
theorem o3_2_call4_v5
    (h_v59 : V main_v59 = val_main_v59 (F := F) x0 x6 x7) (h_call4_v3 : V main_call4_v3 = val_main_call4_v3 (F := F) x0 x6 x7) :
    after ops3_2 V main_call4_v5 = val_main_call4_v5 (F := F) x0 x6 x7 := by
  after_results_simp
  all_goals (try rw [h_v59, h_call4_v3])
  all_goals rfl

theorem o3_2_call4_v10
    (h_v59 : V main_v59 = val_main_v59 (F := F) x0 x6 x7) (h_call4_v3 : V main_call4_v3 = val_main_call4_v3 (F := F) x0 x6 x7) :
    after ops3_2 V main_call4_v10 = val_main_call4_v10 (F := F) x0 x6 x7 := by
  after_results_simp
  all_goals (try rw [h_v59, h_call4_v3])
  all_goals rfl
end

abbrev ops3_3 : List (HloOp τ sig (Elt F)) :=
  [ binary main_call4_v5 main_call4_v10 main_v60 (subf : (⟨S4096x10257, .f32⟩ : BufTy).Contents (Elt F) → (⟨S4096x10257, .f32⟩ : BufTy).Contents (Elt F) → (⟨S4096x10257, .f32⟩ : BufTy).Contents (Elt F)),
    unary main_v6 main_v61 ((extractStridedSlice S4096x1 ![0, 20001] · slices_S4096x20002_S4096x1_0_20001) : (⟨S4096x20002, .f32⟩ : BufTy).Contents (Elt F) → (⟨S4096x1, .f32⟩ : BufTy).Contents (Elt F)),
    reshape main_v61 main_v62 rfl shapeCasts_S4096x1_S4096,
    nullary main_c_14 (constantI S_ 32 40000#32),
    unary main_c_14 main_v63 (broadcastInDim S4096 ![] bcast_S_S4096 : (⟨S_, .i32⟩ : BufTy).Contents (Elt F) → (⟨S4096, .i32⟩ : BufTy).Contents (Elt F)),
    binary main_arg1 main_v63 main_v64 (subi : (⟨S4096, .i32⟩ : BufTy).Contents (Elt F) → (⟨S4096, .i32⟩ : BufTy).Contents (Elt F) → (⟨S4096, .i32⟩ : BufTy).Contents (Elt F)),
    nullary main_c_15 (constantI S_ 32 0#32),
    unary main_c_15 main_call5_v0 (id : (⟨S_, .i32⟩ : BufTy).Contents (Elt F) → (⟨S_, .i32⟩ : BufTy).Contents (Elt F)) ]

theorem k3_3_v55 : after ops3_3 V main_v55 = V main_v55 := by
  after_results_simp
theorem k3_3_v0 : after ops3_3 V main_v0 = V main_v0 := by
  after_results_simp
theorem k3_3_v8 : after ops3_3 V main_v8 = V main_v8 := by
  after_results_simp
theorem k3_3_v23 : after ops3_3 V main_v23 = V main_v23 := by
  after_results_simp
theorem k3_3_v28 : after ops3_3 V main_v28 = V main_v28 := by
  after_results_simp
theorem k3_3_v53 : after ops3_3 V main_v53 = V main_v53 := by
  after_results_simp

section
include x0 x1 x2 x3 x4 x5 x6 x7
theorem o3_3_v60
    (h_call4_v5 : V main_call4_v5 = val_main_call4_v5 (F := F) x0 x6 x7) (h_call4_v10 : V main_call4_v10 = val_main_call4_v10 (F := F) x0 x6 x7) :
    after ops3_3 V main_v60 = val_main_v60 (F := F) x0 x6 x7 := by
  after_results_simp
  all_goals (try rw [h_call4_v5, h_call4_v10])
  all_goals rfl

theorem o3_3_v62
    (h_v6 : V main_v6 = val_main_v6 (F := F) x0 x2 x3) :
    after ops3_3 V main_v62 = val_main_v62 (F := F) x0 x2 x3 := by
  after_results_simp
  all_goals (try rw [h_v6])
  all_goals rfl

theorem o3_3_v64
    (a1 : V main_arg1 = x1) :
    after ops3_3 V main_v64 = val_main_v64 (F := F) x1 := by
  after_results_simp
  all_goals (try rw [a1])
  all_goals rfl

theorem o3_3_call5_v0
     :
    after ops3_3 V main_call5_v0 = val_main_call5_v0 (F := F) := by
  after_results_simp
  all_goals rfl
end

abbrev ops3_4 : List (HloOp τ sig (Elt F)) :=
  [ unary main_call5_v0 main_call5_v1 ((broadcastInDim S4096 ![] bcast_S_S4096) : (⟨S_, .i32⟩ : BufTy).Contents (Elt F) → (⟨S4096, .i32⟩ : BufTy).Contents (Elt F)),
    ternary main_v55 main_v64 main_call5_v1 main_v65 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_16 (constantI S_ 32 0#32),
    unary main_c_16 main_v66 (broadcastInDim S4096 ![] bcast_S_S4096 : (⟨S_, .i32⟩ : BufTy).Contents (Elt F) → (⟨S4096, .i32⟩ : BufTy).Contents (Elt F)),
    binary main_v0 main_v66 main_v67 (cmpi .slt : (⟨S4096, .i32⟩ : BufTy).Contents (Elt F) → (⟨S4096, .i32⟩ : BufTy).Contents (Elt F) → (⟨S4096, .i1⟩ : BufTy).Contents (Elt F)),
    nullary main_c_17 (constantI S_ 32 4096#32),
    unary main_c_17 main_v68 (broadcastInDim S4096 ![] bcast_S_S4096 : (⟨S_, .i32⟩ : BufTy).Contents (Elt F) → (⟨S4096, .i32⟩ : BufTy).Contents (Elt F)),
    binary main_v0 main_v68 main_v69 (addi : (⟨S4096, .i32⟩ : BufTy).Contents (Elt F) → (⟨S4096, .i32⟩ : BufTy).Contents (Elt F) → (⟨S4096, .i32⟩ : BufTy).Contents (Elt F)) ]

theorem k3_4_v55 : after ops3_4 V main_v55 = V main_v55 := by
  after_results_simp
theorem k3_4_v0 : after ops3_4 V main_v0 = V main_v0 := by
  after_results_simp
theorem k3_4_v60 : after ops3_4 V main_v60 = V main_v60 := by
  after_results_simp
theorem k3_4_v62 : after ops3_4 V main_v62 = V main_v62 := by
  after_results_simp
theorem k3_4_v8 : after ops3_4 V main_v8 = V main_v8 := by
  after_results_simp
theorem k3_4_v23 : after ops3_4 V main_v23 = V main_v23 := by
  after_results_simp
theorem k3_4_v28 : after ops3_4 V main_v28 = V main_v28 := by
  after_results_simp
theorem k3_4_v53 : after ops3_4 V main_v53 = V main_v53 := by
  after_results_simp

section
include x0 x1 x2 x3 x4 x5 x6 x7
theorem o3_4_v65
    (h_v55 : V main_v55 = val_main_v55 (F := F) x1) (h_v64 : V main_v64 = val_main_v64 (F := F) x1) (h_call5_v0 : V main_call5_v0 = val_main_call5_v0 (F := F)) :
    after ops3_4 V main_v65 = val_main_v65 (F := F) x1 := by
  after_results_simp
  all_goals (try rw [h_v55, h_v64, h_call5_v0])
  all_goals rfl

theorem o3_4_v67
    (h_v0 : V main_v0 = val_main_v0 (F := F)) :
    after ops3_4 V main_v67 = val_main_v67 (F := F) := by
  after_results_simp
  all_goals (try rw [h_v0])
  all_goals rfl

theorem o3_4_v69
    (h_v0 : V main_v0 = val_main_v0 (F := F)) :
    after ops3_4 V main_v69 = val_main_v69 (F := F) := by
  after_results_simp
  all_goals (try rw [h_v0])
  all_goals rfl
end

abbrev ops3_5 : List (HloOp τ sig (Elt F)) :=
  [ ternary main_v67 main_v69 main_v0 main_v70 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    nullary main_c_18 (constantI S_ 32 0#32),
    unary main_c_18 main_v71 (broadcastInDim S4096 ![] bcast_S_S4096 : (⟨S_, .i32⟩ : BufTy).Contents (Elt F) → (⟨S4096, .i32⟩ : BufTy).Contents (Elt F)),
    binary main_v65 main_v71 main_v72 (cmpi .slt : (⟨S4096, .i32⟩ : BufTy).Contents (Elt F) → (⟨S4096, .i32⟩ : BufTy).Contents (Elt F) → (⟨S4096, .i1⟩ : BufTy).Contents (Elt F)),
    nullary main_c_19 (constantI S_ 32 10257#32),
    unary main_c_19 main_v73 (broadcastInDim S4096 ![] bcast_S_S4096 : (⟨S_, .i32⟩ : BufTy).Contents (Elt F) → (⟨S4096, .i32⟩ : BufTy).Contents (Elt F)),
    binary main_v65 main_v73 main_v74 (addi : (⟨S4096, .i32⟩ : BufTy).Contents (Elt F) → (⟨S4096, .i32⟩ : BufTy).Contents (Elt F) → (⟨S4096, .i32⟩ : BufTy).Contents (Elt F)),
    ternary main_v72 main_v74 main_v65 main_v75 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)) ]

theorem k3_5_v60 : after ops3_5 V main_v60 = V main_v60 := by
  after_results_simp
theorem k3_5_v62 : after ops3_5 V main_v62 = V main_v62 := by
  after_results_simp
theorem k3_5_v8 : after ops3_5 V main_v8 = V main_v8 := by
  after_results_simp
theorem k3_5_v23 : after ops3_5 V main_v23 = V main_v23 := by
  after_results_simp
theorem k3_5_v28 : after ops3_5 V main_v28 = V main_v28 := by
  after_results_simp
theorem k3_5_v53 : after ops3_5 V main_v53 = V main_v53 := by
  after_results_simp
theorem k3_5_v55 : after ops3_5 V main_v55 = V main_v55 := by
  after_results_simp

section
include x0 x1 x2 x3 x4 x5 x6 x7
theorem o3_5_v70
    (h_v67 : V main_v67 = val_main_v67 (F := F)) (h_v69 : V main_v69 = val_main_v69 (F := F)) (h_v0 : V main_v0 = val_main_v0 (F := F)) :
    after ops3_5 V main_v70 = val_main_v70 (F := F) := by
  after_results_simp
  all_goals (try rw [h_v67, h_v69, h_v0])
  all_goals rfl

theorem o3_5_v75
    (h_v65 : V main_v65 = val_main_v65 (F := F) x1) :
    after ops3_5 V main_v75 = val_main_v75 (F := F) x1 := by
  after_results_simp
  all_goals (try rw [h_v65])
  all_goals rfl
end

abbrev ops3_6 : List (HloOp τ sig (Elt F)) :=
  [ unary main_v70 main_v76 (broadcastInDim S4096x1 ![0] bcast_S4096_S4096x1_0 : (⟨S4096, .i32⟩ : BufTy).Contents (Elt F) → (⟨S4096x1, .i32⟩ : BufTy).Contents (Elt F)),
    unary main_v75 main_v77 (broadcastInDim S4096x1 ![0] bcast_S4096_S4096x1_0 : (⟨S4096, .i32⟩ : BufTy).Contents (Elt F) → (⟨S4096x1, .i32⟩ : BufTy).Contents (Elt F)) ]

theorem k3_6_v60 : after ops3_6 V main_v60 = V main_v60 := by
  after_results_simp
theorem k3_6_v62 : after ops3_6 V main_v62 = V main_v62 := by
  after_results_simp
theorem k3_6_v8 : after ops3_6 V main_v8 = V main_v8 := by
  after_results_simp
theorem k3_6_v23 : after ops3_6 V main_v23 = V main_v23 := by
  after_results_simp
theorem k3_6_v28 : after ops3_6 V main_v28 = V main_v28 := by
  after_results_simp
theorem k3_6_v53 : after ops3_6 V main_v53 = V main_v53 := by
  after_results_simp
theorem k3_6_v55 : after ops3_6 V main_v55 = V main_v55 := by
  after_results_simp

section
include x0 x1 x2 x3 x4 x5 x6 x7
theorem o3_6_v76
    (h_v70 : V main_v70 = val_main_v70 (F := F)) :
    after ops3_6 V main_v76 = val_main_v76 (F := F) := by
  after_results_simp
  all_goals (try rw [h_v70])
  all_goals rfl

theorem o3_6_v77
    (h_v75 : V main_v75 = val_main_v75 (F := F) x1) :
    after ops3_6 V main_v77 = val_main_v77 (F := F) x1 := by
  after_results_simp
  all_goals (try rw [h_v75])
  all_goals rfl
end

theorem ops3_steps : (ops3 : List (HloOp τ sig (Elt F))) = ops3_0 ++ ops3_1 ++ ops3_2 ++ ops3_3 ++ ops3_4 ++ ops3_5 ++ ops3_6 :=
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons rfl <|
  congrArg₂ List.cons (nullary_of _ (by decide) (by rfl) _) <|
  congrArg₂ List.cons (binary_of _ _ _ (by decide) (by rfl) (by decide) (by rfl) (by decide) (by rfl) _) <|
  congrArg₂ List.cons (nullary_of _ (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (nullary_of _ (by decide) (by rfl) _) <|
  congrArg₂ List.cons (binary_of _ _ _ (by decide) (by rfl) (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (unary_of _ _ (by decide) (by rfl) (by decide) (by rfl) _) <|
  congrArg₂ List.cons (binary_of _ _ _ (by decide) (by rfl) (by decide) (by rfl) (by decide) (by rfl) _) <|
  congrArg₂ List.cons rfl <|
  congrArg₂ List.cons rfl <|
  congrArg₂ List.cons rfl <|
  congrArg₂ List.cons rfl <|
  congrArg₂ List.cons rfl <|
  congrArg₂ List.cons rfl <|
  congrArg₂ List.cons (unary_of _ _ (by decide) (by rfl) (by decide) (by rfl) _) <|
  congrArg₂ List.cons (unary_of _ _ (by decide) (by rfl) (by decide) (by rfl) _) <|
  congrArg₂ List.cons (ternary_of _ _ _ _ (by decide) (by rfl) (by decide) (by rfl) (by decide) (by rfl) (by decide) (by rfl) _) <|
  congrArg₂ List.cons rfl <|
  congrArg₂ List.cons rfl <|
  congrArg₂ List.cons rfl <|
  congrArg₂ List.cons rfl <|
  congrArg₂ List.cons rfl <|
  congrArg₂ List.cons rfl <|
  rfl

theorem after3_split :
    after ops3 V = after ops3_6 (after ops3_5 (after ops3_4 (after ops3_3 (after ops3_2 (after ops3_1 (after ops3_0 (V))))))) := by
  rw [ops3_steps, StableHlo.after_append, StableHlo.after_append, StableHlo.after_append, StableHlo.after_append, StableHlo.after_append, StableHlo.after_append]

end Cert.ReferenceIdeal.HandRun

end
-- ==== Proof.Ref.Ops4.lean ====
import proofs.«402100_j83614423319285_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops4 : List (HloOp τ sig (Elt F)) :=
  [ binary main_v76 main_v77 main_v78 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v60 main_v78 main_v79 ((fun x i => Host.gather gather_S4096x10257_S4096x2_S4096_n_01_n_n_01_1_11 x i) : (⟨S4096x10257, .f32⟩ : BufTy).Contents (Elt F) → (⟨S4096x2, .i32⟩ : BufTy).Contents (Elt F) → (⟨S4096, .f32⟩ : BufTy).Contents (Elt F)),
    binary main_v62 main_v79 main_v80 (addf : (⟨S4096, .f32⟩ : BufTy).Contents (Elt F) → (⟨S4096, .f32⟩ : BufTy).Contents (Elt F) → (⟨S4096, .f32⟩ : BufTy).Contents (Elt F)),
    nullary main_cst (constant S_ .f32 0x00000000#32),
    TRef.unary (TRef.of (T := ⟨S_, .f32⟩) main_cst) (TRef.of (T := ⟨S4096, .f32⟩) main_call6_v0) (broadcastInDim S4096 ![] bcast_S_S4096),
    TRef.ternary (TRef.of (T := ⟨S4096, .i1⟩) main_v8) (TRef.of (T := ⟨S4096, .f32⟩) main_v23) (TRef.of (T := ⟨S4096, .f32⟩) main_call6_v0) (TRef.of (T := ⟨S4096, .f32⟩) main_v81) select,
    nullary main_cst_20 (constant S_ .f32 0x00000000#32),
    binary main_v81 main_cst_20 main_v82 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_21 (constant S_ .f32 0x00000000#32),
    TRef.unary (TRef.of (T := ⟨S_, .f32⟩) main_cst_21) (TRef.of (T := ⟨S4096, .f32⟩) main_call7_v0) (broadcastInDim S4096 ![] bcast_S_S4096),
    TRef.ternary (TRef.of (T := ⟨S4096, .i1⟩) main_v28) (TRef.of (T := ⟨S4096, .f32⟩) main_v53) (TRef.of (T := ⟨S4096, .f32⟩) main_call7_v0) (TRef.of (T := ⟨S4096, .f32⟩) main_v83) select,
    nullary main_cst_22 (constant S_ .f32 0x00000000#32),
    binary main_v83 main_cst_22 main_v84 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    binary main_v82 main_v84 main_v85 (addf : (⟨S_, .f32⟩ : BufTy).Contents (Elt F) → (⟨S_, .f32⟩ : BufTy).Contents (Elt F) → (⟨S_, .f32⟩ : BufTy).Contents (Elt F)),
    nullary main_cst_23 (constant S_ .f32 0x00000000#32),
    TRef.unary (TRef.of (T := ⟨S_, .f32⟩) main_cst_23) (TRef.of (T := ⟨S4096, .f32⟩) main_call8_v0) (broadcastInDim S4096 ![] bcast_S_S4096),
    TRef.ternary (TRef.of (T := ⟨S4096, .i1⟩) main_v55) (TRef.of (T := ⟨S4096, .f32⟩) main_v80) (TRef.of (T := ⟨S4096, .f32⟩) main_call8_v0) (TRef.of (T := ⟨S4096, .f32⟩) main_v86) select,
    nullary main_cst_24 (constant S_ .f32 0x00000000#32),
    binary main_v86 main_cst_24 main_v87 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    binary main_v85 main_v87 main_v88 (addf : (⟨S_, .f32⟩ : BufTy).Contents (Elt F) → (⟨S_, .f32⟩ : BufTy).Contents (Elt F) → (⟨S_, .f32⟩ : BufTy).Contents (Elt F)),
    unary main_v88 main_v89 (Host.negf : (⟨S_, .f32⟩ : BufTy).Contents (Elt F) → (⟨S_, .f32⟩ : BufTy).Contents (Elt F)) ]

set_option maxRecDepth 8192 in

theorem ops4_sub : (ops4 : List (HloOp τ sig (Elt F))).Forall fun op => op.bufs ⊆ tcRefs τ sig :=
  ⟨binary_bufs_sub .., binary_bufs_sub .., binary_bufs_sub .., nullary_bufs_sub .., unary_bufs_sub .., ternary_bufs_sub .., nullary_bufs_sub .., binary_bufs_sub .., nullary_bufs_sub .., unary_bufs_sub .., ternary_bufs_sub .., nullary_bufs_sub .., binary_bufs_sub .., binary_bufs_sub .., nullary_bufs_sub .., unary_bufs_sub .., ternary_bufs_sub .., nullary_bufs_sub .., binary_bufs_sub .., binary_bufs_sub .., unary_bufs_sub ..⟩

set_option maxRecDepth 8192 in

theorem ops4_fresh : (ops4 : List (HloOp τ sig (Elt F))).Forall fun op => op.fresh = ∅ := by
  simp only [List.Forall]; repeat' constructor

end Cert.ReferenceIdeal.HandRun

end
-- ==== Proof.Ref.Stage4.lean ====
import proofs.«402100_j83614423319285_2_alg».proof.Proof.Ref.Ops4
import proofs.«402100_j83614423319285_2_alg».proof.Proof.Ref.ReadP
import proofs.«402100_j83614423319285_2_alg».proof.Proof.Ref.Typed
import Idealize.ShloMosaic.Lib.Pipeline.Frame

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

variable (V : Valuation τ sig (Elt F)) (x0 : (⟨S4096x1024, .f32⟩ : BufTy).Contents (Elt F)) (x1 : (⟨S4096, .i32⟩ : BufTy).Contents (Elt F)) (x2 : (⟨S20000x1024, .f32⟩ : BufTy).Contents (Elt F)) (x3 : (⟨S2x1024, .f32⟩ : BufTy).Contents (Elt F)) (x4 : (⟨S256x1024, .f32⟩ : BufTy).Contents (Elt F)) (x5 : (⟨S20000x256, .f32⟩ : BufTy).Contents (Elt F)) (x6 : (⟨S64x1024, .f32⟩ : BufTy).Contents (Elt F)) (x7 : (⟨S10257x64, .f32⟩ : BufTy).Contents (Elt F))

abbrev ops4_0 : List (HloOp τ sig (Elt F)) :=
  [ binary main_v76 main_v77 main_v78 ((fun a b => concatenate S4096x2 1 [⟨S4096x1, a⟩, ⟨S4096x1, b⟩] concatenates_S4096x1_S4096x1_S4096x2_d1) : (⟨S4096x1, .i32⟩ : BufTy).Contents (Elt F) → (⟨S4096x1, .i32⟩ : BufTy).Contents (Elt F) → (⟨S4096x2, .i32⟩ : BufTy).Contents (Elt F)),
    binary main_v60 main_v78 main_v79 ((fun x i => Host.gather gather_S4096x10257_S4096x2_S4096_n_01_n_n_01_1_11 x i) : (⟨S4096x10257, .f32⟩ : BufTy).Contents (Elt F) → (⟨S4096x2, .i32⟩ : BufTy).Contents (Elt F) → (⟨S4096, .f32⟩ : BufTy).Contents (Elt F)),
    binary main_v62 main_v79 main_v80 (addf : (⟨S4096, .f32⟩ : BufTy).Contents (Elt F) → (⟨S4096, .f32⟩ : BufTy).Contents (Elt F) → (⟨S4096, .f32⟩ : BufTy).Contents (Elt F)),
    nullary main_cst (constant S_ .f32 0x00000000#32),
    unary main_cst main_call6_v0 ((broadcastInDim S4096 ![] bcast_S_S4096) : (⟨S_, .f32⟩ : BufTy).Contents (Elt F) → (⟨S4096, .f32⟩ : BufTy).Contents (Elt F)),
    ternary main_v8 main_v23 main_call6_v0 main_v81 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    nullary main_cst_20 (constant S_ .f32 0x00000000#32),
    binary main_v81 main_cst_20 main_v82 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)) ]

theorem k4_0_v28 : after ops4_0 V main_v28 = V main_v28 := by
  after_results_simp
theorem k4_0_v53 : after ops4_0 V main_v53 = V main_v53 := by
  after_results_simp
theorem k4_0_v55 : after ops4_0 V main_v55 = V main_v55 := by
  after_results_simp

section
include x0 x1 x2 x3 x4 x5 x6 x7
theorem o4_0_v80
    (h_v62 : V main_v62 = val_main_v62 (F := F) x0 x2 x3) (h_v60 : V main_v60 = val_main_v60 (F := F) x0 x6 x7) (h_v76 : V main_v76 = val_main_v76 (F := F)) (h_v77 : V main_v77 = val_main_v77 (F := F) x1) :
    after ops4_0 V main_v80 = val_main_v80 (F := F) x0 x1 x2 x3 x6 x7 := by
  after_results_simp
  all_goals (try rw [h_v62, h_v60, h_v76, h_v77])
  all_goals rfl

theorem o4_0_v82
    (h_v8 : V main_v8 = val_main_v8 (F := F) x1) (h_v23 : V main_v23 = val_main_v23 (F := F) x0 x1 x2 x3) :
    after ops4_0 V main_v82 = val_main_v82 (F := F) x0 x1 x2 x3 := by
  after_results_simp
  all_goals (try rw [h_v8, h_v23])
  all_goals rfl
end

abbrev ops4_1 : List (HloOp τ sig (Elt F)) :=
  [ nullary main_cst_21 (constant S_ .f32 0x00000000#32),
    unary main_cst_21 main_call7_v0 ((broadcastInDim S4096 ![] bcast_S_S4096) : (⟨S_, .f32⟩ : BufTy).Contents (Elt F) → (⟨S4096, .f32⟩ : BufTy).Contents (Elt F)),
    ternary main_v28 main_v53 main_call7_v0 main_v83 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    nullary main_cst_22 (constant S_ .f32 0x00000000#32),
    binary main_v83 main_cst_22 main_v84 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    binary main_v82 main_v84 main_v85 (addf : (⟨S_, .f32⟩ : BufTy).Contents (Elt F) → (⟨S_, .f32⟩ : BufTy).Contents (Elt F) → (⟨S_, .f32⟩ : BufTy).Contents (Elt F)),
    nullary main_cst_23 (constant S_ .f32 0x00000000#32),
    unary main_cst_23 main_call8_v0 ((broadcastInDim S4096 ![] bcast_S_S4096) : (⟨S_, .f32⟩ : BufTy).Contents (Elt F) → (⟨S4096, .f32⟩ : BufTy).Contents (Elt F)) ]

theorem k4_1_v55 : after ops4_1 V main_v55 = V main_v55 := by
  after_results_simp
theorem k4_1_v80 : after ops4_1 V main_v80 = V main_v80 := by
  after_results_simp

section
include x0 x1 x2 x3 x4 x5 x6 x7
theorem o4_1_v85
    (h_v82 : V main_v82 = val_main_v82 (F := F) x0 x1 x2 x3) (h_v28 : V main_v28 = val_main_v28 (F := F) x1) (h_v53 : V main_v53 = val_main_v53 (F := F) x0 x1 x2 x3 x4 x5) :
    after ops4_1 V main_v85 = val_main_v85 (F := F) x0 x1 x2 x3 x4 x5 := by
  after_results_simp
  all_goals (try rw [h_v82, h_v28, h_v53])
  all_goals rfl

theorem o4_1_call8_v0
     :
    after ops4_1 V main_call8_v0 = val_main_call8_v0 (F := F) := by
  after_results_simp
  all_goals rfl
end

abbrev ops4_2 : List (HloOp τ sig (Elt F)) :=
  [ ternary main_v55 main_v80 main_call8_v0 main_v86 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    nullary main_cst_24 (constant S_ .f32 0x00000000#32),
    binary main_v86 main_cst_24 main_v87 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    binary main_v85 main_v87 main_v88 (addf : (⟨S_, .f32⟩ : BufTy).Contents (Elt F) → (⟨S_, .f32⟩ : BufTy).Contents (Elt F) → (⟨S_, .f32⟩ : BufTy).Contents (Elt F)),
    unary main_v88 main_v89 (Host.negf : (⟨S_, .f32⟩ : BufTy).Contents (Elt F) → (⟨S_, .f32⟩ : BufTy).Contents (Elt F)) ]

section
include x0 x1 x2 x3 x4 x5 x6 x7
theorem o4_2_v89
    (h_v85 : V main_v85 = val_main_v85 (F := F) x0 x1 x2 x3 x4 x5) (h_v55 : V main_v55 = val_main_v55 (F := F) x1) (h_v80 : V main_v80 = val_main_v80 (F := F) x0 x1 x2 x3 x6 x7) (h_call8_v0 : V main_call8_v0 = val_main_call8_v0 (F := F)) :
    after ops4_2 V main_v89 = val_main_v89 (F := F) x0 x1 x2 x3 x4 x5 x6 x7 := by
  after_results_simp
  all_goals (try rw [h_v85, h_v55, h_v80, h_call8_v0])
  all_goals rfl
end

theorem ops4_steps : (ops4 : List (HloOp τ sig (Elt F))) = ops4_0 ++ ops4_1 ++ ops4_2 :=
  congrArg₂ List.cons rfl <|
  congrArg₂ List.cons rfl <|
  congrArg₂ List.cons rfl <|
  congrArg₂ List.cons rfl <|
  congrArg₂ List.cons (unary_of _ _ (by decide) (by rfl) (by decide) (by rfl) _) <|
  congrArg₂ List.cons (ternary_of _ _ _ _ (by decide) (by rfl) (by decide) (by rfl) (by decide) (by rfl) (by decide) (by rfl) _) <|
  congrArg₂ List.cons rfl <|
  congrArg₂ List.cons rfl <|
  congrArg₂ List.cons rfl <|
  congrArg₂ List.cons (unary_of _ _ (by decide) (by rfl) (by decide) (by rfl) _) <|
  congrArg₂ List.cons (ternary_of _ _ _ _ (by decide) (by rfl) (by decide) (by rfl) (by decide) (by rfl) (by decide) (by rfl) _) <|
  congrArg₂ List.cons rfl <|
  congrArg₂ List.cons rfl <|
  congrArg₂ List.cons rfl <|
  congrArg₂ List.cons rfl <|
  congrArg₂ List.cons (unary_of _ _ (by decide) (by rfl) (by decide) (by rfl) _) <|
  congrArg₂ List.cons (ternary_of _ _ _ _ (by decide) (by rfl) (by decide) (by rfl) (by decide) (by rfl) (by decide) (by rfl) _) <|
  congrArg₂ List.cons rfl <|
  congrArg₂ List.cons rfl <|
  congrArg₂ List.cons rfl <|
  congrArg₂ List.cons rfl <|
  rfl

theorem after4_split :
    after ops4 V = after ops4_2 (after ops4_1 (after ops4_0 (V))) := by
  rw [ops4_steps, StableHlo.after_append, StableHlo.after_append]

end Cert.ReferenceIdeal.HandRun

end
-- ==== Proof.Ref.RunOps.lean ====
import proofs.«402100_j83614423319285_2_alg».proof.Proof.Ref.Ops0
import proofs.«402100_j83614423319285_2_alg».proof.Proof.Ref.Ops1
import proofs.«402100_j83614423319285_2_alg».proof.Proof.Ref.Ops2
import proofs.«402100_j83614423319285_2_alg».proof.Proof.Ref.Ops3
import proofs.«402100_j83614423319285_2_alg».proof.Proof.Ref.Ops4
import Idealize.ShloMosaic.Lib.Pipeline.Frame

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := ops0 ++ ops1 ++ ops2 ++ ops3 ++ ops4

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

theorem forall_mem_ops {P : HloOp τ sig (Elt F) → Prop}
    (h0 : (ops0 : List (HloOp τ sig (Elt F))).Forall P) (h1 : (ops1 : List (HloOp τ sig (Elt F))).Forall P) (h2 : (ops2 : List (HloOp τ sig (Elt F))).Forall P) (h3 : (ops3 : List (HloOp τ sig (Elt F))).Forall P) (h4 : (ops4 : List (HloOp τ sig (Elt F))).Forall P) :
    ∀ op ∈ (ops : List (HloOp τ sig (Elt F))), P op := by
  intro op h
  simp only [List.mem_append] at h
  rcases h with (((h | h) | h) | h) | h
  · exact List.forall_iff_forall_mem.1 h0 op h
  · exact List.forall_iff_forall_mem.1 h1 op h
  · exact List.forall_iff_forall_mem.1 h2 op h
  · exact List.forall_iff_forall_mem.1 h3 op h
  · exact List.forall_iff_forall_mem.1 h4 op h

theorem ops_sub : (ops : List (HloOp τ sig (Elt F))).Forall fun op => op.bufs ⊆ tcRefs τ sig :=
  List.forall_iff_forall_mem.2 (forall_mem_ops ops0_sub ops1_sub ops2_sub ops3_sub ops4_sub)

theorem ops_fresh : ∀ op ∈ (ops : List (HloOp τ sig (Elt F))), op.fresh = ∅ :=
  forall_mem_ops ops0_fresh ops1_fresh ops2_fresh ops3_fresh ops4_fresh

theorem after_ops_eq (V : Valuation τ sig (Elt F)) :
    after ops V = after ops4 (after ops3 (after ops2 (after ops1 (after ops0 (V))))) := by
  show after (ops0 ++ ops1 ++ ops2 ++ ops3 ++ ops4) V = _
  rw [StableHlo.after_append, StableHlo.after_append, StableHlo.after_append, StableHlo.after_append]

theorem run_raw (m : (ℓ : Loc nD τ sig) → Buf (Elt F) ℓ) (ρ : Dev nD → PrngReg) :
    θ_run defs (onTc (τ := τ) (main (F := F))) ⟨m, fun _ => 0, ρ⟩ (fun r => ∀ (c : Dev nD) (b : Ref sig .tc),
      r.2.mem ((c.tc : Thread nD τ).loc b) = after ops (launchContents m c) (Proc.devRef .tc b)) :=
  run_seq scopedRefs_eq scopedSems_eq defs main (fun _ => ops) main_eq (fun _ => ops_sub) m ρ (fun _ => ops_fresh)

end Cert.ReferenceIdeal.HandRun

end
-- ==== Proof.Ref.RunArgs.lean ====
import proofs.«402100_j83614423319285_2_alg».proof.Proof.Ref.RunOps

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

abbrev ops0_W : List (Ref sig .tc) := [main_v0, main_v1, main_v2, main_v3, main_v4]
theorem ops0_writes : (ops0 : List (HloOp τ sig (Elt F))).Forall fun op => op.writes ⊆ (ops0_W.map (Proc.devRef (τ := τ) .tc)).toFinset := by
  simp only [List.Forall]
  refine ⟨?_, ?_, ?_, ?_, ?_⟩ <;> (simp only [nullary_writes, unary_writes, binary_writes, ternary_writes, quaternary_writes, reshape_writes, binaryIndexed_writes, unaryIndexed_writes, nary_writes, Finset.singleton_subset_iff, List.mem_toFinset]; exact List.mem_map_of_mem (by decide))

abbrev ops1_W : List (Ref sig .tc) := [main_v5, main_call0_cst, main_call0_v0, main_call0_cst_0, main_call0_v1, main_call0_v2, main_call0_v3, main_call0_v4, main_call0_v5, main_call0_v6, main_call0_cst_1, main_call0_v7, main_call0_v8, main_call0_v9, main_call0_v10, main_v6, main_c, main_v7, main_v8, main_c_0, main_call1_v0, main_call1_v1, main_v9, main_c_1, main_v10, main_v11, main_c_2, main_v12, main_v13, main_v14, main_c_3, main_v15, main_v16, main_c_4, main_v17, main_v18, main_v19, main_v20, main_v21]
theorem ops1_writes : (ops1 : List (HloOp τ sig (Elt F))).Forall fun op => op.writes ⊆ (ops1_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, unaryIndexed_writes, nary_writes, Finset.singleton_subset_iff, List.mem_toFinset]; exact List.mem_map_of_mem (by decide))

abbrev ops2_W : List (Ref sig .tc) := [main_v22, main_v23, main_c_5, main_v24, main_v25, main_c_6, main_v26, main_v27, main_v28, main_v29, main_v30, main_v31, main_v32, main_call2_cst, main_call2_v0, main_call2_cst_0, main_call2_v1, main_call2_v2, main_call2_v3, main_call2_v4, main_call2_v5, main_call2_v6, main_call2_cst_1, main_call2_v7, main_call2_v8, main_call2_v9, main_call2_v10, main_v33, main_v34, main_v35, main_c_7, main_v36, main_v37, main_c_8, main_call3_v0, main_call3_v1, main_v38, main_c_9, main_v39, main_v40, main_c_10, main_v41, main_v42, main_v43, main_c_11, main_v44, main_v45, main_c_12, main_v46, main_v47, main_v48, main_v49, main_v50]
theorem ops2_writes : (ops2 : List (HloOp τ sig (Elt F))).Forall fun op => op.writes ⊆ (ops2_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, unaryIndexed_writes, nary_writes, Finset.singleton_subset_iff, List.mem_toFinset]; exact List.mem_map_of_mem (by decide))

abbrev ops3_W : List (Ref sig .tc) := [main_v51, main_v52, main_v53, main_c_13, main_v54, main_v55, main_v56, main_v57, main_v58, main_v59, main_call4_cst, main_call4_v0, main_call4_cst_0, main_call4_v1, main_call4_v2, main_call4_v3, main_call4_v4, main_call4_v5, main_call4_v6, main_call4_cst_1, main_call4_v7, main_call4_v8, main_call4_v9, main_call4_v10, main_v60, main_v61, main_v62, main_c_14, main_v63, main_v64, main_c_15, main_call5_v0, main_call5_v1, main_v65, main_c_16, main_v66, main_v67, main_c_17, main_v68, main_v69, main_v70, main_c_18, main_v71, main_v72, main_c_19, main_v73, main_v74, main_v75, main_v76, main_v77]
theorem ops3_writes : (ops3 : List (HloOp τ sig (Elt F))).Forall fun op => op.writes ⊆ (ops3_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, unaryIndexed_writes, nary_writes, Finset.singleton_subset_iff, List.mem_toFinset]; exact List.mem_map_of_mem (by decide))

abbrev ops4_W : List (Ref sig .tc) := [main_v78, main_v79, main_v80, main_cst, main_call6_v0, main_v81, main_cst_20, main_v82, main_cst_21, main_call7_v0, main_v83, main_cst_22, main_v84, main_v85, main_cst_23, main_call8_v0, main_v86, main_cst_24, main_v87, main_v88, main_v89]
theorem ops4_writes : (ops4 : List (HloOp τ sig (Elt F))).Forall fun op => op.writes ⊆ (ops4_W.map (Proc.devRef (τ := τ) .tc)).toFinset := by
  simp only [List.Forall]
  refine ⟨?_, ?_, ?_, ?_, ?_, ?_, ?_, ?_, ?_, ?_, ?_, ?_, ?_, ?_, ?_, ?_, ?_, ?_, ?_, ?_, ?_⟩ <;> (simp only [nullary_writes, unary_writes, binary_writes, ternary_writes, quaternary_writes, reshape_writes, binaryIndexed_writes, unaryIndexed_writes, nary_writes, Finset.singleton_subset_iff, List.mem_toFinset]; exact List.mem_map_of_mem (by decide))

theorem after_ops_of (V : Valuation τ sig (Elt F)) (r : Ref sig .tc)
    (h0 : r ∉ ops0_W) (h1 : r ∉ ops1_W) (h2 : r ∉ ops2_W) (h3 : r ∉ ops3_W) (h4 : r ∉ ops4_W) :
    after ops V (Proc.devRef .tc r) = V (Proc.devRef .tc r) := by
  rw [after_ops_eq]
  exact (after_of_writes_sub ops4 _ ops4_writes h4).trans <|
    (after_of_writes_sub ops3 _ ops3_writes h3).trans <|
    (after_of_writes_sub ops2 _ ops2_writes h2).trans <|
    (after_of_writes_sub ops1 _ ops1_writes h1).trans <|
    (after_of_writes_sub ops0 _ ops0_writes h0)

theorem after_ops_args (m : (ℓ : Loc nD τ sig) → Buf (Elt F) ℓ) (c : Dev nD) :
    after ops (launchContents m c) (Proc.devRef .tc main_arg0) = m ((c.tc : Thread nD τ).loc main_arg0)
    ∧ after ops (launchContents m c) (Proc.devRef .tc main_arg1) = m ((c.tc : Thread nD τ).loc main_arg1)
    ∧ after ops (launchContents m c) (Proc.devRef .tc main_arg2) = m ((c.tc : Thread nD τ).loc main_arg2)
    ∧ after ops (launchContents m c) (Proc.devRef .tc main_arg3) = m ((c.tc : Thread nD τ).loc main_arg3)
    ∧ after ops (launchContents m c) (Proc.devRef .tc main_arg4) = m ((c.tc : Thread nD τ).loc main_arg4)
    ∧ after ops (launchContents m c) (Proc.devRef .tc main_arg5) = m ((c.tc : Thread nD τ).loc main_arg5)
    ∧ after ops (launchContents m c) (Proc.devRef .tc main_arg6) = m ((c.tc : Thread nD τ).loc main_arg6)
    ∧ after ops (launchContents m c) (Proc.devRef .tc main_arg7) = m ((c.tc : Thread nD τ).loc main_arg7) :=
  ⟨after_ops_of _ main_arg0 (by decide) (by decide) (by decide) (by decide) (by decide),
   after_ops_of _ main_arg1 (by decide) (by decide) (by decide) (by decide) (by decide),
   after_ops_of _ main_arg2 (by decide) (by decide) (by decide) (by decide) (by decide),
   after_ops_of _ main_arg3 (by decide) (by decide) (by decide) (by decide) (by decide),
   after_ops_of _ main_arg4 (by decide) (by decide) (by decide) (by decide) (by decide),
   after_ops_of _ main_arg5 (by decide) (by decide) (by decide) (by decide) (by decide),
   after_ops_of _ main_arg6 (by decide) (by decide) (by decide) (by decide) (by decide),
   after_ops_of _ main_arg7 (by decide) (by decide) (by decide) (by decide) (by decide)⟩

theorem after_ops_args_of (V : Valuation τ sig (Elt F)) :
    after ops V (Proc.devRef .tc main_arg0) = V (Proc.devRef .tc main_arg0)
    ∧ after ops V (Proc.devRef .tc main_arg1) = V (Proc.devRef .tc main_arg1)
    ∧ after ops V (Proc.devRef .tc main_arg2) = V (Proc.devRef .tc main_arg2)
    ∧ after ops V (Proc.devRef .tc main_arg3) = V (Proc.devRef .tc main_arg3)
    ∧ after ops V (Proc.devRef .tc main_arg4) = V (Proc.devRef .tc main_arg4)
    ∧ after ops V (Proc.devRef .tc main_arg5) = V (Proc.devRef .tc main_arg5)
    ∧ after ops V (Proc.devRef .tc main_arg6) = V (Proc.devRef .tc main_arg6)
    ∧ after ops V (Proc.devRef .tc main_arg7) = V (Proc.devRef .tc main_arg7) :=
  ⟨after_ops_of V main_arg0 (by decide) (by decide) (by decide) (by decide) (by decide),
   after_ops_of V main_arg1 (by decide) (by decide) (by decide) (by decide) (by decide),
   after_ops_of V main_arg2 (by decide) (by decide) (by decide) (by decide) (by decide),
   after_ops_of V main_arg3 (by decide) (by decide) (by decide) (by decide) (by decide),
   after_ops_of V main_arg4 (by decide) (by decide) (by decide) (by decide) (by decide),
   after_ops_of V main_arg5 (by decide) (by decide) (by decide) (by decide) (by decide),
   after_ops_of V main_arg6 (by decide) (by decide) (by decide) (by decide) (by decide),
   after_ops_of V main_arg7 (by decide) (by decide) (by decide) (by decide) (by decide)⟩

end Cert.ReferenceIdeal.HandRun

end
-- ==== Proof.Ref.Result.lean ====
import proofs.«402100_j83614423319285_2_alg».proof.Proof.Ref.ReadP

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

def res_out0 (m : (ℓ : Loc nD τ sig) → Buf (Elt F) ℓ) (c : Dev nD) : Buf (Elt F) ((c.tc : Thread nD τ).loc main_v89) :=
  Cert.ReferenceIdeal.ReadP.val_main_v89 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))

end Cert.ReferenceIdeal.HandRun

end
-- ==== Proof.Ref.HandRun.lean ====
import proofs.«402100_j83614423319285_2_alg».proof.Proof.Ref.Stage0
import proofs.«402100_j83614423319285_2_alg».proof.Proof.Ref.Stage1
import proofs.«402100_j83614423319285_2_alg».proof.Proof.Ref.Stage2
import proofs.«402100_j83614423319285_2_alg».proof.Proof.Ref.Stage3
import proofs.«402100_j83614423319285_2_alg».proof.Proof.Ref.Stage4
import proofs.«402100_j83614423319285_2_alg».proof.Proof.Ref.RunOps
import proofs.«402100_j83614423319285_2_alg».proof.Proof.Ref.RunArgs
import proofs.«402100_j83614423319285_2_alg».proof.Proof.Ref.Result

set_option maxRecDepth 8192

noncomputable section

namespace Cert.ReferenceIdeal.HandRun

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

variable (V : Valuation τ sig (Elt F)) (x0 : (⟨S4096x1024, .f32⟩ : BufTy).Contents (Elt F)) (x1 : (⟨S4096, .i32⟩ : BufTy).Contents (Elt F)) (x2 : (⟨S20000x1024, .f32⟩ : BufTy).Contents (Elt F)) (x3 : (⟨S2x1024, .f32⟩ : BufTy).Contents (Elt F)) (x4 : (⟨S256x1024, .f32⟩ : BufTy).Contents (Elt F)) (x5 : (⟨S20000x256, .f32⟩ : BufTy).Contents (Elt F)) (x6 : (⟨S64x1024, .f32⟩ : BufTy).Contents (Elt F)) (x7 : (⟨S10257x64, .f32⟩ : BufTy).Contents (Elt F))

section
include x0 x1 x2 x3 x4 x5 x6 x7
theorem c22
    (h_v55 : V main_v55 = val_main_v55 (F := F) x1)
    (h_v80 : V main_v80 = val_main_v80 (F := F) x0 x1 x2 x3 x6 x7)
    (h_call8_v0 : V main_call8_v0 = val_main_call8_v0 (F := F))
    (h_v85 : V main_v85 = val_main_v85 (F := F) x0 x1 x2 x3 x4 x5) :
    after ops4_2 (V) main_v89 = val_main_v89 (F := F) x0 x1 x2 x3 x4 x5 x6 x7 :=
  o4_2_v89 V x0 x1 x2 x3 x4 x5 x6 x7 h_v85 h_v55 h_v80 h_call8_v0

theorem c21
    (h_v28 : V main_v28 = val_main_v28 (F := F) x1)
    (h_v53 : V main_v53 = val_main_v53 (F := F) x0 x1 x2 x3 x4 x5)
    (h_v82 : V main_v82 = val_main_v82 (F := F) x0 x1 x2 x3)
    (h_v55 : V main_v55 = val_main_v55 (F := F) x1)
    (h_v80 : V main_v80 = val_main_v80 (F := F) x0 x1 x2 x3 x6 x7) :
    after ops4_2 (after ops4_1 (V)) main_v89 = val_main_v89 (F := F) x0 x1 x2 x3 x4 x5 x6 x7 :=
  c22 (after ops4_1 V) x0 x1 x2 x3 x4 x5 x6 x7
    ((k4_1_v55 V).trans h_v55)
    ((k4_1_v80 V).trans h_v80)
    (o4_1_call8_v0 V x0 x1 x2 x3 x4 x5 x6 x7)
    (o4_1_v85 V x0 x1 x2 x3 x4 x5 x6 x7 h_v82 h_v28 h_v53)

theorem c20
    (h_v76 : V main_v76 = val_main_v76 (F := F))
    (h_v77 : V main_v77 = val_main_v77 (F := F) x1)
    (h_v60 : V main_v60 = val_main_v60 (F := F) x0 x6 x7)
    (h_v62 : V main_v62 = val_main_v62 (F := F) x0 x2 x3)
    (h_v8 : V main_v8 = val_main_v8 (F := F) x1)
    (h_v23 : V main_v23 = val_main_v23 (F := F) x0 x1 x2 x3)
    (h_v28 : V main_v28 = val_main_v28 (F := F) x1)
    (h_v53 : V main_v53 = val_main_v53 (F := F) x0 x1 x2 x3 x4 x5)
    (h_v55 : V main_v55 = val_main_v55 (F := F) x1) :
    after ops4_2 (after ops4_1 (after ops4_0 (V))) main_v89 = val_main_v89 (F := F) x0 x1 x2 x3 x4 x5 x6 x7 :=
  c21 (after ops4_0 V) x0 x1 x2 x3 x4 x5 x6 x7
    ((k4_0_v28 V).trans h_v28)
    ((k4_0_v53 V).trans h_v53)
    (o4_0_v82 V x0 x1 x2 x3 x4 x5 x6 x7 h_v8 h_v23)
    ((k4_0_v55 V).trans h_v55)
    (o4_0_v80 V x0 x1 x2 x3 x4 x5 x6 x7 h_v62 h_v60 h_v76 h_v77)

theorem c19
    (h_v70 : V main_v70 = val_main_v70 (F := F))
    (h_v75 : V main_v75 = val_main_v75 (F := F) x1)
    (h_v60 : V main_v60 = val_main_v60 (F := F) x0 x6 x7)
    (h_v62 : V main_v62 = val_main_v62 (F := F) x0 x2 x3)
    (h_v8 : V main_v8 = val_main_v8 (F := F) x1)
    (h_v23 : V main_v23 = val_main_v23 (F := F) x0 x1 x2 x3)
    (h_v28 : V main_v28 = val_main_v28 (F := F) x1)
    (h_v53 : V main_v53 = val_main_v53 (F := F) x0 x1 x2 x3 x4 x5)
    (h_v55 : V main_v55 = val_main_v55 (F := F) x1) :
    after ops4_2 (after ops4_1 (after ops4_0 (after ops3_6 (V)))) main_v89 = val_main_v89 (F := F) x0 x1 x2 x3 x4 x5 x6 x7 :=
  c20 (after ops3_6 V) x0 x1 x2 x3 x4 x5 x6 x7
    (o3_6_v76 V x0 x1 x2 x3 x4 x5 x6 x7 h_v70)
    (o3_6_v77 V x0 x1 x2 x3 x4 x5 x6 x7 h_v75)
    ((k3_6_v60 V).trans h_v60)
    ((k3_6_v62 V).trans h_v62)
    ((k3_6_v8 V).trans h_v8)
    ((k3_6_v23 V).trans h_v23)
    ((k3_6_v28 V).trans h_v28)
    ((k3_6_v53 V).trans h_v53)
    ((k3_6_v55 V).trans h_v55)

theorem c18
    (h_v67 : V main_v67 = val_main_v67 (F := F))
    (h_v69 : V main_v69 = val_main_v69 (F := F))
    (h_v0 : V main_v0 = val_main_v0 (F := F))
    (h_v65 : V main_v65 = val_main_v65 (F := F) x1)
    (h_v60 : V main_v60 = val_main_v60 (F := F) x0 x6 x7)
    (h_v62 : V main_v62 = val_main_v62 (F := F) x0 x2 x3)
    (h_v8 : V main_v8 = val_main_v8 (F := F) x1)
    (h_v23 : V main_v23 = val_main_v23 (F := F) x0 x1 x2 x3)
    (h_v28 : V main_v28 = val_main_v28 (F := F) x1)
    (h_v53 : V main_v53 = val_main_v53 (F := F) x0 x1 x2 x3 x4 x5)
    (h_v55 : V main_v55 = val_main_v55 (F := F) x1) :
    after ops4_2 (after ops4_1 (after ops4_0 (after ops3_6 (after ops3_5 (V))))) main_v89 = val_main_v89 (F := F) x0 x1 x2 x3 x4 x5 x6 x7 :=
  c19 (after ops3_5 V) x0 x1 x2 x3 x4 x5 x6 x7
    (o3_5_v70 V x0 x1 x2 x3 x4 x5 x6 x7 h_v67 h_v69 h_v0)
    (o3_5_v75 V x0 x1 x2 x3 x4 x5 x6 x7 h_v65)
    ((k3_5_v60 V).trans h_v60)
    ((k3_5_v62 V).trans h_v62)
    ((k3_5_v8 V).trans h_v8)
    ((k3_5_v23 V).trans h_v23)
    ((k3_5_v28 V).trans h_v28)
    ((k3_5_v53 V).trans h_v53)
    ((k3_5_v55 V).trans h_v55)

theorem c17
    (h_call5_v0 : V main_call5_v0 = val_main_call5_v0 (F := F))
    (h_v55 : V main_v55 = val_main_v55 (F := F) x1)
    (h_v64 : V main_v64 = val_main_v64 (F := F) x1)
    (h_v0 : V main_v0 = val_main_v0 (F := F))
    (h_v60 : V main_v60 = val_main_v60 (F := F) x0 x6 x7)
    (h_v62 : V main_v62 = val_main_v62 (F := F) x0 x2 x3)
    (h_v8 : V main_v8 = val_main_v8 (F := F) x1)
    (h_v23 : V main_v23 = val_main_v23 (F := F) x0 x1 x2 x3)
    (h_v28 : V main_v28 = val_main_v28 (F := F) x1)
    (h_v53 : V main_v53 = val_main_v53 (F := F) x0 x1 x2 x3 x4 x5) :
    after ops4_2 (after ops4_1 (after ops4_0 (after ops3_6 (after ops3_5 (after ops3_4 (V)))))) main_v89 = val_main_v89 (F := F) x0 x1 x2 x3 x4 x5 x6 x7 :=
  c18 (after ops3_4 V) x0 x1 x2 x3 x4 x5 x6 x7
    (o3_4_v67 V x0 x1 x2 x3 x4 x5 x6 x7 h_v0)
    (o3_4_v69 V x0 x1 x2 x3 x4 x5 x6 x7 h_v0)
    ((k3_4_v0 V).trans h_v0)
    (o3_4_v65 V x0 x1 x2 x3 x4 x5 x6 x7 h_v55 h_v64 h_call5_v0)
    ((k3_4_v60 V).trans h_v60)
    ((k3_4_v62 V).trans h_v62)
    ((k3_4_v8 V).trans h_v8)
    ((k3_4_v23 V).trans h_v23)
    ((k3_4_v28 V).trans h_v28)
    ((k3_4_v53 V).trans h_v53)
    ((k3_4_v55 V).trans h_v55)

theorem c16
    (h_call4_v5 : V main_call4_v5 = val_main_call4_v5 (F := F) x0 x6 x7)
    (h_call4_v10 : V main_call4_v10 = val_main_call4_v10 (F := F) x0 x6 x7)
    (h_v6 : V main_v6 = val_main_v6 (F := F) x0 x2 x3)
    (a1 : V main_arg1 = x1)
    (h_v55 : V main_v55 = val_main_v55 (F := F) x1)
    (h_v0 : V main_v0 = val_main_v0 (F := F))
    (h_v8 : V main_v8 = val_main_v8 (F := F) x1)
    (h_v23 : V main_v23 = val_main_v23 (F := F) x0 x1 x2 x3)
    (h_v28 : V main_v28 = val_main_v28 (F := F) x1)
    (h_v53 : V main_v53 = val_main_v53 (F := F) x0 x1 x2 x3 x4 x5) :
    after ops4_2 (after ops4_1 (after ops4_0 (after ops3_6 (after ops3_5 (after ops3_4 (after ops3_3 (V))))))) main_v89 = val_main_v89 (F := F) x0 x1 x2 x3 x4 x5 x6 x7 :=
  c17 (after ops3_3 V) x0 x1 x2 x3 x4 x5 x6 x7
    (o3_3_call5_v0 V x0 x1 x2 x3 x4 x5 x6 x7)
    ((k3_3_v55 V).trans h_v55)
    (o3_3_v64 V x0 x1 x2 x3 x4 x5 x6 x7 a1)
    ((k3_3_v0 V).trans h_v0)
    (o3_3_v60 V x0 x1 x2 x3 x4 x5 x6 x7 h_call4_v5 h_call4_v10)
    (o3_3_v62 V x0 x1 x2 x3 x4 x5 x6 x7 h_v6)
    ((k3_3_v8 V).trans h_v8)
    ((k3_3_v23 V).trans h_v23)
    ((k3_3_v28 V).trans h_v28)
    ((k3_3_v53 V).trans h_v53)

theorem c15
    (h_call4_v3 : V main_call4_v3 = val_main_call4_v3 (F := F) x0 x6 x7)
    (h_v59 : V main_v59 = val_main_v59 (F := F) x0 x6 x7)
    (h_v6 : V main_v6 = val_main_v6 (F := F) x0 x2 x3)
    (a1 : V main_arg1 = x1)
    (h_v55 : V main_v55 = val_main_v55 (F := F) x1)
    (h_v0 : V main_v0 = val_main_v0 (F := F))
    (h_v8 : V main_v8 = val_main_v8 (F := F) x1)
    (h_v23 : V main_v23 = val_main_v23 (F := F) x0 x1 x2 x3)
    (h_v28 : V main_v28 = val_main_v28 (F := F) x1)
    (h_v53 : V main_v53 = val_main_v53 (F := F) x0 x1 x2 x3 x4 x5) :
    after ops4_2 (after ops4_1 (after ops4_0 (after ops3_6 (after ops3_5 (after ops3_4 (after ops3_3 (after ops3_2 (V)))))))) main_v89 = val_main_v89 (F := F) x0 x1 x2 x3 x4 x5 x6 x7 :=
  c16 (after ops3_2 V) x0 x1 x2 x3 x4 x5 x6 x7
    (o3_2_call4_v5 V x0 x1 x2 x3 x4 x5 x6 x7 h_v59 h_call4_v3)
    (o3_2_call4_v10 V x0 x1 x2 x3 x4 x5 x6 x7 h_v59 h_call4_v3)
    ((k3_2_v6 V).trans h_v6)
    ((k3_2_arg1 V).trans a1)
    ((k3_2_v55 V).trans h_v55)
    ((k3_2_v0 V).trans h_v0)
    ((k3_2_v8 V).trans h_v8)
    ((k3_2_v23 V).trans h_v23)
    ((k3_2_v28 V).trans h_v28)
    ((k3_2_v53 V).trans h_v53)

theorem c14
    (a7 : V main_arg7 = x7)
    (h_v57 : V main_v57 = val_main_v57 (F := F) x0 x6)
    (h_v6 : V main_v6 = val_main_v6 (F := F) x0 x2 x3)
    (a1 : V main_arg1 = x1)
    (h_v55 : V main_v55 = val_main_v55 (F := F) x1)
    (h_v0 : V main_v0 = val_main_v0 (F := F))
    (h_v8 : V main_v8 = val_main_v8 (F := F) x1)
    (h_v23 : V main_v23 = val_main_v23 (F := F) x0 x1 x2 x3)
    (h_v28 : V main_v28 = val_main_v28 (F := F) x1)
    (h_v53 : V main_v53 = val_main_v53 (F := F) x0 x1 x2 x3 x4 x5) :
    after ops4_2 (after ops4_1 (after ops4_0 (after ops3_6 (after ops3_5 (after ops3_4 (after ops3_3 (after ops3_2 (after ops3_1 (V))))))))) main_v89 = val_main_v89 (F := F) x0 x1 x2 x3 x4 x5 x6 x7 :=
  c15 (after ops3_1 V) x0 x1 x2 x3 x4 x5 x6 x7
    (o3_1_call4_v3 V x0 x1 x2 x3 x4 x5 x6 x7 h_v57 a7)
    (o3_1_v59 V x0 x1 x2 x3 x4 x5 x6 x7 h_v57 a7)
    ((k3_1_v6 V).trans h_v6)
    ((k3_1_arg1 V).trans a1)
    ((k3_1_v55 V).trans h_v55)
    ((k3_1_v0 V).trans h_v0)
    ((k3_1_v8 V).trans h_v8)
    ((k3_1_v23 V).trans h_v23)
    ((k3_1_v28 V).trans h_v28)
    ((k3_1_v53 V).trans h_v53)

theorem c13
    (h_v49 : V main_v49 = val_main_v49 (F := F))
    (h_v50 : V main_v50 = val_main_v50 (F := F) x1)
    (h_v33 : V main_v33 = val_main_v33 (F := F) x0 x4 x5)
    (h_v35 : V main_v35 = val_main_v35 (F := F) x0 x2 x3)
    (a1 : V main_arg1 = x1)
    (a6 : V main_arg6 = x6)
    (a0 : V main_arg0 = x0)
    (a7 : V main_arg7 = x7)
    (h_v6 : V main_v6 = val_main_v6 (F := F) x0 x2 x3)
    (h_v0 : V main_v0 = val_main_v0 (F := F))
    (h_v8 : V main_v8 = val_main_v8 (F := F) x1)
    (h_v23 : V main_v23 = val_main_v23 (F := F) x0 x1 x2 x3)
    (h_v28 : V main_v28 = val_main_v28 (F := F) x1) :
    after ops4_2 (after ops4_1 (after ops4_0 (after ops3_6 (after ops3_5 (after ops3_4 (after ops3_3 (after ops3_2 (after ops3_1 (after ops3_0 (V)))))))))) main_v89 = val_main_v89 (F := F) x0 x1 x2 x3 x4 x5 x6 x7 :=
  c14 (after ops3_0 V) x0 x1 x2 x3 x4 x5 x6 x7
    ((k3_0_arg7 V).trans a7)
    (o3_0_v57 V x0 x1 x2 x3 x4 x5 x6 x7 a0 a6)
    ((k3_0_v6 V).trans h_v6)
    ((k3_0_arg1 V).trans a1)
    (o3_0_v55 V x0 x1 x2 x3 x4 x5 x6 x7 a1)
    ((k3_0_v0 V).trans h_v0)
    ((k3_0_v8 V).trans h_v8)
    ((k3_0_v23 V).trans h_v23)
    ((k3_0_v28 V).trans h_v28)
    (o3_0_v53 V x0 x1 x2 x3 x4 x5 x6 x7 h_v35 h_v33 h_v49 h_v50)

theorem c12
    (h_c_12 : V main_c_12 = val_main_c_12 (F := F))
    (h_v38 : V main_v38 = val_main_v38 (F := F) x1)
    (h_v45 : V main_v45 = val_main_v45 (F := F) x1)
    (h_v43 : V main_v43 = val_main_v43 (F := F))
    (h_v33 : V main_v33 = val_main_v33 (F := F) x0 x4 x5)
    (h_v35 : V main_v35 = val_main_v35 (F := F) x0 x2 x3)
    (a1 : V main_arg1 = x1)
    (a6 : V main_arg6 = x6)
    (a0 : V main_arg0 = x0)
    (a7 : V main_arg7 = x7)
    (h_v6 : V main_v6 = val_main_v6 (F := F) x0 x2 x3)
    (h_v0 : V main_v0 = val_main_v0 (F := F))
    (h_v8 : V main_v8 = val_main_v8 (F := F) x1)
    (h_v23 : V main_v23 = val_main_v23 (F := F) x0 x1 x2 x3)
    (h_v28 : V main_v28 = val_main_v28 (F := F) x1) :
    after ops4_2 (after ops4_1 (after ops4_0 (after ops3_6 (after ops3_5 (after ops3_4 (after ops3_3 (after ops3_2 (after ops3_1 (after ops3_0 (after ops2_6 (V))))))))))) main_v89 = val_main_v89 (F := F) x0 x1 x2 x3 x4 x5 x6 x7 :=
  c13 (after ops2_6 V) x0 x1 x2 x3 x4 x5 x6 x7
    (o2_6_v49 V x0 x1 x2 x3 x4 x5 x6 x7 h_v43)
    (o2_6_v50 V x0 x1 x2 x3 x4 x5 x6 x7 h_v45 h_v38 h_c_12)
    ((k2_6_v33 V).trans h_v33)
    ((k2_6_v35 V).trans h_v35)
    ((k2_6_arg1 V).trans a1)
    ((k2_6_arg6 V).trans a6)
    ((k2_6_arg0 V).trans a0)
    ((k2_6_arg7 V).trans a7)
    ((k2_6_v6 V).trans h_v6)
    ((k2_6_v0 V).trans h_v0)
    ((k2_6_v8 V).trans h_v8)
    ((k2_6_v23 V).trans h_v23)
    ((k2_6_v28 V).trans h_v28)

theorem c11
    (h_v0 : V main_v0 = val_main_v0 (F := F))
    (h_v40 : V main_v40 = val_main_v40 (F := F))
    (h_v38 : V main_v38 = val_main_v38 (F := F) x1)
    (h_v33 : V main_v33 = val_main_v33 (F := F) x0 x4 x5)
    (h_v35 : V main_v35 = val_main_v35 (F := F) x0 x2 x3)
    (a1 : V main_arg1 = x1)
    (a6 : V main_arg6 = x6)
    (a0 : V main_arg0 = x0)
    (a7 : V main_arg7 = x7)
    (h_v6 : V main_v6 = val_main_v6 (F := F) x0 x2 x3)
    (h_v8 : V main_v8 = val_main_v8 (F := F) x1)
    (h_v23 : V main_v23 = val_main_v23 (F := F) x0 x1 x2 x3)
    (h_v28 : V main_v28 = val_main_v28 (F := F) x1) :
    after ops4_2 (after ops4_1 (after ops4_0 (after ops3_6 (after ops3_5 (after ops3_4 (after ops3_3 (after ops3_2 (after ops3_1 (after ops3_0 (after ops2_6 (after ops2_5 (V)))))))))))) main_v89 = val_main_v89 (F := F) x0 x1 x2 x3 x4 x5 x6 x7 :=
  c12 (after ops2_5 V) x0 x1 x2 x3 x4 x5 x6 x7
    (o2_5_c_12 V x0 x1 x2 x3 x4 x5 x6 x7)
    ((k2_5_v38 V).trans h_v38)
    (o2_5_v45 V x0 x1 x2 x3 x4 x5 x6 x7 h_v38)
    (o2_5_v43 V x0 x1 x2 x3 x4 x5 x6 x7 h_v40 h_v0)
    ((k2_5_v33 V).trans h_v33)
    ((k2_5_v35 V).trans h_v35)
    ((k2_5_arg1 V).trans a1)
    ((k2_5_arg6 V).trans a6)
    ((k2_5_arg0 V).trans a0)
    ((k2_5_arg7 V).trans a7)
    ((k2_5_v6 V).trans h_v6)
    ((k2_5_v0 V).trans h_v0)
    ((k2_5_v8 V).trans h_v8)
    ((k2_5_v23 V).trans h_v23)
    ((k2_5_v28 V).trans h_v28)

theorem c10
    (a1 : V main_arg1 = x1)
    (h_v36 : V main_v36 = val_main_v36 (F := F))
    (h_v28 : V main_v28 = val_main_v28 (F := F) x1)
    (h_v0 : V main_v0 = val_main_v0 (F := F))
    (h_v33 : V main_v33 = val_main_v33 (F := F) x0 x4 x5)
    (h_v35 : V main_v35 = val_main_v35 (F := F) x0 x2 x3)
    (a6 : V main_arg6 = x6)
    (a0 : V main_arg0 = x0)
    (a7 : V main_arg7 = x7)
    (h_v6 : V main_v6 = val_main_v6 (F := F) x0 x2 x3)
    (h_v8 : V main_v8 = val_main_v8 (F := F) x1)
    (h_v23 : V main_v23 = val_main_v23 (F := F) x0 x1 x2 x3) :
    after ops4_2 (after ops4_1 (after ops4_0 (after ops3_6 (after ops3_5 (after ops3_4 (after ops3_3 (after ops3_2 (after ops3_1 (after ops3_0 (after ops2_6 (after ops2_5 (after ops2_4 (V))))))))))))) main_v89 = val_main_v89 (F := F) x0 x1 x2 x3 x4 x5 x6 x7 :=
  c11 (after ops2_4 V) x0 x1 x2 x3 x4 x5 x6 x7
    ((k2_4_v0 V).trans h_v0)
    (o2_4_v40 V x0 x1 x2 x3 x4 x5 x6 x7 h_v0)
    (o2_4_v38 V x0 x1 x2 x3 x4 x5 x6 x7 h_v28 a1 h_v36)
    ((k2_4_v33 V).trans h_v33)
    ((k2_4_v35 V).trans h_v35)
    ((k2_4_arg1 V).trans a1)
    ((k2_4_arg6 V).trans a6)
    ((k2_4_arg0 V).trans a0)
    ((k2_4_arg7 V).trans a7)
    ((k2_4_v6 V).trans h_v6)
    ((k2_4_v8 V).trans h_v8)
    ((k2_4_v23 V).trans h_v23)
    ((k2_4_v28 V).trans h_v28)

theorem c9
    (h_call2_v7 : V main_call2_v7 = val_main_call2_v7 (F := F) x0 x4 x5)
    (h_call2_v5 : V main_call2_v5 = val_main_call2_v5 (F := F) x0 x4 x5)
    (h_v6 : V main_v6 = val_main_v6 (F := F) x0 x2 x3)
    (a1 : V main_arg1 = x1)
    (h_v28 : V main_v28 = val_main_v28 (F := F) x1)
    (h_v0 : V main_v0 = val_main_v0 (F := F))
    (a6 : V main_arg6 = x6)
    (a0 : V main_arg0 = x0)
    (a7 : V main_arg7 = x7)
    (h_v8 : V main_v8 = val_main_v8 (F := F) x1)
    (h_v23 : V main_v23 = val_main_v23 (F := F) x0 x1 x2 x3) :
    after ops4_2 (after ops4_1 (after ops4_0 (after ops3_6 (after ops3_5 (after ops3_4 (after ops3_3 (after ops3_2 (after ops3_1 (after ops3_0 (after ops2_6 (after ops2_5 (after ops2_4 (after ops2_3 (V)))))))))))))) main_v89 = val_main_v89 (F := F) x0 x1 x2 x3 x4 x5 x6 x7 :=
  c10 (after ops2_3 V) x0 x1 x2 x3 x4 x5 x6 x7
    ((k2_3_arg1 V).trans a1)
    (o2_3_v36 V x0 x1 x2 x3 x4 x5 x6 x7)
    ((k2_3_v28 V).trans h_v28)
    ((k2_3_v0 V).trans h_v0)
    (o2_3_v33 V x0 x1 x2 x3 x4 x5 x6 x7 h_call2_v5 h_call2_v7)
    (o2_3_v35 V x0 x1 x2 x3 x4 x5 x6 x7 h_v6)
    ((k2_3_arg6 V).trans a6)
    ((k2_3_arg0 V).trans a0)
    ((k2_3_arg7 V).trans a7)
    ((k2_3_v6 V).trans h_v6)
    ((k2_3_v8 V).trans h_v8)
    ((k2_3_v23 V).trans h_v23)

theorem c8
    (h_call2_cst_0 : V main_call2_cst_0 = val_main_call2_cst_0 (F := F))
    (h_call2_v0 : V main_call2_v0 = val_main_call2_v0 (F := F) x0 x4 x5)
    (h_v32 : V main_v32 = val_main_v32 (F := F) x0 x4 x5)
    (h_v6 : V main_v6 = val_main_v6 (F := F) x0 x2 x3)
    (a1 : V main_arg1 = x1)
    (h_v28 : V main_v28 = val_main_v28 (F := F) x1)
    (h_v0 : V main_v0 = val_main_v0 (F := F))
    (a6 : V main_arg6 = x6)
    (a0 : V main_arg0 = x0)
    (a7 : V main_arg7 = x7)
    (h_v8 : V main_v8 = val_main_v8 (F := F) x1)
    (h_v23 : V main_v23 = val_main_v23 (F := F) x0 x1 x2 x3) :
    after ops4_2 (after ops4_1 (after ops4_0 (after ops3_6 (after ops3_5 (after ops3_4 (after ops3_3 (after ops3_2 (after ops3_1 (after ops3_0 (after ops2_6 (after ops2_5 (after ops2_4 (after ops2_3 (after ops2_2 (V))))))))))))))) main_v89 = val_main_v89 (F := F) x0 x1 x2 x3 x4 x5 x6 x7 :=
  c9 (after ops2_2 V) x0 x1 x2 x3 x4 x5 x6 x7
    (o2_2_call2_v7 V x0 x1 x2 x3 x4 x5 x6 x7 h_v32 h_call2_cst_0 h_call2_v0)
    (o2_2_call2_v5 V x0 x1 x2 x3 x4 x5 x6 x7 h_v32 h_call2_cst_0 h_call2_v0)
    ((k2_2_v6 V).trans h_v6)
    ((k2_2_arg1 V).trans a1)
    ((k2_2_v28 V).trans h_v28)
    ((k2_2_v0 V).trans h_v0)
    ((k2_2_arg6 V).trans a6)
    ((k2_2_arg0 V).trans a0)
    ((k2_2_arg7 V).trans a7)
    ((k2_2_v8 V).trans h_v8)
    ((k2_2_v23 V).trans h_v23)

theorem c7
    (h_v25 : V main_v25 = val_main_v25 (F := F) x1)
    (h_v27 : V main_v27 = val_main_v27 (F := F) x1)
    (a4 : V main_arg4 = x4)
    (a0 : V main_arg0 = x0)
    (a5 : V main_arg5 = x5)
    (h_v6 : V main_v6 = val_main_v6 (F := F) x0 x2 x3)
    (a1 : V main_arg1 = x1)
    (h_v0 : V main_v0 = val_main_v0 (F := F))
    (a6 : V main_arg6 = x6)
    (a7 : V main_arg7 = x7)
    (h_v8 : V main_v8 = val_main_v8 (F := F) x1)
    (h_v23 : V main_v23 = val_main_v23 (F := F) x0 x1 x2 x3) :
    after ops4_2 (after ops4_1 (after ops4_0 (after ops3_6 (after ops3_5 (after ops3_4 (after ops3_3 (after ops3_2 (after ops3_1 (after ops3_0 (after ops2_6 (after ops2_5 (after ops2_4 (after ops2_3 (after ops2_2 (after ops2_1 (V)))))))))))))))) main_v89 = val_main_v89 (F := F) x0 x1 x2 x3 x4 x5 x6 x7 :=
  c8 (after ops2_1 V) x0 x1 x2 x3 x4 x5 x6 x7
    (o2_1_call2_cst_0 V x0 x1 x2 x3 x4 x5 x6 x7)
    (o2_1_call2_v0 V x0 x1 x2 x3 x4 x5 x6 x7 a0 a4 a5)
    (o2_1_v32 V x0 x1 x2 x3 x4 x5 x6 x7 a0 a4 a5)
    ((k2_1_v6 V).trans h_v6)
    ((k2_1_arg1 V).trans a1)
    (o2_1_v28 V x0 x1 x2 x3 x4 x5 x6 x7 h_v25 h_v27)
    ((k2_1_v0 V).trans h_v0)
    ((k2_1_arg6 V).trans a6)
    ((k2_1_arg0 V).trans a0)
    ((k2_1_arg7 V).trans a7)
    ((k2_1_v8 V).trans h_v8)
    ((k2_1_v23 V).trans h_v23)

theorem c6
    (h_v20 : V main_v20 = val_main_v20 (F := F))
    (h_v21 : V main_v21 = val_main_v21 (F := F) x1)
    (h_v6 : V main_v6 = val_main_v6 (F := F) x0 x2 x3)
    (a1 : V main_arg1 = x1)
    (a4 : V main_arg4 = x4)
    (a0 : V main_arg0 = x0)
    (a5 : V main_arg5 = x5)
    (h_v0 : V main_v0 = val_main_v0 (F := F))
    (a6 : V main_arg6 = x6)
    (a7 : V main_arg7 = x7)
    (h_v8 : V main_v8 = val_main_v8 (F := F) x1) :
    after ops4_2 (after ops4_1 (after ops4_0 (after ops3_6 (after ops3_5 (after ops3_4 (after ops3_3 (after ops3_2 (after ops3_1 (after ops3_0 (after ops2_6 (after ops2_5 (after ops2_4 (after ops2_3 (after ops2_2 (after ops2_1 (after ops2_0 (V))))))))))))))))) main_v89 = val_main_v89 (F := F) x0 x1 x2 x3 x4 x5 x6 x7 :=
  c7 (after ops2_0 V) x0 x1 x2 x3 x4 x5 x6 x7
    (o2_0_v25 V x0 x1 x2 x3 x4 x5 x6 x7 a1)
    (o2_0_v27 V x0 x1 x2 x3 x4 x5 x6 x7 a1)
    ((k2_0_arg4 V).trans a4)
    ((k2_0_arg0 V).trans a0)
    ((k2_0_arg5 V).trans a5)
    ((k2_0_v6 V).trans h_v6)
    ((k2_0_arg1 V).trans a1)
    ((k2_0_v0 V).trans h_v0)
    ((k2_0_arg6 V).trans a6)
    ((k2_0_arg7 V).trans a7)
    ((k2_0_v8 V).trans h_v8)
    (o2_0_v23 V x0 x1 x2 x3 x4 x5 x6 x7 h_v6 h_v20 h_v21)

theorem c5
    (h_v9 : V main_v9 = val_main_v9 (F := F) x1)
    (h_v15 : V main_v15 = val_main_v15 (F := F))
    (h_v14 : V main_v14 = val_main_v14 (F := F))
    (h_v6 : V main_v6 = val_main_v6 (F := F) x0 x2 x3)
    (a1 : V main_arg1 = x1)
    (a4 : V main_arg4 = x4)
    (a0 : V main_arg0 = x0)
    (a5 : V main_arg5 = x5)
    (h_v0 : V main_v0 = val_main_v0 (F := F))
    (a6 : V main_arg6 = x6)
    (a7 : V main_arg7 = x7)
    (h_v8 : V main_v8 = val_main_v8 (F := F) x1) :
    after ops4_2 (after ops4_1 (after ops4_0 (after ops3_6 (after ops3_5 (after ops3_4 (after ops3_3 (after ops3_2 (after ops3_1 (after ops3_0 (after ops2_6 (after ops2_5 (after ops2_4 (after ops2_3 (after ops2_2 (after ops2_1 (after ops2_0 (after ops1_4 (V)))))))))))))))))) main_v89 = val_main_v89 (F := F) x0 x1 x2 x3 x4 x5 x6 x7 :=
  c6 (after ops1_4 V) x0 x1 x2 x3 x4 x5 x6 x7
    (o1_4_v20 V x0 x1 x2 x3 x4 x5 x6 x7 h_v14)
    (o1_4_v21 V x0 x1 x2 x3 x4 x5 x6 x7 h_v9 h_v15)
    ((k1_4_v6 V).trans h_v6)
    ((k1_4_arg1 V).trans a1)
    ((k1_4_arg4 V).trans a4)
    ((k1_4_arg0 V).trans a0)
    ((k1_4_arg5 V).trans a5)
    ((k1_4_v0 V).trans h_v0)
    ((k1_4_arg6 V).trans a6)
    ((k1_4_arg7 V).trans a7)
    ((k1_4_v8 V).trans h_v8)

theorem c4
    (h_c_1 : V main_c_1 = val_main_c_1 (F := F))
    (h_v0 : V main_v0 = val_main_v0 (F := F))
    (h_v9 : V main_v9 = val_main_v9 (F := F) x1)
    (h_v6 : V main_v6 = val_main_v6 (F := F) x0 x2 x3)
    (a1 : V main_arg1 = x1)
    (a4 : V main_arg4 = x4)
    (a0 : V main_arg0 = x0)
    (a5 : V main_arg5 = x5)
    (a6 : V main_arg6 = x6)
    (a7 : V main_arg7 = x7)
    (h_v8 : V main_v8 = val_main_v8 (F := F) x1) :
    after ops4_2 (after ops4_1 (after ops4_0 (after ops3_6 (after ops3_5 (after ops3_4 (after ops3_3 (after ops3_2 (after ops3_1 (after ops3_0 (after ops2_6 (after ops2_5 (after ops2_4 (after ops2_3 (after ops2_2 (after ops2_1 (after ops2_0 (after ops1_4 (after ops1_3 (V))))))))))))))))))) main_v89 = val_main_v89 (F := F) x0 x1 x2 x3 x4 x5 x6 x7 :=
  c5 (after ops1_3 V) x0 x1 x2 x3 x4 x5 x6 x7
    ((k1_3_v9 V).trans h_v9)
    (o1_3_v15 V x0 x1 x2 x3 x4 x5 x6 x7)
    (o1_3_v14 V x0 x1 x2 x3 x4 x5 x6 x7 h_v0 h_c_1)
    ((k1_3_v6 V).trans h_v6)
    ((k1_3_arg1 V).trans a1)
    ((k1_3_arg4 V).trans a4)
    ((k1_3_arg0 V).trans a0)
    ((k1_3_arg5 V).trans a5)
    ((k1_3_v0 V).trans h_v0)
    ((k1_3_arg6 V).trans a6)
    ((k1_3_arg7 V).trans a7)
    ((k1_3_v8 V).trans h_v8)

theorem c3
    (a1 : V main_arg1 = x1)
    (h_v0 : V main_v0 = val_main_v0 (F := F))
    (h_v6 : V main_v6 = val_main_v6 (F := F) x0 x2 x3)
    (a4 : V main_arg4 = x4)
    (a0 : V main_arg0 = x0)
    (a5 : V main_arg5 = x5)
    (a6 : V main_arg6 = x6)
    (a7 : V main_arg7 = x7) :
    after ops4_2 (after ops4_1 (after ops4_0 (after ops3_6 (after ops3_5 (after ops3_4 (after ops3_3 (after ops3_2 (after ops3_1 (after ops3_0 (after ops2_6 (after ops2_5 (after ops2_4 (after ops2_3 (after ops2_2 (after ops2_1 (after ops2_0 (after ops1_4 (after ops1_3 (after ops1_2 (V)))))))))))))))))))) main_v89 = val_main_v89 (F := F) x0 x1 x2 x3 x4 x5 x6 x7 :=
  c4 (after ops1_2 V) x0 x1 x2 x3 x4 x5 x6 x7
    (o1_2_c_1 V x0 x1 x2 x3 x4 x5 x6 x7)
    ((k1_2_v0 V).trans h_v0)
    (o1_2_v9 V x0 x1 x2 x3 x4 x5 x6 x7 a1)
    ((k1_2_v6 V).trans h_v6)
    ((k1_2_arg1 V).trans a1)
    ((k1_2_arg4 V).trans a4)
    ((k1_2_arg0 V).trans a0)
    ((k1_2_arg5 V).trans a5)
    ((k1_2_arg6 V).trans a6)
    ((k1_2_arg7 V).trans a7)
    (o1_2_v8 V x0 x1 x2 x3 x4 x5 x6 x7 a1)

theorem c2
    (h_v5 : V main_v5 = val_main_v5 (F := F) x0 x2 x3)
    (h_call0_v4 : V main_call0_v4 = val_main_call0_v4 (F := F) x0 x2 x3)
    (a1 : V main_arg1 = x1)
    (h_v0 : V main_v0 = val_main_v0 (F := F))
    (a4 : V main_arg4 = x4)
    (a0 : V main_arg0 = x0)
    (a5 : V main_arg5 = x5)
    (a6 : V main_arg6 = x6)
    (a7 : V main_arg7 = x7) :
    after ops4_2 (after ops4_1 (after ops4_0 (after ops3_6 (after ops3_5 (after ops3_4 (after ops3_3 (after ops3_2 (after ops3_1 (after ops3_0 (after ops2_6 (after ops2_5 (after ops2_4 (after ops2_3 (after ops2_2 (after ops2_1 (after ops2_0 (after ops1_4 (after ops1_3 (after ops1_2 (after ops1_1 (V))))))))))))))))))))) main_v89 = val_main_v89 (F := F) x0 x1 x2 x3 x4 x5 x6 x7 :=
  c3 (after ops1_1 V) x0 x1 x2 x3 x4 x5 x6 x7
    ((k1_1_arg1 V).trans a1)
    ((k1_1_v0 V).trans h_v0)
    (o1_1_v6 V x0 x1 x2 x3 x4 x5 x6 x7 h_v5 h_call0_v4)
    ((k1_1_arg4 V).trans a4)
    ((k1_1_arg0 V).trans a0)
    ((k1_1_arg5 V).trans a5)
    ((k1_1_arg6 V).trans a6)
    ((k1_1_arg7 V).trans a7)

theorem c1
    (h_v2 : V main_v2 = val_main_v2 (F := F) x0 x2)
    (h_v4 : V main_v4 = val_main_v4 (F := F) x0 x3)
    (a1 : V main_arg1 = x1)
    (h_v0 : V main_v0 = val_main_v0 (F := F))
    (a4 : V main_arg4 = x4)
    (a0 : V main_arg0 = x0)
    (a5 : V main_arg5 = x5)
    (a6 : V main_arg6 = x6)
    (a7 : V main_arg7 = x7) :
    after ops4_2 (after ops4_1 (after ops4_0 (after ops3_6 (after ops3_5 (after ops3_4 (after ops3_3 (after ops3_2 (after ops3_1 (after ops3_0 (after ops2_6 (after ops2_5 (after ops2_4 (after ops2_3 (after ops2_2 (after ops2_1 (after ops2_0 (after ops1_4 (after ops1_3 (after ops1_2 (after ops1_1 (after ops1_0 (V)))))))))))))))))))))) main_v89 = val_main_v89 (F := F) x0 x1 x2 x3 x4 x5 x6 x7 :=
  c2 (after ops1_0 V) x0 x1 x2 x3 x4 x5 x6 x7
    (o1_0_v5 V x0 x1 x2 x3 x4 x5 x6 x7 h_v2 h_v4)
    (o1_0_call0_v4 V x0 x1 x2 x3 x4 x5 x6 x7 h_v2 h_v4)
    ((k1_0_arg1 V).trans a1)
    ((k1_0_v0 V).trans h_v0)
    ((k1_0_arg4 V).trans a4)
    ((k1_0_arg0 V).trans a0)
    ((k1_0_arg5 V).trans a5)
    ((k1_0_arg6 V).trans a6)
    ((k1_0_arg7 V).trans a7)

theorem c0
    (a2 : V main_arg2 = x2)
    (a0 : V main_arg0 = x0)
    (a3 : V main_arg3 = x3)
    (a1 : V main_arg1 = x1)
    (a4 : V main_arg4 = x4)
    (a5 : V main_arg5 = x5)
    (a6 : V main_arg6 = x6)
    (a7 : V main_arg7 = x7) :
    after ops4_2 (after ops4_1 (after ops4_0 (after ops3_6 (after ops3_5 (after ops3_4 (after ops3_3 (after ops3_2 (after ops3_1 (after ops3_0 (after ops2_6 (after ops2_5 (after ops2_4 (after ops2_3 (after ops2_2 (after ops2_1 (after ops2_0 (after ops1_4 (after ops1_3 (after ops1_2 (after ops1_1 (after ops1_0 (after ops0_0 (V))))))))))))))))))))))) main_v89 = val_main_v89 (F := F) x0 x1 x2 x3 x4 x5 x6 x7 :=
  c1 (after ops0_0 V) x0 x1 x2 x3 x4 x5 x6 x7
    (o0_0_v2 V x0 x1 x2 x3 x4 x5 x6 x7 a0 a2)
    (o0_0_v4 V x0 x1 x2 x3 x4 x5 x6 x7 a0 a3)
    ((k0_0_arg1 V).trans a1)
    (o0_0_v0 V x0 x1 x2 x3 x4 x5 x6 x7)
    ((k0_0_arg4 V).trans a4)
    ((k0_0_arg0 V).trans a0)
    ((k0_0_arg5 V).trans a5)
    ((k0_0_arg6 V).trans a6)
    ((k0_0_arg7 V).trans a7)

theorem after_value
    (a2 : V main_arg2 = x2) (a0 : V main_arg0 = x0) (a3 : V main_arg3 = x3) (a1 : V main_arg1 = x1) (a4 : V main_arg4 = x4) (a5 : V main_arg5 = x5) (a6 : V main_arg6 = x6) (a7 : V main_arg7 = x7) :
    after ops V main_v89 = val_main_v89 (F := F) x0 x1 x2 x3 x4 x5 x6 x7 := by
  rw [after_ops_eq, after0_split, after1_split, after2_split, after3_split, after4_split]
  exact c0 V x0 x1 x2 x3 x4 x5 x6 x7 a2 a0 a3 a1 a4 a5 a6 a7
end

theorem after_result (m : (ℓ : Loc nD τ sig) → Buf (Elt F) ℓ) (c : Dev nD) :
    after ops (launchContents m c) (Proc.devRef .tc main_v89) = res_out0 m c := by
  unfold res_out0
  exact after_value (launchContents m c) _ _ _ _ _ _ _ _ rfl rfl rfl rfl rfl rfl rfl rfl

theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v89) = res_out0 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v89).trans (after_result m c),
      (h c main_arg0).trans (after_ops_args m c).1,
      (h c main_arg1).trans (after_ops_args m c).2.1,
      (h c main_arg2).trans (after_ops_args m c).2.2.1,
      (h c main_arg3).trans (after_ops_args m c).2.2.2.1,
      (h c main_arg4).trans (after_ops_args m c).2.2.2.2.1,
      (h c main_arg5).trans (after_ops_args m c).2.2.2.2.2.1,
      (h c main_arg6).trans (after_ops_args m c).2.2.2.2.2.2.1,
      (h c main_arg7).trans (after_ops_args m c).2.2.2.2.2.2.2⟩)
    (run_raw m ρ)

end Cert.ReferenceIdeal.HandRun

end
-- ==== Proof.K.Runs0.lean ====
import proofs.«402100_j83614423319285_2_alg».proof.Proof.Gen.Kernel.Launch
import proofs.«402100_j83614423319285_2_alg».proof.Proof.Gen.Kernel.Skeleton
import proofs.«402100_j83614423319285_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 10 = 0 :=
  (by decide +kernel : ∀ t : Fin grid0.N, cond0_0 (grid0.coords t) ↔ t.val % 10 = 0)

abbrev cond0_1 (i : grid0.Coords) : Prop := k0_cond2 i = 1#1

theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

abbrev VS0_0 : View sig .tc .vmem S512x1 .f32 := scM0_0.view
abbrev VS0_1 : View sig .tc .vmem S512x1 .f32 := scM0_1.view
abbrev VS0_2 : View sig .tc .vmem S512x1 .f32 := scM0_2.view

abbrev rest0 (c : Dev nD) : sProp 𝕄 :=
  Pipeline.scopedRestBut (Ix := Unit) (Name := ℕ) (U := UR sig nD τ) (Lvl := ℕ) (Val := Elt F) spec0 c [cc0_scratch0, cc0_scratch1, cc0_scratch2]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ rest0 (F := F) c) ∗ (∃ r, prngReg c r)) := by
  unfold Pipeline.ΦA; rw [scopedRest0_split]; simp only [scM0_0, scM0_1, scM0_2, owns_whole]; try rfl

structure Args0 where
  arg2 : Memref sig .tc .vmem S512x1024 .bf16
  harg2 : arg2.IsWhole
  arg3 : Memref sig .tc .vmem S2048x1024 .bf16
  harg3 : arg3.IsWhole
  arg4 : Memref sig .tc .vmem S512x1 .i32
  harg4 : arg4.IsWhole
  arg5 : Memref sig .tc .vmem S512x1 .f32
  harg5 : arg5.IsWhole
  arg6 : Memref sig .tc .vmem S512x1 .f32
  harg6 : arg6.IsWhole
  arg7 : Memref sig .tc .vmem S512x1 .f32
  harg7 : arg7.IsWhole
  arg8 : Memref sig .tc .vmem S512x1 .f32
  harg8 : arg8.IsWhole
  arg9 : Memref sig .tc .vmem S512x1 .f32
  harg9 : arg9.IsWhole
  arg10 : Memref sig .tc .vmem S512x1 .f32
  harg10 : arg10.IsWhole

abbrev args0 (t : Fin cfg0.N) : Args0 :=
  ⟨ms0_0 t, hs0_0 t, ms0_1 t, hs0_1 t, ms0_2 t, hs0_2 t, ms0_3 t, hs0_3 t, ms0_4 t, hs0_4 t, ms0_5 t, hs0_5 t, scM0_0, Memref.isWhole_whole _, scM0_1, Memref.isWhole_whole _, scM0_2, Memref.isWhole_whole _⟩

end Cert.Kernel.Hand

end
-- ==== Proof.K.Run0A.lean ====
import proofs.«402100_j83614423319285_2_alg».proof.Proof.K.Runs0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun0_A (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x1024 .bf16) (x1 : Vec F S2048x1024 .bf16) (x2 : Vec F S512x1 .i32) :
    Σ' (LS0 : List (View.Piece (Elt F) S512x1 .f32)) (LS1 : List (View.Piece (Elt F) S512x1 .f32)), { LS2 : List (View.Piece (Elt F) S512x1 .f32) //
      ∀ (xi3 : Vec F S512x1 .f32) (xi4 : Vec F S512x1 .f32) (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    sl_unfold [cc0_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

noncomputable def run0_A (c : Dev nD) (i : grid0.Coords) (a : Args0) (hc0 : cond0_0 i) (hc1 : ¬cond0_1 i) (x0 : Vec F S512x1024 .bf16) (x1 : Vec F S2048x1024 .bf16) (x2 : Vec F S512x1 .i32) :=
  kernelRun0_A c i a.arg2 a.harg2 a.arg3 a.harg3 a.arg4 a.harg4 a.arg5 a.harg5 a.arg6 a.harg6 a.arg7 a.harg7 a.arg8 a.harg8 a.arg9 a.harg9 a.arg10 a.harg10 hc0 hc1 x0 x1 x2

end Cert.Kernel.Hand

end
-- ==== Proof.K.Run0B.lean ====
import proofs.«402100_j83614423319285_2_alg».proof.Proof.K.Runs0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun0_B (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x1024 .bf16) (x1 : Vec F S2048x1024 .bf16) (x2 : Vec F S512x1 .i32) (xs0 : Vec F S512x1 .f32) (xs1 : Vec F S512x1 .f32) (xs2 : Vec F S512x1 .f32) :
    Σ' (LS0 : List (View.Piece (Elt F) S512x1 .f32)) (LS1 : List (View.Piece (Elt F) S512x1 .f32)), { LS2 : List (View.Piece (Elt F) S512x1 .f32) //
      ∀ (xi3 : Vec F S512x1 .f32) (xi4 : Vec F S512x1 .f32) (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    sl_unfold [cc0_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

noncomputable def run0_B (c : Dev nD) (i : grid0.Coords) (a : Args0) (hc0 : ¬cond0_0 i) (hc1 : ¬cond0_1 i) (x0 : Vec F S512x1024 .bf16) (x1 : Vec F S2048x1024 .bf16) (x2 : Vec F S512x1 .i32) (xs0 : Vec F S512x1 .f32) (xs1 : Vec F S512x1 .f32) (xs2 : Vec F S512x1 .f32) :=
  kernelRun0_B c i a.arg2 a.harg2 a.arg3 a.harg3 a.arg4 a.harg4 a.arg5 a.harg5 a.arg6 a.harg6 a.arg7 a.harg7 a.arg8 a.harg8 a.arg9 a.harg9 a.arg10 a.harg10 hc0 hc1 x0 x1 x2 xs0 xs1 xs2

end Cert.Kernel.Hand

end
-- ==== Proof.K.Run0C.lean ====
import proofs.«402100_j83614423319285_2_alg».proof.Proof.K.Runs0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun0_C (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x1024 .bf16) (x1 : Vec F S2048x1024 .bf16) (x2 : Vec F S512x1 .i32) (xs0 : Vec F S512x1 .f32) (xs1 : Vec F S512x1 .f32) (xs2 : Vec F S512x1 .f32) :
    Σ' (L3 : List (View.Piece (Elt F) S512x1 .f32)) (L4 : List (View.Piece (Elt F) S512x1 .f32)) (L5 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    sl_unfold [cc0_kernel]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

noncomputable def run0_C (c : Dev nD) (i : grid0.Coords) (a : Args0) (hc0 : ¬cond0_0 i) (hc1 : cond0_1 i) (x0 : Vec F S512x1024 .bf16) (x1 : Vec F S2048x1024 .bf16) (x2 : Vec F S512x1 .i32) (xs0 : Vec F S512x1 .f32) (xs1 : Vec F S512x1 .f32) (xs2 : Vec F S512x1 .f32) :=
  kernelRun0_C c i a.arg2 a.harg2 a.arg3 a.harg3 a.arg4 a.harg4 a.arg5 a.harg5 a.arg6 a.harg6 a.arg7 a.harg7 a.arg8 a.harg8 a.arg9 a.harg9 a.arg10 a.harg10 hc0 hc1 x0 x1 x2 xs0 xs1 xs2

end Cert.Kernel.Hand

end
-- ==== Proof.K.Body0.lean ====
import proofs.«402100_j83614423319285_2_alg».proof.Proof.K.Run0A
import proofs.«402100_j83614423319285_2_alg».proof.Proof.K.Run0B
import proofs.«402100_j83614423319285_2_alg».proof.Proof.K.Run0C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (a : Args0)
section
variable (hc0 : cond0_0 i) (hc1 : ¬cond0_1 i) (x0 : Vec F S512x1024 .bf16) (x1 : Vec F S2048x1024 .bf16) (x2 : Vec F S512x1 .i32)
theorem scover0_A_0 (y : S512x1.Idx) :
    ∃ pc ∈ (run0_A c i a hc0 hc1 x0 x1 x2).1, y ∈ pc.1.set :=
  View.cover_of_tiledL _ S512x1.size (by sl_kernel_rfl) y

def sout0_A_0 : Vec F S512x1 .f32 :=
  VS0_0.read (Elt F) (VS0_0.writes (Elt F) VS0_0.junk (run0_A c i a hc0 hc1 x0 x1 x2).1)

theorem scover0_A_1 (y : S512x1.Idx) :
    ∃ pc ∈ (run0_A c i a hc0 hc1 x0 x1 x2).2.1, y ∈ pc.1.set :=
  View.cover_of_tiledL _ S512x1.size (by sl_kernel_rfl) y

def sout0_A_1 : Vec F S512x1 .f32 :=
  VS0_1.read (Elt F) (VS0_1.writes (Elt F) VS0_1.junk (run0_A c i a hc0 hc1 x0 x1 x2).2.1)

theorem scover0_A_2 (y : S512x1.Idx) :
    ∃ pc ∈ (run0_A c i a hc0 hc1 x0 x1 x2).2.2.1, y ∈ pc.1.set :=
  View.cover_of_tiledL _ S512x1.size (by sl_kernel_rfl) y

def sout0_A_2 : Vec F S512x1 .f32 :=
  VS0_2.read (Elt F) (VS0_2.writes (Elt F) VS0_2.junk (run0_A c i a hc0 hc1 x0 x1 x2).2.2.1)

end
section
variable (hc0 : ¬cond0_0 i) (hc1 : ¬cond0_1 i) (x0 : Vec F S512x1024 .bf16) (x1 : Vec F S2048x1024 .bf16) (x2 : Vec F S512x1 .i32) (xs0 : Vec F S512x1 .f32) (xs1 : Vec F S512x1 .f32) (xs2 : Vec F S512x1 .f32)
theorem scover0_B_0 (y : S512x1.Idx) :
    ∃ pc ∈ (run0_B c i a hc0 hc1 x0 x1 x2 xs0 xs1 xs2).1, y ∈ pc.1.set :=
  View.cover_of_tiledL _ S512x1.size (by sl_kernel_rfl) y

def sout0_B_0 : Vec F S512x1 .f32 :=
  VS0_0.read (Elt F) (VS0_0.writes (Elt F) VS0_0.junk (run0_B c i a hc0 hc1 x0 x1 x2 xs0 xs1 xs2).1)

theorem scover0_B_1 (y : S512x1.Idx) :
    ∃ pc ∈ (run0_B c i a hc0 hc1 x0 x1 x2 xs0 xs1 xs2).2.1, y ∈ pc.1.set :=
  View.cover_of_tiledL _ S512x1.size (by sl_kernel_rfl) y

def sout0_B_1 : Vec F S512x1 .f32 :=
  VS0_1.read (Elt F) (VS0_1.writes (Elt F) VS0_1.junk (run0_B c i a hc0 hc1 x0 x1 x2 xs0 xs1 xs2).2.1)

theorem scover0_B_2 (y : S512x1.Idx) :
    ∃ pc ∈ (run0_B c i a hc0 hc1 x0 x1 x2 xs0 xs1 xs2).2.2.1, y ∈ pc.1.set :=
  View.cover_of_tiledL _ S512x1.size (by sl_kernel_rfl) y

def sout0_B_2 : Vec F S512x1 .f32 :=
  VS0_2.read (Elt F) (VS0_2.writes (Elt F) VS0_2.junk (run0_B c i a hc0 hc1 x0 x1 x2 xs0 xs1 xs2).2.2.1)

end
section
variable (hc0 : ¬cond0_0 i) (hc1 : cond0_1 i) (x0 : Vec F S512x1024 .bf16) (x1 : Vec F S2048x1024 .bf16) (x2 : Vec F S512x1 .i32) (xs0 : Vec F S512x1 .f32) (xs1 : Vec F S512x1 .f32) (xs2 : Vec F S512x1 .f32)
theorem scover0_C_0 (y : S512x1.Idx) :
    ∃ pc ∈ (run0_C c i a hc0 hc1 x0 x1 x2 xs0 xs1 xs2).2.2.2.1, y ∈ pc.1.set :=
  View.cover_of_tiledL _ S512x1.size (by sl_kernel_rfl) y

def sout0_C_0 : Vec F S512x1 .f32 :=
  VS0_0.read (Elt F) (VS0_0.writes (Elt F) VS0_0.junk (run0_C c i a hc0 hc1 x0 x1 x2 xs0 xs1 xs2).2.2.2.1)

theorem scover0_C_1 (y : S512x1.Idx) :
    ∃ pc ∈ (run0_C c i a hc0 hc1 x0 x1 x2 xs0 xs1 xs2).2.2.2.2.1, y ∈ pc.1.set :=
  View.cover_of_tiledL _ S512x1.size (by sl_kernel_rfl) y

def sout0_C_1 : Vec F S512x1 .f32 :=
  VS0_1.read (Elt F) (VS0_1.writes (Elt F) VS0_1.junk (run0_C c i a hc0 hc1 x0 x1 x2 xs0 xs1 xs2).2.2.2.2.1)

theorem scover0_C_2 (y : S512x1.Idx) :
    ∃ pc ∈ (run0_C c i a hc0 hc1 x0 x1 x2 xs0 xs1 xs2).2.2.2.2.2.1, y ∈ pc.1.set :=
  View.cover_of_tiledL _ S512x1.size (by sl_kernel_rfl) y

def sout0_C_2 : Vec F S512x1 .f32 :=
  VS0_2.read (Elt F) (VS0_2.writes (Elt F) VS0_2.junk (run0_C c i a hc0 hc1 x0 x1 x2 xs0 xs1 xs2).2.2.2.2.2.1)

theorem cover0_C_3 (y : S512x1.Idx) :
    ∃ pc ∈ (run0_C c i a hc0 hc1 x0 x1 x2 xs0 xs1 xs2).1, y ∈ pc.1.set :=
  View.cover_of_tiledL _ S512x1.size (by sl_kernel_rfl) y

def out0_C_3 : Vec F S512x1 .f32 :=
  VO0_3.read (Elt F) (VO0_3.writes (Elt F) VO0_3.junk (run0_C c i a hc0 hc1 x0 x1 x2 xs0 xs1 xs2).1)

theorem cover0_C_4 (y : S512x1.Idx) :
    ∃ pc ∈ (run0_C c i a hc0 hc1 x0 x1 x2 xs0 xs1 xs2).2.1, y ∈ pc.1.set :=
  View.cover_of_tiledL _ S512x1.size (by sl_kernel_rfl) y

def out0_C_4 : Vec F S512x1 .f32 :=
  VO0_4.read (Elt F) (VO0_4.writes (Elt F) VO0_4.junk (run0_C c i a hc0 hc1 x0 x1 x2 xs0 xs1 xs2).2.1)

theorem cover0_C_5 (y : S512x1.Idx) :
    ∃ pc ∈ (run0_C c i a hc0 hc1 x0 x1 x2 xs0 xs1 xs2).2.2.1, y ∈ pc.1.set :=
  View.cover_of_tiledL _ S512x1.size (by sl_kernel_rfl) y

def out0_C_5 : Vec F S512x1 .f32 :=
  VO0_5.read (Elt F) (VO0_5.writes (Elt F) VO0_5.junk (run0_C c i a hc0 hc1 x0 x1 x2 xs0 xs1 xs2).2.2.1)
end
end

def oidle0 : Vec F S512x1 .f32 := VO0_3.read (Elt F) VO0_3.junk

def stepA0 (c : Dev nD) (t : Fin cfg0.N) (h0 : t.val % 10 = 0) (h1 : ¬t.val % 10 = 9) : Vec F S512x1 .f32 × Vec F S512x1 .f32 × Vec F S512x1 .f32 × Vec F S512x1 .f32 × Vec F S512x1 .f32 × Vec F S512x1 .f32 :=
  (oidle0, oidle0, oidle0,
   sout0_A_0 c (grid0.coords t) (args0 t) ((hcond0_0 t).mpr h0) (fun h => h1 ((hcond0_1 t).mp h)) (iblk0 V c 0 t) (iblk0 V c 1 t) (iblk0 V c 2 t),
   sout0_A_1 c (grid0.coords t) (args0 t) ((hcond0_0 t).mpr h0) (fun h => h1 ((hcond0_1 t).mp h)) (iblk0 V c 0 t) (iblk0 V c 1 t) (iblk0 V c 2 t),
   sout0_A_2 c (grid0.coords t) (args0 t) ((hcond0_0 t).mpr h0) (fun h => h1 ((hcond0_1 t).mp h)) (iblk0 V c 0 t) (iblk0 V c 1 t) (iblk0 V c 2 t))

def stepB0 (c : Dev nD) (t : Fin cfg0.N) (h0 : ¬t.val % 10 = 0) (h1 : ¬t.val % 10 = 9) (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 :=
  (oidle0, oidle0, oidle0,
   sout0_B_0 c (grid0.coords t) (args0 t) (fun h => h0 ((hcond0_0 t).mp h)) (fun h => h1 ((hcond0_1 t).mp h)) (iblk0 V c 0 t) (iblk0 V c 1 t) (iblk0 V c 2 t) p.2.2.2.1 p.2.2.2.2.1 p.2.2.2.2.2,
   sout0_B_1 c (grid0.coords t) (args0 t) (fun h => h0 ((hcond0_0 t).mp h)) (fun h => h1 ((hcond0_1 t).mp h)) (iblk0 V c 0 t) (iblk0 V c 1 t) (iblk0 V c 2 t) p.2.2.2.1 p.2.2.2.2.1 p.2.2.2.2.2,
   sout0_B_2 c (grid0.coords t) (args0 t) (fun h => h0 ((hcond0_0 t).mp h)) (fun h => h1 ((hcond0_1 t).mp h)) (iblk0 V c 0 t) (iblk0 V c 1 t) (iblk0 V c 2 t) p.2.2.2.1 p.2.2.2.2.1 p.2.2.2.2.2)

def stepC0 (c : Dev nD) (t : Fin cfg0.N) (h0 : ¬t.val % 10 = 0) (h1 : t.val % 10 = 9) (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 :=
  (out0_C_3 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   out0_C_4 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   out0_C_5 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   sout0_C_0 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   sout0_C_1 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   sout0_C_2 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2)

def outsAt0 (c : Dev nD) : (n : ℕ) → n < cfg0.N → Vec F S512x1 .f32 × Vec F S512x1 .f32 × Vec F S512x1 .f32 × Vec F S512x1 .f32 × Vec F S512x1 .f32 × Vec F S512x1 .f32
  | 0, hn => stepA0 V c ⟨0, hn⟩ (Nat.zero_mod _) (by show ¬(0 % 10 = 9); decide)
  | n + 1, hn =>
    if h0 : (n + 1) % 10 = 0 then
      if h1 : (n + 1) % 10 = 9 then False.elim (by omega)
      else stepA0 V c ⟨n + 1, hn⟩ h0 h1
    else
      if h1 : (n + 1) % 10 = 9 then stepC0 V c ⟨n + 1, hn⟩ h0 h1 (outsAt0 c n (Nat.lt_of_succ_lt hn))
      else stepB0 V c ⟨n + 1, hn⟩ h0 h1 (outsAt0 c n (Nat.lt_of_succ_lt hn))

theorem outsAt0_A (c : Dev nD) (t : Fin cfg0.N) (h0 : t.val % 10 = 0) (h1 : ¬t.val % 10 = 9) :
    outsAt0 V c t.val t.isLt = stepA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = stepB0 V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 10 = 0) (h1 : t.val % 10 = 9) :
    outsAt0 V c t.val t.isLt = stepC0 V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2) ∗ rest0 (F := F) c) ∗ (∃ r, prngReg c r))

theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2.1 ∗ owns (c : Thread nD τ) scM0_2 fullShare (outsAt0 V c (n - 1) (by omega)).2.2.2.2.2) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := rfl

theorem owed_eq0 (c : Dev nD) (t : Fin (cfg0.N + 1)) : (dat0 V c).owed t = 0 := rfl

theorem recorded_eq0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

private theorem owns_of_cover {c : Thread nD τ} {cs : Space} {s : Shape} {e : EltTy} {κ' : Kind} {sp' : Space}
    (v' : View sig κ' sp' s e) {M : Memref sig c.2.kind cs s e} {q : PosShare TreeShare}
    {L : List (View.Piece (Elt F) s e)} (h : ∀ y, ∃ p ∈ L, y ∈ p.1.set) :
    (iprop(∃ f, M.view.loc c ↦[M.view.set]{q} M.view.writes (Elt F) f L) : sProp 𝕄)
      ⊢ owns c M q (v'.read (Elt F) (v'.writes (Elt F) v'.junk L)) := by
  iintro ⟨%f, H⟩; unfold owns; iexists M.view.writes (Elt F) f L; isplitr
  · ipureintro; exact View.read_writes_of_cover _ _ _ _ _ h
  · iexact H

theorem PhiS0_le (c : Dev nD) (n : ℕ) (h : n ≤ cfg0.N) : PhiS0 V c n h ⊢ (Pipeline.ΦA spec0 c : sProp 𝕄) := by
  cases n with
  | zero => exact .rfl
  | succ n =>
    rw [PhiS0_succ, PhiA0_eq]
    iintro ⟨⟨⟨HS0, HS1, HS2⟩, Hr⟩, Hg⟩
    isplitl [HS0 HS1 HS2 Hr]
    · isplitl [HS0 HS1 HS2]
      · isplitl [HS0]; · iexists _; iexact HS0
        isplitl [HS1]; · iexists _; iexact HS1
        iexists _; iexact HS2
      iexact Hr
    iexact Hg

set_option maxHeartbeats 8000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 10 = 9
  · have h0 : ¬t.val % 10 = 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [outsAt0_C V c t h0 h1]
    unfold stepC0 out0_C_3 out0_C_4 out0_C_5 sout0_C_0 sout0_C_1 sout0_C_2; (try dsimp only)
    rw [PhiS0_pos V c _ _ (by omega)]
    iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
    iapply ((run0_C c (grid0.coords t) (args0 t) (fun h => h0 ((hcond0_0 t).mp h)) ((hcond0_1 t).mpr h1) (iblk0 V c 0 t) (iblk0 V c 1 t) (iblk0 V c 2 t) _ _ _).2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hr Hg]
    · isplitl [HS0 HS1 HS2 Hr]
      · isplitl [HS0 HS1 HS2]
        · isplitl [HS0]; · iapply owns_of_cover _ (scover0_C_0 c _ _ _ _ _ _ _ _ _ _); iexact HS0
          isplitl [HS1]; · iapply owns_of_cover _ (scover0_C_1 c _ _ _ _ _ _ _ _ _ _); iexact HS1
          iapply owns_of_cover _ (scover0_C_2 c _ _ _ _ _ _ _ _ _ _); iexact HS2
        iexact Hr
      iexact Hg
    isplitl [Ho]; · iexact Ho
    isplitl [H0]; · iexact H0
    isplitl [H1]; · iexact H1
    isplitl [H2]; · iexact H2
    isplitl [H3]; · iapply owns_of_cover _ (cover0_C_3 c _ _ _ _ _ _ _ _ _ _); iexact H3
    isplitl [H4]; · iapply owns_of_cover _ (cover0_C_4 c _ _ _ _ _ _ _ _ _ _); iexact H4
    iapply owns_of_cover _ (cover0_C_5 c _ _ _ _ _ _ _ _ _ _); iexact H5
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val % 10 = 0
    · rw [outsAt0_A V c t h0 h1]
      unfold stepA0 sout0_A_0 sout0_A_1 sout0_A_2; (try dsimp only)
      refine (sep_mono_left (PhiS0_le V c _ _)).trans ?_
      rw [PhiA0_eq]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
      iapply ((run0_A c (grid0.coords t) (args0 t) ((hcond0_0 t).mpr h0) (fun h => h1 ((hcond0_1 t).mp h)) (iblk0 V c 0 t) (iblk0 V c 1 t) (iblk0 V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hr Hg]
      · isplitl [HS0 HS1 HS2 Hr]
        · isplitl [HS0 HS1 HS2]
          · isplitl [HS0]; · iapply owns_of_cover _ (scover0_A_0 c _ _ _ _ _ _ _); iexact HS0
            isplitl [HS1]; · iapply owns_of_cover _ (scover0_A_1 c _ _ _ _ _ _ _); iexact HS1
            iapply owns_of_cover _ (scover0_A_2 c _ _ _ _ _ _ _); iexact HS2
          iexact Hr
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [outsAt0_B V c t h0 h1]
      unfold stepB0 sout0_B_0 sout0_B_1 sout0_B_2; (try dsimp only)
      rw [PhiS0_pos V c _ _ (by omega)]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
      iapply ((run0_B c (grid0.coords t) (args0 t) (fun h => h0 ((hcond0_0 t).mp h)) (fun h => h1 ((hcond0_1 t).mp h)) (iblk0 V c 0 t) (iblk0 V c 1 t) (iblk0 V c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hr Hg]
      · isplitl [HS0 HS1 HS2 Hr]
        · isplitl [HS0 HS1 HS2]
          · isplitl [HS0]; · iapply owns_of_cover _ (scover0_B_0 c _ _ _ _ _ _ _ _ _ _); iexact HS0
            isplitl [HS1]; · iapply owns_of_cover _ (scover0_B_1 c _ _ _ _ _ _ _ _ _ _); iexact HS1
            iapply owns_of_cover _ (scover0_B_2 c _ _ _ _ _ _ _ _ _ _); iexact HS2
          iexact Hr
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := PhiS0_le V c (Fin.last cfg0.N).val _

end Cert.Kernel.Hand

end
-- ==== Proof.K.Runs1.lean ====
import proofs.«402100_j83614423319285_2_alg».proof.Proof.Gen.Kernel.Launch
import proofs.«402100_j83614423319285_2_alg».proof.Proof.Gen.Kernel.Skeleton
import proofs.«402100_j83614423319285_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev cond1_1 (i : grid1.Coords) : Prop := k1_cond2 i = 1#1

theorem hcond1_1 : ∀ t : Fin cfg1.N, cond1_1 (grid1.coords t) ↔ t.val % 10 = 9 :=
  (by decide +kernel : ∀ t : Fin grid1.N, cond1_1 (grid1.coords t) ↔ t.val % 10 = 9)

theorem liveAt1_0 : ∀ t : Fin cfg1.N, cfg1.idle 0 (grid1.coords t) = false := fun _ => rfl

theorem liveAt1_1 : ∀ t : Fin cfg1.N, cfg1.idle 1 (grid1.coords t) = false := fun _ => rfl

theorem liveAt1_2 : ∀ t : Fin cfg1.N, cfg1.idle 2 (grid1.coords t) = false := fun _ => rfl

theorem liveAt1_3 : ∀ t : Fin cfg1.N, cfg1.idle 3 (grid1.coords t) = false := fun _ => rfl

theorem idleAt1_4 : ∀ t : Fin cfg1.N, ¬cond1_1 (grid1.coords t) → cfg1.idle 4 (grid1.coords t) = true := by decide +kernel

theorem noFlush1_4 : ∀ t : Fin cfg1.N, ¬cond1_1 (grid1.coords t) → (cfg1.win 4).flush t = false := by decide +kernel

theorem liveAt1_4 : ∀ t : Fin cfg1.N, cond1_1 (grid1.coords t) → cfg1.idle 4 (grid1.coords t) = false := by decide +kernel

theorem idleAt1_5 : ∀ t : Fin cfg1.N, ¬cond1_1 (grid1.coords t) → cfg1.idle 5 (grid1.coords t) = true := by decide +kernel

theorem noFlush1_5 : ∀ t : Fin cfg1.N, ¬cond1_1 (grid1.coords t) → (cfg1.win 5).flush t = false := by decide +kernel

theorem liveAt1_5 : ∀ t : Fin cfg1.N, cond1_1 (grid1.coords t) → cfg1.idle 5 (grid1.coords t) = false := by decide +kernel

theorem idleAt1_6 : ∀ t : Fin cfg1.N, ¬cond1_1 (grid1.coords t) → cfg1.idle 6 (grid1.coords t) = true := by decide +kernel

theorem noFlush1_6 : ∀ t : Fin cfg1.N, ¬cond1_1 (grid1.coords t) → (cfg1.win 6).flush t = false := by decide +kernel

theorem liveAt1_6 : ∀ t : Fin cfg1.N, cond1_1 (grid1.coords t) → cfg1.idle 6 (grid1.coords t) = false := by decide +kernel

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)

abbrev scM1_0 : Memref sig .tc .vmem S512x256 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1 .f32 := Memref.whole cc1_scratch3

abbrev VO1_4 : View sig .tc .vmem S512x1 .f32 := (Memref.whole cc1_stg4_0 : Memref sig .tc .vmem S512x1 .f32).view
abbrev VO1_5 : View sig .tc .vmem S512x1 .f32 := (Memref.whole cc1_stg5_0 : Memref sig .tc .vmem S512x1 .f32).view
abbrev VO1_6 : View sig .tc .vmem S512x1 .f32 := (Memref.whole cc1_stg6_0 : Memref sig .tc .vmem S512x1 .f32).view
abbrev VS1_0 : View sig .tc .vmem S512x256 .bf16 := scM1_0.view
abbrev VS1_1 : View sig .tc .vmem S512x1 .f32 := scM1_1.view
abbrev VS1_2 : View sig .tc .vmem S512x1 .f32 := scM1_2.view
abbrev VS1_3 : View sig .tc .vmem S512x1 .f32 := scM1_3.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d) ∗ (∃ d, owns (c : Thread nD τ) scM1_3 fullShare d))
          ∗ Pipeline.scopedRestBut (Ix := Unit) (Name := ℕ) (U := UR sig nD τ) (Lvl := ℕ) (Val := Elt F) spec1 c [cc1_scratch0, cc1_scratch1, cc1_scratch2, cc1_scratch3])
        ∗ (∃ r, prngReg c r)) := by
  unfold Pipeline.ΦA; rw [scopedRest1_split]; simp only [scM1_0, scM1_1, scM1_2, scM1_3, owns_whole]; try rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hk : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hk t d]
  unfold Dat.fetched Dat.blockOf iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hk : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hk t d]
  unfold Dat.fetched Dat.blockOf iblk1; rw [hA]; try rfl

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hk : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hk t d]
  unfold Dat.fetched Dat.blockOf iblk1; rw [hA]; try rfl

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hk : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hk t d]
  unfold Dat.fetched Dat.blockOf iblk1; rw [hA]; try rfl

structure Args1 where
  arg2 : Memref sig .tc .vmem S512x1024 .bf16
  harg2 : arg2.IsWhole
  arg3 : Memref sig .tc .vmem S256x1024 .bf16
  harg3 : arg3.IsWhole
  arg4 : Memref sig .tc .vmem S2048x256 .bf16
  harg4 : arg4.IsWhole
  arg5 : Memref sig .tc .vmem S512x1 .i32
  harg5 : arg5.IsWhole
  arg6 : Memref sig .tc .vmem S512x1 .f32
  harg6 : arg6.IsWhole
  arg7 : Memref sig .tc .vmem S512x1 .f32
  harg7 : arg7.IsWhole
  arg8 : Memref sig .tc .vmem S512x1 .f32
  harg8 : arg8.IsWhole
  arg9 : Memref sig .tc .vmem S512x256 .bf16
  harg9 : arg9.IsWhole
  arg10 : Memref sig .tc .vmem S512x1 .f32
  harg10 : arg10.IsWhole
  arg11 : Memref sig .tc .vmem S512x1 .f32
  harg11 : arg11.IsWhole
  arg12 : Memref sig .tc .vmem S512x1 .f32
  harg12 : arg12.IsWhole

abbrev args1 (t : Fin cfg1.N) : Args1 :=
  ⟨ms1_0 t, hs1_0 t, ms1_1 t, hs1_1 t, ms1_2 t, hs1_2 t, ms1_3 t, hs1_3 t, ms1_4 t, hs1_4 t, ms1_5 t, hs1_5 t, ms1_6 t, hs1_6 t, scM1_0, Memref.isWhole_whole _, scM1_1, Memref.isWhole_whole _, scM1_2, Memref.isWhole_whole _, scM1_3, Memref.isWhole_whole _⟩

end Cert.Kernel.Hand

end
-- ==== Proof.K.Run1A.lean ====
import proofs.«402100_j83614423319285_2_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun1_A (c : Dev nD) (i : grid1.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond1_0 i) (hc1 : ¬cond1_1 i)
    (x0 : Vec F S512x1024 .bf16) (x1 : Vec F S256x1024 .bf16) (x2 : Vec F S2048x256 .bf16) (x3 : Vec F S512x1 .i32) :
    Σ' (LS0 : List (View.Piece (Elt F) S512x256 .bf16)) (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (xi6 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    sl_unfold [cc1_kernel]
    unfold owns
    iintro ⟨⟨%f2, %hf2, H0⟩, ⟨%f3, %hf3, H1⟩, ⟨%f4, %hf4, H2⟩, ⟨%f5, %hf5, H3⟩, ⟨%f6, %hf6, H4⟩, ⟨%f7, %hf7, H5⟩, ⟨%f8, %hf8, H6⟩, ⟨%d9, %f9, -, HS0⟩, ⟨%d10, %f10, -, HS1⟩, ⟨%d11, %f11, -, HS2⟩, ⟨%d12, %f12, -, HS3⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

noncomputable def run1_A (c : Dev nD) (i : grid1.Coords) (a : Args1) (hc0 : cond1_0 i) (hc1 : ¬cond1_1 i) (x0 : Vec F S512x1024 .bf16) (x1 : Vec F S256x1024 .bf16) (x2 : Vec F S2048x256 .bf16) (x3 : Vec F S512x1 .i32) :=
  kernelRun1_A c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3

end Cert.Kernel.Hand

end
-- ==== Proof.K.Run1B.lean ====
import proofs.«402100_j83614423319285_2_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun1_B (c : Dev nD) (i : grid1.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond1_0 i) (hc1 : ¬cond1_1 i)
    (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32) :
    Σ' (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (xi6 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ owns (c : Thread nD τ) arg9 fullShare xs0
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    sl_unfold [cc1_kernel]
    unfold owns
    iintro ⟨⟨%f2, %hf2, H0⟩, ⟨%f3, %hf3, H1⟩, ⟨%f4, %hf4, H2⟩, ⟨%f5, %hf5, H3⟩, ⟨%f6, %hf6, H4⟩, ⟨%f7, %hf7, H5⟩, ⟨%f8, %hf8, H6⟩, ⟨%f9, %hf9, HS0⟩, ⟨%f10, %hf10, HS1⟩, ⟨%f11, %hf11, HS2⟩, ⟨%f12, %hf12, HS3⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    isplitl [HS2]; · iexists _; iexact HS2
    iexists _; iexact HS3

noncomputable def run1_B (c : Dev nD) (i : grid1.Coords) (a : Args1) (hc0 : ¬cond1_0 i) (hc1 : ¬cond1_1 i) (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32) :=
  kernelRun1_B c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3 xs0 xs1 xs2 xs3

end Cert.Kernel.Hand

end
-- ==== Proof.K.Run1C.lean ====
import proofs.«402100_j83614423319285_2_alg».proof.Proof.K.Runs1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun1_C (c : Dev nD) (i : grid1.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond1_0 i) (hc1 : cond1_1 i)
    (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32) :
    Σ' (L4 : List (View.Piece (Elt F) S512x1 .f32)) (L5 : List (View.Piece (Elt F) S512x1 .f32)) (L6 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ owns (c : Thread nD τ) arg9 fullShare xs0
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    sl_unfold [cc1_kernel]
    unfold owns
    iintro ⟨⟨%f2, %hf2, H0⟩, ⟨%f3, %hf3, H1⟩, ⟨%f4, %hf4, H2⟩, ⟨%f5, %hf5, H3⟩, ⟨%d6, %f6, -, H4⟩, ⟨%d7, %f7, -, H5⟩, ⟨%d8, %f8, -, H6⟩, ⟨%f9, %hf9, HS0⟩, ⟨%f10, %hf10, HS1⟩, ⟨%f11, %hf11, HS2⟩, ⟨%f12, %hf12, HS3⟩, Hk⟩
    obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]
    · iexists _; isplitr; · ipureintro; exact harg9.read_unread _
      iexact HS0
    isplitl [HS1]; · iexists _; iexact HS1
    isplitl [HS2]; · iexists _; iexact HS2
    iexists _; iexact HS3

noncomputable def run1_C (c : Dev nD) (i : grid1.Coords) (a : Args1) (hc0 : ¬cond1_0 i) (hc1 : cond1_1 i) (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32) :=
  kernelRun1_C c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3 xs0 xs1 xs2 xs3

end Cert.Kernel.Hand

end
-- ==== Proof.K.Body1.lean ====
import proofs.«402100_j83614423319285_2_alg».proof.Proof.K.Run1A
import proofs.«402100_j83614423319285_2_alg».proof.Proof.K.Run1B
import proofs.«402100_j83614423319285_2_alg».proof.Proof.K.Run1C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section Cases

variable (c : Dev nD) (i : grid1.Coords) (a : Args1)
  (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32)

theorem scover1_A_0 (hc0 : cond1_0 i) (hc1 : ¬cond1_1 i) (y : S512x256.Idx) :
    ∃ pc ∈ (run1_A c i a hc0 hc1 x0 x1 x2 x3).1, y ∈ pc.1.set :=
  View.cover_of_tiledL (run1_A c i a hc0 hc1 x0 x1 x2 x3).1 S512x256.size (by sl_kernel_rfl) y

def sout1_A_0 (hc0 : cond1_0 i) (hc1 : ¬cond1_1 i) : Vec F S512x256 .bf16 :=
  VS1_0.read (Elt F) (VS1_0.writes (Elt F) VS1_0.junk (run1_A c i a hc0 hc1 x0 x1 x2 x3).1)

theorem scover1_A_1 (hc0 : cond1_0 i) (hc1 : ¬cond1_1 i) (y : S512x1.Idx) :
    ∃ pc ∈ (run1_A c i a hc0 hc1 x0 x1 x2 x3).2.1, y ∈ pc.1.set :=
  View.cover_of_tiledL (run1_A c i a hc0 hc1 x0 x1 x2 x3).2.1 S512x1.size (by sl_kernel_rfl) y

def sout1_A_1 (hc0 : cond1_0 i) (hc1 : ¬cond1_1 i) : Vec F S512x1 .f32 :=
  VS1_1.read (Elt F) (VS1_1.writes (Elt F) VS1_1.junk (run1_A c i a hc0 hc1 x0 x1 x2 x3).2.1)

theorem scover1_A_2 (hc0 : cond1_0 i) (hc1 : ¬cond1_1 i) (y : S512x1.Idx) :
    ∃ pc ∈ (run1_A c i a hc0 hc1 x0 x1 x2 x3).2.2.1, y ∈ pc.1.set :=
  View.cover_of_tiledL (run1_A c i a hc0 hc1 x0 x1 x2 x3).2.2.1 S512x1.size (by sl_kernel_rfl) y

def sout1_A_2 (hc0 : cond1_0 i) (hc1 : ¬cond1_1 i) : Vec F S512x1 .f32 :=
  VS1_2.read (Elt F) (VS1_2.writes (Elt F) VS1_2.junk (run1_A c i a hc0 hc1 x0 x1 x2 x3).2.2.1)

theorem scover1_A_3 (hc0 : cond1_0 i) (hc1 : ¬cond1_1 i) (y : S512x1.Idx) :
    ∃ pc ∈ (run1_A c i a hc0 hc1 x0 x1 x2 x3).2.2.2.1, y ∈ pc.1.set :=
  View.cover_of_tiledL (run1_A c i a hc0 hc1 x0 x1 x2 x3).2.2.2.1 S512x1.size (by sl_kernel_rfl) y

def sout1_A_3 (hc0 : cond1_0 i) (hc1 : ¬cond1_1 i) : Vec F S512x1 .f32 :=
  VS1_3.read (Elt F) (VS1_3.writes (Elt F) VS1_3.junk (run1_A c i a hc0 hc1 x0 x1 x2 x3).2.2.2.1)

theorem scover1_B_1 (hc0 : ¬cond1_0 i) (hc1 : ¬cond1_1 i) (y : S512x1.Idx) :
    ∃ pc ∈ (run1_B c i a hc0 hc1 x0 x1 x2 x3 xs0 xs1 xs2 xs3).1, y ∈ pc.1.set :=
  View.cover_of_tiledL (run1_B c i a hc0 hc1 x0 x1 x2 x3 xs0 xs1 xs2 xs3).1 S512x1.size (by sl_kernel_rfl) y

def sout1_B_1 (hc0 : ¬cond1_0 i) (hc1 : ¬cond1_1 i) : Vec F S512x1 .f32 :=
  VS1_1.read (Elt F) (VS1_1.writes (Elt F) VS1_1.junk (run1_B c i a hc0 hc1 x0 x1 x2 x3 xs0 xs1 xs2 xs3).1)

theorem scover1_B_2 (hc0 : ¬cond1_0 i) (hc1 : ¬cond1_1 i) (y : S512x1.Idx) :
    ∃ pc ∈ (run1_B c i a hc0 hc1 x0 x1 x2 x3 xs0 xs1 xs2 xs3).2.1, y ∈ pc.1.set :=
  View.cover_of_tiledL (run1_B c i a hc0 hc1 x0 x1 x2 x3 xs0 xs1 xs2 xs3).2.1 S512x1.size (by sl_kernel_rfl) y

def sout1_B_2 (hc0 : ¬cond1_0 i) (hc1 : ¬cond1_1 i) : Vec F S512x1 .f32 :=
  VS1_2.read (Elt F) (VS1_2.writes (Elt F) VS1_2.junk (run1_B c i a hc0 hc1 x0 x1 x2 x3 xs0 xs1 xs2 xs3).2.1)

theorem scover1_B_3 (hc0 : ¬cond1_0 i) (hc1 : ¬cond1_1 i) (y : S512x1.Idx) :
    ∃ pc ∈ (run1_B c i a hc0 hc1 x0 x1 x2 x3 xs0 xs1 xs2 xs3).2.2.1, y ∈ pc.1.set :=
  View.cover_of_tiledL (run1_B c i a hc0 hc1 x0 x1 x2 x3 xs0 xs1 xs2 xs3).2.2.1 S512x1.size (by sl_kernel_rfl) y

def sout1_B_3 (hc0 : ¬cond1_0 i) (hc1 : ¬cond1_1 i) : Vec F S512x1 .f32 :=
  VS1_3.read (Elt F) (VS1_3.writes (Elt F) VS1_3.junk (run1_B c i a hc0 hc1 x0 x1 x2 x3 xs0 xs1 xs2 xs3).2.2.1)

theorem scover1_C_1 (hc0 : ¬cond1_0 i) (hc1 : cond1_1 i) (y : S512x1.Idx) :
    ∃ pc ∈ (run1_C c i a hc0 hc1 x0 x1 x2 x3 xs0 xs1 xs2 xs3).2.2.2.1, y ∈ pc.1.set :=
  View.cover_of_tiledL (run1_C c i a hc0 hc1 x0 x1 x2 x3 xs0 xs1 xs2 xs3).2.2.2.1 S512x1.size (by sl_kernel_rfl) y

def sout1_C_1 (hc0 : ¬cond1_0 i) (hc1 : cond1_1 i) : Vec F S512x1 .f32 :=
  VS1_1.read (Elt F) (VS1_1.writes (Elt F) VS1_1.junk (run1_C c i a hc0 hc1 x0 x1 x2 x3 xs0 xs1 xs2 xs3).2.2.2.1)

theorem scover1_C_2 (hc0 : ¬cond1_0 i) (hc1 : cond1_1 i) (y : S512x1.Idx) :
    ∃ pc ∈ (run1_C c i a hc0 hc1 x0 x1 x2 x3 xs0 xs1 xs2 xs3).2.2.2.2.1, y ∈ pc.1.set :=
  View.cover_of_tiledL (run1_C c i a hc0 hc1 x0 x1 x2 x3 xs0 xs1 xs2 xs3).2.2.2.2.1 S512x1.size (by sl_kernel_rfl) y

def sout1_C_2 (hc0 : ¬cond1_0 i) (hc1 : cond1_1 i) : Vec F S512x1 .f32 :=
  VS1_2.read (Elt F) (VS1_2.writes (Elt F) VS1_2.junk (run1_C c i a hc0 hc1 x0 x1 x2 x3 xs0 xs1 xs2 xs3).2.2.2.2.1)

theorem scover1_C_3 (hc0 : ¬cond1_0 i) (hc1 : cond1_1 i) (y : S512x1.Idx) :
    ∃ pc ∈ (run1_C c i a hc0 hc1 x0 x1 x2 x3 xs0 xs1 xs2 xs3).2.2.2.2.2.1, y ∈ pc.1.set :=
  View.cover_of_tiledL (run1_C c i a hc0 hc1 x0 x1 x2 x3 xs0 xs1 xs2 xs3).2.2.2.2.2.1 S512x1.size (by sl_kernel_rfl) y

def sout1_C_3 (hc0 : ¬cond1_0 i) (hc1 : cond1_1 i) : Vec F S512x1 .f32 :=
  VS1_3.read (Elt F) (VS1_3.writes (Elt F) VS1_3.junk (run1_C c i a hc0 hc1 x0 x1 x2 x3 xs0 xs1 xs2 xs3).2.2.2.2.2.1)

theorem cover1_C_4 (hc0 : ¬cond1_0 i) (hc1 : cond1_1 i) (y : S512x1.Idx) :
    ∃ pc ∈ (run1_C c i a hc0 hc1 x0 x1 x2 x3 xs0 xs1 xs2 xs3).1, y ∈ pc.1.set :=
  View.cover_of_tiledL (run1_C c i a hc0 hc1 x0 x1 x2 x3 xs0 xs1 xs2 xs3).1 S512x1.size (by sl_kernel_rfl) y

def out1_C_4 (hc0 : ¬cond1_0 i) (hc1 : cond1_1 i) : Vec F S512x1 .f32 :=
  VO1_4.read (Elt F) (VO1_4.writes (Elt F) VO1_4.junk (run1_C c i a hc0 hc1 x0 x1 x2 x3 xs0 xs1 xs2 xs3).1)

theorem cover1_C_5 (hc0 : ¬cond1_0 i) (hc1 : cond1_1 i) (y : S512x1.Idx) :
    ∃ pc ∈ (run1_C c i a hc0 hc1 x0 x1 x2 x3 xs0 xs1 xs2 xs3).2.1, y ∈ pc.1.set :=
  View.cover_of_tiledL (run1_C c i a hc0 hc1 x0 x1 x2 x3 xs0 xs1 xs2 xs3).2.1 S512x1.size (by sl_kernel_rfl) y

def out1_C_5 (hc0 : ¬cond1_0 i) (hc1 : cond1_1 i) : Vec F S512x1 .f32 :=
  VO1_5.read (Elt F) (VO1_5.writes (Elt F) VO1_5.junk (run1_C c i a hc0 hc1 x0 x1 x2 x3 xs0 xs1 xs2 xs3).2.1)

theorem cover1_C_6 (hc0 : ¬cond1_0 i) (hc1 : cond1_1 i) (y : S512x1.Idx) :
    ∃ pc ∈ (run1_C c i a hc0 hc1 x0 x1 x2 x3 xs0 xs1 xs2 xs3).2.2.1, y ∈ pc.1.set :=
  View.cover_of_tiledL (run1_C c i a hc0 hc1 x0 x1 x2 x3 xs0 xs1 xs2 xs3).2.2.1 S512x1.size (by sl_kernel_rfl) y

def out1_C_6 (hc0 : ¬cond1_0 i) (hc1 : cond1_1 i) : Vec F S512x1 .f32 :=
  VO1_6.read (Elt F) (VO1_6.writes (Elt F) VO1_6.junk (run1_C c i a hc0 hc1 x0 x1 x2 x3 xs0 xs1 xs2 xs3).2.2.1)

end Cases

abbrev Outs1 (F : FTy → Type) : Type :=
  Vec F S512x1 .f32 × Vec F S512x1 .f32 × Vec F S512x1 .f32 × Vec F S512x256 .bf16 × Vec F S512x1 .f32 × Vec F S512x1 .f32 × Vec F S512x1 .f32

def ptA1 (c : Dev nD) (t : Fin cfg1.N) (hc0 : cond1_0 (grid1.coords t)) (hc1 : ¬cond1_1 (grid1.coords t)) : Outs1 F :=
  (sout1_A_1 c (grid1.coords t) (args1 t) (iblk1 V c 0 t) (iblk1 V c 1 t) (iblk1 V c 2 t) (iblk1 V c 3 t) hc0 hc1,
   sout1_A_2 c (grid1.coords t) (args1 t) (iblk1 V c 0 t) (iblk1 V c 1 t) (iblk1 V c 2 t) (iblk1 V c 3 t) hc0 hc1,
   sout1_A_3 c (grid1.coords t) (args1 t) (iblk1 V c 0 t) (iblk1 V c 1 t) (iblk1 V c 2 t) (iblk1 V c 3 t) hc0 hc1,
   sout1_A_0 c (grid1.coords t) (args1 t) (iblk1 V c 0 t) (iblk1 V c 1 t) (iblk1 V c 2 t) (iblk1 V c 3 t) hc0 hc1,
   sout1_A_1 c (grid1.coords t) (args1 t) (iblk1 V c 0 t) (iblk1 V c 1 t) (iblk1 V c 2 t) (iblk1 V c 3 t) hc0 hc1,
   sout1_A_2 c (grid1.coords t) (args1 t) (iblk1 V c 0 t) (iblk1 V c 1 t) (iblk1 V c 2 t) (iblk1 V c 3 t) hc0 hc1,
   sout1_A_3 c (grid1.coords t) (args1 t) (iblk1 V c 0 t) (iblk1 V c 1 t) (iblk1 V c 2 t) (iblk1 V c 3 t) hc0 hc1)

def ptB1 (c : Dev nD) (t : Fin cfg1.N) (hc0 : ¬cond1_0 (grid1.coords t)) (hc1 : ¬cond1_1 (grid1.coords t)) (p : Outs1 F) : Outs1 F :=
  (sout1_B_1 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_B_2 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_B_3 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   p.2.2.2.1,
   sout1_B_1 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_B_2 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_B_3 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1)

def ptC1 (c : Dev nD) (t : Fin cfg1.N) (hc0 : ¬cond1_0 (grid1.coords t)) (hc1 : cond1_1 (grid1.coords t)) (p : Outs1 F) : Outs1 F :=
  (out1_C_4 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   out1_C_5 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   out1_C_6 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   p.2.2.2.1,
   sout1_C_1 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_C_2 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_C_3 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1)

def outsAt1 (c : Dev nD) : (n : ℕ) → n < cfg1.N → Outs1 F
  | 0, hn => ptA1 V c ⟨0, hn⟩ ((hcond1_0 ⟨0, hn⟩).mpr (Nat.zero_mod _))
      (fun h => by have h9 := (hcond1_1 ⟨0, hn⟩).mp h; dsimp only at h9; omega)
  | n + 1, hn =>
    if h0 : (n + 1) % 10 = 0 then
      ptA1 V c ⟨n + 1, hn⟩ ((hcond1_0 ⟨n + 1, hn⟩).mpr h0)
        (fun h => by have h9 := (hcond1_1 ⟨n + 1, hn⟩).mp h; dsimp only at h9; omega)
    else if h1 : (n + 1) % 10 = 9 then
      ptC1 V c ⟨n + 1, hn⟩ (fun h => h0 ((hcond1_0 ⟨n + 1, hn⟩).mp h)) ((hcond1_1 ⟨n + 1, hn⟩).mpr h1)
        (outsAt1 c n (Nat.lt_of_succ_lt hn))
    else
      ptB1 V c ⟨n + 1, hn⟩ (fun h => h0 ((hcond1_0 ⟨n + 1, hn⟩).mp h)) (fun h => h1 ((hcond1_1 ⟨n + 1, hn⟩).mp h))
        (outsAt1 c n (Nat.lt_of_succ_lt hn))

theorem outsAt1_A (c : Dev nD) (t : Fin cfg1.N) (h0 : t.val % 10 = 0)
    (hc0 : cond1_0 (grid1.coords t)) (hc1 : ¬cond1_1 (grid1.coords t)) :
    outsAt1 V c t.val t.isLt = ptA1 V c t hc0 hc1 := by
  obtain ⟨n, hn⟩ := t
  cases n with
  | zero => rfl
  | succ n => exact (dif_pos h0).trans rfl

theorem outsAt1_B (c : Dev nD) (t : Fin cfg1.N) (h0 : ¬t.val % 10 = 0) (h1 : ¬t.val % 10 = 9)
    (hc0 : ¬cond1_0 (grid1.coords t)) (hc1 : ¬cond1_1 (grid1.coords t)) :
    outsAt1 V c t.val t.isLt = ptB1 V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 10 = 0) (h1 : t.val % 10 = 9)
    (hc0 : ¬cond1_0 (grid1.coords t)) (hc1 : cond1_1 (grid1.coords t)) :
    outsAt1 V c t.val t.isLt = ptC1 V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def PhiB1 (c : Dev nD) (o : Outs1 F) : sProp 𝕄 :=
  iprop(iprop(iprop(owns (c : Thread nD τ) scM1_0 fullShare o.2.2.2.1 ∗ owns (c : Thread nD τ) scM1_1 fullShare o.2.2.2.2.1
          ∗ owns (c : Thread nD τ) scM1_2 fullShare o.2.2.2.2.2.1 ∗ owns (c : Thread nD τ) scM1_3 fullShare o.2.2.2.2.2.2)
        ∗ Pipeline.scopedRestBut (Ix := Unit) (Name := ℕ) (U := UR sig nD τ) (Lvl := ℕ) (Val := Elt F) spec1 c [cc1_scratch0, cc1_scratch1, cc1_scratch2, cc1_scratch3])
      ∗ (∃ r, prngReg c r))

def PhiS1 (c : Dev nD) : (n : ℕ) → n ≤ cfg1.N → sProp 𝕄
  | 0, _ => Pipeline.ΦA spec1 c
  | n + 1, hn => PhiB1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = PhiB1 c (outsAt1 V c n hn) := rfl

theorem PhiS1_pos (c : Dev nD) (n : ℕ) (h : n ≤ cfg1.N) (hz : n ≠ 0) :
    PhiS1 V c n h = PhiB1 c (outsAt1 V c (n - 1) (by omega)) := by
  cases n with
  | zero => exact absurd rfl hz
  | succ n => rfl

theorem PhiS1_A (c : Dev nD) : (n : ℕ) → (h : n ≤ cfg1.N) → PhiS1 V c n h ⊢ (Pipeline.ΦA spec1 c : sProp 𝕄)
  | 0, _ => .rfl
  | n + 1, hn => by
    rw [PhiS1_succ, PhiA1_eq]; unfold PhiB1
    iintro ⟨⟨⟨HS0, HS1, HS2, HS3⟩, Hr⟩, Hg⟩
    isplitl [HS0 HS1 HS2 HS3 Hr]
    · isplitl [HS0 HS1 HS2 HS3]
      · isplitl [HS0]; · iexists _; iexact HS0
        isplitl [HS1]; · iexists _; iexact HS1
        isplitl [HS2]; · iexists _; iexact HS2
        iexists _; iexact HS3
      iexact Hr
    iexact Hg

/-- Writes whose pieces cover the whole shape determine the contents read back. -/
private theorem owns_of_cover {c : Thread nD τ} {cs : Space} {s : Shape} {e : EltTy} {κ' : Kind} {sp' : Space} (v' : View sig κ' sp' s e)
    {M : Memref sig c.2.kind cs s e} {g : Buf (Elt F) (M.view.loc c)} {q : PosShare TreeShare} {L : List (View.Piece (Elt F) s e)}
    (h : ∀ y, ∃ pc ∈ L, y ∈ pc.1.set) :
    (M.view.loc c ↦[M.view.set]{q} M.view.writes (Elt F) g L : sProp 𝕄) ⊢ owns c M q (v'.read (Elt F) (v'.writes (Elt F) v'.junk L)) := by
  iintro H; unfold owns; iexists M.view.writes (Elt F) g L; isplitr
  · ipureintro; exact View.read_writes_of_cover _ _ _ _ _ h
  · iexact H

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl

theorem owed_eq1 (c : Dev nD) (t : Fin (cfg1.N + 1)) : (dat1 V c).owed t = 0 := rfl

theorem recorded_eq1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc V c t]; unfold PhiB1
  have hN : t.val < 80 := lt_of_lt_of_eq t.isLt (show cfg1.N = 80 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 10 = 0
  · have hc0 : cond1_0 (grid1.coords t) := (hcond1_0 t).mpr h0
    have hc1 : ¬cond1_1 (grid1.coords t) := fun h => by have h9 := (hcond1_1 t).mp h; omega
    rw [Dat.leavesExact_idle (dat1 V c) 4 t (idleAt1_4 t hc1) (noFlush1_4 t hc1)]
    rw [Dat.leavesExact_idle (dat1 V c) 5 t (idleAt1_5 t hc1) (noFlush1_5 t hc1)]
    rw [Dat.leavesExact_idle (dat1 V c) 6 t (idleAt1_6 t hc1) (noFlush1_6 t hc1)]
    rw [outsAt1_A V c t h0 hc0 hc1]
    unfold ptA1 sout1_A_0 sout1_A_1 sout1_A_2 sout1_A_3; dsimp only
    refine (sep_mono_left (PhiS1_A V c _ _)).trans ?_
    rw [PhiA1_eq]
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((run1_A c (grid1.coords t) (args1 t) hc0 hc1 (iblk1 V c 0 t) (iblk1 V c 1 t) (iblk1 V c 2 t) (iblk1 V c 3 t)).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HS0 HS1 HS2 HS3 Hr Hg]
    · isplitl [HS0 HS1 HS2 HS3 Hr]
      · isplitl [HS0 HS1 HS2 HS3]
        · isplitl [HS0]; · iapply (owns_of_cover _ (scover1_A_0 c _ _ _ _ _ _ hc0 hc1)) $$ HS0
          isplitl [HS1]; · iapply (owns_of_cover _ (scover1_A_1 c _ _ _ _ _ _ hc0 hc1)) $$ HS1
          isplitl [HS2]; · iapply (owns_of_cover _ (scover1_A_2 c _ _ _ _ _ _ hc0 hc1)) $$ HS2
          iapply (owns_of_cover _ (scover1_A_3 c _ _ _ _ _ _ hc0 hc1)) $$ HS3
        iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hc0 : ¬cond1_0 (grid1.coords t) := fun h => h0 ((hcond1_0 t).mp h)
    have hz : t.val ≠ 0 := by omega
    by_cases h1 : t.val % 10 = 9
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [show (dat1 V c).leavesExact 6 t = owns (c : Thread nD τ) (ms1_6 t) fullShare ((dat1 V c).after 6 t) from by
        unfold Dat.leavesExact; rw [liveAt1_6 t hc1], after1_6]
      rw [outsAt1_C V c t h0 h1 hc0 hc1]
      unfold ptC1 out1_C_4 out1_C_5 out1_C_6 sout1_C_1 sout1_C_2 sout1_C_3; dsimp only
      rw [PhiS1_pos V c _ _ hz]; unfold PhiB1
      iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((run1_C c (grid1.coords t) (args1 t) hc0 hc1 (iblk1 V c 0 t) (iblk1 V c 1 t) (iblk1 V c 2 t) (iblk1 V c 3 t) _ _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%e6, H6⟩, HS0, ⟨%es1, HS1⟩, ⟨%es2, HS2⟩, ⟨%es3, HS3⟩⟩
      isplitl [HS0 HS1 HS2 HS3 Hr Hg]
      · isplitl [HS0 HS1 HS2 HS3 Hr]
        · isplitl [HS0 HS1 HS2 HS3]
          · isplitl [HS0]; · iexact HS0
            isplitl [HS1]; · iapply (owns_of_cover _ (scover1_C_1 c _ _ _ _ _ _ _ _ _ _ hc0 hc1)) $$ HS1
            isplitl [HS2]; · iapply (owns_of_cover _ (scover1_C_2 c _ _ _ _ _ _ _ _ _ _ hc0 hc1)) $$ HS2
            iapply (owns_of_cover _ (scover1_C_3 c _ _ _ _ _ _ _ _ _ _ hc0 hc1)) $$ HS3
          iexact Hr
        iexact Hg
      isplitl [Ho]; · iexact Ho
      isplitl [H0]; · iexact H0
      isplitl [H1]; · iexact H1
      isplitl [H2]; · iexact H2
      isplitl [H3]; · iexact H3
      isplitl [H4]; · iapply (owns_of_cover _ (cover1_C_4 c _ _ _ _ _ _ _ _ _ _ hc0 hc1)) $$ H4
      isplitl [H5]; · iapply (owns_of_cover _ (cover1_C_5 c _ _ _ _ _ _ _ _ _ _ hc0 hc1)) $$ H5
      iapply (owns_of_cover _ (cover1_C_6 c _ _ _ _ _ _ _ _ _ _ hc0 hc1)) $$ H6
    · have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [Dat.leavesExact_idle (dat1 V c) 6 t (idleAt1_6 t hc1) (noFlush1_6 t hc1)]
      rw [outsAt1_B V c t h0 h1 hc0 hc1]
      unfold ptB1 sout1_B_1 sout1_B_2 sout1_B_3; dsimp only
      rw [PhiS1_pos V c _ _ hz]; unfold PhiB1
      iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((run1_B c (grid1.coords t) (args1 t) hc0 hc1 (iblk1 V c 0 t) (iblk1 V c 1 t) (iblk1 V c 2 t) (iblk1 V c 3 t) _ _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, ⟨%es1, HS1⟩, ⟨%es2, HS2⟩, ⟨%es3, HS3⟩⟩
      isplitl [HS0 HS1 HS2 HS3 Hr Hg]
      · isplitl [HS0 HS1 HS2 HS3 Hr]
        · isplitl [HS0 HS1 HS2 HS3]
          · isplitl [HS0]; · iexact HS0
            isplitl [HS1]; · iapply (owns_of_cover _ (scover1_B_1 c _ _ _ _ _ _ _ _ _ _ hc0 hc1)) $$ HS1
            isplitl [HS2]; · iapply (owns_of_cover _ (scover1_B_2 c _ _ _ _ _ _ _ _ _ _ hc0 hc1)) $$ HS2
            iapply (owns_of_cover _ (scover1_B_3 c _ _ _ _ _ _ _ _ _ _ hc0 hc1)) $$ HS3
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ (Pipeline.ΦA spec1 c : sProp 𝕄) :=
  PhiS1_A V c _ (Nat.le_of_lt_succ (Fin.last cfg1.N).isLt)

end Cert.Kernel.Hand

end
-- ==== Proof.K.Runs2.lean ====
import proofs.«402100_j83614423319285_2_alg».proof.Proof.Gen.Kernel.Launch
import proofs.«402100_j83614423319285_2_alg».proof.Proof.Gen.Kernel.Skeleton
import proofs.«402100_j83614423319285_2_alg».proof.Proof.Gen.Kernel.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 11 = 0 :=
  (by decide +kernel : ∀ t : Fin grid2.N, cond2_0 (grid2.coords t) ↔ t.val % 11 = 0)

abbrev cond2_1 (i : grid2.Coords) : Prop := k2_cond2 i = 1#1

theorem hcond2_1 : ∀ t : Fin cfg2.N, cond2_1 (grid2.coords t) ↔ t.val % 11 = 10 :=
  (by decide +kernel : ∀ t : Fin grid2.N, cond2_1 (grid2.coords t) ↔ t.val % 11 = 10)

theorem liveAt2_0 : ∀ t : Fin cfg2.N, cfg2.idle 0 (grid2.coords t) = false := fun _ => rfl

theorem liveAt2_1 : ∀ t : Fin cfg2.N, cfg2.idle 1 (grid2.coords t) = false := fun _ => rfl

theorem liveAt2_2 : ∀ t : Fin cfg2.N, cfg2.idle 2 (grid2.coords t) = false := fun _ => rfl

theorem liveAt2_3 : ∀ t : Fin cfg2.N, cfg2.idle 3 (grid2.coords t) = false := fun _ => rfl

theorem idleAt2_4 : ∀ t : Fin cfg2.N, ¬cond2_1 (grid2.coords t) → cfg2.idle 4 (grid2.coords t) = true := by decide +kernel

theorem noFlush2_4 : ∀ t : Fin cfg2.N, ¬cond2_1 (grid2.coords t) → (cfg2.win 4).flush t = false := by decide +kernel

theorem liveAt2_4 : ∀ t : Fin cfg2.N, cond2_1 (grid2.coords t) → cfg2.idle 4 (grid2.coords t) = false := by decide +kernel

theorem idleAt2_5 : ∀ t : Fin cfg2.N, ¬cond2_1 (grid2.coords t) → cfg2.idle 5 (grid2.coords t) = true := by decide +kernel

theorem noFlush2_5 : ∀ t : Fin cfg2.N, ¬cond2_1 (grid2.coords t) → (cfg2.win 5).flush t = false := by decide +kernel

theorem liveAt2_5 : ∀ t : Fin cfg2.N, cond2_1 (grid2.coords t) → cfg2.idle 5 (grid2.coords t) = false := by decide +kernel

theorem idleAt2_6 : ∀ t : Fin cfg2.N, ¬cond2_1 (grid2.coords t) → cfg2.idle 6 (grid2.coords t) = true := by decide +kernel

theorem noFlush2_6 : ∀ t : Fin cfg2.N, ¬cond2_1 (grid2.coords t) → (cfg2.win 6).flush t = false := by decide +kernel

theorem liveAt2_6 : ∀ t : Fin cfg2.N, cond2_1 (grid2.coords t) → cfg2.idle 6 (grid2.coords t) = false := by decide +kernel

abbrev VO2_4 : View sig .tc .vmem S512x1 .f32 := (Memref.whole cc2_stg4_0 : Memref sig .tc .vmem S512x1 .f32).view

abbrev VO2_5 : View sig .tc .vmem S512x1 .f32 := (Memref.whole cc2_stg5_0 : Memref sig .tc .vmem S512x1 .f32).view

abbrev VO2_6 : View sig .tc .vmem S512x1 .f32 := (Memref.whole cc2_stg6_0 : Memref sig .tc .vmem S512x1 .f32).view

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x1 .f32 := win2_6.stage (cfg2.slots t 6)
abbrev hs2_6 (t : Fin cfg2.N) : (ms2_6 t).IsWhole := hstage2_6 ((cfg2.slots t 6).cast nbuf2_6)

abbrev scM2_0 : Memref sig .tc .vmem S512x64 .bf16 := Memref.whole cc2_scratch0
abbrev scM2_1 : Memref sig .tc .vmem S512x1 .f32 := Memref.whole cc2_scratch1
abbrev scM2_2 : Memref sig .tc .vmem S512x1 .f32 := Memref.whole cc2_scratch2
abbrev scM2_3 : Memref sig .tc .vmem S512x1 .f32 := Memref.whole cc2_scratch3

abbrev VS2_0 : View sig .tc .vmem S512x64 .bf16 := scM2_0.view
abbrev VS2_1 : View sig .tc .vmem S512x1 .f32 := scM2_1.view
abbrev VS2_2 : View sig .tc .vmem S512x1 .f32 := scM2_2.view
abbrev VS2_3 : View sig .tc .vmem S512x1 .f32 := scM2_3.view

abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ rest2 (F := F) c) ∗ (∃ r, prngReg c r)) := by
  unfold Pipeline.ΦA; rw [scopedRest2_split]; simp only [scM2_0, scM2_1, scM2_2, scM2_3, owns_whole]; try rfl

structure Args2 where
  arg2 : Memref sig .tc .vmem S512x1024 .bf16
  harg2 : arg2.IsWhole
  arg3 : Memref sig .tc .vmem S64x1024 .bf16
  harg3 : arg3.IsWhole
  arg4 : Memref sig .tc .vmem S1024x64 .bf16
  harg4 : arg4.IsWhole
  arg5 : Memref sig .tc .vmem S512x1 .i32
  harg5 : arg5.IsWhole
  arg6 : Memref sig .tc .vmem S512x1 .f32
  harg6 : arg6.IsWhole
  arg7 : Memref sig .tc .vmem S512x1 .f32
  harg7 : arg7.IsWhole
  arg8 : Memref sig .tc .vmem S512x1 .f32
  harg8 : arg8.IsWhole
  arg9 : Memref sig .tc .vmem S512x64 .bf16
  harg9 : arg9.IsWhole
  arg10 : Memref sig .tc .vmem S512x1 .f32
  harg10 : arg10.IsWhole
  arg11 : Memref sig .tc .vmem S512x1 .f32
  harg11 : arg11.IsWhole
  arg12 : Memref sig .tc .vmem S512x1 .f32
  harg12 : arg12.IsWhole

abbrev args2 (t : Fin cfg2.N) : Args2 :=
  ⟨ms2_0 t, hs2_0 t, ms2_1 t, hs2_1 t, ms2_2 t, hs2_2 t, ms2_3 t, hs2_3 t, ms2_4 t, hs2_4 t, ms2_5 t, hs2_5 t, ms2_6 t, hs2_6 t, scM2_0, Memref.isWhole_whole _, scM2_1, Memref.isWhole_whole _, scM2_2, Memref.isWhole_whole _, scM2_3, Memref.isWhole_whole _⟩

end Cert.Kernel.Hand

end
-- ==== Proof.K.Run2A.lean ====
import proofs.«402100_j83614423319285_2_alg».proof.Proof.K.Runs2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun2_A (c : Dev nD) (i : grid2.Coords) (arg2 : Memref sig .tc .vmem S512x1024 .bf16) (harg2 : arg2.IsWhole) (arg3 : Memref sig .tc .vmem S64x1024 .bf16) (harg3 : arg3.IsWhole) (arg4 : Memref sig .tc .vmem S1024x64 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond2_0 i) (hc1 : ¬cond2_1 i)
    (x0 : Vec F S512x1024 .bf16) (x1 : Vec F S64x1024 .bf16) (x2 : Vec F S1024x64 .bf16) (x3 : Vec F S512x1 .i32) :
    Σ' (LS0 : List (View.Piece (Elt F) S512x64 .bf16)) (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc2_kernel_eq_skeleton]; unfold cc2_kernel_skel
    simp only [k2_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

noncomputable def run2_A (c : Dev nD) (i : grid2.Coords) (a : Args2) (hc0 : cond2_0 i) (hc1 : ¬cond2_1 i) (x0 : Vec F S512x1024 .bf16) (x1 : Vec F S64x1024 .bf16) (x2 : Vec F S1024x64 .bf16) (x3 : Vec F S512x1 .i32) :=
  kernelRun2_A c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3

end Cert.Kernel.Hand

end
-- ==== Proof.K.Run2B.lean ====
import proofs.«402100_j83614423319285_2_alg».proof.Proof.K.Runs2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun2_B (c : Dev nD) (i : grid2.Coords) (arg2 : Memref sig .tc .vmem S512x1024 .bf16) (harg2 : arg2.IsWhole) (arg3 : Memref sig .tc .vmem S64x1024 .bf16) (harg3 : arg3.IsWhole) (arg4 : Memref sig .tc .vmem S1024x64 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond2_0 i) (hc1 : ¬cond2_1 i)
    (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32) :
    Σ' (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc2_kernel_eq_skeleton]; unfold cc2_kernel_skel
    simp only [k2_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _; iexact H12

noncomputable def run2_B (c : Dev nD) (i : grid2.Coords) (a : Args2) (hc0 : ¬cond2_0 i) (hc1 : ¬cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32) :=
  kernelRun2_B c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3 xs0 xs1 xs2 xs3

end Cert.Kernel.Hand

end
-- ==== Proof.K.Run2C.lean ====
import proofs.«402100_j83614423319285_2_alg».proof.Proof.K.Runs2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in

noncomputable def kernelRun2_C (c : Dev nD) (i : grid2.Coords) (arg2 : Memref sig .tc .vmem S512x1024 .bf16) (harg2 : arg2.IsWhole) (arg3 : Memref sig .tc .vmem S64x1024 .bf16) (harg3 : arg3.IsWhole) (arg4 : Memref sig .tc .vmem S1024x64 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond2_0 i) (hc1 : cond2_1 i)
    (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32) :
    Σ' (L4 : List (View.Piece (Elt F) S512x1 .f32)) (L5 : List (View.Piece (Elt F) S512x1 .f32)) (L6 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc2_kernel_eq_skeleton]; unfold cc2_kernel_skel
    simp only [k2_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]
    · iexists _; isplitr; · ipureintro; exact harg9.read_unread _
      iexact H9
    isplitl [H10]; · iexists _; iexact H10
    isplitl [H11]; · iexists _; iexact H11
    iexists _; iexact H12

noncomputable def run2_C (c : Dev nD) (i : grid2.Coords) (a : Args2) (hc0 : ¬cond2_0 i) (hc1 : cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32) :=
  kernelRun2_C c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3 xs0 xs1 xs2 xs3

end Cert.Kernel.Hand

end
-- ==== Proof.K.Body2.lean ====
import proofs.«402100_j83614423319285_2_alg».proof.Proof.K.Run2A
import proofs.«402100_j83614423319285_2_alg».proof.Proof.K.Run2B
import proofs.«402100_j83614423319285_2_alg».proof.Proof.K.Run2C

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (a : Args2)
section
variable (hc0 : cond2_0 i) (hc1 : ¬cond2_1 i) (x0 : Vec F S512x1024 .bf16) (x1 : Vec F S64x1024 .bf16) (x2 : Vec F S1024x64 .bf16) (x3 : Vec F S512x1 .i32)
theorem scover2_A_0 (y : S512x64.Idx) :
    ∃ pc ∈ (run2_A c i a hc0 hc1 x0 x1 x2 x3).1, y ∈ pc.1.set :=
  View.cover_of_tiledL (run2_A c i a hc0 hc1 x0 x1 x2 x3).1 S512x64.size (by sl_kernel_rfl) y

def sout2_A_0 : Vec F S512x64 .bf16 :=
  VS2_0.read (Elt F) (VS2_0.writes (Elt F) VS2_0.junk (run2_A c i a hc0 hc1 x0 x1 x2 x3).1)

theorem scover2_A_1 (y : S512x1.Idx) :
    ∃ pc ∈ (run2_A c i a hc0 hc1 x0 x1 x2 x3).2.1, y ∈ pc.1.set :=
  View.cover_of_tiledL (run2_A c i a hc0 hc1 x0 x1 x2 x3).2.1 S512x1.size (by sl_kernel_rfl) y

def sout2_A_1 : Vec F S512x1 .f32 :=
  VS2_1.read (Elt F) (VS2_1.writes (Elt F) VS2_1.junk (run2_A c i a hc0 hc1 x0 x1 x2 x3).2.1)

theorem scover2_A_2 (y : S512x1.Idx) :
    ∃ pc ∈ (run2_A c i a hc0 hc1 x0 x1 x2 x3).2.2.1, y ∈ pc.1.set :=
  View.cover_of_tiledL (run2_A c i a hc0 hc1 x0 x1 x2 x3).2.2.1 S512x1.size (by sl_kernel_rfl) y

def sout2_A_2 : Vec F S512x1 .f32 :=
  VS2_2.read (Elt F) (VS2_2.writes (Elt F) VS2_2.junk (run2_A c i a hc0 hc1 x0 x1 x2 x3).2.2.1)

theorem scover2_A_3 (y : S512x1.Idx) :
    ∃ pc ∈ (run2_A c i a hc0 hc1 x0 x1 x2 x3).2.2.2.1, y ∈ pc.1.set :=
  View.cover_of_tiledL (run2_A c i a hc0 hc1 x0 x1 x2 x3).2.2.2.1 S512x1.size (by sl_kernel_rfl) y

def sout2_A_3 : Vec F S512x1 .f32 :=
  VS2_3.read (Elt F) (VS2_3.writes (Elt F) VS2_3.junk (run2_A c i a hc0 hc1 x0 x1 x2 x3).2.2.2.1)

end
section
variable (hc0 : ¬cond2_0 i) (hc1 : ¬cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32)
theorem scover2_B_1 (y : S512x1.Idx) :
    ∃ pc ∈ (run2_B c i a hc0 hc1 x0 x1 x2 x3 xs0 xs1 xs2 xs3).1, y ∈ pc.1.set :=
  View.cover_of_tiledL (run2_B c i a hc0 hc1 x0 x1 x2 x3 xs0 xs1 xs2 xs3).1 S512x1.size (by sl_kernel_rfl) y

def sout2_B_1 : Vec F S512x1 .f32 :=
  VS2_1.read (Elt F) (VS2_1.writes (Elt F) VS2_1.junk (run2_B c i a hc0 hc1 x0 x1 x2 x3 xs0 xs1 xs2 xs3).1)

theorem scover2_B_2 (y : S512x1.Idx) :
    ∃ pc ∈ (run2_B c i a hc0 hc1 x0 x1 x2 x3 xs0 xs1 xs2 xs3).2.1, y ∈ pc.1.set :=
  View.cover_of_tiledL (run2_B c i a hc0 hc1 x0 x1 x2 x3 xs0 xs1 xs2 xs3).2.1 S512x1.size (by sl_kernel_rfl) y

def sout2_B_2 : Vec F S512x1 .f32 :=
  VS2_2.read (Elt F) (VS2_2.writes (Elt F) VS2_2.junk (run2_B c i a hc0 hc1 x0 x1 x2 x3 xs0 xs1 xs2 xs3).2.1)

theorem scover2_B_3 (y : S512x1.Idx) :
    ∃ pc ∈ (run2_B c i a hc0 hc1 x0 x1 x2 x3 xs0 xs1 xs2 xs3).2.2.1, y ∈ pc.1.set :=
  View.cover_of_tiledL (run2_B c i a hc0 hc1 x0 x1 x2 x3 xs0 xs1 xs2 xs3).2.2.1 S512x1.size (by sl_kernel_rfl) y

def sout2_B_3 : Vec F S512x1 .f32 :=
  VS2_3.read (Elt F) (VS2_3.writes (Elt F) VS2_3.junk (run2_B c i a hc0 hc1 x0 x1 x2 x3 xs0 xs1 xs2 xs3).2.2.1)

end
section
variable (hc0 : ¬cond2_0 i) (hc1 : cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32)
theorem cover2_C_4 (y : S512x1.Idx) :
    ∃ pc ∈ (run2_C c i a hc0 hc1 x0 x1 x2 x3 xs0 xs1 xs2 xs3).1, y ∈ pc.1.set :=
  View.cover_of_tiledL (run2_C c i a hc0 hc1 x0 x1 x2 x3 xs0 xs1 xs2 xs3).1 S512x1.size (by sl_kernel_rfl) y

def out2_C_4 : Vec F S512x1 .f32 :=
  VO2_4.read (Elt F) (VO2_4.writes (Elt F) VO2_4.junk (run2_C c i a hc0 hc1 x0 x1 x2 x3 xs0 xs1 xs2 xs3).1)

theorem cover2_C_5 (y : S512x1.Idx) :
    ∃ pc ∈ (run2_C c i a hc0 hc1 x0 x1 x2 x3 xs0 xs1 xs2 xs3).2.1, y ∈ pc.1.set :=
  View.cover_of_tiledL (run2_C c i a hc0 hc1 x0 x1 x2 x3 xs0 xs1 xs2 xs3).2.1 S512x1.size (by sl_kernel_rfl) y

def out2_C_5 : Vec F S512x1 .f32 :=
  VO2_5.read (Elt F) (VO2_5.writes (Elt F) VO2_5.junk (run2_C c i a hc0 hc1 x0 x1 x2 x3 xs0 xs1 xs2 xs3).2.1)

theorem cover2_C_6 (y : S512x1.Idx) :
    ∃ pc ∈ (run2_C c i a hc0 hc1 x0 x1 x2 x3 xs0 xs1 xs2 xs3).2.2.1, y ∈ pc.1.set :=
  View.cover_of_tiledL (run2_C c i a hc0 hc1 x0 x1 x2 x3 xs0 xs1 xs2 xs3).2.2.1 S512x1.size (by sl_kernel_rfl) y

def out2_C_6 : Vec F S512x1 .f32 :=
  VO2_6.read (Elt F) (VO2_6.writes (Elt F) VO2_6.junk (run2_C c i a hc0 hc1 x0 x1 x2 x3 xs0 xs1 xs2 xs3).2.2.1)

theorem scover2_C_1 (y : S512x1.Idx) :
    ∃ pc ∈ (run2_C c i a hc0 hc1 x0 x1 x2 x3 xs0 xs1 xs2 xs3).2.2.2.1, y ∈ pc.1.set :=
  View.cover_of_tiledL (run2_C c i a hc0 hc1 x0 x1 x2 x3 xs0 xs1 xs2 xs3).2.2.2.1 S512x1.size (by sl_kernel_rfl) y

def sout2_C_1 : Vec F S512x1 .f32 :=
  VS2_1.read (Elt F) (VS2_1.writes (Elt F) VS2_1.junk (run2_C c i a hc0 hc1 x0 x1 x2 x3 xs0 xs1 xs2 xs3).2.2.2.1)

theorem scover2_C_2 (y : S512x1.Idx) :
    ∃ pc ∈ (run2_C c i a hc0 hc1 x0 x1 x2 x3 xs0 xs1 xs2 xs3).2.2.2.2.1, y ∈ pc.1.set :=
  View.cover_of_tiledL (run2_C c i a hc0 hc1 x0 x1 x2 x3 xs0 xs1 xs2 xs3).2.2.2.2.1 S512x1.size (by sl_kernel_rfl) y

def sout2_C_2 : Vec F S512x1 .f32 :=
  VS2_2.read (Elt F) (VS2_2.writes (Elt F) VS2_2.junk (run2_C c i a hc0 hc1 x0 x1 x2 x3 xs0 xs1 xs2 xs3).2.2.2.2.1)

theorem scover2_C_3 (y : S512x1.Idx) :
    ∃ pc ∈ (run2_C c i a hc0 hc1 x0 x1 x2 x3 xs0 xs1 xs2 xs3).2.2.2.2.2.1, y ∈ pc.1.set :=
  View.cover_of_tiledL (run2_C c i a hc0 hc1 x0 x1 x2 x3 xs0 xs1 xs2 xs3).2.2.2.2.2.1 S512x1.size (by sl_kernel_rfl) y

def sout2_C_3 : Vec F S512x1 .f32 :=
  VS2_3.read (Elt F) (VS2_3.writes (Elt F) VS2_3.junk (run2_C c i a hc0 hc1 x0 x1 x2 x3 xs0 xs1 xs2 xs3).2.2.2.2.2.1)
end
end

def idleOut2 : Vec F S512x1 .f32 := VO2_4.read (Elt F) VO2_4.junk

abbrev Outs2 (F : FTy → Type) : Type :=
  Vec F S512x1 .f32 × Vec F S512x1 .f32 × Vec F S512x1 .f32 × Vec F S512x64 .bf16 × Vec F S512x1 .f32 × Vec F S512x1 .f32 × Vec F S512x1 .f32

theorem not10_of_0 {n : ℕ} (h : n % 11 = 0) : ¬ n % 11 = 10 := by omega

def ptA (c : Dev nD) (t : Fin cfg2.N) (h0 : t.val % 11 = 0) : Outs2 F :=
  (idleOut2, idleOut2, idleOut2,
   sout2_A_0 c (grid2.coords t) (args2 t) ((hcond2_0 t).mpr h0) (fun h => not10_of_0 h0 ((hcond2_1 t).mp h)) (iblk2 V c 0 t) (iblk2 V c 1 t) (iblk2 V c 2 t) (iblk2 V c 3 t),
   sout2_A_1 c (grid2.coords t) (args2 t) ((hcond2_0 t).mpr h0) (fun h => not10_of_0 h0 ((hcond2_1 t).mp h)) (iblk2 V c 0 t) (iblk2 V c 1 t) (iblk2 V c 2 t) (iblk2 V c 3 t),
   sout2_A_2 c (grid2.coords t) (args2 t) ((hcond2_0 t).mpr h0) (fun h => not10_of_0 h0 ((hcond2_1 t).mp h)) (iblk2 V c 0 t) (iblk2 V c 1 t) (iblk2 V c 2 t) (iblk2 V c 3 t),
   sout2_A_3 c (grid2.coords t) (args2 t) ((hcond2_0 t).mpr h0) (fun h => not10_of_0 h0 ((hcond2_1 t).mp h)) (iblk2 V c 0 t) (iblk2 V c 1 t) (iblk2 V c 2 t) (iblk2 V c 3 t))

def ptB (c : Dev nD) (t : Fin cfg2.N) (h0 : ¬t.val % 11 = 0) (h1 : ¬t.val % 11 = 10) (p : Outs2 F) : Outs2 F :=
  (idleOut2, idleOut2, idleOut2, p.2.2.2.1,
   sout2_B_1 c (grid2.coords t) (args2 t) (fun h => h0 ((hcond2_0 t).mp h)) (fun h => h1 ((hcond2_1 t).mp h)) (iblk2 V c 0 t) (iblk2 V c 1 t) (iblk2 V c 2 t) (iblk2 V c 3 t) p.2.2.2.1 p.2.2.2.2.1 p.2.2.2.2.2.1 p.2.2.2.2.2.2,
   sout2_B_2 c (grid2.coords t) (args2 t) (fun h => h0 ((hcond2_0 t).mp h)) (fun h => h1 ((hcond2_1 t).mp h)) (iblk2 V c 0 t) (iblk2 V c 1 t) (iblk2 V c 2 t) (iblk2 V c 3 t) p.2.2.2.1 p.2.2.2.2.1 p.2.2.2.2.2.1 p.2.2.2.2.2.2,
   sout2_B_3 c (grid2.coords t) (args2 t) (fun h => h0 ((hcond2_0 t).mp h)) (fun h => h1 ((hcond2_1 t).mp h)) (iblk2 V c 0 t) (iblk2 V c 1 t) (iblk2 V c 2 t) (iblk2 V c 3 t) p.2.2.2.1 p.2.2.2.2.1 p.2.2.2.2.2.1 p.2.2.2.2.2.2)

def ptC (c : Dev nD) (t : Fin cfg2.N) (h0 : ¬t.val % 11 = 0) (h1 : t.val % 11 = 10) (p : Outs2 F) : Outs2 F :=
  (out2_C_4 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   out2_C_5 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   out2_C_6 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   p.2.2.2.1,
   sout2_C_1 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   sout2_C_2 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   sout2_C_3 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2)

def outsAt2 (c : Dev nD) : (n : ℕ) → n < cfg2.N → Outs2 F
  | 0, hn => ptA V c ⟨0, hn⟩ (Nat.zero_mod _)
  | n + 1, hn =>
    if h0 : (n + 1) % 11 = 0 then ptA V c ⟨n + 1, hn⟩ h0
    else if h1 : (n + 1) % 11 = 10 then ptC V c ⟨n + 1, hn⟩ h0 h1 (outsAt2 c n (Nat.lt_of_succ_lt hn))
    else ptB V c ⟨n + 1, hn⟩ h0 h1 (outsAt2 c n (Nat.lt_of_succ_lt hn))

theorem outsAt2_A (c : Dev nD) (t : Fin cfg2.N) (h0 : t.val % 11 = 0) :
    outsAt2 V c t.val t.isLt = ptA V c t h0 := by
  obtain ⟨n, hn⟩ := t
  cases n with
  | zero => exact rfl
  | succ n => exact (dif_pos h0).trans rfl

theorem outsAt2_B (c : Dev nD) (t : Fin cfg2.N) (h0 : ¬t.val % 11 = 0) (h1 : ¬t.val % 11 = 10) :
    outsAt2 V c t.val t.isLt = ptB V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 11 = 0) (h1 : t.val % 11 = 10) :
    outsAt2 V c t.val t.isLt = ptC V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2.1 ∗ owns (c : Thread nD τ) scM2_2 fullShare (outsAt2 V c n hn).2.2.2.2.2.1 ∗ owns (c : Thread nD τ) scM2_3 fullShare (outsAt2 V c n hn).2.2.2.2.2.2) ∗ rest2 (F := F) c) ∗ (∃ r, prngReg c r))

theorem PhiS2_pos (c : Dev nD) (n : ℕ) (h : n ≤ cfg2.N) (hz : n ≠ 0) : PhiS2 V c n h = PhiS2 V c (n - 1 + 1) (by omega) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem recorded_eq2 (c : Dev nD) (t : Fin (cfg2.N + 1)) : (dat2 V c).recorded t = Set.univ := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = iblk2 V c 3 t := rfl
theorem after2_4 (c : Dev nD) (t : Fin cfg2.N) : (dat2 V c).after 4 t = (outsAt2 V c t.val t.isLt).1 := rfl
theorem after2_5 (c : Dev nD) (t : Fin cfg2.N) : (dat2 V c).after 5 t = (outsAt2 V c t.val t.isLt).2.1 := rfl
theorem after2_6 (c : Dev nD) (t : Fin cfg2.N) : (dat2 V c).after 6 t = (outsAt2 V c t.val t.isLt).2.2.1 := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop(PhiS2 V c t.val (Nat.le_of_lt t.isLt) ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop(PhiS2 V c (t.val + 1) t.isLt ∗ (dat2 V c).owesAt () t.castSucc
    ∗ owns (c : Thread nD τ) (ms2_0 t) fullShare (iblk2 V c 0 t)
    ∗ owns (c : Thread nD τ) (ms2_1 t) fullShare (iblk2 V c 1 t)
    ∗ owns (c : Thread nD τ) (ms2_2 t) fullShare (iblk2 V c 2 t)
    ∗ owns (c : Thread nD τ) (ms2_3 t) fullShare (iblk2 V c 3 t)
    ∗ (dat2 V c).leavesExact 4 t
    ∗ (dat2 V c).leavesExact 5 t
    ∗ (dat2 V c).leavesExact 6 t)

private theorem owns_of_cover {c : Dev nD} {sp sp' : Space} {κ' : Kind} {s : Shape} {e : EltTy} (v' : View sig κ' sp' s e) {M : Memref sig .tc sp s e}
    {L : List (View.Piece (Elt F) s e)} (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩; unfold owns; iexists _; isplitr; swap; · iexact H
  ipureintro; exact View.read_writes_of_cover _ _ _ _ _ h

theorem PhiS2_le (c : Dev nD) (n : ℕ) (h : n ≤ cfg2.N) : PhiS2 V c n h ⊢ (Pipeline.ΦA spec2 c : sProp 𝕄) := by
  cases n with
  | zero => exact .rfl
  | succ n =>
    rw [PhiS2, PhiA2_eq]
    exact sep_mono_left (sep_mono_left (BIClass.sep_mono (BIClass.exists_intro _) (BIClass.sep_mono (BIClass.exists_intro _) (BIClass.sep_mono (BIClass.exists_intro _) (BIClass.exists_intro _)))))

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [PhiS2]
  by_cases h1 : t.val % 11 = 10
  · have h0 : ¬t.val % 11 = 0 := by omega
    have hn0 : ¬cond2_0 (grid2.coords t) := fun h => h0 ((hcond2_0 t).mp h)
    have hc1 : cond2_1 (grid2.coords t) := (hcond2_1 t).mpr h1
    rw [show (dat2 V c).leavesExact 4 t = owns (c : Thread nD τ) (ms2_4 t) fullShare ((dat2 V c).after 4 t) from by
      unfold Dat.leavesExact; rw [liveAt2_4 t hc1], after2_4,
      show (dat2 V c).leavesExact 5 t = owns (c : Thread nD τ) (ms2_5 t) fullShare ((dat2 V c).after 5 t) from by
      unfold Dat.leavesExact; rw [liveAt2_5 t hc1], after2_5,
      show (dat2 V c).leavesExact 6 t = owns (c : Thread nD τ) (ms2_6 t) fullShare ((dat2 V c).after 6 t) from by
      unfold Dat.leavesExact; rw [liveAt2_6 t hc1], after2_6,
      outsAt2_C V c t h0 h1, PhiS2_pos V c t.val _ (by omega), PhiS2]
    unfold ptC out2_C_4 out2_C_5 out2_C_6 sout2_C_1 sout2_C_2 sout2_C_3; (try dsimp only)
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((run2_C c (grid2.coords t) (args2 t) hn0 hc1 (iblk2 V c 0 t) (iblk2 V c 1 t) (iblk2 V c 2 t) (iblk2 V c 3 t) _ _ _ _).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨$, $, $, $, H4, H5, H6, $, HS1, HS2, HS3⟩
    iframe Hr Hg Ho
    isplitl [HS1 HS2 HS3]
    · isplitl [HS1]; · iapply (owns_of_cover _ (scover2_C_1 c _ _ _ _ _ _ _ _ _ _ _ _)) $$ HS1
      isplitl [HS2]; · iapply (owns_of_cover _ (scover2_C_2 c _ _ _ _ _ _ _ _ _ _ _ _)) $$ HS2
      iapply (owns_of_cover _ (scover2_C_3 c _ _ _ _ _ _ _ _ _ _ _ _)) $$ HS3
    isplitl [H4]; · iapply (owns_of_cover _ (cover2_C_4 c _ _ _ _ _ _ _ _ _ _ _ _)) $$ H4
    isplitl [H5]; · iapply (owns_of_cover _ (cover2_C_5 c _ _ _ _ _ _ _ _ _ _ _ _)) $$ H5
    iapply (owns_of_cover _ (cover2_C_6 c _ _ _ _ _ _ _ _ _ _ _ _)) $$ H6
  have hn1 : ¬cond2_1 (grid2.coords t) := fun h => h1 ((hcond2_1 t).mp h)
  rw [Dat.leavesExact_idle (dat2 V c) 4 t (idleAt2_4 t hn1) (noFlush2_4 t hn1),
      Dat.leavesExact_idle (dat2 V c) 5 t (idleAt2_5 t hn1) (noFlush2_5 t hn1),
      Dat.leavesExact_idle (dat2 V c) 6 t (idleAt2_6 t hn1) (noFlush2_6 t hn1)]
  by_cases h0 : t.val % 11 = 0
  · rw [outsAt2_A V c t h0]
    unfold ptA sout2_A_0 sout2_A_1 sout2_A_2 sout2_A_3; (try dsimp only)
    refine (sep_mono_left (PhiS2_le V c _ _)).trans ?_
    rw [PhiA2_eq]
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((run2_A c (grid2.coords t) (args2 t) ((hcond2_0 t).mpr h0) hn1 (iblk2 V c 0 t) (iblk2 V c 1 t) (iblk2 V c 2 t) (iblk2 V c 3 t)).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨$, $, $, $, H4, H5, H6, HS0, HS1, HS2, HS3⟩
    iframe Hr Hg Ho
    isplitl [HS0 HS1 HS2 HS3]
    · isplitl [HS0]; · iapply (owns_of_cover _ (scover2_A_0 c _ _ _ _ _ _ _ _)) $$ HS0
      isplitl [HS1]; · iapply (owns_of_cover _ (scover2_A_1 c _ _ _ _ _ _ _ _)) $$ HS1
      isplitl [HS2]; · iapply (owns_of_cover _ (scover2_A_2 c _ _ _ _ _ _ _ _)) $$ HS2
      iapply (owns_of_cover _ (scover2_A_3 c _ _ _ _ _ _ _ _)) $$ HS3
    isplitl [H4]; · iexists _; iexact H4
    isplitl [H5]; · iexists _; iexact H5
    iexists _; iexact H6
  · rw [outsAt2_B V c t h0 h1, PhiS2_pos V c t.val _ (by omega), PhiS2]
    unfold ptB sout2_B_1 sout2_B_2 sout2_B_3; (try dsimp only)
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((run2_B c (grid2.coords t) (args2 t) (fun h => h0 ((hcond2_0 t).mp h)) hn1 (iblk2 V c 0 t) (iblk2 V c 1 t) (iblk2 V c 2 t) (iblk2 V c 3 t) _ _ _ _).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨$, $, $, $, H4, H5, H6, $, HS1, HS2, HS3⟩
    iframe Hr Hg Ho
    isplitl [HS1 HS2 HS3]
    · isplitl [HS1]; · iapply (owns_of_cover _ (scover2_B_1 c _ _ _ _ _ _ _ _ _ _ _ _)) $$ HS1
      isplitl [HS2]; · iapply (owns_of_cover _ (scover2_B_2 c _ _ _ _ _ _ _ _ _ _ _ _)) $$ HS2
      iapply (owns_of_cover _ (scover2_B_3 c _ _ _ _ _ _ _ _ _ _ _ _)) $$ HS3
    isplitl [H4]; · iexists _; iexact H4
    isplitl [H5]; · iexists _; iexact H5
    iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := PhiS2_le V c (Fin.last cfg2.N).val _

end Cert.Kernel.Hand

end
-- ==== Proof.K.Outs.lean ====
import proofs.«402100_j83614423319285_2_alg».proof.Proof.K.Body0
import proofs.«402100_j83614423319285_2_alg».proof.Proof.K.Body1
import proofs.«402100_j83614423319285_2_alg».proof.Proof.K.Body2
import proofs.«402100_j83614423319285_2_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Vr0 : (c : Dev nD) → (b : Ref sig .tc) → Buf (Elt F) ((c : Thread nD τ).loc b) := fun c b => Gen.V8 m c b

def outsA : Gen.Outs (F := F) := fun J r c =>
  if J = 9 then
    if h : r = main_v29_0 then h ▸ (dat0 (Vr0 m) c).arrAt 3 cfg0.N
    else if h : r = main_v29_1 then h ▸ (dat0 (Vr0 m) c).arrAt 4 cfg0.N
    else if h : r = main_v29_2 then h ▸ (dat0 (Vr0 m) c).arrAt 5 cfg0.N
    else m ((c : Thread nD τ).loc r)
  else m ((c : Thread nD τ).loc r)

abbrev Vr1 : (c : Dev nD) → (b : Ref sig .tc) → Buf (Elt F) ((c : Thread nD τ).loc b) := fun c b => Gen.V11 m (outsA m) c b

def outsB : Gen.Outs (F := F) := fun J r c =>
  if J = 12 then
    if h : r = main_v31_0 then h ▸ (dat1 (Vr1 m) c).arrAt 4 cfg1.N
    else if h : r = main_v31_1 then h ▸ (dat1 (Vr1 m) c).arrAt 5 cfg1.N
    else if h : r = main_v31_2 then h ▸ (dat1 (Vr1 m) c).arrAt 6 cfg1.N
    else m ((c : Thread nD τ).loc r)
  else outsA m J r c

abbrev Vr2 : (c : Dev nD) → (b : Ref sig .tc) → Buf (Elt F) ((c : Thread nD τ).loc b) := fun c b => Gen.V14 m (outsB m) c b

def outs : Gen.Outs (F := F) := fun J r c =>
  if J = 15 then
    if h : r = main_v33_0 then h ▸ (dat2 (Vr2 m) c).arrAt 4 cfg2.N
    else if h : r = main_v33_1 then h ▸ (dat2 (Vr2 m) c).arrAt 5 cfg2.N
    else if h : r = main_v33_2 then h ▸ (dat2 (Vr2 m) c).arrAt 6 cfg2.N
    else m ((c : Thread nD τ).loc r)
  else outsB m J r c

theorem outsB_9 (r : Ref sig .tc) (c : Dev nD) : outsB m 9 r c = outsA m 9 r c := by
  unfold outsB; rw [if_neg (show ¬ (9 : ℕ) = 12 by decide)]
theorem outs_9 (r : Ref sig .tc) (c : Dev nD) : outs m 9 r c = outsA m 9 r c := by
  unfold outs; rw [if_neg (show ¬ (9 : ℕ) = 15 by decide)]; exact outsB_9 m r c
theorem outs_12 (r : Ref sig .tc) (c : Dev nD) : outs m 12 r c = outsB m 12 r c := by
  unfold outs; rw [if_neg (show ¬ (12 : ℕ) = 15 by decide)]

theorem outsA_9_0 (c : Dev nD) : outsA m 9 main_v29_0 c = (dat0 (Vr0 m) c).arrAt 3 cfg0.N := by
  unfold outsA; rw [if_pos rfl, dif_pos rfl]
theorem outsA_9_1 (c : Dev nD) : outsA m 9 main_v29_1 c = (dat0 (Vr0 m) c).arrAt 4 cfg0.N := by
  unfold outsA; rw [if_pos rfl, dif_neg (show ¬ main_v29_1 = main_v29_0 by decide), dif_pos rfl]
theorem outsA_9_2 (c : Dev nD) : outsA m 9 main_v29_2 c = (dat0 (Vr0 m) c).arrAt 5 cfg0.N := by
  unfold outsA; rw [if_pos rfl, dif_neg (show ¬ main_v29_2 = main_v29_0 by decide), dif_neg (show ¬ main_v29_2 = main_v29_1 by decide), dif_pos rfl]
theorem outsB_12_0 (c : Dev nD) : outsB m 12 main_v31_0 c = (dat1 (Vr1 m) c).arrAt 4 cfg1.N := by
  unfold outsB; rw [if_pos rfl, dif_pos rfl]
theorem outsB_12_1 (c : Dev nD) : outsB m 12 main_v31_1 c = (dat1 (Vr1 m) c).arrAt 5 cfg1.N := by
  unfold outsB; rw [if_pos rfl, dif_neg (show ¬ main_v31_1 = main_v31_0 by decide), dif_pos rfl]
theorem outsB_12_2 (c : Dev nD) : outsB m 12 main_v31_2 c = (dat1 (Vr1 m) c).arrAt 6 cfg1.N := by
  unfold outsB; rw [if_pos rfl, dif_neg (show ¬ main_v31_2 = main_v31_0 by decide), dif_neg (show ¬ main_v31_2 = main_v31_1 by decide), dif_pos rfl]
theorem outs_15_0 (c : Dev nD) : outs m 15 main_v33_0 c = (dat2 (Vr2 m) c).arrAt 4 cfg2.N := by
  unfold outs; rw [if_pos rfl, dif_pos rfl]
theorem outs_15_1 (c : Dev nD) : outs m 15 main_v33_1 c = (dat2 (Vr2 m) c).arrAt 5 cfg2.N := by
  unfold outs; rw [if_pos rfl, dif_neg (show ¬ main_v33_1 = main_v33_0 by decide), dif_pos rfl]
theorem outs_15_2 (c : Dev nD) : outs m 15 main_v33_2 c = (dat2 (Vr2 m) c).arrAt 6 cfg2.N := by
  unfold outs; rw [if_pos rfl, dif_neg (show ¬ main_v33_2 = main_v33_0 by decide), dif_neg (show ¬ main_v33_2 = main_v33_1 by decide), dif_pos rfl]
theorem outs_9_0 (c : Dev nD) : outs m 9 main_v29_0 c = (dat0 (Vr0 m) c).arrAt 3 cfg0.N := (outs_9 m _ c).trans (outsA_9_0 m c)
theorem outs_9_1 (c : Dev nD) : outs m 9 main_v29_1 c = (dat0 (Vr0 m) c).arrAt 4 cfg0.N := (outs_9 m _ c).trans (outsA_9_1 m c)
theorem outs_9_2 (c : Dev nD) : outs m 9 main_v29_2 c = (dat0 (Vr0 m) c).arrAt 5 cfg0.N := (outs_9 m _ c).trans (outsA_9_2 m c)
theorem outs_12_0 (c : Dev nD) : outs m 12 main_v31_0 c = (dat1 (Vr1 m) c).arrAt 4 cfg1.N := (outs_12 m _ c).trans (outsB_12_0 m c)
theorem outs_12_1 (c : Dev nD) : outs m 12 main_v31_1 c = (dat1 (Vr1 m) c).arrAt 5 cfg1.N := (outs_12 m _ c).trans (outsB_12_1 m c)
theorem outs_12_2 (c : Dev nD) : outs m 12 main_v31_2 c = (dat1 (Vr1 m) c).arrAt 6 cfg1.N := (outs_12 m _ c).trans (outsB_12_2 m c)

theorem V9_outs (c : Dev nD) : Gen.V9 m (outs m) c = Gen.V9 m (outsA m) c := by
  unfold Gen.V9; rw [outs_9, outs_9, outs_9]
theorem V9_outsB (c : Dev nD) : Gen.V9 m (outsB m) c = Gen.V9 m (outsA m) c := by
  unfold Gen.V9; rw [outsB_9, outsB_9, outsB_9]
theorem V11_outs (c : Dev nD) : Gen.V11 m (outs m) c = Gen.V11 m (outsA m) c := by
  unfold Gen.V11 Gen.V10; rw [V9_outs]
theorem V11_outsB (c : Dev nD) : Gen.V11 m (outsB m) c = Gen.V11 m (outsA m) c := by
  unfold Gen.V11 Gen.V10; rw [V9_outsB]
theorem V12_outs (c : Dev nD) : Gen.V12 m (outs m) c = Gen.V12 m (outsB m) c := by
  unfold Gen.V12; rw [outs_12, outs_12, outs_12, V11_outs, V11_outsB]
theorem V14_outs (c : Dev nD) : Gen.V14 m (outs m) c = Gen.V14 m (outsB m) c := by
  unfold Gen.V14 Gen.V13; rw [V12_outs]

theorem V9_out0 (c : Dev nD) : Gen.V9 m (outs m) c main_v29_0 = outs m 9 main_v29_0 c := by
  unfold Gen.V9; rw [Function.update_of_ne (by decide), Function.update_of_ne (by decide), Function.update_self]
theorem V9_out1 (c : Dev nD) : Gen.V9 m (outs m) c main_v29_1 = outs m 9 main_v29_1 c := by
  unfold Gen.V9; rw [Function.update_of_ne (by decide), Function.update_self]
theorem V9_out2 (c : Dev nD) : Gen.V9 m (outs m) c main_v29_2 = outs m 9 main_v29_2 c := by
  unfold Gen.V9; rw [Function.update_self]
theorem V12_out0 (c : Dev nD) : Gen.V12 m (outs m) c main_v31_0 = outs m 12 main_v31_0 c := by
  unfold Gen.V12; rw [Function.update_of_ne (by decide), Function.update_of_ne (by decide), Function.update_self]
theorem V12_out1 (c : Dev nD) : Gen.V12 m (outs m) c main_v31_1 = outs m 12 main_v31_1 c := by
  unfold Gen.V12; rw [Function.update_of_ne (by decide), Function.update_self]
theorem V12_out2 (c : Dev nD) : Gen.V12 m (outs m) c main_v31_2 = outs m 12 main_v31_2 c := by
  unfold Gen.V12; rw [Function.update_self]
theorem V15_out0 (c : Dev nD) : Gen.V15 m (outs m) c main_v33_0 = outs m 15 main_v33_0 c := by
  unfold Gen.V15; rw [Function.update_of_ne (by decide), Function.update_of_ne (by decide), Function.update_self]
theorem V15_out1 (c : Dev nD) : Gen.V15 m (outs m) c main_v33_1 = outs m 15 main_v33_1 c := by
  unfold Gen.V15; rw [Function.update_of_ne (by decide), Function.update_self]
theorem V15_out2 (c : Dev nD) : Gen.V15 m (outs m) c main_v33_2 = outs m 15 main_v33_2 c := by
  unfold Gen.V15; rw [Function.update_self]

def pdats : (p : Fin 3) → (c : Dev nD) → Dat τ (Elt F) Unit ℕ (UR sig nD τ) ℕ (Pipeline.pin (pcfgs (F := F)) Gen.adm p) c
  | ⟨0, _⟩ => fun c => dat0 (Vr0 m) c
  | ⟨1, _⟩ => fun c => dat1 (Vr1 m) c
  | ⟨2, _⟩ => fun c => dat2 (Vr2 m) c

end Cert.Kernel.Hand

end
-- ==== Proof.K.LaunchCommon.lean ====
import proofs.«402100_j83614423319285_2_alg».proof.Proof.K.Outs
import Idealize.ShloMosaic.Lib.Pipeline.Regions
import Idealize.ShloMosaic.Lib.Pipeline.Kit

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

end Cert.Kernel.Hand

end
-- ==== Proof.K.Reg0.lean ====
import proofs.«402100_j83614423319285_2_alg».proof.Proof.K.LaunchCommon
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hF0 (c : Dev nD) (w : Fin cfg0.W) :
    (dat0 (Vr0 m) c).arrAt w cfg0.N = (fun b : Ref sig .tc => Gen.V9 m (outs m) c b) (Pipeline.arrRef spec0 w) := by
  have hin : ∀ w : Fin cfg0.W, (cfg0.win w).isOut = false →
      Pipeline.arrRef spec0 w ∉ ([main_v29_0, main_v29_1, main_v29_2] : List (Ref sig .tc)) →
      (dat0 (Vr0 m) c).arrAt w cfg0.N = Gen.V9 m (outs m) c (Pipeline.arrRef spec0 w) := fun w h1 h2 =>
    ((dat0 (Vr0 m) c).arrAt_in w h1 _).trans
      ((A_eq0 (Vr0 m) c w).trans (Gen.V9_of m (outs m) c (Pipeline.arrRef spec0 w) h2).symm)
  revert w
  show ∀ w : Fin 6, (dat0 (Vr0 m) c).arrAt w cfg0.N = Gen.V9 m (outs m) c (Pipeline.arrRef spec0 w)
  intro w
  match w with
  | ⟨0, _⟩ => exact hin 0 rfl (by decide)
  | ⟨1, _⟩ => exact hin 1 rfl (by decide)
  | ⟨2, _⟩ => exact hin 2 rfl (by decide)
  | ⟨3, _⟩ => exact (outs_9_0 m c).symm.trans (V9_out0 m c).symm
  | ⟨4, _⟩ => exact (outs_9_1 m c).symm.trans (V9_out1 m c).symm
  | ⟨5, _⟩ => exact (outs_9_2 m c).symm.trans (V9_out2 m c).symm

theorem hrest0 (c : Dev nD) : ∀ b : Ref sig .tc, b ∉ Finset.univ.image (Pipeline.arrRef spec0) →
    (fun b : Ref sig .tc => Gen.V9 m (outs m) c b) b = (fun b : Ref sig .tc => Gen.V8 m c b) b := fun b hb =>
  Gen.V9_of m (outs m) c b (fun h => hb (by
    simp only [List.mem_cons, List.mem_nil_iff, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩))

set_option backward.isDefEq.respectTransparency.types false in

def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun c t => owed_eq0 (Vr0 m) c t
  pre c := iprop(StableHlo.held (c : Thread nD τ) (Pipeline.ucRefs τ sig) (Gen.V8 m c) ∗ Rst c)
  post c := iprop(StableHlo.held (c : Thread nD τ) (Pipeline.ucRefs τ sig) (Gen.V9 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b : Ref sig .tc => Gen.V8 m c b)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (Vr0 m) c w) (fun b : Ref sig .tc => Gen.V8 m c b) (fun w => A_eq0 (Vr0 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (Vr0 m) c 0]
      icases HO with ⟨%W, HO⟩; iexists W; isplitr
      · ipureintro
        exact fun x _ => Or.inl (by
          show x ∈ (dat0 (Vr0 m) c).recorded 0
          rw [recorded_eq0 (Vr0 m) c 0]; exact Set.mem_univ x)
      iexact HO
    isplitl [Hp]; · iexact Hp
    iexact Hrest
  hin c := by
    refine (?_ : _ ⊢ (Pipeline.ΦA spec0 c : sProp 𝕄)).trans (hin0 (Vr0 m) c)
    unfold Pipeline.ΦA
    iintro ⟨Hp, -, Hr⟩
    isplitl [Hr]; · iexact Hr
    iexact Hp
  hout c := by
    rw [Pipeline.ownSems0_none]
    refine (hout0 (Vr0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (Vr0 m) c w)
      (fun b : Ref sig .tc => Gen.V8 m c b) (fun b : Ref sig .tc => Gen.V9 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (Vr0 m) c _]
    icases HO with ⟨%W, -, HO⟩; iexists W
    iexact HO

end Cert.Kernel.Hand

end
-- ==== Proof.K.Reg1.lean ====
import proofs.«402100_j83614423319285_2_alg».proof.Proof.K.LaunchCommon
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hF1 (c : Dev nD) (w : Fin cfg1.W) :
    (dat1 (Vr1 m) c).arrAt w cfg1.N = (fun b : Ref sig .tc => Gen.V12 m (outs m) c b) (Pipeline.arrRef spec1 w) := by
  have hin : ∀ w : Fin cfg1.W, (cfg1.win w).isOut = false →
      Pipeline.arrRef spec1 w ∉ ([main_v31_0, main_v31_1, main_v31_2] : List (Ref sig .tc)) →
      (dat1 (Vr1 m) c).arrAt w cfg1.N = Gen.V12 m (outs m) c (Pipeline.arrRef spec1 w) := fun w h1 h2 =>
    ((dat1 (Vr1 m) c).arrAt_in w h1 _).trans
      (((A_eq1 (Vr1 m) c w).trans (congrFun (V11_outs m c) _).symm).trans (Gen.V12_of m (outs m) c (Pipeline.arrRef spec1 w) h2).symm)
  revert w
  show ∀ w : Fin 7, (dat1 (Vr1 m) c).arrAt w cfg1.N = Gen.V12 m (outs m) c (Pipeline.arrRef spec1 w)
  intro w
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (outs_12_0 m c).symm.trans (V12_out0 m c).symm
  | ⟨5, _⟩ => exact (outs_12_1 m c).symm.trans (V12_out1 m c).symm
  | ⟨6, _⟩ => exact (outs_12_2 m c).symm.trans (V12_out2 m c).symm

theorem hrest1 (c : Dev nD) : ∀ b : Ref sig .tc, b ∉ Finset.univ.image (Pipeline.arrRef spec1) →
    (fun b : Ref sig .tc => Gen.V12 m (outs m) c b) b = (fun b : Ref sig .tc => Gen.V11 m (outs m) c b) b := fun b hb =>
  Gen.V12_of m (outs m) c b (fun h => hb (by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

set_option backward.isDefEq.respectTransparency.types false in

def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun c t => owed_eq1 (Vr1 m) c t
  pre c := iprop(StableHlo.held (c : Thread nD τ) (Pipeline.ucRefs τ sig) (Gen.V11 m (outs m) c) ∗ Rst c)
  post c := iprop(StableHlo.held (c : Thread nD τ) (Pipeline.ucRefs τ sig) (Gen.V12 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b : Ref sig .tc => Gen.V11 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun w => q_eq1 (Vr1 m) c w) (fun b : Ref sig .tc => Gen.V11 m (outs m) c b) (fun w => (A_eq1 (Vr1 m) c w).trans (congrFun (V11_outs m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (Vr1 m) c 0]
      icases HO with ⟨%W, HO⟩; iexists W; isplitr
      · ipureintro
        exact fun x _ => Or.inl (by
          show x ∈ (dat1 (Vr1 m) c).recorded 0
          rw [recorded_eq1 (Vr1 m) c 0]; exact Set.mem_univ x)
      iexact HO
    isplitl [Hp]; · iexact Hp
    iexact Hrest
  hin c := by
    refine (?_ : _ ⊢ (Pipeline.ΦA spec1 c : sProp 𝕄)).trans (hin1 (Vr1 m) c)
    unfold Pipeline.ΦA
    iintro ⟨Hp, -, Hr⟩
    isplitl [Hr]; · iexact Hr
    iexact Hp
  hout c := by
    rw [Pipeline.ownSems0_none]
    refine (hout1 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q_eq1 (Vr1 m) c w)
      (fun b : Ref sig .tc => Gen.V11 m (outs m) c b) (fun b : Ref sig .tc => Gen.V12 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (Vr1 m) c _]
    icases HO with ⟨%W, -, HO⟩; iexists W
    iexact HO

end Cert.Kernel.Hand

end
-- ==== Proof.K.Reg2.lean ====
import proofs.«402100_j83614423319285_2_alg».proof.Proof.K.LaunchCommon
import Idealize.ShloMosaic.Lib.Pipeline.RegionsLoop

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem hF2 (c : Dev nD) (w : Fin cfg2.W) :
    (dat2 (Vr2 m) c).arrAt w cfg2.N = (fun b : Ref sig .tc => Gen.V15 m (outs m) c b) (Pipeline.arrRef spec2 w) := by
  have hin : ∀ w : Fin cfg2.W, (cfg2.win w).isOut = false →
      Pipeline.arrRef spec2 w ∉ ([main_v33_0, main_v33_1, main_v33_2] : List (Ref sig .tc)) →
      (dat2 (Vr2 m) c).arrAt w cfg2.N = Gen.V15 m (outs m) c (Pipeline.arrRef spec2 w) := fun w h1 h2 =>
    ((dat2 (Vr2 m) c).arrAt_in w h1 _).trans
      (((A_eq2 (Vr2 m) c w).trans (congrFun (V14_outs m c) _).symm).trans (Gen.V15_of m (outs m) c (Pipeline.arrRef spec2 w) h2).symm)
  revert w
  show ∀ w : Fin 7, (dat2 (Vr2 m) c).arrAt w cfg2.N = Gen.V15 m (outs m) c (Pipeline.arrRef spec2 w)
  intro w
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (outs_15_0 m c).symm.trans (V15_out0 m c).symm
  | ⟨5, _⟩ => exact (outs_15_1 m c).symm.trans (V15_out1 m c).symm
  | ⟨6, _⟩ => exact (outs_15_2 m c).symm.trans (V15_out2 m c).symm

theorem hrest2 (c : Dev nD) : ∀ b : Ref sig .tc, b ∉ Finset.univ.image (Pipeline.arrRef spec2) →
    (fun b : Ref sig .tc => Gen.V15 m (outs m) c b) b = (fun b : Ref sig .tc => Gen.V14 m (outs m) c b) b := fun b hb =>
  Gen.V15_of m (outs m) c b (fun h => hb (by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

set_option backward.isDefEq.respectTransparency.types false in

def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun c t => owed_eq2 (Vr2 m) c t
  pre c := iprop(StableHlo.held (c : Thread nD τ) (Pipeline.ucRefs τ sig) (Gen.V14 m (outs m) c) ∗ Rst c)
  post c := iprop(StableHlo.held (c : Thread nD τ) (Pipeline.ucRefs τ sig) (Gen.V15 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b : Ref sig .tc => Gen.V14 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun w => q_eq2 (Vr2 m) c w) (fun b : Ref sig .tc => Gen.V14 m (outs m) c b) (fun w => (A_eq2 (Vr2 m) c w).trans (congrFun (V14_outs m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (Vr2 m) c 0]
      icases HO with ⟨%W, HO⟩; iexists W; isplitr
      · ipureintro
        exact fun x _ => Or.inl (by
          show x ∈ (dat2 (Vr2 m) c).recorded 0
          rw [recorded_eq2 (Vr2 m) c 0]; exact Set.mem_univ x)
      iexact HO
    isplitl [Hp]; · iexact Hp
    iexact Hrest
  hin c := by
    refine (?_ : _ ⊢ (Pipeline.ΦA spec2 c : sProp 𝕄)).trans (hin2 (Vr2 m) c)
    unfold Pipeline.ΦA
    iintro ⟨Hp, -, Hr⟩
    isplitl [Hr]; · iexact Hr
    iexact Hp
  hout c := by
    rw [Pipeline.ownSems0_none]
    refine (hout2 (Vr2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => q_eq2 (Vr2 m) c w)
      (fun b : Ref sig .tc => Gen.V14 m (outs m) c b) (fun b : Ref sig .tc => Gen.V15 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (Vr2 m) c _]
    icases HO with ⟨%W, -, HO⟩; iexists W
    iexact HO

end Cert.Kernel.Hand

end
-- ==== Proof.K.RunMain.lean ====
import proofs.«402100_j83614423319285_2_alg».proof.Proof.K.Reg0
import proofs.«402100_j83614423319285_2_alg».proof.Proof.K.Reg1
import proofs.«402100_j83614423319285_2_alg».proof.Proof.K.Reg2

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev Es : Fin 4 → Dev nD → sProp 𝕄 := fun _ c => Rst c

set_option backward.isDefEq.respectTransparency.types false in

theorem run_value : θ_run defs (onTc (τ := τ) (main (F := F))) ⟨m, fun _ => 0, ρ⟩ (fun r => ∀ c : Dev nD,
      r.2.mem ((c.tc : Thread nD τ).loc main_v74) = Gen.V22 m (outs m) c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) Gen.adm (pdats m) () cellOf_inj emb₁ defs₀ 𝒱₀ L lv m ρ main
    (Gen.segs m (outs m) 𝒱₀ L lv (Es (F := F)) () (pdats m) (reg0 m) (reg1 m) (reg2 m))
    (fun c Q => by
      rewrite [main_chain c, Seg.run_eq_chain,
        show (Gen.segs m (outs m) 𝒱₀ L lv (Es (F := F)) () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6 ] from rfl]
      exact .rfl)
    (fun c => by simp only [Gen.segs, Seg.pipes_host, Seg.pipes_region, Seg.pipes_nil]; decide) (O₀ := 0) (fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V22 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := ?_) (QY := fun c s => s.mem ((c.tc : Thread nD τ).loc main_v74) = Gen.V22 m (outs m) c main_v74
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V22 m (outs m) c) s') $$ [Hh HSI]
    · isplitl [Hh] <;> iassumption
    icases Hr with ⟨%h, HSI⟩
    imodintro
    isplitr
    · ipureintro
      exact ⟨h (Proc.devRef .tc main_v74) (Finset.mem_filter.mpr ⟨StableHlo.devRef_mem_tcRefs main_v74, by decide⟩),
        (h (Proc.devRef .tc main_arg0) (Finset.mem_filter.mpr ⟨StableHlo.devRef_mem_tcRefs main_arg0, by decide⟩)).trans (Gen.V22_main_arg0 m (outs m) c),
        (h (Proc.devRef .tc main_arg1) (Finset.mem_filter.mpr ⟨StableHlo.devRef_mem_tcRefs main_arg1, by decide⟩)).trans (Gen.V22_main_arg1 m (outs m) c),
        (h (Proc.devRef .tc main_arg2) (Finset.mem_filter.mpr ⟨StableHlo.devRef_mem_tcRefs main_arg2, by decide⟩)).trans (Gen.V22_main_arg2 m (outs m) c),
        (h (Proc.devRef .tc main_arg3) (Finset.mem_filter.mpr ⟨StableHlo.devRef_mem_tcRefs main_arg3, by decide⟩)).trans (Gen.V22_main_arg3 m (outs m) c),
        (h (Proc.devRef .tc main_arg4) (Finset.mem_filter.mpr ⟨StableHlo.devRef_mem_tcRefs main_arg4, by decide⟩)).trans (Gen.V22_main_arg4 m (outs m) c),
        (h (Proc.devRef .tc main_arg5) (Finset.mem_filter.mpr ⟨StableHlo.devRef_mem_tcRefs main_arg5, by decide⟩)).trans (Gen.V22_main_arg5 m (outs m) c),
        (h (Proc.devRef .tc main_arg6) (Finset.mem_filter.mpr ⟨StableHlo.devRef_mem_tcRefs main_arg6, by decide⟩)).trans (Gen.V22_main_arg6 m (outs m) c),
        (h (Proc.devRef .tc main_arg7) (Finset.mem_filter.mpr ⟨StableHlo.devRef_mem_tcRefs main_arg7, by decide⟩)).trans (Gen.V22_main_arg7 m (outs m) c)⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.Kernel.Hand

end
-- ==== Proof.KI.Runs0.lean ====
import proofs.«402100_j83614423319285_2_alg».proof.Proof.Gen.KernelIdeal.Launch
import proofs.«402100_j83614423319285_2_alg».proof.Proof.Gen.KernelIdeal.Skeleton
import proofs.«402100_j83614423319285_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev cond0_0 (i : grid0.Coords) : Prop := (Scalar.cmpi .ne (Scalar.extui (Scalar.cmpi .eq (BitVec.ofNat 32 (i 1).val) 0#32)) 0#32) = 1#1

theorem hcond0_0 : ∀ t : Fin cfg0.N, cond0_0 (grid0.coords t) ↔ t.val % 10 = 0 :=
  (by decide +kernel : ∀ t : Fin grid0.N, cond0_0 (grid0.coords t) ↔ t.val % 10 = 0)

abbrev cond0_1 (i : grid0.Coords) : Prop := k0_cond2 i = 1#1

theorem hcond0_1 : ∀ t : Fin cfg0.N, cond0_1 (grid0.coords t) ↔ t.val % 10 = 9 :=
  (by decide +kernel : ∀ t : Fin grid0.N, cond0_1 (grid0.coords t) ↔ t.val % 10 = 9)

theorem liveAt0_0 : ∀ t : Fin cfg0.N, cfg0.idle 0 (grid0.coords t) = false := fun _ => rfl
theorem liveAt0_1 : ∀ t : Fin cfg0.N, cfg0.idle 1 (grid0.coords t) = false := fun _ => rfl
theorem liveAt0_2 : ∀ t : Fin cfg0.N, cfg0.idle 2 (grid0.coords t) = false := fun _ => rfl

theorem idleAt0_3 : ∀ t : Fin cfg0.N, ¬cond0_1 (grid0.coords t) → cfg0.idle 3 (grid0.coords t) = true := by decide +kernel
theorem idleAt0_4 : ∀ t : Fin cfg0.N, ¬cond0_1 (grid0.coords t) → cfg0.idle 4 (grid0.coords t) = true := by decide +kernel
theorem idleAt0_5 : ∀ t : Fin cfg0.N, ¬cond0_1 (grid0.coords t) → cfg0.idle 5 (grid0.coords t) = true := by decide +kernel
theorem noFlush0_3 : ∀ t : Fin cfg0.N, ¬cond0_1 (grid0.coords t) → (cfg0.win 3).flush t = false := by decide +kernel
theorem noFlush0_4 : ∀ t : Fin cfg0.N, ¬cond0_1 (grid0.coords t) → (cfg0.win 4).flush t = false := by decide +kernel
theorem noFlush0_5 : ∀ t : Fin cfg0.N, ¬cond0_1 (grid0.coords t) → (cfg0.win 5).flush t = false := by decide +kernel
theorem liveAt0_3 : ∀ t : Fin cfg0.N, cond0_1 (grid0.coords t) → cfg0.idle 3 (grid0.coords t) = false := by decide +kernel
theorem liveAt0_4 : ∀ t : Fin cfg0.N, cond0_1 (grid0.coords t) → cfg0.idle 4 (grid0.coords t) = false := by decide +kernel
theorem liveAt0_5 : ∀ t : Fin cfg0.N, cond0_1 (grid0.coords t) → cfg0.idle 5 (grid0.coords t) = false := by decide +kernel

abbrev VO0_3 : View sig .tc .vmem S512x1 .f32 := (Memref.whole cc0_stg3_0 : Memref sig .tc .vmem S512x1 .f32).view
abbrev VO0_4 : View sig .tc .vmem S512x1 .f32 := (Memref.whole cc0_stg4_0 : Memref sig .tc .vmem S512x1 .f32).view
abbrev VO0_5 : View sig .tc .vmem S512x1 .f32 := (Memref.whole cc0_stg5_0 : Memref sig .tc .vmem S512x1 .f32).view

abbrev ms0_0 (t : Fin cfg0.N) : Memref sig .tc .vmem S512x1024 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S2048x1024 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S512x1 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S512x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x1 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x1 .f32 := win0_5.stage (cfg0.slots t 5)
abbrev hs0_5 (t : Fin cfg0.N) : (ms0_5 t).IsWhole := hstage0_5 ((cfg0.slots t 5).cast nbuf0_5)

abbrev scM0_0 : Memref sig .tc .vmem S512x1 .f32 := Memref.whole cc0_scratch0
abbrev scM0_1 : Memref sig .tc .vmem S512x1 .f32 := Memref.whole cc0_scratch1
abbrev scM0_2 : Memref sig .tc .vmem S512x1 .f32 := Memref.whole cc0_scratch2

abbrev VS0_0 : View sig .tc .vmem S512x1 .f32 := scM0_0.view
abbrev VS0_1 : View sig .tc .vmem S512x1 .f32 := scM0_1.view
abbrev VS0_2 : View sig .tc .vmem S512x1 .f32 := scM0_2.view

abbrev rest0 (c : Dev nD) : sProp 𝕄 :=
  Pipeline.scopedRestBut (Ix := Unit) (Name := ℕ) (U := UR sig nD τ) (Lvl := ℕ) (Val := Elt F) spec0 c [cc0_scratch0, cc0_scratch1, cc0_scratch2]

theorem PhiA0_eq (c : Dev nD) :
    (Pipeline.ΦA spec0 c : sProp 𝕄)
      = iprop(iprop(iprop((∃ d, owns (c : Thread nD τ) scM0_0 fullShare d) ∗ (∃ d, owns (c : Thread nD τ) scM0_1 fullShare d) ∗ (∃ d, owns (c : Thread nD τ) scM0_2 fullShare d))
          ∗ rest0 (F := F) c) ∗ (∃ r, prngReg c r)) := by
  unfold Pipeline.ΦA; rw [scopedRest0_split]; simp only [scM0_0, scM0_1, scM0_2, owns_whole]; try rfl

structure Args0 where
  arg2 : Memref sig .tc .vmem S512x1024 .bf16
  harg2 : arg2.IsWhole
  arg3 : Memref sig .tc .vmem S2048x1024 .bf16
  harg3 : arg3.IsWhole
  arg4 : Memref sig .tc .vmem S512x1 .i32
  harg4 : arg4.IsWhole
  arg5 : Memref sig .tc .vmem S512x1 .f32
  harg5 : arg5.IsWhole
  arg6 : Memref sig .tc .vmem S512x1 .f32
  harg6 : arg6.IsWhole
  arg7 : Memref sig .tc .vmem S512x1 .f32
  harg7 : arg7.IsWhole
  arg8 : Memref sig .tc .vmem S512x1 .f32
  harg8 : arg8.IsWhole
  arg9 : Memref sig .tc .vmem S512x1 .f32
  harg9 : arg9.IsWhole
  arg10 : Memref sig .tc .vmem S512x1 .f32
  harg10 : arg10.IsWhole

abbrev args0 (t : Fin cfg0.N) : Args0 :=
  ⟨ms0_0 t, hs0_0 t, ms0_1 t, hs0_1 t, ms0_2 t, hs0_2 t, ms0_3 t, hs0_3 t, ms0_4 t, hs0_4 t, ms0_5 t, hs0_5 t, scM0_0, Memref.isWhole_whole _, scM0_1, Memref.isWhole_whole _, scM0_2, Memref.isWhole_whole _⟩

end Cert.KernelIdeal.Hand

end
-- ==== Proof.KI.Run0A.lean ====
import proofs.«402100_j83614423319285_2_alg».proof.Proof.KI.Runs0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun0_A (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : cond0_0 i) (hc1 : ¬cond0_1 i)
    (x0 : Vec F S512x1024 .bf16) (x1 : Vec F S2048x1024 .bf16) (x2 : Vec F S512x1 .i32) :
    Σ' (LS0 : List (View.Piece (Elt F) S512x1 .f32)) (LS1 : List (View.Piece (Elt F) S512x1 .f32)), { LS2 : List (View.Piece (Elt F) S512x1 .f32) //
      ∀ (xi3 : Vec F S512x1 .f32) (xi4 : Vec F S512x1 .f32) (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    sl_unfold [cc0_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

noncomputable def run0_A (c : Dev nD) (i : grid0.Coords) (a : Args0) (hc0 : cond0_0 i) (hc1 : ¬cond0_1 i) (x0 : Vec F S512x1024 .bf16) (x1 : Vec F S2048x1024 .bf16) (x2 : Vec F S512x1 .i32) :=
  kernelRun0_A c i a.arg2 a.harg2 a.arg3 a.harg3 a.arg4 a.harg4 a.arg5 a.harg5 a.arg6 a.harg6 a.arg7 a.harg7 a.arg8 a.harg8 a.arg9 a.harg9 a.arg10 a.harg10 hc0 hc1 x0 x1 x2

end Cert.KernelIdeal.Hand

end
-- ==== Proof.KI.Run0B.lean ====
import proofs.«402100_j83614423319285_2_alg».proof.Proof.KI.Runs0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun0_B (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : ¬cond0_1 i)
    (x0 : Vec F S512x1024 .bf16) (x1 : Vec F S2048x1024 .bf16) (x2 : Vec F S512x1 .i32) (xs0 : Vec F S512x1 .f32) (xs1 : Vec F S512x1 .f32) (xs2 : Vec F S512x1 .f32) :
    Σ' (LS0 : List (View.Piece (Elt F) S512x1 .f32)) (LS1 : List (View.Piece (Elt F) S512x1 .f32)), { LS2 : List (View.Piece (Elt F) S512x1 .f32) //
      ∀ (xi3 : Vec F S512x1 .f32) (xi4 : Vec F S512x1 .f32) (xi5 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2
            ∗ owns (c : Thread nD τ) arg5 fullShare xi3 ∗ owns (c : Thread nD τ) arg6 fullShare xi4 ∗ owns (c : Thread nD τ) arg7 fullShare xi5
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ owns (c : Thread nD τ) arg5 fullShare xi3 ∗ owns (c : Thread nD τ) arg6 fullShare xi4 ∗ owns (c : Thread nD τ) arg7 fullShare xi5
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, fun xi3 xi4 xi5 E K => ?run⟩
  case run =>
    sl_unfold [cc0_kernel]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HS0]; · iexists _; iexact HS0
    isplitl [HS1]; · iexists _; iexact HS1
    iexists _; iexact HS2

noncomputable def run0_B (c : Dev nD) (i : grid0.Coords) (a : Args0) (hc0 : ¬cond0_0 i) (hc1 : ¬cond0_1 i) (x0 : Vec F S512x1024 .bf16) (x1 : Vec F S2048x1024 .bf16) (x2 : Vec F S512x1 .i32) (xs0 : Vec F S512x1 .f32) (xs1 : Vec F S512x1 .f32) (xs2 : Vec F S512x1 .f32) :=
  kernelRun0_B c i a.arg2 a.harg2 a.arg3 a.harg3 a.arg4 a.harg4 a.arg5 a.harg5 a.arg6 a.harg6 a.arg7 a.harg7 a.arg8 a.harg8 a.arg9 a.harg9 a.arg10 a.harg10 hc0 hc1 x0 x1 x2 xs0 xs1 xs2

end Cert.KernelIdeal.Hand

end
-- ==== Proof.KI.Run0C.lean ====
import proofs.«402100_j83614423319285_2_alg».proof.Proof.KI.Runs0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun0_C (c : Dev nD) (i : grid0.Coords) (arg2 : Memref sig .tc .vmem S512x1024 .bf16) (harg2 : arg2.IsWhole) (arg3 : Memref sig .tc .vmem S2048x1024 .bf16) (harg3 : arg3.IsWhole) (arg4 : Memref sig .tc .vmem S512x1 .i32) (harg4 : arg4.IsWhole) (arg5 : Memref sig .tc .vmem S512x1 .f32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (hc0 : ¬cond0_0 i) (hc1 : cond0_1 i)
    (x0 : Vec F S512x1024 .bf16) (x1 : Vec F S2048x1024 .bf16) (x2 : Vec F S512x1 .i32) (xs0 : Vec F S512x1 .f32) (xs1 : Vec F S512x1 .f32) (xs2 : Vec F S512x1 .f32) :
    Σ' (L3 : List (View.Piece (Elt F) S512x1 .f32)) (L4 : List (View.Piece (Elt F) S512x1 .f32)) (L5 : List (View.Piece (Elt F) S512x1 .f32)) (LS0 : List (View.Piece (Elt F) S512x1 .f32)) (LS1 : List (View.Piece (Elt F) S512x1 .f32)), { LS2 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2
            ∗ (∃ d, owns (c : Thread nD τ) arg5 fullShare d) ∗ (∃ d, owns (c : Thread nD τ) arg6 fullShare d) ∗ (∃ d, owns (c : Thread nD τ) arg7 fullShare d)
            ∗ owns (c : Thread nD τ) arg8 fullShare xs0 ∗ owns (c : Thread nD τ) arg9 fullShare xs1 ∗ owns (c : Thread nD τ) arg10 fullShare xs2
            ∗ (iprop(owns (c : Thread nD τ) arg2 fullShare x0 ∗ owns (c : Thread nD τ) arg3 fullShare x1 ∗ owns (c : Thread nD τ) arg4 fullShare x2
                ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f LS0) ∗ (∃ f, arg9.view.loc (c : Thread nD τ) ↦[arg9.view.set]{fullShare} arg9.view.writes (Elt F) f LS1) ∗ (∃ f, arg10.view.loc (c : Thread nD τ) ↦[arg10.view.set]{fullShare} arg10.view.writes (Elt F) f LS2)) -∗ K ⟨⟩))
          ⊢ wp frame (wpE (defs₀ (F := F)) Variants.none c none) E (cc0_kernel i arg2 harg2 arg3 harg3 arg4 harg4 arg5 harg5 arg6 harg6 arg7 harg7 arg8 harg8 arg9 harg9 arg10 harg10) K } := by
  refine ⟨?_, ?_, ?_, ?_, ?_, ?_, fun E K => ?run⟩
  case run =>
    sl_unfold [cc0_kernel]
    unfold owns
    iintro ⟨⟨%f0, %hf0, H0⟩, ⟨%f1, %hf1, H1⟩, ⟨%f2, %hf2, H2⟩, ⟨%d3, %f3, -, H3⟩, ⟨%d4, %f4, -, H4⟩, ⟨%d5, %f5, -, H5⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg8.eq_unread hfs0; obtain rfl := harg9.eq_unread hfs1; obtain rfl := harg10.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [H4]; · iexists _; iexact H4
    isplitl [H5]; · iexists _; iexact H5
    isplitl [HS0]; · iexists _; iexact HS0
    isplitl [HS1]; · iexists _; iexact HS1
    iexists _; iexact HS2

noncomputable def run0_C (c : Dev nD) (i : grid0.Coords) (a : Args0) (hc0 : ¬cond0_0 i) (hc1 : cond0_1 i) (x0 : Vec F S512x1024 .bf16) (x1 : Vec F S2048x1024 .bf16) (x2 : Vec F S512x1 .i32) (xs0 : Vec F S512x1 .f32) (xs1 : Vec F S512x1 .f32) (xs2 : Vec F S512x1 .f32) :=
  kernelRun0_C c i a.arg2 a.harg2 a.arg3 a.harg3 a.arg4 a.harg4 a.arg5 a.harg5 a.arg6 a.harg6 a.arg7 a.harg7 a.arg8 a.harg8 a.arg9 a.harg9 a.arg10 a.harg10 hc0 hc1 x0 x1 x2 xs0 xs1 xs2

end Cert.KernelIdeal.Hand

end
-- ==== Proof.KI.Body0.lean ====
import proofs.«402100_j83614423319285_2_alg».proof.Proof.KI.Run0A
import proofs.«402100_j83614423319285_2_alg».proof.Proof.KI.Run0B
import proofs.«402100_j83614423319285_2_alg».proof.Proof.KI.Run0C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section
variable (c : Dev nD) (i : grid0.Coords) (a : Args0)
section
variable (hc0 : cond0_0 i) (hc1 : ¬cond0_1 i) (x0 : Vec F S512x1024 .bf16) (x1 : Vec F S2048x1024 .bf16) (x2 : Vec F S512x1 .i32)
theorem scover0_A_0 (y : S512x1.Idx) :
    ∃ pc ∈ (run0_A c i a hc0 hc1 x0 x1 x2).1, y ∈ pc.1.set :=
  View.cover_of_tiledL _ S512x1.size (by sl_kernel_rfl) y

def sout0_A_0 : Vec F S512x1 .f32 :=
  VS0_0.read (Elt F) (VS0_0.writes (Elt F) VS0_0.junk (run0_A c i a hc0 hc1 x0 x1 x2).1)

theorem scover0_A_1 (y : S512x1.Idx) :
    ∃ pc ∈ (run0_A c i a hc0 hc1 x0 x1 x2).2.1, y ∈ pc.1.set :=
  View.cover_of_tiledL _ S512x1.size (by sl_kernel_rfl) y

def sout0_A_1 : Vec F S512x1 .f32 :=
  VS0_1.read (Elt F) (VS0_1.writes (Elt F) VS0_1.junk (run0_A c i a hc0 hc1 x0 x1 x2).2.1)

theorem scover0_A_2 (y : S512x1.Idx) :
    ∃ pc ∈ (run0_A c i a hc0 hc1 x0 x1 x2).2.2.1, y ∈ pc.1.set :=
  View.cover_of_tiledL _ S512x1.size (by sl_kernel_rfl) y

def sout0_A_2 : Vec F S512x1 .f32 :=
  VS0_2.read (Elt F) (VS0_2.writes (Elt F) VS0_2.junk (run0_A c i a hc0 hc1 x0 x1 x2).2.2.1)

end
section
variable (hc0 : ¬cond0_0 i) (hc1 : ¬cond0_1 i) (x0 : Vec F S512x1024 .bf16) (x1 : Vec F S2048x1024 .bf16) (x2 : Vec F S512x1 .i32) (xs0 : Vec F S512x1 .f32) (xs1 : Vec F S512x1 .f32) (xs2 : Vec F S512x1 .f32)
theorem scover0_B_0 (y : S512x1.Idx) :
    ∃ pc ∈ (run0_B c i a hc0 hc1 x0 x1 x2 xs0 xs1 xs2).1, y ∈ pc.1.set :=
  View.cover_of_tiledL _ S512x1.size (by sl_kernel_rfl) y

def sout0_B_0 : Vec F S512x1 .f32 :=
  VS0_0.read (Elt F) (VS0_0.writes (Elt F) VS0_0.junk (run0_B c i a hc0 hc1 x0 x1 x2 xs0 xs1 xs2).1)

theorem scover0_B_1 (y : S512x1.Idx) :
    ∃ pc ∈ (run0_B c i a hc0 hc1 x0 x1 x2 xs0 xs1 xs2).2.1, y ∈ pc.1.set :=
  View.cover_of_tiledL _ S512x1.size (by sl_kernel_rfl) y

def sout0_B_1 : Vec F S512x1 .f32 :=
  VS0_1.read (Elt F) (VS0_1.writes (Elt F) VS0_1.junk (run0_B c i a hc0 hc1 x0 x1 x2 xs0 xs1 xs2).2.1)

theorem scover0_B_2 (y : S512x1.Idx) :
    ∃ pc ∈ (run0_B c i a hc0 hc1 x0 x1 x2 xs0 xs1 xs2).2.2.1, y ∈ pc.1.set :=
  View.cover_of_tiledL _ S512x1.size (by sl_kernel_rfl) y

def sout0_B_2 : Vec F S512x1 .f32 :=
  VS0_2.read (Elt F) (VS0_2.writes (Elt F) VS0_2.junk (run0_B c i a hc0 hc1 x0 x1 x2 xs0 xs1 xs2).2.2.1)

end
section
variable (hc0 : ¬cond0_0 i) (hc1 : cond0_1 i) (x0 : Vec F S512x1024 .bf16) (x1 : Vec F S2048x1024 .bf16) (x2 : Vec F S512x1 .i32) (xs0 : Vec F S512x1 .f32) (xs1 : Vec F S512x1 .f32) (xs2 : Vec F S512x1 .f32)
theorem scover0_C_0 (y : S512x1.Idx) :
    ∃ pc ∈ (run0_C c i a hc0 hc1 x0 x1 x2 xs0 xs1 xs2).2.2.2.1, y ∈ pc.1.set :=
  View.cover_of_tiledL _ S512x1.size (by sl_kernel_rfl) y

def sout0_C_0 : Vec F S512x1 .f32 :=
  VS0_0.read (Elt F) (VS0_0.writes (Elt F) VS0_0.junk (run0_C c i a hc0 hc1 x0 x1 x2 xs0 xs1 xs2).2.2.2.1)

theorem scover0_C_1 (y : S512x1.Idx) :
    ∃ pc ∈ (run0_C c i a hc0 hc1 x0 x1 x2 xs0 xs1 xs2).2.2.2.2.1, y ∈ pc.1.set :=
  View.cover_of_tiledL _ S512x1.size (by sl_kernel_rfl) y

def sout0_C_1 : Vec F S512x1 .f32 :=
  VS0_1.read (Elt F) (VS0_1.writes (Elt F) VS0_1.junk (run0_C c i a hc0 hc1 x0 x1 x2 xs0 xs1 xs2).2.2.2.2.1)

theorem scover0_C_2 (y : S512x1.Idx) :
    ∃ pc ∈ (run0_C c i a hc0 hc1 x0 x1 x2 xs0 xs1 xs2).2.2.2.2.2.1, y ∈ pc.1.set :=
  View.cover_of_tiledL _ S512x1.size (by sl_kernel_rfl) y

def sout0_C_2 : Vec F S512x1 .f32 :=
  VS0_2.read (Elt F) (VS0_2.writes (Elt F) VS0_2.junk (run0_C c i a hc0 hc1 x0 x1 x2 xs0 xs1 xs2).2.2.2.2.2.1)

theorem cover0_C_3 (y : S512x1.Idx) :
    ∃ pc ∈ (run0_C c i a hc0 hc1 x0 x1 x2 xs0 xs1 xs2).1, y ∈ pc.1.set :=
  View.cover_of_tiledL _ S512x1.size (by sl_kernel_rfl) y

def out0_C_3 : Vec F S512x1 .f32 :=
  VO0_3.read (Elt F) (VO0_3.writes (Elt F) VO0_3.junk (run0_C c i a hc0 hc1 x0 x1 x2 xs0 xs1 xs2).1)

theorem cover0_C_4 (y : S512x1.Idx) :
    ∃ pc ∈ (run0_C c i a hc0 hc1 x0 x1 x2 xs0 xs1 xs2).2.1, y ∈ pc.1.set :=
  View.cover_of_tiledL _ S512x1.size (by sl_kernel_rfl) y

def out0_C_4 : Vec F S512x1 .f32 :=
  VO0_4.read (Elt F) (VO0_4.writes (Elt F) VO0_4.junk (run0_C c i a hc0 hc1 x0 x1 x2 xs0 xs1 xs2).2.1)

theorem cover0_C_5 (y : S512x1.Idx) :
    ∃ pc ∈ (run0_C c i a hc0 hc1 x0 x1 x2 xs0 xs1 xs2).2.2.1, y ∈ pc.1.set :=
  View.cover_of_tiledL _ S512x1.size (by sl_kernel_rfl) y

def out0_C_5 : Vec F S512x1 .f32 :=
  VO0_5.read (Elt F) (VO0_5.writes (Elt F) VO0_5.junk (run0_C c i a hc0 hc1 x0 x1 x2 xs0 xs1 xs2).2.2.1)
end
end

def oidle0 : Vec F S512x1 .f32 := VO0_3.read (Elt F) VO0_3.junk

def stepA0 (c : Dev nD) (t : Fin cfg0.N) (h0 : t.val % 10 = 0) (h1 : ¬t.val % 10 = 9) : Vec F S512x1 .f32 × Vec F S512x1 .f32 × Vec F S512x1 .f32 × Vec F S512x1 .f32 × Vec F S512x1 .f32 × Vec F S512x1 .f32 :=
  (oidle0, oidle0, oidle0,
   sout0_A_0 c (grid0.coords t) (args0 t) ((hcond0_0 t).mpr h0) (fun h => h1 ((hcond0_1 t).mp h)) (iblk0 V c 0 t) (iblk0 V c 1 t) (iblk0 V c 2 t),
   sout0_A_1 c (grid0.coords t) (args0 t) ((hcond0_0 t).mpr h0) (fun h => h1 ((hcond0_1 t).mp h)) (iblk0 V c 0 t) (iblk0 V c 1 t) (iblk0 V c 2 t),
   sout0_A_2 c (grid0.coords t) (args0 t) ((hcond0_0 t).mpr h0) (fun h => h1 ((hcond0_1 t).mp h)) (iblk0 V c 0 t) (iblk0 V c 1 t) (iblk0 V c 2 t))

def stepB0 (c : Dev nD) (t : Fin cfg0.N) (h0 : ¬t.val % 10 = 0) (h1 : ¬t.val % 10 = 9) (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 :=
  (oidle0, oidle0, oidle0,
   sout0_B_0 c (grid0.coords t) (args0 t) (fun h => h0 ((hcond0_0 t).mp h)) (fun h => h1 ((hcond0_1 t).mp h)) (iblk0 V c 0 t) (iblk0 V c 1 t) (iblk0 V c 2 t) p.2.2.2.1 p.2.2.2.2.1 p.2.2.2.2.2,
   sout0_B_1 c (grid0.coords t) (args0 t) (fun h => h0 ((hcond0_0 t).mp h)) (fun h => h1 ((hcond0_1 t).mp h)) (iblk0 V c 0 t) (iblk0 V c 1 t) (iblk0 V c 2 t) p.2.2.2.1 p.2.2.2.2.1 p.2.2.2.2.2,
   sout0_B_2 c (grid0.coords t) (args0 t) (fun h => h0 ((hcond0_0 t).mp h)) (fun h => h1 ((hcond0_1 t).mp h)) (iblk0 V c 0 t) (iblk0 V c 1 t) (iblk0 V c 2 t) p.2.2.2.1 p.2.2.2.2.1 p.2.2.2.2.2)

def stepC0 (c : Dev nD) (t : Fin cfg0.N) (h0 : ¬t.val % 10 = 0) (h1 : t.val % 10 = 9) (p : Vec F S512x1 .f32 × Vec F S512x1 .f32 × Vec F S512x1 .f32 × Vec F S512x1 .f32 × Vec F S512x1 .f32 × Vec F S512x1 .f32) : Vec F S512x1 .f32 × Vec F S512x1 .f32 × Vec F S512x1 .f32 × Vec F S512x1 .f32 × Vec F S512x1 .f32 × Vec F S512x1 .f32 :=
  (out0_C_3 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   out0_C_4 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   out0_C_5 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   sout0_C_0 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   sout0_C_1 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2,
   sout0_C_2 c (grid0.coords t) (args0 t) (fun h => h0 ((hcond0_0 t).mp h)) ((hcond0_1 t).mpr h1) (iblk0 V c 0 t) (iblk0 V c 1 t) (iblk0 V c 2 t) p.2.2.2.1 p.2.2.2.2.1 p.2.2.2.2.2)

def outsAt0 (c : Dev nD) : (n : ℕ) → n < cfg0.N → Vec F S512x1 .f32 × Vec F S512x1 .f32 × Vec F S512x1 .f32 × Vec F S512x1 .f32 × Vec F S512x1 .f32 × Vec F S512x1 .f32
  | 0, hn => stepA0 V c ⟨0, hn⟩ (Nat.zero_mod _) (by show ¬(0 % 10 = 9); decide)
  | n + 1, hn =>
    if h0 : (n + 1) % 10 = 0 then
      if h1 : (n + 1) % 10 = 9 then False.elim (by omega)
      else stepA0 V c ⟨n + 1, hn⟩ h0 h1
    else
      if h1 : (n + 1) % 10 = 9 then stepC0 V c ⟨n + 1, hn⟩ h0 h1 (outsAt0 c n (Nat.lt_of_succ_lt hn))
      else stepB0 V c ⟨n + 1, hn⟩ h0 h1 (outsAt0 c n (Nat.lt_of_succ_lt hn))

theorem outsAt0_A (c : Dev nD) (t : Fin cfg0.N) (h0 : t.val % 10 = 0) (h1 : ¬t.val % 10 = 9) :
    outsAt0 V c t.val t.isLt = stepA0 V c t h0 h1 := by
  obtain ⟨n, hn⟩ := t
  cases n with
  | zero => exact rfl
  | succ n => exact (dif_pos h0).trans ((dif_neg h1).trans rfl)

theorem outsAt0_B (c : Dev nD) (t : Fin cfg0.N) (h0 : ¬t.val % 10 = 0) (h1 : ¬t.val % 10 = 9) :
    outsAt0 V c t.val t.isLt = stepB0 V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 10 = 0) (h1 : t.val % 10 = 9) :
    outsAt0 V c t.val t.isLt = stepC0 V c t h0 h1 (outsAt0 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def PhiS0 (c : Dev nD) : (n : ℕ) → n ≤ cfg0.N → sProp 𝕄
  | 0, _ => Pipeline.ΦA spec0 c
  | n + 1, hn => iprop(iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2) ∗ rest0 (F := F) c) ∗ (∃ r, prngReg c r))

theorem PhiS0_succ (c : Dev nD) (n : ℕ) (hn : n < cfg0.N) :
    PhiS0 V c (n + 1) hn = iprop(iprop(iprop(owns (c : Thread nD τ) scM0_0 fullShare (outsAt0 V c n hn).2.2.2.1 ∗ owns (c : Thread nD τ) scM0_1 fullShare (outsAt0 V c n hn).2.2.2.2.1 ∗ owns (c : Thread nD τ) scM0_2 fullShare (outsAt0 V c n hn).2.2.2.2.2) ∗ rest0 (F := F) c) ∗ (∃ r, prngReg c r)) := rfl

theorem PhiS0_pos (c : Dev nD) (n : ℕ) (h : n ≤ cfg0.N) (hz : n ≠ 0) :
    PhiS0 V c n h = iprop(iprop(iprop(owns (c : Thread nD τ) scM0_0 fullShare (outsAt0 V c (n - 1) (by omega)).2.2.2.1 ∗ owns (c : Thread nD τ) scM0_1 fullShare (outsAt0 V c (n - 1) (by omega)).2.2.2.2.1 ∗ owns (c : Thread nD τ) scM0_2 fullShare (outsAt0 V c (n - 1) (by omega)).2.2.2.2.2) ∗ rest0 (F := F) c) ∗ (∃ r, prngReg c r)) := by
  cases n with
  | zero => exact absurd rfl hz
  | succ n => rfl

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
    | ⟨4, _⟩ => (outsAt0 V c t.val t.isLt).2.1
    | ⟨5, _⟩ => (outsAt0 V c t.val t.isLt).2.2.1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem q_eq0 (c : Dev nD) (w : Fin cfg0.W) : (dat0 V c).q w = fullShare := rfl

theorem owed_eq0 (c : Dev nD) (t : Fin (cfg0.N + 1)) : (dat0 V c).owed t = 0 := rfl

theorem recorded_eq0 (c : Dev nD) (t : Fin (cfg0.N + 1)) : (dat0 V c).recorded t = Set.univ := rfl

theorem PhiS0_castSucc (c : Dev nD) (t : Fin cfg0.N) :
    (dat0 V c).Φ t.castSucc = PhiS0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]
theorem after0_4 (c : Dev nD) (t : Fin cfg0.N) : (dat0 V c).after 4 t = (outsAt0 V c t.val t.isLt).2.1 := by dsimp only [dat0]
theorem after0_5 (c : Dev nD) (t : Fin cfg0.N) : (dat0 V c).after 5 t = (outsAt0 V c t.val t.isLt).2.2.1 := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t)

private theorem owns_of_cover {c : Thread nD τ} {cs : Space} {s : Shape} {e : EltTy} {κ' : Kind} {sp' : Space}
    (v' : View sig κ' sp' s e) {M : Memref sig c.2.kind cs s e} {q : PosShare TreeShare}
    {L : List (View.Piece (Elt F) s e)} (h : ∀ y, ∃ p ∈ L, y ∈ p.1.set) :
    (iprop(∃ f, M.view.loc c ↦[M.view.set]{q} M.view.writes (Elt F) f L) : sProp 𝕄)
      ⊢ owns c M q (v'.read (Elt F) (v'.writes (Elt F) v'.junk L)) := by
  iintro ⟨%f, H⟩; unfold owns; iexists M.view.writes (Elt F) f L; isplitr
  · ipureintro; exact View.read_writes_of_cover _ _ _ _ _ h
  · iexact H

theorem PhiS0_le (c : Dev nD) (n : ℕ) (h : n ≤ cfg0.N) : PhiS0 V c n h ⊢ (Pipeline.ΦA spec0 c : sProp 𝕄) := by
  cases n with
  | zero => exact .rfl
  | succ n =>
    rw [PhiS0_succ, PhiA0_eq]
    iintro ⟨⟨⟨HS0, HS1, HS2⟩, Hr⟩, Hg⟩
    isplitl [HS0 HS1 HS2 Hr]
    · isplitl [HS0 HS1 HS2]
      · isplitl [HS0]; · iexists _; iexact HS0
        isplitl [HS1]; · iexists _; iexact HS1
        iexists _; iexact HS2
      iexact Hr
    iexact Hg

set_option maxHeartbeats 8000000 in

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl]
  rw [show (dat0 V c).Φ t.succ = PhiS0 V c (t.val + 1) t.isLt from rfl, PhiS0_succ, PhiS0_castSucc V c t]
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  rw [show (dat0 V c).leavesExact 2 t = owns (c : Thread nD τ) (ms0_2 t) fullShare ((dat0 V c).after 2 t) from by
    unfold Dat.leavesExact; rw [liveAt0_2 t], after0_2]
  by_cases h1 : t.val % 10 = 9
  · have h0 : ¬t.val % 10 = 0 := by omega
    rw [show (dat0 V c).leavesExact 3 t = owns (c : Thread nD τ) (ms0_3 t) fullShare ((dat0 V c).after 3 t) from by
      unfold Dat.leavesExact; rw [liveAt0_3 t ((hcond0_1 t).mpr h1)], after0_3]
    rw [show (dat0 V c).leavesExact 4 t = owns (c : Thread nD τ) (ms0_4 t) fullShare ((dat0 V c).after 4 t) from by
      unfold Dat.leavesExact; rw [liveAt0_4 t ((hcond0_1 t).mpr h1)], after0_4]
    rw [show (dat0 V c).leavesExact 5 t = owns (c : Thread nD τ) (ms0_5 t) fullShare ((dat0 V c).after 5 t) from by
      unfold Dat.leavesExact; rw [liveAt0_5 t ((hcond0_1 t).mpr h1)], after0_5]
    rw [outsAt0_C V c t h0 h1]
    unfold stepC0 out0_C_3 out0_C_4 out0_C_5 sout0_C_0 sout0_C_1 sout0_C_2; (try dsimp only)
    rw [PhiS0_pos V c _ _ (by omega)]
    iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
    iapply ((run0_C c (grid0.coords t) (args0 t) (fun h => h0 ((hcond0_0 t).mp h)) ((hcond0_1 t).mpr h1) (iblk0 V c 0 t) (iblk0 V c 1 t) (iblk0 V c 2 t) _ _ _).2.2.2.2.2.2 Set.univ _)
    isplitl [H0]; · iexact H0
    isplitl [H1]; · iexact H1
    isplitl [H2]; · iexact H2
    isplitl [H3]; · iexists _; iexact H3
    isplitl [H4]; · iexists _; iexact H4
    isplitl [H5]; · iexists _; iexact H5
    isplitl [HS0]; · iexact HS0
    isplitl [HS1]; · iexact HS1
    isplitl [HS2]; · iexact HS2
    iintro ⟨H0, H1, H2, H3, H4, H5, HS0, HS1, HS2⟩
    isplitl [HS0 HS1 HS2 Hr Hg]
    · isplitl [HS0 HS1 HS2 Hr]
      · isplitl [HS0 HS1 HS2]
        · isplitl [HS0]; · iapply owns_of_cover _ (scover0_C_0 c _ _ _ _ _ _ _ _ _ _); iexact HS0
          isplitl [HS1]; · iapply owns_of_cover _ (scover0_C_1 c _ _ _ _ _ _ _ _ _ _); iexact HS1
          iapply owns_of_cover _ (scover0_C_2 c _ _ _ _ _ _ _ _ _ _); iexact HS2
        iexact Hr
      iexact Hg
    isplitl [Ho]; · iexact Ho
    isplitl [H0]; · iexact H0
    isplitl [H1]; · iexact H1
    isplitl [H2]; · iexact H2
    isplitl [H3]; · iapply owns_of_cover _ (cover0_C_3 c _ _ _ _ _ _ _ _ _ _); iexact H3
    isplitl [H4]; · iapply owns_of_cover _ (cover0_C_4 c _ _ _ _ _ _ _ _ _ _); iexact H4
    iapply owns_of_cover _ (cover0_C_5 c _ _ _ _ _ _ _ _ _ _); iexact H5
  · rw [Dat.leavesExact_idle (dat0 V c) 3 t (idleAt0_3 t (fun h => h1 ((hcond0_1 t).mp h))) (noFlush0_3 t (fun h => h1 ((hcond0_1 t).mp h)))]
    rw [Dat.leavesExact_idle (dat0 V c) 4 t (idleAt0_4 t (fun h => h1 ((hcond0_1 t).mp h))) (noFlush0_4 t (fun h => h1 ((hcond0_1 t).mp h)))]
    rw [Dat.leavesExact_idle (dat0 V c) 5 t (idleAt0_5 t (fun h => h1 ((hcond0_1 t).mp h))) (noFlush0_5 t (fun h => h1 ((hcond0_1 t).mp h)))]
    by_cases h0 : t.val % 10 = 0
    · rw [outsAt0_A V c t h0 h1]
      unfold stepA0 sout0_A_0 sout0_A_1 sout0_A_2; (try dsimp only)
      refine (sep_mono_left (PhiS0_le V c _ _)).trans ?_
      rw [PhiA0_eq]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
      iapply ((run0_A c (grid0.coords t) (args0 t) ((hcond0_0 t).mpr h0) (fun h => h1 ((hcond0_1 t).mp h)) (iblk0 V c 0 t) (iblk0 V c 1 t) (iblk0 V c 2 t)).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hr Hg]
      · isplitl [HS0 HS1 HS2 Hr]
        · isplitl [HS0 HS1 HS2]
          · isplitl [HS0]; · iapply owns_of_cover _ (scover0_A_0 c _ _ _ _ _ _ _); iexact HS0
            isplitl [HS1]; · iapply owns_of_cover _ (scover0_A_1 c _ _ _ _ _ _ _); iexact HS1
            iapply owns_of_cover _ (scover0_A_2 c _ _ _ _ _ _ _); iexact HS2
          iexact Hr
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5
    · rw [outsAt0_B V c t h0 h1]
      unfold stepB0 sout0_B_0 sout0_B_1 sout0_B_2; (try dsimp only)
      rw [PhiS0_pos V c _ _ (by omega)]
      iintro ⟨⟨⟨⟨HS0, HS1, HS2⟩, Hr⟩, Hg⟩, Ho, ⟨%d0, H0⟩, ⟨%d1, H1⟩, ⟨%d2, H2⟩, ⟨%d3, H3⟩, ⟨%d4, H4⟩, ⟨%d5, H5⟩⟩
      iapply ((run0_B c (grid0.coords t) (args0 t) (fun h => h0 ((hcond0_0 t).mp h)) (fun h => h1 ((hcond0_1 t).mp h)) (iblk0 V c 0 t) (iblk0 V c 1 t) (iblk0 V c 2 t) _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, HS0, HS1, HS2⟩
      isplitl [HS0 HS1 HS2 Hr Hg]
      · isplitl [HS0 HS1 HS2 Hr]
        · isplitl [HS0 HS1 HS2]
          · isplitl [HS0]; · iapply owns_of_cover _ (scover0_B_0 c _ _ _ _ _ _ _ _ _ _); iexact HS0
            isplitl [HS1]; · iapply owns_of_cover _ (scover0_B_1 c _ _ _ _ _ _ _ _ _ _); iexact HS1
            iapply owns_of_cover _ (scover0_B_2 c _ _ _ _ _ _ _ _ _ _); iexact HS2
          iexact Hr
        iexact Hg
      isplitl [Ho]; · iexact Ho
      isplitl [H0]; · iexact H0
      isplitl [H1]; · iexact H1
      isplitl [H2]; · iexact H2
      isplitl [H3]; · iexists _; iexact H3
      isplitl [H4]; · iexists _; iexact H4
      iexists _; iexact H5

theorem body_obligation0 (c : Dev nD) : BodyObligation (dat0 (F := F) V c) (defs₀ (F := F)) Variants.none () Set.univ := fun t => by
  rw [bigSep_W0, bigSep_W0]
  exact sound_body0 V c t

theorem hin0 (c : Dev nD) : (Pipeline.ΦA spec0 c : sProp 𝕄) ⊢ (dat0 V c).Φ 0 := .rfl

theorem hout0 (c : Dev nD) : (dat0 V c).Φ (Fin.last cfg0.N) ⊢ (Pipeline.ΦA spec0 c : sProp 𝕄) := PhiS0_le V c (Fin.last cfg0.N).val _

end Cert.KernelIdeal.Hand

end
-- ==== Proof.KI.Runs1.lean ====
import proofs.«402100_j83614423319285_2_alg».proof.Proof.Gen.KernelIdeal.Launch
import proofs.«402100_j83614423319285_2_alg».proof.Proof.Gen.KernelIdeal.Skeleton
import proofs.«402100_j83614423319285_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

abbrev cond1_0 (i : grid1.Coords) : Prop :=
  (Scalar.cmpi .ne (Scalar.extui (Scalar.cmpi .eq (BitVec.ofNat 32 (i 1).val) 0#32)) 0#32) = 1#1

theorem hcond1_0 : ∀ t : Fin cfg1.N, cond1_0 (grid1.coords t) ↔ t.val % 10 = 0 :=
  (by decide +kernel : ∀ t : Fin grid1.N, cond1_0 (grid1.coords t) ↔ t.val % 10 = 0)

abbrev cond1_1 (i : grid1.Coords) : Prop := k1_cond2 i = 1#1

theorem hcond1_1 : ∀ t : Fin cfg1.N, cond1_1 (grid1.coords t) ↔ t.val % 10 = 9 :=
  (by decide +kernel : ∀ t : Fin grid1.N, cond1_1 (grid1.coords t) ↔ t.val % 10 = 9)

theorem liveAt1_0 : ∀ t : Fin cfg1.N, cfg1.idle 0 (grid1.coords t) = false := fun _ => rfl

theorem liveAt1_1 : ∀ t : Fin cfg1.N, cfg1.idle 1 (grid1.coords t) = false := fun _ => rfl

theorem liveAt1_2 : ∀ t : Fin cfg1.N, cfg1.idle 2 (grid1.coords t) = false := fun _ => rfl

theorem liveAt1_3 : ∀ t : Fin cfg1.N, cfg1.idle 3 (grid1.coords t) = false := fun _ => rfl

theorem idleAt1_4 : ∀ t : Fin cfg1.N, ¬cond1_1 (grid1.coords t) → cfg1.idle 4 (grid1.coords t) = true := by decide +kernel

theorem noFlush1_4 : ∀ t : Fin cfg1.N, ¬cond1_1 (grid1.coords t) → (cfg1.win 4).flush t = false := by decide +kernel

theorem liveAt1_4 : ∀ t : Fin cfg1.N, cond1_1 (grid1.coords t) → cfg1.idle 4 (grid1.coords t) = false := by decide +kernel

theorem idleAt1_5 : ∀ t : Fin cfg1.N, ¬cond1_1 (grid1.coords t) → cfg1.idle 5 (grid1.coords t) = true := by decide +kernel

theorem noFlush1_5 : ∀ t : Fin cfg1.N, ¬cond1_1 (grid1.coords t) → (cfg1.win 5).flush t = false := by decide +kernel

theorem liveAt1_5 : ∀ t : Fin cfg1.N, cond1_1 (grid1.coords t) → cfg1.idle 5 (grid1.coords t) = false := by decide +kernel

theorem idleAt1_6 : ∀ t : Fin cfg1.N, ¬cond1_1 (grid1.coords t) → cfg1.idle 6 (grid1.coords t) = true := by decide +kernel

theorem noFlush1_6 : ∀ t : Fin cfg1.N, ¬cond1_1 (grid1.coords t) → (cfg1.win 6).flush t = false := by decide +kernel

theorem liveAt1_6 : ∀ t : Fin cfg1.N, cond1_1 (grid1.coords t) → cfg1.idle 6 (grid1.coords t) = false := by decide +kernel

abbrev ms1_0 (t : Fin cfg1.N) : Memref sig .tc .vmem S512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S256x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x256 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x1 .i32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S512x1 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S512x1 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)

abbrev scM1_0 : Memref sig .tc .vmem S512x256 .bf16 := Memref.whole cc1_scratch0
abbrev scM1_1 : Memref sig .tc .vmem S512x1 .f32 := Memref.whole cc1_scratch1
abbrev scM1_2 : Memref sig .tc .vmem S512x1 .f32 := Memref.whole cc1_scratch2
abbrev scM1_3 : Memref sig .tc .vmem S512x1 .f32 := Memref.whole cc1_scratch3

abbrev VO1_4 : View sig .tc .vmem S512x1 .f32 := (Memref.whole cc1_stg4_0 : Memref sig .tc .vmem S512x1 .f32).view
abbrev VO1_5 : View sig .tc .vmem S512x1 .f32 := (Memref.whole cc1_stg5_0 : Memref sig .tc .vmem S512x1 .f32).view
abbrev VO1_6 : View sig .tc .vmem S512x1 .f32 := (Memref.whole cc1_stg6_0 : Memref sig .tc .vmem S512x1 .f32).view
abbrev VS1_0 : View sig .tc .vmem S512x256 .bf16 := scM1_0.view
abbrev VS1_1 : View sig .tc .vmem S512x1 .f32 := scM1_1.view
abbrev VS1_2 : View sig .tc .vmem S512x1 .f32 := scM1_2.view
abbrev VS1_3 : View sig .tc .vmem S512x1 .f32 := scM1_3.view

theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d)
            ∗ (∃ d, owns (c : Thread nD τ) scM1_2 fullShare d) ∗ (∃ d, owns (c : Thread nD τ) scM1_3 fullShare d))
          ∗ Pipeline.scopedRestBut (Ix := Unit) (Name := ℕ) (U := UR sig nD τ) (Lvl := ℕ) (Val := Elt F) spec1 c [cc1_scratch0, cc1_scratch1, cc1_scratch2, cc1_scratch3])
        ∗ (∃ r, prngReg c r)) := by
  unfold Pipeline.ΦA; rw [scopedRest1_split]; simp only [scM1_0, scM1_1, scM1_2, scM1_3, owns_whole]; try rfl

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t := by
  have hk : ∀ t, (cfg1.win 0).cut (cfg1.grid.coords t) (dat.after 0 t) = dat.blockOf 0 t := fun t => by
    rw [hafter]; unfold Dat.blockOf iblk1; rw [hA]; try rfl
  rw [dat.before_in_eq_fetched 0 rfl (fun _ => rfl) (fun _ _ _ => rfl) hk t d]
  unfold Dat.fetched Dat.blockOf iblk1; rw [hA]; try rfl

theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t := by
  have hk : ∀ t, (cfg1.win 1).cut (cfg1.grid.coords t) (dat.after 1 t) = dat.blockOf 1 t := fun t => by
    rw [hafter]; unfold Dat.blockOf iblk1; rw [hA]; try rfl
  rw [dat.before_in_eq_fetched 1 rfl (fun _ => rfl) (fun _ _ _ => rfl) hk t d]
  unfold Dat.fetched Dat.blockOf iblk1; rw [hA]; try rfl

theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t := by
  have hk : ∀ t, (cfg1.win 2).cut (cfg1.grid.coords t) (dat.after 2 t) = dat.blockOf 2 t := fun t => by
    rw [hafter]; unfold Dat.blockOf iblk1; rw [hA]; try rfl
  rw [dat.before_in_eq_fetched 2 rfl (fun _ => rfl) (fun _ _ _ => rfl) hk t d]
  unfold Dat.fetched Dat.blockOf iblk1; rw [hA]; try rfl

theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t := by
  have hk : ∀ t, (cfg1.win 3).cut (cfg1.grid.coords t) (dat.after 3 t) = dat.blockOf 3 t := fun t => by
    rw [hafter]; unfold Dat.blockOf iblk1; rw [hA]; try rfl
  rw [dat.before_in_eq_fetched 3 rfl (fun _ => rfl) (fun _ _ _ => rfl) hk t d]
  unfold Dat.fetched Dat.blockOf iblk1; rw [hA]; try rfl

structure Args1 where
  arg2 : Memref sig .tc .vmem S512x1024 .bf16
  harg2 : arg2.IsWhole
  arg3 : Memref sig .tc .vmem S256x1024 .bf16
  harg3 : arg3.IsWhole
  arg4 : Memref sig .tc .vmem S2048x256 .bf16
  harg4 : arg4.IsWhole
  arg5 : Memref sig .tc .vmem S512x1 .i32
  harg5 : arg5.IsWhole
  arg6 : Memref sig .tc .vmem S512x1 .f32
  harg6 : arg6.IsWhole
  arg7 : Memref sig .tc .vmem S512x1 .f32
  harg7 : arg7.IsWhole
  arg8 : Memref sig .tc .vmem S512x1 .f32
  harg8 : arg8.IsWhole
  arg9 : Memref sig .tc .vmem S512x256 .bf16
  harg9 : arg9.IsWhole
  arg10 : Memref sig .tc .vmem S512x1 .f32
  harg10 : arg10.IsWhole
  arg11 : Memref sig .tc .vmem S512x1 .f32
  harg11 : arg11.IsWhole
  arg12 : Memref sig .tc .vmem S512x1 .f32
  harg12 : arg12.IsWhole

abbrev args1 (t : Fin cfg1.N) : Args1 :=
  ⟨ms1_0 t, hs1_0 t, ms1_1 t, hs1_1 t, ms1_2 t, hs1_2 t, ms1_3 t, hs1_3 t, ms1_4 t, hs1_4 t, ms1_5 t, hs1_5 t, ms1_6 t, hs1_6 t, scM1_0, Memref.isWhole_whole _, scM1_1, Memref.isWhole_whole _, scM1_2, Memref.isWhole_whole _, scM1_3, Memref.isWhole_whole _⟩

end Cert.KernelIdeal.Hand

end
-- ==== Proof.KI.Run1A.lean ====
import proofs.«402100_j83614423319285_2_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun1_A (c : Dev nD) (i : grid1.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond1_0 i) (hc1 : ¬cond1_1 i)
    (x0 : Vec F S512x1024 .bf16) (x1 : Vec F S256x1024 .bf16) (x2 : Vec F S2048x256 .bf16) (x3 : Vec F S512x1 .i32) :
    Σ' (LS0 : List (View.Piece (Elt F) S512x256 .bf16)) (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (xi6 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ (∃ d, owns (c : Thread nD τ) arg9 fullShare d)
            ∗ (∃ d, owns (c : Thread nD τ) arg10 fullShare d)
            ∗ (∃ d, owns (c : Thread nD τ) arg11 fullShare d)
            ∗ (∃ d, owns (c : Thread nD τ) arg12 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    sl_unfold [cc1_kernel]
    unfold owns
    iintro ⟨⟨%f2, %hf2, H0⟩, ⟨%f3, %hf3, H1⟩, ⟨%f4, %hf4, H2⟩, ⟨%f5, %hf5, H3⟩, ⟨%f6, %hf6, H4⟩, ⟨%f7, %hf7, H5⟩, ⟨%f8, %hf8, H6⟩, ⟨%d9, %f9, -, HS0⟩, ⟨%d10, %f10, -, HS1⟩, ⟨%d11, %f11, -, HS2⟩, ⟨%d12, %f12, -, HS3⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexists _; iexact HS1
    isplitl [HS2]; · iexists _; iexact HS2
    iexists _; iexact HS3

noncomputable def run1_A (c : Dev nD) (i : grid1.Coords) (a : Args1) (hc0 : cond1_0 i) (hc1 : ¬cond1_1 i) (x0 : Vec F S512x1024 .bf16) (x1 : Vec F S256x1024 .bf16) (x2 : Vec F S2048x256 .bf16) (x3 : Vec F S512x1 .i32) :=
  kernelRun1_A c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3

end Cert.KernelIdeal.Hand

end
-- ==== Proof.KI.Run1B.lean ====
import proofs.«402100_j83614423319285_2_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun1_B (c : Dev nD) (i : grid1.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond1_0 i) (hc1 : ¬cond1_1 i)
    (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32) :
    Σ' (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (xi6 : Vec F S512x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare xi4
            ∗ owns (c : Thread nD τ) arg7 fullShare xi5
            ∗ owns (c : Thread nD τ) arg8 fullShare xi6
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare xi4
                ∗ owns (c : Thread nD τ) arg7 fullShare xi5
                ∗ owns (c : Thread nD τ) arg8 fullShare xi6
                ∗ owns (c : Thread nD τ) arg9 fullShare xs0
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    sl_unfold [cc1_kernel]
    unfold owns
    iintro ⟨⟨%f2, %hf2, H0⟩, ⟨%f3, %hf3, H1⟩, ⟨%f4, %hf4, H2⟩, ⟨%f5, %hf5, H3⟩, ⟨%f6, %hf6, H4⟩, ⟨%f7, %hf7, H5⟩, ⟨%f8, %hf8, H6⟩, ⟨%f9, %hf9, HS0⟩, ⟨%f10, %hf10, HS1⟩, ⟨%f11, %hf11, HS2⟩, ⟨%f12, %hf12, HS3⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexists _; iexact HS1
    isplitl [HS2]; · iexists _; iexact HS2
    iexists _; iexact HS3

noncomputable def run1_B (c : Dev nD) (i : grid1.Coords) (a : Args1) (hc0 : ¬cond1_0 i) (hc1 : ¬cond1_1 i) (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32) :=
  kernelRun1_B c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3 xs0 xs1 xs2 xs3

end Cert.KernelIdeal.Hand

end
-- ==== Proof.KI.Run1C.lean ====
import proofs.«402100_j83614423319285_2_alg».proof.Proof.KI.Runs1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun1_C (c : Dev nD) (i : grid1.Coords) (arg2 : Memref sig .tc .vmem S512x1024 .bf16) (harg2 : arg2.IsWhole) (arg3 : Memref sig .tc .vmem S256x1024 .bf16) (harg3 : arg3.IsWhole) (arg4 : Memref sig .tc .vmem S2048x256 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x256 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond1_0 i) (hc1 : cond1_1 i)
    (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32) :
    Σ' (L4 : List (View.Piece (Elt F) S512x1 .f32)) (L5 : List (View.Piece (Elt F) S512x1 .f32)) (L6 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (∃ d, owns (c : Thread nD τ) arg7 fullShare d)
            ∗ (∃ d, owns (c : Thread nD τ) arg8 fullShare d)
            ∗ owns (c : Thread nD τ) arg9 fullShare xs0
            ∗ owns (c : Thread nD τ) arg10 fullShare xs1
            ∗ owns (c : Thread nD τ) arg11 fullShare xs2
            ∗ owns (c : Thread nD τ) arg12 fullShare xs3
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L4)
                ∗ (∃ f, arg7.view.loc (c : Thread nD τ) ↦[arg7.view.set]{fullShare} arg7.view.writes (Elt F) f L5)
                ∗ (∃ f, arg8.view.loc (c : Thread nD τ) ↦[arg8.view.set]{fullShare} arg8.view.writes (Elt F) f L6)
                ∗ owns (c : Thread nD τ) arg9 fullShare xs0
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)
                ∗ (∃ f, arg12.view.loc (c : Thread nD τ) ↦[arg12.view.set]{fullShare} arg12.view.writes (Elt F) f LS3)) -∗ K ⟨⟩))
          ⊢ wp frame (wpE (defs₀ (F := F)) Variants.none c none) E (cc1_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    sl_unfold [cc1_kernel]
    unfold owns
    iintro ⟨⟨%f2, %hf2, H0⟩, ⟨%f3, %hf3, H1⟩, ⟨%f4, %hf4, H2⟩, ⟨%f5, %hf5, H3⟩, ⟨%d6, %f6, -, H4⟩, ⟨%d7, %f7, -, H5⟩, ⟨%d8, %f8, -, H6⟩, ⟨%f9, %hf9, HS0⟩, ⟨%f10, %hf10, HS1⟩, ⟨%f11, %hf11, HS2⟩, ⟨%f12, %hf12, HS3⟩, Hk⟩
    obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]; · iexists _; iexact H4
    isplitl [H5]; · iexists _; iexact H5
    isplitl [H6]; · iexists _; iexact H6
    isplitl [HS0]
    · iexists _; isplitr; · ipureintro; exact harg9.read_unread _
      iexact HS0
    isplitl [HS1]; · iexists _; iexact HS1
    isplitl [HS2]; · iexists _; iexact HS2
    iexists _; iexact HS3

noncomputable def run1_C (c : Dev nD) (i : grid1.Coords) (a : Args1) (hc0 : ¬cond1_0 i) (hc1 : cond1_1 i) (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32) :=
  kernelRun1_C c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3 xs0 xs1 xs2 xs3

end Cert.KernelIdeal.Hand

end
-- ==== Proof.KI.Body1.lean ====
import proofs.«402100_j83614423319285_2_alg».proof.Proof.KI.Run1A
import proofs.«402100_j83614423319285_2_alg».proof.Proof.KI.Run1B
import proofs.«402100_j83614423319285_2_alg».proof.Proof.KI.Run1C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section Cases

variable (c : Dev nD) (i : grid1.Coords) (a : Args1)
  (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32)

theorem scover1_A_0 (hc0 : cond1_0 i) (hc1 : ¬cond1_1 i) (y : S512x256.Idx) :
    ∃ pc ∈ (run1_A c i a hc0 hc1 x0 x1 x2 x3).1, y ∈ pc.1.set :=
  View.cover_of_tiledL (run1_A c i a hc0 hc1 x0 x1 x2 x3).1 S512x256.size (by sl_kernel_rfl) y

def sout1_A_0 (hc0 : cond1_0 i) (hc1 : ¬cond1_1 i) : Vec F S512x256 .bf16 :=
  VS1_0.read (Elt F) (VS1_0.writes (Elt F) VS1_0.junk (run1_A c i a hc0 hc1 x0 x1 x2 x3).1)

theorem scover1_A_1 (hc0 : cond1_0 i) (hc1 : ¬cond1_1 i) (y : S512x1.Idx) :
    ∃ pc ∈ (run1_A c i a hc0 hc1 x0 x1 x2 x3).2.1, y ∈ pc.1.set :=
  View.cover_of_tiledL (run1_A c i a hc0 hc1 x0 x1 x2 x3).2.1 S512x1.size (by sl_kernel_rfl) y

def sout1_A_1 (hc0 : cond1_0 i) (hc1 : ¬cond1_1 i) : Vec F S512x1 .f32 :=
  VS1_1.read (Elt F) (VS1_1.writes (Elt F) VS1_1.junk (run1_A c i a hc0 hc1 x0 x1 x2 x3).2.1)

theorem scover1_A_2 (hc0 : cond1_0 i) (hc1 : ¬cond1_1 i) (y : S512x1.Idx) :
    ∃ pc ∈ (run1_A c i a hc0 hc1 x0 x1 x2 x3).2.2.1, y ∈ pc.1.set :=
  View.cover_of_tiledL (run1_A c i a hc0 hc1 x0 x1 x2 x3).2.2.1 S512x1.size (by sl_kernel_rfl) y

def sout1_A_2 (hc0 : cond1_0 i) (hc1 : ¬cond1_1 i) : Vec F S512x1 .f32 :=
  VS1_2.read (Elt F) (VS1_2.writes (Elt F) VS1_2.junk (run1_A c i a hc0 hc1 x0 x1 x2 x3).2.2.1)

theorem scover1_A_3 (hc0 : cond1_0 i) (hc1 : ¬cond1_1 i) (y : S512x1.Idx) :
    ∃ pc ∈ (run1_A c i a hc0 hc1 x0 x1 x2 x3).2.2.2.1, y ∈ pc.1.set :=
  View.cover_of_tiledL (run1_A c i a hc0 hc1 x0 x1 x2 x3).2.2.2.1 S512x1.size (by sl_kernel_rfl) y

def sout1_A_3 (hc0 : cond1_0 i) (hc1 : ¬cond1_1 i) : Vec F S512x1 .f32 :=
  VS1_3.read (Elt F) (VS1_3.writes (Elt F) VS1_3.junk (run1_A c i a hc0 hc1 x0 x1 x2 x3).2.2.2.1)

theorem scover1_B_1 (hc0 : ¬cond1_0 i) (hc1 : ¬cond1_1 i) (y : S512x1.Idx) :
    ∃ pc ∈ (run1_B c i a hc0 hc1 x0 x1 x2 x3 xs0 xs1 xs2 xs3).1, y ∈ pc.1.set :=
  View.cover_of_tiledL (run1_B c i a hc0 hc1 x0 x1 x2 x3 xs0 xs1 xs2 xs3).1 S512x1.size (by sl_kernel_rfl) y

def sout1_B_1 (hc0 : ¬cond1_0 i) (hc1 : ¬cond1_1 i) : Vec F S512x1 .f32 :=
  VS1_1.read (Elt F) (VS1_1.writes (Elt F) VS1_1.junk (run1_B c i a hc0 hc1 x0 x1 x2 x3 xs0 xs1 xs2 xs3).1)

theorem scover1_B_2 (hc0 : ¬cond1_0 i) (hc1 : ¬cond1_1 i) (y : S512x1.Idx) :
    ∃ pc ∈ (run1_B c i a hc0 hc1 x0 x1 x2 x3 xs0 xs1 xs2 xs3).2.1, y ∈ pc.1.set :=
  View.cover_of_tiledL (run1_B c i a hc0 hc1 x0 x1 x2 x3 xs0 xs1 xs2 xs3).2.1 S512x1.size (by sl_kernel_rfl) y

def sout1_B_2 (hc0 : ¬cond1_0 i) (hc1 : ¬cond1_1 i) : Vec F S512x1 .f32 :=
  VS1_2.read (Elt F) (VS1_2.writes (Elt F) VS1_2.junk (run1_B c i a hc0 hc1 x0 x1 x2 x3 xs0 xs1 xs2 xs3).2.1)

theorem scover1_B_3 (hc0 : ¬cond1_0 i) (hc1 : ¬cond1_1 i) (y : S512x1.Idx) :
    ∃ pc ∈ (run1_B c i a hc0 hc1 x0 x1 x2 x3 xs0 xs1 xs2 xs3).2.2.1, y ∈ pc.1.set :=
  View.cover_of_tiledL (run1_B c i a hc0 hc1 x0 x1 x2 x3 xs0 xs1 xs2 xs3).2.2.1 S512x1.size (by sl_kernel_rfl) y

def sout1_B_3 (hc0 : ¬cond1_0 i) (hc1 : ¬cond1_1 i) : Vec F S512x1 .f32 :=
  VS1_3.read (Elt F) (VS1_3.writes (Elt F) VS1_3.junk (run1_B c i a hc0 hc1 x0 x1 x2 x3 xs0 xs1 xs2 xs3).2.2.1)

theorem scover1_C_1 (hc0 : ¬cond1_0 i) (hc1 : cond1_1 i) (y : S512x1.Idx) :
    ∃ pc ∈ (run1_C c i a hc0 hc1 x0 x1 x2 x3 xs0 xs1 xs2 xs3).2.2.2.1, y ∈ pc.1.set :=
  View.cover_of_tiledL (run1_C c i a hc0 hc1 x0 x1 x2 x3 xs0 xs1 xs2 xs3).2.2.2.1 S512x1.size (by sl_kernel_rfl) y

def sout1_C_1 (hc0 : ¬cond1_0 i) (hc1 : cond1_1 i) : Vec F S512x1 .f32 :=
  VS1_1.read (Elt F) (VS1_1.writes (Elt F) VS1_1.junk (run1_C c i a hc0 hc1 x0 x1 x2 x3 xs0 xs1 xs2 xs3).2.2.2.1)

theorem scover1_C_2 (hc0 : ¬cond1_0 i) (hc1 : cond1_1 i) (y : S512x1.Idx) :
    ∃ pc ∈ (run1_C c i a hc0 hc1 x0 x1 x2 x3 xs0 xs1 xs2 xs3).2.2.2.2.1, y ∈ pc.1.set :=
  View.cover_of_tiledL (run1_C c i a hc0 hc1 x0 x1 x2 x3 xs0 xs1 xs2 xs3).2.2.2.2.1 S512x1.size (by sl_kernel_rfl) y

def sout1_C_2 (hc0 : ¬cond1_0 i) (hc1 : cond1_1 i) : Vec F S512x1 .f32 :=
  VS1_2.read (Elt F) (VS1_2.writes (Elt F) VS1_2.junk (run1_C c i a hc0 hc1 x0 x1 x2 x3 xs0 xs1 xs2 xs3).2.2.2.2.1)

theorem scover1_C_3 (hc0 : ¬cond1_0 i) (hc1 : cond1_1 i) (y : S512x1.Idx) :
    ∃ pc ∈ (run1_C c i a hc0 hc1 x0 x1 x2 x3 xs0 xs1 xs2 xs3).2.2.2.2.2.1, y ∈ pc.1.set :=
  View.cover_of_tiledL (run1_C c i a hc0 hc1 x0 x1 x2 x3 xs0 xs1 xs2 xs3).2.2.2.2.2.1 S512x1.size (by sl_kernel_rfl) y

def sout1_C_3 (hc0 : ¬cond1_0 i) (hc1 : cond1_1 i) : Vec F S512x1 .f32 :=
  VS1_3.read (Elt F) (VS1_3.writes (Elt F) VS1_3.junk (run1_C c i a hc0 hc1 x0 x1 x2 x3 xs0 xs1 xs2 xs3).2.2.2.2.2.1)

theorem cover1_C_4 (hc0 : ¬cond1_0 i) (hc1 : cond1_1 i) (y : S512x1.Idx) :
    ∃ pc ∈ (run1_C c i a hc0 hc1 x0 x1 x2 x3 xs0 xs1 xs2 xs3).1, y ∈ pc.1.set :=
  View.cover_of_tiledL (run1_C c i a hc0 hc1 x0 x1 x2 x3 xs0 xs1 xs2 xs3).1 S512x1.size (by sl_kernel_rfl) y

def out1_C_4 (hc0 : ¬cond1_0 i) (hc1 : cond1_1 i) : Vec F S512x1 .f32 :=
  VO1_4.read (Elt F) (VO1_4.writes (Elt F) VO1_4.junk (run1_C c i a hc0 hc1 x0 x1 x2 x3 xs0 xs1 xs2 xs3).1)

theorem cover1_C_5 (hc0 : ¬cond1_0 i) (hc1 : cond1_1 i) (y : S512x1.Idx) :
    ∃ pc ∈ (run1_C c i a hc0 hc1 x0 x1 x2 x3 xs0 xs1 xs2 xs3).2.1, y ∈ pc.1.set :=
  View.cover_of_tiledL (run1_C c i a hc0 hc1 x0 x1 x2 x3 xs0 xs1 xs2 xs3).2.1 S512x1.size (by sl_kernel_rfl) y

def out1_C_5 (hc0 : ¬cond1_0 i) (hc1 : cond1_1 i) : Vec F S512x1 .f32 :=
  VO1_5.read (Elt F) (VO1_5.writes (Elt F) VO1_5.junk (run1_C c i a hc0 hc1 x0 x1 x2 x3 xs0 xs1 xs2 xs3).2.1)

theorem cover1_C_6 (hc0 : ¬cond1_0 i) (hc1 : cond1_1 i) (y : S512x1.Idx) :
    ∃ pc ∈ (run1_C c i a hc0 hc1 x0 x1 x2 x3 xs0 xs1 xs2 xs3).2.2.1, y ∈ pc.1.set :=
  View.cover_of_tiledL (run1_C c i a hc0 hc1 x0 x1 x2 x3 xs0 xs1 xs2 xs3).2.2.1 S512x1.size (by sl_kernel_rfl) y

def out1_C_6 (hc0 : ¬cond1_0 i) (hc1 : cond1_1 i) : Vec F S512x1 .f32 :=
  VO1_6.read (Elt F) (VO1_6.writes (Elt F) VO1_6.junk (run1_C c i a hc0 hc1 x0 x1 x2 x3 xs0 xs1 xs2 xs3).2.2.1)

end Cases

abbrev Outs1 (F : FTy → Type) : Type :=
  Vec F S512x1 .f32 × Vec F S512x1 .f32 × Vec F S512x1 .f32 × Vec F S512x256 .bf16 × Vec F S512x1 .f32 × Vec F S512x1 .f32 × Vec F S512x1 .f32

def ptA1 (c : Dev nD) (t : Fin cfg1.N) (hc0 : cond1_0 (grid1.coords t)) (hc1 : ¬cond1_1 (grid1.coords t)) : Outs1 F :=
  (sout1_A_1 c (grid1.coords t) (args1 t) (iblk1 V c 0 t) (iblk1 V c 1 t) (iblk1 V c 2 t) (iblk1 V c 3 t) hc0 hc1,
   sout1_A_2 c (grid1.coords t) (args1 t) (iblk1 V c 0 t) (iblk1 V c 1 t) (iblk1 V c 2 t) (iblk1 V c 3 t) hc0 hc1,
   sout1_A_3 c (grid1.coords t) (args1 t) (iblk1 V c 0 t) (iblk1 V c 1 t) (iblk1 V c 2 t) (iblk1 V c 3 t) hc0 hc1,
   sout1_A_0 c (grid1.coords t) (args1 t) (iblk1 V c 0 t) (iblk1 V c 1 t) (iblk1 V c 2 t) (iblk1 V c 3 t) hc0 hc1,
   sout1_A_1 c (grid1.coords t) (args1 t) (iblk1 V c 0 t) (iblk1 V c 1 t) (iblk1 V c 2 t) (iblk1 V c 3 t) hc0 hc1,
   sout1_A_2 c (grid1.coords t) (args1 t) (iblk1 V c 0 t) (iblk1 V c 1 t) (iblk1 V c 2 t) (iblk1 V c 3 t) hc0 hc1,
   sout1_A_3 c (grid1.coords t) (args1 t) (iblk1 V c 0 t) (iblk1 V c 1 t) (iblk1 V c 2 t) (iblk1 V c 3 t) hc0 hc1)

def ptB1 (c : Dev nD) (t : Fin cfg1.N) (hc0 : ¬cond1_0 (grid1.coords t)) (hc1 : ¬cond1_1 (grid1.coords t)) (p : Outs1 F) : Outs1 F :=
  (sout1_B_1 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_B_2 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_B_3 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   p.2.2.2.1,
   sout1_B_1 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_B_2 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_B_3 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1)

def ptC1 (c : Dev nD) (t : Fin cfg1.N) (hc0 : ¬cond1_0 (grid1.coords t)) (hc1 : cond1_1 (grid1.coords t)) (p : Outs1 F) : Outs1 F :=
  (out1_C_4 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   out1_C_5 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   out1_C_6 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   p.2.2.2.1,
   sout1_C_1 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_C_2 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1,
   sout1_C_3 c (grid1.coords t) (args1 t) (iblk1 V c 0 t) (iblk1 V c 1 t) (iblk1 V c 2 t) (iblk1 V c 3 t) p.2.2.2.1 p.2.2.2.2.1 p.2.2.2.2.2.1 p.2.2.2.2.2.2 hc0 hc1)

def outsAt1 (c : Dev nD) : (n : ℕ) → n < cfg1.N → Outs1 F
  | 0, hn => ptA1 V c ⟨0, hn⟩ ((hcond1_0 ⟨0, hn⟩).mpr (Nat.zero_mod _))
      (fun h => by have h9 := (hcond1_1 ⟨0, hn⟩).mp h; dsimp only at h9; omega)
  | n + 1, hn =>
    if h0 : (n + 1) % 10 = 0 then
      ptA1 V c ⟨n + 1, hn⟩ ((hcond1_0 ⟨n + 1, hn⟩).mpr h0)
        (fun h => by have h9 := (hcond1_1 ⟨n + 1, hn⟩).mp h; dsimp only at h9; omega)
    else if h1 : (n + 1) % 10 = 9 then
      ptC1 V c ⟨n + 1, hn⟩ (fun h => h0 ((hcond1_0 ⟨n + 1, hn⟩).mp h)) ((hcond1_1 ⟨n + 1, hn⟩).mpr h1)
        (outsAt1 c n (Nat.lt_of_succ_lt hn))
    else
      ptB1 V c ⟨n + 1, hn⟩ (fun h => h0 ((hcond1_0 ⟨n + 1, hn⟩).mp h)) (fun h => h1 ((hcond1_1 ⟨n + 1, hn⟩).mp h))
        (outsAt1 c n (Nat.lt_of_succ_lt hn))

theorem outsAt1_A (c : Dev nD) (t : Fin cfg1.N) (h0 : t.val % 10 = 0)
    (hc0 : cond1_0 (grid1.coords t)) (hc1 : ¬cond1_1 (grid1.coords t)) :
    outsAt1 V c t.val t.isLt = ptA1 V c t hc0 hc1 := by
  obtain ⟨n, hn⟩ := t
  cases n with
  | zero => rfl
  | succ n => exact (dif_pos h0).trans rfl

theorem outsAt1_B (c : Dev nD) (t : Fin cfg1.N) (h0 : ¬t.val % 10 = 0) (h1 : ¬t.val % 10 = 9)
    (hc0 : ¬cond1_0 (grid1.coords t)) (hc1 : ¬cond1_1 (grid1.coords t)) :
    outsAt1 V c t.val t.isLt = ptB1 V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt1_C (c : Dev nD) (t : Fin cfg1.N) (h0 : ¬t.val % 10 = 0) (h1 : t.val % 10 = 9)
    (hc0 : ¬cond1_0 (grid1.coords t)) (hc1 : cond1_1 (grid1.coords t)) :
    outsAt1 V c t.val t.isLt = ptC1 V c t hc0 hc1 (outsAt1 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def PhiB1 (c : Dev nD) (o : Outs1 F) : sProp 𝕄 :=
  iprop(iprop(iprop(owns (c : Thread nD τ) scM1_0 fullShare o.2.2.2.1 ∗ owns (c : Thread nD τ) scM1_1 fullShare o.2.2.2.2.1
          ∗ owns (c : Thread nD τ) scM1_2 fullShare o.2.2.2.2.2.1 ∗ owns (c : Thread nD τ) scM1_3 fullShare o.2.2.2.2.2.2)
        ∗ Pipeline.scopedRestBut (Ix := Unit) (Name := ℕ) (U := UR sig nD τ) (Lvl := ℕ) (Val := Elt F) spec1 c [cc1_scratch0, cc1_scratch1, cc1_scratch2, cc1_scratch3])
      ∗ (∃ r, prngReg c r))

def PhiS1 (c : Dev nD) : (n : ℕ) → n ≤ cfg1.N → sProp 𝕄
  | 0, _ => Pipeline.ΦA spec1 c
  | n + 1, hn => PhiB1 c (outsAt1 V c n hn)

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) : PhiS1 V c (n + 1) hn = PhiB1 c (outsAt1 V c n hn) := rfl

theorem PhiS1_pos (c : Dev nD) (n : ℕ) (h : n ≤ cfg1.N) (hz : n ≠ 0) :
    PhiS1 V c n h = PhiB1 c (outsAt1 V c (n - 1) (by omega)) := by
  cases n with
  | zero => exact absurd rfl hz
  | succ n => rfl

theorem PhiS1_A (c : Dev nD) : (n : ℕ) → (h : n ≤ cfg1.N) → PhiS1 V c n h ⊢ (Pipeline.ΦA spec1 c : sProp 𝕄)
  | 0, _ => .rfl
  | n + 1, hn => by
    rw [PhiS1_succ, PhiA1_eq]; unfold PhiB1
    iintro ⟨⟨⟨HS0, HS1, HS2, HS3⟩, Hr⟩, Hg⟩
    isplitl [HS0 HS1 HS2 HS3 Hr]
    · isplitl [HS0 HS1 HS2 HS3]
      · isplitl [HS0]; · iexists _; iexact HS0
        isplitl [HS1]; · iexists _; iexact HS1
        isplitl [HS2]; · iexists _; iexact HS2
        iexists _; iexact HS3
      iexact Hr
    iexact Hg

/-- Writes whose pieces cover the whole shape determine the contents read back. -/
private theorem owns_of_cover {c : Thread nD τ} {cs : Space} {s : Shape} {e : EltTy} {κ' : Kind} {sp' : Space} (v' : View sig κ' sp' s e)
    {M : Memref sig c.2.kind cs s e} {g : Buf (Elt F) (M.view.loc c)} {q : PosShare TreeShare} {L : List (View.Piece (Elt F) s e)}
    (h : ∀ y, ∃ pc ∈ L, y ∈ pc.1.set) :
    (M.view.loc c ↦[M.view.set]{q} M.view.writes (Elt F) g L : sProp 𝕄) ⊢ owns c M q (v'.read (Elt F) (v'.writes (Elt F) v'.junk L)) := by
  iintro H; unfold owns; iexists M.view.writes (Elt F) g L; isplitr
  · ipureintro; exact View.read_writes_of_cover _ _ _ _ _ h
  · iexact H

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => (outsAt1 V c t.val t.isLt).1
    | ⟨5, _⟩ => (outsAt1 V c t.val t.isLt).2.1
    | ⟨6, _⟩ => (outsAt1 V c t.val t.isLt).2.2.1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem q_eq1 (c : Dev nD) (w : Fin cfg1.W) : (dat1 V c).q w = fullShare := rfl

theorem owed_eq1 (c : Dev nD) (t : Fin (cfg1.N + 1)) : (dat1 V c).owed t = 0 := rfl

theorem recorded_eq1 (c : Dev nD) (t : Fin (cfg1.N + 1)) : (dat1 V c).recorded t = Set.univ := rfl

theorem PhiS1_castSucc (c : Dev nD) (t : Fin cfg1.N) :
    (dat1 V c).Φ t.castSucc = PhiS1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = (outsAt1 V c t.val t.isLt).1 := by dsimp only [dat1]
theorem after1_5 (c : Dev nD) (t : Fin cfg1.N) : (dat1 V c).after 5 t = (outsAt1 V c t.val t.isLt).2.1 := by dsimp only [dat1]
theorem after1_6 (c : Dev nD) (t : Fin cfg1.N) : (dat1 V c).after 6 t = (outsAt1 V c t.val t.isLt).2.2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t)

set_option maxHeartbeats 8000000 in

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).owesAt () t.succ = (dat1 V c).owesAt () t.castSucc from rfl]
  rw [show (dat1 V c).Φ t.succ = PhiS1 V c (t.val + 1) t.isLt from rfl, PhiS1_succ, PhiS1_castSucc V c t]; unfold PhiB1
  have hN : t.val < 80 := lt_of_lt_of_eq t.isLt (show cfg1.N = 80 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  by_cases h0 : t.val % 10 = 0
  · have hc0 : cond1_0 (grid1.coords t) := (hcond1_0 t).mpr h0
    have hc1 : ¬cond1_1 (grid1.coords t) := fun h => by have h9 := (hcond1_1 t).mp h; omega
    rw [Dat.leavesExact_idle (dat1 V c) 4 t (idleAt1_4 t hc1) (noFlush1_4 t hc1)]
    rw [Dat.leavesExact_idle (dat1 V c) 5 t (idleAt1_5 t hc1) (noFlush1_5 t hc1)]
    rw [Dat.leavesExact_idle (dat1 V c) 6 t (idleAt1_6 t hc1) (noFlush1_6 t hc1)]
    rw [outsAt1_A V c t h0 hc0 hc1]
    unfold ptA1 sout1_A_0 sout1_A_1 sout1_A_2 sout1_A_3; dsimp only
    refine (sep_mono_left (PhiS1_A V c _ _)).trans ?_
    rw [PhiA1_eq]
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((run1_A c (grid1.coords t) (args1 t) hc0 hc1 (iblk1 V c 0 t) (iblk1 V c 1 t) (iblk1 V c 2 t) (iblk1 V c 3 t)).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨H0, H1, H2, H3, H4, H5, H6, ⟨%es0, HS0⟩, ⟨%es1, HS1⟩, ⟨%es2, HS2⟩, ⟨%es3, HS3⟩⟩
    isplitl [HS0 HS1 HS2 HS3 Hr Hg]
    · isplitl [HS0 HS1 HS2 HS3 Hr]
      · isplitl [HS0 HS1 HS2 HS3]
        · isplitl [HS0]; · iapply (owns_of_cover _ (scover1_A_0 c _ _ _ _ _ _ hc0 hc1)) $$ HS0
          isplitl [HS1]; · iapply (owns_of_cover _ (scover1_A_1 c _ _ _ _ _ _ hc0 hc1)) $$ HS1
          isplitl [HS2]; · iapply (owns_of_cover _ (scover1_A_2 c _ _ _ _ _ _ hc0 hc1)) $$ HS2
          iapply (owns_of_cover _ (scover1_A_3 c _ _ _ _ _ _ hc0 hc1)) $$ HS3
        iexact Hr
      iexact Hg
    isplitl [Ho]; · iexact Ho
    isplitl [H0]; · iexact H0
    isplitl [H1]; · iexact H1
    isplitl [H2]; · iexact H2
    isplitl [H3]; · iexact H3
    isplitl [H4]; · iexists _; iexact H4
    isplitl [H5]; · iexists _; iexact H5
    iexists _; iexact H6
  · have hc0 : ¬cond1_0 (grid1.coords t) := fun h => h0 ((hcond1_0 t).mp h)
    have hz : t.val ≠ 0 := by omega
    by_cases h1 : t.val % 10 = 9
    · have hc1 : cond1_1 (grid1.coords t) := (hcond1_1 t).mpr h1
      rw [show (dat1 V c).leavesExact 4 t = owns (c : Thread nD τ) (ms1_4 t) fullShare ((dat1 V c).after 4 t) from by
        unfold Dat.leavesExact; rw [liveAt1_4 t hc1], after1_4]
      rw [show (dat1 V c).leavesExact 5 t = owns (c : Thread nD τ) (ms1_5 t) fullShare ((dat1 V c).after 5 t) from by
        unfold Dat.leavesExact; rw [liveAt1_5 t hc1], after1_5]
      rw [show (dat1 V c).leavesExact 6 t = owns (c : Thread nD τ) (ms1_6 t) fullShare ((dat1 V c).after 6 t) from by
        unfold Dat.leavesExact; rw [liveAt1_6 t hc1], after1_6]
      rw [outsAt1_C V c t h0 h1 hc0 hc1]
      unfold ptC1 out1_C_4 out1_C_5 out1_C_6 sout1_C_1 sout1_C_2 sout1_C_3; dsimp only
      rw [PhiS1_pos V c _ _ hz]; unfold PhiB1
      iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((run1_C c (grid1.coords t) (args1 t) hc0 hc1 (iblk1 V c 0 t) (iblk1 V c 1 t) (iblk1 V c 2 t) (iblk1 V c 3 t) _ _ _ _).2.2.2.2.2.2 Set.univ _)
      isplitl [H0]; · iexact H0
      isplitl [H1]; · iexact H1
      isplitl [H2]; · iexact H2
      isplitl [H3]; · iexact H3
      isplitl [H4]; · iexists _; iexact H4
      isplitl [H5]; · iexists _; iexact H5
      isplitl [H6]; · iexists _; iexact H6
      isplitl [HS0]; · iexact HS0
      isplitl [HS1]; · iexact HS1
      isplitl [HS2]; · iexact HS2
      isplitl [HS3]; · iexact HS3
      iintro ⟨H0, H1, H2, H3, ⟨%e4, H4⟩, ⟨%e5, H5⟩, ⟨%e6, H6⟩, HS0, ⟨%es1, HS1⟩, ⟨%es2, HS2⟩, ⟨%es3, HS3⟩⟩
      isplitl [HS0 HS1 HS2 HS3 Hr Hg]
      · isplitl [HS0 HS1 HS2 HS3 Hr]
        · isplitl [HS0 HS1 HS2 HS3]
          · isplitl [HS0]; · iexact HS0
            isplitl [HS1]; · iapply (owns_of_cover _ (scover1_C_1 c _ _ _ _ _ _ _ _ _ _ hc0 hc1)) $$ HS1
            isplitl [HS2]; · iapply (owns_of_cover _ (scover1_C_2 c _ _ _ _ _ _ _ _ _ _ hc0 hc1)) $$ HS2
            iapply (owns_of_cover _ (scover1_C_3 c _ _ _ _ _ _ _ _ _ _ hc0 hc1)) $$ HS3
          iexact Hr
        iexact Hg
      isplitl [Ho]; · iexact Ho
      isplitl [H0]; · iexact H0
      isplitl [H1]; · iexact H1
      isplitl [H2]; · iexact H2
      isplitl [H3]; · iexact H3
      isplitl [H4]; · iapply (owns_of_cover _ (cover1_C_4 c _ _ _ _ _ _ _ _ _ _ hc0 hc1)) $$ H4
      isplitl [H5]; · iapply (owns_of_cover _ (cover1_C_5 c _ _ _ _ _ _ _ _ _ _ hc0 hc1)) $$ H5
      iapply (owns_of_cover _ (cover1_C_6 c _ _ _ _ _ _ _ _ _ _ hc0 hc1)) $$ H6
    · have hc1 : ¬cond1_1 (grid1.coords t) := fun h => h1 ((hcond1_1 t).mp h)
      rw [Dat.leavesExact_idle (dat1 V c) 4 t (idleAt1_4 t hc1) (noFlush1_4 t hc1)]
      rw [Dat.leavesExact_idle (dat1 V c) 5 t (idleAt1_5 t hc1) (noFlush1_5 t hc1)]
      rw [Dat.leavesExact_idle (dat1 V c) 6 t (idleAt1_6 t hc1) (noFlush1_6 t hc1)]
      rw [outsAt1_B V c t h0 h1 hc0 hc1]
      unfold ptB1 sout1_B_1 sout1_B_2 sout1_B_3; dsimp only
      rw [PhiS1_pos V c _ _ hz]; unfold PhiB1
      iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
      iapply ((run1_B c (grid1.coords t) (args1 t) hc0 hc1 (iblk1 V c 0 t) (iblk1 V c 1 t) (iblk1 V c 2 t) (iblk1 V c 3 t) _ _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      isplitl [HS3]; · iexact HS3
      iintro ⟨H0, H1, H2, H3, H4, H5, H6, HS0, ⟨%es1, HS1⟩, ⟨%es2, HS2⟩, ⟨%es3, HS3⟩⟩
      isplitl [HS0 HS1 HS2 HS3 Hr Hg]
      · isplitl [HS0 HS1 HS2 HS3 Hr]
        · isplitl [HS0 HS1 HS2 HS3]
          · isplitl [HS0]; · iexact HS0
            isplitl [HS1]; · iapply (owns_of_cover _ (scover1_B_1 c _ _ _ _ _ _ _ _ _ _ hc0 hc1)) $$ HS1
            isplitl [HS2]; · iapply (owns_of_cover _ (scover1_B_2 c _ _ _ _ _ _ _ _ _ _ hc0 hc1)) $$ HS2
            iapply (owns_of_cover _ (scover1_B_3 c _ _ _ _ _ _ _ _ _ _ hc0 hc1)) $$ HS3
          iexact Hr
        iexact Hg
      isplitl [Ho]; · iexact Ho
      isplitl [H0]; · iexact H0
      isplitl [H1]; · iexact H1
      isplitl [H2]; · iexact H2
      isplitl [H3]; · iexact H3
      isplitl [H4]; · iexists _; iexact H4
      isplitl [H5]; · iexists _; iexact H5
      iexists _; iexact H6

theorem body_obligation1 (c : Dev nD) : BodyObligation (dat1 (F := F) V c) (defs₀ (F := F)) Variants.none () Set.univ := fun t => by
  rw [bigSep_W1, bigSep_W1]
  exact sound_body1 V c t

theorem hin1 (c : Dev nD) : (Pipeline.ΦA spec1 c : sProp 𝕄) ⊢ (dat1 V c).Φ 0 := by
  rw [show (dat1 V c).Φ 0 = PhiS1 V c 0 (Nat.zero_le _) from rfl, PhiS1_zero V c 0 _ rfl]

theorem hout1 (c : Dev nD) : (dat1 V c).Φ (Fin.last cfg1.N) ⊢ (Pipeline.ΦA spec1 c : sProp 𝕄) :=
  PhiS1_A V c _ (Nat.le_of_lt_succ (Fin.last cfg1.N).isLt)

end Cert.KernelIdeal.Hand

end
-- ==== Proof.KI.Runs2.lean ====
import proofs.«402100_j83614423319285_2_alg».proof.Proof.Gen.KernelIdeal.Launch
import proofs.«402100_j83614423319285_2_alg».proof.Proof.Gen.KernelIdeal.Skeleton
import proofs.«402100_j83614423319285_2_alg».proof.Proof.Gen.KernelIdeal.Points
import Idealize.ShloMosaic.Lib.Pipeline.FrameBody
import Idealize.ShloMosaic.Lib.Pipeline.Frame
import Idealize.ShloMosaic.Lib.Pipeline.Kit
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev cond2_0 (i : grid2.Coords) : Prop := (Scalar.cmpi .ne (Scalar.extui (Scalar.cmpi .eq (BitVec.ofNat 32 (i 1).val) 0#32)) 0#32) = 1#1

theorem hcond2_0 : ∀ t : Fin cfg2.N, cond2_0 (grid2.coords t) ↔ t.val % 11 = 0 :=
  (by decide +kernel : ∀ t : Fin grid2.N, cond2_0 (grid2.coords t) ↔ t.val % 11 = 0)

abbrev cond2_1 (i : grid2.Coords) : Prop := k2_cond2 i = 1#1

theorem hcond2_1 : ∀ t : Fin cfg2.N, cond2_1 (grid2.coords t) ↔ t.val % 11 = 10 :=
  (by decide +kernel : ∀ t : Fin grid2.N, cond2_1 (grid2.coords t) ↔ t.val % 11 = 10)

theorem liveAt2_0 : ∀ t : Fin cfg2.N, cfg2.idle 0 (grid2.coords t) = false := fun _ => rfl

theorem liveAt2_1 : ∀ t : Fin cfg2.N, cfg2.idle 1 (grid2.coords t) = false := fun _ => rfl

theorem liveAt2_2 : ∀ t : Fin cfg2.N, cfg2.idle 2 (grid2.coords t) = false := fun _ => rfl

theorem liveAt2_3 : ∀ t : Fin cfg2.N, cfg2.idle 3 (grid2.coords t) = false := fun _ => rfl

theorem idleAt2_4 : ∀ t : Fin cfg2.N, ¬cond2_1 (grid2.coords t) → cfg2.idle 4 (grid2.coords t) = true := by decide +kernel

theorem noFlush2_4 : ∀ t : Fin cfg2.N, ¬cond2_1 (grid2.coords t) → (cfg2.win 4).flush t = false := by decide +kernel

theorem liveAt2_4 : ∀ t : Fin cfg2.N, cond2_1 (grid2.coords t) → cfg2.idle 4 (grid2.coords t) = false := by decide +kernel

theorem idleAt2_5 : ∀ t : Fin cfg2.N, ¬cond2_1 (grid2.coords t) → cfg2.idle 5 (grid2.coords t) = true := by decide +kernel

theorem noFlush2_5 : ∀ t : Fin cfg2.N, ¬cond2_1 (grid2.coords t) → (cfg2.win 5).flush t = false := by decide +kernel

theorem liveAt2_5 : ∀ t : Fin cfg2.N, cond2_1 (grid2.coords t) → cfg2.idle 5 (grid2.coords t) = false := by decide +kernel

theorem idleAt2_6 : ∀ t : Fin cfg2.N, ¬cond2_1 (grid2.coords t) → cfg2.idle 6 (grid2.coords t) = true := by decide +kernel

theorem noFlush2_6 : ∀ t : Fin cfg2.N, ¬cond2_1 (grid2.coords t) → (cfg2.win 6).flush t = false := by decide +kernel

theorem liveAt2_6 : ∀ t : Fin cfg2.N, cond2_1 (grid2.coords t) → cfg2.idle 6 (grid2.coords t) = false := by decide +kernel

abbrev VO2_4 : View sig .tc .vmem S512x1 .f32 := (Memref.whole cc2_stg4_0 : Memref sig .tc .vmem S512x1 .f32).view

abbrev VO2_5 : View sig .tc .vmem S512x1 .f32 := (Memref.whole cc2_stg5_0 : Memref sig .tc .vmem S512x1 .f32).view

abbrev VO2_6 : View sig .tc .vmem S512x1 .f32 := (Memref.whole cc2_stg6_0 : Memref sig .tc .vmem S512x1 .f32).view

abbrev ms2_0 (t : Fin cfg2.N) : Memref sig .tc .vmem S512x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S64x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1024x64 .bf16 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x1 .i32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x1 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x1 .f32 := win2_5.stage (cfg2.slots t 5)
abbrev hs2_5 (t : Fin cfg2.N) : (ms2_5 t).IsWhole := hstage2_5 ((cfg2.slots t 5).cast nbuf2_5)
abbrev ms2_6 (t : Fin cfg2.N) : Memref sig .tc .vmem S512x1 .f32 := win2_6.stage (cfg2.slots t 6)
abbrev hs2_6 (t : Fin cfg2.N) : (ms2_6 t).IsWhole := hstage2_6 ((cfg2.slots t 6).cast nbuf2_6)

abbrev scM2_0 : Memref sig .tc .vmem S512x64 .bf16 := Memref.whole cc2_scratch0
abbrev scM2_1 : Memref sig .tc .vmem S512x1 .f32 := Memref.whole cc2_scratch1
abbrev scM2_2 : Memref sig .tc .vmem S512x1 .f32 := Memref.whole cc2_scratch2
abbrev scM2_3 : Memref sig .tc .vmem S512x1 .f32 := Memref.whole cc2_scratch3

abbrev VS2_0 : View sig .tc .vmem S512x64 .bf16 := scM2_0.view
abbrev VS2_1 : View sig .tc .vmem S512x1 .f32 := scM2_1.view
abbrev VS2_2 : View sig .tc .vmem S512x1 .f32 := scM2_2.view
abbrev VS2_3 : View sig .tc .vmem S512x1 .f32 := scM2_3.view

abbrev rest2 (c : Dev nD) : sProp 𝕄 :=
  Pipeline.scopedRestBut (Ix := Unit) (Name := ℕ) (U := UR sig nD τ) (Lvl := ℕ) (Val := Elt F) spec2 c [cc2_scratch0, cc2_scratch1, cc2_scratch2, cc2_scratch3]

theorem PhiA2_eq (c : Dev nD) :
    (Pipeline.ΦA spec2 c : sProp 𝕄)
      = iprop(iprop(iprop((∃ d, owns (c : Thread nD τ) scM2_0 fullShare d) ∗ (∃ d, owns (c : Thread nD τ) scM2_1 fullShare d) ∗ (∃ d, owns (c : Thread nD τ) scM2_2 fullShare d) ∗ (∃ d, owns (c : Thread nD τ) scM2_3 fullShare d)) ∗ rest2 (F := F) c) ∗ (∃ r, prngReg c r)) := by
  unfold Pipeline.ΦA; rw [scopedRest2_split]; simp only [scM2_0, scM2_1, scM2_2, scM2_3, owns_whole]; try rfl

structure Args2 where
  arg2 : Memref sig .tc .vmem S512x1024 .bf16
  harg2 : arg2.IsWhole
  arg3 : Memref sig .tc .vmem S64x1024 .bf16
  harg3 : arg3.IsWhole
  arg4 : Memref sig .tc .vmem S1024x64 .bf16
  harg4 : arg4.IsWhole
  arg5 : Memref sig .tc .vmem S512x1 .i32
  harg5 : arg5.IsWhole
  arg6 : Memref sig .tc .vmem S512x1 .f32
  harg6 : arg6.IsWhole
  arg7 : Memref sig .tc .vmem S512x1 .f32
  harg7 : arg7.IsWhole
  arg8 : Memref sig .tc .vmem S512x1 .f32
  harg8 : arg8.IsWhole
  arg9 : Memref sig .tc .vmem S512x64 .bf16
  harg9 : arg9.IsWhole
  arg10 : Memref sig .tc .vmem S512x1 .f32
  harg10 : arg10.IsWhole
  arg11 : Memref sig .tc .vmem S512x1 .f32
  harg11 : arg11.IsWhole
  arg12 : Memref sig .tc .vmem S512x1 .f32
  harg12 : arg12.IsWhole

abbrev args2 (t : Fin cfg2.N) : Args2 :=
  ⟨ms2_0 t, hs2_0 t, ms2_1 t, hs2_1 t, ms2_2 t, hs2_2 t, ms2_3 t, hs2_3 t, ms2_4 t, hs2_4 t, ms2_5 t, hs2_5 t, ms2_6 t, hs2_6 t, scM2_0, Memref.isWhole_whole _, scM2_1, Memref.isWhole_whole _, scM2_2, Memref.isWhole_whole _, scM2_3, Memref.isWhole_whole _⟩

end Cert.KernelIdeal.Hand

end
-- ==== Proof.KI.Run2A.lean ====
import proofs.«402100_j83614423319285_2_alg».proof.Proof.KI.Runs2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun2_A (c : Dev nD) (i : grid2.Coords) (arg2 : Memref sig .tc .vmem S512x1024 .bf16) (harg2 : arg2.IsWhole) (arg3 : Memref sig .tc .vmem S64x1024 .bf16) (harg3 : arg3.IsWhole) (arg4 : Memref sig .tc .vmem S1024x64 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : cond2_0 i) (hc1 : ¬cond2_1 i)
    (x0 : Vec F S512x1024 .bf16) (x1 : Vec F S64x1024 .bf16) (x2 : Vec F S1024x64 .bf16) (x3 : Vec F S512x1 .i32) :
    Σ' (LS0 : List (View.Piece (Elt F) S512x64 .bf16)) (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ (∃ f, arg9.view.loc (c : Thread nD τ) ↦[arg9.view.set]{fullShare} arg9.view.writes (Elt F) f LS0) ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12) K } := by
  refine ⟨?_, ?_, ?_, ?_, fun xi4 xi5 xi6 E K => ?run⟩
  case run =>
    simp only [cc2_kernel_eq_skeleton]; unfold cc2_kernel_skel
    simp only [k2_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]; · iexists _; iexact H9
    isplitl [H10]; · iexists _; iexact H10
    isplitl [H11]; · iexists _; iexact H11
    iexists _; iexact H12

noncomputable def run2_A (c : Dev nD) (i : grid2.Coords) (a : Args2) (hc0 : cond2_0 i) (hc1 : ¬cond2_1 i) (x0 : Vec F S512x1024 .bf16) (x1 : Vec F S64x1024 .bf16) (x2 : Vec F S1024x64 .bf16) (x3 : Vec F S512x1 .i32) :=
  kernelRun2_A c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3

end Cert.KernelIdeal.Hand

end
-- ==== Proof.KI.Run2B.lean ====
import proofs.«402100_j83614423319285_2_alg».proof.Proof.KI.Runs2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun2_B (c : Dev nD) (i : grid2.Coords) (arg2 : Memref sig .tc .vmem S512x1024 .bf16) (harg2 : arg2.IsWhole) (arg3 : Memref sig .tc .vmem S64x1024 .bf16) (harg3 : arg3.IsWhole) (arg4 : Memref sig .tc .vmem S1024x64 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond2_0 i) (hc1 : ¬cond2_1 i)
    (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32) :
    Σ' (LS1 : List (View.Piece (Elt F) S512x1 .f32)) (LS2 : List (View.Piece (Elt F) S512x1 .f32)), { LS3 : List (View.Piece (Elt F) S512x1 .f32) //
      ∀ (xi4 : Vec F S512x1 .f32) (xi5 : Vec F S512x1 .f32) (xi6 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare xi4 ∗ owns (c : Thread nD τ) arg7 fullShare xi5 ∗ owns (c : Thread nD τ) arg8 fullShare xi6 ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12) K } := by
  refine ⟨?_, ?_, ?_, fun xi4 xi5 xi6 E K => ?run⟩
  case run =>
    simp only [cc2_kernel_eq_skeleton]; unfold cc2_kernel_skel
    simp only [k2_part1_eq_skeleton]
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    iexists _; iexact H12

noncomputable def run2_B (c : Dev nD) (i : grid2.Coords) (a : Args2) (hc0 : ¬cond2_0 i) (hc1 : ¬cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32) :=
  kernelRun2_B c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3 xs0 xs1 xs2 xs3

end Cert.KernelIdeal.Hand

end
-- ==== Proof.KI.Run2C.lean ====
import proofs.«402100_j83614423319285_2_alg».proof.Proof.KI.Runs2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

set_option maxHeartbeats 4000000 in

noncomputable def kernelRun2_C (c : Dev nD) (i : grid2.Coords) (arg2 : Memref sig .tc .vmem S512x1024 .bf16) (harg2 : arg2.IsWhole) (arg3 : Memref sig .tc .vmem S64x1024 .bf16) (harg3 : arg3.IsWhole) (arg4 : Memref sig .tc .vmem S1024x64 .bf16) (harg4 : arg4.IsWhole) (arg5 : Memref sig .tc .vmem S512x1 .i32) (harg5 : arg5.IsWhole) (arg6 : Memref sig .tc .vmem S512x1 .f32) (harg6 : arg6.IsWhole) (arg7 : Memref sig .tc .vmem S512x1 .f32) (harg7 : arg7.IsWhole) (arg8 : Memref sig .tc .vmem S512x1 .f32) (harg8 : arg8.IsWhole) (arg9 : Memref sig .tc .vmem S512x64 .bf16) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (hc0 : ¬cond2_0 i) (hc1 : cond2_1 i)
    (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32) :
    Σ' (L4 : List (View.Piece (Elt F) S512x1 .f32)) (L5 : List (View.Piece (Elt F) S512x1 .f32)) (L6 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ (∃ d, owns (c : Thread nD τ) arg7 fullShare d) ∗ (∃ d, owns (c : Thread nD τ) arg8 fullShare d) ∗ owns (c : Thread nD τ) arg9 fullShare xs0 ∗ owns (c : Thread nD τ) arg10 fullShare xs1 ∗ owns (c : Thread nD τ) arg11 fullShare xs2 ∗ owns (c : Thread nD τ) arg12 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ (∃ f, arg6.view.loc (c : Thread nD τ) ↦[arg6.view.set]{fullShare} arg6.view.writes (Elt F) f L4) ∗ (∃ f, arg7.view.loc (c : Thread nD τ) ↦[arg7.view.set]{fullShare} arg7.view.writes (Elt F) f L5) ∗ (∃ f, arg8.view.loc (c : Thread nD τ) ↦[arg8.view.set]{fullShare} arg8.view.writes (Elt F) f L6) ∗ owns (c : Thread nD τ) arg9 fullShare xs0 ∗ (∃ f, arg10.view.loc (c : Thread nD τ) ↦[arg10.view.set]{fullShare} arg10.view.writes (Elt F) f LS1) ∗ (∃ f, arg11.view.loc (c : Thread nD τ) ↦[arg11.view.set]{fullShare} arg11.view.writes (Elt F) f LS2) ∗ (∃ f, arg12.view.loc (c : Thread nD τ) ↦[arg12.view.set]{fullShare} arg12.view.writes (Elt F) f LS3)) -∗ K ⟨⟩))
          ⊢ wp frame (wpE (defs₀ (F := F)) Variants.none c none) E (cc2_kernel i arg2 harg2 arg3 harg3 arg4 harg4 arg5 harg5 arg6 harg6 arg7 harg7 arg8 harg8 arg9 harg9 arg10 harg10 arg11 harg11 arg12 harg12) K } := by
  refine ⟨?_, ?_, ?_, ?_, ?_, ?_, fun E K => ?run⟩
  case run =>
    simp only [cc2_kernel_eq_skeleton]; unfold cc2_kernel_skel
    simp only [k2_part1_eq_skeleton]
    unfold owns
    iintro ⟨⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, ⟨%f10, %hf10, H10⟩, ⟨%f11, %hf11, H11⟩, ⟨%f12, %hf12, H12⟩, Hk⟩
    obtain rfl := harg2.eq_unread hf2; obtain rfl := harg3.eq_unread hf3; obtain rfl := harg4.eq_unread hf4; obtain rfl := harg5.eq_unread hf5; obtain rfl := harg9.eq_unread hf9; obtain rfl := harg10.eq_unread hf10; obtain rfl := harg11.eq_unread hf11; obtain rfl := harg12.eq_unread hf12
    sl_exec (disch := first | exact hc0 | exact hc1)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]; · iexists _; iexact H6
    isplitl [H7]; · iexists _; iexact H7
    isplitl [H8]; · iexists _; iexact H8
    isplitl [H9]
    · iexists _; isplitr; · ipureintro; exact harg9.read_unread _
      iexact H9
    isplitl [H10]; · iexists _; iexact H10
    isplitl [H11]; · iexists _; iexact H11
    iexists _; iexact H12

noncomputable def run2_C (c : Dev nD) (i : grid2.Coords) (a : Args2) (hc0 : ¬cond2_0 i) (hc1 : cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32) :=
  kernelRun2_C c i a.arg2 a.harg2 a.arg3 a.harg3 a.arg4 a.harg4 a.arg5 a.harg5 a.arg6 a.harg6 a.arg7 a.harg7 a.arg8 a.harg8 a.arg9 a.harg9 a.arg10 a.harg10 a.arg11 a.harg11 a.arg12 a.harg12 hc0 hc1 x0 x1 x2 x3 xs0 xs1 xs2 xs3

end Cert.KernelIdeal.Hand

end
-- ==== Proof.KI.Body2.lean ====
import proofs.«402100_j83614423319285_2_alg».proof.Proof.KI.Run2A
import proofs.«402100_j83614423319285_2_alg».proof.Proof.KI.Run2B
import proofs.«402100_j83614423319285_2_alg».proof.Proof.KI.Run2C

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

section
variable (c : Dev nD) (i : grid2.Coords) (a : Args2)
section
variable (hc0 : cond2_0 i) (hc1 : ¬cond2_1 i) (x0 : Vec F S512x1024 .bf16) (x1 : Vec F S64x1024 .bf16) (x2 : Vec F S1024x64 .bf16) (x3 : Vec F S512x1 .i32)
theorem scover2_A_0 (y : S512x64.Idx) :
    ∃ pc ∈ (run2_A c i a hc0 hc1 x0 x1 x2 x3).1, y ∈ pc.1.set :=
  View.cover_of_tiledL (run2_A c i a hc0 hc1 x0 x1 x2 x3).1 S512x64.size (by sl_kernel_rfl) y

def sout2_A_0 : Vec F S512x64 .bf16 :=
  VS2_0.read (Elt F) (VS2_0.writes (Elt F) VS2_0.junk (run2_A c i a hc0 hc1 x0 x1 x2 x3).1)

theorem scover2_A_1 (y : S512x1.Idx) :
    ∃ pc ∈ (run2_A c i a hc0 hc1 x0 x1 x2 x3).2.1, y ∈ pc.1.set :=
  View.cover_of_tiledL (run2_A c i a hc0 hc1 x0 x1 x2 x3).2.1 S512x1.size (by sl_kernel_rfl) y

def sout2_A_1 : Vec F S512x1 .f32 :=
  VS2_1.read (Elt F) (VS2_1.writes (Elt F) VS2_1.junk (run2_A c i a hc0 hc1 x0 x1 x2 x3).2.1)

theorem scover2_A_2 (y : S512x1.Idx) :
    ∃ pc ∈ (run2_A c i a hc0 hc1 x0 x1 x2 x3).2.2.1, y ∈ pc.1.set :=
  View.cover_of_tiledL (run2_A c i a hc0 hc1 x0 x1 x2 x3).2.2.1 S512x1.size (by sl_kernel_rfl) y

def sout2_A_2 : Vec F S512x1 .f32 :=
  VS2_2.read (Elt F) (VS2_2.writes (Elt F) VS2_2.junk (run2_A c i a hc0 hc1 x0 x1 x2 x3).2.2.1)

theorem scover2_A_3 (y : S512x1.Idx) :
    ∃ pc ∈ (run2_A c i a hc0 hc1 x0 x1 x2 x3).2.2.2.1, y ∈ pc.1.set :=
  View.cover_of_tiledL (run2_A c i a hc0 hc1 x0 x1 x2 x3).2.2.2.1 S512x1.size (by sl_kernel_rfl) y

def sout2_A_3 : Vec F S512x1 .f32 :=
  VS2_3.read (Elt F) (VS2_3.writes (Elt F) VS2_3.junk (run2_A c i a hc0 hc1 x0 x1 x2 x3).2.2.2.1)

end
section
variable (hc0 : ¬cond2_0 i) (hc1 : ¬cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32)
theorem scover2_B_1 (y : S512x1.Idx) :
    ∃ pc ∈ (run2_B c i a hc0 hc1 x0 x1 x2 x3 xs0 xs1 xs2 xs3).1, y ∈ pc.1.set :=
  View.cover_of_tiledL (run2_B c i a hc0 hc1 x0 x1 x2 x3 xs0 xs1 xs2 xs3).1 S512x1.size (by sl_kernel_rfl) y

def sout2_B_1 : Vec F S512x1 .f32 :=
  VS2_1.read (Elt F) (VS2_1.writes (Elt F) VS2_1.junk (run2_B c i a hc0 hc1 x0 x1 x2 x3 xs0 xs1 xs2 xs3).1)

theorem scover2_B_2 (y : S512x1.Idx) :
    ∃ pc ∈ (run2_B c i a hc0 hc1 x0 x1 x2 x3 xs0 xs1 xs2 xs3).2.1, y ∈ pc.1.set :=
  View.cover_of_tiledL (run2_B c i a hc0 hc1 x0 x1 x2 x3 xs0 xs1 xs2 xs3).2.1 S512x1.size (by sl_kernel_rfl) y

def sout2_B_2 : Vec F S512x1 .f32 :=
  VS2_2.read (Elt F) (VS2_2.writes (Elt F) VS2_2.junk (run2_B c i a hc0 hc1 x0 x1 x2 x3 xs0 xs1 xs2 xs3).2.1)

theorem scover2_B_3 (y : S512x1.Idx) :
    ∃ pc ∈ (run2_B c i a hc0 hc1 x0 x1 x2 x3 xs0 xs1 xs2 xs3).2.2.1, y ∈ pc.1.set :=
  View.cover_of_tiledL (run2_B c i a hc0 hc1 x0 x1 x2 x3 xs0 xs1 xs2 xs3).2.2.1 S512x1.size (by sl_kernel_rfl) y

def sout2_B_3 : Vec F S512x1 .f32 :=
  VS2_3.read (Elt F) (VS2_3.writes (Elt F) VS2_3.junk (run2_B c i a hc0 hc1 x0 x1 x2 x3 xs0 xs1 xs2 xs3).2.2.1)

end
section
variable (hc0 : ¬cond2_0 i) (hc1 : cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32)
theorem cover2_C_4 (y : S512x1.Idx) :
    ∃ pc ∈ (run2_C c i a hc0 hc1 x0 x1 x2 x3 xs0 xs1 xs2 xs3).1, y ∈ pc.1.set :=
  View.cover_of_tiledL (run2_C c i a hc0 hc1 x0 x1 x2 x3 xs0 xs1 xs2 xs3).1 S512x1.size (by sl_kernel_rfl) y

def out2_C_4 : Vec F S512x1 .f32 :=
  VO2_4.read (Elt F) (VO2_4.writes (Elt F) VO2_4.junk (run2_C c i a hc0 hc1 x0 x1 x2 x3 xs0 xs1 xs2 xs3).1)

theorem cover2_C_5 (y : S512x1.Idx) :
    ∃ pc ∈ (run2_C c i a hc0 hc1 x0 x1 x2 x3 xs0 xs1 xs2 xs3).2.1, y ∈ pc.1.set :=
  View.cover_of_tiledL (run2_C c i a hc0 hc1 x0 x1 x2 x3 xs0 xs1 xs2 xs3).2.1 S512x1.size (by sl_kernel_rfl) y

def out2_C_5 : Vec F S512x1 .f32 :=
  VO2_5.read (Elt F) (VO2_5.writes (Elt F) VO2_5.junk (run2_C c i a hc0 hc1 x0 x1 x2 x3 xs0 xs1 xs2 xs3).2.1)

theorem cover2_C_6 (y : S512x1.Idx) :
    ∃ pc ∈ (run2_C c i a hc0 hc1 x0 x1 x2 x3 xs0 xs1 xs2 xs3).2.2.1, y ∈ pc.1.set :=
  View.cover_of_tiledL (run2_C c i a hc0 hc1 x0 x1 x2 x3 xs0 xs1 xs2 xs3).2.2.1 S512x1.size (by sl_kernel_rfl) y

def out2_C_6 : Vec F S512x1 .f32 :=
  VO2_6.read (Elt F) (VO2_6.writes (Elt F) VO2_6.junk (run2_C c i a hc0 hc1 x0 x1 x2 x3 xs0 xs1 xs2 xs3).2.2.1)

theorem scover2_C_1 (y : S512x1.Idx) :
    ∃ pc ∈ (run2_C c i a hc0 hc1 x0 x1 x2 x3 xs0 xs1 xs2 xs3).2.2.2.1, y ∈ pc.1.set :=
  View.cover_of_tiledL (run2_C c i a hc0 hc1 x0 x1 x2 x3 xs0 xs1 xs2 xs3).2.2.2.1 S512x1.size (by sl_kernel_rfl) y

def sout2_C_1 : Vec F S512x1 .f32 :=
  VS2_1.read (Elt F) (VS2_1.writes (Elt F) VS2_1.junk (run2_C c i a hc0 hc1 x0 x1 x2 x3 xs0 xs1 xs2 xs3).2.2.2.1)

theorem scover2_C_2 (y : S512x1.Idx) :
    ∃ pc ∈ (run2_C c i a hc0 hc1 x0 x1 x2 x3 xs0 xs1 xs2 xs3).2.2.2.2.1, y ∈ pc.1.set :=
  View.cover_of_tiledL (run2_C c i a hc0 hc1 x0 x1 x2 x3 xs0 xs1 xs2 xs3).2.2.2.2.1 S512x1.size (by sl_kernel_rfl) y

def sout2_C_2 : Vec F S512x1 .f32 :=
  VS2_2.read (Elt F) (VS2_2.writes (Elt F) VS2_2.junk (run2_C c i a hc0 hc1 x0 x1 x2 x3 xs0 xs1 xs2 xs3).2.2.2.2.1)

theorem scover2_C_3 (y : S512x1.Idx) :
    ∃ pc ∈ (run2_C c i a hc0 hc1 x0 x1 x2 x3 xs0 xs1 xs2 xs3).2.2.2.2.2.1, y ∈ pc.1.set :=
  View.cover_of_tiledL (run2_C c i a hc0 hc1 x0 x1 x2 x3 xs0 xs1 xs2 xs3).2.2.2.2.2.1 S512x1.size (by sl_kernel_rfl) y

def sout2_C_3 : Vec F S512x1 .f32 :=
  VS2_3.read (Elt F) (VS2_3.writes (Elt F) VS2_3.junk (run2_C c i a hc0 hc1 x0 x1 x2 x3 xs0 xs1 xs2 xs3).2.2.2.2.2.1)
end
end

def idleOut2 : Vec F S512x1 .f32 := VO2_4.read (Elt F) VO2_4.junk

abbrev Outs2 (F : FTy → Type) : Type :=
  Vec F S512x1 .f32 × Vec F S512x1 .f32 × Vec F S512x1 .f32 × Vec F S512x64 .bf16 × Vec F S512x1 .f32 × Vec F S512x1 .f32 × Vec F S512x1 .f32

theorem not10_of_0 {n : ℕ} (h : n % 11 = 0) : ¬ n % 11 = 10 := by omega

def ptA (c : Dev nD) (t : Fin cfg2.N) (h0 : t.val % 11 = 0) : Outs2 F :=
  (idleOut2, idleOut2, idleOut2,
   sout2_A_0 c (grid2.coords t) (args2 t) ((hcond2_0 t).mpr h0) (fun h => not10_of_0 h0 ((hcond2_1 t).mp h)) (iblk2 V c 0 t) (iblk2 V c 1 t) (iblk2 V c 2 t) (iblk2 V c 3 t),
   sout2_A_1 c (grid2.coords t) (args2 t) ((hcond2_0 t).mpr h0) (fun h => not10_of_0 h0 ((hcond2_1 t).mp h)) (iblk2 V c 0 t) (iblk2 V c 1 t) (iblk2 V c 2 t) (iblk2 V c 3 t),
   sout2_A_2 c (grid2.coords t) (args2 t) ((hcond2_0 t).mpr h0) (fun h => not10_of_0 h0 ((hcond2_1 t).mp h)) (iblk2 V c 0 t) (iblk2 V c 1 t) (iblk2 V c 2 t) (iblk2 V c 3 t),
   sout2_A_3 c (grid2.coords t) (args2 t) ((hcond2_0 t).mpr h0) (fun h => not10_of_0 h0 ((hcond2_1 t).mp h)) (iblk2 V c 0 t) (iblk2 V c 1 t) (iblk2 V c 2 t) (iblk2 V c 3 t))

def ptB (c : Dev nD) (t : Fin cfg2.N) (h0 : ¬t.val % 11 = 0) (h1 : ¬t.val % 11 = 10) (p : Outs2 F) : Outs2 F :=
  (idleOut2, idleOut2, idleOut2, p.2.2.2.1,
   sout2_B_1 c (grid2.coords t) (args2 t) (fun h => h0 ((hcond2_0 t).mp h)) (fun h => h1 ((hcond2_1 t).mp h)) (iblk2 V c 0 t) (iblk2 V c 1 t) (iblk2 V c 2 t) (iblk2 V c 3 t) p.2.2.2.1 p.2.2.2.2.1 p.2.2.2.2.2.1 p.2.2.2.2.2.2,
   sout2_B_2 c (grid2.coords t) (args2 t) (fun h => h0 ((hcond2_0 t).mp h)) (fun h => h1 ((hcond2_1 t).mp h)) (iblk2 V c 0 t) (iblk2 V c 1 t) (iblk2 V c 2 t) (iblk2 V c 3 t) p.2.2.2.1 p.2.2.2.2.1 p.2.2.2.2.2.1 p.2.2.2.2.2.2,
   sout2_B_3 c (grid2.coords t) (args2 t) (fun h => h0 ((hcond2_0 t).mp h)) (fun h => h1 ((hcond2_1 t).mp h)) (iblk2 V c 0 t) (iblk2 V c 1 t) (iblk2 V c 2 t) (iblk2 V c 3 t) p.2.2.2.1 p.2.2.2.2.1 p.2.2.2.2.2.1 p.2.2.2.2.2.2)

def ptC (c : Dev nD) (t : Fin cfg2.N) (h0 : ¬t.val % 11 = 0) (h1 : t.val % 11 = 10) (p : Outs2 F) : Outs2 F :=
  (out2_C_4 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   out2_C_5 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   out2_C_6 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   p.2.2.2.1,
   sout2_C_1 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   sout2_C_2 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2,
   sout2_C_3 c (grid2.coords t) (args2 t) (fun h => h0 ((hcond2_0 t).mp h)) ((hcond2_1 t).mpr h1) (iblk2 V c 0 t) (iblk2 V c 1 t) (iblk2 V c 2 t) (iblk2 V c 3 t) p.2.2.2.1 p.2.2.2.2.1 p.2.2.2.2.2.1 p.2.2.2.2.2.2)

def outsAt2 (c : Dev nD) : (n : ℕ) → n < cfg2.N → Outs2 F
  | 0, hn => ptA V c ⟨0, hn⟩ (Nat.zero_mod _)
  | n + 1, hn =>
    if h0 : (n + 1) % 11 = 0 then ptA V c ⟨n + 1, hn⟩ h0
    else if h1 : (n + 1) % 11 = 10 then ptC V c ⟨n + 1, hn⟩ h0 h1 (outsAt2 c n (Nat.lt_of_succ_lt hn))
    else ptB V c ⟨n + 1, hn⟩ h0 h1 (outsAt2 c n (Nat.lt_of_succ_lt hn))

theorem outsAt2_A (c : Dev nD) (t : Fin cfg2.N) (h0 : t.val % 11 = 0) :
    outsAt2 V c t.val t.isLt = ptA V c t h0 := by
  obtain ⟨n, hn⟩ := t
  cases n with
  | zero => exact rfl
  | succ n => exact (dif_pos h0).trans rfl

theorem outsAt2_B (c : Dev nD) (t : Fin cfg2.N) (h0 : ¬t.val % 11 = 0) (h1 : ¬t.val % 11 = 10) :
    outsAt2 V c t.val t.isLt = ptB V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)

theorem outsAt2_C (c : Dev nD) (t : Fin cfg2.N) (h0 : ¬t.val % 11 = 0) (h1 : t.val % 11 = 10) :
    outsAt2 V c t.val t.isLt = ptC V c t h0 h1 (outsAt2 V c (t.val - 1) (Nat.lt_of_le_of_lt (Nat.sub_le _ _) t.isLt)) := by
  obtain ⟨n, hn⟩ := t
  cases n with
  | zero => exact absurd (Nat.zero_mod _) h0
  | succ n => exact (dif_neg h0).trans ((dif_pos h1).trans rfl)

def PhiS2 (c : Dev nD) : (n : ℕ) → n ≤ cfg2.N → sProp 𝕄
  | 0, _ => Pipeline.ΦA spec2 c
  | n + 1, hn => iprop(iprop(iprop(owns (c : Thread nD τ) scM2_0 fullShare (outsAt2 V c n hn).2.2.2.1 ∗ owns (c : Thread nD τ) scM2_1 fullShare (outsAt2 V c n hn).2.2.2.2.1 ∗ owns (c : Thread nD τ) scM2_2 fullShare (outsAt2 V c n hn).2.2.2.2.2.1 ∗ owns (c : Thread nD τ) scM2_3 fullShare (outsAt2 V c n hn).2.2.2.2.2.2) ∗ rest2 (F := F) c) ∗ (∃ r, prngReg c r))

theorem PhiS2_pos (c : Dev nD) (n : ℕ) (h : n ≤ cfg2.N) (hz : n ≠ 0) : PhiS2 V c n h = PhiS2 V c (n - 1 + 1) (by omega) := by
  cases n with
  | zero => exact absurd rfl hz
  | succ n => rfl

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t.val t.isLt).1
    | ⟨5, _⟩ => (outsAt2 V c t.val t.isLt).2.1
    | ⟨6, _⟩ => (outsAt2 V c t.val t.isLt).2.2.1
  Φ t := PhiS2 V c t.val (Nat.le_of_lt_succ t.isLt)
  q _ := fullShare
  owed _ := 0

theorem A_eq2 (c : Dev nD) (w : Fin cfg2.W) : (dat2 V c).A w = V c (Pipeline.arrRef spec2 w) := rfl

theorem q_eq2 (c : Dev nD) (w : Fin cfg2.W) : (dat2 V c).q w = fullShare := rfl

theorem owed_eq2 (c : Dev nD) (t : Fin (cfg2.N + 1)) : (dat2 V c).owed t = 0 := rfl

theorem recorded_eq2 (c : Dev nD) (t : Fin (cfg2.N + 1)) : (dat2 V c).recorded t = Set.univ := rfl

theorem after2_0 (c : Dev nD) (t : Fin cfg2.N) : (dat2 V c).after 0 t = iblk2 V c 0 t := rfl
theorem after2_1 (c : Dev nD) (t : Fin cfg2.N) : (dat2 V c).after 1 t = iblk2 V c 1 t := rfl
theorem after2_2 (c : Dev nD) (t : Fin cfg2.N) : (dat2 V c).after 2 t = iblk2 V c 2 t := rfl
theorem after2_3 (c : Dev nD) (t : Fin cfg2.N) : (dat2 V c).after 3 t = iblk2 V c 3 t := rfl
theorem after2_4 (c : Dev nD) (t : Fin cfg2.N) : (dat2 V c).after 4 t = (outsAt2 V c t.val t.isLt).1 := rfl
theorem after2_5 (c : Dev nD) (t : Fin cfg2.N) : (dat2 V c).after 5 t = (outsAt2 V c t.val t.isLt).2.1 := rfl
theorem after2_6 (c : Dev nD) (t : Fin cfg2.N) : (dat2 V c).after 6 t = (outsAt2 V c t.val t.isLt).2.2.1 := rfl

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

def bodyPre2 (c : Dev nD) (t : Fin cfg2.N) : sProp 𝕄 :=
  iprop(PhiS2 V c t.val (Nat.le_of_lt t.isLt) ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d))
    ∗ (∃ d, owns (c : Thread nD τ) (ms2_6 t) fullShare ((dat2 V c).before 6 t d)))

def bodyPost2 (c : Dev nD) (t : Fin cfg2.N) : sProp 𝕄 :=
  iprop(PhiS2 V c (t.val + 1) t.isLt ∗ (dat2 V c).owesAt () t.castSucc
    ∗ owns (c : Thread nD τ) (ms2_0 t) fullShare (iblk2 V c 0 t)
    ∗ owns (c : Thread nD τ) (ms2_1 t) fullShare (iblk2 V c 1 t)
    ∗ owns (c : Thread nD τ) (ms2_2 t) fullShare (iblk2 V c 2 t)
    ∗ owns (c : Thread nD τ) (ms2_3 t) fullShare (iblk2 V c 3 t)
    ∗ (dat2 V c).leavesExact 4 t
    ∗ (dat2 V c).leavesExact 5 t
    ∗ (dat2 V c).leavesExact 6 t)

private theorem owns_of_cover {c : Dev nD} {sp sp' : Space} {κ' : Kind} {s : Shape} {e : EltTy} (v' : View sig κ' sp' s e) {M : Memref sig .tc sp s e}
    {L : List (View.Piece (Elt F) s e)} (h : ∀ y, ∃ p ∈ L, y ∈ p.1.set) :
    (iprop(∃ f, M.view.loc (c : Thread nD τ) ↦[M.view.set]{fullShare} M.view.writes (Elt F) f L) : sProp 𝕄)
      ⊢ owns (c : Thread nD τ) M fullShare (v'.read (Elt F) (v'.writes (Elt F) v'.junk L)) := by
  iintro ⟨%f, H⟩; unfold owns; iexists _; isplitr; swap; · iexact H
  ipureintro; exact View.read_writes_of_cover _ _ _ _ _ h

theorem PhiS2_le (c : Dev nD) (n : ℕ) (h : n ≤ cfg2.N) : PhiS2 V c n h ⊢ (Pipeline.ΦA spec2 c : sProp 𝕄) := by
  cases n with
  | zero => exact .rfl
  | succ n =>
    rw [PhiS2, PhiA2_eq]
    exact sep_mono_left (sep_mono_left (BIClass.sep_mono (BIClass.exists_intro _) (BIClass.sep_mono (BIClass.exists_intro _) (BIClass.sep_mono (BIClass.exists_intro _) (BIClass.exists_intro _)))))

set_option maxHeartbeats 8000000 in

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [PhiS2]
  by_cases h1 : t.val % 11 = 10
  · have h0 : ¬t.val % 11 = 0 := by omega
    have hn0 : ¬cond2_0 (grid2.coords t) := fun h => h0 ((hcond2_0 t).mp h)
    have hc1 : cond2_1 (grid2.coords t) := (hcond2_1 t).mpr h1
    rw [show (dat2 V c).leavesExact 4 t = owns (c : Thread nD τ) (ms2_4 t) fullShare ((dat2 V c).after 4 t) from by
      unfold Dat.leavesExact; rw [liveAt2_4 t hc1], after2_4,
      show (dat2 V c).leavesExact 5 t = owns (c : Thread nD τ) (ms2_5 t) fullShare ((dat2 V c).after 5 t) from by
      unfold Dat.leavesExact; rw [liveAt2_5 t hc1], after2_5,
      show (dat2 V c).leavesExact 6 t = owns (c : Thread nD τ) (ms2_6 t) fullShare ((dat2 V c).after 6 t) from by
      unfold Dat.leavesExact; rw [liveAt2_6 t hc1], after2_6,
      outsAt2_C V c t h0 h1, PhiS2_pos V c t.val _ (by omega), PhiS2]
    unfold ptC out2_C_4 out2_C_5 out2_C_6 sout2_C_1 sout2_C_2 sout2_C_3; (try dsimp only)
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((run2_C c (grid2.coords t) (args2 t) hn0 hc1 (iblk2 V c 0 t) (iblk2 V c 1 t) (iblk2 V c 2 t) (iblk2 V c 3 t) _ _ _ _).2.2.2.2.2.2 Set.univ _)
    isplitl [H0]; · iexact H0
    isplitl [H1]; · iexact H1
    isplitl [H2]; · iexact H2
    isplitl [H3]; · iexact H3
    isplitl [H4]; · iexists _; iexact H4
    isplitl [H5]; · iexists _; iexact H5
    isplitl [H6]; · iexists _; iexact H6
    isplitl [HS0]; · iexact HS0
    isplitl [HS1]; · iexact HS1
    isplitl [HS2]; · iexact HS2
    isplitl [HS3]; · iexact HS3
    iintro ⟨$, $, $, $, H4, H5, H6, $, HS1, HS2, HS3⟩
    iframe Hr Hg Ho
    isplitl [HS1 HS2 HS3]
    · isplitl [HS1]; · iapply (owns_of_cover _ (scover2_C_1 c _ _ _ _ _ _ _ _ _ _ _ _)) $$ HS1
      isplitl [HS2]; · iapply (owns_of_cover _ (scover2_C_2 c _ _ _ _ _ _ _ _ _ _ _ _)) $$ HS2
      iapply (owns_of_cover _ (scover2_C_3 c _ _ _ _ _ _ _ _ _ _ _ _)) $$ HS3
    isplitl [H4]; · iapply (owns_of_cover _ (cover2_C_4 c _ _ _ _ _ _ _ _ _ _ _ _)) $$ H4
    isplitl [H5]; · iapply (owns_of_cover _ (cover2_C_5 c _ _ _ _ _ _ _ _ _ _ _ _)) $$ H5
    iapply (owns_of_cover _ (cover2_C_6 c _ _ _ _ _ _ _ _ _ _ _ _)) $$ H6
  have hn1 : ¬cond2_1 (grid2.coords t) := fun h => h1 ((hcond2_1 t).mp h)
  rw [Dat.leavesExact_idle (dat2 V c) 4 t (idleAt2_4 t hn1) (noFlush2_4 t hn1),
      Dat.leavesExact_idle (dat2 V c) 5 t (idleAt2_5 t hn1) (noFlush2_5 t hn1),
      Dat.leavesExact_idle (dat2 V c) 6 t (idleAt2_6 t hn1) (noFlush2_6 t hn1)]
  by_cases h0 : t.val % 11 = 0
  · rw [outsAt2_A V c t h0]
    unfold ptA sout2_A_0 sout2_A_1 sout2_A_2 sout2_A_3; (try dsimp only)
    refine (sep_mono_left (PhiS2_le V c _ _)).trans ?_
    rw [PhiA2_eq]
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((run2_A c (grid2.coords t) (args2 t) ((hcond2_0 t).mpr h0) hn1 (iblk2 V c 0 t) (iblk2 V c 1 t) (iblk2 V c 2 t) (iblk2 V c 3 t)).2.2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨$, $, $, $, H4, H5, H6, HS0, HS1, HS2, HS3⟩
    iframe Hr Hg Ho
    isplitl [HS0 HS1 HS2 HS3]
    · isplitl [HS0]; · iapply (owns_of_cover _ (scover2_A_0 c _ _ _ _ _ _ _ _)) $$ HS0
      isplitl [HS1]; · iapply (owns_of_cover _ (scover2_A_1 c _ _ _ _ _ _ _ _)) $$ HS1
      isplitl [HS2]; · iapply (owns_of_cover _ (scover2_A_2 c _ _ _ _ _ _ _ _)) $$ HS2
      iapply (owns_of_cover _ (scover2_A_3 c _ _ _ _ _ _ _ _)) $$ HS3
    isplitl [H4]; · iexists _; iexact H4
    isplitl [H5]; · iexists _; iexact H5
    iexists _; iexact H6
  · rw [outsAt2_B V c t h0 h1, PhiS2_pos V c t.val _ (by omega), PhiS2]
    unfold ptB sout2_B_1 sout2_B_2 sout2_B_3; (try dsimp only)
    iintro ⟨⟨⟨⟨HS0, HS1, HS2, HS3⟩, Hr⟩, Hg⟩, Ho, ⟨%d0, H0⟩, ⟨%d1, H1⟩, ⟨%d2, H2⟩, ⟨%d3, H3⟩, ⟨%d4, H4⟩, ⟨%d5, H5⟩, ⟨%d6, H6⟩⟩
    iapply ((run2_B c (grid2.coords t) (args2 t) (fun h => h0 ((hcond2_0 t).mp h)) hn1 (iblk2 V c 0 t) (iblk2 V c 1 t) (iblk2 V c 2 t) (iblk2 V c 3 t) _ _ _ _).2.2.2 _ _ _ Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [HS0]; · iexact HS0
    isplitl [HS1]; · iexact HS1
    isplitl [HS2]; · iexact HS2
    isplitl [HS3]; · iexact HS3
    iintro ⟨$, $, $, $, H4, H5, H6, $, HS1, HS2, HS3⟩
    iframe Hr Hg Ho
    isplitl [HS1 HS2 HS3]
    · isplitl [HS1]; · iapply (owns_of_cover _ (scover2_B_1 c _ _ _ _ _ _ _ _ _ _ _ _)) $$ HS1
      isplitl [HS2]; · iapply (owns_of_cover _ (scover2_B_2 c _ _ _ _ _ _ _ _ _ _ _ _)) $$ HS2
      iapply (owns_of_cover _ (scover2_B_3 c _ _ _ _ _ _ _ _ _ _ _ _)) $$ HS3
    isplitl [H4]; · iexists _; iexact H4
    isplitl [H5]; · iexists _; iexact H5
    iexists _; iexact H6

theorem body_obligation2 (c : Dev nD) : BodyObligation (dat2 (F := F) V c) (defs₀ (F := F)) Variants.none () Set.univ := fun t => by
  rw [bigSep_W2, bigSep_W2]
  exact sound_body2 V c t

theorem hin2 (c : Dev nD) : (Pipeline.ΦA spec2 c : sProp 𝕄) ⊢ (dat2 V c).Φ 0 := .rfl

theorem hout2 (c : Dev nD) : (dat2 V c).Φ (Fin.last cfg2.N) ⊢ (Pipeline.ΦA spec2 c : sProp 𝕄) := PhiS2_le V c (Fin.last cfg2.N).val _

end Cert.KernelIdeal.Hand

end
-- ==== Proof.KI.Outs.lean ====
import proofs.«402100_j83614423319285_2_alg».proof.Proof.KI.Body0
import proofs.«402100_j83614423319285_2_alg».proof.Proof.KI.Body1
import proofs.«402100_j83614423319285_2_alg».proof.Proof.KI.Body2
import proofs.«402100_j83614423319285_2_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev Vr0 : (c : Dev nD) → (b : Ref sig .tc) → Buf (Elt F) ((c : Thread nD τ).loc b) := fun c b => Gen.V8 m c b

def outsA : Gen.Outs (F := F) := fun J r c =>
  if J = 9 then
    if h : r = main_v29_0 then h ▸ (dat0 (Vr0 m) c).arrAt 3 cfg0.N
    else if h : r = main_v29_1 then h ▸ (dat0 (Vr0 m) c).arrAt 4 cfg0.N
    else if h : r = main_v29_2 then h ▸ (dat0 (Vr0 m) c).arrAt 5 cfg0.N
    else m ((c : Thread nD τ).loc r)
  else m ((c : Thread nD τ).loc r)

abbrev Vr1 : (c : Dev nD) → (b : Ref sig .tc) → Buf (Elt F) ((c : Thread nD τ).loc b) := fun c b => Gen.V11 m (outsA m) c b

def outsB : Gen.Outs (F := F) := fun J r c =>
  if J = 12 then
    if h : r = main_v31_0 then h ▸ (dat1 (Vr1 m) c).arrAt 4 cfg1.N
    else if h : r = main_v31_1 then h ▸ (dat1 (Vr1 m) c).arrAt 5 cfg1.N
    else if h : r = main_v31_2 then h ▸ (dat1 (Vr1 m) c).arrAt 6 cfg1.N
    else m ((c : Thread nD τ).loc r)
  else outsA m J r c

abbrev Vr2 : (c : Dev nD) → (b : Ref sig .tc) → Buf (Elt F) ((c : Thread nD τ).loc b) := fun c b => Gen.V14 m (outsB m) c b

def outs : Gen.Outs (F := F) := fun J r c =>
  if J = 15 then
    if h : r = main_v33_0 then h ▸ (dat2 (Vr2 m) c).arrAt 4 cfg2.N
    else if h : r = main_v33_1 then h ▸ (dat2 (Vr2 m) c).arrAt 5 cfg2.N
    else if h : r = main_v33_2 then h ▸ (dat2 (Vr2 m) c).arrAt 6 cfg2.N
    else m ((c : Thread nD τ).loc r)
  else outsB m J r c

theorem outsB_9 (r : Ref sig .tc) (c : Dev nD) : outsB m 9 r c = outsA m 9 r c := by
  unfold outsB; rw [if_neg (show ¬ (9 : ℕ) = 12 by decide)]
theorem outs_9 (r : Ref sig .tc) (c : Dev nD) : outs m 9 r c = outsA m 9 r c := by
  unfold outs; rw [if_neg (show ¬ (9 : ℕ) = 15 by decide)]; exact outsB_9 m r c
theorem outs_12 (r : Ref sig .tc) (c : Dev nD) : outs m 12 r c = outsB m 12 r c := by
  unfold outs; rw [if_neg (show ¬ (12 : ℕ) = 15 by decide)]

theorem outsA_9_0 (c : Dev nD) : outsA m 9 main_v29_0 c = (dat0 (Vr0 m) c).arrAt 3 cfg0.N := by
  unfold outsA; rw [if_pos rfl, dif_pos rfl]
theorem outsA_9_1 (c : Dev nD) : outsA m 9 main_v29_1 c = (dat0 (Vr0 m) c).arrAt 4 cfg0.N := by
  unfold outsA; rw [if_pos rfl, dif_neg (show ¬ main_v29_1 = main_v29_0 by decide), dif_pos rfl]
theorem outsA_9_2 (c : Dev nD) : outsA m 9 main_v29_2 c = (dat0 (Vr0 m) c).arrAt 5 cfg0.N := by
  unfold outsA; rw [if_pos rfl, dif_neg (show ¬ main_v29_2 = main_v29_0 by decide), dif_neg (show ¬ main_v29_2 = main_v29_1 by decide), dif_pos rfl]
theorem outsB_12_0 (c : Dev nD) : outsB m 12 main_v31_0 c = (dat1 (Vr1 m) c).arrAt 4 cfg1.N := by
  unfold outsB; rw [if_pos rfl, dif_pos rfl]
theorem outsB_12_1 (c : Dev nD) : outsB m 12 main_v31_1 c = (dat1 (Vr1 m) c).arrAt 5 cfg1.N := by
  unfold outsB; rw [if_pos rfl, dif_neg (show ¬ main_v31_1 = main_v31_0 by decide), dif_pos rfl]
theorem outsB_12_2 (c : Dev nD) : outsB m 12 main_v31_2 c = (dat1 (Vr1 m) c).arrAt 6 cfg1.N := by
  unfold outsB; rw [if_pos rfl, dif_neg (show ¬ main_v31_2 = main_v31_0 by decide), dif_neg (show ¬ main_v31_2 = main_v31_1 by decide), dif_pos rfl]
theorem outs_15_0 (c : Dev nD) : outs m 15 main_v33_0 c = (dat2 (Vr2 m) c).arrAt 4 cfg2.N := by
  unfold outs; rw [if_pos rfl, dif_pos rfl]
theorem outs_15_1 (c : Dev nD) : outs m 15 main_v33_1 c = (dat2 (Vr2 m) c).arrAt 5 cfg2.N := by
  unfold outs; rw [if_pos rfl, dif_neg (show ¬ main_v33_1 = main_v33_0 by decide), dif_pos rfl]
theorem outs_15_2 (c : Dev nD) : outs m 15 main_v33_2 c = (dat2 (Vr2 m) c).arrAt 6 cfg2.N := by
  unfold outs; rw [if_pos rfl, dif_neg (show ¬ main_v33_2 = main_v33_0 by decide), dif_neg (show ¬ main_v33_2 = main_v33_1 by decide), dif_pos rfl]
theorem outs_9_0 (c : Dev nD) : outs m 9 main_v29_0 c = (dat0 (Vr0 m) c).arrAt 3 cfg0.N := (outs_9 m _ c).trans (outsA_9_0 m c)
theorem outs_9_1 (c : Dev nD) : outs m 9 main_v29_1 c = (dat0 (Vr0 m) c).arrAt 4 cfg0.N := (outs_9 m _ c).trans (outsA_9_1 m c)
theorem outs_9_2 (c : Dev nD) : outs m 9 main_v29_2 c = (dat0 (Vr0 m) c).arrAt 5 cfg0.N := (outs_9 m _ c).trans (outsA_9_2 m c)
theorem outs_12_0 (c : Dev nD) : outs m 12 main_v31_0 c = (dat1 (Vr1 m) c).arrAt 4 cfg1.N := (outs_12 m _ c).trans (outsB_12_0 m c)
theorem outs_12_1 (c : Dev nD) : outs m 12 main_v31_1 c = (dat1 (Vr1 m) c).arrAt 5 cfg1.N := (outs_12 m _ c).trans (outsB_12_1 m c)
theorem outs_12_2 (c : Dev nD) : outs m 12 main_v31_2 c = (dat1 (Vr1 m) c).arrAt 6 cfg1.N := (outs_12 m _ c).trans (outsB_12_2 m c)

theorem V9_outs (c : Dev nD) : Gen.V9 m (outs m) c = Gen.V9 m (outsA m) c := by
  unfold Gen.V9; rw [outs_9, outs_9, outs_9]
theorem V9_outsB (c : Dev nD) : Gen.V9 m (outsB m) c = Gen.V9 m (outsA m) c := by
  unfold Gen.V9; rw [outsB_9, outsB_9, outsB_9]
theorem V11_outs (c : Dev nD) : Gen.V11 m (outs m) c = Gen.V11 m (outsA m) c := by
  unfold Gen.V11 Gen.V10; rw [V9_outs]
theorem V11_outsB (c : Dev nD) : Gen.V11 m (outsB m) c = Gen.V11 m (outsA m) c := by
  unfold Gen.V11 Gen.V10; rw [V9_outsB]
theorem V12_outs (c : Dev nD) : Gen.V12 m (outs m) c = Gen.V12 m (outsB m) c := by
  unfold Gen.V12; rw [outs_12, outs_12, outs_12, V11_outs, V11_outsB]
theorem V14_outs (c : Dev nD) : Gen.V14 m (outs m) c = Gen.V14 m (outsB m) c := by
  unfold Gen.V14 Gen.V13; rw [V12_outs]

theorem V9_out0 (c : Dev nD) : Gen.V9 m (outs m) c main_v29_0 = outs m 9 main_v29_0 c := by
  unfold Gen.V9; rw [Function.update_of_ne (by decide), Function.update_of_ne (by decide), Function.update_self]
theorem V9_out1 (c : Dev nD) : Gen.V9 m (outs m) c main_v29_1 = outs m 9 main_v29_1 c := by
  unfold Gen.V9; rw [Function.update_of_ne (by decide), Function.update_self]
theorem V9_out2 (c : Dev nD) : Gen.V9 m (outs m) c main_v29_2 = outs m 9 main_v29_2 c := by
  unfold Gen.V9; rw [Function.update_self]
theorem V12_out0 (c : Dev nD) : Gen.V12 m (outs m) c main_v31_0 = outs m 12 main_v31_0 c := by
  unfold Gen.V12; rw [Function.update_of_ne (by decide), Function.update_of_ne (by decide), Function.update_self]
theorem V12_out1 (c : Dev nD) : Gen.V12 m (outs m) c main_v31_1 = outs m 12 main_v31_1 c := by
  unfold Gen.V12; rw [Function.update_of_ne (by decide), Function.update_self]
theorem V12_out2 (c : Dev nD) : Gen.V12 m (outs m) c main_v31_2 = outs m 12 main_v31_2 c := by
  unfold Gen.V12; rw [Function.update_self]
theorem V15_out0 (c : Dev nD) : Gen.V15 m (outs m) c main_v33_0 = outs m 15 main_v33_0 c := by
  unfold Gen.V15; rw [Function.update_of_ne (by decide), Function.update_of_ne (by decide), Function.update_self]
theorem V15_out1 (c : Dev nD) : Gen.V15 m (outs m) c main_v33_1 = outs m 15 main_v33_1 c := by
  unfold Gen.V15; rw [Function.update_of_ne (by decide), Function.update_self]
theorem V15_out2 (c : Dev nD) : Gen.V15 m (outs m) c main_v33_2 = outs m 15 main_v33_2 c := by
  unfold Gen.V15; rw [Function.update_self]

def pdats : (p : Fin 3) → (c : Dev nD) → Dat τ (Elt F) Unit ℕ (UR sig nD τ) ℕ (Pipeline.pin (pcfgs (F := F)) Gen.adm p) c
  | ⟨0, _⟩ => fun c => dat0 (Vr0 m) c
  | ⟨1, _⟩ => fun c => dat1 (Vr1 m) c
  | ⟨2, _⟩ => fun c => dat2 (Vr2 m) c

end Cert.KernelIdeal.Hand

end
-- ==== Proof.KI.LaunchCommon.lean ====
import proofs.«402100_j83614423319285_2_alg».proof.Proof.KI.Outs
import Idealize.ShloMosaic.Lib.Pipeline.Regions
import Idealize.ShloMosaic.Lib.Pipeline.Kit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev 𝒱₀ : Variants := Variants.none

abbrev L : GSem nD τ sig → Finset Unit := fun _ => ∅
abbrev lv : GSem nD τ sig → Unit → ℕ := fun _ _ => 0

abbrev Rst (c : Dev nD) : sProp 𝕄 := iprop((∃ r, prngReg c r) ∗ ∃ W, owes (c : Thread nD τ) (0 : CellTallies nD τ sig Unit) W)

end Cert.KernelIdeal.Hand

end
-- ==== Proof.KI.Reg0.lean ====
import proofs.«402100_j83614423319285_2_alg».proof.Proof.KI.LaunchCommon
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hF0 (c : Dev nD) (w : Fin cfg0.W) :
    (dat0 (Vr0 m) c).arrAt w cfg0.N = (fun b : Ref sig .tc => Gen.V9 m (outs m) c b) (Pipeline.arrRef spec0 w) := by
  have hin : ∀ w : Fin cfg0.W, (cfg0.win w).isOut = false →
      Pipeline.arrRef spec0 w ∉ ([main_v29_0, main_v29_1, main_v29_2] : List (Ref sig .tc)) →
      (dat0 (Vr0 m) c).arrAt w cfg0.N = Gen.V9 m (outs m) c (Pipeline.arrRef spec0 w) := fun w h1 h2 =>
    ((dat0 (Vr0 m) c).arrAt_in w h1 _).trans
      ((A_eq0 (Vr0 m) c w).trans (Gen.V9_of m (outs m) c (Pipeline.arrRef spec0 w) h2).symm)
  revert w
  show ∀ w : Fin 6, (dat0 (Vr0 m) c).arrAt w cfg0.N = Gen.V9 m (outs m) c (Pipeline.arrRef spec0 w)
  intro w
  match w with
  | ⟨0, _⟩ => exact hin 0 rfl (by decide)
  | ⟨1, _⟩ => exact hin 1 rfl (by decide)
  | ⟨2, _⟩ => exact hin 2 rfl (by decide)
  | ⟨3, _⟩ => exact (outs_9_0 m c).symm.trans (V9_out0 m c).symm
  | ⟨4, _⟩ => exact (outs_9_1 m c).symm.trans (V9_out1 m c).symm
  | ⟨5, _⟩ => exact (outs_9_2 m c).symm.trans (V9_out2 m c).symm

theorem hrest0 (c : Dev nD) : ∀ b : Ref sig .tc, b ∉ Finset.univ.image (Pipeline.arrRef spec0) →
    (fun b : Ref sig .tc => Gen.V9 m (outs m) c b) b = (fun b : Ref sig .tc => Gen.V8 m c b) b := fun b hb =>
  Gen.V9_of m (outs m) c b (fun h => hb (by
    simp only [List.mem_cons, List.mem_nil_iff, or_false] at h
    rcases h with rfl | rfl | rfl
    · exact Finset.mem_image.mpr ⟨3, Finset.mem_univ _, rfl⟩
    · exact Finset.mem_image.mpr ⟨4, Finset.mem_univ _, rfl⟩
    · exact Finset.mem_image.mpr ⟨5, Finset.mem_univ _, rfl⟩))

set_option backward.isDefEq.respectTransparency.types false in

def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr0 m) c).loose
  hwaits := Pipeline.hwaits_of_owed_zero _ _ _ _ L lv 0 fun c t => owed_eq0 (Vr0 m) c t
  pre c := iprop(StableHlo.held (c : Thread nD τ) (Pipeline.ucRefs τ sig) (Gen.V8 m c) ∗ Rst c)
  post c := iprop(StableHlo.held (c : Thread nD τ) (Pipeline.ucRefs τ sig) (Gen.V9 m (outs m) c) ∗ Rst c)
  X c := iprop(∃ r, prngReg c r)
  Y c := iprop(∃ r, prngReg c r)
  Z c := Pipeline.unscopedRest (Ix := Unit) (Name := ℕ) (U := UR sig nD τ) (Lvl := ℕ) spec0 c (fun b : Ref sig .tc => Gen.V8 m c b)
  hentry c := by
    rw [Pipeline.ownSems0_none]
    have hsplit := Pipeline.arrays_of_unscopedBufs (p := 0) (pcfgs (F := F)) Gen.adm (pdats m) launch0.win launch0.arr_whole c
      ((pdats m 0 c).share_full fun w => q_eq0 (Vr0 m) c w) (fun b : Ref sig .tc => Gen.V8 m c b) (fun w => A_eq0 (Vr0 m) c w)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 0 c).owed 0 = 0 from owed_eq0 (Vr0 m) c 0]
      icases HO with ⟨%W, HO⟩; iexists W; isplitr
      · ipureintro
        exact fun x _ => Or.inl (by
          show x ∈ (dat0 (Vr0 m) c).recorded 0
          rw [recorded_eq0 (Vr0 m) c 0]; exact Set.mem_univ x)
      iexact HO
    isplitl [Hp]; · iexact Hp
    iexact Hrest
  hin c := by
    refine (?_ : _ ⊢ (Pipeline.ΦA spec0 c : sProp 𝕄)).trans (hin0 (Vr0 m) c)
    unfold Pipeline.ΦA
    iintro ⟨Hp, -, Hr⟩
    isplitl [Hr]; · iexact Hr
    iexact Hp
  hout c := by
    rw [Pipeline.ownSems0_none]
    refine (hout0 (Vr0 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := UR sig nD τ) (Lvl := ℕ)
      launch0.win launch0.arr_whole c (pdats m) ((pdats m 0 c).share_full fun w => q_eq0 (Vr0 m) c w)
      (fun b : Ref sig .tc => Gen.V8 m c b) (fun b : Ref sig .tc => Gen.V9 m (outs m) c b) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 0 c).owed (Fin.last _) = 0 from owed_eq0 (Vr0 m) c _]
    icases HO with ⟨%W, -, HO⟩; iexists W
    iexact HO

end Cert.KernelIdeal.Hand

end
-- ==== Proof.KI.Reg1.lean ====
import proofs.«402100_j83614423319285_2_alg».proof.Proof.KI.LaunchCommon
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hF1 (c : Dev nD) (w : Fin cfg1.W) :
    (dat1 (Vr1 m) c).arrAt w cfg1.N = (fun b : Ref sig .tc => Gen.V12 m (outs m) c b) (Pipeline.arrRef spec1 w) := by
  have hin : ∀ w : Fin cfg1.W, (cfg1.win w).isOut = false →
      Pipeline.arrRef spec1 w ∉ ([main_v31_0, main_v31_1, main_v31_2] : List (Ref sig .tc)) →
      (dat1 (Vr1 m) c).arrAt w cfg1.N = Gen.V12 m (outs m) c (Pipeline.arrRef spec1 w) := fun w h1 h2 =>
    ((dat1 (Vr1 m) c).arrAt_in w h1 _).trans
      (((A_eq1 (Vr1 m) c w).trans (congrFun (V11_outs m c) _).symm).trans (Gen.V12_of m (outs m) c (Pipeline.arrRef spec1 w) h2).symm)
  revert w
  show ∀ w : Fin 7, (dat1 (Vr1 m) c).arrAt w cfg1.N = Gen.V12 m (outs m) c (Pipeline.arrRef spec1 w)
  intro w
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (outs_12_0 m c).symm.trans (V12_out0 m c).symm
  | ⟨5, _⟩ => exact (outs_12_1 m c).symm.trans (V12_out1 m c).symm
  | ⟨6, _⟩ => exact (outs_12_2 m c).symm.trans (V12_out2 m c).symm

theorem hrest1 (c : Dev nD) : ∀ b : Ref sig .tc, b ∉ Finset.univ.image (Pipeline.arrRef spec1) →
    (fun b : Ref sig .tc => Gen.V12 m (outs m) c b) b = (fun b : Ref sig .tc => Gen.V11 m (outs m) c b) b := fun b hb =>
  Gen.V12_of m (outs m) c b (fun h => hb (by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

set_option backward.isDefEq.respectTransparency.types false in

def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr1 m) c).loose
  hwaits := Pipeline.hwaits_of_owed_zero _ _ _ _ L lv 1 fun c t => owed_eq1 (Vr1 m) c t
  pre c := iprop(StableHlo.held (c : Thread nD τ) (Pipeline.ucRefs τ sig) (Gen.V11 m (outs m) c) ∗ Rst c)
  post c := iprop(StableHlo.held (c : Thread nD τ) (Pipeline.ucRefs τ sig) (Gen.V12 m (outs m) c) ∗ Rst c)
  X c := iprop(∃ r, prngReg c r)
  Y c := iprop(∃ r, prngReg c r)
  Z c := Pipeline.unscopedRest (Ix := Unit) (Name := ℕ) (U := UR sig nD τ) (Lvl := ℕ) spec1 c (fun b : Ref sig .tc => Gen.V11 m (outs m) c b)
  hentry c := by
    rw [Pipeline.ownSems0_none]
    have hsplit := Pipeline.arrays_of_unscopedBufs (p := 1) (pcfgs (F := F)) Gen.adm (pdats m) launch1.win launch1.arr_whole c
      ((pdats m 1 c).share_full fun w => q_eq1 (Vr1 m) c w) (fun b : Ref sig .tc => Gen.V11 m (outs m) c b) (fun w => (A_eq1 (Vr1 m) c w).trans (congrFun (V11_outs m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 1 c).owed 0 = 0 from owed_eq1 (Vr1 m) c 0]
      icases HO with ⟨%W, HO⟩; iexists W; isplitr
      · ipureintro
        exact fun x _ => Or.inl (by
          show x ∈ (dat1 (Vr1 m) c).recorded 0
          rw [recorded_eq1 (Vr1 m) c 0]; exact Set.mem_univ x)
      iexact HO
    isplitl [Hp]; · iexact Hp
    iexact Hrest
  hin c := by
    refine (?_ : _ ⊢ (Pipeline.ΦA spec1 c : sProp 𝕄)).trans (hin1 (Vr1 m) c)
    unfold Pipeline.ΦA
    iintro ⟨Hp, -, Hr⟩
    isplitl [Hr]; · iexact Hr
    iexact Hp
  hout c := by
    rw [Pipeline.ownSems0_none]
    refine (hout1 (Vr1 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := UR sig nD τ) (Lvl := ℕ)
      launch1.win launch1.arr_whole c (pdats m) ((pdats m 1 c).share_full fun w => q_eq1 (Vr1 m) c w)
      (fun b : Ref sig .tc => Gen.V11 m (outs m) c b) (fun b : Ref sig .tc => Gen.V12 m (outs m) c b) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 1 c).owed (Fin.last _) = 0 from owed_eq1 (Vr1 m) c _]
    icases HO with ⟨%W, -, HO⟩; iexists W
    iexact HO

end Cert.KernelIdeal.Hand

end
-- ==== Proof.KI.Reg2.lean ====
import proofs.«402100_j83614423319285_2_alg».proof.Proof.KI.LaunchCommon
import Idealize.ShloMosaic.Lib.Pipeline.RegionsLoop

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

theorem hF2 (c : Dev nD) (w : Fin cfg2.W) :
    (dat2 (Vr2 m) c).arrAt w cfg2.N = (fun b : Ref sig .tc => Gen.V15 m (outs m) c b) (Pipeline.arrRef spec2 w) := by
  have hin : ∀ w : Fin cfg2.W, (cfg2.win w).isOut = false →
      Pipeline.arrRef spec2 w ∉ ([main_v33_0, main_v33_1, main_v33_2] : List (Ref sig .tc)) →
      (dat2 (Vr2 m) c).arrAt w cfg2.N = Gen.V15 m (outs m) c (Pipeline.arrRef spec2 w) := fun w h1 h2 =>
    ((dat2 (Vr2 m) c).arrAt_in w h1 _).trans
      (((A_eq2 (Vr2 m) c w).trans (congrFun (V14_outs m c) _).symm).trans (Gen.V15_of m (outs m) c (Pipeline.arrRef spec2 w) h2).symm)
  revert w
  show ∀ w : Fin 7, (dat2 (Vr2 m) c).arrAt w cfg2.N = Gen.V15 m (outs m) c (Pipeline.arrRef spec2 w)
  intro w
  match w with
  | ⟨0, _⟩ => exact hin 0 rfl (by decide)
  | ⟨1, _⟩ => exact hin 1 rfl (by decide)
  | ⟨2, _⟩ => exact hin 2 rfl (by decide)
  | ⟨3, _⟩ => exact hin 3 rfl (by decide)
  | ⟨4, _⟩ => exact (outs_15_0 m c).symm.trans (V15_out0 m c).symm
  | ⟨5, _⟩ => exact (outs_15_1 m c).symm.trans (V15_out1 m c).symm
  | ⟨6, _⟩ => exact (outs_15_2 m c).symm.trans (V15_out2 m c).symm

theorem hrest2 (c : Dev nD) : ∀ b : Ref sig .tc, b ∉ Finset.univ.image (Pipeline.arrRef spec2) →
    (fun b : Ref sig .tc => Gen.V15 m (outs m) c b) b = (fun b : Ref sig .tc => Gen.V14 m (outs m) c b) b := fun b hb =>
  Gen.V15_of m (outs m) c b (fun h => hb (by
    simp only [List.mem_cons, List.mem_nil_iff, or_false] at h
    rcases h with rfl | rfl | rfl
    · exact Finset.mem_image.mpr ⟨4, Finset.mem_univ _, rfl⟩
    · exact Finset.mem_image.mpr ⟨5, Finset.mem_univ _, rfl⟩
    · exact Finset.mem_image.mpr ⟨6, Finset.mem_univ _, rfl⟩))

set_option backward.isDefEq.respectTransparency.types false in

def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Vr2 m) c).loose
  hwaits := Pipeline.hwaits_of_owed_zero _ _ _ _ L lv 2 fun c t => owed_eq2 (Vr2 m) c t
  pre c := iprop(StableHlo.held (c : Thread nD τ) (Pipeline.ucRefs τ sig) (Gen.V14 m (outs m) c) ∗ Rst c)
  post c := iprop(StableHlo.held (c : Thread nD τ) (Pipeline.ucRefs τ sig) (Gen.V15 m (outs m) c) ∗ Rst c)
  X c := iprop(∃ r, prngReg c r)
  Y c := iprop(∃ r, prngReg c r)
  Z c := Pipeline.unscopedRest (Ix := Unit) (Name := ℕ) (U := UR sig nD τ) (Lvl := ℕ) spec2 c (fun b : Ref sig .tc => Gen.V14 m (outs m) c b)
  hentry c := by
    rw [Pipeline.ownSems0_none]
    have hsplit := Pipeline.arrays_of_unscopedBufs (p := 2) (pcfgs (F := F)) Gen.adm (pdats m) launch2.win launch2.arr_whole c
      ((pdats m 2 c).share_full fun w => q_eq2 (Vr2 m) c w) (fun b : Ref sig .tc => Gen.V14 m (outs m) c b) (fun w => (A_eq2 (Vr2 m) c w).trans (congrFun (V14_outs m c) _).symm)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m 2 c).owed 0 = 0 from owed_eq2 (Vr2 m) c 0]
      icases HO with ⟨%W, HO⟩; iexists W; isplitr
      · ipureintro
        exact fun x _ => Or.inl (by
          show x ∈ (dat2 (Vr2 m) c).recorded 0
          rw [recorded_eq2 (Vr2 m) c 0]; exact Set.mem_univ x)
      iexact HO
    isplitl [Hp]; · iexact Hp
    iexact Hrest
  hin c := by
    refine (?_ : _ ⊢ (Pipeline.ΦA spec2 c : sProp 𝕄)).trans (hin2 (Vr2 m) c)
    unfold Pipeline.ΦA
    iintro ⟨Hp, -, Hr⟩
    isplitl [Hr]; · iexact Hr
    iexact Hp
  hout c := by
    rw [Pipeline.ownSems0_none]
    refine (hout2 (Vr2 m) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := UR sig nD τ) (Lvl := ℕ)
      launch2.win launch2.arr_whole c (pdats m) ((pdats m 2 c).share_full fun w => q_eq2 (Vr2 m) c w)
      (fun b : Ref sig .tc => Gen.V14 m (outs m) c b) (fun b : Ref sig .tc => Gen.V15 m (outs m) c b) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m 2 c).owed (Fin.last _) = 0 from owed_eq2 (Vr2 m) c _]
    icases HO with ⟨%W, -, HO⟩; iexists W
    iexact HO

end Cert.KernelIdeal.Hand

end
-- ==== Proof.KI.RunMain.lean ====
import proofs.«402100_j83614423319285_2_alg».proof.Proof.KI.Reg0
import proofs.«402100_j83614423319285_2_alg».proof.Proof.KI.Reg1
import proofs.«402100_j83614423319285_2_alg».proof.Proof.KI.Reg2

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

abbrev Es : Fin 4 → Dev nD → sProp 𝕄 := fun _ c => Rst c

set_option backward.isDefEq.respectTransparency.types false in

theorem run_value : θ_run defs (onTc (τ := τ) (main (F := F))) ⟨m, fun _ => 0, ρ⟩ (fun r => ∀ c : Dev nD,
      r.2.mem ((c.tc : Thread nD τ).loc main_v74) = Gen.V22 m (outs m) c main_v74
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) := by
  refine Pipeline.θ_run_regions_kit_dev (pcfgs (F := F)) Gen.adm (pdats m) () cellOf_inj emb₁ defs₀ 𝒱₀ L lv m ρ main
    (Gen.segs m (outs m) 𝒱₀ L lv (Es (F := F)) () (pdats m) (reg0 m) (reg1 m) (reg2 m))
    (fun c Q => by
      rewrite [main_chain c, Seg.run_eq_chain,
        show (Gen.segs m (outs m) 𝒱₀ L lv (Es (F := F)) () (pdats m) (reg0 m) (reg1 m) (reg2 m) c).map Seg.prog = [
          StableHlo.seq hostOps0,
          StableHlo.seq hostOps0_1,
          StableHlo.seq hostOps0_2,
          StableHlo.seq hostOps0_3,
          StableHlo.seq hostOps0_4,
          StableHlo.seq hostOps0_5,
          StableHlo.seq hostOps0_6,
          StableHlo.seq hostOps0_7,
          Prog.lift (.customCall (Pipeline.entry 0) ()),
          StableHlo.seq hostOps1,
          StableHlo.seq hostOps1_1,
          Prog.lift (.customCall (Pipeline.entry 1) ()),
          StableHlo.seq hostOps2,
          StableHlo.seq hostOps2_1,
          Prog.lift (.customCall (Pipeline.entry 2) ()),
          StableHlo.seq hostOps3,
          StableHlo.seq hostOps3_1,
          StableHlo.seq hostOps3_2,
          StableHlo.seq hostOps3_3,
          StableHlo.seq hostOps3_4,
          StableHlo.seq hostOps3_5,
          StableHlo.seq hostOps3_6 ] from rfl]
      exact .rfl)
    (fun c => by simp only [Gen.segs, Seg.pipes_host, Seg.pipes_region, Seg.pipes_nil]; decide) (O₀ := 0) (fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ Rst c))
    (Tₙ := fun c => StableHlo.held (c : Thread nD τ) (Pipeline.ucRefs τ sig) (Gen.V22 m (outs m) c))
    (hch := fun c => ⟨.rfl, .rfl, .rfl, .rfl, .rfl, .rfl, .rfl, .rfl, .rfl, .rfl, .rfl, .rfl, .rfl, .rfl, .rfl, .rfl, .rfl, .rfl, .rfl, .rfl, .rfl, .rfl,
      sep_mono .rfl (by iintro ⟨-, HO⟩; iexact HO)⟩)
    (hinit := ?_) (QY := fun c s => s.mem ((c.tc : Thread nD τ).loc main_v74) = Gen.V22 m (outs m) c main_v74
      ∧ s.mem ((c.tc : Thread nD τ).loc main_arg0) = m ((c.tc : Thread nD τ).loc main_arg0)
      ∧ s.mem ((c.tc : Thread nD τ).loc main_arg1) = m ((c.tc : Thread nD τ).loc main_arg1)
      ∧ s.mem ((c.tc : Thread nD τ).loc main_arg2) = m ((c.tc : Thread nD τ).loc main_arg2)
      ∧ s.mem ((c.tc : Thread nD τ).loc main_arg3) = m ((c.tc : Thread nD τ).loc main_arg3)
      ∧ s.mem ((c.tc : Thread nD τ).loc main_arg4) = m ((c.tc : Thread nD τ).loc main_arg4)
      ∧ s.mem ((c.tc : Thread nD τ).loc main_arg5) = m ((c.tc : Thread nD τ).loc main_arg5)
      ∧ s.mem ((c.tc : Thread nD τ).loc main_arg6) = m ((c.tc : Thread nD τ).loc main_arg6)
      ∧ s.mem ((c.tc : Thread nD τ).loc main_arg7) = m ((c.tc : Thread nD τ).loc main_arg7))
    (hfin := fun c s' => ?_) (hQ := fun _ h => h)
  ·
    refine Pipeline.initEach L lv fun c => ?_
    rw [show unscopedBufs c (fun b => m ((c : Thread nD τ).loc b)) = StableHlo.held (c : Thread nD τ) (Pipeline.ucRefs τ sig) (Gen.V0 m c)
      from Pipeline.unscopedBufs_held c (Gen.V0 m c)]
    iintro ⟨⟨Hh, -, HO, -, Hp, -⟩, -⟩
    imodintro
    isplitl [Hh]; · iexact Hh
    isplitl [Hp]; · iexists _; iexact Hp
    iexists ∅; iexact HO
  ·
    unfold StableHlo.held
    iintro ⟨Hh, HSI⟩
    ihave Hr := (pointsTo_read_all (Pipeline.ucRefs τ sig) (fun b => ((c : Thread nD τ).1, b)) (Gen.V22 m (outs m) c) s') $$ [Hh HSI]
    · isplitl [Hh] <;> iassumption
    icases Hr with ⟨%h, HSI⟩
    imodintro
    isplitr
    · ipureintro
      exact ⟨h (Proc.devRef .tc main_v74) (Finset.mem_filter.mpr ⟨StableHlo.devRef_mem_tcRefs main_v74, by decide⟩),
        (h (Proc.devRef .tc main_arg0) (Finset.mem_filter.mpr ⟨StableHlo.devRef_mem_tcRefs main_arg0, by decide⟩)).trans (Gen.V22_main_arg0 m (outs m) c),
        (h (Proc.devRef .tc main_arg1) (Finset.mem_filter.mpr ⟨StableHlo.devRef_mem_tcRefs main_arg1, by decide⟩)).trans (Gen.V22_main_arg1 m (outs m) c),
        (h (Proc.devRef .tc main_arg2) (Finset.mem_filter.mpr ⟨StableHlo.devRef_mem_tcRefs main_arg2, by decide⟩)).trans (Gen.V22_main_arg2 m (outs m) c),
        (h (Proc.devRef .tc main_arg3) (Finset.mem_filter.mpr ⟨StableHlo.devRef_mem_tcRefs main_arg3, by decide⟩)).trans (Gen.V22_main_arg3 m (outs m) c),
        (h (Proc.devRef .tc main_arg4) (Finset.mem_filter.mpr ⟨StableHlo.devRef_mem_tcRefs main_arg4, by decide⟩)).trans (Gen.V22_main_arg4 m (outs m) c),
        (h (Proc.devRef .tc main_arg5) (Finset.mem_filter.mpr ⟨StableHlo.devRef_mem_tcRefs main_arg5, by decide⟩)).trans (Gen.V22_main_arg5 m (outs m) c),
        (h (Proc.devRef .tc main_arg6) (Finset.mem_filter.mpr ⟨StableHlo.devRef_mem_tcRefs main_arg6, by decide⟩)).trans (Gen.V22_main_arg6 m (outs m) c),
        (h (Proc.devRef .tc main_arg7) (Finset.mem_filter.mpr ⟨StableHlo.devRef_mem_tcRefs main_arg7, by decide⟩)).trans (Gen.V22_main_arg7 m (outs m) c)⟩
    · iexact HSI

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => (h c).2) (run_value m ρ)

end Cert.KernelIdeal.Hand

end
-- ==== Proof.Spec.lean ====
import Idealize.ShloMosaic.PureOps.Ideal
import Idealize.ShloMosaic.Lib.ValueIdx
import Mathlib.Data.EReal.Basic
import Mathlib.Data.Finset.Fold
import Mathlib.Algebra.BigOperators.Group.Finset.Basic

noncomputable section

open scoped BigOperators

namespace Cert.Spec

open Idealize.ShloMosaic Idealize.ShloMosaic.ValueIdx

abbrev Mat (m n : Nat) : Type := (⟨2, ![m, n]⟩ : Shape).Idx → EReal

abbrev Tgt : Type := (⟨1, ![4096]⟩ : Shape).Idx → BitVec 32

def dotT {m n d : Nat} (a : Mat m d) (b : Mat n d) (r : Fin m) (j : Fin n) : EReal :=
  ∑ k : Fin d, a (ix2 r k) * b (ix2 j k)

def dotT' {m n d : Nat} (h : Fin m → Fin d → EReal) (w : Mat n d) (r : Fin m) (j : Fin n) : EReal :=
  ∑ k : Fin d, h r k * w (ix2 j k)

def zHead (x : Mat 4096 1024) (Wh : Mat 20000 1024) : Fin 4096 → Fin 20000 → EReal := dotT x Wh

def zCluster (x : Mat 4096 1024) (Wc : Mat 2 1024) : Fin 4096 → Fin 2 → EReal := dotT x Wc

def headLogits (x : Mat 4096 1024) (Wh : Mat 20000 1024) (Wc : Mat 2 1024) (r : Fin 4096) (j : Fin 20002) : EReal :=
  if h : j.val < 20000 then zHead x Wh r ⟨j.val, h⟩ else zCluster x Wc r ⟨j.val - 20000, by omega⟩

def h1 (x : Mat 4096 1024) (P1 : Mat 256 1024) : Fin 4096 → Fin 256 → EReal := dotT x P1

def z1 (x : Mat 4096 1024) (P1 : Mat 256 1024) (W1 : Mat 20000 256) : Fin 4096 → Fin 20000 → EReal :=
  dotT' (h1 x P1) W1

def h2 (x : Mat 4096 1024) (P2 : Mat 64 1024) : Fin 4096 → Fin 64 → EReal := dotT x P2

def z2 (x : Mat 4096 1024) (P2 : Mat 64 1024) (W2 : Mat 10257 64) : Fin 4096 → Fin 10257 → EReal :=
  dotT' (h2 x P2) W2

def rowMax {n : Nat} (v : Fin n → EReal) : EReal := Finset.univ.fold max ⊥ v

def lsm {n : Nat} (v : Fin n → EReal) (i : Fin n) : EReal :=
  (v i - rowMax v) - Ideal.log (∑ j : Fin n, Ideal.exp (v j - rowMax v))

def pick {n : Nat} (v : Fin n → EReal) (i : Int) : EReal :=
  if h : 0 ≤ i ∧ i < (n : Int) then v ⟨i.toNat, by omega⟩ else 0

def tgt (t : Tgt) (r : Fin 4096) : Int := (t (ix1 r)).toInt

def mask0 (t : Tgt) (r : Fin 4096) : Prop := tgt t r < 20000

def mask1 (t : Tgt) (r : Fin 4096) : Prop := 20000 ≤ tgt t r ∧ tgt t r < 40000

def mask2 (t : Tgt) (r : Fin 4096) : Prop := 40000 ≤ tgt t r

instance (t : Tgt) (r : Fin 4096) : Decidable (mask0 t r) := by unfold mask0; infer_instance
instance (t : Tgt) (r : Fin 4096) : Decidable (mask1 t r) := by unfold mask1; infer_instance
instance (t : Tgt) (r : Fin 4096) : Decidable (mask2 t r) := by unfold mask2; infer_instance

def lsmHead (x : Mat 4096 1024) (Wh : Mat 20000 1024) (Wc : Mat 2 1024) (r : Fin 4096) : Fin 20002 → EReal :=
  lsm (headLogits x Wh Wc r)

def lp0 (x : Mat 4096 1024) (t : Tgt) (Wh : Mat 20000 1024) (Wc : Mat 2 1024) (r : Fin 4096) : EReal :=
  pick (lsmHead x Wh Wc r) (if mask0 t r then tgt t r else 0)

def lp1 (x : Mat 4096 1024) (t : Tgt) (Wh : Mat 20000 1024) (Wc : Mat 2 1024) (P1 : Mat 256 1024) (W1 : Mat 20000 256)
    (r : Fin 4096) : EReal :=
  lsmHead x Wh Wc r ⟨20000, by omega⟩ + pick (lsm (z1 x P1 W1 r)) (if mask1 t r then tgt t r - 20000 else 0)

def lp2 (x : Mat 4096 1024) (t : Tgt) (Wh : Mat 20000 1024) (Wc : Mat 2 1024) (P2 : Mat 64 1024) (W2 : Mat 10257 64)
    (r : Fin 4096) : EReal :=
  lsmHead x Wh Wc r ⟨20001, by omega⟩ + pick (lsm (z2 x P2 W2 r)) (if mask2 t r then tgt t r - 40000 else 0)

def nll (x : Mat 4096 1024) (t : Tgt) (Wh : Mat 20000 1024) (Wc : Mat 2 1024) (P1 : Mat 256 1024) (W1 : Mat 20000 256)
    (P2 : Mat 64 1024) (W2 : Mat 10257 64) : EReal :=
  -(((∑ r : Fin 4096, if mask0 t r then lp0 x t Wh Wc r else 0)
      + ∑ r : Fin 4096, if mask1 t r then lp1 x t Wh Wc P1 W1 r else 0)
      + ∑ r : Fin 4096, if mask2 t r then lp2 x t Wh Wc P2 W2 r else 0)

end Cert.Spec

end
-- ==== Proof.KI.HostPre0.lean ====
import proofs.«402100_j83614423319285_2_alg».proof.Proof.Gen.KernelIdeal.Regions
import Idealize.ShloMosaic.Lib.Pipeline.Value
import Idealize.ShloMosaic.Lib.ValueIdx
import Idealize.ShloMosaic.Lib.ValueLayout
import Idealize.ShloMosaic.Lib.KernelVsHost
import Idealize.ShloMosaic.PureOps.Ideal.Laws
import proofs.«402100_j83614423319285_2_alg».proof.Proof.Spec

set_option maxRecDepth 1192

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (outs : Gen.Outs (F := Ideal))

abbrev argX (c : Dev nD) : FVec Ideal S4096x1024 .f32 := m ((c : Thread nD τ).loc main_arg0)

abbrev argT (c : Dev nD) : IVec S4096 32 := m ((c : Thread nD τ).loc main_arg1)

abbrev argWh (c : Dev nD) : FVec Ideal S20000x1024 .f32 := m ((c : Thread nD τ).loc main_arg2)

abbrev argWc (c : Dev nD) : FVec Ideal S2x1024 .f32 := m ((c : Thread nD τ).loc main_arg3)

abbrev argP1 (c : Dev nD) : FVec Ideal S256x1024 .f32 := m ((c : Thread nD τ).loc main_arg4)

abbrev argW1 (c : Dev nD) : FVec Ideal S20000x256 .f32 := m ((c : Thread nD τ).loc main_arg5)

abbrev argP2 (c : Dev nD) : FVec Ideal S64x1024 .f32 := m ((c : Thread nD τ).loc main_arg6)

abbrev argW2 (c : Dev nD) : FVec Ideal S10257x64 .f32 := m ((c : Thread nD τ).loc main_arg7)

theorem select_mask0 {α : Type} (t : Cert.Spec.Tgt) (r : Fin 4096) (A B : α) :
    Scalar.select (IntOp.cmpi .slt (t (ix1 r)) 20000#32) A B = if Cert.Spec.mask0 t r then A else B := by
  by_cases h : Cert.Spec.mask0 t r
  · rw [if_pos h]
    have h' : (t (ix1 r)).toInt < 20000 := h
    simp [Scalar.select, IntOp.cmpi, BitVec.slt, h']
  · rw [if_neg h]
    have h' : ¬ (t (ix1 r)).toInt < 20000 := h
    simp [Scalar.select, IntOp.cmpi, BitVec.slt, h']

theorem select_mask1 {α : Type} (t : Cert.Spec.Tgt) (r : Fin 4096) (A B : α) :
    Scalar.select (IntOp.andi (IntOp.cmpi .sge (t (ix1 r)) 20000#32) (IntOp.cmpi .slt (t (ix1 r)) 40000#32)) A B
      = if Cert.Spec.mask1 t r then A else B := by
  by_cases h : Cert.Spec.mask1 t r
  · rw [if_pos h]
    have h1 : 20000 ≤ (t (ix1 r)).toInt := h.1
    have h2 : (t (ix1 r)).toInt < 40000 := h.2
    simp [Scalar.select, IntOp.cmpi, IntOp.andi, BitVec.slt, BitVec.sle, h1, h2]
  · rw [if_neg h]
    by_cases h1 : 20000 ≤ (t (ix1 r)).toInt
    · have h2 : ¬ (t (ix1 r)).toInt < 40000 := fun h2 => h ⟨h1, h2⟩
      simp [Scalar.select, IntOp.cmpi, IntOp.andi, BitVec.slt, BitVec.sle, h1, h2]
    · simp [Scalar.select, IntOp.cmpi, IntOp.andi, BitVec.slt, BitVec.sle, h1]

theorem select_mask2 {α : Type} (t : Cert.Spec.Tgt) (r : Fin 4096) (A B : α) :
    Scalar.select (IntOp.cmpi .sge (t (ix1 r)) 40000#32) A B = if Cert.Spec.mask2 t r then A else B := by
  by_cases h : Cert.Spec.mask2 t r
  · rw [if_pos h]
    have h' : 40000 ≤ (t (ix1 r)).toInt := h
    simp [Scalar.select, IntOp.cmpi, BitVec.sle, h']
  · rw [if_neg h]
    have h' : ¬ 40000 ≤ (t (ix1 r)).toInt := h
    simp [Scalar.select, IntOp.cmpi, BitVec.sle, h']

theorem sitofp_zero (φ : FTy) : (FloatOps.sitofp (F := Ideal) φ (0#32 : BitVec 32) : EReal) = 0 := by
  show (((0#32 : BitVec 32).toInt : ℝ) : EReal) = 0
  simp

theorem v19_eq (c : Dev nD) :
    (Gen.V8 m c main_v19 : FVec Ideal S4096x1024 .bf16) = truncf .bf16 (argX m c) bitsLt_bf16_f32 := by
  rw [Gen.V8_of m c main_v19 (by decide)]
  dsimp only [Gen.V7, Gen.hostOps0_6]
  after_results

theorem v19_apply (c : Dev nD) (r : Fin 4096) (k : Fin 1024) :
    (Gen.V8 m c main_v19 : FVec Ideal S4096x1024 .bf16) (ix2 r k) = argX m c (ix2 r k) := by
  rw [v19_eq]; rfl

theorem v28_eq (c : Dev nD) :
    (Gen.V8 m c main_v28 : FVec Ideal S20480x1024 .bf16)
      = pad S20480x1024 ![0, 0] ![480, 0] ![0, 0] (truncf .bf16 (argWh m c) bitsLt_bf16_f32 : FVec Ideal S20000x1024 .bf16)
          (sitofp .bf16 (constantI S_ 32 0#32) : FVec Ideal S_ .bf16) pads_S20000x1024_S20480x1024_04800_000 h_S_ := by
  dsimp only [Gen.V8, Gen.V7, Gen.hostOps0_7, Gen.hostOps0_6]
  after_results
  rfl

theorem v28_apply_lt (c : Dev nD) (r : Fin 20480) (k : Fin 1024) (hr : r.val < 20000) :
    (Gen.V8 m c main_v28 : FVec Ideal S20480x1024 .bf16) (ix2 r k) = argWh m c (ix2 (⟨r.val, hr⟩ : Fin 20000) k) := by
  rw [v28_eq]
  refine (pad_apply_of_inside _ _ _ _ _ pads_S20000x1024_S20480x1024_04800_000 h_S_ (ix2 r k)
    (ix2 (⟨r.val, hr⟩ : Fin 20000) k) (fun a => ?_)).trans rfl
  match a with
  | ⟨0, _⟩ => show r.val = 0 + r.val * (0 + 1); omega
  | ⟨1, _⟩ => show k.val = 0 + k.val * (0 + 1); omega

theorem v28_apply_ge (c : Dev nD) (r : Fin 20480) (k : Fin 1024) (hr : 20000 ≤ r.val) :
    (Gen.V8 m c main_v28 : FVec Ideal S20480x1024 .bf16) (ix2 r k) = (0 : EReal) := by
  rw [v28_eq]
  refine Eq.trans (pad_apply_of_not_inside _ _ _ _ _ pads_S20000x1024_S20480x1024_04800_000 h_S_ (ix2 r k) (0 : Fin 2) ?_)
    ?_
  swap
  · exact sitofp_zero .bf16
  show ¬(0 ≤ r.val ∧ (r.val - 0) % (0 + 1) = 0 ∧ (r.val - 0) / (0 + 1) < 20000)
  omega

theorem v10_apply (c : Dev nD) (r : Fin 4096) :
    (Gen.V8 m c main_v10 : IVec S4096x1 32) (ix2 r (0 : Fin 1))
      = if Cert.Spec.mask0 (argT m c) r then argT m c (ix1 r) else 0#32 := by
  rw [Gen.V8_of m c main_v10 (by decide), Gen.V7_of m c main_v10 (by decide), Gen.V6_of m c main_v10 (by decide),
    Gen.V5_of m c main_v10 (by decide), Gen.V4_of m c main_v10 (by decide)]
  have e : (Gen.V3 m c main_v10 : IVec S4096x1 32)
      = shapeCast S4096x1 (select (cmpi .slt (argT m c) (broadcastInDim S4096 ![] bcast_S_S4096 (constantI S_ 32 20000#32)))
          (argT m c) (broadcastInDim S4096 ![] bcast_S_S4096 (constantI S_ 32 0#32))) shapeCasts_S4096_S4096x1 := by
    dsimp only [Gen.V3, Gen.V2, Gen.V1, Gen.hostOps0_2, Gen.hostOps0_1, Gen.hostOps0]
    after_results
    rfl
  rw [e]
  refine (shapeCast_apply _ shapeCasts_S4096_S4096x1 (ix2 r (0 : Fin 1)) (ix1 r) ?_).trans
    (select_mask0 (argT m c) r _ _)
  rw [Shape.rowMajor_val_one, Shape.rowMajor_val_two]
  show r.val = r.val * 1 + 0
  omega

end Cert.KernelIdeal.Hand

end
-- ==== Proof.KI.HostCluster.lean ====
import proofs.«402100_j83614423319285_2_alg».proof.Proof.KI.HostPre0

set_option maxRecDepth 1192

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (outs : Gen.Outs (F := Ideal))

theorem v27_eq (c : Dev nD) :
    (Gen.V8 m c main_v27 : FVec Ideal S4096x2 .f32)
      = Host.dotGeneral dot_S4096x1024_S1024x2_S4096x2_1_0_0_1_n_n none
          (truncf .bf16 (argX m c) bitsLt_bf16_f32 : FVec Ideal S4096x1024 .bf16)
          (transpose S1024x2 [1, 0] (truncf .bf16 (argWc m c) bitsLt_bf16_f32 : FVec Ideal S2x1024 .bf16)
            transposes_S2x1024_S1024x2_1_0 : FVec Ideal S1024x2 .bf16) := by
  rw [Gen.V8_of m c main_v27 (by decide)]
  dsimp only [Gen.V7, Gen.V6, Gen.V5, Gen.V4, Gen.V3, Gen.V2, Gen.V1, Gen.hostOps0_6, Gen.hostOps0_5, Gen.hostOps0_4,
    Gen.hostOps0_3, Gen.hostOps0_2, Gen.hostOps0_1, Gen.hostOps0]
  after_results_simp <;> rfl

theorem clusterDot_lhs0 (i : S4096x2.Idx) (q : dot_S4096x1024_S1024x2_S4096x2_1_0_0_1_n_n.contr.Idx) :
    (dot_S4096x1024_S1024x2_S4096x2_1_0_0_1_n_n.lhsIdx i q 0).val = (i 0).val := by
  unfold DotDims.lhsIdx
  rw [dif_neg (show ¬(0 : Fin S4096x1024.rank) ∈ dot_S4096x1024_S1024x2_S4096x2_1_0_0_1_n_n.lhsBatch by decide),
    dif_pos (show (0 : Fin S4096x1024.rank) ∈ dot_S4096x1024_S1024x2_S4096x2_1_0_0_1_n_n.lhsNonContracting by decide)]
  rfl
theorem clusterDot_rhs1 (i : S4096x2.Idx) (q : dot_S4096x1024_S1024x2_S4096x2_1_0_0_1_n_n.contr.Idx) :
    (dot_S4096x1024_S1024x2_S4096x2_1_0_0_1_n_n.rhsIdx i q 1).val = (i 1).val := by
  unfold DotDims.rhsIdx
  rw [dif_neg (show ¬(1 : Fin S1024x2.rank) ∈ dot_S4096x1024_S1024x2_S4096x2_1_0_0_1_n_n.rhsBatch by decide),
    dif_pos (show (1 : Fin S1024x2.rank) ∈ dot_S4096x1024_S1024x2_S4096x2_1_0_0_1_n_n.rhsNonContracting by decide)]
  rfl

theorem v27_apply (c : Dev nD) (r : Fin 4096) (j : Fin 2) :
    (Gen.V8 m c main_v27 : FVec Ideal S4096x2 .f32) (ix2 r j) = Cert.Spec.zCluster (argX m c) (argWc m c) r j := by
  show _ = ∑ k : Fin 1024, argX m c (ix2 r k) * argWc m c (ix2 j k)
  rw [v27_eq]
  simp only [Host.dotGeneral]
  rw [Ideal.dotGeneral_apply,
    ← Equiv.sum_comp (contrEquiv1 dot_S4096x1024_S1024x2_S4096x2_1_0_0_1_n_n 1024 rfl rfl).symm]
  refine Finset.sum_congr rfl fun k _ => ?_
  have hk := contrEquiv1_symm_val dot_S4096x1024_S1024x2_S4096x2_1_0_0_1_n_n 1024 rfl rfl k
  have el : dot_S4096x1024_S1024x2_S4096x2_1_0_0_1_n_n.lhsIdx (ix2 r j)
      ((contrEquiv1 dot_S4096x1024_S1024x2_S4096x2_1_0_0_1_n_n 1024 rfl rfl).symm k) = ix2 r k :=
    funext fun a => Fin.ext (by
      match a with
      | ⟨0, _⟩ => exact clusterDot_lhs0 _ _
      | ⟨1, _⟩ => exact (dot_S4096x1024_S1024x2_S4096x2_1_0_0_1_n_n.lhsIdx_val_of_single rfl _ _).trans hk)
  have er : dot_S4096x1024_S1024x2_S4096x2_1_0_0_1_n_n.rhsIdx (ix2 r j)
      ((contrEquiv1 dot_S4096x1024_S1024x2_S4096x2_1_0_0_1_n_n 1024 rfl rfl).symm k) = ix2 k j :=
    funext fun a => Fin.ext (by
      match a with
      | ⟨0, _⟩ => exact (dot_S4096x1024_S1024x2_S4096x2_1_0_0_1_n_n.rhsIdx_val_of_single rfl _ _).trans hk
      | ⟨1, _⟩ => exact clusterDot_rhs1 _ _)
  rw [el, er]
  refine congrArg (argX m c (ix2 r k) * ·) ?_
  exact transpose_apply [1, 0] _ transposes_S2x1024_S1024x2_1_0 (ix2 k j) (ix2 j k) (fun b => match b with
    | ⟨0, _⟩ => rfl
    | ⟨1, _⟩ => rfl)

theorem v27_at15 (c : Dev nD) : Gen.V15 m outs c main_v27 = Gen.V8 m c main_v27 := by
  rw [Gen.V15_of m outs c main_v27 (by decide), Gen.V14_of m outs c main_v27 (by decide),
    Gen.V13_of m outs c main_v27 (by decide), Gen.V12_of m outs c main_v27 (by decide),
    Gen.V11_of m outs c main_v27 (by decide), Gen.V10_of m outs c main_v27 (by decide),
    Gen.V9_of m outs c main_v27 (by decide)]

theorem v27_at22 (c : Dev nD) : Gen.V22 m outs c main_v27 = Gen.V8 m c main_v27 := by
  rw [Gen.V22_of m outs c main_v27 (by decide), Gen.V21_of m outs c main_v27 (by decide),
    Gen.V20_of m outs c main_v27 (by decide), Gen.V19_of m outs c main_v27 (by decide),
    Gen.V18_of m outs c main_v27 (by decide), Gen.V17_of m outs c main_v27 (by decide),
    Gen.V16_of m outs c main_v27 (by decide), v27_at15]

end Cert.KernelIdeal.Hand

end
-- ==== Proof.KI.HostTailDefs.lean ====
import proofs.«402100_j83614423319285_2_alg».proof.Proof.KI.HostPre0
import Mathlib.Algebra.BigOperators.Fin

set_option maxRecDepth 1192

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

section Layout

theorem bcastRows_apply (y : FVec Ideal S4096 .f32) (r : Fin 4096) :
    broadcastInDim S4096x1 ![0] bcast_S4096_S4096x1_0 y (ix2 r (0 : Fin 1)) = y (ix1 r) :=
  broadcastInDim_apply _ bcast_S4096_S4096x1_0 y (ix2 r (0 : Fin 1)) (ix1 r) (fun a => match a with
    | ⟨0, _⟩ => by show r.val = if (4096 : Nat) = 1 then 0 else r.val; rw [if_neg (by decide)])

theorem bcastCols_apply (y : FVec Ideal S4096x1 .f32) (r : Fin 4096) (a : Fin 2) :
    broadcastInDim S4096x2 ![0, 1] bcast_S4096x1_S4096x2_0_1 y (ix2 r a) = y (ix2 r (0 : Fin 1)) :=
  broadcastInDim_apply _ bcast_S4096x1_S4096x2_0_1 y (ix2 r a) (ix2 r (0 : Fin 1)) (fun b => match b with
    | ⟨0, _⟩ => by show r.val = if (4096 : Nat) = 1 then 0 else r.val; rw [if_neg (by decide)]
    | ⟨1, _⟩ => by show 0 = if (1 : Nat) = 1 then 0 else a.val; rw [if_pos rfl])

theorem bcastScalar_apply (y : FVec Ideal S_ .f32) (i : S4096x1.Idx) :
    broadcastInDim S4096x1 ![] bcast_S_S4096x1 y i = y ix0 :=
  broadcastInDim_apply _ bcast_S_S4096x1 y i ix0 (fun a => a.elim0)

theorem sliceCol0_apply (y : FVec Ideal S4096x2 .f32) (r : Fin 4096) :
    extractStridedSlice S4096x1 ![0, 0] y slices_S4096x2_S4096x1_0_0 (ix2 r (0 : Fin 1)) = y (ix2 r (0 : Fin 2)) :=
  extractStridedSlice_apply ![0, 0] y slices_S4096x2_S4096x1_0_0 (ix2 r (0 : Fin 1)) (ix2 r (0 : Fin 2)) (fun a => match a with
    | ⟨0, _⟩ => by show r.val = 0 + r.val; omega
    | ⟨1, _⟩ => by show 0 = 0 + 0; omega)

theorem sliceCol1_apply (y : FVec Ideal S4096x2 .f32) (r : Fin 4096) :
    extractStridedSlice S4096x1 ![0, 1] y slices_S4096x2_S4096x1_0_1 (ix2 r (0 : Fin 1)) = y (ix2 r (1 : Fin 2)) :=
  extractStridedSlice_apply ![0, 1] y slices_S4096x2_S4096x1_0_1 (ix2 r (0 : Fin 1)) (ix2 r (1 : Fin 2)) (fun a => match a with
    | ⟨0, _⟩ => by show r.val = 0 + r.val; omega
    | ⟨1, _⟩ => by show 1 = 1 + 0; omega)

theorem castRows_apply {α : Type} (y : S4096.Idx → α) (r : Fin 4096) :
    shapeCast S4096x1 y shapeCasts_S4096_S4096x1 (ix2 r (0 : Fin 1)) = y (ix1 r) :=
  shapeCast_apply y shapeCasts_S4096_S4096x1 (ix2 r (0 : Fin 1)) (ix1 r) (by
    rewrite [Shape.rowMajor_val_one, Shape.rowMajor_val_two]
    show r.val = r.val * 1 + 0
    omega)

theorem ofBits_negInf_f32 : Ideal.ofBits .f32 0xFF800000#32 = (⊥ : EReal) := by simp [Ideal.ofBits, Ideal.ieee]

theorem lift_S4096x2 (h : S4096x2.Reduces [1] S4096) (r : Fin 4096) (a : Fin 2) : h.lift (ix1 r) a = ix2 r a :=
  funext fun d => Fin.ext (match d with | ⟨0, _⟩ => rfl | ⟨1, _⟩ => rfl)

theorem rowMax2_apply (y : FVec Ideal S4096x2 .f32) (r : Fin 4096) :
    Host.reduce FloatOps.maximumf y (constant (F := Ideal) S_ .f32 0xFF800000#32) reducesTo_S4096x2_S4096_d1 h_S_ (ix1 r)
      = Finset.univ.fold max ⊥ (fun a : Fin 2 => y (ix2 r a)) := by
  have hR : S4096x2.Reduces [1] S4096 := by decide
  rw [Host.reduce_eq_fold_single FloatOps.maximumf y _ reducesTo_S4096x2_S4096_d1 hR h_S_ (ix1 r)]
  have e1 : (y ∘ hR.lift (ix1 r)) = fun a : Fin 2 => y (ix2 r a) := funext fun a => congrArg y (lift_S4096x2 hR r a)
  rw [e1]
  show Finset.univ.fold max (Ideal.ofBits .f32 0xFF800000#32) (fun a : Fin 2 => y (ix2 r a)) = _
  rw [ofBits_negInf_f32]

theorem rowSum2_apply (y : FVec Ideal S4096x2 .f32) (r : Fin 4096) :
    Host.reduceAdd y (constant (F := Ideal) S_ .f32 0x00000000#32) reducesTo_S4096x2_S4096_d1 h_S_ (ix1 r)
      = ∑ a : Fin 2, y (ix2 r a) := by
  have hR : S4096x2.Reduces [1] S4096 := by decide
  simp only [Host.reduceAdd, Ideal.hostReduceAdd_def]
  rw [Ideal.hostReduceAdd_single reducesTo_S4096x2_S4096_d1 hR]
  show Ideal.ofBits .f32 0x00000000#32 + _ = _
  rw [Ideal.ofBits_zero_f32, zero_add]
  exact Finset.sum_congr rfl fun a _ => congrArg y (lift_S4096x2 hR r a)

theorem colSum_apply (y : FVec Ideal S4096x1 .f32) :
    Host.reduceAdd y (constant (F := Ideal) S_ .f32 0x00000000#32) reducesTo_S4096x1_S_d0_1 h_S_ ix0
      = ∑ r : Fin 4096, y (ix2 r (0 : Fin 1)) := by
  simp only [Host.reduceAdd, Ideal.hostReduceAdd_def]
  rw [Ideal.hostReduceAdd_total reducesTo_S4096x1_S_d0_1 (fun b => b.elim0)]
  show Ideal.ofBits .f32 0x00000000#32 + _ = _
  rw [Ideal.ofBits_zero_f32, zero_add, sum_idx2]
  exact Finset.sum_congr rfl fun r _ => Fin.sum_univ_one _

end Layout

section Pieces

variable (Z : FVec Ideal S4096x2 .f32) (M0 S0 G0 M S G : FVec Ideal S4096x1 .f32)

def pM : FVec Ideal S4096x1 .f32 :=
  maximumf M0 (broadcastInDim S4096x1 ![0] bcast_S4096_S4096x1_0
    (Host.reduce FloatOps.maximumf Z (constant (F := Ideal) S_ .f32 0xFF800000#32) reducesTo_S4096x2_S4096_d1 h_S_))

def pS : FVec Ideal S4096x1 .f32 :=
  addf (mulf S0 (Host.exp (subf M0 (pM Z M0))))
    (broadcastInDim S4096x1 ![0] bcast_S4096_S4096x1_0
      (Host.reduceAdd (Host.exp (subf Z (broadcastInDim S4096x2 ![0, 1] bcast_S4096x1_S4096x2_0_1 (pM Z M0))))
        (constant (F := Ideal) S_ .f32 0x00000000#32) reducesTo_S4096x2_S4096_d1 h_S_))

def pLp0 : FVec Ideal S4096x1 .f32 := subf (subf G0 (pM Z M0)) (Host.log (pS Z M0 S0))

def pHc0 : FVec Ideal S4096x1 .f32 :=
  subf (subf (extractStridedSlice S4096x1 ![0, 0] Z slices_S4096x2_S4096x1_0_0) (pM Z M0)) (Host.log (pS Z M0 S0))

def pHc1 : FVec Ideal S4096x1 .f32 :=
  subf (subf (extractStridedSlice S4096x1 ![0, 1] Z slices_S4096x2_S4096x1_0_1) (pM Z M0)) (Host.log (pS Z M0 S0))

def pTl : FVec Ideal S4096x1 .f32 := subf (subf G M) (Host.log S)

def pSum (B : IVec S4096 1) (V : FVec Ideal S4096x1 .f32) : FVec Ideal S_ .f32 :=
  Host.reduceAdd (select (shapeCast S4096x1 B shapeCasts_S4096_S4096x1) V
      (broadcastInDim S4096x1 ![] bcast_S_S4096x1 (constant (F := Ideal) S_ .f32 0x00000000#32)))
    (constant (F := Ideal) S_ .f32 0x00000000#32) reducesTo_S4096x1_S_d0_1 h_S_

end Pieces

section Whole

def tailOf (B0 B1 B2 : IVec S4096 1) (Z : FVec Ideal S4096x2 .f32)
    (M0 S0 G0 M1 S1 G1 M2 S2 G2 : FVec Ideal S4096x1 .f32) : FVec Ideal S_ .f32 :=
  Host.negf (addf (addf (pSum B0 (pLp0 Z M0 S0 G0)) (pSum B1 (addf (pHc0 Z M0 S0) (pTl M1 S1 G1))))
    (pSum B2 (addf (pHc1 Z M0 S0) (pTl M2 S2 G2))))

abbrev bit0 (T : IVec S4096 32) : IVec S4096 1 :=
  cmpi .slt T (broadcastInDim S4096 ![] bcast_S_S4096 (constantI S_ 32 20000#32))
abbrev bit1 (T : IVec S4096 32) : IVec S4096 1 :=
  andi (cmpi .sge T (broadcastInDim S4096 ![] bcast_S_S4096 (constantI S_ 32 20000#32)))
    (cmpi .slt T (broadcastInDim S4096 ![] bcast_S_S4096 (constantI S_ 32 40000#32)))
abbrev bit2 (T : IVec S4096 32) : IVec S4096 1 :=
  cmpi .sge T (broadcastInDim S4096 ![] bcast_S_S4096 (constantI S_ 32 40000#32))

end Whole

end Cert.KernelIdeal.Hand

end
-- ==== Proof.KI.HostTailRead.lean ====
import proofs.«402100_j83614423319285_2_alg».proof.Proof.KI.HostCluster
import proofs.«402100_j83614423319285_2_alg».proof.Proof.KI.HostTailDefs

set_option maxRecDepth 1192

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

section Read

variable (m : (ℓ : Loc nD τ sig) → Buf (Elt Ideal) ℓ) (outs : Gen.Outs (F := Ideal))

set_option maxRecDepth 8192 in
set_option maxHeartbeats 4000000 in

theorem v74_eq (c : Dev nD) :
    (Gen.V22 m outs c main_v74 : FVec Ideal S_ .f32)
      = tailOf (Gen.V15 m outs c main_v1 : IVec S4096 1) (Gen.V15 m outs c main_v6 : IVec S4096 1)
          (Gen.V15 m outs c main_v8 : IVec S4096 1) (Gen.V15 m outs c main_v27 : FVec Ideal S4096x2 .f32)
          (Gen.V15 m outs c main_v29_0 : FVec Ideal S4096x1 .f32) (Gen.V15 m outs c main_v29_1 : FVec Ideal S4096x1 .f32)
          (Gen.V15 m outs c main_v29_2 : FVec Ideal S4096x1 .f32) (Gen.V15 m outs c main_v31_0 : FVec Ideal S4096x1 .f32)
          (Gen.V15 m outs c main_v31_1 : FVec Ideal S4096x1 .f32) (Gen.V15 m outs c main_v31_2 : FVec Ideal S4096x1 .f32)
          (Gen.V15 m outs c main_v33_0 : FVec Ideal S4096x1 .f32) (Gen.V15 m outs c main_v33_1 : FVec Ideal S4096x1 .f32)
          (Gen.V15 m outs c main_v33_2 : FVec Ideal S4096x1 .f32) := by
  dsimp only [Gen.V22, Gen.V21, Gen.V20, Gen.V19, Gen.V18, Gen.V17, Gen.V16, Gen.hostOps3_6, Gen.hostOps3_5, Gen.hostOps3_4,
    Gen.hostOps3_3, Gen.hostOps3_2, Gen.hostOps3_1, Gen.hostOps3]
  after_results_simp <;> rfl

theorem v1_at15 (c : Dev nD) : (Gen.V15 m outs c main_v1 : IVec S4096 1) = bit0 (argT m c) := by
  rw [Gen.V15_of m outs c main_v1 (by decide), Gen.V14_of m outs c main_v1 (by decide), Gen.V13_of m outs c main_v1 (by decide),
    Gen.V12_of m outs c main_v1 (by decide), Gen.V11_of m outs c main_v1 (by decide), Gen.V10_of m outs c main_v1 (by decide),
    Gen.V9_of m outs c main_v1 (by decide), Gen.V8_of m c main_v1 (by decide), Gen.V7_of m c main_v1 (by decide),
    Gen.V6_of m c main_v1 (by decide), Gen.V5_of m c main_v1 (by decide), Gen.V4_of m c main_v1 (by decide),
    Gen.V3_of m c main_v1 (by decide), Gen.V2_of m c main_v1 (by decide)]
  dsimp only [Gen.V1, Gen.hostOps0]
  after_results_simp <;> rfl
theorem v6_at15 (c : Dev nD) : (Gen.V15 m outs c main_v6 : IVec S4096 1) = bit1 (argT m c) := by
  rw [Gen.V15_of m outs c main_v6 (by decide), Gen.V14_of m outs c main_v6 (by decide), Gen.V13_of m outs c main_v6 (by decide),
    Gen.V12_of m outs c main_v6 (by decide), Gen.V11_of m outs c main_v6 (by decide), Gen.V10_of m outs c main_v6 (by decide),
    Gen.V9_of m outs c main_v6 (by decide), Gen.V8_of m c main_v6 (by decide), Gen.V7_of m c main_v6 (by decide),
    Gen.V6_of m c main_v6 (by decide), Gen.V5_of m c main_v6 (by decide), Gen.V4_of m c main_v6 (by decide),
    Gen.V3_of m c main_v6 (by decide), Gen.V2_of m c main_v6 (by decide)]
  dsimp only [Gen.V1, Gen.hostOps0]
  after_results_simp <;> rfl
theorem v8_at15 (c : Dev nD) : (Gen.V15 m outs c main_v8 : IVec S4096 1) = bit2 (argT m c) := by
  rw [Gen.V15_of m outs c main_v8 (by decide), Gen.V14_of m outs c main_v8 (by decide), Gen.V13_of m outs c main_v8 (by decide),
    Gen.V12_of m outs c main_v8 (by decide), Gen.V11_of m outs c main_v8 (by decide), Gen.V10_of m outs c main_v8 (by decide),
    Gen.V9_of m outs c main_v8 (by decide), Gen.V8_of m c main_v8 (by decide), Gen.V7_of m c main_v8 (by decide),
    Gen.V6_of m c main_v8 (by decide), Gen.V5_of m c main_v8 (by decide), Gen.V4_of m c main_v8 (by decide),
    Gen.V3_of m c main_v8 (by decide), Gen.V2_of m c main_v8 (by decide)]
  dsimp only [Gen.V1, Gen.hostOps0]
  after_results_simp <;> rfl

theorem v33_2_at15 (c : Dev nD) : Gen.V15 m outs c main_v33_2 = outs 15 main_v33_2 c := by
  dsimp only [Gen.V15]
  exact Function.update_self _ _ _
theorem v33_1_at15 (c : Dev nD) : Gen.V15 m outs c main_v33_1 = outs 15 main_v33_1 c := by
  dsimp only [Gen.V15]
  rw [Function.update_of_ne (StableHlo.devRef_ne_of_ne (by decide) : (Proc.devRef .tc main_v33_1 : DevRef τ sig) ≠ Proc.devRef .tc main_v33_2)]
  exact Function.update_self _ _ _
theorem v33_0_at15 (c : Dev nD) : Gen.V15 m outs c main_v33_0 = outs 15 main_v33_0 c := by
  dsimp only [Gen.V15]
  rw [Function.update_of_ne (StableHlo.devRef_ne_of_ne (by decide) : (Proc.devRef .tc main_v33_0 : DevRef τ sig) ≠ Proc.devRef .tc main_v33_2),
    Function.update_of_ne (StableHlo.devRef_ne_of_ne (by decide) : (Proc.devRef .tc main_v33_0 : DevRef τ sig) ≠ Proc.devRef .tc main_v33_1)]
  exact Function.update_self _ _ _
theorem v31_2_at15 (c : Dev nD) : Gen.V15 m outs c main_v31_2 = outs 12 main_v31_2 c := by
  rw [Gen.V15_of m outs c main_v31_2 (by decide), Gen.V14_of m outs c main_v31_2 (by decide), Gen.V13_of m outs c main_v31_2 (by decide)]
  dsimp only [Gen.V12]
  exact Function.update_self _ _ _
theorem v31_1_at15 (c : Dev nD) : Gen.V15 m outs c main_v31_1 = outs 12 main_v31_1 c := by
  rw [Gen.V15_of m outs c main_v31_1 (by decide), Gen.V14_of m outs c main_v31_1 (by decide), Gen.V13_of m outs c main_v31_1 (by decide)]
  dsimp only [Gen.V12]
  rw [Function.update_of_ne (StableHlo.devRef_ne_of_ne (by decide) : (Proc.devRef .tc main_v31_1 : DevRef τ sig) ≠ Proc.devRef .tc main_v31_2)]
  exact Function.update_self _ _ _
theorem v31_0_at15 (c : Dev nD) : Gen.V15 m outs c main_v31_0 = outs 12 main_v31_0 c := by
  rw [Gen.V15_of m outs c main_v31_0 (by decide), Gen.V14_of m outs c main_v31_0 (by decide), Gen.V13_of m outs c main_v31_0 (by decide)]
  dsimp only [Gen.V12]
  rw [Function.update_of_ne (StableHlo.devRef_ne_of_ne (by decide) : (Proc.devRef .tc main_v31_0 : DevRef τ sig) ≠ Proc.devRef .tc main_v31_2),
    Function.update_of_ne (StableHlo.devRef_ne_of_ne (by decide) : (Proc.devRef .tc main_v31_0 : DevRef τ sig) ≠ Proc.devRef .tc main_v31_1)]
  exact Function.update_self _ _ _
theorem v29_2_at15 (c : Dev nD) : Gen.V15 m outs c main_v29_2 = outs 9 main_v29_2 c := by
  rw [Gen.V15_of m outs c main_v29_2 (by decide), Gen.V14_of m outs c main_v29_2 (by decide), Gen.V13_of m outs c main_v29_2 (by decide),
    Gen.V12_of m outs c main_v29_2 (by decide), Gen.V11_of m outs c main_v29_2 (by decide), Gen.V10_of m outs c main_v29_2 (by decide)]
  dsimp only [Gen.V9]
  exact Function.update_self _ _ _
theorem v29_1_at15 (c : Dev nD) : Gen.V15 m outs c main_v29_1 = outs 9 main_v29_1 c := by
  rw [Gen.V15_of m outs c main_v29_1 (by decide), Gen.V14_of m outs c main_v29_1 (by decide), Gen.V13_of m outs c main_v29_1 (by decide),
    Gen.V12_of m outs c main_v29_1 (by decide), Gen.V11_of m outs c main_v29_1 (by decide), Gen.V10_of m outs c main_v29_1 (by decide)]
  dsimp only [Gen.V9]
  rw [Function.update_of_ne (StableHlo.devRef_ne_of_ne (by decide) : (Proc.devRef .tc main_v29_1 : DevRef τ sig) ≠ Proc.devRef .tc main_v29_2)]
  exact Function.update_self _ _ _
theorem v29_0_at15 (c : Dev nD) : Gen.V15 m outs c main_v29_0 = outs 9 main_v29_0 c := by
  rw [Gen.V15_of m outs c main_v29_0 (by decide), Gen.V14_of m outs c main_v29_0 (by decide), Gen.V13_of m outs c main_v29_0 (by decide),
    Gen.V12_of m outs c main_v29_0 (by decide), Gen.V11_of m outs c main_v29_0 (by decide), Gen.V10_of m outs c main_v29_0 (by decide)]
  dsimp only [Gen.V9]
  rw [Function.update_of_ne (StableHlo.devRef_ne_of_ne (by decide) : (Proc.devRef .tc main_v29_0 : DevRef τ sig) ≠ Proc.devRef .tc main_v29_2),
    Function.update_of_ne (StableHlo.devRef_ne_of_ne (by decide) : (Proc.devRef .tc main_v29_0 : DevRef τ sig) ≠ Proc.devRef .tc main_v29_1)]
  exact Function.update_self _ _ _

end Read

section Term

variable (m : (ℓ : Loc nD τ sig) → Buf (Elt Ideal) ℓ) (outs : Gen.Outs (F := Ideal))

theorem v74_term (c : Dev nD) :
    (Gen.V22 m outs c main_v74 : FVec Ideal S_ .f32)
      = tailOf (bit0 (argT m c)) (bit1 (argT m c)) (bit2 (argT m c)) (Gen.V8 m c main_v27 : FVec Ideal S4096x2 .f32)
          (outs 9 main_v29_0 c : FVec Ideal S4096x1 .f32) (outs 9 main_v29_1 c : FVec Ideal S4096x1 .f32)
          (outs 9 main_v29_2 c : FVec Ideal S4096x1 .f32) (outs 12 main_v31_0 c : FVec Ideal S4096x1 .f32)
          (outs 12 main_v31_1 c : FVec Ideal S4096x1 .f32) (outs 12 main_v31_2 c : FVec Ideal S4096x1 .f32)
          (outs 15 main_v33_0 c : FVec Ideal S4096x1 .f32) (outs 15 main_v33_1 c : FVec Ideal S4096x1 .f32)
          (outs 15 main_v33_2 c : FVec Ideal S4096x1 .f32) := by
  rw [v74_eq, v1_at15, v6_at15, v8_at15, v27_at15, v29_0_at15, v29_1_at15, v29_2_at15, v31_0_at15, v31_1_at15, v31_2_at15,
    v33_0_at15, v33_1_at15, v33_2_at15]

end Term

end Cert.KernelIdeal.Hand

end
-- ==== Proof.Math.Online.lean ====
import Idealize.ShloMosaic.PureOps.Ideal
import Mathlib.Analysis.SpecialFunctions.Log.Basic
import Mathlib.Analysis.SpecialFunctions.Exp
import Mathlib.Algebra.BigOperators.Fin
import Mathlib.Data.EReal.Operations
import Mathlib.Order.Interval.Finset.Fin

noncomputable section

namespace Cert.Math

open Idealize.ShloMosaic

def osStep {n : ℕ} (z : Fin n → EReal) (hit : Fin n → Bool) (st : EReal × EReal × EReal) : EReal × EReal × EReal :=
  (max st.1 (Finset.univ.fold max ⊥ z),
   st.2.1 * Ideal.exp (st.1 - max st.1 (Finset.univ.fold max ⊥ z)) + ∑ j, Ideal.exp (z j - max st.1 (Finset.univ.fold max ⊥ z)),
   st.2.2 + ∑ j, if hit j then z j else 0)

def osFold {n : ℕ} (z : ℕ → Fin n → EReal) (hit : ℕ → Fin n → Bool) : ℕ → EReal × EReal × EReal
  | 0 => (⊥, 0, 0)
  | k + 1 => osStep (z k) (hit k) (osFold z hit k)

def rmax {C : ℕ} (zr : Fin C → ℝ) (i : Fin C) : ℝ := Finset.univ.sup' ⟨i, Finset.mem_univ i⟩ zr

theorem sum_coe_finset {ι : Type} (s : Finset ι) (a : ι → ℝ) :
    (∑ k ∈ s, ((a k : ℝ) : EReal)) = ((∑ k ∈ s, a k : ℝ) : EReal) := by
  classical
  induction s using Finset.induction_on with
  | empty => simp
  | insert x s hx ih => rw [Finset.sum_insert hx, Finset.sum_insert hx, ih, EReal.coe_add]

theorem sum_coe {K : ℕ} (a : Fin K → ℝ) : (∑ k, ((a k : ℝ) : EReal)) = ((∑ k, a k : ℝ) : EReal) :=
  sum_coe_finset _ a

theorem sum_coe_mul {K : ℕ} (a b : Fin K → ℝ) :
    (∑ k, ((a k : ℝ) : EReal) * ((b k : ℝ) : EReal)) = ((∑ k, a k * b k : ℝ) : EReal) := by
  rw [← sum_coe]
  exact Finset.sum_congr rfl (fun k _ => (EReal.coe_mul (a k) (b k)).symm)

theorem fold_max_coe {C : ℕ} (zr : Fin C → ℝ) (i : Fin C) :
    Finset.univ.fold max (⊥ : EReal) (fun j => ((zr j : ℝ) : EReal)) = ((rmax zr i : ℝ) : EReal) := by
  apply le_antisymm
  · exact (Finset.fold_max_le _).2 ⟨bot_le, fun x _ => EReal.coe_le_coe_iff.2 (Finset.le_sup' zr (Finset.mem_univ x))⟩
  · obtain ⟨j, _, hj⟩ := Finset.exists_mem_eq_sup' ⟨i, Finset.mem_univ i⟩ zr
    exact (Finset.le_fold_max _).2 (Or.inr ⟨j, Finset.mem_univ j, by rw [rmax, hj]⟩)

theorem sumexp_pos {C : ℕ} (zr : Fin C → ℝ) (i : Fin C) : 0 < ∑ j, Real.exp (zr j - rmax zr i) :=
  Finset.sum_pos (fun j _ => Real.exp_pos _) ⟨i, Finset.mem_univ i⟩

theorem le_rmax {C : ℕ} (zr : Fin C → ℝ) (i j : Fin C) : zr j ≤ rmax zr i :=
  Finset.le_sup' zr (Finset.mem_univ j)

theorem rmax_mem {C : ℕ} (zr : Fin C → ℝ) (i : Fin C) : ∃ j, zr j = rmax zr i := by
  obtain ⟨j, _, hj⟩ := Finset.exists_mem_eq_sup' ⟨i, Finset.mem_univ i⟩ zr
  exact ⟨j, hj.symm⟩

theorem rmax_eq {C : ℕ} (zr : Fin C → ℝ) (i : Fin C) (m : ℝ) (hle : ∀ j, zr j ≤ m) (hmem : ∃ j, zr j = m) :
    rmax zr i = m := by
  apply le_antisymm
  · exact Finset.sup'_le _ _ (fun j _ => hle j)
  · obtain ⟨j, hj⟩ := hmem
    rw [← hj]; exact le_rmax zr i j

def zext {C : ℕ} (zr : Fin C → ℝ) (p : ℕ) : ℝ := if h : p < C then zr ⟨p, h⟩ else 0

theorem zext_lt {C : ℕ} (zr : Fin C → ℝ) {p : ℕ} (h : p < C) : zext zr p = zr ⟨p, h⟩ := dif_pos h

theorem max_coe (a b : ℝ) : max (a : EReal) (b : EReal) = ((max a b : ℝ) : EReal) :=
  (EReal.coe_strictMono.monotone.map_max).symm

def IsTile {n C : ℕ} (zr : Fin C → ℝ) (c : ℕ) (w : Fin n → EReal) : Prop :=
  ∀ j : Fin n, w j = if c * n + j.val < C then ((zext zr (c * n + j.val) : ℝ) : EReal) else ⊥

theorem tile_max {n C : ℕ} (zr : Fin C → ℝ) (c : ℕ) (w : Fin n → EReal) (hw : IsTile zr c w)
    (hvalid : ∃ p < n, c * n + p < C) :
    ∃ t : ℝ, Finset.univ.fold max ⊥ w = (t : EReal) ∧
      (∀ p < n, c * n + p < C → zext zr (c * n + p) ≤ t) ∧ (∃ p < n, c * n + p < C ∧ zext zr (c * n + p) = t) := by
  have hle : ∀ j, w j ≤ Finset.univ.fold max ⊥ w := fun j =>
    ((Finset.fold_max_le (s := Finset.univ) (b := (⊥ : EReal)) (f := w) _).1 le_rfl).2 j (Finset.mem_univ j)
  obtain ⟨p0, hp0, hv0⟩ := hvalid
  have hbot : Finset.univ.fold max ⊥ w ≠ ⊥ := by
    intro h
    have h1 := hle ⟨p0, hp0⟩
    rw [hw, if_pos hv0, h] at h1
    exact absurd (le_bot_iff.1 h1) (EReal.coe_ne_bot _)
  rcases (Finset.le_fold_max (s := Finset.univ) (b := (⊥ : EReal)) (f := w) _).1 (le_refl (Finset.univ.fold max ⊥ w)) with h | ⟨x, _, hx⟩
  · exact absurd (le_bot_iff.1 h) hbot
  · have hFx : Finset.univ.fold max ⊥ w = w x := le_antisymm hx (hle x)
    by_cases hvx : c * n + x.val < C
    · rw [hw x, if_pos hvx] at hFx
      refine ⟨zext zr (c * n + x.val), hFx, ?_, ⟨x.val, x.isLt, hvx, rfl⟩⟩
      intro p hp hvp
      have h1 := hle ⟨p, hp⟩
      rw [hw, if_pos hvp, hFx] at h1
      exact EReal.coe_le_coe_iff.1 h1
    · rw [hw x, if_neg hvx] at hFx
      exact absurd hFx hbot

theorem tile_sumexp {n C : ℕ} (zr : Fin C → ℝ) (c : ℕ) (w : Fin n → EReal) (hw : IsTile zr c w) (M : ℝ) :
    ∑ j, Ideal.exp (w j - (M : EReal))
      = ((∑ p ∈ Finset.range n, (if c * n + p < C then Real.exp (zext zr (c * n + p) - M) else 0) : ℝ) : EReal) := by
  rw [Finset.sum_range, ← sum_coe]
  apply Finset.sum_congr rfl
  intro j _
  rw [hw j]
  split_ifs with h
  · rw [← EReal.coe_sub, Ideal.exp_coe]
  · rw [EReal.bot_sub, Ideal.exp_bot, EReal.coe_zero]

theorem tile_gather {n C : ℕ} (zr : Fin C → ℝ) (c : ℕ) (w : Fin n → EReal) (hw : IsTile zr c w)
    (tgt : ℕ) (htgt : tgt < C) (hit : Fin n → Bool) (hhit : ∀ j : Fin n, hit j = decide (c * n + j.val = tgt)) :
    (∑ j, if hit j then w j else 0)
      = ((∑ p ∈ Finset.range n, (if c * n + p = tgt then zext zr (c * n + p) else 0) : ℝ) : EReal) := by
  rw [Finset.sum_range, ← sum_coe]
  apply Finset.sum_congr rfl
  intro j _
  rw [hhit j, hw j]
  by_cases h : c * n + j.val = tgt
  · rw [if_pos (decide_eq_true h), if_pos h, if_pos (by omega)]
  · rw [if_neg (by simpa using h), if_neg h, EReal.coe_zero]

def OsInv {C : ℕ} (n : ℕ) (zr : Fin C → ℝ) (tgt : ℕ) (k : ℕ) (st : EReal × EReal × EReal) : Prop :=
  ∃ m : ℝ, (∀ p < k * n, p < C → zext zr p ≤ m) ∧ (∃ p < k * n, p < C ∧ zext zr p = m) ∧
    st = ((m : EReal),
          ((∑ p ∈ Finset.range (k * n), (if p < C then Real.exp (zext zr p - m) else 0) : ℝ) : EReal),
          ((∑ p ∈ Finset.range (k * n), (if p = tgt then zext zr p else 0) : ℝ) : EReal))

theorem osStep_first {n C : ℕ} (zr : Fin C → ℝ) (tgt : ℕ) (htgt : tgt < C)
    (w : Fin n → EReal) (hw : IsTile zr 0 w)
    (hit : Fin n → Bool) (hhit : ∀ j : Fin n, hit j = decide (0 * n + j.val = tgt))
    (hvalid : ∃ p < n, 0 * n + p < C) :
    OsInv n zr tgt 1 (osStep w hit (⊥, 0, 0)) := by
  obtain ⟨t, hF, htle, htmem⟩ := tile_max zr 0 w hw hvalid
  have hS := tile_sumexp zr 0 w hw t
  have hG := tile_gather zr 0 w hw tgt htgt hit hhit
  simp only [Nat.zero_mul, Nat.zero_add] at htle htmem hS hG
  refine ⟨t, ?_, ?_, ?_⟩
  · intro p hp hpC
    rw [Nat.one_mul] at hp
    exact htle p hp hpC
  · obtain ⟨q, hq, hqC, hqt⟩ := htmem
    exact ⟨q, by rw [Nat.one_mul]; exact hq, hqC, hqt⟩
  · simp only [osStep]
    rw [hF, max_bot_left, hS, hG, EReal.bot_sub, Ideal.exp_bot, zero_mul, zero_add, zero_add, Nat.one_mul]

theorem osStep_inv {n C : ℕ} (zr : Fin C → ℝ) (tgt : ℕ) (htgt : tgt < C) (k : ℕ)
    (w : Fin n → EReal) (hw : IsTile zr k w)
    (hit : Fin n → Bool) (hhit : ∀ j : Fin n, hit j = decide (k * n + j.val = tgt))
    (hvalid : ∃ p < n, k * n + p < C)
    (st : EReal × EReal × EReal) (hst : OsInv n zr tgt k st) : OsInv n zr tgt (k + 1) (osStep w hit st) := by
  obtain ⟨m, hle, hmem, rfl⟩ := hst
  obtain ⟨t, hF, htle, htmem⟩ := tile_max zr k w hw hvalid
  have hk : (k + 1) * n = k * n + n := Nat.succ_mul k n
  refine ⟨max m t, ?_, ?_, ?_⟩
  · intro p hp hpC
    by_cases h : p < k * n
    · exact le_trans (hle p h hpC) (le_max_left _ _)
    · obtain ⟨q, rfl⟩ : ∃ q, p = k * n + q := ⟨p - k * n, by omega⟩
      exact le_trans (htle q (by omega) hpC) (le_max_right _ _)
  · rcases le_total t m with h | h
    · obtain ⟨p, hp, hpC, hpm⟩ := hmem
      exact ⟨p, by omega, hpC, by rw [hpm, max_eq_left h]⟩
    · obtain ⟨q, hq, hqC, hqt⟩ := htmem
      exact ⟨k * n + q, by omega, hqC, by rw [hqt, max_eq_right h]⟩
  · have hresc : (∑ p ∈ Finset.range (k * n), (if p < C then Real.exp (zext zr p - m) else 0)) * Real.exp (m - max m t)
        = ∑ p ∈ Finset.range (k * n), (if p < C then Real.exp (zext zr p - max m t) else 0) := by
      rw [Finset.sum_mul]
      apply Finset.sum_congr rfl
      intro p _
      split_ifs
      · rw [← Real.exp_add]; congr 1; ring
      · exact zero_mul _
    simp only [osStep]
    rw [hF, max_coe, tile_sumexp zr k w hw (max m t), tile_gather zr k w hw tgt htgt hit hhit,
      ← EReal.coe_sub, Ideal.exp_coe, ← EReal.coe_mul, ← EReal.coe_add, ← EReal.coe_add, hresc,
      hk, Finset.sum_range_add, Finset.sum_range_add]

theorem osFold_closed {n nc C : ℕ} (zr : Fin C → ℝ) (tgt : Fin C)
    (hcov : C ≤ nc * n) (hlast : (nc - 1) * n < C) (hnc : 0 < nc)
    (z : ℕ → Fin n → EReal)
    (hz : ∀ c (j : Fin n), z c j = if h : c * n + j.val < C then ((zr ⟨c * n + j.val, h⟩ : ℝ) : EReal) else ⊥)
    (hit : ℕ → Fin n → Bool) (hhit : ∀ c (j : Fin n), hit c j = decide (c * n + j.val = tgt.val)) :
    osFold z hit nc = (((rmax zr tgt : ℝ) : EReal), ((∑ j, Real.exp (zr j - rmax zr tgt) : ℝ) : EReal), ((zr tgt : ℝ) : EReal)) := by
  have hn : 0 < n := by
    rcases Nat.eq_zero_or_pos n with h | h
    · subst h; simp at hcov hlast; omega
    · exact h
  have htile : ∀ c, IsTile zr c (z c) := by
    intro c j
    rw [hz]
    by_cases h : c * n + j.val < C
    · rw [dif_pos h, if_pos h, zext_lt zr h]
    · rw [dif_neg h, if_neg h]
  have hvalid : ∀ c, c < nc → ∃ p < n, c * n + p < C := by
    intro c hc
    have : c * n ≤ (nc - 1) * n := Nat.mul_le_mul_right n (by omega)
    exact ⟨0, hn, by omega⟩
  have hinv : ∀ k, k < nc → OsInv n zr tgt.val (k + 1) (osFold z hit (k + 1)) := by
    intro k
    induction k with
    | zero =>
      intro _
      exact osStep_first zr tgt.val tgt.isLt (z 0) (htile 0) (hit 0) (hhit 0) (hvalid 0 hnc)
    | succ k ih =>
      intro hk
      exact osStep_inv zr tgt.val tgt.isLt (k + 1) (z (k + 1)) (htile (k + 1)) (hit (k + 1)) (hhit (k + 1))
        (hvalid (k + 1) hk) _ (ih (by omega))
  obtain ⟨k, rfl⟩ : ∃ k, nc = k + 1 := ⟨nc - 1, by omega⟩
  obtain ⟨m, hle, hmem, hst⟩ := hinv k (by omega)
  have hm : rmax zr tgt = m := by
    apply rmax_eq
    · intro j
      have := hle j.val (by have := j.isLt; omega) j.isLt
      rwa [zext_lt zr j.isLt] at this
    · obtain ⟨p, _, hpC, hpm⟩ := hmem
      exact ⟨⟨p, hpC⟩, by rw [← hpm, zext_lt zr hpC]⟩
  obtain ⟨d, hd⟩ := Nat.exists_eq_add_of_le hcov
  rw [hst, hm]
  have hS : (∑ p ∈ Finset.range ((k + 1) * n), (if p < C then Real.exp (zext zr p - m) else 0))
      = ∑ j, Real.exp (zr j - m) := by
    rw [hd, Finset.sum_range_add, Finset.sum_range]
    have h0 : (∑ x ∈ Finset.range d, (if C + x < C then Real.exp (zext zr (C + x) - m) else 0)) = 0 :=
      Finset.sum_eq_zero (fun x _ => if_neg (by omega))
    rw [h0, add_zero]
    apply Finset.sum_congr rfl
    intro j _
    rw [if_pos j.isLt, zext_lt zr j.isLt]
  have hG : (∑ p ∈ Finset.range ((k + 1) * n), (if p = tgt.val then zext zr p else 0)) = zr tgt := by
    rw [Finset.sum_ite_eq', if_pos (Finset.mem_range.2 (by have := tgt.isLt; omega)), zext_lt zr tgt.isLt]
  rw [hS, hG]

theorem merge_two {C : ℕ} (zr : Fin C → ℝ) (i : Fin C) (c0 c1 : ℝ) :
    let v : Fin (C + 2) → ℝ := fun j => if h : j.val < C then zr ⟨j.val, h⟩ else if j.val = C then c0 else c1
    let M := max (rmax zr i) (max c0 c1)
    rmax v ⟨i.val, by omega⟩ = M ∧
    (∑ j, Real.exp (zr j - rmax zr i)) * Real.exp (rmax zr i - M) + (Real.exp (c0 - M) + Real.exp (c1 - M))
      = ∑ j, Real.exp (v j - M) := by
  intro v M
  have hv0 : ∀ j : Fin C, v ⟨j.val, by omega⟩ = zr j := by
    intro j; simp only [v]; rw [dif_pos j.isLt]
  have hv1 : v ⟨C, by omega⟩ = c0 := by simp [v]
  have hv2 : v ⟨C + 1, by omega⟩ = c1 := by simp [v]
  refine ⟨?_, ?_⟩
  · apply rmax_eq
    · intro j
      by_cases h : j.val < C
      · have : v j = zr ⟨j.val, h⟩ := by simp only [v]; rw [dif_pos h]
        rw [this]; exact le_trans (le_rmax zr i _) (le_max_left _ _)
      · by_cases h2 : j.val = C
        · have : v j = c0 := by simp only [v]; rw [dif_neg h, if_pos h2]
          rw [this]; exact le_trans (le_max_left _ _) (le_max_right _ _)
        · have : v j = c1 := by simp only [v]; rw [dif_neg h, if_neg h2]
          rw [this]; exact le_trans (le_max_right _ _) (le_max_right _ _)
    · rcases le_total (max c0 c1) (rmax zr i) with h | h
      · obtain ⟨j, hj⟩ := rmax_mem zr i
        exact ⟨⟨j.val, by omega⟩, by rw [hv0, hj]; exact (max_eq_left h).symm⟩
      · rcases le_total c1 c0 with h' | h'
        · exact ⟨⟨C, by omega⟩, by rw [hv1]; simp only [M]; rw [max_eq_right h, max_eq_left h']⟩
        · exact ⟨⟨C + 1, by omega⟩, by rw [hv2]; simp only [M]; rw [max_eq_right h, max_eq_right h']⟩
  · rw [Fin.sum_univ_castSucc, Fin.sum_univ_castSucc, Finset.sum_mul, add_assoc]
    congr 1
    · apply Finset.sum_congr rfl
      intro j _
      have : v (Fin.castSucc (Fin.castSucc j)) = zr j := hv0 j
      rw [this, ← Real.exp_add]; congr 1; ring
    · have h1 : v (Fin.castSucc (Fin.last C)) = c0 := hv1
      have h2 : v (Fin.last (C + 1)) = c1 := hv2
      rw [h1, h2]

end Cert.Math

end
-- ==== Proof.TailSpec.lean ====
import proofs.«402100_j83614423319285_2_alg».proof.Proof.Spec
import proofs.«402100_j83614423319285_2_alg».proof.Proof.Math.Online

noncomputable section

open scoped BigOperators

namespace Cert.Spec

open Idealize.ShloMosaic Idealize.ShloMosaic.ValueIdx

def tileOf {n C : Nat} (v : Fin C → EReal) (c : Nat) (j : Fin n) : EReal :=
  if h : c * n + j.val < C then v ⟨c * n + j.val, h⟩ else ⊥

def hitOf (n : Nat) (w : BitVec 32) (c : Nat) (j : Fin n) : Bool := decide (BitVec.ofNat 32 (c * n + j.val) = w)

def tg0 (t : Tgt) (r : Fin 4096) : BitVec 32 := if mask0 t r then t (ix1 r) else 0#32
def tg1 (t : Tgt) (r : Fin 4096) : BitVec 32 := if mask1 t r then t (ix1 r) - 20000#32 else 0#32
def tg2 (t : Tgt) (r : Fin 4096) : BitVec 32 := if mask2 t r then t (ix1 r) - 40000#32 else 0#32

def mTotal (m0 : Fin 4096 → EReal) (zc : Fin 4096 → Fin 2 → EReal) (r : Fin 4096) : EReal :=
  max (m0 r) (Finset.univ.fold max ⊥ (zc r))

def sTotal (m0 s0 : Fin 4096 → EReal) (zc : Fin 4096 → Fin 2 → EReal) (r : Fin 4096) : EReal :=
  s0 r * Ideal.exp (m0 r - mTotal m0 zc r) + ∑ a : Fin 2, Ideal.exp (zc r a - mTotal m0 zc r)

def klp0 (m0 s0 g0 : Fin 4096 → EReal) (zc : Fin 4096 → Fin 2 → EReal) (r : Fin 4096) : EReal :=
  (g0 r - mTotal m0 zc r) - Ideal.log (sTotal m0 s0 zc r)

def khc (m0 s0 : Fin 4096 → EReal) (zc : Fin 4096 → Fin 2 → EReal) (a : Fin 2) (r : Fin 4096) : EReal :=
  (zc r a - mTotal m0 zc r) - Ideal.log (sTotal m0 s0 zc r)

def ktl (m s g : Fin 4096 → EReal) (r : Fin 4096) : EReal := (g r - m r) - Ideal.log (s r)

def tailNll (t : Tgt) (zc : Fin 4096 → Fin 2 → EReal) (m0 s0 g0 m1 s1 g1 m2 s2 g2 : Fin 4096 → EReal) : EReal :=
  -(((∑ r : Fin 4096, if mask0 t r then klp0 m0 s0 g0 zc r else 0)
      + ∑ r : Fin 4096, if mask1 t r then khc m0 s0 zc 0 r + ktl m1 s1 g1 r else 0)
      + ∑ r : Fin 4096, if mask2 t r then khc m0 s0 zc 1 r + ktl m2 s2 g2 r else 0)

end Cert.Spec

end
-- ==== Proof.KI.HostTail.lean ====
import proofs.«402100_j83614423319285_2_alg».proof.Proof.KI.HostTailRead
import proofs.«402100_j83614423319285_2_alg».proof.Proof.TailSpec

set_option maxRecDepth 1192

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

section PiecesAt

variable (Z : FVec Ideal S4096x2 .f32) (M0 S0 G0 M S G : FVec Ideal S4096x1 .f32)

theorem pM_apply (r : Fin 4096) :
    pM Z M0 (ix2 r (0 : Fin 1)) = Cert.Spec.mTotal (fun r => M0 (ix2 r (0 : Fin 1))) (fun r a => Z (ix2 r a)) r := by
  show max (M0 (ix2 r (0 : Fin 1))) (broadcastInDim S4096x1 ![0] bcast_S4096_S4096x1_0
    (Host.reduce FloatOps.maximumf Z (constant (F := Ideal) S_ .f32 0xFF800000#32) reducesTo_S4096x2_S4096_d1 h_S_)
      (ix2 r (0 : Fin 1))) = max (M0 (ix2 r (0 : Fin 1))) (Finset.univ.fold max ⊥ fun a : Fin 2 => Z (ix2 r a))
  rw [bcastRows_apply, rowMax2_apply]

theorem pS_apply (r : Fin 4096) :
    pS Z M0 S0 (ix2 r (0 : Fin 1))
      = Cert.Spec.sTotal (fun r => M0 (ix2 r (0 : Fin 1))) (fun r => S0 (ix2 r (0 : Fin 1))) (fun r a => Z (ix2 r a)) r := by
  show S0 (ix2 r (0 : Fin 1)) * Ideal.exp (M0 (ix2 r (0 : Fin 1)) - pM Z M0 (ix2 r (0 : Fin 1)))
      + broadcastInDim S4096x1 ![0] bcast_S4096_S4096x1_0
        (Host.reduceAdd (Host.exp (subf Z (broadcastInDim S4096x2 ![0, 1] bcast_S4096x1_S4096x2_0_1 (pM Z M0))))
          (constant (F := Ideal) S_ .f32 0x00000000#32) reducesTo_S4096x2_S4096_d1 h_S_) (ix2 r (0 : Fin 1))
    = S0 (ix2 r (0 : Fin 1)) * Ideal.exp (M0 (ix2 r (0 : Fin 1))
          - Cert.Spec.mTotal (fun r => M0 (ix2 r (0 : Fin 1))) (fun r a => Z (ix2 r a)) r)
      + ∑ a : Fin 2, Ideal.exp (Z (ix2 r a) - Cert.Spec.mTotal (fun r => M0 (ix2 r (0 : Fin 1))) (fun r a => Z (ix2 r a)) r)
  rw [← pM_apply Z M0 r, bcastRows_apply, rowSum2_apply]
  refine congrArg (S0 (ix2 r (0 : Fin 1)) * Ideal.exp (M0 (ix2 r (0 : Fin 1)) - pM Z M0 (ix2 r (0 : Fin 1))) + ·) ?_
  refine Finset.sum_congr rfl fun a _ => ?_
  show Ideal.exp (Z (ix2 r a) - broadcastInDim S4096x2 ![0, 1] bcast_S4096x1_S4096x2_0_1 (pM Z M0) (ix2 r a)) = _
  rw [bcastCols_apply]

theorem pLp0_apply (r : Fin 4096) :
    pLp0 Z M0 S0 G0 (ix2 r (0 : Fin 1))
      = Cert.Spec.klp0 (fun r => M0 (ix2 r (0 : Fin 1))) (fun r => S0 (ix2 r (0 : Fin 1))) (fun r => G0 (ix2 r (0 : Fin 1)))
          (fun r a => Z (ix2 r a)) r := by
  show (G0 (ix2 r (0 : Fin 1)) - pM Z M0 (ix2 r (0 : Fin 1))) - Ideal.log (pS Z M0 S0 (ix2 r (0 : Fin 1))) = _
  rw [pM_apply, pS_apply]; rfl

theorem pHc0_apply (r : Fin 4096) :
    pHc0 Z M0 S0 (ix2 r (0 : Fin 1))
      = Cert.Spec.khc (fun r => M0 (ix2 r (0 : Fin 1))) (fun r => S0 (ix2 r (0 : Fin 1))) (fun r a => Z (ix2 r a)) 0 r := by
  show (extractStridedSlice S4096x1 ![0, 0] Z slices_S4096x2_S4096x1_0_0 (ix2 r (0 : Fin 1)) - pM Z M0 (ix2 r (0 : Fin 1)))
    - Ideal.log (pS Z M0 S0 (ix2 r (0 : Fin 1))) = _
  rw [pM_apply, pS_apply, sliceCol0_apply]; rfl

theorem pHc1_apply (r : Fin 4096) :
    pHc1 Z M0 S0 (ix2 r (0 : Fin 1))
      = Cert.Spec.khc (fun r => M0 (ix2 r (0 : Fin 1))) (fun r => S0 (ix2 r (0 : Fin 1))) (fun r a => Z (ix2 r a)) 1 r := by
  show (extractStridedSlice S4096x1 ![0, 1] Z slices_S4096x2_S4096x1_0_1 (ix2 r (0 : Fin 1)) - pM Z M0 (ix2 r (0 : Fin 1)))
    - Ideal.log (pS Z M0 S0 (ix2 r (0 : Fin 1))) = _
  rw [pM_apply, pS_apply, sliceCol1_apply]; rfl

theorem pTl_apply (r : Fin 4096) :
    pTl M S G (ix2 r (0 : Fin 1))
      = Cert.Spec.ktl (fun r => M (ix2 r (0 : Fin 1))) (fun r => S (ix2 r (0 : Fin 1))) (fun r => G (ix2 r (0 : Fin 1))) r := rfl

theorem pSum_apply (B : IVec S4096 1) (V : FVec Ideal S4096x1 .f32) :
    pSum B V ix0 = ∑ r : Fin 4096, Scalar.select (B (ix1 r)) (V (ix2 r (0 : Fin 1))) (0 : EReal) := by
  unfold pSum
  rw [colSum_apply]
  refine Finset.sum_congr rfl fun r _ => ?_
  show Scalar.select (shapeCast S4096x1 B shapeCasts_S4096_S4096x1 (ix2 r (0 : Fin 1))) (V (ix2 r (0 : Fin 1)))
    (broadcastInDim S4096x1 ![] bcast_S_S4096x1 (constant (F := Ideal) S_ .f32 0x00000000#32) (ix2 r (0 : Fin 1))) = _
  rw [castRows_apply, bcastScalar_apply]
  show Scalar.select (B (ix1 r)) (V (ix2 r (0 : Fin 1))) (Ideal.ofBits .f32 0x00000000#32) = _
  rw [Ideal.ofBits_zero_f32]

end PiecesAt

section WholeAt

theorem tailOf_apply (T : IVec S4096 32) (Z : FVec Ideal S4096x2 .f32)
    (M0 S0 G0 M1 S1 G1 M2 S2 G2 : FVec Ideal S4096x1 .f32) :
    tailOf (bit0 T) (bit1 T) (bit2 T) Z M0 S0 G0 M1 S1 G1 M2 S2 G2 ix0
      = Cert.Spec.tailNll T (fun r a => Z (ix2 r a))
          (fun r => M0 (ix2 r (0 : Fin 1))) (fun r => S0 (ix2 r (0 : Fin 1))) (fun r => G0 (ix2 r (0 : Fin 1)))
          (fun r => M1 (ix2 r (0 : Fin 1))) (fun r => S1 (ix2 r (0 : Fin 1))) (fun r => G1 (ix2 r (0 : Fin 1)))
          (fun r => M2 (ix2 r (0 : Fin 1))) (fun r => S2 (ix2 r (0 : Fin 1))) (fun r => G2 (ix2 r (0 : Fin 1))) := by
  show -((pSum (bit0 T) (pLp0 Z M0 S0 G0) ix0 + pSum (bit1 T) (addf (pHc0 Z M0 S0) (pTl M1 S1 G1)) ix0)
      + pSum (bit2 T) (addf (pHc1 Z M0 S0) (pTl M2 S2 G2)) ix0) = _
  rw [pSum_apply, pSum_apply, pSum_apply]
  unfold Cert.Spec.tailNll
  have e0 : ∀ r : Fin 4096, Scalar.select (bit0 T (ix1 r)) (pLp0 Z M0 S0 G0 (ix2 r (0 : Fin 1))) (0 : EReal)
      = if Cert.Spec.mask0 T r then Cert.Spec.klp0 (fun r => M0 (ix2 r (0 : Fin 1))) (fun r => S0 (ix2 r (0 : Fin 1)))
          (fun r => G0 (ix2 r (0 : Fin 1))) (fun r a => Z (ix2 r a)) r else 0 := fun r => by
    refine (select_mask0 T r _ _).trans ?_
    rw [pLp0_apply]
  have e1 : ∀ r : Fin 4096, Scalar.select (bit1 T (ix1 r)) (addf (pHc0 Z M0 S0) (pTl M1 S1 G1) (ix2 r (0 : Fin 1))) (0 : EReal)
      = if Cert.Spec.mask1 T r then Cert.Spec.khc (fun r => M0 (ix2 r (0 : Fin 1))) (fun r => S0 (ix2 r (0 : Fin 1)))
            (fun r a => Z (ix2 r a)) 0 r
          + Cert.Spec.ktl (fun r => M1 (ix2 r (0 : Fin 1))) (fun r => S1 (ix2 r (0 : Fin 1))) (fun r => G1 (ix2 r (0 : Fin 1))) r
        else 0 := fun r => by
    refine (select_mask1 T r _ _).trans ?_
    show (if Cert.Spec.mask1 T r then pHc0 Z M0 S0 (ix2 r (0 : Fin 1)) + pTl M1 S1 G1 (ix2 r (0 : Fin 1)) else 0) = _
    rw [pHc0_apply, pTl_apply]
  have e2 : ∀ r : Fin 4096, Scalar.select (bit2 T (ix1 r)) (addf (pHc1 Z M0 S0) (pTl M2 S2 G2) (ix2 r (0 : Fin 1))) (0 : EReal)
      = if Cert.Spec.mask2 T r then Cert.Spec.khc (fun r => M0 (ix2 r (0 : Fin 1))) (fun r => S0 (ix2 r (0 : Fin 1)))
            (fun r a => Z (ix2 r a)) 1 r
          + Cert.Spec.ktl (fun r => M2 (ix2 r (0 : Fin 1))) (fun r => S2 (ix2 r (0 : Fin 1))) (fun r => G2 (ix2 r (0 : Fin 1))) r
        else 0 := fun r => by
    refine (select_mask2 T r _ _).trans ?_
    show (if Cert.Spec.mask2 T r then pHc1 Z M0 S0 (ix2 r (0 : Fin 1)) + pTl M2 S2 G2 (ix2 r (0 : Fin 1)) else 0) = _
    rw [pHc1_apply, pTl_apply]
  rw [Finset.sum_congr rfl fun r _ => e0 r, Finset.sum_congr rfl fun r _ => e1 r, Finset.sum_congr rfl fun r _ => e2 r]

end WholeAt

section Result

variable (m : (ℓ : Loc nD τ sig) → Buf (Elt Ideal) ℓ) (outs : Gen.Outs (F := Ideal))

theorem result_eq (c : Dev nD) :
    (Gen.V22 m outs c main_v74 : FVec Ideal S_ .f32) ix0
      = Cert.Spec.tailNll (argT m c) (fun r a => (Gen.V8 m c main_v27 : FVec Ideal S4096x2 .f32) (ix2 r a))
          (fun r => (outs 9 main_v29_0 c : FVec Ideal S4096x1 .f32) (ix2 r (0 : Fin 1)))
          (fun r => (outs 9 main_v29_1 c : FVec Ideal S4096x1 .f32) (ix2 r (0 : Fin 1)))
          (fun r => (outs 9 main_v29_2 c : FVec Ideal S4096x1 .f32) (ix2 r (0 : Fin 1)))
          (fun r => (outs 12 main_v31_0 c : FVec Ideal S4096x1 .f32) (ix2 r (0 : Fin 1)))
          (fun r => (outs 12 main_v31_1 c : FVec Ideal S4096x1 .f32) (ix2 r (0 : Fin 1)))
          (fun r => (outs 12 main_v31_2 c : FVec Ideal S4096x1 .f32) (ix2 r (0 : Fin 1)))
          (fun r => (outs 15 main_v33_0 c : FVec Ideal S4096x1 .f32) (ix2 r (0 : Fin 1)))
          (fun r => (outs 15 main_v33_1 c : FVec Ideal S4096x1 .f32) (ix2 r (0 : Fin 1)))
          (fun r => (outs 15 main_v33_2 c : FVec Ideal S4096x1 .f32) (ix2 r (0 : Fin 1))) := by
  rw [v74_term]
  exact tailOf_apply (argT m c) _ _ _ _ _ _ _ _ _ _

end Result

end Cert.KernelIdeal.Hand

end
-- ==== Proof.KI.Val0a.lean ====
import proofs.«402100_j83614423319285_2_alg».proof.Proof.KI.Body0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.Sem
open Idealize.ShloMosaic.Pipeline (Dat)
open Cert.KernelIdeal Cert.KernelIdeal.Gen

variable {F : FTy → Type} [FloatOps F] [Named F]

theorem hz0 : (![0, 0] : Fin 2 → Nat) = fun _ => 0 := funext fun a => by fin_cases a <;> rfl

section
variable (c : Dev nD) (i : grid0.Coords) (a : Args0)
section
variable (hc0 : cond0_0 i) (hc1 : ¬cond0_1 i) (x0 : Vec F S512x1024 .bf16) (x1 : Vec F S2048x1024 .bf16) (x2 : Vec F S512x1 .i32)
theorem sout0_A_0_eq :
    sout0_A_0 c i a hc0 hc1 x0 x1 x2 = k0_pay1 (k0_pay8 i x0 x1 k0_pay3) := by
  unfold sout0_A_0
  rw [View.read_writes_eq_canon _ _ _ (scover0_A_0 c i a hc0 hc1 x0 x1 x2)]
  unfold run0_A kernelRun0_A
  dsimp only
  sl_unfold_words
  rw [View.canon_cons_unit_zero (S := S512x1) hz0]
  simp only [View.readAt_eq_ld, a.harg2.read_unread, a.harg3.read_unread, View.readCov_unit_zero (S := S512x1) _ hz0, View.ld_unit_zero (S := S512x1024) hz0, View.ld_unit_zero (S := S2048x1024) hz0]

theorem sout0_A_1_eq :
    sout0_A_1 c i a hc0 hc1 x0 x1 x2 = k0_pay9 i x0 x1 k0_pay3 k0_pay3 k0_pay4 := by
  unfold sout0_A_1
  rw [View.read_writes_eq_canon _ _ _ (scover0_A_1 c i a hc0 hc1 x0 x1 x2)]
  unfold run0_A kernelRun0_A
  dsimp only
  sl_unfold_words
  rw [View.canon_cons_unit_zero (S := S512x1) hz0]
  simp only [View.readAt_eq_ld, a.harg2.read_unread, a.harg3.read_unread, View.readCov_unit_zero (S := S512x1) _ hz0, View.ld_unit_zero (S := S512x1024) hz0, View.ld_unit_zero (S := S2048x1024) hz0]

theorem sout0_A_2_eq :
    sout0_A_2 c i a hc0 hc1 x0 x1 x2 = k0_pay2 (k0_pay6 i) (k0_pay7 i x0 x1) x2 k0_pay5 := by
  unfold sout0_A_2
  rw [View.read_writes_eq_canon _ _ _ (scover0_A_2 c i a hc0 hc1 x0 x1 x2)]
  unfold run0_A kernelRun0_A
  dsimp only
  sl_unfold_words
  rw [View.canon_cons_unit_zero (S := S512x1) hz0]
  simp only [View.readAt_eq_ld, a.harg2.read_unread, a.harg3.read_unread, a.harg4.read_unread, View.readCov_unit_zero (S := S512x1) _ hz0, View.ld_unit_zero (S := S512x1024) hz0, View.ld_unit_zero (S := S2048x1024) hz0, View.ld_unit_zero (S := S512x1) hz0]

end
section
variable (hc0 : ¬cond0_0 i) (hc1 : ¬cond0_1 i) (x0 : Vec F S512x1024 .bf16) (x1 : Vec F S2048x1024 .bf16) (x2 : Vec F S512x1 .i32) (xs0 : Vec F S512x1 .f32) (xs1 : Vec F S512x1 .f32) (xs2 : Vec F S512x1 .f32)
theorem sout0_B_0_eq :
    sout0_B_0 c i a hc0 hc1 x0 x1 x2 xs0 xs1 xs2 = k0_pay1 (k0_pay8 i x0 x1 xs0) := by
  unfold sout0_B_0
  rw [View.read_writes_eq_canon _ _ _ (scover0_B_0 c i a hc0 hc1 x0 x1 x2 xs0 xs1 xs2)]
  unfold run0_B kernelRun0_B
  dsimp only
  sl_unfold_words
  rw [View.canon_unit_zero hz0]
  simp only [View.readAt_eq_ld, a.harg2.read_unread, a.harg3.read_unread, a.harg8.read_unread, View.ld_unit_zero (S := S512x1024) hz0, View.ld_unit_zero (S := S2048x1024) hz0, View.ld_unit_zero (S := S512x1) hz0]

theorem sout0_B_1_eq :
    sout0_B_1 c i a hc0 hc1 x0 x1 x2 xs0 xs1 xs2 = k0_pay9 i x0 x1 xs0 xs0 xs1 := by
  unfold sout0_B_1
  rw [View.read_writes_eq_canon _ _ _ (scover0_B_1 c i a hc0 hc1 x0 x1 x2 xs0 xs1 xs2)]
  unfold run0_B kernelRun0_B
  dsimp only
  sl_unfold_words
  rw [View.canon_unit_zero hz0]
  simp only [View.readAt_eq_ld, a.harg2.read_unread, a.harg3.read_unread, a.harg8.read_unread, a.harg9.read_unread, View.ld_unit_zero (S := S512x1024) hz0, View.ld_unit_zero (S := S2048x1024) hz0, View.ld_unit_zero (S := S512x1) hz0]

theorem sout0_B_2_eq :
    sout0_B_2 c i a hc0 hc1 x0 x1 x2 xs0 xs1 xs2 = k0_pay2 (k0_pay6 i) (k0_pay7 i x0 x1) x2 xs2 := by
  unfold sout0_B_2
  rw [View.read_writes_eq_canon _ _ _ (scover0_B_2 c i a hc0 hc1 x0 x1 x2 xs0 xs1 xs2)]
  unfold run0_B kernelRun0_B
  dsimp only
  sl_unfold_words
  rw [View.canon_unit_zero hz0]
  simp only [View.readAt_eq_ld, a.harg2.read_unread, a.harg3.read_unread, a.harg4.read_unread, a.harg10.read_unread, View.ld_unit_zero (S := S512x1024) hz0, View.ld_unit_zero (S := S2048x1024) hz0, View.ld_unit_zero (S := S512x1) hz0]

end
section
variable (hc0 : ¬cond0_0 i) (hc1 : cond0_1 i) (x0 : Vec F S512x1024 .bf16) (x1 : Vec F S2048x1024 .bf16) (x2 : Vec F S512x1 .i32) (xs0 : Vec F S512x1 .f32) (xs1 : Vec F S512x1 .f32) (xs2 : Vec F S512x1 .f32)
theorem sout0_C_0_eq :
    sout0_C_0 c i a hc0 hc1 x0 x1 x2 xs0 xs1 xs2 = k0_pay1 (k0_pay8 i x0 x1 xs0) := by
  unfold sout0_C_0
  rw [View.read_writes_eq_canon _ _ _ (scover0_C_0 c i a hc0 hc1 x0 x1 x2 xs0 xs1 xs2)]
  unfold run0_C kernelRun0_C
  dsimp only
  sl_unfold_words
  rw [View.canon_unit_zero hz0]
  simp only [View.readAt_eq_ld, a.harg2.read_unread, a.harg3.read_unread, a.harg8.read_unread, View.ld_unit_zero (S := S512x1024) hz0, View.ld_unit_zero (S := S2048x1024) hz0, View.ld_unit_zero (S := S512x1) hz0]

theorem sout0_C_1_eq :
    sout0_C_1 c i a hc0 hc1 x0 x1 x2 xs0 xs1 xs2 = k0_pay9 i x0 x1 xs0 xs0 xs1 := by
  unfold sout0_C_1
  rw [View.read_writes_eq_canon _ _ _ (scover0_C_1 c i a hc0 hc1 x0 x1 x2 xs0 xs1 xs2)]
  unfold run0_C kernelRun0_C
  dsimp only
  sl_unfold_words
  rw [View.canon_unit_zero hz0]
  simp only [View.readAt_eq_ld, a.harg2.read_unread, a.harg3.read_unread, a.harg8.read_unread, a.harg9.read_unread, View.ld_unit_zero (S := S512x1024) hz0, View.ld_unit_zero (S := S2048x1024) hz0, View.ld_unit_zero (S := S512x1) hz0]

theorem sout0_C_2_eq :
    sout0_C_2 c i a hc0 hc1 x0 x1 x2 xs0 xs1 xs2 = k0_pay2 (k0_pay6 i) (k0_pay7 i x0 x1) x2 xs2 := by
  unfold sout0_C_2
  rw [View.read_writes_eq_canon _ _ _ (scover0_C_2 c i a hc0 hc1 x0 x1 x2 xs0 xs1 xs2)]
  unfold run0_C kernelRun0_C
  dsimp only
  sl_unfold_words
  rw [View.canon_unit_zero hz0]
  simp only [View.readAt_eq_ld, a.harg2.read_unread, a.harg3.read_unread, a.harg4.read_unread, a.harg10.read_unread, View.ld_unit_zero (S := S512x1024) hz0, View.ld_unit_zero (S := S2048x1024) hz0, View.ld_unit_zero (S := S512x1) hz0]

theorem out0_C_3_eq :
    out0_C_3 c i a hc0 hc1 x0 x1 x2 xs0 xs1 xs2 = k0_pay1 (k0_pay8 i x0 x1 xs0) := by
  unfold out0_C_3
  rw [View.read_writes_eq_canon _ _ _ (cover0_C_3 c i a hc0 hc1 x0 x1 x2 xs0 xs1 xs2)]
  unfold run0_C kernelRun0_C
  dsimp only
  sl_unfold_words
  rw [View.canon_unit_zero hz0]
  simp only [View.readAt_eq_ld, a.harg2.read_unread, a.harg3.read_unread, a.harg8.read_unread, View.readCov_unit_zero (S := S512x1) _ hz0, View.ld_unit_zero (S := S512x1024) hz0, View.ld_unit_zero (S := S2048x1024) hz0, View.ld_unit_zero (S := S512x1) hz0]

theorem out0_C_4_eq :
    out0_C_4 c i a hc0 hc1 x0 x1 x2 xs0 xs1 xs2 = k0_pay9 i x0 x1 xs0 xs0 xs1 := by
  unfold out0_C_4
  rw [View.read_writes_eq_canon _ _ _ (cover0_C_4 c i a hc0 hc1 x0 x1 x2 xs0 xs1 xs2)]
  unfold run0_C kernelRun0_C
  dsimp only
  sl_unfold_words
  rw [View.canon_unit_zero hz0]
  simp only [View.readAt_eq_ld, a.harg2.read_unread, a.harg3.read_unread, a.harg8.read_unread, a.harg9.read_unread, View.readCov_unit_zero (S := S512x1) _ hz0, View.ld_unit_zero (S := S512x1024) hz0, View.ld_unit_zero (S := S2048x1024) hz0, View.ld_unit_zero (S := S512x1) hz0]

theorem out0_C_5_eq :
    out0_C_5 c i a hc0 hc1 x0 x1 x2 xs0 xs1 xs2 = k0_pay2 (k0_pay6 i) (k0_pay7 i x0 x1) x2 xs2 := by
  unfold out0_C_5
  rw [View.read_writes_eq_canon _ _ _ (cover0_C_5 c i a hc0 hc1 x0 x1 x2 xs0 xs1 xs2)]
  unfold run0_C kernelRun0_C
  dsimp only
  sl_unfold_words
  rw [View.canon_unit_zero hz0]
  simp only [View.readAt_eq_ld, a.harg2.read_unread, a.harg3.read_unread, a.harg4.read_unread, a.harg10.read_unread, View.readCov_unit_zero (S := S512x1) _ hz0, View.ld_unit_zero (S := S512x1024) hz0, View.ld_unit_zero (S := S2048x1024) hz0, View.ld_unit_zero (S := S512x1) hz0]
end
end

end Cert.KernelIdeal.Hand

end
-- ==== Proof.KI.Pay0.lean ====
import proofs.«402100_j83614423319285_2_alg».proof.Proof.Gen.KernelIdeal.Skeleton
import proofs.«402100_j83614423319285_2_alg».proof.Proof.Math.Online
import Idealize.ShloMosaic.PureOps.Ideal.Laws
import Idealize.ShloMosaic.PureOps.IdealRules
import Idealize.ShloMosaic.Lib.ValueIdx
import Idealize.ShloMosaic.Lib.ValueLayout
import Idealize.ShloMosaic.Lib.Pipeline.Value
import Idealize.ShloMosaic.Lib.StableHlo.Predicate

noncomputable section

namespace Cert.KernelIdeal.Hand

open Idealize.ShloMosaic Idealize.ShloMosaic.ValueIdx Idealize.ShloMosaic.StableHlo.Predicate
open Cert.KernelIdeal Cert.KernelIdeal.Gen
open scoped BigOperators

section Layout
variable {α : Type}

theorem shapeCast_a_a1_apply {n : ℕ} (v : (⟨1, ![n]⟩ : Shape).Idx → α) (h : (⟨1, ![n]⟩ : Shape).ShapeCasts ⟨2, ![n, 1]⟩)
    (a : Fin n) (u : Fin 1) : shapeCast ⟨2, ![n, 1]⟩ v h (ix2 a u) = v (ix1 a) :=
  shapeCast_apply v h _ _ (by
    have hu : u.val = 0 := by omega
    rw [Shape.rowMajor_val_two, Shape.rowMajor_val_one]
    show a.val = a.val * 1 + u.val
    rw [hu, Nat.mul_one, Nat.add_zero])

theorem broadcastTo_a1_ab_apply {n m : ℕ} (v : (⟨2, ![n, 1]⟩ : Shape).Idx → α) (h : (⟨2, ![n, 1]⟩ : Shape).Broadcasts ⟨2, ![n, m]⟩)
    (a : Fin n) (j : Fin m) : broadcastTo ⟨2, ![n, m]⟩ v h (ix2 a j) = v (ix2 a (0 : Fin 1)) := by
  refine broadcastTo_apply v h (ix2 a j) (ix2 a (0 : Fin 1)) fun ax => ?_
  match ax with
  | ⟨0, _⟩ =>
    show a.val = if n = 1 then 0 else a.val
    split
    · have := a.isLt; omega
    · rfl
  | ⟨1, _⟩ => rfl

theorem lift_row {n m : ℕ} (h : (⟨2, ![n, m]⟩ : Shape).Reduces [1] ⟨1, ![n]⟩) (a : Fin n) (k : Fin m) :
    h.lift (ix1 a) k = ix2 a k := by
  funext c
  apply Fin.ext
  show h.liftVal (ix1 a) k.val c = (ix2 a k c).val
  match c with
  | ⟨0, _⟩ => rfl
  | ⟨1, _⟩ => rfl

end Layout

theorem col_word (c j : ℕ) (hc : c < 10) (hj : j < 2048) :
    IntOp.addi (Scalar.muli (BitVec.ofNat 32 c) 2048#32) (BitVec.ofNat 32 j) = BitVec.ofNat 32 (c * 2048 + j) := by
  apply BitVec.eq_of_toNat_eq
  simp only [IntOp.addi, Scalar.muli, IntOp.muli, BitVec.toNat_add, BitVec.toNat_mul, BitVec.toNat_ofNat]
  omega

theorem select_slt {β : Type} (p : ℕ) (hp : p < 2 ^ 31) (A B : β) :
    Scalar.select (IntOp.cmpi .slt (BitVec.ofNat 32 p) 20000#32) A B = if p < 20000 then A else B := by
  have h : IntOp.cmpi .slt (BitVec.ofNat 32 p) 20000#32 = 1#1 ↔ p < 20000 := by
    unfold IntOp.cmpi; exact slt_ofNat_iff p 20000 hp (by norm_num)
  unfold Scalar.select
  by_cases hlt : p < 20000
  · rw [if_pos hlt]; exact if_pos (h.2 hlt)
  · rw [if_neg hlt]; exact if_neg (fun e => hlt (h.1 e))

theorem select_eq {β : Type} (u v : BitVec 32) (A B : β) :
    Scalar.select (IntOp.cmpi .eq u v) A B = if decide (u = v) = true then A else B := by
  unfold Scalar.select
  by_cases e : u = v
  · exact (if_pos (cmpi_eq_iff.2 e)).trans (if_pos (decide_eq_true e)).symm
  · exact (if_neg (fun h => e (cmpi_eq_iff.1 h))).trans (if_neg (by simpa using e)).symm

theorem ofBits_neg_inf : Ideal.ofBits .f32 0xFF800000#32 = (⊥ : EReal) := by simp [Ideal.ofBits, Ideal.ieee]

theorem neg_big : Named.named (F := Ideal) κ "neg_big" (φ := .f32) 0xFF333332#32 = (⊥ : EReal) :=
  IdealRules.named_const.ideal_named_scalar _ _ _ _ rfl

theorem pay0_m {F : FTy → Type} [FloatOps F] [Named F] (v20 : FVec F S512x1 .f32) : k0_pay1 v20 = v20 := by
  unfold k0_pay1
  exact shapeCast_self _ _

theorem pay0_reset (j : S512x1.Idx) :
    (k0_pay3 (F := Ideal) j, k0_pay4 (F := Ideal) j, k0_pay5 (F := Ideal) j) = ((⊥ : EReal), (0 : EReal), (0 : EReal)) := by
  unfold k0_pay3 k0_pay4 k0_pay5
  simp only [shapeCast_self]
  show (Ideal.ofBits .f32 0xFF800000#32, Ideal.ofBits .f32 0x00000000#32, Ideal.ofBits .f32 0x00000000#32) = _
  rw [ofBits_neg_inf, Ideal.ofBits_zero_f32]

theorem pay6_apply (i : grid0.Coords) (a : Fin 512) (j : Fin 2048) :
    k0_pay6 i (ix2 a j) = BitVec.ofNat 32 ((i 1).val * 2048 + j.val) := by
  unfold k0_pay6
  show IntOp.addi (Scalar.muli (BitVec.ofNat 32 (i 1).val) 2048#32) (iota .tc S512x2048 32 [1] iota_S512x2048_d1_w32 (ix2 a j)) = _
  rw [iota_single_apply]
  exact col_word _ _ (i 1).isLt j.isLt

theorem lhs0_0 (i : S512x2048.Idx) (q : dot_S512x1024_S1024x2048_S512x2048_1_0_0_1_n_n.contr.Idx) :
    (dot_S512x1024_S1024x2048_S512x2048_1_0_0_1_n_n.lhsIdx i q 0).val = (i 0).val := by
  unfold DotDims.lhsIdx
  rw [dif_neg (show ¬(0 : Fin S512x1024.rank) ∈ dot_S512x1024_S1024x2048_S512x2048_1_0_0_1_n_n.lhsBatch by decide), dif_pos (show (0 : Fin S512x1024.rank) ∈ dot_S512x1024_S1024x2048_S512x2048_1_0_0_1_n_n.lhsNonContracting by decide)]
  rfl
theorem lhs0_1 (i : S512x2048.Idx) (q : dot_S512x1024_S1024x2048_S512x2048_1_0_0_1_n_n.contr.Idx) :
    (dot_S512x1024_S1024x2048_S512x2048_1_0_0_1_n_n.lhsIdx i q 1).val = (q ⟨0, by decide⟩).val :=
  dot_S512x1024_S1024x2048_S512x2048_1_0_0_1_n_n.lhsIdx_val_of_single rfl i q
theorem rhs0_0 (i : S512x2048.Idx) (q : dot_S512x1024_S1024x2048_S512x2048_1_0_0_1_n_n.contr.Idx) :
    (dot_S512x1024_S1024x2048_S512x2048_1_0_0_1_n_n.rhsIdx i q 0).val = (q ⟨0, by decide⟩).val :=
  dot_S512x1024_S1024x2048_S512x2048_1_0_0_1_n_n.rhsIdx_val_of_single rfl i q
theorem rhs0_1 (i : S512x2048.Idx) (q : dot_S512x1024_S1024x2048_S512x2048_1_0_0_1_n_n.contr.Idx) :
    (dot_S512x1024_S1024x2048_S512x2048_1_0_0_1_n_n.rhsIdx i q 1).val = (i 1).val := by
  unfold DotDims.rhsIdx
  rw [dif_neg (show ¬(1 : Fin S1024x2048.rank) ∈ dot_S512x1024_S1024x2048_S512x2048_1_0_0_1_n_n.rhsBatch by decide), dif_pos (show (1 : Fin S1024x2048.rank) ∈ dot_S512x1024_S1024x2048_S512x2048_1_0_0_1_n_n.rhsNonContracting by decide)]
  rfl

theorem matmul0_apply (x : FVec Ideal S512x1024 .bf16) (y : FVec Ideal S1024x2048 .bf16) (a : Fin 512) (j : Fin 2048) :
    FloatOps.matmul dot_S512x1024_S1024x2048_S512x2048_1_0_0_1_n_n none x y (constant (F := Ideal) S512x2048 .f32 0x00000000#32) (ix2 a j)
      = ∑ k : Fin 1024, x (ix2 a k) * y (ix2 k j) := by
  rw [Ideal.matmul_constant_zero_apply, ← Equiv.sum_comp (ValueIdx.contrEquiv1 dot_S512x1024_S1024x2048_S512x2048_1_0_0_1_n_n 1024 rfl rfl).symm]
  refine Finset.sum_congr rfl fun k _ => ?_
  have hk := ValueIdx.contrEquiv1_symm_val dot_S512x1024_S1024x2048_S512x2048_1_0_0_1_n_n 1024 rfl rfl k
  have el : dot_S512x1024_S1024x2048_S512x2048_1_0_0_1_n_n.lhsIdx (ix2 a j) ((ValueIdx.contrEquiv1 dot_S512x1024_S1024x2048_S512x2048_1_0_0_1_n_n 1024 rfl rfl).symm k) = ix2 a k := funext fun c => Fin.ext (by
    match c with
    | ⟨0, _⟩ => exact lhs0_0 _ _
    | ⟨1, _⟩ => exact (lhs0_1 _ _).trans hk)
  have er : dot_S512x1024_S1024x2048_S512x2048_1_0_0_1_n_n.rhsIdx (ix2 a j) ((ValueIdx.contrEquiv1 dot_S512x1024_S1024x2048_S512x2048_1_0_0_1_n_n 1024 rfl rfl).symm k) = ix2 k j := funext fun c => Fin.ext (by
    match c with
    | ⟨0, _⟩ => exact (rhs0_0 _ _).trans hk
    | ⟨1, _⟩ => exact rhs0_1 _ _)
  rw [el, er]

theorem pay7_apply (i : grid0.Coords) (x : FVec Ideal S512x1024 .bf16) (w : FVec Ideal S2048x1024 .bf16) (a : Fin 512) (j : Fin 2048) :
    k0_pay7 (F := Ideal) i x w (ix2 a j)
      = if (i 1).val * 2048 + j.val < 20000 then ∑ k : Fin 1024, x (ix2 a k) * w (ix2 j k) else ⊥ := by
  unfold k0_pay7
  show Scalar.select (IntOp.cmpi .slt (k0_pay6 i (ix2 a j)) 20000#32)
      (FloatOps.matmul dot_S512x1024_S1024x2048_S512x2048_1_0_0_1_n_n none (shapeCast S512x1024 x shapeCasts_S512x1024_S512x1024)
        (transpose S1024x2048 [1, 0] (shapeCast S2048x1024 w shapeCasts_S2048x1024_S2048x1024) transposes_S2048x1024_p1_0_S1024x2048)
        (constant (F := Ideal) S512x2048 .f32 0x00000000#32) (ix2 a j))
      (Named.named (F := Ideal) κ "neg_big" (φ := .f32) 0xFF333332#32) = _
  rw [pay6_apply, select_slt _ (by have h1 : (i 1).val < 10 := (i 1).isLt; have := j.isLt; omega), neg_big, matmul0_apply, shapeCast_self, shapeCast_self]
  refine if_congr Iff.rfl (Finset.sum_congr rfl fun k _ => ?_) rfl
  rw [transpose_ix2_apply]

theorem rowmax_apply (z : FVec Ideal S512x2048 .f32) (hφ : FKind.Formats .f32)
    (hacc : (0xFF800000#32 : BitVec 32) = FKind.maximumf.neutral .f32 hφ) (a : Fin 512) :
    multiReduction (F := Ideal) .maximumf [1] S512 z 0xFF800000#32 reduces_S512x2048_S512 hφ hacc (ix1 a)
      = Finset.univ.fold max ⊥ (fun j : Fin 2048 => z (ix2 a j)) := by
  refine (Ideal.multiReduction_maximumf_single z _ reduces_S512x2048_S512 hφ hacc (ix1 a)).trans ?_
  have e : (z ∘ reduces_S512x2048_S512.lift (ix1 a)) = fun j : Fin 2048 => z (ix2 a j) :=
    funext fun k => congrArg z (lift_row reduces_S512x2048_S512 a k)
  have b : FloatOps.ofBits (F := Ideal) .f32 0xFF800000#32 = (⊥ : EReal) := ofBits_neg_inf
  rw [e, b]
  rfl

theorem rowsum_apply (z : FVec Ideal S512x2048 .f32) (hφ : FKind.Formats .f32)
    (hacc : (0x00000000#32 : BitVec 32) = FKind.add.neutral .f32 hφ) (a : Fin 512) :
    multiReduction (F := Ideal) .add [1] S512 z 0x00000000#32 reduces_S512x2048_S512 hφ hacc (ix1 a)
      = ∑ j : Fin 2048, z (ix2 a j) :=
  (Ideal.multiReduction_add_single z _ reduces_S512x2048_S512 hφ hacc (ix1 a)).trans
    (Finset.sum_congr rfl fun k _ => congrArg z (lift_row reduces_S512x2048_S512 a k))

theorem pay8_apply (i : grid0.Coords) (x : FVec Ideal S512x1024 .bf16) (w : FVec Ideal S2048x1024 .bf16)
    (pm : FVec Ideal S512x1 .f32) (a : Fin 512) :
    k0_pay8 (F := Ideal) i x w pm (ix2 a (0 : Fin 1))
      = max (pm (ix2 a (0 : Fin 1))) (Finset.univ.fold max ⊥ (fun j : Fin 2048 => k0_pay7 (F := Ideal) i x w (ix2 a j))) := by
  unfold k0_pay8
  dsimp only
  refine (maximumf_apply _ _ _).trans ?_
  refine congrArg (max (pm (ix2 a (0 : Fin 1)))) ?_
  refine (shapeCast_a_a1_apply _ _ a 0).trans ?_
  exact rowmax_apply _ _ _ a

theorem pay9_apply (i : grid0.Coords) (x : FVec Ideal S512x1024 .bf16) (w : FVec Ideal S2048x1024 .bf16)
    (pm pm' ps : FVec Ideal S512x1 .f32) (a : Fin 512) :
    k0_pay9 (F := Ideal) i x w pm pm' ps (ix2 a (0 : Fin 1))
      = ps (ix2 a (0 : Fin 1)) * Ideal.exp (pm' (ix2 a (0 : Fin 1)) - k0_pay8 (F := Ideal) i x w pm (ix2 a (0 : Fin 1)))
        + ∑ j : Fin 2048, Ideal.exp (k0_pay7 (F := Ideal) i x w (ix2 a j) - k0_pay8 (F := Ideal) i x w pm (ix2 a (0 : Fin 1))) := by
  unfold k0_pay9
  dsimp only
  refine (congrFun (shapeCast_self _ _) _).trans ?_
  refine (addf_apply _ _ _).trans ?_
  refine congr (congrArg HAdd.hAdd ?_) ?_
  ·
    refine (mulf_apply _ _ _).trans ?_
    rfl
  ·
    refine (shapeCast_a_a1_apply _ _ a 0).trans ?_
    refine (rowsum_apply _ _ _ a).trans ?_
    refine Finset.sum_congr rfl fun j _ => ?_
    exact congrArg (fun t => Ideal.exp (k0_pay7 (F := Ideal) i x w (ix2 a j) - t))
      (broadcastTo_a1_ab_apply (k0_pay8 (F := Ideal) i x w pm) broadcasts_S512x1_S512x2048 a j)

theorem pay2_apply (col : IVec S512x2048 32) (z : FVec Ideal S512x2048 .f32) (tg : IVec S512x1 32) (pg : FVec Ideal S512x1 .f32)
    (a : Fin 512) :
    k0_pay2 (F := Ideal) col z tg pg (ix2 a (0 : Fin 1))
      = pg (ix2 a (0 : Fin 1)) + ∑ j : Fin 2048, if decide (col (ix2 a j) = tg (ix2 a (0 : Fin 1))) = true then z (ix2 a j) else 0 := by
  unfold k0_pay2
  dsimp only
  refine (congrFun (shapeCast_self _ _) _).trans ?_
  refine (addf_apply _ _ _).trans ?_
  refine congrArg (pg (ix2 a (0 : Fin 1)) + ·) ?_
  refine (shapeCast_a_a1_apply _ _ a 0).trans ?_
  refine (rowsum_apply _ _ _ a).trans ?_
  refine Finset.sum_congr rfl fun j _ => ?_
  refine (select_apply _ _ _ _).trans ?_
  refine (congrArg (fun t => Scalar.select (IntOp.cmpi .eq (col (ix2 a j)) t) (z (ix2 a j)) (Ideal.ofBits .f32 0x00000000#32))
    ((broadcastTo_a1_ab_apply (shapeCast S512x1 tg shapeCasts_S512x1_S512x1) broadcasts_S512x1_S512x2048 a j).trans
      (congrFun (shapeCast_self tg shapeCasts_S512x1_S512x1) (ix2 a (0 : Fin 1))))).trans ?_
  refine (select_eq _ _ _ _).trans ?_
  rw [Ideal.ofBits_zero_f32]

theorem pay0_step (i : grid0.Coords) (x : Vec Ideal S512x1024 .bf16) (w : Vec Ideal S2048x1024 .bf16) (tg : Vec Ideal S512x1 .i32)
    (pm ps pg : Vec Ideal S512x1 .f32) (a : Fin 512) :
    (k0_pay8 (F := Ideal) i x w pm (ix2 a (0 : Fin 1)), k0_pay9 (F := Ideal) i x w pm pm ps (ix2 a (0 : Fin 1)),
        k0_pay2 (F := Ideal) (k0_pay6 i) (k0_pay7 (F := Ideal) i x w) tg pg (ix2 a (0 : Fin 1)))
      = Cert.Math.osStep
          (fun j : Fin 2048 => if (i 1).val * 2048 + j.val < 20000 then ∑ k : Fin 1024, x (ix2 a k) * w (ix2 j k) else ⊥)
          (fun j : Fin 2048 => decide (BitVec.ofNat 32 ((i 1).val * 2048 + j.val) = tg (ix2 a (0 : Fin 1))))
          (pm (ix2 a (0 : Fin 1)), ps (ix2 a (0 : Fin 1)), pg (ix2 a (0 : Fin 1))) := by
  have e7 : (fun j : Fin 2048 => k0_pay7 (F := Ideal) i x w (ix2 a j))
      = fun j : Fin 2048 => if (i 1).val * 2048 + j.val < 20000 then ∑ k : Fin 1024, x (ix2 a k) * w (ix2 j k) else ⊥ :=
    funext fun j => pay7_apply i x w a j
  have e8 := pay8_apply i x w pm a
  rw [e7] at e8
  have e9 := pay9_apply i x w pm pm ps a
  simp only [pay7_apply, e8] at e9
  have e2 := pay2_apply (k0_pay6 i) (k0_pay7 (F := Ideal) i x w) tg pg a
  simp only [pay7_apply, pay6_apply] at e2
  unfold Cert.Math.osStep
  exact Prod.ext e8 (Prod.ext e9 e2)

end Cert.KernelIdeal.Hand

end
-- ==== Proof.KI.Blk0.lean ====
import proofs.«402100_j83614423319285_2_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.SL.Sem
open Cert.KernelIdeal Cert.KernelIdeal.Gen

variable {F : FTy → Type} [FloatOps F] [Named F]

theorem coords0_1 : ∀ t : Fin cfg0.N, ((grid0.coords t) 1).val = t.val % 10 :=
  (by decide +kernel : ∀ t : Fin grid0.N, _)

theorem gridN0 : cfg0.N = 80 := by decide

theorem idx_facts0 : ∀ t : Fin cfg0.N, win0_0.index t (0 : Fin 2) = t.val / 10 ∧ win0_0.index t (1 : Fin 2) = 0
    ∧ win0_1.index t (0 : Fin 2) = t.val % 10 ∧ win0_1.index t (1 : Fin 2) = 0
    ∧ win0_2.index t (0 : Fin 2) = t.val / 10 ∧ win0_2.index t (1 : Fin 2) = 0
    ∧ win0_3.index t (0 : Fin 2) = t.val / 10 ∧ win0_3.index t (1 : Fin 2) = 0
    ∧ win0_4.index t (0 : Fin 2) = t.val / 10 ∧ win0_4.index t (1 : Fin 2) = 0
    ∧ win0_5.index t (0 : Fin 2) = t.val / 10 ∧ win0_5.index t (1 : Fin 2) = 0 :=
  (by decide +kernel : ∀ t : Fin grid0.N, _)

theorem blk0_0 (A : S4096x1024.Idx → Elt F .bf16) (t : Fin cfg0.N) (a : Fin 512) (k : Fin 1024) :
    ((cfg0.win 0).blk t).view.read (Elt F) A (ix2 a k) = A (ix2 ⟨t.val / 10 * 512 + a.val, by have := t.isLt; have hN : cfg0.N = 80 := gridN0; omega⟩ k) := by
  have h := idx_facts0 t
  show A (((cfg0.win 0).blk t).view.emb (ix2 a k)) = A _
  refine congrArg A (funext fun d => Fin.ext ?_)
  match d with
  | ⟨0, _⟩ => show win0_0.index t (0 : Fin 2) * 512 + 1 * a.val = t.val / 10 * 512 + a.val; omega
  | ⟨1, _⟩ => show win0_0.index t (1 : Fin 2) * 1024 + 1 * k.val = k.val; omega

theorem blk0_1 (A : S20480x1024.Idx → Elt F .bf16) (t : Fin cfg0.N) (a : Fin 2048) (k : Fin 1024) :
    ((cfg0.win 1).blk t).view.read (Elt F) A (ix2 a k) = A (ix2 ⟨t.val % 10 * 2048 + a.val, by have := t.isLt; have hN : cfg0.N = 80 := gridN0; omega⟩ k) := by
  have h := idx_facts0 t
  show A (((cfg0.win 1).blk t).view.emb (ix2 a k)) = A _
  refine congrArg A (funext fun d => Fin.ext ?_)
  match d with
  | ⟨0, _⟩ => show win0_1.index t (0 : Fin 2) * 2048 + 1 * a.val = t.val % 10 * 2048 + a.val; omega
  | ⟨1, _⟩ => show win0_1.index t (1 : Fin 2) * 1024 + 1 * k.val = k.val; omega

theorem blk0_2 (A : S4096x1.Idx → Elt F .i32) (t : Fin cfg0.N) (a : Fin 512) :
    ((cfg0.win 2).blk t).view.read (Elt F) A (ix2 a (0 : Fin 1)) = A (ix2 ⟨t.val / 10 * 512 + a.val, by have := t.isLt; have hN : cfg0.N = 80 := gridN0; omega⟩ (0 : Fin 1)) := by
  have h := idx_facts0 t
  show A (((cfg0.win 2).blk t).view.emb (ix2 a (0 : Fin 1))) = A _
  refine congrArg A (funext fun d => Fin.ext ?_)
  match d with
  | ⟨0, _⟩ => show win0_2.index t (0 : Fin 2) * 512 + 1 * a.val = t.val / 10 * 512 + a.val; omega
  | ⟨1, _⟩ => show win0_2.index t (1 : Fin 2) * 1 + 1 * (0 : Fin 1).val = (0 : Fin 1).val; omega

theorem blk0_3 (A : S4096x1.Idx → Elt F .f32) (t : Fin cfg0.N) (a : Fin 512) :
    ((cfg0.win 3).blk t).view.read (Elt F) A (ix2 a (0 : Fin 1)) = A (ix2 ⟨t.val / 10 * 512 + a.val, by have := t.isLt; have hN : cfg0.N = 80 := gridN0; omega⟩ (0 : Fin 1)) := by
  have h := idx_facts0 t
  show A (((cfg0.win 3).blk t).view.emb (ix2 a (0 : Fin 1))) = A _
  refine congrArg A (funext fun d => Fin.ext ?_)
  match d with
  | ⟨0, _⟩ => show win0_3.index t (0 : Fin 2) * 512 + 1 * a.val = t.val / 10 * 512 + a.val; omega
  | ⟨1, _⟩ => show win0_3.index t (1 : Fin 2) * 1 + 1 * (0 : Fin 1).val = (0 : Fin 1).val; omega

theorem blk0_4 (A : S4096x1.Idx → Elt F .f32) (t : Fin cfg0.N) (a : Fin 512) :
    ((cfg0.win 4).blk t).view.read (Elt F) A (ix2 a (0 : Fin 1)) = A (ix2 ⟨t.val / 10 * 512 + a.val, by have := t.isLt; have hN : cfg0.N = 80 := gridN0; omega⟩ (0 : Fin 1)) := by
  have h := idx_facts0 t
  show A (((cfg0.win 4).blk t).view.emb (ix2 a (0 : Fin 1))) = A _
  refine congrArg A (funext fun d => Fin.ext ?_)
  match d with
  | ⟨0, _⟩ => show win0_4.index t (0 : Fin 2) * 512 + 1 * a.val = t.val / 10 * 512 + a.val; omega
  | ⟨1, _⟩ => show win0_4.index t (1 : Fin 2) * 1 + 1 * (0 : Fin 1).val = (0 : Fin 1).val; omega

theorem blk0_5 (A : S4096x1.Idx → Elt F .f32) (t : Fin cfg0.N) (a : Fin 512) :
    ((cfg0.win 5).blk t).view.read (Elt F) A (ix2 a (0 : Fin 1)) = A (ix2 ⟨t.val / 10 * 512 + a.val, by have := t.isLt; have hN : cfg0.N = 80 := gridN0; omega⟩ (0 : Fin 1)) := by
  have h := idx_facts0 t
  show A (((cfg0.win 5).blk t).view.emb (ix2 a (0 : Fin 1))) = A _
  refine congrArg A (funext fun d => Fin.ext ?_)
  match d with
  | ⟨0, _⟩ => show win0_5.index t (0 : Fin 2) * 512 + 1 * a.val = t.val / 10 * 512 + a.val; omega
  | ⟨1, _⟩ => show win0_5.index t (1 : Fin 2) * 1 + 1 * (0 : Fin 1).val = (0 : Fin 1).val; omega

theorem cover0_3 (i : S4096x1.Idx) : ∃ t : Fin cfg0.N, (cfg0.win 3).flush t = true ∧ i ∈ ((cfg0.win 3).blk t).view.set := by
  have hi0 : (i 0).val < 4096 := (i 0).isLt
  have hi1 : (i 1).val < 1 := (i 1).isLt
  have hN : cfg0.N = 80 := gridN0
  let t : Fin cfg0.N := ⟨(i 0).val / 512 * 10 + 9, by omega⟩
  have ht : t.val = (i 0).val / 512 * 10 + 9 := rfl
  have h := idx_facts0 t
  refine ⟨t, (flush0_3 t).2 (by omega), ?_⟩
  show i ∈ ((View.whole main_v29_0).slice (win0_3.rect t)).set
  rw [View.set_slice_whole, Rect.mem_set_unit]
  intro a
  match a with
  | ⟨0, _⟩ => show win0_3.index t (0 : Fin 2) * 512 ≤ (i 0).val ∧ (i 0).val < win0_3.index t (0 : Fin 2) * 512 + 512; omega
  | ⟨1, _⟩ => show win0_3.index t (1 : Fin 2) * 1 ≤ (i 1).val ∧ (i 1).val < win0_3.index t (1 : Fin 2) * 1 + 1; omega

theorem cover0_4 (i : S4096x1.Idx) : ∃ t : Fin cfg0.N, (cfg0.win 4).flush t = true ∧ i ∈ ((cfg0.win 4).blk t).view.set := by
  have hi0 : (i 0).val < 4096 := (i 0).isLt
  have hi1 : (i 1).val < 1 := (i 1).isLt
  have hN : cfg0.N = 80 := gridN0
  let t : Fin cfg0.N := ⟨(i 0).val / 512 * 10 + 9, by omega⟩
  have ht : t.val = (i 0).val / 512 * 10 + 9 := rfl
  have h := idx_facts0 t
  refine ⟨t, (flush0_4 t).2 (by omega), ?_⟩
  show i ∈ ((View.whole main_v29_1).slice (win0_4.rect t)).set
  rw [View.set_slice_whole, Rect.mem_set_unit]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1 ≤ (i 1).val ∧ (i 1).val < win0_4.index t (1 : Fin 2) * 1 + 1; omega

theorem cover0_5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 80 := gridN0
  let t : Fin cfg0.N := ⟨(i 0).val / 512 * 10 + 9, by omega⟩
  have ht : t.val = (i 0).val / 512 * 10 + 9 := rfl
  have h := idx_facts0 t
  refine ⟨t, (flush0_5 t).2 (by omega), ?_⟩
  show i ∈ ((View.whole main_v29_2).slice (win0_5.rect t)).set
  rw [View.set_slice_whole, Rect.mem_set_unit]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 1 ≤ (i 1).val ∧ (i 1).val < win0_5.index t (1 : Fin 2) * 1 + 1; omega

end Cert.KernelIdeal.Hand

end
-- ==== Proof.KI.Val0.lean ====
import proofs.«402100_j83614423319285_2_alg».proof.Proof.KI.Body0
import proofs.«402100_j83614423319285_2_alg».proof.Proof.KI.Val0a
import proofs.«402100_j83614423319285_2_alg».proof.Proof.KI.Pay0
import proofs.«402100_j83614423319285_2_alg».proof.Proof.KI.Blk0
import proofs.«402100_j83614423319285_2_alg».proof.Proof.Math.Online
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

abbrev eX0 (c : Dev nD) : S4096x1024.Idx → EReal := V c main_v19

abbrev eW0 (c : Dev nD) : S20480x1024.Idx → EReal := V c main_v28

abbrev eT0 (c : Dev nD) : S4096x1.Idx → BitVec 32 := V c main_v10

abbrev oM0 (c : Dev nD) : S4096x1.Idx → EReal := (dat0 V c).arrAt 3 cfg0.N

abbrev oS0 (c : Dev nD) : S4096x1.Idx → EReal := (dat0 V c).arrAt 4 cfg0.N

abbrev oG0 (c : Dev nD) : S4096x1.Idx → EReal := (dat0 V c).arrAt 5 cfg0.N

def zTile0 (c : Dev nD) (r : Fin 4096) (cc : ℕ) (j : Fin 2048) : EReal :=
  if h : cc * 2048 + j.val < 20000 then
    ∑ k : Fin 1024, eX0 V c (ix2 r k) * eW0 V c (ix2 (⟨cc * 2048 + j.val, by omega⟩ : Fin 20480) k)
  else ⊥

def hitTile0 (c : Dev nD) (r : Fin 4096) (cc : ℕ) (j : Fin 2048) : Bool :=
  decide (BitVec.ofNat 32 (cc * 2048 + j.val) = eT0 V c (ix2 r (0 : Fin 1)))

def row0 (n : ℕ) (hn : n < cfg0.N) (a : Fin 512) : Fin 4096 :=
  ⟨n / 10 * 512 + a.val, by have hN : cfg0.N = 80 := gridN0; omega⟩

theorem zblk0_eq (c : Dev nD) (t : Fin cfg0.N) (a : Fin 512) (x : Vec Ideal S512x1024 .bf16) (w : Vec Ideal S2048x1024 .bf16)
    (hx : x = iblk0 V c 0 t) (hw : w = iblk0 V c 1 t) :
    (fun j : Fin 2048 => if ((grid0.coords t) 1).val * 2048 + j.val < 20000
        then ∑ k : Fin 1024, x (ix2 a k) * w (ix2 j k) else (⊥ : EReal))
      = zTile0 V c (row0 t.val t.isLt a) (t.val % 10) := by
  subst hx hw
  funext j
  unfold zTile0
  rw [coords0_1 t]
  by_cases h : t.val % 10 * 2048 + j.val < 20000
  · rw [if_pos h, dif_pos h]
    refine Finset.sum_congr rfl fun k _ => ?_
    exact congr (congrArg HMul.hMul (blk0_0 (F := Ideal) (eX0 V c) t a k)) (blk0_1 (F := Ideal) (eW0 V c) t j k)
  · rw [if_neg h, dif_neg h]

theorem hitblk0_eq (c : Dev nD) (t : Fin cfg0.N) (a : Fin 512) (tg : Vec Ideal S512x1 .i32) (htg : tg = iblk0 V c 2 t) :
    (fun j : Fin 2048 => decide (BitVec.ofNat 32 (((grid0.coords t) 1).val * 2048 + j.val) = tg (ix2 a (0 : Fin 1))))
      = hitTile0 V c (row0 t.val t.isLt a) (t.val % 10) := by
  subst htg
  funext j
  unfold hitTile0
  rw [coords0_1 t]
  exact congrArg (fun x => decide (BitVec.ofNat 32 (t.val % 10 * 2048 + j.val) = x)) (blk0_2 (F := Ideal) (eT0 V c) t a)

theorem step_eq0 (c : Dev nD) (t : Fin cfg0.N) (pm ps pg : Vec Ideal S512x1 .f32) (a : Fin 512) :
    (k0_pay1 (k0_pay8 (F := Ideal) (grid0.coords t) (iblk0 V c 0 t) (iblk0 V c 1 t) pm) (ix2 a (0 : Fin 1)),
     k0_pay9 (F := Ideal) (grid0.coords t) (iblk0 V c 0 t) (iblk0 V c 1 t) pm pm ps (ix2 a (0 : Fin 1)),
     k0_pay2 (F := Ideal) (k0_pay6 (grid0.coords t)) (k0_pay7 (F := Ideal) (grid0.coords t) (iblk0 V c 0 t) (iblk0 V c 1 t)) (iblk0 V c 2 t) pg (ix2 a (0 : Fin 1)))
      = Cert.Math.osStep (zTile0 V c (row0 t.val t.isLt a) (t.val % 10)) (hitTile0 V c (row0 t.val t.isLt a) (t.val % 10))
          (pm (ix2 a (0 : Fin 1)), ps (ix2 a (0 : Fin 1)), pg (ix2 a (0 : Fin 1))) := by
  rw [pay0_m]
  refine (pay0_step (grid0.coords t) (iblk0 V c 0 t) (iblk0 V c 1 t) (iblk0 V c 2 t) pm ps pg a).trans ?_
  exact congrArg₂ (fun z h => Cert.Math.osStep z h (pm (ix2 a (0 : Fin 1)), ps (ix2 a (0 : Fin 1)), pg (ix2 a (0 : Fin 1)))) (zblk0_eq V c t a _ _ rfl rfl) (hitblk0_eq V c t a _ rfl)

theorem inv0 (c : Dev nD) (n : ℕ) : ∀ (hn : n < cfg0.N) (a : Fin 512),
    ((outsAt0 V c n hn).2.2.2.1 (ix2 a (0 : Fin 1)), (outsAt0 V c n hn).2.2.2.2.1 (ix2 a (0 : Fin 1)), (outsAt0 V c n hn).2.2.2.2.2 (ix2 a (0 : Fin 1)))
      = Cert.Math.osFold (zTile0 V c (row0 n hn a)) (hitTile0 V c (row0 n hn a)) (n % 10 + 1) := by
  induction n using Nat.strong_induction_on with
  | _ n ih =>
    intro hn a
    have hN : cfg0.N = 80 := gridN0
    by_cases h0 : n % 10 = 0
    · have h1 : ¬n % 10 = 9 := by omega
      rw [outsAt0_A V c ⟨n, hn⟩ h0 h1]
      unfold stepA0
      dsimp only
      rw [sout0_A_0_eq, sout0_A_1_eq, sout0_A_2_eq]
      refine (step_eq0 V c ⟨n, hn⟩ (k0_pay3 (F := Ideal)) (k0_pay4 (F := Ideal)) (k0_pay5 (F := Ideal)) a).trans ?_
      rw [pay0_reset]
      show Cert.Math.osStep (zTile0 V c (row0 n hn a) (n % 10)) (hitTile0 V c (row0 n hn a) (n % 10)) (⊥, 0, 0) = _
      rw [h0]
      rfl
    · have hn1 : n - 1 < cfg0.N := by omega
      have hr : row0 (n - 1) hn1 a = row0 n hn a := Fin.ext (by
        show (n - 1) / 10 * 512 + a.val = n / 10 * 512 + a.val
        have : (n - 1) / 10 = n / 10 := by omega
        rw [this])
      have he : (n - 1) % 10 + 1 = n % 10 := by omega
      have ihn := ih (n - 1) (by omega) hn1 a
      rw [hr, he] at ihn
      by_cases h1 : n % 10 = 9
      · rw [outsAt0_C V c ⟨n, hn⟩ h0 h1]
        unfold stepC0
        dsimp only
        rw [sout0_C_0_eq, sout0_C_1_eq, sout0_C_2_eq]
        refine (step_eq0 V c ⟨n, hn⟩ _ _ _ a).trans ?_
        refine (congrArg (Cert.Math.osStep (zTile0 V c (row0 n hn a) (n % 10)) (hitTile0 V c (row0 n hn a) (n % 10))) ihn).trans ?_
        rfl
      · rw [outsAt0_B V c ⟨n, hn⟩ h0 h1]
        unfold stepB0
        dsimp only
        rw [sout0_B_0_eq, sout0_B_1_eq, sout0_B_2_eq]
        refine (step_eq0 V c ⟨n, hn⟩ _ _ _ a).trans ?_
        refine (congrArg (Cert.Math.osStep (zTile0 V c (row0 n hn a) (n % 10)) (hitTile0 V c (row0 n hn a) (n % 10))) ihn).trans ?_
        rfl

theorem outC_eq0 (c : Dev nD) (t : Fin cfg0.N) (h0 : ¬t.val % 10 = 0) (h1 : t.val % 10 = 9) :
    (outsAt0 V c t.val t.isLt).1 = (outsAt0 V c t.val t.isLt).2.2.2.1
      ∧ (outsAt0 V c t.val t.isLt).2.1 = (outsAt0 V c t.val t.isLt).2.2.2.2.1
      ∧ (outsAt0 V c t.val t.isLt).2.2.1 = (outsAt0 V c t.val t.isLt).2.2.2.2.2 := by
  rw [outsAt0_C V c t h0 h1]
  unfold stepC0
  dsimp only
  rw [out0_C_3_eq, out0_C_4_eq, out0_C_5_eq, sout0_C_0_eq, sout0_C_1_eq, sout0_C_2_eq]
  exact ⟨rfl, rfl, rfl⟩

def G0_3 (c : Dev nD) : S4096x1.Idx → EReal := fun i => (Cert.Math.osFold (zTile0 V c (i 0)) (hitTile0 V c (i 0)) 10).1
def G0_4 (c : Dev nD) : S4096x1.Idx → EReal := fun i => (Cert.Math.osFold (zTile0 V c (i 0)) (hitTile0 V c (i 0)) 10).2.1
def G0_5 (c : Dev nD) : S4096x1.Idx → EReal := fun i => (Cert.Math.osFold (zTile0 V c (i 0)) (hitTile0 V c (i 0)) 10).2.2

theorem eq_ix2_col0 (y : S512x1.Idx) : y = ix2 (n0 := 512) (n1 := 1) (y 0) (0 : Fin 1) := by
  funext d
  match d with
  | ⟨0, _⟩ => rfl
  | ⟨1, _⟩ => exact Fin.ext (by have h : (y 1).val < 1 := (y 1).isLt; show (y 1).val = 0; omega)

theorem flushed0_3 (c : Dev nD) (t : Fin cfg0.N) (hf : (cfg0.win 3).flush t = true) :
    (dat0 V c).flushed 3 t = ((cfg0.win 3).blk t).view.read (Elt Ideal) (G0_3 V c) := by
  have hN : cfg0.N = 80 := gridN0
  have h9 : t.val % 10 = 9 := (flush0_3 t).mp hf
  have h0 : ¬t.val % 10 = 0 := by omega
  funext y
  have hy : y = ix2 (n0 := 512) (n1 := 1) (y 0) (0 : Fin 1) := eq_ix2_col0 y
  refine (congrArg ((dat0 V c).flushed 3 t) hy).trans (Eq.trans ?_ (congrArg (((cfg0.win 3).blk t).view.read (Elt Ideal) (G0_3 V c)) hy).symm)
  refine Eq.trans ?_ (blk0_3 (F := Ideal) (G0_3 V c) t (y 0)).symm
  show (dat0 V c).after 3 t (ix2 (n0 := 512) (n1 := 1) (y 0) (0 : Fin 1)) = _
  rw [after0_3, (outC_eq0 V c t h0 h9).1]
  have h := congrArg (fun p : EReal × EReal × EReal => p.1) (inv0 V c t.val t.isLt (y 0))
  rw [h9] at h
  exact h

theorem flushed0_4 (c : Dev nD) (t : Fin cfg0.N) (hf : (cfg0.win 4).flush t = true) :
    (dat0 V c).flushed 4 t = ((cfg0.win 4).blk t).view.read (Elt Ideal) (G0_4 V c) := by
  have hN : cfg0.N = 80 := gridN0
  have h9 : t.val % 10 = 9 := (flush0_4 t).mp hf
  have h0 : ¬t.val % 10 = 0 := by omega
  funext y
  have hy : y = ix2 (n0 := 512) (n1 := 1) (y 0) (0 : Fin 1) := eq_ix2_col0 y
  refine (congrArg ((dat0 V c).flushed 4 t) hy).trans (Eq.trans ?_ (congrArg (((cfg0.win 4).blk t).view.read (Elt Ideal) (G0_4 V c)) hy).symm)
  refine Eq.trans ?_ (blk0_4 (F := Ideal) (G0_4 V c) t (y 0)).symm
  show (dat0 V c).after 4 t (ix2 (n0 := 512) (n1 := 1) (y 0) (0 : Fin 1)) = _
  rw [after0_4, (outC_eq0 V c t h0 h9).2.1]
  have h := congrArg (fun p : EReal × EReal × EReal => p.2.1) (inv0 V c t.val t.isLt (y 0))
  rw [h9] at h
  exact h

theorem flushed0_5 (c : Dev nD) (t : Fin cfg0.N) (hf : (cfg0.win 5).flush t = true) :
    (dat0 V c).flushed 5 t = ((cfg0.win 5).blk t).view.read (Elt Ideal) (G0_5 V c) := by
  have hN : cfg0.N = 80 := gridN0
  have h9 : t.val % 10 = 9 := (flush0_5 t).mp hf
  have h0 : ¬t.val % 10 = 0 := by omega
  funext y
  have hy : y = ix2 (n0 := 512) (n1 := 1) (y 0) (0 : Fin 1) := eq_ix2_col0 y
  refine (congrArg ((dat0 V c).flushed 5 t) hy).trans (Eq.trans ?_ (congrArg (((cfg0.win 5).blk t).view.read (Elt Ideal) (G0_5 V c)) hy).symm)
  refine Eq.trans ?_ (blk0_5 (F := Ideal) (G0_5 V c) t (y 0)).symm
  show (dat0 V c).after 5 t (ix2 (n0 := 512) (n1 := 1) (y 0) (0 : Fin 1)) = _
  rw [after0_5, (outC_eq0 V c t h0 h9).2.2]
  have h := congrArg (fun p : EReal × EReal × EReal => p.2.2) (inv0 V c t.val t.isLt (y 0))
  rw [h9] at h
  exact h

theorem val0 (c : Dev nD) (r : Fin 4096) :
    (oM0 V c (ix2 r (0 : Fin 1)), oS0 V c (ix2 r (0 : Fin 1)), oG0 V c (ix2 r (0 : Fin 1)))
      = Cert.Math.osFold (zTile0 V c r) (hitTile0 V c r) 10 := by
  have e3 : (dat0 V c).arrAt 3 cfg0.N = G0_3 V c := (dat0 V c).arrAt_eq_of_cover 3 (G0_3 V c) (flushed0_3 V c) cover0_3
  have e4 : (dat0 V c).arrAt 4 cfg0.N = G0_4 V c := (dat0 V c).arrAt_eq_of_cover 4 (G0_4 V c) (flushed0_4 V c) cover0_4
  have e5 : (dat0 V c).arrAt 5 cfg0.N = G0_5 V c := (dat0 V c).arrAt_eq_of_cover 5 (G0_5 V c) (flushed0_5 V c) cover0_5
  exact Prod.ext (congrFun e3 (ix2 r (0 : Fin 1))) (Prod.ext (congrFun e4 (ix2 r (0 : Fin 1))) (congrFun e5 (ix2 r (0 : Fin 1))))

end Cert.KernelIdeal.Hand

end
-- ==== Proof.KI.Val1a.lean ====
import proofs.«402100_j83614423319285_2_alg».proof.Proof.KI.Body1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL.Sem
open Idealize.ShloMosaic.Pipeline (Dat Cfg Window)
open Cert.KernelIdeal Cert.KernelIdeal.Gen

theorem hzero1 : (![0, 0] : Fin 2 → Nat) = fun _ => 0 := funext fun a => by fin_cases a <;> rfl

section Pieces
variable {F : FTy → Type} [FloatOps F] [Named F]
variable (c : Dev nD) (i : grid1.Coords) (a : Args1)
  (x0 : Vec F S512x1024 .bf16) (x1 : Vec F S256x1024 .bf16) (x2 : Vec F S2048x256 .bf16) (x3 : Vec F S512x1 .i32) (xs0 : Vec F S512x256 .bf16) (xs1 : Vec F S512x1 .f32) (xs2 : Vec F S512x1 .f32) (xs3 : Vec F S512x1 .f32)

theorem sout1_A_0_eq (hc0 : cond1_0 i) (hc1 : ¬cond1_1 i) : sout1_A_0 c i a x0 x1 x2 x3 hc0 hc1 = k1_pay3 x0 x1 := by
  unfold sout1_A_0
  rw [View.read_writes_eq_canon _ _ _ (scover1_A_0 c i a x0 x1 x2 x3 hc0 hc1)]
  unfold run1_A kernelRun1_A
  dsimp only
  sl_unfold_words
  rw [View.canon_unit_zero hzero1]
  simp only [View.readAt_eq_ld, a.harg2.read_unread, a.harg3.read_unread, View.ld_unit_zero (S := S512x1024) hzero1, View.ld_unit_zero (S := S256x1024) hzero1]

theorem sout1_A_1_eq (hc0 : cond1_0 i) (hc1 : ¬cond1_1 i) : sout1_A_1 c i a x0 x1 x2 x3 hc0 hc1 = k1_pay1 (k1_pay9 i (k1_pay3 x0 x1) x2 (k1_pay4 (F := F))) := by
  unfold sout1_A_1
  rw [View.read_writes_eq_canon _ _ _ (scover1_A_1 c i a x0 x1 x2 x3 hc0 hc1)]
  unfold run1_A kernelRun1_A
  dsimp only
  sl_unfold_words
  rw [View.canon_cons_unit_zero (S := S512x1) hzero1]
  simp only [View.readAt_eq_ld, a.harg2.read_unread, a.harg3.read_unread, a.harg4.read_unread, View.readCov_unit_zero (S := S512x256) _ hzero1, View.readCov_unit_zero (S := S512x1) _ hzero1, View.ld_unit_zero (S := S512x1024) hzero1, View.ld_unit_zero (S := S256x1024) hzero1, View.ld_unit_zero (S := S2048x256) hzero1]

theorem sout1_A_2_eq (hc0 : cond1_0 i) (hc1 : ¬cond1_1 i) : sout1_A_2 c i a x0 x1 x2 x3 hc0 hc1 = k1_pay10 i (k1_pay3 x0 x1) x2 (k1_pay4 (F := F)) (k1_pay4 (F := F)) (k1_pay5 (F := F)) := by
  unfold sout1_A_2
  rw [View.read_writes_eq_canon _ _ _ (scover1_A_2 c i a x0 x1 x2 x3 hc0 hc1)]
  unfold run1_A kernelRun1_A
  dsimp only
  sl_unfold_words
  rw [View.canon_cons_unit_zero (S := S512x1) hzero1]
  simp only [View.readAt_eq_ld, a.harg2.read_unread, a.harg3.read_unread, a.harg4.read_unread, View.readCov_unit_zero (S := S512x256) _ hzero1, View.readCov_unit_zero (S := S512x1) _ hzero1, View.ld_unit_zero (S := S512x1024) hzero1, View.ld_unit_zero (S := S256x1024) hzero1, View.ld_unit_zero (S := S2048x256) hzero1]

theorem sout1_A_3_eq (hc0 : cond1_0 i) (hc1 : ¬cond1_1 i) : sout1_A_3 c i a x0 x1 x2 x3 hc0 hc1 = k1_pay2 (k1_pay7 i) (k1_pay8 i (k1_pay3 x0 x1) x2) x3 (k1_pay6 (F := F)) := by
  unfold sout1_A_3
  rw [View.read_writes_eq_canon _ _ _ (scover1_A_3 c i a x0 x1 x2 x3 hc0 hc1)]
  unfold run1_A kernelRun1_A
  dsimp only
  sl_unfold_words
  rw [View.canon_cons_unit_zero (S := S512x1) hzero1]
  simp only [View.readAt_eq_ld, a.harg2.read_unread, a.harg3.read_unread, a.harg4.read_unread, a.harg5.read_unread, View.readCov_unit_zero (S := S512x256) _ hzero1, View.readCov_unit_zero (S := S512x1) _ hzero1, View.ld_unit_zero (S := S512x1024) hzero1, View.ld_unit_zero (S := S256x1024) hzero1, View.ld_unit_zero (S := S2048x256) hzero1, View.ld_unit_zero (S := S512x1) hzero1]

theorem sout1_B_1_eq (hc0 : ¬cond1_0 i) (hc1 : ¬cond1_1 i) : sout1_B_1 c i a x0 x1 x2 x3 xs0 xs1 xs2 xs3 hc0 hc1 = k1_pay1 (k1_pay9 i xs0 x2 xs1) := by
  unfold sout1_B_1
  rw [View.read_writes_eq_canon _ _ _ (scover1_B_1 c i a x0 x1 x2 x3 xs0 xs1 xs2 xs3 hc0 hc1)]
  unfold run1_B kernelRun1_B
  dsimp only
  sl_unfold_words
  rw [View.canon_unit_zero hzero1]
  simp only [View.readAt_eq_ld, a.harg4.read_unread, a.harg9.read_unread, a.harg10.read_unread, View.ld_unit_zero (S := S2048x256) hzero1, View.ld_unit_zero (S := S512x256) hzero1, View.ld_unit_zero (S := S512x1) hzero1]

theorem sout1_B_2_eq (hc0 : ¬cond1_0 i) (hc1 : ¬cond1_1 i) : sout1_B_2 c i a x0 x1 x2 x3 xs0 xs1 xs2 xs3 hc0 hc1 = k1_pay10 i xs0 x2 xs1 xs1 xs2 := by
  unfold sout1_B_2
  rw [View.read_writes_eq_canon _ _ _ (scover1_B_2 c i a x0 x1 x2 x3 xs0 xs1 xs2 xs3 hc0 hc1)]
  unfold run1_B kernelRun1_B
  dsimp only
  sl_unfold_words
  rw [View.canon_unit_zero hzero1]
  simp only [View.readAt_eq_ld, a.harg4.read_unread, a.harg9.read_unread, a.harg10.read_unread, a.harg11.read_unread, View.ld_unit_zero (S := S2048x256) hzero1, View.ld_unit_zero (S := S512x256) hzero1, View.ld_unit_zero (S := S512x1) hzero1]

theorem sout1_B_3_eq (hc0 : ¬cond1_0 i) (hc1 : ¬cond1_1 i) : sout1_B_3 c i a x0 x1 x2 x3 xs0 xs1 xs2 xs3 hc0 hc1 = k1_pay2 (k1_pay7 i) (k1_pay8 i xs0 x2) x3 xs3 := by
  unfold sout1_B_3
  rw [View.read_writes_eq_canon _ _ _ (scover1_B_3 c i a x0 x1 x2 x3 xs0 xs1 xs2 xs3 hc0 hc1)]
  unfold run1_B kernelRun1_B
  dsimp only
  sl_unfold_words
  rw [View.canon_unit_zero hzero1]
  simp only [View.readAt_eq_ld, a.harg4.read_unread, a.harg5.read_unread, a.harg9.read_unread, a.harg12.read_unread, View.ld_unit_zero (S := S2048x256) hzero1, View.ld_unit_zero (S := S512x256) hzero1, View.ld_unit_zero (S := S512x1) hzero1]

theorem sout1_C_1_eq (hc0 : ¬cond1_0 i) (hc1 : cond1_1 i) : sout1_C_1 c i a x0 x1 x2 x3 xs0 xs1 xs2 xs3 hc0 hc1 = k1_pay1 (k1_pay9 i xs0 x2 xs1) := by
  unfold sout1_C_1
  rw [View.read_writes_eq_canon _ _ _ (scover1_C_1 c i a x0 x1 x2 x3 xs0 xs1 xs2 xs3 hc0 hc1)]
  unfold run1_C kernelRun1_C
  dsimp only
  sl_unfold_words
  rw [View.canon_unit_zero hzero1]
  simp only [View.readAt_eq_ld, a.harg4.read_unread, a.harg9.read_unread, a.harg10.read_unread, View.ld_unit_zero (S := S2048x256) hzero1, View.ld_unit_zero (S := S512x256) hzero1, View.ld_unit_zero (S := S512x1) hzero1]

theorem sout1_C_2_eq (hc0 : ¬cond1_0 i) (hc1 : cond1_1 i) : sout1_C_2 c i a x0 x1 x2 x3 xs0 xs1 xs2 xs3 hc0 hc1 = k1_pay10 i xs0 x2 xs1 xs1 xs2 := by
  unfold sout1_C_2
  rw [View.read_writes_eq_canon _ _ _ (scover1_C_2 c i a x0 x1 x2 x3 xs0 xs1 xs2 xs3 hc0 hc1)]
  unfold run1_C kernelRun1_C
  dsimp only
  sl_unfold_words
  rw [View.canon_unit_zero hzero1]
  simp only [View.readAt_eq_ld, a.harg4.read_unread, a.harg9.read_unread, a.harg10.read_unread, a.harg11.read_unread, View.ld_unit_zero (S := S2048x256) hzero1, View.ld_unit_zero (S := S512x256) hzero1, View.ld_unit_zero (S := S512x1) hzero1]

theorem sout1_C_3_eq (hc0 : ¬cond1_0 i) (hc1 : cond1_1 i) : sout1_C_3 c i a x0 x1 x2 x3 xs0 xs1 xs2 xs3 hc0 hc1 = k1_pay2 (k1_pay7 i) (k1_pay8 i xs0 x2) x3 xs3 := by
  unfold sout1_C_3
  rw [View.read_writes_eq_canon _ _ _ (scover1_C_3 c i a x0 x1 x2 x3 xs0 xs1 xs2 xs3 hc0 hc1)]
  unfold run1_C kernelRun1_C
  dsimp only
  sl_unfold_words
  rw [View.canon_unit_zero hzero1]
  simp only [View.readAt_eq_ld, a.harg4.read_unread, a.harg5.read_unread, a.harg9.read_unread, a.harg12.read_unread, View.ld_unit_zero (S := S2048x256) hzero1, View.ld_unit_zero (S := S512x256) hzero1, View.ld_unit_zero (S := S512x1) hzero1]

theorem out1_C_4_eq (hc0 : ¬cond1_0 i) (hc1 : cond1_1 i) : out1_C_4 c i a x0 x1 x2 x3 xs0 xs1 xs2 xs3 hc0 hc1 = k1_pay1 (k1_pay9 i xs0 x2 xs1) := by
  unfold out1_C_4
  rw [View.read_writes_eq_canon _ _ _ (cover1_C_4 c i a x0 x1 x2 x3 xs0 xs1 xs2 xs3 hc0 hc1)]
  unfold run1_C kernelRun1_C
  dsimp only
  sl_unfold_words
  rw [View.canon_unit_zero hzero1]
  simp only [View.readAt_eq_ld, a.harg4.read_unread, a.harg9.read_unread, a.harg10.read_unread, View.readCov_unit_zero (S := S512x1) _ hzero1, View.ld_unit_zero (S := S2048x256) hzero1, View.ld_unit_zero (S := S512x256) hzero1, View.ld_unit_zero (S := S512x1) hzero1]

theorem out1_C_5_eq (hc0 : ¬cond1_0 i) (hc1 : cond1_1 i) : out1_C_5 c i a x0 x1 x2 x3 xs0 xs1 xs2 xs3 hc0 hc1 = k1_pay10 i xs0 x2 xs1 xs1 xs2 := by
  unfold out1_C_5
  rw [View.read_writes_eq_canon _ _ _ (cover1_C_5 c i a x0 x1 x2 x3 xs0 xs1 xs2 xs3 hc0 hc1)]
  unfold run1_C kernelRun1_C
  dsimp only
  sl_unfold_words
  rw [View.canon_unit_zero hzero1]
  simp only [View.readAt_eq_ld, a.harg4.read_unread, a.harg9.read_unread, a.harg10.read_unread, a.harg11.read_unread, View.readCov_unit_zero (S := S512x1) _ hzero1, View.ld_unit_zero (S := S2048x256) hzero1, View.ld_unit_zero (S := S512x256) hzero1, View.ld_unit_zero (S := S512x1) hzero1]

theorem out1_C_6_eq (hc0 : ¬cond1_0 i) (hc1 : cond1_1 i) : out1_C_6 c i a x0 x1 x2 x3 xs0 xs1 xs2 xs3 hc0 hc1 = k1_pay2 (k1_pay7 i) (k1_pay8 i xs0 x2) x3 xs3 := by
  unfold out1_C_6
  rw [View.read_writes_eq_canon _ _ _ (cover1_C_6 c i a x0 x1 x2 x3 xs0 xs1 xs2 xs3 hc0 hc1)]
  unfold run1_C kernelRun1_C
  dsimp only
  sl_unfold_words
  rw [View.canon_unit_zero hzero1]
  simp only [View.readAt_eq_ld, a.harg4.read_unread, a.harg5.read_unread, a.harg9.read_unread, a.harg12.read_unread, View.readCov_unit_zero (S := S512x1) _ hzero1, View.ld_unit_zero (S := S2048x256) hzero1, View.ld_unit_zero (S := S512x256) hzero1, View.ld_unit_zero (S := S512x1) hzero1]

end Pieces

end Cert.KernelIdeal.Hand

end
-- ==== Proof.KI.Pay1.lean ====
import proofs.«402100_j83614423319285_2_alg».proof.Proof.Gen.KernelIdeal.Skeleton
import proofs.«402100_j83614423319285_2_alg».proof.Proof.Math.Online
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.SL.Sem Idealize.ShloMosaic.ValueIdx

theorem pay1_m (v : FVec Ideal S512x1 .f32) : k1_pay1 v = v := by
  unfold k1_pay1
  exact shapeCast_self v _

theorem T1.ofBits_neg_inf_f32 : Ideal.ofBits .f32 0xFF800000#32 = ⊥ := by simp [Ideal.ofBits, Ideal.ieee]

theorem pay1_reset (j : S512x1.Idx) :
    (k1_pay4 (F := Ideal) j, k1_pay5 (F := Ideal) j, k1_pay6 (F := Ideal) j) = ((⊥ : EReal), (0 : EReal), (0 : EReal)) := by
  have e4 : k1_pay4 (F := Ideal) j = ⊥ := by
    unfold k1_pay4
    exact (congrFun (shapeCast_self _ _) j).trans T1.ofBits_neg_inf_f32
  have e5 : k1_pay5 (F := Ideal) j = 0 := by
    unfold k1_pay5
    exact (congrFun (shapeCast_self _ _) j).trans Ideal.ofBits_zero_f32
  have e6 : k1_pay6 (F := Ideal) j = 0 := by
    unfold k1_pay6
    exact (congrFun (shapeCast_self _ _) j).trans Ideal.ofBits_zero_f32
  rw [e4, e5, e6]

theorem lhs_proj1_0 (i : S512x256.Idx) (q : dot_S512x1024_S1024x256_S512x256_1_0_0_1_n_n.contr.Idx) :
    (dot_S512x1024_S1024x256_S512x256_1_0_0_1_n_n.lhsIdx i q 0).val = (i 0).val := by
  unfold DotDims.lhsIdx
  rw [dif_neg (show ¬(0 : Fin S512x1024.rank) ∈ dot_S512x1024_S1024x256_S512x256_1_0_0_1_n_n.lhsBatch by decide), dif_pos (show (0 : Fin S512x1024.rank) ∈ dot_S512x1024_S1024x256_S512x256_1_0_0_1_n_n.lhsNonContracting by decide)]
  rfl
theorem lhs_proj1_1 (i : S512x256.Idx) (q : dot_S512x1024_S1024x256_S512x256_1_0_0_1_n_n.contr.Idx) :
    (dot_S512x1024_S1024x256_S512x256_1_0_0_1_n_n.lhsIdx i q 1).val = (q ⟨0, by decide⟩).val :=
  dot_S512x1024_S1024x256_S512x256_1_0_0_1_n_n.lhsIdx_val_of_single rfl i q
theorem rhs_proj1_0 (i : S512x256.Idx) (q : dot_S512x1024_S1024x256_S512x256_1_0_0_1_n_n.contr.Idx) :
    (dot_S512x1024_S1024x256_S512x256_1_0_0_1_n_n.rhsIdx i q 0).val = (q ⟨0, by decide⟩).val :=
  dot_S512x1024_S1024x256_S512x256_1_0_0_1_n_n.rhsIdx_val_of_single rfl i q
theorem rhs_proj1_1 (i : S512x256.Idx) (q : dot_S512x1024_S1024x256_S512x256_1_0_0_1_n_n.contr.Idx) :
    (dot_S512x1024_S1024x256_S512x256_1_0_0_1_n_n.rhsIdx i q 1).val = (i 1).val := by
  unfold DotDims.rhsIdx
  rw [dif_neg (show ¬(1 : Fin S1024x256.rank) ∈ dot_S512x1024_S1024x256_S512x256_1_0_0_1_n_n.rhsBatch by decide), dif_pos (show (1 : Fin S1024x256.rank) ∈ dot_S512x1024_S1024x256_S512x256_1_0_0_1_n_n.rhsNonContracting by decide)]
  rfl

theorem matmul_proj1_apply (x : FVec Ideal S512x1024 .bf16) (P : FVec Ideal S256x1024 .bf16) (a : Fin 512) (p : Fin 256) :
    FloatOps.matmul dot_S512x1024_S1024x256_S512x256_1_0_0_1_n_n none x
        (transpose S1024x256 [1, 0] P transposes_S256x1024_p1_0_S1024x256) (constant S512x256 .f32 0x00000000#32) (ix2 a p)
      = ∑ k : Fin 1024, x (ix2 a k) * P (ix2 p k) := by
  refine (Ideal.matmul_constant_zero_apply _ none x _ (ix2 a p)).trans ?_
  rw [← Equiv.sum_comp (contrEquiv1 dot_S512x1024_S1024x256_S512x256_1_0_0_1_n_n 1024 rfl rfl).symm]
  refine Finset.sum_congr rfl fun k _ => ?_
  have hk := contrEquiv1_symm_val dot_S512x1024_S1024x256_S512x256_1_0_0_1_n_n 1024 rfl rfl k
  have el : dot_S512x1024_S1024x256_S512x256_1_0_0_1_n_n.lhsIdx (ix2 a p) ((contrEquiv1 dot_S512x1024_S1024x256_S512x256_1_0_0_1_n_n 1024 rfl rfl).symm k) = ix2 a k := funext fun c => Fin.ext (by
    match c with
    | ⟨0, _⟩ => exact lhs_proj1_0 _ _
    | ⟨1, _⟩ => exact (lhs_proj1_1 _ _).trans hk)
  have er : dot_S512x1024_S1024x256_S512x256_1_0_0_1_n_n.rhsIdx (ix2 a p) ((contrEquiv1 dot_S512x1024_S1024x256_S512x256_1_0_0_1_n_n 1024 rfl rfl).symm k) = ix2 k p := funext fun c => Fin.ext (by
    match c with
    | ⟨0, _⟩ => exact (rhs_proj1_0 _ _).trans hk
    | ⟨1, _⟩ => exact rhs_proj1_1 _ _)
  rw [el, er, transpose_ix2_apply]

theorem pay1_proj (x : Vec Ideal S512x1024 .bf16) (P : Vec Ideal S256x1024 .bf16) (a : Fin 512) (p : Fin 256) :
    k1_pay3 x P (ix2 a p) = ∑ k : Fin 1024, x (ix2 a k) * P (ix2 p k) := by
  unfold k1_pay3
  simp only [shapeCast_self]
  exact matmul_proj1_apply x P a p

theorem T1.slt_ofNat_small (c k : ℕ) (hc : c < 2 ^ 31) (hk : k < 2 ^ 31) :
    (BitVec.ofNat 32 c).slt (BitVec.ofNat 32 k) = decide (c < k) := by
  have e : ∀ m : ℕ, m < 2 ^ 31 → (BitVec.ofNat 32 m).toInt = (m : ℤ) := by
    intro m hm
    rw [BitVec.toInt_eq_toNat_cond, BitVec.toNat_ofNat, Nat.mod_eq_of_lt (by omega), if_pos (by omega)]
  unfold BitVec.slt
  rw [e c hc, e k hk]
  simp

theorem T1.select_ofBool {α : Type} (b : Bool) (A B : α) : Scalar.select (BitVec.ofBool b) A B = if b then A else B := by
  cases b
  · exact if_neg (by decide)
  · exact if_pos rfl

theorem T1.select_cmpi_eq {α : Type} (x y : BitVec 32) (A B : α) :
    Scalar.select (IntOp.cmpi .eq x y) A B = if x = y then A else B := by
  show Scalar.select (BitVec.ofBool (x == y)) A B = _
  rw [T1.select_ofBool]
  by_cases h : x = y
  · rw [if_pos h, if_pos (by simpa using h)]
  · rw [if_neg h, if_neg (by simpa using h)]

theorem col1_apply (i : grid1.Coords) (a : Fin 512) (j : Fin 2048) :
    k1_pay7 i (ix2 a j) = BitVec.ofNat 32 ((i 1).val * 2048 + j.val) := by
  unfold k1_pay7
  show BitVec.ofNat 32 (i 1).val * BitVec.ofNat 32 2048 + iota .tc S512x2048 32 [1] iota_S512x2048_d1_w32 (ix2 a j) = _
  rw [iota_single_apply, BitVec.ofNat_add, BitVec.ofNat_mul]

theorem T1.neg_big_bot : Named.named (F := Ideal) κ "neg_big" (φ := .f32) 0xFF333332#32 = (⊥ : EReal) :=
  IdealRules.named_const.ideal_named_scalar _ _ _ _ rfl

theorem lhs_z1_0 (i : S512x2048.Idx) (q : dot_S512x256_S256x2048_S512x2048_1_0_0_1_n_n.contr.Idx) :
    (dot_S512x256_S256x2048_S512x2048_1_0_0_1_n_n.lhsIdx i q 0).val = (i 0).val := by
  unfold DotDims.lhsIdx
  rw [dif_neg (show ¬(0 : Fin S512x256.rank) ∈ dot_S512x256_S256x2048_S512x2048_1_0_0_1_n_n.lhsBatch by decide), dif_pos (show (0 : Fin S512x256.rank) ∈ dot_S512x256_S256x2048_S512x2048_1_0_0_1_n_n.lhsNonContracting by decide)]
  rfl
theorem lhs_z1_1 (i : S512x2048.Idx) (q : dot_S512x256_S256x2048_S512x2048_1_0_0_1_n_n.contr.Idx) :
    (dot_S512x256_S256x2048_S512x2048_1_0_0_1_n_n.lhsIdx i q 1).val = (q ⟨0, by decide⟩).val :=
  dot_S512x256_S256x2048_S512x2048_1_0_0_1_n_n.lhsIdx_val_of_single rfl i q
theorem rhs_z1_0 (i : S512x2048.Idx) (q : dot_S512x256_S256x2048_S512x2048_1_0_0_1_n_n.contr.Idx) :
    (dot_S512x256_S256x2048_S512x2048_1_0_0_1_n_n.rhsIdx i q 0).val = (q ⟨0, by decide⟩).val :=
  dot_S512x256_S256x2048_S512x2048_1_0_0_1_n_n.rhsIdx_val_of_single rfl i q
theorem rhs_z1_1 (i : S512x2048.Idx) (q : dot_S512x256_S256x2048_S512x2048_1_0_0_1_n_n.contr.Idx) :
    (dot_S512x256_S256x2048_S512x2048_1_0_0_1_n_n.rhsIdx i q 1).val = (i 1).val := by
  unfold DotDims.rhsIdx
  rw [dif_neg (show ¬(1 : Fin S256x2048.rank) ∈ dot_S512x256_S256x2048_S512x2048_1_0_0_1_n_n.rhsBatch by decide), dif_pos (show (1 : Fin S256x2048.rank) ∈ dot_S512x256_S256x2048_S512x2048_1_0_0_1_n_n.rhsNonContracting by decide)]
  rfl

theorem matmul_z1_apply (h : FVec Ideal S512x256 .bf16) (w : FVec Ideal S2048x256 .bf16) (a : Fin 512) (j : Fin 2048) :
    FloatOps.matmul dot_S512x256_S256x2048_S512x2048_1_0_0_1_n_n none h
        (transpose S256x2048 [1, 0] w transposes_S2048x256_p1_0_S256x2048) (constant S512x2048 .f32 0x00000000#32) (ix2 a j)
      = ∑ q : Fin 256, h (ix2 a q) * w (ix2 j q) := by
  refine (Ideal.matmul_constant_zero_apply _ none h _ (ix2 a j)).trans ?_
  rw [← Equiv.sum_comp (contrEquiv1 dot_S512x256_S256x2048_S512x2048_1_0_0_1_n_n 256 rfl rfl).symm]
  refine Finset.sum_congr rfl fun k _ => ?_
  have hk := contrEquiv1_symm_val dot_S512x256_S256x2048_S512x2048_1_0_0_1_n_n 256 rfl rfl k
  have el : dot_S512x256_S256x2048_S512x2048_1_0_0_1_n_n.lhsIdx (ix2 a j) ((contrEquiv1 dot_S512x256_S256x2048_S512x2048_1_0_0_1_n_n 256 rfl rfl).symm k) = ix2 a k := funext fun c => Fin.ext (by
    match c with
    | ⟨0, _⟩ => exact lhs_z1_0 _ _
    | ⟨1, _⟩ => exact (lhs_z1_1 _ _).trans hk)
  have er : dot_S512x256_S256x2048_S512x2048_1_0_0_1_n_n.rhsIdx (ix2 a j) ((contrEquiv1 dot_S512x256_S256x2048_S512x2048_1_0_0_1_n_n 256 rfl rfl).symm k) = ix2 k j := funext fun c => Fin.ext (by
    match c with
    | ⟨0, _⟩ => exact (rhs_z1_0 _ _).trans hk
    | ⟨1, _⟩ => exact rhs_z1_1 _ _)
  rw [el, er, transpose_ix2_apply]

theorem z1_apply (i : grid1.Coords) (h : Vec Ideal S512x256 .bf16) (w : Vec Ideal S2048x256 .bf16) (a : Fin 512) (j : Fin 2048) :
    k1_pay8 i h w (ix2 a j)
      = if (i 1).val * 2048 + j.val < 20000 then ∑ q : Fin 256, h (ix2 a q) * w (ix2 j q) else ⊥ := by
  have hi : (i 1).val < 10 := (i 1).isLt
  have hj := j.isLt
  unfold k1_pay8
  simp only [shapeCast_self]
  refine (select_apply _ _ _ (ix2 a j)).trans ?_
  have hc : cmpi .slt (k1_pay7 i) (broadcast S512x2048 20000#32) (ix2 a j)
      = BitVec.ofBool (decide ((i 1).val * 2048 + j.val < 20000)) := by
    show BitVec.ofBool ((k1_pay7 i (ix2 a j)).slt (BitVec.ofNat 32 20000)) = _
    rw [col1_apply, T1.slt_ofNat_small _ _ (by omega) (by norm_num)]
  rw [hc, T1.select_ofBool]
  refine (if_congr (by simp) (matmul_z1_apply h w a j) T1.neg_big_bot)

theorem keep1_apply {α : Type} (x : S512.Idx → α) (a : Fin 512) (u : Fin 1) :
    shapeCast S512x1 x shapeCasts_S512_S512x1 (ix2 a u) = x (ix1 a) :=
  shapeCast_apply x _ _ _ (by
    rw [Shape.rowMajor_val_one, Shape.rowMajor_val_two]
    show a.val = a.val * 1 + u.val
    omega)

theorem bcol1_apply {α : Type} (v : S512x1.Idx → α) (a : Fin 512) (j : Fin 2048) :
    broadcastTo S512x2048 v broadcasts_S512x1_S512x2048 (ix2 a j) = v (ix2 a 0) := by
  refine broadcastTo_apply v _ (ix2 a j) (ix2 a 0) fun ax => ?_
  match ax with
  | ⟨0, _⟩ => rfl
  | ⟨1, _⟩ => rfl

theorem lift1_row (a : Fin 512) (k : Fin 2048) : reduces_S512x2048_S512.lift (ix1 a) k = ix2 a k :=
  funext fun c => Fin.ext (match c with | ⟨0, _⟩ => rfl | ⟨1, _⟩ => rfl)

theorem max1_apply (i : grid1.Coords) (h : Vec Ideal S512x256 .bf16) (w : Vec Ideal S2048x256 .bf16)
    (pm : Vec Ideal S512x1 .f32) (a : Fin 512) :
    k1_pay9 i h w pm (ix2 a 0)
      = max (pm (ix2 a 0)) (Finset.univ.fold max ⊥ (fun j : Fin 2048 => k1_pay8 i h w (ix2 a j))) := by
  unfold k1_pay9
  refine (maximumf_apply _ _ (ix2 a 0)).trans ?_
  refine congrArg (max (pm (ix2 a 0))) ?_
  refine (keep1_apply _ a 0).trans ?_
  refine (Ideal.multiReduction_maximumf_single (k1_pay8 i h w) _ reduces_S512x2048_S512 (.inl rfl) rfl (ix1 a)).trans ?_
  have e : (k1_pay8 i h w ∘ reduces_S512x2048_S512.lift (ix1 a)) = fun j : Fin 2048 => k1_pay8 i h w (ix2 a j) :=
    funext fun k => congrArg (k1_pay8 i h w) (lift1_row a k)
  rw [e]
  exact congrArg (fun b => Finset.univ.fold max b (fun j : Fin 2048 => k1_pay8 i h w (ix2 a j))) T1.ofBits_neg_inf_f32

theorem sum1_apply (i : grid1.Coords) (h : Vec Ideal S512x256 .bf16) (w : Vec Ideal S2048x256 .bf16)
    (pm ps : Vec Ideal S512x1 .f32) (a : Fin 512) :
    k1_pay10 i h w pm pm ps (ix2 a 0)
      = ps (ix2 a 0) * Ideal.exp (pm (ix2 a 0) - k1_pay9 i h w pm (ix2 a 0))
        + ∑ j : Fin 2048, Ideal.exp (k1_pay8 i h w (ix2 a j) - k1_pay9 i h w pm (ix2 a 0)) := by
  unfold k1_pay10
  simp only [shapeCast_self]
  refine (addf_apply _ _ (ix2 a 0)).trans ?_
  refine congrArg (ps (ix2 a 0) * Ideal.exp (pm (ix2 a 0) - k1_pay9 i h w pm (ix2 a 0)) + ·) ?_
  refine (keep1_apply _ a 0).trans ?_
  refine (Ideal.multiReduction_add_single _ _ reduces_S512x2048_S512 (.inl rfl) rfl (ix1 a)).trans ?_
  refine Finset.sum_congr rfl fun (k : Fin 2048) _ => ?_
  rw [lift1_row]
  show Ideal.exp (k1_pay8 i h w (ix2 a k) - broadcastTo S512x2048 (k1_pay9 i h w pm) broadcasts_S512x1_S512x2048 (ix2 a k)) = _
  rw [bcol1_apply]

theorem gat1_apply (i : grid1.Coords) (h : Vec Ideal S512x256 .bf16) (w : Vec Ideal S2048x256 .bf16)
    (tg : Vec Ideal S512x1 .i32) (pg : Vec Ideal S512x1 .f32) (a : Fin 512) :
    k1_pay2 (k1_pay7 i) (k1_pay8 i h w) tg pg (ix2 a 0)
      = pg (ix2 a 0) + ∑ j : Fin 2048,
          if BitVec.ofNat 32 ((i 1).val * 2048 + j.val) = tg (ix2 a 0) then k1_pay8 i h w (ix2 a j) else 0 := by
  unfold k1_pay2
  simp only [shapeCast_self]
  refine (addf_apply _ _ (ix2 a 0)).trans ?_
  refine congrArg (pg (ix2 a 0) + ·) ?_
  refine (keep1_apply _ a 0).trans ?_
  refine (Ideal.multiReduction_add_single _ _ reduces_S512x2048_S512 (.inl rfl) rfl (ix1 a)).trans ?_
  refine Finset.sum_congr rfl fun (k : Fin 2048) _ => ?_
  rw [lift1_row]
  show Scalar.select (IntOp.cmpi .eq (k1_pay7 i (ix2 a k)) (broadcastTo S512x2048 tg broadcasts_S512x1_S512x2048 (ix2 a k)))
      (k1_pay8 i h w (ix2 a k)) (Ideal.ofBits .f32 0x00000000#32) = _
  rw [bcol1_apply, col1_apply, Ideal.ofBits_zero_f32, T1.select_cmpi_eq]

theorem pay1_step (i : grid1.Coords) (h : Vec Ideal S512x256 .bf16) (w : Vec Ideal S2048x256 .bf16) (tg : Vec Ideal S512x1 .i32)
    (pm ps pg : Vec Ideal S512x1 .f32) (a : Fin 512) :
    (k1_pay9 i h w pm (ix2 a 0), k1_pay10 i h w pm pm ps (ix2 a 0), k1_pay2 (k1_pay7 i) (k1_pay8 i h w) tg pg (ix2 a 0))
      = Cert.Math.osStep (fun j : Fin 2048 => if (i 1).val * 2048 + j.val < 20000 then ∑ q : Fin 256, h (ix2 a q) * w (ix2 j q) else ⊥)
          (fun j : Fin 2048 => decide (BitVec.ofNat 32 ((i 1).val * 2048 + j.val) = tg (ix2 a 0)))
          (pm (ix2 a 0), ps (ix2 a 0), pg (ix2 a 0)) := by
  have hz : (fun j : Fin 2048 => k1_pay8 i h w (ix2 a j))
      = fun j : Fin 2048 => if (i 1).val * 2048 + j.val < 20000 then ∑ q : Fin 256, h (ix2 a q) * w (ix2 j q) else ⊥ :=
    funext fun j => z1_apply i h w a j
  rw [← hz]
  unfold Cert.Math.osStep
  refine Prod.ext ?_ (Prod.ext ?_ ?_)
  · exact max1_apply i h w pm a
  · exact (sum1_apply i h w pm ps a).trans (by rw [max1_apply i h w pm a])
  · refine (gat1_apply i h w tg pg a).trans ?_
    simp only [decide_eq_true_eq]

end Cert.KernelIdeal.Hand

end
-- ==== Proof.KI.Blk1.lean ====
import proofs.«402100_j83614423319285_2_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.SL.Sem
open Cert.KernelIdeal Cert.KernelIdeal.Gen

variable {F : FTy → Type} [FloatOps F] [Named F]

theorem coords1_0 : ∀ t : Fin cfg1.N, ((grid1.coords t) 0).val = t.val / 10 :=
  (by decide +kernel : ∀ t : Fin grid1.N, _)

theorem coords1_1 : ∀ t : Fin cfg1.N, ((grid1.coords t) 1).val = t.val % 10 :=
  (by decide +kernel : ∀ t : Fin grid1.N, _)

theorem gridN1 : cfg1.N = 80 := by decide

theorem idx_facts1 : ∀ t : Fin cfg1.N, win1_0.index t (0 : Fin 2) = t.val / 10 ∧ win1_0.index t (1 : Fin 2) = 0
    ∧ win1_1.index t (0 : Fin 2) = 0 ∧ win1_1.index t (1 : Fin 2) = 0
    ∧ win1_2.index t (0 : Fin 2) = t.val % 10 ∧ win1_2.index t (1 : Fin 2) = 0
    ∧ win1_3.index t (0 : Fin 2) = t.val / 10 ∧ win1_3.index t (1 : Fin 2) = 0
    ∧ win1_4.index t (0 : Fin 2) = t.val / 10 ∧ win1_4.index t (1 : Fin 2) = 0
    ∧ win1_5.index t (0 : Fin 2) = t.val / 10 ∧ win1_5.index t (1 : Fin 2) = 0
    ∧ win1_6.index t (0 : Fin 2) = t.val / 10 ∧ win1_6.index t (1 : Fin 2) = 0 :=
  (by decide +kernel : ∀ t : Fin grid1.N, _)

theorem blk1_0 (A : S4096x1024.Idx → Elt F .bf16) (t : Fin cfg1.N) (a : Fin 512) (k : Fin 1024) :
    ((cfg1.win 0).blk t).view.read (Elt F) A (ix2 a k) = A (ix2 ⟨t.val / 10 * 512 + a.val, by have := t.isLt; have hN : cfg1.N = 80 := gridN1; omega⟩ k) := by
  have e := idx_facts1 t
  show A (((cfg1.win 0).blk t).view.emb (ix2 a k)) = A _
  refine congrArg A (funext fun d => Fin.ext ?_)
  match d with
  | ⟨0, _⟩ => show win1_0.index t (0 : Fin 2) * 512 + 1 * a.val = t.val / 10 * 512 + a.val; omega
  | ⟨1, _⟩ => show win1_0.index t (1 : Fin 2) * 1024 + 1 * k.val = k.val; omega

theorem blk1_1 (A : S256x1024.Idx → Elt F .bf16) (t : Fin cfg1.N) (a : Fin 256) (k : Fin 1024) :
    ((cfg1.win 1).blk t).view.read (Elt F) A (ix2 a k) = A (ix2 a k) := by
  have e := idx_facts1 t
  show A (((cfg1.win 1).blk t).view.emb (ix2 a k)) = A _
  refine congrArg A (funext fun d => Fin.ext ?_)
  match d with
  | ⟨0, _⟩ => show win1_1.index t (0 : Fin 2) * 256 + 1 * a.val = a.val; omega
  | ⟨1, _⟩ => show win1_1.index t (1 : Fin 2) * 1024 + 1 * k.val = k.val; omega

theorem blk1_2 (A : S20480x256.Idx → Elt F .bf16) (t : Fin cfg1.N) (a : Fin 2048) (k : Fin 256) :
    ((cfg1.win 2).blk t).view.read (Elt F) A (ix2 a k) = A (ix2 ⟨t.val % 10 * 2048 + a.val, by have := t.isLt; have hN : cfg1.N = 80 := gridN1; omega⟩ k) := by
  have e := idx_facts1 t
  show A (((cfg1.win 2).blk t).view.emb (ix2 a k)) = A _
  refine congrArg A (funext fun d => Fin.ext ?_)
  match d with
  | ⟨0, _⟩ => show win1_2.index t (0 : Fin 2) * 2048 + 1 * a.val = t.val % 10 * 2048 + a.val; omega
  | ⟨1, _⟩ => show win1_2.index t (1 : Fin 2) * 256 + 1 * k.val = k.val; omega

theorem blk1_3 (A : S4096x1.Idx → Elt F .i32) (t : Fin cfg1.N) (a : Fin 512) :
    ((cfg1.win 3).blk t).view.read (Elt F) A (ix2 a (0 : Fin 1)) = A (ix2 ⟨t.val / 10 * 512 + a.val, by have := t.isLt; have hN : cfg1.N = 80 := gridN1; omega⟩ (0 : Fin 1)) := by
  have e := idx_facts1 t
  show A (((cfg1.win 3).blk t).view.emb (ix2 a (0 : Fin 1))) = A _
  refine congrArg A (funext fun d => Fin.ext ?_)
  match d with
  | ⟨0, _⟩ => show win1_3.index t (0 : Fin 2) * 512 + 1 * a.val = t.val / 10 * 512 + a.val; omega
  | ⟨1, _⟩ => show win1_3.index t (1 : Fin 2) * 1 + 1 * (0 : Fin 1).val = (0 : Fin 1).val; omega

theorem blk1_4 (A : S4096x1.Idx → Elt F .f32) (t : Fin cfg1.N) (a : Fin 512) :
    ((cfg1.win 4).blk t).view.read (Elt F) A (ix2 a (0 : Fin 1)) = A (ix2 ⟨t.val / 10 * 512 + a.val, by have := t.isLt; have hN : cfg1.N = 80 := gridN1; omega⟩ (0 : Fin 1)) := by
  have e := idx_facts1 t
  show A (((cfg1.win 4).blk t).view.emb (ix2 a (0 : Fin 1))) = A _
  refine congrArg A (funext fun d => Fin.ext ?_)
  match d with
  | ⟨0, _⟩ => show win1_4.index t (0 : Fin 2) * 512 + 1 * a.val = t.val / 10 * 512 + a.val; omega
  | ⟨1, _⟩ => show win1_4.index t (1 : Fin 2) * 1 + 1 * (0 : Fin 1).val = (0 : Fin 1).val; omega

theorem blk1_5 (A : S4096x1.Idx → Elt F .f32) (t : Fin cfg1.N) (a : Fin 512) :
    ((cfg1.win 5).blk t).view.read (Elt F) A (ix2 a (0 : Fin 1)) = A (ix2 ⟨t.val / 10 * 512 + a.val, by have := t.isLt; have hN : cfg1.N = 80 := gridN1; omega⟩ (0 : Fin 1)) := by
  have e := idx_facts1 t
  show A (((cfg1.win 5).blk t).view.emb (ix2 a (0 : Fin 1))) = A _
  refine congrArg A (funext fun d => Fin.ext ?_)
  match d with
  | ⟨0, _⟩ => show win1_5.index t (0 : Fin 2) * 512 + 1 * a.val = t.val / 10 * 512 + a.val; omega
  | ⟨1, _⟩ => show win1_5.index t (1 : Fin 2) * 1 + 1 * (0 : Fin 1).val = (0 : Fin 1).val; omega

theorem blk1_6 (A : S4096x1.Idx → Elt F .f32) (t : Fin cfg1.N) (a : Fin 512) :
    ((cfg1.win 6).blk t).view.read (Elt F) A (ix2 a (0 : Fin 1)) = A (ix2 ⟨t.val / 10 * 512 + a.val, by have := t.isLt; have hN : cfg1.N = 80 := gridN1; omega⟩ (0 : Fin 1)) := by
  have e := idx_facts1 t
  show A (((cfg1.win 6).blk t).view.emb (ix2 a (0 : Fin 1))) = A _
  refine congrArg A (funext fun d => Fin.ext ?_)
  match d with
  | ⟨0, _⟩ => show win1_6.index t (0 : Fin 2) * 512 + 1 * a.val = t.val / 10 * 512 + a.val; omega
  | ⟨1, _⟩ => show win1_6.index t (1 : Fin 2) * 1 + 1 * (0 : Fin 1).val = (0 : Fin 1).val; omega

theorem cover1_of {P : Fin cfg1.N → Prop} {S : Fin cfg1.N → Set S4096x1.Idx} {ix : Fin cfg1.N → Fin 2 → ℕ}
    (hf : ∀ t, P t ↔ t.val % 10 = 9)
    (hm : ∀ t i, i ∈ S t ↔ ∀ a : Fin 2, ix t a * S512x1.size a ≤ (i a).val ∧ (i a).val < ix t a * S512x1.size a + S512x1.size a)
    (he : ∀ t, ix t 0 = t.val / 10 ∧ ix t 1 = 0) (i : S4096x1.Idx) : ∃ t, P t ∧ i ∈ S t := by
  have hi0 : (i 0).val < 4096 := (i 0).isLt
  have hi1 : (i 1).val < 1 := (i 1).isLt
  have hN : cfg1.N = 80 := gridN1
  let t : Fin cfg1.N := ⟨(i 0).val / 512 * 10 + 9, by omega⟩
  have ht : t.val = (i 0).val / 512 * 10 + 9 := rfl
  have e := he t
  refine ⟨t, (hf t).2 (by omega), (hm t i).2 fun a => ?_⟩
  match a with
  | ⟨0, _⟩ => show ix t 0 * 512 ≤ (i 0).val ∧ (i 0).val < ix t 0 * 512 + 512; omega
  | ⟨1, _⟩ => show ix t 1 * 1 ≤ (i 1).val ∧ (i 1).val < ix t 1 * 1 + 1; omega

theorem mem_blk1_4 (t : Fin cfg1.N) (i : S4096x1.Idx) :
    i ∈ ((cfg1.win 4).blk t).view.set ↔ ∀ a : Fin 2, win1_4.index t a * S512x1.size a ≤ (i a).val ∧ (i a).val < win1_4.index t a * S512x1.size a + S512x1.size a := by
  show i ∈ ((View.whole main_v31_0).slice (win1_4.rect t)).set ↔ _
  rw [View.set_slice_whole, Rect.mem_set_unit]
  exact Iff.rfl

theorem cover1_4 (i : S4096x1.Idx) : ∃ t : Fin cfg1.N, (cfg1.win 4).flush t = true ∧ i ∈ ((cfg1.win 4).blk t).view.set :=
  cover1_of flush1_4 mem_blk1_4 (fun t => by have := idx_facts1 t; omega) i

theorem mem_blk1_5 (t : Fin cfg1.N) (i : S4096x1.Idx) :
    i ∈ ((cfg1.win 5).blk t).view.set ↔ ∀ a : Fin 2, win1_5.index t a * S512x1.size a ≤ (i a).val ∧ (i a).val < win1_5.index t a * S512x1.size a + S512x1.size a := by
  show i ∈ ((View.whole main_v31_1).slice (win1_5.rect t)).set ↔ _
  rw [View.set_slice_whole, Rect.mem_set_unit]
  exact Iff.rfl

theorem cover1_5 (i : S4096x1.Idx) : ∃ t : Fin cfg1.N, (cfg1.win 5).flush t = true ∧ i ∈ ((cfg1.win 5).blk t).view.set :=
  cover1_of flush1_5 mem_blk1_5 (fun t => by have := idx_facts1 t; omega) i

theorem mem_blk1_6 (t : Fin cfg1.N) (i : S4096x1.Idx) :
    i ∈ ((cfg1.win 6).blk t).view.set ↔ ∀ a : Fin 2, win1_6.index t a * S512x1.size a ≤ (i a).val ∧ (i a).val < win1_6.index t a * S512x1.size a + S512x1.size a := by
  show i ∈ ((View.whole main_v31_2).slice (win1_6.rect t)).set ↔ _
  rw [View.set_slice_whole, Rect.mem_set_unit]
  exact Iff.rfl

theorem cover1_6 (i : S4096x1.Idx) : ∃ t : Fin cfg1.N, (cfg1.win 6).flush t = true ∧ i ∈ ((cfg1.win 6).blk t).view.set :=
  cover1_of flush1_6 mem_blk1_6 (fun t => by have := idx_facts1 t; omega) i

end Cert.KernelIdeal.Hand

end
-- ==== Proof.KI.Val1.lean ====
import proofs.«402100_j83614423319285_2_alg».proof.Proof.KI.Val1a
import proofs.«402100_j83614423319285_2_alg».proof.Proof.KI.Pay1
import proofs.«402100_j83614423319285_2_alg».proof.Proof.KI.Blk1
import proofs.«402100_j83614423319285_2_alg».proof.Proof.Math.Online
import Idealize.ShloMosaic.Lib.ValueIdx

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

abbrev eX1 (c : Dev nD) : S4096x1024.Idx → EReal := V c main_v19

abbrev eP1 (c : Dev nD) : S256x1024.Idx → EReal := V c main_v22

abbrev eW1 (c : Dev nD) : S20480x256.Idx → EReal := V c main_v30

abbrev eT1 (c : Dev nD) : S4096x1.Idx → BitVec 32 := V c main_v14

abbrev oM1 (c : Dev nD) : S4096x1.Idx → EReal := (dat1 V c).arrAt 4 cfg1.N

abbrev oS1 (c : Dev nD) : S4096x1.Idx → EReal := (dat1 V c).arrAt 5 cfg1.N

abbrev oG1 (c : Dev nD) : S4096x1.Idx → EReal := (dat1 V c).arrAt 6 cfg1.N

def zTile1 (c : Dev nD) (r : Fin 4096) (cc : ℕ) (j : Fin 2048) : EReal :=
  if h : cc * 2048 + j.val < 20000 then
    ∑ q : Fin 256, (∑ k : Fin 1024, eX1 V c (ix2 r k) * eP1 V c (ix2 q k)) * eW1 V c (ix2 (⟨cc * 2048 + j.val, by omega⟩ : Fin 20480) q)
  else ⊥

def hitTile1 (c : Dev nD) (r : Fin 4096) (cc : ℕ) (j : Fin 2048) : Bool :=
  decide (BitVec.ofNat 32 (cc * 2048 + j.val) = eT1 V c (ix2 r (0 : Fin 1)))

section Blocks
variable (c : Dev nD) (t : Fin cfg1.N) (a : Fin 512) (r : Fin 4096) (hr : r.val = t.val / 10 * 512 + a.val)
include hr

theorem xblk1 (k : Fin 1024) : (iblk1 V c 0 t : Vec Ideal S512x1024 .bf16) (ix2 a k) = eX1 V c (ix2 r k) := by
  refine (blk1_0 (F := Ideal) (eX1 V c) t a k).trans (congrArg (fun x => eX1 V c (ix2 x k)) (Fin.ext hr.symm))

theorem tblk1 : (iblk1 V c 3 t : Vec Ideal S512x1 .i32) (ix2 a (0 : Fin 1)) = eT1 V c (ix2 r (0 : Fin 1)) := by
  refine (blk1_3 (F := Ideal) (eT1 V c) t a).trans (congrArg (fun x => eT1 V c (ix2 x (0 : Fin 1))) (Fin.ext hr.symm))
end Blocks

theorem pblk1 (c : Dev nD) (t : Fin cfg1.N) (q : Fin 256) (k : Fin 1024) :
    (iblk1 V c 1 t : Vec Ideal S256x1024 .bf16) (ix2 q k) = eP1 V c (ix2 q k) :=
  blk1_1 (F := Ideal) (eP1 V c) t q k

theorem wblk1 (c : Dev nD) (t : Fin cfg1.N) (j : Fin 2048) (q : Fin 256) (h : t.val % 10 * 2048 + j.val < 20480) :
    (iblk1 V c 2 t : Vec Ideal S2048x256 .bf16) (ix2 j q) = eW1 V c (ix2 (⟨t.val % 10 * 2048 + j.val, h⟩ : Fin 20480) q) :=
  blk1_2 (F := Ideal) (eW1 V c) t j q

theorem step1 (c : Dev nD) (t : Fin cfg1.N) (h : Vec Ideal S512x256 .bf16) (pm ps pg : Vec Ideal S512x1 .f32)
    (a : Fin 512) (r : Fin 4096) (hr : r.val = t.val / 10 * 512 + a.val)
    (hh : ∀ q : Fin 256, h (ix2 a q) = ∑ k : Fin 1024, eX1 V c (ix2 r k) * eP1 V c (ix2 q k)) :
    (k1_pay9 (grid1.coords t) h (iblk1 V c 2 t) pm (ix2 a 0),
      k1_pay10 (grid1.coords t) h (iblk1 V c 2 t) pm pm ps (ix2 a 0),
      k1_pay2 (k1_pay7 (grid1.coords t)) (k1_pay8 (grid1.coords t) h (iblk1 V c 2 t)) (iblk1 V c 3 t) pg (ix2 a 0))
      = Cert.Math.osStep (zTile1 V c r (t.val % 10)) (hitTile1 V c r (t.val % 10)) (pm (ix2 a 0), ps (ix2 a 0), pg (ix2 a 0)) := by
  have hN : t.val < 80 := lt_of_lt_of_eq t.isLt gridN1
  refine (pay1_step (grid1.coords t) h (iblk1 V c 2 t) (iblk1 V c 3 t) pm ps pg a).trans ?_
  have hz : (fun j : Fin 2048 => if ((grid1.coords t) 1).val * 2048 + j.val < 20000 then ∑ q : Fin 256, h (ix2 a q) * (iblk1 V c 2 t : Vec Ideal S2048x256 .bf16) (ix2 j q) else (⊥ : EReal))
      = zTile1 V c r (t.val % 10) := by
    funext j
    have hj := j.isLt
    unfold zTile1
    rw [coords1_1 t]
    by_cases hlt : t.val % 10 * 2048 + j.val < 20000
    · rw [if_pos hlt, dif_pos hlt]
      refine Finset.sum_congr rfl fun q _ => ?_
      rw [hh q, wblk1 V c t j q (by omega)]
    · rw [if_neg hlt, dif_neg hlt]
  have hh' : (fun j : Fin 2048 => decide (BitVec.ofNat 32 (((grid1.coords t) 1).val * 2048 + j.val) = (iblk1 V c 3 t : Vec Ideal S512x1 .i32) (ix2 a 0)))
      = hitTile1 V c r (t.val % 10) := by
    funext j
    unfold hitTile1
    rw [coords1_1 t, tblk1 V c t a r hr]
  exact congr (congr (congrArg (@Cert.Math.osStep 2048) hz) hh') rfl

def Inv1 (c : Dev nD) (R k : ℕ) (o : Outs1 Ideal) : Prop :=
  ∀ (a : Fin 512) (r : Fin 4096), r.val = R * 512 + a.val →
    (∀ q : Fin 256, o.2.2.2.1 (ix2 a q) = ∑ k' : Fin 1024, eX1 V c (ix2 r k') * eP1 V c (ix2 q k'))
    ∧ (o.2.2.2.2.1 (ix2 a 0), o.2.2.2.2.2.1 (ix2 a 0), o.2.2.2.2.2.2 (ix2 a 0))
        = Cert.Math.osFold (zTile1 V c r) (hitTile1 V c r) k

theorem ptA1_inv (c : Dev nD) (t : Fin cfg1.N) (hc0 : cond1_0 (grid1.coords t)) (hc1 : ¬cond1_1 (grid1.coords t))
    (ht : t.val % 10 = 0) : Inv1 V c (t.val / 10) 1 (ptA1 V c t hc0 hc1) := by
  intro a r hr
  unfold ptA1
  dsimp only
  rw [sout1_A_0_eq, sout1_A_1_eq, sout1_A_2_eq, sout1_A_3_eq]
  have hproj : ∀ q : Fin 256, k1_pay3 (iblk1 V c 0 t) (iblk1 V c 1 t) (ix2 a q)
      = ∑ k' : Fin 1024, eX1 V c (ix2 r k') * eP1 V c (ix2 q k') := fun q => by
    rw [pay1_proj]
    refine Finset.sum_congr rfl fun k' _ => ?_
    rw [xblk1 V c t a r hr k', pblk1 V c t q k']
  refine ⟨hproj, ?_⟩
  rw [pay1_m]
  refine (step1 V c t (k1_pay3 (iblk1 V c 0 t) (iblk1 V c 1 t)) (k1_pay4 (F := Ideal)) (k1_pay5 (F := Ideal)) (k1_pay6 (F := Ideal)) a r hr hproj).trans ?_
  rw [pay1_reset (ix2 a 0), ht]
  rfl

theorem ptB1_inv (c : Dev nD) (t : Fin cfg1.N) (hc0 : ¬cond1_0 (grid1.coords t)) (hc1 : ¬cond1_1 (grid1.coords t))
    (p : Outs1 Ideal) (k : ℕ) (hk : k = t.val % 10) (hp : Inv1 V c (t.val / 10) k p) :
    Inv1 V c (t.val / 10) (k + 1) (ptB1 V c t hc0 hc1 p) := by
  intro a r hr
  obtain ⟨hproj, hfold⟩ := hp a r hr
  unfold ptB1
  dsimp only
  rw [sout1_B_1_eq, sout1_B_2_eq, sout1_B_3_eq]
  refine ⟨hproj, ?_⟩
  rw [pay1_m]
  refine (step1 V c t p.2.2.2.1 p.2.2.2.2.1 p.2.2.2.2.2.1 p.2.2.2.2.2.2 a r hr hproj).trans ?_
  rw [hfold, ← hk]
  rfl

theorem ptC1_inv (c : Dev nD) (t : Fin cfg1.N) (hc0 : ¬cond1_0 (grid1.coords t)) (hc1 : cond1_1 (grid1.coords t))
    (p : Outs1 Ideal) (k : ℕ) (hk : k = t.val % 10) (hp : Inv1 V c (t.val / 10) k p) :
    Inv1 V c (t.val / 10) (k + 1) (ptC1 V c t hc0 hc1 p) := by
  intro a r hr
  obtain ⟨hproj, hfold⟩ := hp a r hr
  unfold ptC1
  dsimp only
  rw [sout1_C_1_eq, sout1_C_2_eq, sout1_C_3_eq]
  refine ⟨hproj, ?_⟩
  rw [pay1_m]
  refine (step1 V c t p.2.2.2.1 p.2.2.2.2.1 p.2.2.2.2.2.1 p.2.2.2.2.2.2 a r hr hproj).trans ?_
  rw [hfold, ← hk]
  rfl

theorem ptC1_outs (c : Dev nD) (t : Fin cfg1.N) (hc0 : ¬cond1_0 (grid1.coords t)) (hc1 : cond1_1 (grid1.coords t))
    (p : Outs1 Ideal) :
    (ptC1 V c t hc0 hc1 p).1 = (ptC1 V c t hc0 hc1 p).2.2.2.2.1
      ∧ (ptC1 V c t hc0 hc1 p).2.1 = (ptC1 V c t hc0 hc1 p).2.2.2.2.2.1
      ∧ (ptC1 V c t hc0 hc1 p).2.2.1 = (ptC1 V c t hc0 hc1 p).2.2.2.2.2.2 := by
  unfold ptC1
  dsimp only
  rw [sout1_C_1_eq, sout1_C_2_eq, sout1_C_3_eq, out1_C_4_eq, out1_C_5_eq, out1_C_6_eq]
  exact ⟨rfl, rfl, rfl⟩

theorem inv1 (c : Dev nD) (n : ℕ) : ∀ hn : n < cfg1.N, Inv1 V c (n / 10) (n % 10 + 1) (outsAt1 V c n hn) := by
  induction n with
  | zero =>
    intro hn
    have hc0 : cond1_0 (grid1.coords ⟨0, hn⟩) := (hcond1_0 ⟨0, hn⟩).mpr (Nat.zero_mod _)
    have hc1 : ¬cond1_1 (grid1.coords ⟨0, hn⟩) := fun h => by
      have h9 := (hcond1_1 ⟨0, hn⟩).mp h; dsimp only at h9; omega
    have e : outsAt1 V c 0 hn = ptA1 V c ⟨0, hn⟩ hc0 hc1 := outsAt1_A V c ⟨0, hn⟩ (Nat.zero_mod _) hc0 hc1
    rw [e]
    exact ptA1_inv V c ⟨0, hn⟩ hc0 hc1 (Nat.zero_mod _)
  | succ n ih =>
    intro hn
    have hN : n + 1 < 80 := lt_of_lt_of_eq hn gridN1
    by_cases h0 : (n + 1) % 10 = 0
    · have hc0 : cond1_0 (grid1.coords ⟨n + 1, hn⟩) := (hcond1_0 ⟨n + 1, hn⟩).mpr h0
      have hc1 : ¬cond1_1 (grid1.coords ⟨n + 1, hn⟩) := fun h => by
        have h9 := (hcond1_1 ⟨n + 1, hn⟩).mp h; dsimp only at h9; omega
      have e : outsAt1 V c (n + 1) hn = ptA1 V c ⟨n + 1, hn⟩ hc0 hc1 := outsAt1_A V c ⟨n + 1, hn⟩ h0 hc0 hc1
      rw [e, h0]
      exact ptA1_inv V c ⟨n + 1, hn⟩ hc0 hc1 h0
    · have hc0 : ¬cond1_0 (grid1.coords ⟨n + 1, hn⟩) := fun h => h0 ((hcond1_0 ⟨n + 1, hn⟩).mp h)
      have e1 : (n + 1) / 10 = n / 10 := by omega
      have e2 : (n + 1) % 10 = n % 10 + 1 := by omega
      have hp : Inv1 V c ((n + 1) / 10) ((n + 1) % 10) (outsAt1 V c n (Nat.lt_of_succ_lt hn)) := by
        rw [e1, e2]; exact ih _
      by_cases h1 : (n + 1) % 10 = 9
      · have hc1 : cond1_1 (grid1.coords ⟨n + 1, hn⟩) := (hcond1_1 ⟨n + 1, hn⟩).mpr h1
        have e : outsAt1 V c (n + 1) hn = ptC1 V c ⟨n + 1, hn⟩ hc0 hc1 (outsAt1 V c n (Nat.lt_of_succ_lt hn)) :=
          outsAt1_C V c ⟨n + 1, hn⟩ h0 h1 hc0 hc1
        rw [e]
        exact ptC1_inv V c ⟨n + 1, hn⟩ hc0 hc1 _ ((n + 1) % 10) rfl hp
      · have hc1 : ¬cond1_1 (grid1.coords ⟨n + 1, hn⟩) := fun h => h1 ((hcond1_1 ⟨n + 1, hn⟩).mp h)
        have e : outsAt1 V c (n + 1) hn = ptB1 V c ⟨n + 1, hn⟩ hc0 hc1 (outsAt1 V c n (Nat.lt_of_succ_lt hn)) :=
          outsAt1_B V c ⟨n + 1, hn⟩ h0 h1 hc0 hc1
        rw [e]
        exact ptB1_inv V c ⟨n + 1, hn⟩ hc0 hc1 _ ((n + 1) % 10) rfl hp

theorem flushed1 (c : Dev nD) (t : Fin cfg1.N) (ht : t.val % 10 = 9) (a : Fin 512) (r : Fin 4096)
    (hr : r.val = t.val / 10 * 512 + a.val) :
    ((outsAt1 V c t.val t.isLt).1 (ix2 a 0), (outsAt1 V c t.val t.isLt).2.1 (ix2 a 0), (outsAt1 V c t.val t.isLt).2.2.1 (ix2 a 0))
      = Cert.Math.osFold (zTile1 V c r) (hitTile1 V c r) 10 := by
  have h0 : ¬t.val % 10 = 0 := by omega
  have hc0 : ¬cond1_0 (grid1.coords t) := fun h => h0 ((hcond1_0 t).mp h)
  have hc1 : cond1_1 (grid1.coords t) := (hcond1_1 t).mpr ht
  have hinv := (inv1 V c t.val t.isLt a r hr).2
  rw [ht] at hinv
  rw [outsAt1_C V c t h0 ht hc0 hc1] at hinv ⊢
  obtain ⟨e4, e5, e6⟩ := ptC1_outs V c t hc0 hc1 (outsAt1 V c (t.val - 1) (Nat.lt_of_le_of_lt (Nat.sub_le _ _) t.isLt))
  rw [e4, e5, e6]
  exact hinv

theorem eq_ix2_col1 (y : S512x1.Idx) : y = ix2 (y 0) (0 : Fin 1) :=
  (eq_ix2 (n0 := 512) (n1 := 1) y).trans (by rw [Fin.eq_zero (y 1)]; rfl)

def gM1 (c : Dev nD) : S4096x1.Idx → EReal := fun i => (Cert.Math.osFold (zTile1 V c (i 0)) (hitTile1 V c (i 0)) 10).1
def gS1 (c : Dev nD) : S4096x1.Idx → EReal := fun i => (Cert.Math.osFold (zTile1 V c (i 0)) (hitTile1 V c (i 0)) 10).2.1
def gG1 (c : Dev nD) : S4096x1.Idx → EReal := fun i => (Cert.Math.osFold (zTile1 V c (i 0)) (hitTile1 V c (i 0)) 10).2.2

theorem hG1_4 (c : Dev nD) (t : Fin cfg1.N) (hf : (cfg1.win 4).flush t = true) :
    (dat1 V c).flushed 4 t = ((cfg1.win 4).blk t).view.read (Elt Ideal) (gM1 V c) := by
  have ht : t.val % 10 = 9 := (flush1_4 t).mp hf
  have hN : t.val < 80 := lt_of_lt_of_eq t.isLt gridN1
  funext y
  obtain ⟨a, rfl⟩ : ∃ a : Fin 512, y = ix2 a (0 : Fin 1) := ⟨(y : S512x1.Idx) 0, eq_ix2_col1 y⟩
  show (dat1 V c).after 4 t (ix2 a (0 : Fin 1)) = _
  rw [after1_4, blk1_4 (F := Ideal) (gM1 V c) t a]
  have hfl := flushed1 V c t ht a ⟨t.val / 10 * 512 + a.val, by have := a.isLt; omega⟩ rfl
  exact congrArg (fun x : EReal × EReal × EReal => x.1) hfl

theorem hG1_5 (c : Dev nD) (t : Fin cfg1.N) (hf : (cfg1.win 5).flush t = true) :
    (dat1 V c).flushed 5 t = ((cfg1.win 5).blk t).view.read (Elt Ideal) (gS1 V c) := by
  have ht : t.val % 10 = 9 := (flush1_5 t).mp hf
  have hN : t.val < 80 := lt_of_lt_of_eq t.isLt gridN1
  funext y
  obtain ⟨a, rfl⟩ : ∃ a : Fin 512, y = ix2 a (0 : Fin 1) := ⟨(y : S512x1.Idx) 0, eq_ix2_col1 y⟩
  show (dat1 V c).after 5 t (ix2 a (0 : Fin 1)) = _
  rw [after1_5, blk1_5 (F := Ideal) (gS1 V c) t a]
  have hfl := flushed1 V c t ht a ⟨t.val / 10 * 512 + a.val, by have := a.isLt; omega⟩ rfl
  exact congrArg (fun x : EReal × EReal × EReal => x.2.1) hfl

theorem hG1_6 (c : Dev nD) (t : Fin cfg1.N) (hf : (cfg1.win 6).flush t = true) :
    (dat1 V c).flushed 6 t = ((cfg1.win 6).blk t).view.read (Elt Ideal) (gG1 V c) := by
  have ht : t.val % 10 = 9 := (flush1_6 t).mp hf
  have hN : t.val < 80 := lt_of_lt_of_eq t.isLt gridN1
  funext y
  obtain ⟨a, rfl⟩ : ∃ a : Fin 512, y = ix2 a (0 : Fin 1) := ⟨(y : S512x1.Idx) 0, eq_ix2_col1 y⟩
  show (dat1 V c).after 6 t (ix2 a (0 : Fin 1)) = _
  rw [after1_6, blk1_6 (F := Ideal) (gG1 V c) t a]
  have hfl := flushed1 V c t ht a ⟨t.val / 10 * 512 + a.val, by have := a.isLt; omega⟩ rfl
  exact congrArg (fun x : EReal × EReal × EReal => x.2.2) hfl

theorem oM1_eq (c : Dev nD) : oM1 V c = gM1 V c := Dat.arrAt_eq_of_cover (dat1 V c) 4 (gM1 V c) (hG1_4 V c) cover1_4
theorem oS1_eq (c : Dev nD) : oS1 V c = gS1 V c := Dat.arrAt_eq_of_cover (dat1 V c) 5 (gS1 V c) (hG1_5 V c) cover1_5
theorem oG1_eq (c : Dev nD) : oG1 V c = gG1 V c := Dat.arrAt_eq_of_cover (dat1 V c) 6 (gG1 V c) (hG1_6 V c) cover1_6

theorem val1 (c : Dev nD) (r : Fin 4096) :
    (oM1 V c (ix2 r (0 : Fin 1)), oS1 V c (ix2 r (0 : Fin 1)), oG1 V c (ix2 r (0 : Fin 1)))
      = Cert.Math.osFold (zTile1 V c r) (hitTile1 V c r) 10 := by
  rw [oM1_eq, oS1_eq, oG1_eq]
  rfl

end Cert.KernelIdeal.Hand

end
-- ==== Proof.KI.Val2a.lean ====
import proofs.«402100_j83614423319285_2_alg».proof.Proof.KI.Body2
import Idealize.ShloMosaic.Lib.Pipeline.Value

set_option maxRecDepth 16384
set_option pp.maxSteps 20000
set_option pp.deepTerms false

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz2 : (![0, 0] : Fin 2 → Nat) = fun _ => 0 := funext fun a => by fin_cases a <;> rfl

section
variable (c : Dev nD) (i : grid2.Coords) (a : Args2)
section
variable (hc0 : cond2_0 i) (hc1 : ¬cond2_1 i) (x0 : Vec F S512x1024 .bf16) (x1 : Vec F S64x1024 .bf16) (x2 : Vec F S1024x64 .bf16) (x3 : Vec F S512x1 .i32)
theorem sout2_A_0_eq :
    sout2_A_0 c i a hc0 hc1 x0 x1 x2 x3 = k2_pay3 x0 x1 := by
  unfold sout2_A_0
  rw [View.read_writes_eq_canon _ _ _ (scover2_A_0 c i a hc0 hc1 x0 x1 x2 x3)]
  unfold run2_A kernelRun2_A
  dsimp only
  sl_unfold_words
  rw [View.canon_unit_zero hz2]
  simp only [View.readAt_eq_ld, a.harg2.read_unread, a.harg3.read_unread, View.ld_unit_zero (S := S512x1024) hz2, View.ld_unit_zero (S := S64x1024) hz2]

theorem sout2_A_1_eq :
    sout2_A_1 c i a hc0 hc1 x0 x1 x2 x3 = k2_pay1 (k2_pay9 i (k2_pay3 x0 x1) x2 k2_pay4) := by
  unfold sout2_A_1
  rw [View.read_writes_eq_canon _ _ _ (scover2_A_1 c i a hc0 hc1 x0 x1 x2 x3)]
  unfold run2_A kernelRun2_A
  dsimp only
  sl_unfold_words
  rw [View.canon_cons_unit_zero (S := S512x1) hz2]
  simp only [View.readAt_eq_ld, a.harg2.read_unread, a.harg3.read_unread, a.harg4.read_unread, View.readCov_unit_zero (S := S512x1) _ hz2, View.readCov_unit_zero (S := S512x64) _ hz2, View.ld_unit_zero (S := S512x1024) hz2, View.ld_unit_zero (S := S64x1024) hz2, View.ld_unit_zero (S := S1024x64) hz2]

theorem sout2_A_2_eq :
    sout2_A_2 c i a hc0 hc1 x0 x1 x2 x3 = k2_pay10 i (k2_pay3 x0 x1) x2 k2_pay4 k2_pay4 k2_pay5 := by
  unfold sout2_A_2
  rw [View.read_writes_eq_canon _ _ _ (scover2_A_2 c i a hc0 hc1 x0 x1 x2 x3)]
  unfold run2_A kernelRun2_A
  dsimp only
  sl_unfold_words
  rw [View.canon_cons_unit_zero (S := S512x1) hz2]
  simp only [View.readAt_eq_ld, a.harg2.read_unread, a.harg3.read_unread, a.harg4.read_unread, View.readCov_unit_zero (S := S512x1) _ hz2, View.readCov_unit_zero (S := S512x64) _ hz2, View.ld_unit_zero (S := S512x1024) hz2, View.ld_unit_zero (S := S64x1024) hz2, View.ld_unit_zero (S := S1024x64) hz2]

theorem sout2_A_3_eq :
    sout2_A_3 c i a hc0 hc1 x0 x1 x2 x3 = k2_pay2 (k2_pay7 i) (k2_pay8 i (k2_pay3 x0 x1) x2) x3 k2_pay6 := by
  unfold sout2_A_3
  rw [View.read_writes_eq_canon _ _ _ (scover2_A_3 c i a hc0 hc1 x0 x1 x2 x3)]
  unfold run2_A kernelRun2_A
  dsimp only
  sl_unfold_words
  rw [View.canon_cons_unit_zero (S := S512x1) hz2]
  simp only [View.readAt_eq_ld, a.harg2.read_unread, a.harg3.read_unread, a.harg4.read_unread, a.harg5.read_unread, View.readCov_unit_zero (S := S512x1) _ hz2, View.readCov_unit_zero (S := S512x64) _ hz2, View.ld_unit_zero (S := S512x1024) hz2, View.ld_unit_zero (S := S64x1024) hz2, View.ld_unit_zero (S := S1024x64) hz2, View.ld_unit_zero (S := S512x1) hz2]

end
section
variable (hc0 : ¬cond2_0 i) (hc1 : ¬cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32)
theorem sout2_B_1_eq :
    sout2_B_1 c i a hc0 hc1 x0 x1 x2 x3 xs0 xs1 xs2 xs3 = k2_pay1 (k2_pay9 i xs0 x2 xs1) := by
  unfold sout2_B_1
  rw [View.read_writes_eq_canon _ _ _ (scover2_B_1 c i a hc0 hc1 x0 x1 x2 x3 xs0 xs1 xs2 xs3)]
  unfold run2_B kernelRun2_B
  dsimp only
  sl_unfold_words
  rw [View.canon_unit_zero hz2]
  simp only [View.readAt_eq_ld, a.harg4.read_unread, a.harg9.read_unread, a.harg10.read_unread, View.ld_unit_zero (S := S1024x64) hz2, View.ld_unit_zero (S := S512x64) hz2, View.ld_unit_zero (S := S512x1) hz2]

theorem sout2_B_2_eq :
    sout2_B_2 c i a hc0 hc1 x0 x1 x2 x3 xs0 xs1 xs2 xs3 = k2_pay10 i xs0 x2 xs1 xs1 xs2 := by
  unfold sout2_B_2
  rw [View.read_writes_eq_canon _ _ _ (scover2_B_2 c i a hc0 hc1 x0 x1 x2 x3 xs0 xs1 xs2 xs3)]
  unfold run2_B kernelRun2_B
  dsimp only
  sl_unfold_words
  rw [View.canon_unit_zero hz2]
  simp only [View.readAt_eq_ld, a.harg4.read_unread, a.harg9.read_unread, a.harg10.read_unread, a.harg11.read_unread, View.ld_unit_zero (S := S1024x64) hz2, View.ld_unit_zero (S := S512x64) hz2, View.ld_unit_zero (S := S512x1) hz2]

theorem sout2_B_3_eq :
    sout2_B_3 c i a hc0 hc1 x0 x1 x2 x3 xs0 xs1 xs2 xs3 = k2_pay2 (k2_pay7 i) (k2_pay8 i xs0 x2) x3 xs3 := by
  unfold sout2_B_3
  rw [View.read_writes_eq_canon _ _ _ (scover2_B_3 c i a hc0 hc1 x0 x1 x2 x3 xs0 xs1 xs2 xs3)]
  unfold run2_B kernelRun2_B
  dsimp only
  sl_unfold_words
  rw [View.canon_unit_zero hz2]
  simp only [View.readAt_eq_ld, a.harg4.read_unread, a.harg5.read_unread, a.harg9.read_unread, a.harg12.read_unread, View.ld_unit_zero (S := S1024x64) hz2, View.ld_unit_zero (S := S512x64) hz2, View.ld_unit_zero (S := S512x1) hz2]

end
section
variable (hc0 : ¬cond2_0 i) (hc1 : cond2_1 i) (x0 : Vec F S512x1024 .bf16) (x1 : Vec F S64x1024 .bf16) (x2 : Vec F S1024x64 .bf16) (x3 : Vec F S512x1 .i32) (xs0 : Vec F S512x64 .bf16) (xs1 : Vec F S512x1 .f32) (xs2 : Vec F S512x1 .f32) (xs3 : Vec F S512x1 .f32)
theorem sout2_C_1_eq :
    sout2_C_1 c i a hc0 hc1 x0 x1 x2 x3 xs0 xs1 xs2 xs3 = k2_pay1 (k2_pay9 i xs0 x2 xs1) := by
  unfold sout2_C_1
  rw [View.read_writes_eq_canon _ _ _ (scover2_C_1 c i a hc0 hc1 x0 x1 x2 x3 xs0 xs1 xs2 xs3)]
  unfold run2_C kernelRun2_C
  dsimp only
  sl_unfold_words
  rw [View.canon_unit_zero hz2]
  simp only [View.readAt_eq_ld, a.harg4.read_unread, a.harg9.read_unread, a.harg10.read_unread, View.ld_unit_zero (S := S1024x64) hz2, View.ld_unit_zero (S := S512x64) hz2, View.ld_unit_zero (S := S512x1) hz2]

theorem sout2_C_2_eq :
    sout2_C_2 c i a hc0 hc1 x0 x1 x2 x3 xs0 xs1 xs2 xs3 = k2_pay10 i xs0 x2 xs1 xs1 xs2 := by
  unfold sout2_C_2
  rw [View.read_writes_eq_canon _ _ _ (scover2_C_2 c i a hc0 hc1 x0 x1 x2 x3 xs0 xs1 xs2 xs3)]
  unfold run2_C kernelRun2_C
  dsimp only
  sl_unfold_words
  rw [View.canon_unit_zero hz2]
  simp only [View.readAt_eq_ld, a.harg4.read_unread, a.harg9.read_unread, a.harg10.read_unread, a.harg11.read_unread, View.ld_unit_zero (S := S1024x64) hz2, View.ld_unit_zero (S := S512x64) hz2, View.ld_unit_zero (S := S512x1) hz2]

theorem sout2_C_3_eq :
    sout2_C_3 c i a hc0 hc1 x0 x1 x2 x3 xs0 xs1 xs2 xs3 = k2_pay2 (k2_pay7 i) (k2_pay8 i xs0 x2) x3 xs3 := by
  unfold sout2_C_3
  rw [View.read_writes_eq_canon _ _ _ (scover2_C_3 c i a hc0 hc1 x0 x1 x2 x3 xs0 xs1 xs2 xs3)]
  unfold run2_C kernelRun2_C
  dsimp only
  sl_unfold_words
  rw [View.canon_unit_zero hz2]
  simp only [View.readAt_eq_ld, a.harg4.read_unread, a.harg5.read_unread, a.harg9.read_unread, a.harg12.read_unread, View.ld_unit_zero (S := S1024x64) hz2, View.ld_unit_zero (S := S512x64) hz2, View.ld_unit_zero (S := S512x1) hz2]

theorem out2_C_4_eq :
    out2_C_4 c i a hc0 hc1 x0 x1 x2 x3 xs0 xs1 xs2 xs3 = k2_pay1 (k2_pay9 i xs0 x2 xs1) := by
  unfold out2_C_4
  rw [View.read_writes_eq_canon _ _ _ (cover2_C_4 c i a hc0 hc1 x0 x1 x2 x3 xs0 xs1 xs2 xs3)]
  unfold run2_C kernelRun2_C
  dsimp only
  sl_unfold_words
  rw [View.canon_unit_zero hz2]
  simp only [View.readAt_eq_ld, a.harg4.read_unread, a.harg9.read_unread, a.harg10.read_unread, View.readCov_unit_zero (S := S512x1) _ hz2, View.ld_unit_zero (S := S1024x64) hz2, View.ld_unit_zero (S := S512x64) hz2, View.ld_unit_zero (S := S512x1) hz2]

theorem out2_C_5_eq :
    out2_C_5 c i a hc0 hc1 x0 x1 x2 x3 xs0 xs1 xs2 xs3 = k2_pay10 i xs0 x2 xs1 xs1 xs2 := by
  unfold out2_C_5
  rw [View.read_writes_eq_canon _ _ _ (cover2_C_5 c i a hc0 hc1 x0 x1 x2 x3 xs0 xs1 xs2 xs3)]
  unfold run2_C kernelRun2_C
  dsimp only
  sl_unfold_words
  rw [View.canon_unit_zero hz2]
  simp only [View.readAt_eq_ld, a.harg4.read_unread, a.harg9.read_unread, a.harg10.read_unread, a.harg11.read_unread, View.readCov_unit_zero (S := S512x1) _ hz2, View.ld_unit_zero (S := S1024x64) hz2, View.ld_unit_zero (S := S512x64) hz2, View.ld_unit_zero (S := S512x1) hz2]

theorem out2_C_6_eq :
    out2_C_6 c i a hc0 hc1 x0 x1 x2 x3 xs0 xs1 xs2 xs3 = k2_pay2 (k2_pay7 i) (k2_pay8 i xs0 x2) x3 xs3 := by
  unfold out2_C_6
  rw [View.read_writes_eq_canon _ _ _ (cover2_C_6 c i a hc0 hc1 x0 x1 x2 x3 xs0 xs1 xs2 xs3)]
  unfold run2_C kernelRun2_C
  dsimp only
  sl_unfold_words
  rw [View.canon_unit_zero hz2]
  simp only [View.readAt_eq_ld, a.harg4.read_unread, a.harg5.read_unread, a.harg9.read_unread, a.harg12.read_unread, View.readCov_unit_zero (S := S512x1) _ hz2, View.ld_unit_zero (S := S1024x64) hz2, View.ld_unit_zero (S := S512x64) hz2, View.ld_unit_zero (S := S512x1) hz2]
end
end

end Cert.KernelIdeal.Hand

end
-- ==== Proof.KI.Pay2.lean ====
import proofs.«402100_j83614423319285_2_alg».proof.Proof.Gen.KernelIdeal.Skeleton
import proofs.«402100_j83614423319285_2_alg».proof.Proof.Math.Online
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Hand

open Cert.KernelIdeal Cert.KernelIdeal.Gen Idealize.ShloMosaic Idealize.SL.Sem Idealize.ShloMosaic.ValueIdx

theorem pay2_m (v : FVec Ideal S512x1 .f32) : k2_pay1 v = v := by
  unfold k2_pay1
  exact shapeCast_self v _

theorem T2.ofBits_neg_inf_f32 : Ideal.ofBits .f32 0xFF800000#32 = ⊥ := by simp [Ideal.ofBits, Ideal.ieee]

theorem pay2_reset (j : S512x1.Idx) :
    (k2_pay4 (F := Ideal) j, k2_pay5 (F := Ideal) j, k2_pay6 (F := Ideal) j) = ((⊥ : EReal), (0 : EReal), (0 : EReal)) := by
  have e4 : k2_pay4 (F := Ideal) j = ⊥ := by
    unfold k2_pay4
    exact (congrFun (shapeCast_self _ _) j).trans T2.ofBits_neg_inf_f32
  have e5 : k2_pay5 (F := Ideal) j = 0 := by
    unfold k2_pay5
    exact (congrFun (shapeCast_self _ _) j).trans Ideal.ofBits_zero_f32
  have e6 : k2_pay6 (F := Ideal) j = 0 := by
    unfold k2_pay6
    exact (congrFun (shapeCast_self _ _) j).trans Ideal.ofBits_zero_f32
  rw [e4, e5, e6]

theorem lhs_proj2_0 (i : S512x64.Idx) (q : dot_S512x1024_S1024x64_S512x64_1_0_0_1_n_n.contr.Idx) :
    (dot_S512x1024_S1024x64_S512x64_1_0_0_1_n_n.lhsIdx i q 0).val = (i 0).val := by
  unfold DotDims.lhsIdx
  rw [dif_neg (show ¬(0 : Fin S512x1024.rank) ∈ dot_S512x1024_S1024x64_S512x64_1_0_0_1_n_n.lhsBatch by decide), dif_pos (show (0 : Fin S512x1024.rank) ∈ dot_S512x1024_S1024x64_S512x64_1_0_0_1_n_n.lhsNonContracting by decide)]
  rfl
theorem lhs_proj2_1 (i : S512x64.Idx) (q : dot_S512x1024_S1024x64_S512x64_1_0_0_1_n_n.contr.Idx) :
    (dot_S512x1024_S1024x64_S512x64_1_0_0_1_n_n.lhsIdx i q 1).val = (q ⟨0, by decide⟩).val :=
  dot_S512x1024_S1024x64_S512x64_1_0_0_1_n_n.lhsIdx_val_of_single rfl i q
theorem rhs_proj2_0 (i : S512x64.Idx) (q : dot_S512x1024_S1024x64_S512x64_1_0_0_1_n_n.contr.Idx) :
    (dot_S512x1024_S1024x64_S512x64_1_0_0_1_n_n.rhsIdx i q 0).val = (q ⟨0, by decide⟩).val :=
  dot_S512x1024_S1024x64_S512x64_1_0_0_1_n_n.rhsIdx_val_of_single rfl i q
theorem rhs_proj2_1 (i : S512x64.Idx) (q : dot_S512x1024_S1024x64_S512x64_1_0_0_1_n_n.contr.Idx) :
    (dot_S512x1024_S1024x64_S512x64_1_0_0_1_n_n.rhsIdx i q 1).val = (i 1).val := by
  unfold DotDims.rhsIdx
  rw [dif_neg (show ¬(1 : Fin S1024x64.rank) ∈ dot_S512x1024_S1024x64_S512x64_1_0_0_1_n_n.rhsBatch by decide), dif_pos (show (1 : Fin S1024x64.rank) ∈ dot_S512x1024_S1024x64_S512x64_1_0_0_1_n_n.rhsNonContracting by decide)]
  rfl

theorem matmul_proj2_apply (x : FVec Ideal S512x1024 .bf16) (P : FVec Ideal S64x1024 .bf16) (a : Fin 512) (p : Fin 64) :
    FloatOps.matmul dot_S512x1024_S1024x64_S512x64_1_0_0_1_n_n none x
        (transpose S1024x64 [1, 0] P transposes_S64x1024_p1_0_S1024x64) (constant S512x64 .f32 0x00000000#32) (ix2 a p)
      = ∑ k : Fin 1024, x (ix2 a k) * P (ix2 p k) := by
  refine (Ideal.matmul_constant_zero_apply _ none x _ (ix2 a p)).trans ?_
  rw [← Equiv.sum_comp (contrEquiv1 dot_S512x1024_S1024x64_S512x64_1_0_0_1_n_n 1024 rfl rfl).symm]
  refine Finset.sum_congr rfl fun k _ => ?_
  have hk := contrEquiv1_symm_val dot_S512x1024_S1024x64_S512x64_1_0_0_1_n_n 1024 rfl rfl k
  have el : dot_S512x1024_S1024x64_S512x64_1_0_0_1_n_n.lhsIdx (ix2 a p) ((contrEquiv1 dot_S512x1024_S1024x64_S512x64_1_0_0_1_n_n 1024 rfl rfl).symm k) = ix2 a k := funext fun c => Fin.ext (by
    match c with
    | ⟨0, _⟩ => exact lhs_proj2_0 _ _
    | ⟨1, _⟩ => exact (lhs_proj2_1 _ _).trans hk)
  have er : dot_S512x1024_S1024x64_S512x64_1_0_0_1_n_n.rhsIdx (ix2 a p) ((contrEquiv1 dot_S512x1024_S1024x64_S512x64_1_0_0_1_n_n 1024 rfl rfl).symm k) = ix2 k p := funext fun c => Fin.ext (by
    match c with
    | ⟨0, _⟩ => exact (rhs_proj2_0 _ _).trans hk
    | ⟨1, _⟩ => exact rhs_proj2_1 _ _)
  rw [el, er, transpose_ix2_apply]

theorem pay2_proj (x : Vec Ideal S512x1024 .bf16) (P : Vec Ideal S64x1024 .bf16) (a : Fin 512) (p : Fin 64) :
    k2_pay3 x P (ix2 a p) = ∑ k : Fin 1024, x (ix2 a k) * P (ix2 p k) := by
  unfold k2_pay3
  simp only [shapeCast_self]
  exact matmul_proj2_apply x P a p

theorem T2.slt_ofNat_small (c k : ℕ) (hc : c < 2 ^ 31) (hk : k < 2 ^ 31) :
    (BitVec.ofNat 32 c).slt (BitVec.ofNat 32 k) = decide (c < k) := by
  have e : ∀ m : ℕ, m < 2 ^ 31 → (BitVec.ofNat 32 m).toInt = (m : ℤ) := by
    intro m hm
    rw [BitVec.toInt_eq_toNat_cond, BitVec.toNat_ofNat, Nat.mod_eq_of_lt (by omega), if_pos (by omega)]
  unfold BitVec.slt
  rw [e c hc, e k hk]
  simp

theorem T2.select_ofBool {α : Type} (b : Bool) (A B : α) : Scalar.select (BitVec.ofBool b) A B = if b then A else B := by
  cases b
  · exact if_neg (by decide)
  · exact if_pos rfl

theorem T2.select_cmpi_eq {α : Type} (x y : BitVec 32) (A B : α) :
    Scalar.select (IntOp.cmpi .eq x y) A B = if x = y then A else B := by
  show Scalar.select (BitVec.ofBool (x == y)) A B = _
  rw [T2.select_ofBool]
  by_cases h : x = y
  · rw [if_pos h, if_pos (by simpa using h)]
  · rw [if_neg h, if_neg (by simpa using h)]

theorem col2_apply (i : grid2.Coords) (a : Fin 512) (j : Fin 1024) :
    k2_pay7 i (ix2 a j) = BitVec.ofNat 32 ((i 1).val * 1024 + j.val) := by
  unfold k2_pay7
  show BitVec.ofNat 32 (i 1).val * BitVec.ofNat 32 1024 + iota .tc S512x1024 32 [1] iota_S512x1024_d1_w32 (ix2 a j) = _
  rw [iota_single_apply, BitVec.ofNat_add, BitVec.ofNat_mul]

theorem T2.neg_big_bot : Named.named (F := Ideal) κ "neg_big" (φ := .f32) 0xFF333332#32 = (⊥ : EReal) :=
  IdealRules.named_const.ideal_named_scalar _ _ _ _ rfl

theorem lhs_z2_0 (i : S512x1024.Idx) (q : dot_S512x64_S64x1024_S512x1024_1_0_0_1_n_n.contr.Idx) :
    (dot_S512x64_S64x1024_S512x1024_1_0_0_1_n_n.lhsIdx i q 0).val = (i 0).val := by
  unfold DotDims.lhsIdx
  rw [dif_neg (show ¬(0 : Fin S512x64.rank) ∈ dot_S512x64_S64x1024_S512x1024_1_0_0_1_n_n.lhsBatch by decide), dif_pos (show (0 : Fin S512x64.rank) ∈ dot_S512x64_S64x1024_S512x1024_1_0_0_1_n_n.lhsNonContracting by decide)]
  rfl
theorem lhs_z2_1 (i : S512x1024.Idx) (q : dot_S512x64_S64x1024_S512x1024_1_0_0_1_n_n.contr.Idx) :
    (dot_S512x64_S64x1024_S512x1024_1_0_0_1_n_n.lhsIdx i q 1).val = (q ⟨0, by decide⟩).val :=
  dot_S512x64_S64x1024_S512x1024_1_0_0_1_n_n.lhsIdx_val_of_single rfl i q
theorem rhs_z2_0 (i : S512x1024.Idx) (q : dot_S512x64_S64x1024_S512x1024_1_0_0_1_n_n.contr.Idx) :
    (dot_S512x64_S64x1024_S512x1024_1_0_0_1_n_n.rhsIdx i q 0).val = (q ⟨0, by decide⟩).val :=
  dot_S512x64_S64x1024_S512x1024_1_0_0_1_n_n.rhsIdx_val_of_single rfl i q
theorem rhs_z2_1 (i : S512x1024.Idx) (q : dot_S512x64_S64x1024_S512x1024_1_0_0_1_n_n.contr.Idx) :
    (dot_S512x64_S64x1024_S512x1024_1_0_0_1_n_n.rhsIdx i q 1).val = (i 1).val := by
  unfold DotDims.rhsIdx
  rw [dif_neg (show ¬(1 : Fin S64x1024.rank) ∈ dot_S512x64_S64x1024_S512x1024_1_0_0_1_n_n.rhsBatch by decide), dif_pos (show (1 : Fin S64x1024.rank) ∈ dot_S512x64_S64x1024_S512x1024_1_0_0_1_n_n.rhsNonContracting by decide)]
  rfl

theorem matmul_z2_apply (h : FVec Ideal S512x64 .bf16) (w : FVec Ideal S1024x64 .bf16) (a : Fin 512) (j : Fin 1024) :
    FloatOps.matmul dot_S512x64_S64x1024_S512x1024_1_0_0_1_n_n none h
        (transpose S64x1024 [1, 0] w transposes_S1024x64_p1_0_S64x1024) (constant S512x1024 .f32 0x00000000#32) (ix2 a j)
      = ∑ q : Fin 64, h (ix2 a q) * w (ix2 j q) := by
  refine (Ideal.matmul_constant_zero_apply _ none h _ (ix2 a j)).trans ?_
  rw [← Equiv.sum_comp (contrEquiv1 dot_S512x64_S64x1024_S512x1024_1_0_0_1_n_n 64 rfl rfl).symm]
  refine Finset.sum_congr rfl fun k _ => ?_
  have hk := contrEquiv1_symm_val dot_S512x64_S64x1024_S512x1024_1_0_0_1_n_n 64 rfl rfl k
  have el : dot_S512x64_S64x1024_S512x1024_1_0_0_1_n_n.lhsIdx (ix2 a j) ((contrEquiv1 dot_S512x64_S64x1024_S512x1024_1_0_0_1_n_n 64 rfl rfl).symm k) = ix2 a k := funext fun c => Fin.ext (by
    match c with
    | ⟨0, _⟩ => exact lhs_z2_0 _ _
    | ⟨1, _⟩ => exact (lhs_z2_1 _ _).trans hk)
  have er : dot_S512x64_S64x1024_S512x1024_1_0_0_1_n_n.rhsIdx (ix2 a j) ((contrEquiv1 dot_S512x64_S64x1024_S512x1024_1_0_0_1_n_n 64 rfl rfl).symm k) = ix2 k j := funext fun c => Fin.ext (by
    match c with
    | ⟨0, _⟩ => exact (rhs_z2_0 _ _).trans hk
    | ⟨1, _⟩ => exact rhs_z2_1 _ _)
  rw [el, er, transpose_ix2_apply]

theorem z2_apply (i : grid2.Coords) (h : Vec Ideal S512x64 .bf16) (w : Vec Ideal S1024x64 .bf16) (a : Fin 512) (j : Fin 1024) :
    k2_pay8 i h w (ix2 a j)
      = if (i 1).val * 1024 + j.val < 10257 then ∑ q : Fin 64, h (ix2 a q) * w (ix2 j q) else ⊥ := by
  have hi : (i 1).val < 11 := (i 1).isLt
  have hj := j.isLt
  unfold k2_pay8
  simp only [shapeCast_self]
  refine (select_apply _ _ _ (ix2 a j)).trans ?_
  have hc : cmpi .slt (k2_pay7 i) (broadcast S512x1024 10257#32) (ix2 a j)
      = BitVec.ofBool (decide ((i 1).val * 1024 + j.val < 10257)) := by
    show BitVec.ofBool ((k2_pay7 i (ix2 a j)).slt (BitVec.ofNat 32 10257)) = _
    rw [col2_apply, T2.slt_ofNat_small _ _ (by omega) (by norm_num)]
  rw [hc, T2.select_ofBool]
  refine (if_congr (by simp) (matmul_z2_apply h w a j) T2.neg_big_bot)

theorem keep2_apply {α : Type} (x : S512.Idx → α) (a : Fin 512) (u : Fin 1) :
    shapeCast S512x1 x shapeCasts_S512_S512x1 (ix2 a u) = x (ix1 a) :=
  shapeCast_apply x _ _ _ (by
    rw [Shape.rowMajor_val_one, Shape.rowMajor_val_two]
    show a.val = a.val * 1 + u.val
    omega)

theorem bcol2_apply {α : Type} (v : S512x1.Idx → α) (a : Fin 512) (j : Fin 1024) :
    broadcastTo S512x1024 v broadcasts_S512x1_S512x1024 (ix2 a j) = v (ix2 a 0) := by
  refine broadcastTo_apply v _ (ix2 a j) (ix2 a 0) fun ax => ?_
  match ax with
  | ⟨0, _⟩ => rfl
  | ⟨1, _⟩ => rfl

theorem lift2_row (a : Fin 512) (k : Fin 1024) : reduces_S512x1024_S512.lift (ix1 a) k = ix2 a k :=
  funext fun c => Fin.ext (match c with | ⟨0, _⟩ => rfl | ⟨1, _⟩ => rfl)

theorem max2_apply (i : grid2.Coords) (h : Vec Ideal S512x64 .bf16) (w : Vec Ideal S1024x64 .bf16)
    (pm : Vec Ideal S512x1 .f32) (a : Fin 512) :
    k2_pay9 i h w pm (ix2 a 0)
      = max (pm (ix2 a 0)) (Finset.univ.fold max ⊥ (fun j : Fin 1024 => k2_pay8 i h w (ix2 a j))) := by
  unfold k2_pay9
  refine (maximumf_apply _ _ (ix2 a 0)).trans ?_
  refine congrArg (max (pm (ix2 a 0))) ?_
  refine (keep2_apply _ a 0).trans ?_
  refine (Ideal.multiReduction_maximumf_single (k2_pay8 i h w) _ reduces_S512x1024_S512 (.inl rfl) rfl (ix1 a)).trans ?_
  have e : (k2_pay8 i h w ∘ reduces_S512x1024_S512.lift (ix1 a)) = fun j : Fin 1024 => k2_pay8 i h w (ix2 a j) :=
    funext fun k => congrArg (k2_pay8 i h w) (lift2_row a k)
  rw [e]
  exact congrArg (fun b => Finset.univ.fold max b (fun j : Fin 1024 => k2_pay8 i h w (ix2 a j))) T2.ofBits_neg_inf_f32

theorem sum2_apply (i : grid2.Coords) (h : Vec Ideal S512x64 .bf16) (w : Vec Ideal S1024x64 .bf16)
    (pm ps : Vec Ideal S512x1 .f32) (a : Fin 512) :
    k2_pay10 i h w pm pm ps (ix2 a 0)
      = ps (ix2 a 0) * Ideal.exp (pm (ix2 a 0) - k2_pay9 i h w pm (ix2 a 0))
        + ∑ j : Fin 1024, Ideal.exp (k2_pay8 i h w (ix2 a j) - k2_pay9 i h w pm (ix2 a 0)) := by
  unfold k2_pay10
  simp only [shapeCast_self]
  refine (addf_apply _ _ (ix2 a 0)).trans ?_
  refine congrArg (ps (ix2 a 0) * Ideal.exp (pm (ix2 a 0) - k2_pay9 i h w pm (ix2 a 0)) + ·) ?_
  refine (keep2_apply _ a 0).trans ?_
  refine (Ideal.multiReduction_add_single _ _ reduces_S512x1024_S512 (.inl rfl) rfl (ix1 a)).trans ?_
  refine Finset.sum_congr rfl fun (k : Fin 1024) _ => ?_
  rw [lift2_row]
  show Ideal.exp (k2_pay8 i h w (ix2 a k) - broadcastTo S512x1024 (k2_pay9 i h w pm) broadcasts_S512x1_S512x1024 (ix2 a k)) = _
  rw [bcol2_apply]

theorem gat2_apply (i : grid2.Coords) (h : Vec Ideal S512x64 .bf16) (w : Vec Ideal S1024x64 .bf16)
    (tg : Vec Ideal S512x1 .i32) (pg : Vec Ideal S512x1 .f32) (a : Fin 512) :
    k2_pay2 (k2_pay7 i) (k2_pay8 i h w) tg pg (ix2 a 0)
      = pg (ix2 a 0) + ∑ j : Fin 1024,
          if BitVec.ofNat 32 ((i 1).val * 1024 + j.val) = tg (ix2 a 0) then k2_pay8 i h w (ix2 a j) else 0 := by
  unfold k2_pay2
  simp only [shapeCast_self]
  refine (addf_apply _ _ (ix2 a 0)).trans ?_
  refine congrArg (pg (ix2 a 0) + ·) ?_
  refine (keep2_apply _ a 0).trans ?_
  refine (Ideal.multiReduction_add_single _ _ reduces_S512x1024_S512 (.inl rfl) rfl (ix1 a)).trans ?_
  refine Finset.sum_congr rfl fun (k : Fin 1024) _ => ?_
  rw [lift2_row]
  show Scalar.select (IntOp.cmpi .eq (k2_pay7 i (ix2 a k)) (broadcastTo S512x1024 tg broadcasts_S512x1_S512x1024 (ix2 a k)))
      (k2_pay8 i h w (ix2 a k)) (Ideal.ofBits .f32 0x00000000#32) = _
  rw [bcol2_apply, col2_apply, Ideal.ofBits_zero_f32, T2.select_cmpi_eq]

theorem pay2_step (i : grid2.Coords) (h : Vec Ideal S512x64 .bf16) (w : Vec Ideal S1024x64 .bf16) (tg : Vec Ideal S512x1 .i32)
    (pm ps pg : Vec Ideal S512x1 .f32) (a : Fin 512) :
    (k2_pay9 i h w pm (ix2 a 0), k2_pay10 i h w pm pm ps (ix2 a 0), k2_pay2 (k2_pay7 i) (k2_pay8 i h w) tg pg (ix2 a 0))
      = Cert.Math.osStep (fun j : Fin 1024 => if (i 1).val * 1024 + j.val < 10257 then ∑ q : Fin 64, h (ix2 a q) * w (ix2 j q) else ⊥)
          (fun j : Fin 1024 => decide (BitVec.ofNat 32 ((i 1).val * 1024 + j.val) = tg (ix2 a 0)))
          (pm (ix2 a 0), ps (ix2 a 0), pg (ix2 a 0)) := by
  have hz : (fun j : Fin 1024 => k2_pay8 i h w (ix2 a j))
      = fun j : Fin 1024 => if (i 1).val * 1024 + j.val < 10257 then ∑ q : Fin 64, h (ix2 a q) * w (ix2 j q) else ⊥ :=
    funext fun j => z2_apply i h w a j
  rw [← hz]
  unfold Cert.Math.osStep
  refine Prod.ext ?_ (Prod.ext ?_ ?_)
  · exact max2_apply i h w pm a
  · exact (sum2_apply i h w pm ps a).trans (by rw [max2_apply i h w pm a])
  · refine (gat2_apply i h w tg pg a).trans ?_
    simp only [decide_eq_true_eq]

end Cert.KernelIdeal.Hand

end
-- ==== Proof.KI.Blk2.lean ====
import proofs.«402100_j83614423319285_2_alg».proof.Proof.Gen.KernelIdeal.Points
import Idealize.ShloMosaic.Lib.Pipeline.Value
import Idealize.ShloMosaic.Lib.ValueIdx

set_option maxRecDepth 16384

noncomputable section

namespace Cert.KernelIdeal.Hand

open Idealize.ShloMosaic Idealize.ShloMosaic.ValueIdx Idealize.SL.Sem
open Cert.KernelIdeal Cert.KernelIdeal.Gen

variable {F : FTy → Type} [FloatOps F] [Named F]

theorem coords2_0 : ∀ t : Fin cfg2.N, ((grid2.coords t) 0).val = t.val / 11 :=
  (by decide +kernel : ∀ t : Fin grid2.N, _)

theorem coords2_1 : ∀ t : Fin cfg2.N, ((grid2.coords t) 1).val = t.val % 11 :=
  (by decide +kernel : ∀ t : Fin grid2.N, _)

theorem gridN2 : cfg2.N = 88 := by decide

theorem idx_facts2 : ∀ t : Fin cfg2.N, win2_0.index t (0 : Fin 2) = t.val / 11 ∧ win2_0.index t (1 : Fin 2) = 0
    ∧ win2_1.index t (0 : Fin 2) = 0 ∧ win2_1.index t (1 : Fin 2) = 0
    ∧ win2_2.index t (0 : Fin 2) = t.val % 11 ∧ win2_2.index t (1 : Fin 2) = 0
    ∧ win2_3.index t (0 : Fin 2) = t.val / 11 ∧ win2_3.index t (1 : Fin 2) = 0
    ∧ win2_4.index t (0 : Fin 2) = t.val / 11 ∧ win2_4.index t (1 : Fin 2) = 0
    ∧ win2_5.index t (0 : Fin 2) = t.val / 11 ∧ win2_5.index t (1 : Fin 2) = 0
    ∧ win2_6.index t (0 : Fin 2) = t.val / 11 ∧ win2_6.index t (1 : Fin 2) = 0 :=
  (by decide +kernel : ∀ t : Fin grid2.N, _)

theorem blk2_0 (A : S4096x1024.Idx → Elt F .bf16) (t : Fin cfg2.N) (a : Fin 512) (k : Fin 1024) :
    ((cfg2.win 0).blk t).view.read (Elt F) A (ix2 a k) = A (ix2 ⟨t.val / 11 * 512 + a.val, by have := t.isLt; have hN : cfg2.N = 88 := gridN2; omega⟩ k) := by
  have e0 : win2_0.index t (0 : Fin 2) = t.val / 11 := (idx_facts2 t).1
  have e1 : win2_0.index t (1 : Fin 2) = 0 := (idx_facts2 t).2.1
  show A (((cfg2.win 0).blk t).view.emb (ix2 a k)) = A _
  refine congrArg A (funext fun d => Fin.ext ?_)
  match d with
  | ⟨0, _⟩ => show win2_0.index t (0 : Fin 2) * 512 + 1 * a.val = t.val / 11 * 512 + a.val; omega
  | ⟨1, _⟩ => show win2_0.index t (1 : Fin 2) * 1024 + 1 * k.val = k.val; omega

theorem blk2_1 (A : S64x1024.Idx → Elt F .bf16) (t : Fin cfg2.N) (a : Fin 64) (k : Fin 1024) :
    ((cfg2.win 1).blk t).view.read (Elt F) A (ix2 a k) = A (ix2 a k) := by
  have e0 : win2_1.index t (0 : Fin 2) = 0 := (idx_facts2 t).2.2.1
  have e1 : win2_1.index t (1 : Fin 2) = 0 := (idx_facts2 t).2.2.2.1
  show A (((cfg2.win 1).blk t).view.emb (ix2 a k)) = A _
  refine congrArg A (funext fun d => Fin.ext ?_)
  match d with
  | ⟨0, _⟩ => show win2_1.index t (0 : Fin 2) * 64 + 1 * a.val = a.val; omega
  | ⟨1, _⟩ => show win2_1.index t (1 : Fin 2) * 1024 + 1 * k.val = k.val; omega

theorem blk2_2 (A : S11264x64.Idx → Elt F .bf16) (t : Fin cfg2.N) (a : Fin 1024) (k : Fin 64) :
    ((cfg2.win 2).blk t).view.read (Elt F) A (ix2 a k) = A (ix2 ⟨t.val % 11 * 1024 + a.val, by have := t.isLt; have hN : cfg2.N = 88 := gridN2; omega⟩ k) := by
  have e0 : win2_2.index t (0 : Fin 2) = t.val % 11 := (idx_facts2 t).2.2.2.2.1
  have e1 : win2_2.index t (1 : Fin 2) = 0 := (idx_facts2 t).2.2.2.2.2.1
  show A (((cfg2.win 2).blk t).view.emb (ix2 a k)) = A _
  refine congrArg A (funext fun d => Fin.ext ?_)
  match d with
  | ⟨0, _⟩ => show win2_2.index t (0 : Fin 2) * 1024 + 1 * a.val = t.val % 11 * 1024 + a.val; omega
  | ⟨1, _⟩ => show win2_2.index t (1 : Fin 2) * 64 + 1 * k.val = k.val; omega

theorem blk2_3 (A : S4096x1.Idx → Elt F .i32) (t : Fin cfg2.N) (a : Fin 512) :
    ((cfg2.win 3).blk t).view.read (Elt F) A (ix2 a (0 : Fin 1)) = A (ix2 ⟨t.val / 11 * 512 + a.val, by have := t.isLt; have hN : cfg2.N = 88 := gridN2; omega⟩ (0 : Fin 1)) := by
  have e0 : win2_3.index t (0 : Fin 2) = t.val / 11 := (idx_facts2 t).2.2.2.2.2.2.1
  have e1 : win2_3.index t (1 : Fin 2) = 0 := (idx_facts2 t).2.2.2.2.2.2.2.1
  show A (((cfg2.win 3).blk t).view.emb (ix2 a (0 : Fin 1))) = A _
  refine congrArg A (funext fun d => Fin.ext ?_)
  match d with
  | ⟨0, _⟩ => show win2_3.index t (0 : Fin 2) * 512 + 1 * a.val = t.val / 11 * 512 + a.val; omega
  | ⟨1, _⟩ => show win2_3.index t (1 : Fin 2) * 1 + 1 * (0 : Fin 1).val = (0 : Fin 1).val; omega

theorem blk2_4 (A : S4096x1.Idx → Elt F .f32) (t : Fin cfg2.N) (a : Fin 512) :
    ((cfg2.win 4).blk t).view.read (Elt F) A (ix2 a (0 : Fin 1)) = A (ix2 ⟨t.val / 11 * 512 + a.val, by have := t.isLt; have hN : cfg2.N = 88 := gridN2; omega⟩ (0 : Fin 1)) := by
  have e0 : win2_4.index t (0 : Fin 2) = t.val / 11 := (idx_facts2 t).2.2.2.2.2.2.2.2.1
  have e1 : win2_4.index t (1 : Fin 2) = 0 := (idx_facts2 t).2.2.2.2.2.2.2.2.2.1
  show A (((cfg2.win 4).blk t).view.emb (ix2 a (0 : Fin 1))) = A _
  refine congrArg A (funext fun d => Fin.ext ?_)
  match d with
  | ⟨0, _⟩ => show win2_4.index t (0 : Fin 2) * 512 + 1 * a.val = t.val / 11 * 512 + a.val; omega
  | ⟨1, _⟩ => show win2_4.index t (1 : Fin 2) * 1 + 1 * (0 : Fin 1).val = (0 : Fin 1).val; omega

theorem blk2_5 (A : S4096x1.Idx → Elt F .f32) (t : Fin cfg2.N) (a : Fin 512) :
    ((cfg2.win 5).blk t).view.read (Elt F) A (ix2 a (0 : Fin 1)) = A (ix2 ⟨t.val / 11 * 512 + a.val, by have := t.isLt; have hN : cfg2.N = 88 := gridN2; omega⟩ (0 : Fin 1)) := by
  have e0 : win2_5.index t (0 : Fin 2) = t.val / 11 := (idx_facts2 t).2.2.2.2.2.2.2.2.2.2.1
  have e1 : win2_5.index t (1 : Fin 2) = 0 := (idx_facts2 t).2.2.2.2.2.2.2.2.2.2.2.1
  show A (((cfg2.win 5).blk t).view.emb (ix2 a (0 : Fin 1))) = A _
  refine congrArg A (funext fun d => Fin.ext ?_)
  match d with
  | ⟨0, _⟩ => show win2_5.index t (0 : Fin 2) * 512 + 1 * a.val = t.val / 11 * 512 + a.val; omega
  | ⟨1, _⟩ => show win2_5.index t (1 : Fin 2) * 1 + 1 * (0 : Fin 1).val = (0 : Fin 1).val; omega

theorem blk2_6 (A : S4096x1.Idx → Elt F .f32) (t : Fin cfg2.N) (a : Fin 512) :
    ((cfg2.win 6).blk t).view.read (Elt F) A (ix2 a (0 : Fin 1)) = A (ix2 ⟨t.val / 11 * 512 + a.val, by have := t.isLt; have hN : cfg2.N = 88 := gridN2; omega⟩ (0 : Fin 1)) := by
  have e0 : win2_6.index t (0 : Fin 2) = t.val / 11 := (idx_facts2 t).2.2.2.2.2.2.2.2.2.2.2.2.1
  have e1 : win2_6.index t (1 : Fin 2) = 0 := (idx_facts2 t).2.2.2.2.2.2.2.2.2.2.2.2.2
  show A (((cfg2.win 6).blk t).view.emb (ix2 a (0 : Fin 1))) = A _
  refine congrArg A (funext fun d => Fin.ext ?_)
  match d with
  | ⟨0, _⟩ => show win2_6.index t (0 : Fin 2) * 512 + 1 * a.val = t.val / 11 * 512 + a.val; omega
  | ⟨1, _⟩ => show win2_6.index t (1 : Fin 2) * 1 + 1 * (0 : Fin 1).val = (0 : Fin 1).val; omega

theorem mem_blk2_4 (t : Fin cfg2.N) (i : S4096x1.Idx) :
    i ∈ ((cfg2.win 4).blk t).view.set ↔ ∀ a : Fin 2, win2_4.index t a * S512x1.size a ≤ (i a).val ∧ (i a).val < win2_4.index t a * S512x1.size a + S512x1.size a := by
  show i ∈ ((View.whole main_v33_0).slice (win2_4.rect t)).set ↔ _
  rw [View.set_slice_whole, Rect.mem_set_unit]
  exact Iff.rfl

theorem cover2_4 (i : S4096x1.Idx) : ∃ t : Fin cfg2.N, (cfg2.win 4).flush t = true ∧ i ∈ ((cfg2.win 4).blk t).view.set := by
  have hi0 : (i 0).val < 4096 := (i 0).isLt
  have hi1 : (i 1).val < 1 := (i 1).isLt
  have hN : cfg2.N = 88 := gridN2
  let t : Fin cfg2.N := ⟨(i 0).val / 512 * 11 + 10, by omega⟩
  have ht : t.val = (i 0).val / 512 * 11 + 10 := rfl
  have e0 : win2_4.index t (0 : Fin 2) = t.val / 11 := (idx_facts2 t).2.2.2.2.2.2.2.2.1
  have e1 : win2_4.index t (1 : Fin 2) = 0 := (idx_facts2 t).2.2.2.2.2.2.2.2.2.1
  refine ⟨t, (flush2_4 t).2 (by omega), ?_⟩
  rw [mem_blk2_4]
  intro a
  match a with
  | ⟨0, _⟩ => show win2_4.index t (0 : Fin 2) * 512 ≤ (i 0).val ∧ (i 0).val < win2_4.index t (0 : Fin 2) * 512 + 512; omega
  | ⟨1, _⟩ => show win2_4.index t (1 : Fin 2) * 1 ≤ (i 1).val ∧ (i 1).val < win2_4.index t (1 : Fin 2) * 1 + 1; omega

theorem mem_blk2_5 (t : Fin cfg2.N) (i : S4096x1.Idx) :
    i ∈ ((cfg2.win 5).blk t).view.set ↔ ∀ a : Fin 2, win2_5.index t a * S512x1.size a ≤ (i a).val ∧ (i a).val < win2_5.index t a * S512x1.size a + S512x1.size a := by
  show i ∈ ((View.whole main_v33_1).slice (win2_5.rect t)).set ↔ _
  rw [View.set_slice_whole, Rect.mem_set_unit]
  exact Iff.rfl

theorem cover2_5 (i : S4096x1.Idx) : ∃ t : Fin cfg2.N, (cfg2.win 5).flush t = true ∧ i ∈ ((cfg2.win 5).blk t).view.set := by
  have hi0 : (i 0).val < 4096 := (i 0).isLt
  have hi1 : (i 1).val < 1 := (i 1).isLt
  have hN : cfg2.N = 88 := gridN2
  let t : Fin cfg2.N := ⟨(i 0).val / 512 * 11 + 10, by omega⟩
  have ht : t.val = (i 0).val / 512 * 11 + 10 := rfl
  have e0 : win2_5.index t (0 : Fin 2) = t.val / 11 := (idx_facts2 t).2.2.2.2.2.2.2.2.2.2.1
  have e1 : win2_5.index t (1 : Fin 2) = 0 := (idx_facts2 t).2.2.2.2.2.2.2.2.2.2.2.1
  refine ⟨t, (flush2_5 t).2 (by omega), ?_⟩
  rw [mem_blk2_5]
  intro a
  match a with
  | ⟨0, _⟩ => show win2_5.index t (0 : Fin 2) * 512 ≤ (i 0).val ∧ (i 0).val < win2_5.index t (0 : Fin 2) * 512 + 512; omega
  | ⟨1, _⟩ => show win2_5.index t (1 : Fin 2) * 1 ≤ (i 1).val ∧ (i 1).val < win2_5.index t (1 : Fin 2) * 1 + 1; omega

theorem mem_blk2_6 (t : Fin cfg2.N) (i : S4096x1.Idx) :
    i ∈ ((cfg2.win 6).blk t).view.set ↔ ∀ a : Fin 2, win2_6.index t a * S512x1.size a ≤ (i a).val ∧ (i a).val < win2_6.index t a * S512x1.size a + S512x1.size a := by
  show i ∈ ((View.whole main_v33_2).slice (win2_6.rect t)).set ↔ _
  rw [View.set_slice_whole, Rect.mem_set_unit]
  exact Iff.rfl

theorem cover2_6 (i : S4096x1.Idx) : ∃ t : Fin cfg2.N, (cfg2.win 6).flush t = true ∧ i ∈ ((cfg2.win 6).blk t).view.set := by
  have hi0 : (i 0).val < 4096 := (i 0).isLt
  have hi1 : (i 1).val < 1 := (i 1).isLt
  have hN : cfg2.N = 88 := gridN2
  let t : Fin cfg2.N := ⟨(i 0).val / 512 * 11 + 10, by omega⟩
  have ht : t.val = (i 0).val / 512 * 11 + 10 := rfl
  have e0 : win2_6.index t (0 : Fin 2) = t.val / 11 := (idx_facts2 t).2.2.2.2.2.2.2.2.2.2.2.2.1
  have e1 : win2_6.index t (1 : Fin 2) = 0 := (idx_facts2 t).2.2.2.2.2.2.2.2.2.2.2.2.2
  refine ⟨t, (flush2_6 t).2 (by omega), ?_⟩
  rw [mem_blk2_6]
  intro a
  match a with
  | ⟨0, _⟩ => show win2_6.index t (0 : Fin 2) * 512 ≤ (i 0).val ∧ (i 0).val < win2_6.index t (0 : Fin 2) * 512 + 512; omega
  | ⟨1, _⟩ => show win2_6.index t (1 : Fin 2) * 1 ≤ (i 1).val ∧ (i 1).val < win2_6.index t (1 : Fin 2) * 1 + 1; omega

end Cert.KernelIdeal.Hand

end
-- ==== Proof.KI.Val2.lean ====
import proofs.«402100_j83614423319285_2_alg».proof.Proof.KI.Body2
import proofs.«402100_j83614423319285_2_alg».proof.Proof.KI.Val2a
import proofs.«402100_j83614423319285_2_alg».proof.Proof.KI.Pay2
import proofs.«402100_j83614423319285_2_alg».proof.Proof.KI.Blk2
import proofs.«402100_j83614423319285_2_alg».proof.Proof.Math.Online
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.ValueIdx
open Idealize.SL.Sem
open Idealize.ShloMosaic.Pipeline (Dat)
open Cert.KernelIdeal Cert.KernelIdeal.Gen

variable (V : (c : Dev nD) → (b : Ref sig .tc) → Buf (Elt Ideal) ((c : Thread nD τ).loc b))

abbrev eX2 (c : Dev nD) : S4096x1024.Idx → EReal := V c main_v19

abbrev eP2 (c : Dev nD) : S64x1024.Idx → EReal := V c main_v24

abbrev eW2 (c : Dev nD) : S11264x64.Idx → EReal := V c main_v32

abbrev eT2 (c : Dev nD) : S4096x1.Idx → BitVec 32 := V c main_v18

abbrev oM2 (c : Dev nD) : S4096x1.Idx → EReal := (dat2 V c).arrAt 4 cfg2.N

abbrev oS2 (c : Dev nD) : S4096x1.Idx → EReal := (dat2 V c).arrAt 5 cfg2.N

abbrev oG2 (c : Dev nD) : S4096x1.Idx → EReal := (dat2 V c).arrAt 6 cfg2.N

def zTile2 (c : Dev nD) (r : Fin 4096) (cc : ℕ) (j : Fin 1024) : EReal :=
  if h : cc * 1024 + j.val < 10257 then
    ∑ q : Fin 64, (∑ k : Fin 1024, eX2 V c (ix2 r k) * eP2 V c (ix2 q k)) * eW2 V c (ix2 (⟨cc * 1024 + j.val, by omega⟩ : Fin 11264) q)
  else ⊥

def hitTile2 (c : Dev nD) (r : Fin 4096) (cc : ℕ) (j : Fin 1024) : Bool :=
  decide (BitVec.ofNat 32 (cc * 1024 + j.val) = eT2 V c (ix2 r (0 : Fin 1)))

def row2 (n : ℕ) (hn : n < cfg2.N) (a : Fin 512) : Fin 4096 :=
  ⟨n / 11 * 512 + a.val, by have hN : cfg2.N = 88 := gridN2; omega⟩

theorem projblk2_eq (c : Dev nD) (t : Fin cfg2.N) (a : Fin 512) (q : Fin 64) :
    k2_pay3 (F := Ideal) (iblk2 V c 0 t) (iblk2 V c 1 t) (ix2 a q)
      = ∑ k : Fin 1024, eX2 V c (ix2 (row2 t.val t.isLt a) k) * eP2 V c (ix2 q k) := by
  refine (pay2_proj (iblk2 V c 0 t) (iblk2 V c 1 t) a q).trans ?_
  refine Finset.sum_congr rfl fun k _ => ?_
  exact congr (congrArg HMul.hMul (blk2_0 (F := Ideal) (eX2 V c) t a k)) (blk2_1 (F := Ideal) (eP2 V c) t q k)

theorem zblk2_eq (c : Dev nD) (t : Fin cfg2.N) (a : Fin 512) (h : Vec Ideal S512x64 .bf16) (w : Vec Ideal S1024x64 .bf16)
    (hh : ∀ q : Fin 64, h (ix2 a q) = ∑ k : Fin 1024, eX2 V c (ix2 (row2 t.val t.isLt a) k) * eP2 V c (ix2 q k))
    (hw : w = iblk2 V c 2 t) :
    (fun j : Fin 1024 => if ((grid2.coords t) 1).val * 1024 + j.val < 10257
        then ∑ q : Fin 64, h (ix2 a q) * w (ix2 j q) else (⊥ : EReal))
      = zTile2 V c (row2 t.val t.isLt a) (t.val % 11) := by
  subst hw
  funext j
  unfold zTile2
  rw [coords2_1 t]
  by_cases hlt : t.val % 11 * 1024 + j.val < 10257
  · rw [if_pos hlt, dif_pos hlt]
    refine Finset.sum_congr rfl fun q _ => ?_
    exact congr (congrArg HMul.hMul (hh q)) (blk2_2 (F := Ideal) (eW2 V c) t j q)
  · rw [if_neg hlt, dif_neg hlt]

theorem hitblk2_eq (c : Dev nD) (t : Fin cfg2.N) (a : Fin 512) (tg : Vec Ideal S512x1 .i32) (htg : tg = iblk2 V c 3 t) :
    (fun j : Fin 1024 => decide (BitVec.ofNat 32 (((grid2.coords t) 1).val * 1024 + j.val) = tg (ix2 a (0 : Fin 1))))
      = hitTile2 V c (row2 t.val t.isLt a) (t.val % 11) := by
  subst htg
  funext j
  unfold hitTile2
  rw [coords2_1 t]
  exact congrArg (fun x => decide (BitVec.ofNat 32 (t.val % 11 * 1024 + j.val) = x)) (blk2_3 (F := Ideal) (eT2 V c) t a)

theorem step_eq2 (c : Dev nD) (t : Fin cfg2.N) (h : Vec Ideal S512x64 .bf16) (pm ps pg : Vec Ideal S512x1 .f32) (a : Fin 512)
    (hh : ∀ q : Fin 64, h (ix2 a q) = ∑ k : Fin 1024, eX2 V c (ix2 (row2 t.val t.isLt a) k) * eP2 V c (ix2 q k)) :
    (k2_pay1 (k2_pay9 (F := Ideal) (grid2.coords t) h (iblk2 V c 2 t) pm) (ix2 a (0 : Fin 1)),
     k2_pay10 (F := Ideal) (grid2.coords t) h (iblk2 V c 2 t) pm pm ps (ix2 a (0 : Fin 1)),
     k2_pay2 (F := Ideal) (k2_pay7 (grid2.coords t)) (k2_pay8 (F := Ideal) (grid2.coords t) h (iblk2 V c 2 t)) (iblk2 V c 3 t) pg (ix2 a (0 : Fin 1)))
      = Cert.Math.osStep (zTile2 V c (row2 t.val t.isLt a) (t.val % 11)) (hitTile2 V c (row2 t.val t.isLt a) (t.val % 11))
          (pm (ix2 a (0 : Fin 1)), ps (ix2 a (0 : Fin 1)), pg (ix2 a (0 : Fin 1))) := by
  rw [pay2_m]
  refine (pay2_step (grid2.coords t) h (iblk2 V c 2 t) (iblk2 V c 3 t) pm ps pg a).trans ?_
  exact congrArg₂ (fun z hi => Cert.Math.osStep z hi (pm (ix2 a (0 : Fin 1)), ps (ix2 a (0 : Fin 1)), pg (ix2 a (0 : Fin 1)))) (zblk2_eq V c t a h _ hh rfl) (hitblk2_eq V c t a _ rfl)

theorem inv2 (c : Dev nD) (n : ℕ) : ∀ (hn : n < cfg2.N) (a : Fin 512),
    (∀ q : Fin 64, (outsAt2 V c n hn).2.2.2.1 (ix2 a q) = ∑ k : Fin 1024, eX2 V c (ix2 (row2 n hn a) k) * eP2 V c (ix2 q k))
    ∧ ((outsAt2 V c n hn).2.2.2.2.1 (ix2 a (0 : Fin 1)), (outsAt2 V c n hn).2.2.2.2.2.1 (ix2 a (0 : Fin 1)), (outsAt2 V c n hn).2.2.2.2.2.2 (ix2 a (0 : Fin 1)))
        = Cert.Math.osFold (zTile2 V c (row2 n hn a)) (hitTile2 V c (row2 n hn a)) (n % 11 + 1) := by
  induction n using Nat.strong_induction_on with
  | _ n ih =>
    intro hn a
    have hN : cfg2.N = 88 := gridN2
    by_cases h0 : n % 11 = 0
    · rw [outsAt2_A V c ⟨n, hn⟩ h0]
      unfold ptA
      dsimp only
      rw [sout2_A_0_eq, sout2_A_1_eq, sout2_A_2_eq, sout2_A_3_eq]
      refine ⟨fun q => projblk2_eq V c ⟨n, hn⟩ a q, ?_⟩
      refine (step_eq2 V c ⟨n, hn⟩ _ (k2_pay4 (F := Ideal)) (k2_pay5 (F := Ideal)) (k2_pay6 (F := Ideal)) a (fun q => projblk2_eq V c ⟨n, hn⟩ a q)).trans ?_
      rw [pay2_reset]
      show Cert.Math.osStep (zTile2 V c (row2 n hn a) (n % 11)) (hitTile2 V c (row2 n hn a) (n % 11)) (⊥, 0, 0) = _
      rw [h0]
      rfl
    · have hn1 : n - 1 < cfg2.N := by omega
      have hr : row2 (n - 1) hn1 a = row2 n hn a := Fin.ext (by
        show (n - 1) / 11 * 512 + a.val = n / 11 * 512 + a.val
        have : (n - 1) / 11 = n / 11 := by omega
        rw [this])
      have he : (n - 1) % 11 + 1 = n % 11 := by omega
      obtain ⟨ihp, ihn⟩ := ih (n - 1) (by omega) hn1 a
      rw [hr] at ihp
      rw [hr, he] at ihn
      by_cases h1 : n % 11 = 10
      · rw [outsAt2_C V c ⟨n, hn⟩ h0 h1]
        unfold ptC
        dsimp only
        rw [sout2_C_1_eq, sout2_C_2_eq, sout2_C_3_eq]
        exact ⟨ihp, (step_eq2 V c ⟨n, hn⟩ _ _ _ _ a ihp).trans (congrArg (Cert.Math.osStep _ _) ihn)⟩
      · rw [outsAt2_B V c ⟨n, hn⟩ h0 h1]
        unfold ptB
        dsimp only
        rw [sout2_B_1_eq, sout2_B_2_eq, sout2_B_3_eq]
        exact ⟨ihp, (step_eq2 V c ⟨n, hn⟩ _ _ _ _ a ihp).trans (congrArg (Cert.Math.osStep _ _) ihn)⟩

theorem outC_eq2 (c : Dev nD) (t : Fin cfg2.N) (h0 : ¬t.val % 11 = 0) (h1 : t.val % 11 = 10) :
    (outsAt2 V c t.val t.isLt).1 = (outsAt2 V c t.val t.isLt).2.2.2.2.1
      ∧ (outsAt2 V c t.val t.isLt).2.1 = (outsAt2 V c t.val t.isLt).2.2.2.2.2.1
      ∧ (outsAt2 V c t.val t.isLt).2.2.1 = (outsAt2 V c t.val t.isLt).2.2.2.2.2.2 := by
  rw [outsAt2_C V c t h0 h1]
  unfold ptC
  dsimp only
  rw [out2_C_4_eq, out2_C_5_eq, out2_C_6_eq, sout2_C_1_eq, sout2_C_2_eq, sout2_C_3_eq]
  exact ⟨rfl, rfl, rfl⟩

def G2_4 (c : Dev nD) : S4096x1.Idx → EReal := fun i => (Cert.Math.osFold (zTile2 V c (i 0)) (hitTile2 V c (i 0)) 11).1
def G2_5 (c : Dev nD) : S4096x1.Idx → EReal := fun i => (Cert.Math.osFold (zTile2 V c (i 0)) (hitTile2 V c (i 0)) 11).2.1
def G2_6 (c : Dev nD) : S4096x1.Idx → EReal := fun i => (Cert.Math.osFold (zTile2 V c (i 0)) (hitTile2 V c (i 0)) 11).2.2

theorem eq_ix2_col2 (y : S512x1.Idx) : y = ix2 (n0 := 512) (n1 := 1) (y 0) (0 : Fin 1) := by
  funext d
  match d with
  | ⟨0, _⟩ => rfl
  | ⟨1, _⟩ => exact Fin.ext (by have h : (y 1).val < 1 := (y 1).isLt; show (y 1).val = 0; omega)

theorem flush2_core (c : Dev nD) (t : Fin cfg2.N) (h10 : t.val % 11 = 10) (a : Fin 512) :
    ((outsAt2 V c t.val t.isLt).1 (ix2 a (0 : Fin 1)), (outsAt2 V c t.val t.isLt).2.1 (ix2 a (0 : Fin 1)), (outsAt2 V c t.val t.isLt).2.2.1 (ix2 a (0 : Fin 1)))
      = Cert.Math.osFold (zTile2 V c (row2 t.val t.isLt a)) (hitTile2 V c (row2 t.val t.isLt a)) 11 := by
  obtain ⟨e4, e5, e6⟩ := outC_eq2 V c t (by omega) h10
  have h := (inv2 V c t.val t.isLt a).2
  rw [h10] at h
  rw [e4, e5, e6]
  exact h

theorem flushed2_4 (c : Dev nD) (t : Fin cfg2.N) (hf : (cfg2.win 4).flush t = true) :
    (dat2 V c).flushed 4 t = ((cfg2.win 4).blk t).view.read (Elt Ideal) (G2_4 V c) := by
  funext y
  obtain ⟨a, rfl⟩ : ∃ a, y = ix2 (n0 := 512) (n1 := 1) a (0 : Fin 1) := ⟨y 0, eq_ix2_col2 y⟩
  exact (congrArg (·.1) (flush2_core V c t ((flush2_4 t).mp hf) a)).trans (blk2_4 (F := Ideal) (G2_4 V c) t a).symm

theorem flushed2_5 (c : Dev nD) (t : Fin cfg2.N) (hf : (cfg2.win 5).flush t = true) :
    (dat2 V c).flushed 5 t = ((cfg2.win 5).blk t).view.read (Elt Ideal) (G2_5 V c) := by
  funext y
  obtain ⟨a, rfl⟩ : ∃ a, y = ix2 (n0 := 512) (n1 := 1) a (0 : Fin 1) := ⟨y 0, eq_ix2_col2 y⟩
  exact (congrArg (·.2.1) (flush2_core V c t ((flush2_5 t).mp hf) a)).trans (blk2_5 (F := Ideal) (G2_5 V c) t a).symm

theorem flushed2_6 (c : Dev nD) (t : Fin cfg2.N) (hf : (cfg2.win 6).flush t = true) :
    (dat2 V c).flushed 6 t = ((cfg2.win 6).blk t).view.read (Elt Ideal) (G2_6 V c) := by
  funext y
  obtain ⟨a, rfl⟩ : ∃ a, y = ix2 (n0 := 512) (n1 := 1) a (0 : Fin 1) := ⟨y 0, eq_ix2_col2 y⟩
  exact (congrArg (·.2.2) (flush2_core V c t ((flush2_6 t).mp hf) a)).trans (blk2_6 (F := Ideal) (G2_6 V c) t a).symm

theorem val2 (c : Dev nD) (r : Fin 4096) :
    (oM2 V c (ix2 r (0 : Fin 1)), oS2 V c (ix2 r (0 : Fin 1)), oG2 V c (ix2 r (0 : Fin 1)))
      = Cert.Math.osFold (zTile2 V c r) (hitTile2 V c r) 11 := by
  have e4 : (dat2 V c).arrAt 4 cfg2.N = G2_4 V c := (dat2 V c).arrAt_eq_of_cover 4 (G2_4 V c) (flushed2_4 V c) cover2_4
  have e5 : (dat2 V c).arrAt 5 cfg2.N = G2_5 V c := (dat2 V c).arrAt_eq_of_cover 5 (G2_5 V c) (flushed2_5 V c) cover2_5
  have e6 : (dat2 V c).arrAt 6 cfg2.N = G2_6 V c := (dat2 V c).arrAt_eq_of_cover 6 (G2_6 V c) (flushed2_6 V c) cover2_6
  exact Prod.ext (congrFun e4 (ix2 r (0 : Fin 1))) (Prod.ext (congrFun e5 (ix2 r (0 : Fin 1))) (congrFun e6 (ix2 r (0 : Fin 1))))

end Cert.KernelIdeal.Hand

end
-- ==== Proof.KI.HostPre1.lean ====
import proofs.«402100_j83614423319285_2_alg».proof.Proof.KI.HostPre0

set_option maxRecDepth 1192

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (outs : Gen.Outs (F := Ideal))

theorem v19_at11 (c : Dev nD) : Gen.V11 m outs c main_v19 = Gen.V8 m c main_v19 := by
  rw [Gen.V11_of m outs c main_v19 (by decide), Gen.V10_of m outs c main_v19 (by decide),
    Gen.V9_of m outs c main_v19 (by decide)]

theorem v19_apply11 (c : Dev nD) (r : Fin 4096) (k : Fin 1024) :
    (Gen.V11 m outs c main_v19 : FVec Ideal S4096x1024 .bf16) (ix2 r k) = argX m c (ix2 r k) := by
  rw [v19_at11]; exact v19_apply m c r k

theorem v22_eq (c : Dev nD) :
    (Gen.V11 m outs c main_v22 : FVec Ideal S256x1024 .bf16) = truncf .bf16 (argP1 m c) bitsLt_bf16_f32 := by
  rw [Gen.V11_of m outs c main_v22 (by decide), Gen.V10_of m outs c main_v22 (by decide),
    Gen.V9_of m outs c main_v22 (by decide), Gen.V8_of m c main_v22 (by decide)]
  dsimp only [Gen.V7, Gen.hostOps0_6]
  after_results

theorem v22_apply (c : Dev nD) (j : Fin 256) (k : Fin 1024) :
    (Gen.V11 m outs c main_v22 : FVec Ideal S256x1024 .bf16) (ix2 j k) = argP1 m c (ix2 j k) := by
  rw [v22_eq]; rfl

theorem v23_at9 (c : Dev nD) :
    (Gen.V9 m outs c main_v23 : FVec Ideal S20000x256 .bf16) = truncf .bf16 (argW1 m c) bitsLt_bf16_f32 := by
  rw [Gen.V9_of m outs c main_v23 (by decide), Gen.V8_of m c main_v23 (by decide)]
  dsimp only [Gen.V7, Gen.hostOps0_6]
  after_results

theorem v30_eq (c : Dev nD) :
    (Gen.V11 m outs c main_v30 : FVec Ideal S20480x256 .bf16)
      = pad S20480x256 ![0, 0] ![480, 0] ![0, 0] (truncf .bf16 (argW1 m c) bitsLt_bf16_f32 : FVec Ideal S20000x256 .bf16)
          (sitofp .bf16 (constantI S_ 32 0#32) : FVec Ideal S_ .bf16) pads_S20000x256_S20480x256_04800_000 h_S_ := by
  have e : (Gen.V11 m outs c main_v30 : FVec Ideal S20480x256 .bf16)
      = pad S20480x256 ![0, 0] ![480, 0] ![0, 0] (Gen.V9 m outs c main_v23 : FVec Ideal S20000x256 .bf16)
          (sitofp .bf16 (constantI S_ 32 0#32) : FVec Ideal S_ .bf16) pads_S20000x256_S20480x256_04800_000 h_S_ := by
    dsimp only [Gen.V11, Gen.V10, Gen.hostOps1_1, Gen.hostOps1]
    after_results
    rfl
  rw [e, v23_at9]

theorem v30_apply_lt (c : Dev nD) (r : Fin 20480) (k : Fin 256) (hr : r.val < 20000) :
    (Gen.V11 m outs c main_v30 : FVec Ideal S20480x256 .bf16) (ix2 r k) = argW1 m c (ix2 (⟨r.val, hr⟩ : Fin 20000) k) := by
  rw [v30_eq]
  refine (pad_apply_of_inside _ _ _ _ _ pads_S20000x256_S20480x256_04800_000 h_S_ (ix2 r k)
    (ix2 (⟨r.val, hr⟩ : Fin 20000) k) (fun a => ?_)).trans rfl
  match a with
  | ⟨0, _⟩ => show r.val = 0 + r.val * (0 + 1); omega
  | ⟨1, _⟩ => show k.val = 0 + k.val * (0 + 1); omega

theorem v30_apply_ge (c : Dev nD) (r : Fin 20480) (k : Fin 256) (hr : 20000 ≤ r.val) :
    (Gen.V11 m outs c main_v30 : FVec Ideal S20480x256 .bf16) (ix2 r k) = (0 : EReal) := by
  rw [v30_eq]
  refine Eq.trans (pad_apply_of_not_inside _ _ _ _ _ pads_S20000x256_S20480x256_04800_000 h_S_ (ix2 r k) (0 : Fin 2) ?_)
    ?_
  swap
  · exact sitofp_zero .bf16
  show ¬(0 ≤ r.val ∧ (r.val - 0) % (0 + 1) = 0 ∧ (r.val - 0) / (0 + 1) < 20000)
  omega

theorem v14_apply (c : Dev nD) (r : Fin 4096) :
    (Gen.V11 m outs c main_v14 : IVec S4096x1 32) (ix2 r (0 : Fin 1))
      = if Cert.Spec.mask1 (argT m c) r then argT m c (ix1 r) - 20000#32 else 0#32 := by
  rw [Gen.V11_of m outs c main_v14 (by decide), Gen.V10_of m outs c main_v14 (by decide),
    Gen.V9_of m outs c main_v14 (by decide), Gen.V8_of m c main_v14 (by decide), Gen.V7_of m c main_v14 (by decide),
    Gen.V6_of m c main_v14 (by decide)]
  have e : (Gen.V5 m c main_v14 : IVec S4096x1 32)
      = shapeCast S4096x1 (select
          (andi (cmpi .sge (argT m c) (broadcastInDim S4096 ![] bcast_S_S4096 (constantI S_ 32 20000#32)))
            (cmpi .slt (argT m c) (broadcastInDim S4096 ![] bcast_S_S4096 (constantI S_ 32 40000#32))))
          (subi (argT m c) (broadcastInDim S4096 ![] bcast_S_S4096 (constantI S_ 32 20000#32)))
          (broadcastInDim S4096 ![] bcast_S_S4096 (constantI S_ 32 0#32))) shapeCasts_S4096_S4096x1 := by
    dsimp only [Gen.V5, Gen.V4, Gen.V3, Gen.V2, Gen.V1, Gen.hostOps0_4, Gen.hostOps0_3, Gen.hostOps0_2, Gen.hostOps0_1,
      Gen.hostOps0]
    after_results_simp <;> rfl
  rw [e]
  refine (shapeCast_apply _ shapeCasts_S4096_S4096x1 (ix2 r (0 : Fin 1)) (ix1 r) ?_).trans
    ((select_mask1 (argT m c) r _ _).trans rfl)
  rw [Shape.rowMajor_val_one, Shape.rowMajor_val_two]
  show r.val = r.val * 1 + 0
  omega

end Cert.KernelIdeal.Hand

end
-- ==== Proof.KI.HostPre2.lean ====
import proofs.«402100_j83614423319285_2_alg».proof.Proof.KI.HostPre0

set_option maxRecDepth 1192

noncomputable section

open scoped BigOperators

namespace Cert.KernelIdeal.Hand

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (outs : Gen.Outs (F := Ideal))

theorem v19_at14 (c : Dev nD) : Gen.V14 m outs c main_v19 = Gen.V8 m c main_v19 := by
  rw [Gen.V14_of m outs c main_v19 (by decide), Gen.V13_of m outs c main_v19 (by decide),
    Gen.V12_of m outs c main_v19 (by decide), Gen.V11_of m outs c main_v19 (by decide),
    Gen.V10_of m outs c main_v19 (by decide), Gen.V9_of m outs c main_v19 (by decide)]

theorem v19_apply14 (c : Dev nD) (r : Fin 4096) (k : Fin 1024) :
    (Gen.V14 m outs c main_v19 : FVec Ideal S4096x1024 .bf16) (ix2 r k) = argX m c (ix2 r k) := by
  rw [v19_at14]; exact v19_apply m c r k

theorem v24_eq (c : Dev nD) :
    (Gen.V14 m outs c main_v24 : FVec Ideal S64x1024 .bf16) = truncf .bf16 (argP2 m c) bitsLt_bf16_f32 := by
  rw [Gen.V14_of m outs c main_v24 (by decide), Gen.V13_of m outs c main_v24 (by decide),
    Gen.V12_of m outs c main_v24 (by decide), Gen.V11_of m outs c main_v24 (by decide),
    Gen.V10_of m outs c main_v24 (by decide), Gen.V9_of m outs c main_v24 (by decide),
    Gen.V8_of m c main_v24 (by decide)]
  dsimp only [Gen.V7, Gen.hostOps0_6]
  after_results

theorem v24_apply (c : Dev nD) (j : Fin 64) (k : Fin 1024) :
    (Gen.V14 m outs c main_v24 : FVec Ideal S64x1024 .bf16) (ix2 j k) = argP2 m c (ix2 j k) := by
  rw [v24_eq]; rfl

theorem v25_at12 (c : Dev nD) :
    (Gen.V12 m outs c main_v25 : FVec Ideal S10257x64 .bf16) = truncf .bf16 (argW2 m c) bitsLt_bf16_f32 := by
  rw [Gen.V12_of m outs c main_v25 (by decide), Gen.V11_of m outs c main_v25 (by decide),
    Gen.V10_of m outs c main_v25 (by decide), Gen.V9_of m outs c main_v25 (by decide),
    Gen.V8_of m c main_v25 (by decide)]
  dsimp only [Gen.V7, Gen.hostOps0_6]
  after_results

theorem v32_eq (c : Dev nD) :
    (Gen.V14 m outs c main_v32 : FVec Ideal S11264x64 .bf16)
      = pad S11264x64 ![0, 0] ![1007, 0] ![0, 0] (truncf .bf16 (argW2 m c) bitsLt_bf16_f32 : FVec Ideal S10257x64 .bf16)
          (sitofp .bf16 (constantI S_ 32 0#32) : FVec Ideal S_ .bf16) pads_S10257x64_S11264x64_010070_000 h_S_ := by
  have e : (Gen.V14 m outs c main_v32 : FVec Ideal S11264x64 .bf16)
      = pad S11264x64 ![0, 0] ![1007, 0] ![0, 0] (Gen.V12 m outs c main_v25 : FVec Ideal S10257x64 .bf16)
          (sitofp .bf16 (constantI S_ 32 0#32) : FVec Ideal S_ .bf16) pads_S10257x64_S11264x64_010070_000 h_S_ := by
    dsimp only [Gen.V14, Gen.V13, Gen.hostOps2_1, Gen.hostOps2]
    after_results
    rfl
  rw [e, v25_at12]

theorem v32_apply_lt (c : Dev nD) (r : Fin 11264) (k : Fin 64) (hr : r.val < 10257) :
    (Gen.V14 m outs c main_v32 : FVec Ideal S11264x64 .bf16) (ix2 r k) = argW2 m c (ix2 (⟨r.val, hr⟩ : Fin 10257) k) := by
  rw [v32_eq]
  refine (pad_apply_of_inside _ _ _ _ _ pads_S10257x64_S11264x64_010070_000 h_S_ (ix2 r k)
    (ix2 (⟨r.val, hr⟩ : Fin 10257) k) (fun a => ?_)).trans rfl
  match a with
  | ⟨0, _⟩ => show r.val = 0 + r.val * (0 + 1); omega
  | ⟨1, _⟩ => show k.val = 0 + k.val * (0 + 1); omega

theorem v32_apply_ge (c : Dev nD) (r : Fin 11264) (k : Fin 64) (hr : 10257 ≤ r.val) :
    (Gen.V14 m outs c main_v32 : FVec Ideal S11264x64 .bf16) (ix2 r k) = (0 : EReal) := by
  rw [v32_eq]
  refine Eq.trans (pad_apply_of_not_inside _ _ _ _ _ pads_S10257x64_S11264x64_010070_000 h_S_ (ix2 r k) (0 : Fin 2) ?_)
    ?_
  swap
  · exact sitofp_zero .bf16
  show ¬(0 ≤ r.val ∧ (r.val - 0) % (0 + 1) = 0 ∧ (r.val - 0) / (0 + 1) < 10257)
  omega

theorem v18_apply (c : Dev nD) (r : Fin 4096) :
    (Gen.V14 m outs c main_v18 : IVec S4096x1 32) (ix2 r (0 : Fin 1))
      = if Cert.Spec.mask2 (argT m c) r then argT m c (ix1 r) - 40000#32 else 0#32 := by
  rw [Gen.V14_of m outs c main_v18 (by decide), Gen.V13_of m outs c main_v18 (by decide),
    Gen.V12_of m outs c main_v18 (by decide), Gen.V11_of m outs c main_v18 (by decide),
    Gen.V10_of m outs c main_v18 (by decide), Gen.V9_of m outs c main_v18 (by decide),
    Gen.V8_of m c main_v18 (by decide)]
  have e : (Gen.V7 m c main_v18 : IVec S4096x1 32)
      = shapeCast S4096x1 (select
          (cmpi .sge (argT m c) (broadcastInDim S4096 ![] bcast_S_S4096 (constantI S_ 32 40000#32)))
          (subi (argT m c) (broadcastInDim S4096 ![] bcast_S_S4096 (constantI S_ 32 40000#32)))
          (broadcastInDim S4096 ![] bcast_S_S4096 (constantI S_ 32 0#32))) shapeCasts_S4096_S4096x1 := by
    dsimp only [Gen.V7, Gen.V6, Gen.V5, Gen.V4, Gen.V3, Gen.V2, Gen.V1, Gen.hostOps0_6, Gen.hostOps0_5, Gen.hostOps0_4,
      Gen.hostOps0_3, Gen.hostOps0_2, Gen.hostOps0_1, Gen.hostOps0]
    after_results_simp <;> rfl
  rw [e]
  refine (shapeCast_apply _ shapeCasts_S4096_S4096x1 (ix2 r (0 : Fin 1)) (ix1 r) ?_).trans
    ((select_mask2 (argT m c) r _ _).trans rfl)
  rw [Shape.rowMajor_val_one, Shape.rowMajor_val_two]
  show r.val = r.val * 1 + 0
  omega

end Cert.KernelIdeal.Hand

end
-- ==== Proof.KI.ValBridge.lean ====
import proofs.«402100_j83614423319285_2_alg».proof.Proof.KI.Val0
import proofs.«402100_j83614423319285_2_alg».proof.Proof.KI.Val1
import proofs.«402100_j83614423319285_2_alg».proof.Proof.KI.Val2
import proofs.«402100_j83614423319285_2_alg».proof.Proof.KI.Outs
import proofs.«402100_j83614423319285_2_alg».proof.Proof.KI.HostPre0
import proofs.«402100_j83614423319285_2_alg».proof.Proof.KI.HostPre1
import proofs.«402100_j83614423319285_2_alg».proof.Proof.KI.HostPre2
import proofs.«402100_j83614423319285_2_alg».proof.Proof.TailSpec

set_option maxRecDepth 16384

noncomputable section

open scoped BigOperators

namespace Cert.KernelIdeal.Hand

open Idealize.ShloMosaic Idealize.ShloMosaic.TcCoe Idealize.ShloMosaic.ValueIdx
open Idealize.SL.Sem
open Cert.KernelIdeal Cert.KernelIdeal.Gen

variable (m : (ℓ : Loc nD τ sig) → Buf (Elt Ideal) ℓ)

theorem zTile0_eq (c : Dev nD) (r : Fin 4096) :
    zTile0 (Vr0 m) c r = Cert.Spec.tileOf (n := 2048) (Cert.Spec.zHead (argX m c) (argWh m c) r) := by
  funext cc j
  unfold zTile0 Cert.Spec.tileOf
  by_cases h : cc * 2048 + j.val < 20000
  · rw [dif_pos h, dif_pos h]
    unfold Cert.Spec.zHead Cert.Spec.dotT
    refine Finset.sum_congr rfl fun k _ => ?_
    exact congrArg₂ (· * ·) (v19_apply m c r k) (v28_apply_lt m c _ k h)
  · rw [dif_neg h, dif_neg h]

theorem hitTile0_eq (c : Dev nD) (r : Fin 4096) :
    hitTile0 (Vr0 m) c r = Cert.Spec.hitOf 2048 (Cert.Spec.tg0 (argT m c) r) := by
  funext cc j
  unfold hitTile0 Cert.Spec.hitOf Cert.Spec.tg0
  exact congrArg (fun w => decide (BitVec.ofNat 32 (cc * 2048 + j.val) = w)) (v10_apply m c r)

theorem triple0 (c : Dev nD) (r : Fin 4096) :
    (outs m 9 main_v29_0 c (ix2 r (0 : Fin 1)), outs m 9 main_v29_1 c (ix2 r (0 : Fin 1)), outs m 9 main_v29_2 c (ix2 r (0 : Fin 1)))
      = Cert.Math.osFold (Cert.Spec.tileOf (n := 2048) (Cert.Spec.zHead (argX m c) (argWh m c) r))
          (Cert.Spec.hitOf 2048 (Cert.Spec.tg0 (argT m c) r)) 10 := by
  rw [outs_9_0, outs_9_1, outs_9_2, ← zTile0_eq, ← hitTile0_eq]
  exact val0 (Vr0 m) c r

theorem zTile1_eq (c : Dev nD) (r : Fin 4096) :
    zTile1 (Vr1 m) c r = Cert.Spec.tileOf (n := 2048) (Cert.Spec.z1 (argX m c) (argP1 m c) (argW1 m c) r) := by
  funext cc j
  unfold zTile1 Cert.Spec.tileOf
  by_cases h : cc * 2048 + j.val < 20000
  · rw [dif_pos h, dif_pos h]
    unfold Cert.Spec.z1 Cert.Spec.dotT' Cert.Spec.h1 Cert.Spec.dotT
    refine Finset.sum_congr rfl fun q _ => ?_
    refine congrArg₂ (· * ·) (Finset.sum_congr rfl fun k _ => ?_) (v30_apply_lt m (outsA m) c _ q h)
    exact congrArg₂ (· * ·) (v19_apply11 m (outsA m) c r k) (v22_apply m (outsA m) c q k)
  · rw [dif_neg h, dif_neg h]

theorem hitTile1_eq (c : Dev nD) (r : Fin 4096) :
    hitTile1 (Vr1 m) c r = Cert.Spec.hitOf 2048 (Cert.Spec.tg1 (argT m c) r) := by
  funext cc j
  unfold hitTile1 Cert.Spec.hitOf Cert.Spec.tg1
  exact congrArg (fun w => decide (BitVec.ofNat 32 (cc * 2048 + j.val) = w)) (v14_apply m (outsA m) c r)

theorem triple1 (c : Dev nD) (r : Fin 4096) :
    (outs m 12 main_v31_0 c (ix2 r (0 : Fin 1)), outs m 12 main_v31_1 c (ix2 r (0 : Fin 1)), outs m 12 main_v31_2 c (ix2 r (0 : Fin 1)))
      = Cert.Math.osFold (Cert.Spec.tileOf (n := 2048) (Cert.Spec.z1 (argX m c) (argP1 m c) (argW1 m c) r))
          (Cert.Spec.hitOf 2048 (Cert.Spec.tg1 (argT m c) r)) 10 := by
  rw [outs_12_0, outs_12_1, outs_12_2, ← zTile1_eq, ← hitTile1_eq]
  exact val1 (Vr1 m) c r

theorem zTile2_eq (c : Dev nD) (r : Fin 4096) :
    zTile2 (Vr2 m) c r = Cert.Spec.tileOf (n := 1024) (Cert.Spec.z2 (argX m c) (argP2 m c) (argW2 m c) r) := by
  funext cc j
  unfold zTile2 Cert.Spec.tileOf
  by_cases h : cc * 1024 + j.val < 10257
  · rw [dif_pos h, dif_pos h]
    unfold Cert.Spec.z2 Cert.Spec.dotT' Cert.Spec.h2 Cert.Spec.dotT
    refine Finset.sum_congr rfl fun q _ => ?_
    refine congrArg₂ (· * ·) (Finset.sum_congr rfl fun k _ => ?_) (v32_apply_lt m (outsB m) c _ q h)
    exact congrArg₂ (· * ·) (v19_apply14 m (outsB m) c r k) (v24_apply m (outsB m) c q k)
  · rw [dif_neg h, dif_neg h]

theorem hitTile2_eq (c : Dev nD) (r : Fin 4096) :
    hitTile2 (Vr2 m) c r = Cert.Spec.hitOf 1024 (Cert.Spec.tg2 (argT m c) r) := by
  funext cc j
  unfold hitTile2 Cert.Spec.hitOf Cert.Spec.tg2
  exact congrArg (fun w => decide (BitVec.ofNat 32 (cc * 1024 + j.val) = w)) (v18_apply m (outsB m) c r)

theorem triple2 (c : Dev nD) (r : Fin 4096) :
    (outs m 15 main_v33_0 c (ix2 r (0 : Fin 1)), outs m 15 main_v33_1 c (ix2 r (0 : Fin 1)), outs m 15 main_v33_2 c (ix2 r (0 : Fin 1)))
      = Cert.Math.osFold (Cert.Spec.tileOf (n := 1024) (Cert.Spec.z2 (argX m c) (argP2 m c) (argW2 m c) r))
          (Cert.Spec.hitOf 1024 (Cert.Spec.tg2 (argT m c) r)) 11 := by
  rw [outs_15_0, outs_15_1, outs_15_2, ← zTile2_eq, ← hitTile2_eq]
  exact val2 (Vr2 m) c r

end Cert.KernelIdeal.Hand

end
-- ==== Proof.Math.Bridge.lean ====
import proofs.«402100_j83614423319285_2_alg».proof.Proof.TailSpec

noncomputable section

open scoped BigOperators

namespace Cert.Spec

open Idealize.ShloMosaic Idealize.ShloMosaic.ValueIdx Cert.Math

theorem osFold_congr {n : ℕ} (z z' : ℕ → Fin n → EReal) (hit hit' : ℕ → Fin n → Bool) (k : ℕ)
    (hz : ∀ c < k, z c = z' c) (hh : ∀ c < k, hit c = hit' c) : osFold z hit k = osFold z' hit' k := by
  induction k with
  | zero => rfl
  | succ k ih =>
    show osStep (z k) (hit k) (osFold z hit k) = osStep (z' k) (hit' k) (osFold z' hit' k)
    rw [hz k (Nat.lt_succ_self k), hh k (Nat.lt_succ_self k),
      ih (fun c hc => hz c (Nat.lt_succ_of_lt hc)) (fun c hc => hh c (Nat.lt_succ_of_lt hc))]

theorem ofNat_eq_iff (col : ℕ) (w : BitVec 32) (h : col < 2 ^ 32) : BitVec.ofNat 32 col = w ↔ col = w.toNat := by
  constructor
  · rintro rfl
    rw [BitVec.toNat_ofNat, Nat.mod_eq_of_lt h]
  · rintro rfl
    apply BitVec.eq_of_toNat_eq
    rw [BitVec.toNat_ofNat]
    exact Nat.mod_eq_of_lt w.isLt

theorem toInt_nonneg_eq (w : BitVec 32) (h : 0 ≤ w.toInt) : w.toInt = (w.toNat : ℤ) := by
  have hlt := w.isLt
  rw [BitVec.toInt_eq_toNat_cond] at h ⊢
  split_ifs at h ⊢ with h1
  · rfl
  · omega

theorem toNat_sub_const (w : BitVec 32) (k : ℕ) (hk : k ≤ w.toNat) : (w - BitVec.ofNat 32 k).toNat = w.toNat - k := by
  have hlt := w.isLt
  rw [BitVec.toNat_sub, BitVec.toNat_ofNat, Nat.mod_eq_of_lt (by omega : k < 2 ^ 32)]
  omega

theorem region_closed {n nc C : ℕ} (zr : Fin C → ℝ) (w : BitVec 32) (hw : w.toNat < C)
    (hcov : C ≤ nc * n) (hlast : (nc - 1) * n < C) (hnc : 0 < nc) (hsmall : nc * n ≤ 2 ^ 32)
    (v : Fin C → EReal) (hv : ∀ j, v j = ((zr j : ℝ) : EReal)) :
    osFold (tileOf (n := n) v) (hitOf n w) nc
      = (((rmax zr ⟨w.toNat, hw⟩ : ℝ) : EReal), ((∑ j, Real.exp (zr j - rmax zr ⟨w.toNat, hw⟩) : ℝ) : EReal),
         ((zr ⟨w.toNat, hw⟩ : ℝ) : EReal)) := by
  have hv' : v = fun j => ((zr j : ℝ) : EReal) := funext hv
  subst hv'
  have hc := osFold_congr (tileOf (n := n) (fun j => ((zr j : ℝ) : EReal))) (tileOf (n := n) (fun j => ((zr j : ℝ) : EReal)))
      (hitOf n w) (fun c j => decide (c * n + j.val = w.toNat)) nc (fun _ _ => rfl) (by
    intro c hc
    funext j
    have hlt : c * n + j.val < 2 ^ 32 := by
      have h1 : (c + 1) * n ≤ nc * n := Nat.mul_le_mul_right n hc
      have h2 : (c + 1) * n = c * n + n := Nat.succ_mul c n
      have := j.isLt
      omega
    exact decide_eq_decide.2 (ofNat_eq_iff _ w hlt))
  rw [hc]
  exact osFold_closed zr ⟨w.toNat, hw⟩ hcov hlast hnc _ (fun c j => rfl) _ (fun c j => rfl)

theorem lsm_coe {C : ℕ} (zr : Fin C → ℝ) (i0 : Fin C) (v : Fin C → EReal) (hv : ∀ j, v j = ((zr j : ℝ) : EReal)) (i : Fin C) :
    lsm v i = (((zr i : ℝ) : EReal) - ((rmax zr i0 : ℝ) : EReal))
      - Ideal.log ((∑ j, Real.exp (zr j - rmax zr i0) : ℝ) : EReal) := by
  have hv' : v = fun j => ((zr j : ℝ) : EReal) := funext hv
  subst hv'
  unfold lsm rowMax
  rw [fold_max_coe zr i0, ← sum_coe]
  congr 2

theorem pick_of {n : ℕ} (v : Fin n → EReal) (i : ℤ) (k : ℕ) (hk : k < n) (hi : i = (k : ℤ)) : pick v i = v ⟨k, hk⟩ := by
  subst hi
  unfold pick
  rw [dif_pos ⟨by omega, by omega⟩]
  exact congrArg v (Fin.ext (by simp))

theorem tail_row {n nc C : ℕ} (zr : Fin C → ℝ) (w : BitVec 32) (hw : w.toNat < C)
    (hcov : C ≤ nc * n) (hlast : (nc - 1) * n < C) (hnc : 0 < nc) (hsmall : nc * n ≤ 2 ^ 32)
    (v : Fin C → EReal) (hv : ∀ j, v j = ((zr j : ℝ) : EReal)) (m s g : EReal)
    (h : (m, s, g) = osFold (tileOf (n := n) v) (hitOf n w) nc) :
    (g - m) - Ideal.log s = lsm v ⟨w.toNat, hw⟩ := by
  rw [region_closed zr w hw hcov hlast hnc hsmall v hv] at h
  obtain ⟨rfl, h'⟩ := Prod.mk.inj h
  obtain ⟨rfl, rfl⟩ := Prod.mk.inj h'
  rw [lsm_coe zr ⟨w.toNat, hw⟩ v hv]

def hvec {C : ℕ} (zr : Fin C → ℝ) (c0 c1 : ℝ) : Fin (C + 2) → ℝ :=
  fun j => if h : j.val < C then zr ⟨j.val, h⟩ else if j.val = C then c0 else c1

theorem fold_max_two (cr : Fin 2 → ℝ) :
    Finset.univ.fold max (⊥ : EReal) (fun a => ((cr a : ℝ) : EReal)) = ((max (cr 0) (cr 1) : ℝ) : EReal) := by
  rw [fold_max_coe cr 0]
  refine congrArg (fun q : ℝ => (q : EReal)) ?_
  apply rmax_eq
  · exact Fin.forall_fin_two.2 ⟨le_max_left _ _, le_max_right _ _⟩
  · rcases le_total (cr 0) (cr 1) with h | h
    · exact ⟨1, (max_eq_right h).symm⟩
    · exact ⟨0, (max_eq_left h).symm⟩

theorem head_total {C : ℕ} (zr : Fin C → ℝ) (i : Fin C) (cr : Fin 2 → ℝ)
    (zc : Fin 2 → EReal) (hzc : ∀ a, zc a = ((cr a : ℝ) : EReal)) :
    max ((rmax zr i : ℝ) : EReal) (Finset.univ.fold max ⊥ zc)
        = ((rmax (hvec zr (cr 0) (cr 1)) ⟨i.val, by omega⟩ : ℝ) : EReal) ∧
    ((∑ j, Real.exp (zr j - rmax zr i) : ℝ) : EReal)
        * Ideal.exp (((rmax zr i : ℝ) : EReal) - ((rmax (hvec zr (cr 0) (cr 1)) ⟨i.val, by omega⟩ : ℝ) : EReal))
      + ∑ a : Fin 2, Ideal.exp (zc a - ((rmax (hvec zr (cr 0) (cr 1)) ⟨i.val, by omega⟩ : ℝ) : EReal))
      = ((∑ j, Real.exp (hvec zr (cr 0) (cr 1) j - rmax (hvec zr (cr 0) (cr 1)) ⟨i.val, by omega⟩) : ℝ) : EReal) := by
  obtain ⟨hM, hS⟩ := merge_two zr i (cr 0) (cr 1)
  have hM' : rmax (hvec zr (cr 0) (cr 1)) ⟨i.val, by omega⟩ = max (rmax zr i) (max (cr 0) (cr 1)) := hM
  have hS' : (∑ j, Real.exp (zr j - rmax zr i)) * Real.exp (rmax zr i - max (rmax zr i) (max (cr 0) (cr 1)))
        + (Real.exp (cr 0 - max (rmax zr i) (max (cr 0) (cr 1))) + Real.exp (cr 1 - max (rmax zr i) (max (cr 0) (cr 1))))
      = ∑ j, Real.exp (hvec zr (cr 0) (cr 1) j - max (rmax zr i) (max (cr 0) (cr 1))) := hS
  have hzc' : zc = fun a => ((cr a : ℝ) : EReal) := funext hzc
  subst hzc'
  rw [hM', fold_max_two, max_coe]
  refine ⟨rfl, ?_⟩
  rw [Fin.sum_univ_two, ← EReal.coe_sub, ← EReal.coe_sub, ← EReal.coe_sub, Ideal.exp_coe, Ideal.exp_coe, Ideal.exp_coe,
    ← EReal.coe_mul, ← EReal.coe_add, ← EReal.coe_add, hS']

theorem head_row {n nc C : ℕ} (zr : Fin C → ℝ) (w : BitVec 32) (hw : w.toNat < C)
    (hcov : C ≤ nc * n) (hlast : (nc - 1) * n < C) (hnc : 0 < nc) (hsmall : nc * n ≤ 2 ^ 32)
    (v : Fin C → EReal) (hv : ∀ j, v j = ((zr j : ℝ) : EReal))
    (cr : Fin 2 → ℝ) (zc : Fin 2 → EReal) (hzc : ∀ a, zc a = ((cr a : ℝ) : EReal))
    (u : Fin (C + 2) → EReal) (hu : ∀ j, u j = ((hvec zr (cr 0) (cr 1) j : ℝ) : EReal))
    (m s g : EReal) (h : (m, s, g) = osFold (tileOf (n := n) v) (hitOf n w) nc) :
    ((g - max m (Finset.univ.fold max ⊥ zc))
        - Ideal.log (s * Ideal.exp (m - max m (Finset.univ.fold max ⊥ zc))
            + ∑ a : Fin 2, Ideal.exp (zc a - max m (Finset.univ.fold max ⊥ zc)))
      = lsm u ⟨w.toNat, by omega⟩) ∧
    ((zc 0 - max m (Finset.univ.fold max ⊥ zc))
        - Ideal.log (s * Ideal.exp (m - max m (Finset.univ.fold max ⊥ zc))
            + ∑ a : Fin 2, Ideal.exp (zc a - max m (Finset.univ.fold max ⊥ zc)))
      = lsm u ⟨C, by omega⟩) ∧
    ((zc 1 - max m (Finset.univ.fold max ⊥ zc))
        - Ideal.log (s * Ideal.exp (m - max m (Finset.univ.fold max ⊥ zc))
            + ∑ a : Fin 2, Ideal.exp (zc a - max m (Finset.univ.fold max ⊥ zc)))
      = lsm u ⟨C + 1, by omega⟩) := by
  rw [region_closed zr w hw hcov hlast hnc hsmall v hv] at h
  obtain ⟨rfl, h'⟩ := Prod.mk.inj h
  obtain ⟨rfl, rfl⟩ := Prod.mk.inj h'
  obtain ⟨hM, hS⟩ := head_total zr ⟨w.toNat, hw⟩ cr zc hzc
  rw [hM, hS]
  have e0 : hvec zr (cr 0) (cr 1) ⟨w.toNat, by omega⟩ = zr ⟨w.toNat, hw⟩ := dif_pos hw
  have e1 : hvec zr (cr 0) (cr 1) ⟨C, by omega⟩ = cr 0 := by
    unfold hvec; rw [dif_neg (by simp), if_pos rfl]
  have e2 : hvec zr (cr 0) (cr 1) ⟨C + 1, by omega⟩ = cr 1 := by
    unfold hvec; rw [dif_neg (by simp), if_neg (by simp)]
  refine ⟨?_, ?_, ?_⟩
  · rw [lsm_coe (hvec zr (cr 0) (cr 1)) ⟨w.toNat, by omega⟩ u hu, e0]
  · rw [lsm_coe (hvec zr (cr 0) (cr 1)) ⟨w.toNat, by omega⟩ u hu, e1, hzc 0]
  · rw [lsm_coe (hvec zr (cr 0) (cr 1)) ⟨w.toNat, by omega⟩ u hu, e2, hzc 1]

theorem dotT_coe {m n d : ℕ} (a : Mat m d) (b : Mat n d)
    (ar : (⟨2, ![m, d]⟩ : Shape).Idx → ℝ) (br : (⟨2, ![n, d]⟩ : Shape).Idx → ℝ)
    (ha : ∀ i, a i = ((ar i : ℝ) : EReal)) (hb : ∀ i, b i = ((br i : ℝ) : EReal)) (r : Fin m) (j : Fin n) :
    dotT a b r j = ((∑ k : Fin d, ar (ix2 r k) * br (ix2 j k) : ℝ) : EReal) :=
  (Finset.sum_congr rfl (fun k _ => by rw [ha, hb])).trans
    (sum_coe_mul (fun k => ar (ix2 r k)) (fun k => br (ix2 j k)))

theorem dotT'_coe {m n d : ℕ} (h : Fin m → Fin d → EReal) (w : Mat n d)
    (hr : Fin m → Fin d → ℝ) (wr : (⟨2, ![n, d]⟩ : Shape).Idx → ℝ)
    (hh : ∀ r k, h r k = ((hr r k : ℝ) : EReal)) (hw : ∀ i, w i = ((wr i : ℝ) : EReal)) (r : Fin m) (j : Fin n) :
    dotT' h w r j = ((∑ k : Fin d, hr r k * wr (ix2 j k) : ℝ) : EReal) :=
  (Finset.sum_congr rfl (fun k _ => by rw [hh, hw])).trans
    (sum_coe_mul (fun k => hr r k) (fun k => wr (ix2 j k)))

theorem tg0_spec (t : Tgt) (r : Fin 4096) (ht : 0 ≤ tgt t r ∧ tgt t r < 50257) :
    (tg0 t r).toNat < 20000 ∧ (mask0 t r → tgt t r = ((tg0 t r).toNat : ℤ)) := by
  have ht1 : 0 ≤ (t (ix1 r)).toInt := ht.1
  have he := toInt_nonneg_eq (t (ix1 r)) ht1
  have htg : tgt t r = (t (ix1 r)).toInt := rfl
  unfold tg0
  by_cases hm : mask0 t r
  · rw [if_pos hm]
    have hm' : (t (ix1 r)).toInt < 20000 := hm
    exact ⟨by omega, fun _ => by rw [htg]; exact he⟩
  · rw [if_neg hm]
    exact ⟨by simp, fun h => absurd h hm⟩

theorem tg1_spec (t : Tgt) (r : Fin 4096) (ht : 0 ≤ tgt t r ∧ tgt t r < 50257) :
    (tg1 t r).toNat < 20000 ∧ (mask1 t r → tgt t r - 20000 = ((tg1 t r).toNat : ℤ)) := by
  have ht1 : 0 ≤ (t (ix1 r)).toInt := ht.1
  have he := toInt_nonneg_eq (t (ix1 r)) ht1
  have htg : tgt t r = (t (ix1 r)).toInt := rfl
  unfold tg1
  by_cases hm : mask1 t r
  · rw [if_pos hm]
    have hm' : 20000 ≤ (t (ix1 r)).toInt ∧ (t (ix1 r)).toInt < 40000 := hm
    have hs := toNat_sub_const (t (ix1 r)) 20000 (by omega)
    exact ⟨by omega, fun _ => by rw [htg]; omega⟩
  · rw [if_neg hm]
    exact ⟨by simp, fun h => absurd h hm⟩

theorem tg2_spec (t : Tgt) (r : Fin 4096) (ht : 0 ≤ tgt t r ∧ tgt t r < 50257) :
    (tg2 t r).toNat < 10257 ∧ (mask2 t r → tgt t r - 40000 = ((tg2 t r).toNat : ℤ)) := by
  have ht1 : 0 ≤ (t (ix1 r)).toInt := ht.1
  have ht2 : (t (ix1 r)).toInt < 50257 := ht.2
  have he := toInt_nonneg_eq (t (ix1 r)) ht1
  have htg : tgt t r = (t (ix1 r)).toInt := rfl
  unfold tg2
  by_cases hm : mask2 t r
  · rw [if_pos hm]
    have hm' : 40000 ≤ (t (ix1 r)).toInt := hm
    have hs := toNat_sub_const (t (ix1 r)) 40000 (by omega)
    exact ⟨by omega, fun _ => by rw [htg]; omega⟩
  · rw [if_neg hm]
    exact ⟨by simp, fun h => absurd h hm⟩

theorem headLogits_coe (x : Mat 4096 1024) (Wh : Mat 20000 1024) (Wc : Mat 2 1024) (r : Fin 4096)
    (zr : Fin 20000 → ℝ) (cr : Fin 2 → ℝ)
    (hzr : ∀ j, zHead x Wh r j = ((zr j : ℝ) : EReal)) (hcr : ∀ a, zCluster x Wc r a = ((cr a : ℝ) : EReal))
    (j : Fin (20000 + 2)) : headLogits x Wh Wc r j = ((hvec zr (cr 0) (cr 1) j : ℝ) : EReal) := by
  unfold headLogits hvec
  by_cases h : j.val < 20000
  · rw [dif_pos h, dif_pos h]
    exact hzr _
  · rw [dif_neg h, dif_neg h, hcr]
    by_cases h2 : j.val = 20000
    · rw [if_pos h2]
      have e : (⟨j.val - 20000, by omega⟩ : Fin 2) = 0 := Fin.ext (by show j.val - 20000 = 0; omega)
      rw [e]
    · rw [if_neg h2]
      have e : (⟨j.val - 20000, by omega⟩ : Fin 2) = 1 := Fin.ext (by show j.val - 20000 = 1; omega)
      rw [e]
theorem bridge (x : Mat 4096 1024) (t : Tgt) (Wh : Mat 20000 1024) (Wc : Mat 2 1024) (P1 : Mat 256 1024) (W1 : Mat 20000 256)
    (P2 : Mat 64 1024) (W2 : Mat 10257 64)
    (hx : ∀ i, ∃ v : ℝ, x i = (v : EReal)) (hWh : ∀ i, ∃ v : ℝ, Wh i = (v : EReal)) (hWc : ∀ i, ∃ v : ℝ, Wc i = (v : EReal))
    (hP1 : ∀ i, ∃ v : ℝ, P1 i = (v : EReal)) (hW1 : ∀ i, ∃ v : ℝ, W1 i = (v : EReal))
    (hP2 : ∀ i, ∃ v : ℝ, P2 i = (v : EReal)) (hW2 : ∀ i, ∃ v : ℝ, W2 i = (v : EReal))
    (ht : ∀ r, 0 ≤ tgt t r ∧ tgt t r < 50257)
    (m0 s0 g0 m1 s1 g1 m2 s2 g2 : Fin 4096 → EReal)
    (h0 : ∀ r, (m0 r, s0 r, g0 r) = osFold (tileOf (n := 2048) (zHead x Wh r)) (hitOf 2048 (tg0 t r)) 10)
    (h1 : ∀ r, (m1 r, s1 r, g1 r) = osFold (tileOf (n := 2048) (z1 x P1 W1 r)) (hitOf 2048 (tg1 t r)) 10)
    (h2 : ∀ r, (m2 r, s2 r, g2 r) = osFold (tileOf (n := 1024) (z2 x P2 W2 r)) (hitOf 1024 (tg2 t r)) 11) :
    tailNll t (zCluster x Wc) m0 s0 g0 m1 s1 g1 m2 s2 g2 = nll x t Wh Wc P1 W1 P2 W2 := by
  choose xr hxr using hx
  choose Whr hWhr using hWh
  choose Wcr hWcr using hWc
  choose P1r hP1r using hP1
  choose W1r hW1r using hW1
  choose P2r hP2r using hP2
  choose W2r hW2r using hW2
  obtain ⟨zr0, hzr0⟩ : ∃ zr0 : Fin 4096 → Fin 20000 → ℝ, ∀ r j, zHead x Wh r j = ((zr0 r j : ℝ) : EReal) :=
    ⟨_, fun r j => dotT_coe x Wh xr Whr hxr hWhr r j⟩
  obtain ⟨cr, hcr⟩ : ∃ cr : Fin 4096 → Fin 2 → ℝ, ∀ r a, zCluster x Wc r a = ((cr r a : ℝ) : EReal) :=
    ⟨_, fun r a => dotT_coe x Wc xr Wcr hxr hWcr r a⟩
  obtain ⟨hr1, hhr1⟩ : ∃ hr1 : Fin 4096 → Fin 256 → ℝ, ∀ r k, Cert.Spec.h1 x P1 r k = ((hr1 r k : ℝ) : EReal) :=
    ⟨_, fun r k => dotT_coe x P1 xr P1r hxr hP1r r k⟩
  obtain ⟨zr1, hzr1⟩ : ∃ zr1 : Fin 4096 → Fin 20000 → ℝ, ∀ r j, z1 x P1 W1 r j = ((zr1 r j : ℝ) : EReal) :=
    ⟨_, fun r j => dotT'_coe (Cert.Spec.h1 x P1) W1 hr1 W1r hhr1 hW1r r j⟩
  obtain ⟨hr2, hhr2⟩ : ∃ hr2 : Fin 4096 → Fin 64 → ℝ, ∀ r k, Cert.Spec.h2 x P2 r k = ((hr2 r k : ℝ) : EReal) :=
    ⟨_, fun r k => dotT_coe x P2 xr P2r hxr hP2r r k⟩
  obtain ⟨zr2, hzr2⟩ : ∃ zr2 : Fin 4096 → Fin 10257 → ℝ, ∀ r j, z2 x P2 W2 r j = ((zr2 r j : ℝ) : EReal) :=
    ⟨_, fun r j => dotT'_coe (Cert.Spec.h2 x P2) W2 hr2 W2r hhr2 hW2r r j⟩
  have hhead := fun r => head_row (n := 2048) (nc := 10) (zr0 r) (tg0 t r) (tg0_spec t r (ht r)).1
    (by norm_num) (by norm_num) (by norm_num) (by norm_num) (zHead x Wh r) (hzr0 r) (cr r) (zCluster x Wc r) (hcr r)
    (headLogits x Wh Wc r) (headLogits_coe x Wh Wc r (zr0 r) (cr r) (hzr0 r) (hcr r)) (m0 r) (s0 r) (g0 r) (h0 r)
  have E0 : ∀ r, mask0 t r → klp0 m0 s0 g0 (zCluster x Wc) r = lp0 x t Wh Wc r := by
    intro r hm
    obtain ⟨hT, hTe⟩ := tg0_spec t r (ht r)
    unfold lp0 lsmHead
    rw [if_pos hm, pick_of (lsm (headLogits x Wh Wc r)) (tgt t r) (tg0 t r).toNat (by omega) (hTe hm)]
    exact (hhead r).1
  have E1 : ∀ r, mask1 t r → khc m0 s0 (zCluster x Wc) 0 r + ktl m1 s1 g1 r = lp1 x t Wh Wc P1 W1 r := by
    intro r hm
    obtain ⟨hT, hTe⟩ := tg1_spec t r (ht r)
    have hk : khc m0 s0 (zCluster x Wc) 0 r = lsm (headLogits x Wh Wc r) ⟨20000, by omega⟩ := (hhead r).2.1
    have hl : ktl m1 s1 g1 r = lsm (z1 x P1 W1 r) ⟨(tg1 t r).toNat, hT⟩ :=
      tail_row (n := 2048) (nc := 10) (zr1 r) (tg1 t r) hT (by norm_num) (by norm_num) (by norm_num) (by norm_num)
        (z1 x P1 W1 r) (hzr1 r) (m1 r) (s1 r) (g1 r) (h1 r)
    unfold lp1 lsmHead
    rw [if_pos hm, pick_of (lsm (z1 x P1 W1 r)) (tgt t r - 20000) (tg1 t r).toNat hT (hTe hm), hk, hl]
  have E2 : ∀ r, mask2 t r → khc m0 s0 (zCluster x Wc) 1 r + ktl m2 s2 g2 r = lp2 x t Wh Wc P2 W2 r := by
    intro r hm
    obtain ⟨hT, hTe⟩ := tg2_spec t r (ht r)
    have hk : khc m0 s0 (zCluster x Wc) 1 r = lsm (headLogits x Wh Wc r) ⟨20001, by omega⟩ := (hhead r).2.2
    have hl : ktl m2 s2 g2 r = lsm (z2 x P2 W2 r) ⟨(tg2 t r).toNat, hT⟩ :=
      tail_row (n := 1024) (nc := 11) (zr2 r) (tg2 t r) hT (by norm_num) (by norm_num) (by norm_num) (by norm_num)
        (z2 x P2 W2 r) (hzr2 r) (m2 r) (s2 r) (g2 r) (h2 r)
    unfold lp2 lsmHead
    rw [if_pos hm, pick_of (lsm (z2 x P2 W2 r)) (tgt t r - 40000) (tg2 t r).toNat hT (hTe hm), hk, hl]
  have A : (∑ r : Fin 4096, if mask0 t r then klp0 m0 s0 g0 (zCluster x Wc) r else 0)
      = ∑ r : Fin 4096, if mask0 t r then lp0 x t Wh Wc r else 0 :=
    Finset.sum_congr rfl (fun r _ => by
      by_cases hm : mask0 t r
      · rw [if_pos hm, if_pos hm, E0 r hm]
      · rw [if_neg hm, if_neg hm])
  have B : (∑ r : Fin 4096, if mask1 t r then khc m0 s0 (zCluster x Wc) 0 r + ktl m1 s1 g1 r else 0)
      = ∑ r : Fin 4096, if mask1 t r then lp1 x t Wh Wc P1 W1 r else 0 :=
    Finset.sum_congr rfl (fun r _ => by
      by_cases hm : mask1 t r
      · rw [if_pos hm, if_pos hm, E1 r hm]
      · rw [if_neg hm, if_neg hm])
  have D : (∑ r : Fin 4096, if mask2 t r then khc m0 s0 (zCluster x Wc) 1 r + ktl m2 s2 g2 r else 0)
      = ∑ r : Fin 4096, if mask2 t r then lp2 x t Wh Wc P2 W2 r else 0 :=
    Finset.sum_congr rfl (fun r _ => by
      by_cases hm : mask2 t r
      · rw [if_pos hm, if_pos hm, E2 r hm]
      · rw [if_neg hm, if_neg hm])
  unfold tailNll nll
  rw [A, B, D]

end Cert.Spec

end
-- ==== Proof.PreFacts.lean ====
import proofs.«402100_j83614423319285_2_alg».proof.Pre_finite_inputs
import Idealize.ShloMosaic.Lib.ReduceAll
import Idealize.ShloMosaic.Lib.StableHlo.Predicate
import Idealize.ShloMosaic.Lib.ValueIdx
import Idealize.ShloMosaic.PureOps.Ideal

noncomputable section

namespace Cert.PreFacts

open Idealize.ShloMosaic Idealize.ShloMosaic.StableHlo.Predicate Cert.Pre_finite_inputs

variable [Cert.Pre_finite_inputs.Facts]

instance subsingleton_S_ : Subsingleton S_.Idx := ⟨fun a b => funext fun d => d.elim0⟩

theorem ofBits_inf : Ideal.ofBits .f32 0x7F800000#32 = ⊤ := by simp [Ideal.ofBits, Ideal.ieee]

theorem real_of_abs_lt_inf (x : EReal)
    (h : FloatOps.cmpf (F := Ideal) (φ := .f32) .olt (FloatOps.hostAbsf x) (FloatOps.ofBits (F := Ideal) .f32 0x7F800000#32) = 1#1) :
    ∃ v : ℝ, x = (v : EReal) := by
  have h' : Ideal.cmp .olt (max x (-x)) (Ideal.ofBits .f32 0x7F800000#32) = 1#1 := h
  rw [ofBits_inf] at h'
  simp only [Ideal.cmp, ofBool_eq_one_iff, decide_eq_true_eq] at h'
  induction x using EReal.rec with
  | bot => simp at h'
  | top => simp at h'
  | coe v => exact ⟨v, rfl⟩

theorem range_of_cmp (w : BitVec 32) (h0 : IntOp.cmpi .sge w 0#32 = 1#1) (h1 : IntOp.cmpi .slt w 50257#32 = 1#1) :
    0 ≤ w.toInt ∧ w.toInt < 50257 := by
  unfold IntOp.cmpi at h0 h1
  rw [ofBool_eq_one_iff] at h0 h1
  simp only [BitVec.slt, BitVec.sle, decide_eq_true_eq] at h0 h1
  have e0 : (0#32 : BitVec 32).toInt = 0 := by decide
  have e1 : (50257#32 : BitVec 32).toInt = 50257 := by decide
  rw [e0] at h0; rw [e1] at h1
  exact ⟨h0, h1⟩

theorem real_forms {x : EReal} (hx : ∃ v : ℝ, x = (v : EReal)) : x ≠ ⊤ ∧ x ≠ ⊥ ∧ x = ((x.toReal : ℝ) : EReal) := by
  obtain ⟨v, rfl⟩ := hx
  exact ⟨EReal.coe_ne_top v, EReal.coe_ne_bot v, by rw [EReal.toReal_coe]⟩

theorem nat_of_range {w : BitVec 32} (hw : 0 ≤ w.toInt ∧ w.toInt < 50257) : w.toNat < 50257 ∧ w.toInt = (w.toNat : Int) := by
  obtain ⟨h0, h1⟩ := hw
  have hlt := w.isLt
  rw [BitVec.toInt_eq_toNat_cond] at h0 h1 ⊢
  split at h0 <;> split at h1 <;> omega

section decode

variable {a0 : FVec Ideal S4096x1024 .f32} {a1 : IVec S4096 32} {a2 : FVec Ideal S20000x1024 .f32}
  {a3 : FVec Ideal S2x1024 .f32} {a4 : FVec Ideal S256x1024 .f32} {a5 : FVec Ideal S20000x256 .f32}
  {a6 : FVec Ideal S64x1024 .f32} {a7 : FVec Ideal S10257x64 .f32}

theorem decode (h : Cert.Pre_finite_inputs.fn (F := Ideal) a0 a1 a2 a3 a4 a5 a6 a7 = (fun _ => 1#1)) :
    (∀ i, ∃ v : ℝ, a0 i = (v : EReal)) ∧ (∀ i, 0 ≤ (a1 i).toInt ∧ (a1 i).toInt < 50257)
      ∧ (∀ i, ∃ v : ℝ, a2 i = (v : EReal)) ∧ (∀ i, ∃ v : ℝ, a3 i = (v : EReal)) ∧ (∀ i, ∃ v : ℝ, a4 i = (v : EReal))
      ∧ (∀ i, ∃ v : ℝ, a5 i = (v : EReal)) ∧ (∀ i, ∃ v : ℝ, a6 i = (v : EReal)) ∧ (∀ i, ∃ v : ℝ, a7 i = (v : EReal)) := by
  have e := congrFun h ValueIdx.ix0
  unfold Cert.Pre_finite_inputs.fn Cert.Pre_finite_inputs.fn_part1 Cert.Pre_finite_inputs.fn_part2 at e
  dsimp only at e
  simp only [andi, IntOp.andi_eq_one] at e
  obtain ⟨⟨⟨⟨⟨⟨⟨e0, e2⟩, e3⟩, e4⟩, e5⟩, e6⟩, e7⟩, e1⟩ := e
  refine ⟨fun i => ?_, fun i => ?_, fun i => ?_, fun i => ?_, fun i => ?_, fun i => ?_, fun i => ?_, fun i => ?_⟩
  · exact real_of_abs_lt_inf (a0 i) (Host.reduce_andi_all _ _ _ _ _ e0 i)
  · obtain ⟨g0, g1⟩ := IntOp.andi_eq_one.1 (Host.reduce_andi_all _ _ _ _ _ e1 i)
    exact range_of_cmp (a1 i) g0 g1
  · exact real_of_abs_lt_inf (a2 i) (Host.reduce_andi_all _ _ _ _ _ e2 i)
  · exact real_of_abs_lt_inf (a3 i) (Host.reduce_andi_all _ _ _ _ _ e3 i)
  · exact real_of_abs_lt_inf (a4 i) (Host.reduce_andi_all _ _ _ _ _ e4 i)
  · exact real_of_abs_lt_inf (a5 i) (Host.reduce_andi_all _ _ _ _ _ e5 i)
  · exact real_of_abs_lt_inf (a6 i) (Host.reduce_andi_all _ _ _ _ _ e6 i)
  · exact real_of_abs_lt_inf (a7 i) (Host.reduce_andi_all _ _ _ _ _ e7 i)

variable (h : Cert.Pre_finite_inputs.fn (F := Ideal) a0 a1 a2 a3 a4 a5 a6 a7 = (fun _ => 1#1))
include h

theorem finite_a0 : ∀ i, ∃ v : ℝ, a0 i = (v : EReal) := (decode h).1

theorem target_range : ∀ i, 0 ≤ (a1 i).toInt ∧ (a1 i).toInt < 50257 := (decode h).2.1

theorem finite_a2 : ∀ i, ∃ v : ℝ, a2 i = (v : EReal) := (decode h).2.2.1

theorem finite_a3 : ∀ i, ∃ v : ℝ, a3 i = (v : EReal) := (decode h).2.2.2.1

theorem finite_a4 : ∀ i, ∃ v : ℝ, a4 i = (v : EReal) := (decode h).2.2.2.2.1

theorem finite_a5 : ∀ i, ∃ v : ℝ, a5 i = (v : EReal) := (decode h).2.2.2.2.2.1

theorem finite_a6 : ∀ i, ∃ v : ℝ, a6 i = (v : EReal) := (decode h).2.2.2.2.2.2.1

theorem finite_a7 : ∀ i, ∃ v : ℝ, a7 i = (v : EReal) := (decode h).2.2.2.2.2.2.2

theorem target_toNat : ∀ i, (a1 i).toNat < 50257 ∧ (a1 i).toInt = ((a1 i).toNat : Int) := fun i => nat_of_range (target_range h i)

end decode

end Cert.PreFacts

end
-- ==== Proof.Ref.Basics.lean ====
import Idealize.ShloMosaic.Lib.Pipeline.Value
import Idealize.ShloMosaic.Lib.ValueIdx
import Idealize.ShloMosaic.PureOps.Ideal
import Idealize.ShloMosaic.PureOps.Ideal.Laws
import Idealize.ShloMosaic.PureOps.Reduce
import Mathlib.Data.Finset.Fold

noncomputable section

open scoped BigOperators

namespace Cert.ReferenceIdeal.RefValue

open Idealize.ShloMosaic Idealize.ShloMosaic.ValueIdx

theorem ix2_eq {n0 n1 : Nat} (i : (⟨2, ![n0, n1]⟩ : Shape).Idx) (a : Fin n0) (b : Fin n1)
    (h0 : (i 0).val = a.val) (h1 : (i 1).val = b.val) : i = ix2 a b := by
  funext d; refine Fin.ext ?_
  match d with
  | ⟨0, _⟩ => exact h0
  | ⟨1, _⟩ => exact h1

theorem ix1_eq {n : Nat} (i : (⟨1, ![n]⟩ : Shape).Idx) (a : Fin n) (h0 : (i 0).val = a.val) : i = ix1 a := by
  funext d; refine Fin.ext ?_
  match d with
  | ⟨0, _⟩ => exact h0

def idxEquiv1 {n : Nat} : (⟨1, ![n]⟩ : Shape).Idx ≃ Fin n where
  toFun i := i 0
  invFun a := ix1 a
  left_inv i := (eq_ix1 i).symm
  right_inv _ := rfl

theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

theorem ofBits_neg_inf : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem lift_row {R n : Nat} (h : (⟨2, ![R, n]⟩ : Shape).Reduces [1] (⟨1, ![R]⟩ : Shape)) (r : Fin R)
    (k : Fin ((⟨2, ![R, n]⟩ : Shape).size 1)) : h.lift (ix1 r) k = ix2 r (⟨k.val, k.isLt⟩ : Fin n) := by
  funext c; apply Fin.ext
  fin_cases c <;> rfl

theorem reduce_max_row {R n : Nat} (x : FVec Ideal ⟨2, ![R, n]⟩ .f32) (init : FVec Ideal ⟨0, ![]⟩ .f32)
    (h' : (⟨2, ![R, n]⟩ : Shape).ReducesTo [1] (⟨1, ![R]⟩ : Shape))
    (h : (⟨2, ![R, n]⟩ : Shape).Reduces [1] (⟨1, ![R]⟩ : Shape)) (hu : 0 < (⟨0, ![]⟩ : Shape).numel) (r : Fin R) :
    Host.reduce FloatOps.maximumf x init h' hu (ix1 r)
      = (Finset.univ : Finset (Fin n)).fold max (init (Shape.Idx.first hu)) (fun k : Fin n => x (ix2 r k)) := by
  rw [Host.reduce_eq_fold_single FloatOps.maximumf x _ h' h hu]
  have hf : (x ∘ h.lift (ix1 r)) = fun k : Fin n => x (ix2 r k) := funext fun k => congrArg x (lift_row h r k)
  exact congrArg (fun f => Finset.fold max (init (Shape.Idx.first hu)) f (Finset.univ : Finset (Fin n))) hf

theorem gather2_apply {α : Type} {R N w : Nat} (hR : 0 < R) (hN : 0 < N)
    (d : GatherDims ⟨2, ![R, N]⟩ ⟨2, ![R, 2]⟩ ⟨1, ![R]⟩)
    (hod : d.offsetDims = []) (hcd : d.collapsedSliceDims = [0, 1]) (hob : d.operandBatchingDims = [])
    (hsb : d.startIndicesBatchingDims = []) (hsim : d.startIndexMap = [0, 1]) (hiv : d.indexVectorDim = 1)
    (hss : d.sliceSizes = ![1, 1])
    (x : (⟨2, ![R, N]⟩ : Shape).Idx → α) (idx : IVec ⟨2, ![R, 2]⟩ w) (r : Fin R) :
    Host.gather d x idx (ix1 r)
      = x (ix2 (⟨min (idx (ix2 r 0)).toInt.toNat (R - 1), by omega⟩ : Fin R)
              (⟨min (idx (ix2 r 1)).toInt.toNat (N - 1), by omega⟩ : Fin N)) := by
  obtain ⟨od, cd, ob, sb, sim, iv, ss, wf⟩ := d
  simp only at hod hcd hob hsb hsim hiv hss
  subst hod hcd hob hsb hsim hiv hss
  unfold Host.gather
  congr 1
  funext a
  refine Fin.ext ?_
  match a with
  | ⟨0, _⟩ =>
    show GatherDims.start _ (ix1 r) idx 0 + GatherDims.batchCoord _ (ix1 r) 0 + GatherDims.offCoord _ (ix1 r) 0 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : GatherDims.siIdx (⟨[], [0, 1], [], [], [0, 1], 1, ![1, 1], wf⟩ : GatherDims ⟨2, ![R, N]⟩ ⟨2, ![R, 2]⟩ ⟨1, ![R]⟩)
        (ix1 r) ⟨List.idxOf (0 : Fin 2) [0, 1], by simp⟩ = ix2 r 0 := by
      funext b; refine Fin.ext ?_
      match b with
      | ⟨0, _⟩ => rfl
      | ⟨1, _⟩ => rfl
    rw [hsi]
    rfl
  | ⟨1, _⟩ =>
    show GatherDims.start _ (ix1 r) idx 1 + GatherDims.batchCoord _ (ix1 r) 1 + GatherDims.offCoord _ (ix1 r) 1 = _
    rw [GatherDims.batchCoord_eq_zero _ _ _ List.not_mem_nil,
      GatherDims.offCoord_eq_zero _ _ _ (fun h => ((GatherDims.mem_sKept _ _).mp h).1 (by simp))]
    simp only [Nat.add_zero]
    unfold GatherDims.start
    rw [dif_pos (by simp)]
    have hsi : GatherDims.siIdx (⟨[], [0, 1], [], [], [0, 1], 1, ![1, 1], wf⟩ : GatherDims ⟨2, ![R, N]⟩ ⟨2, ![R, 2]⟩ ⟨1, ![R]⟩)
        (ix1 r) ⟨List.idxOf (1 : Fin 2) [0, 1], by simp⟩ = ix2 r 1 := by
      funext b; refine Fin.ext ?_
      match b with
      | ⟨0, _⟩ => rfl
      | ⟨1, _⟩ => rfl
    rw [hsi]
    rfl

theorem gather2_at {α : Type} {R N w : Nat} (hR : 0 < R) (hN : 0 < N)
    (d : GatherDims ⟨2, ![R, N]⟩ ⟨2, ![R, 2]⟩ ⟨1, ![R]⟩)
    (hod : d.offsetDims = []) (hcd : d.collapsedSliceDims = [0, 1]) (hob : d.operandBatchingDims = [])
    (hsb : d.startIndicesBatchingDims = []) (hsim : d.startIndexMap = [0, 1]) (hiv : d.indexVectorDim = 1)
    (hss : d.sliceSizes = ![1, 1])
    (x : (⟨2, ![R, N]⟩ : Shape).Idx → α) (idx : IVec ⟨2, ![R, 2]⟩ w) (r : Fin R) (c : Fin N)
    (hrow : (idx (ix2 r 0)).toInt = (r.val : Int)) (hcol : (idx (ix2 r 1)).toInt = (c.val : Int)) :
    Host.gather d x idx (ix1 r) = x (ix2 r c) := by
  rw [gather2_apply hR hN d hod hcd hob hsb hsim hiv hss x idx r]
  refine congrArg x (ix2_eq _ r c ?_ ?_)
  · show min (idx (ix2 r 0)).toInt.toNat (R - 1) = r.val
    rw [hrow, Int.toNat_natCast]; have := r.isLt; omega
  · show min (idx (ix2 r 1)).toInt.toNat (N - 1) = c.val
    rw [hcol, Int.toNat_natCast]; have := c.isLt; omega

theorem cmpi_slt (x y : BitVec 32) : IntOp.cmpi .slt x y = if x.toInt < y.toInt then 1#1 else 0#1 := by
  unfold IntOp.cmpi
  by_cases h : x.toInt < y.toInt
  · rw [if_pos h]; simp [BitVec.slt, h]
  · rw [if_neg h]; simp [BitVec.slt, h]

theorem cmpi_sge (x y : BitVec 32) : IntOp.cmpi .sge x y = if y.toInt ≤ x.toInt then 1#1 else 0#1 := by
  unfold IntOp.cmpi
  by_cases h : y.toInt ≤ x.toInt
  · rw [if_pos h]; simp [BitVec.sle, h]
  · rw [if_neg h]; simp [BitVec.sle, h]

theorem andi_ite (p q : Prop) [Decidable p] [Decidable q] :
    IntOp.andi (if p then 1#1 else 0#1) (if q then 1#1 else 0#1) = if p ∧ q then (1#1 : BitVec 1) else 0#1 := by
  by_cases hp : p <;> by_cases hq : q <;> simp [IntOp.andi, hp, hq]

theorem select_ite {α : Type} (p : Prop) [Decidable p] (a b : α) :
    Scalar.select (if p then 1#1 else 0#1) a b = if p then a else b := by
  by_cases hp : p
  · rw [if_pos hp, if_pos hp]; exact select_one a b
  · rw [if_neg hp, if_neg hp]; exact select_zero a b

theorem toInt_subi (x y : BitVec 32) (h0 : -2147483648 ≤ x.toInt - y.toInt) (h1 : x.toInt - y.toInt < 2147483648) :
    (IntOp.subi x y).toInt = x.toInt - y.toInt := by
  unfold IntOp.subi
  rw [BitVec.toInt_sub]
  unfold Int.bmod
  norm_num at h0 h1 ⊢
  omega

theorem toInt_addi (x y : BitVec 32) (h0 : -2147483648 ≤ x.toInt + y.toInt) (h1 : x.toInt + y.toInt < 2147483648) :
    (IntOp.addi x y).toInt = x.toInt + y.toInt := by
  unfold IntOp.addi
  rw [BitVec.toInt_add]
  unfold Int.bmod
  norm_num at h0 h1 ⊢
  omega

theorem toInt_ite (p : Prop) [Decidable p] (a b : BitVec 32) :
    (if p then a else b).toInt = if p then a.toInt else b.toInt := by
  by_cases hp : p
  · rw [if_pos hp, if_pos hp]
  · rw [if_neg hp, if_neg hp]

theorem toInt_0 : (0#32 : BitVec 32).toInt = 0 := by decide
theorem toInt_20000 : (20000#32 : BitVec 32).toInt = 20000 := by decide
theorem toInt_40000 : (40000#32 : BitVec 32).toInt = 40000 := by decide

theorem norm_nonneg (v size : BitVec 32) (h : 0 ≤ v.toInt) :
    Scalar.select (IntOp.cmpi .slt v 0#32) (IntOp.addi v size) v = v := by
  rw [cmpi_slt, select_ite, toInt_0, if_neg (by omega)]

theorem toInt_ofNat_small (n : Nat) (h : n < 2147483648) : (BitVec.ofNat 32 n).toInt = (n : Int) := by
  have hn : (BitVec.ofNat 32 n).toNat = n := by
    rw [BitVec.toNat_ofNat]; exact Nat.mod_eq_of_lt (by omega)
  rw [BitVec.toInt_eq_toNat_cond, hn]
  norm_num at h ⊢
  omega

end Cert.ReferenceIdeal.RefValue

end
-- ==== Proof.Ref.Head.lean ====
import proofs.«402100_j83614423319285_2_alg».proof.Proof.Ref.ReadP
import proofs.«402100_j83614423319285_2_alg».proof.Proof.Spec
import proofs.«402100_j83614423319285_2_alg».proof.Proof.Ref.Basics

noncomputable section

open scoped BigOperators

namespace Cert.ReferenceIdeal.RefValue

open Cert.ReferenceIdeal Cert.ReferenceIdeal.Gen Cert.ReferenceIdeal.ReadP Idealize.ShloMosaic Idealize.ShloMosaic.ValueIdx

variable (x0 : (⟨S4096x1024, .f32⟩ : BufTy).Contents (Elt Ideal)) (x1 : (⟨S4096, .i32⟩ : BufTy).Contents (Elt Ideal)) (x2 : (⟨S20000x1024, .f32⟩ : BufTy).Contents (Elt Ideal)) (x3 : (⟨S2x1024, .f32⟩ : BufTy).Contents (Elt Ideal)) (x4 : (⟨S256x1024, .f32⟩ : BufTy).Contents (Elt Ideal)) (x5 : (⟨S20000x256, .f32⟩ : BufTy).Contents (Elt Ideal)) (x6 : (⟨S64x1024, .f32⟩ : BufTy).Contents (Elt Ideal)) (x7 : (⟨S10257x64, .f32⟩ : BufTy).Contents (Elt Ideal))

theorem v2_at (r : Fin 4096) (j : Fin 20000) :
    val_main_v2 (F := Ideal) x0 x2 (ix2 r j) = Spec.zHead x0 x2 r j := by
  rw [val_main_v2_apply]
  unfold Spec.zHead Spec.dotT
  refine Finset.sum_congr rfl fun k _ => ?_
  rw [val_main_v1_apply]
  have hl : lidx_main_v2 (ix2 r j) k = ix2 r k := ix2_eq _ r k rfl rfl
  have hr : idx_main_v1 (ridx_main_v2 (ix2 r j) k) = ix2 j k := ix2_eq _ j k rfl rfl
  rw [hl, hr]

theorem v4_at (r : Fin 4096) (j : Fin 2) :
    val_main_v4 (F := Ideal) x0 x3 (ix2 r j) = Spec.zCluster x0 x3 r j := by
  rw [val_main_v4_apply]
  unfold Spec.zCluster Spec.dotT
  refine Finset.sum_congr rfl fun k _ => ?_
  rw [val_main_v3_apply]
  have hl : lidx_main_v4 (ix2 r j) k = ix2 r k := ix2_eq _ r k rfl rfl
  have hr : idx_main_v3 (ridx_main_v4 (ix2 r j) k) = ix2 j k := ix2_eq _ j k rfl rfl
  rw [hl, hr]

theorem v5_at (r : Fin 4096) (j : Fin 20002) :
    val_main_v5 (F := Ideal) x0 x2 x3 (ix2 r j) = Spec.headLogits x0 x2 x3 r j := by
  unfold val_main_v5 Spec.headLogits
  by_cases h : j.val < 20000
  · rw [dif_pos h, concatenate_pair_apply_left (t := S4096x20002) (s₁ := S4096x20000) (s₂ := S4096x2) (1 : Fin 2) _ _
      concatenates_S4096x20000_S4096x2_S4096x20002_d1 (ix2 r j) rfl
      (ix2 r (⟨j.val, h⟩ : Fin 20000)) (fun b => by match b with | ⟨0, _⟩ => rfl | ⟨1, _⟩ => rfl)]
    exact v2_at x0 x2 r _
  · rw [dif_neg h, concatenate_pair_apply_right (t := S4096x20002) (s₁ := S4096x20000) (s₂ := S4096x2) (1 : Fin 2) _ _
      concatenates_S4096x20000_S4096x2_S4096x20002_d1 (ix2 r j) rfl rfl
      (ix2 r (⟨j.val - 20000, by omega⟩ : Fin 2))
      (fun b hb => by match b, hb with | ⟨0, _⟩, _ => rfl | ⟨1, _⟩, hb => exact absurd rfl hb)
      (by show j.val - 20000 + 20000 = j.val; omega)]
    exact v4_at x0 x3 r _

theorem call0_v5_at (r : Fin 4096) (j : Fin 20002) :
    val_main_call0_v5 (F := Ideal) x0 x2 x3 (ix2 r j) = Spec.headLogits x0 x2 x3 r j - Spec.rowMax (Spec.headLogits x0 x2 x3 r) := by
  rw [val_main_call0_v5_apply, val_main_call0_v4_apply, val_main_call0_v3_apply, val_main_call0_v2_apply, val_main_call0_v1_apply,
    val_main_call0_cst_0_apply]
  have hi : idx_main_call0_v3 (idx_main_call0_v4 (ix2 r j)) = ix1 r := ix1_eq _ r rfl
  rw [hi]
  unfold val_main_call0_v0
  rw [reduce_max_row _ _ reducesTo_S4096x20002_S4096_d1 (by decide) h_S_ r, val_main_call0_cst_apply]
  simp only [Ideal.subf_def, Ideal.maximumf_def, Ideal.ofBits_def, ofBits_neg_inf, bot_le, max_eq_right]
  rw [v5_at x0 x2 x3 r j]
  have hf : (fun k : Fin 20002 => val_main_v5 (F := Ideal) x0 x2 x3 (ix2 r k)) = Spec.headLogits x0 x2 x3 r := funext fun k => v5_at x0 x2 x3 r k
  unfold Spec.rowMax
  rw [hf]

theorem call0_v7_at (r : Fin 4096) :
    val_main_call0_v7 (F := Ideal) x0 x2 x3 (ix1 r)
      = ∑ k : Fin 20002, Ideal.exp (Spec.headLogits x0 x2 x3 r k - Spec.rowMax (Spec.headLogits x0 x2 x3 r)) := by
  rw [val_main_call0_v7_apply, val_main_call0_cst_1_apply]
  simp only [Ideal.ofBits_def, ofBits_zero, zero_add]
  refine Finset.sum_congr rfl fun k _ => ?_
  have hi : idx_main_call0_v7 (ix1 r) k = ix2 r k := ix2_eq _ r k rfl rfl
  rw [hi, val_main_call0_v6_apply, call0_v5_at x0 x2 x3 r k]
  rfl

theorem v6_at (r : Fin 4096) (j : Fin 20002) :
    val_main_v6 (F := Ideal) x0 x2 x3 (ix2 r j) = Spec.lsm (Spec.headLogits x0 x2 x3 r) j := by
  rw [val_main_v6_apply, val_main_call0_v10_apply, val_main_call0_v9_apply, val_main_call0_v8_apply]
  have hi : idx_main_call0_v8 (idx_main_call0_v10 (ix2 r j)) = ix1 r := ix1_eq _ r rfl
  rw [hi, call0_v7_at x0 x2 x3 r, call0_v5_at x0 x2 x3 r j]
  simp only [Spec.lsm, Ideal.subf_def, Ideal.hostUnary_log_def]

end Cert.ReferenceIdeal.RefValue

end
-- ==== Proof.Ref.Tail1.lean ====
import proofs.«402100_j83614423319285_2_alg».proof.Proof.Ref.ReadP
import proofs.«402100_j83614423319285_2_alg».proof.Proof.Spec
import proofs.«402100_j83614423319285_2_alg».proof.Proof.Ref.Basics

noncomputable section

open scoped BigOperators

namespace Cert.ReferenceIdeal.RefValue

open Cert.ReferenceIdeal Cert.ReferenceIdeal.Gen Cert.ReferenceIdeal.ReadP Idealize.ShloMosaic Idealize.ShloMosaic.ValueIdx

variable (x0 : (⟨S4096x1024, .f32⟩ : BufTy).Contents (Elt Ideal)) (x1 : (⟨S4096, .i32⟩ : BufTy).Contents (Elt Ideal)) (x2 : (⟨S20000x1024, .f32⟩ : BufTy).Contents (Elt Ideal)) (x3 : (⟨S2x1024, .f32⟩ : BufTy).Contents (Elt Ideal)) (x4 : (⟨S256x1024, .f32⟩ : BufTy).Contents (Elt Ideal)) (x5 : (⟨S20000x256, .f32⟩ : BufTy).Contents (Elt Ideal)) (x6 : (⟨S64x1024, .f32⟩ : BufTy).Contents (Elt Ideal)) (x7 : (⟨S10257x64, .f32⟩ : BufTy).Contents (Elt Ideal))

theorem v30_at (r : Fin 4096) (a : Fin 256) :
    val_main_v30 (F := Ideal) x0 x4 (ix2 r a) = Spec.h1 x0 x4 r a := by
  rw [val_main_v30_apply]
  unfold Spec.h1 Spec.dotT
  refine Finset.sum_congr rfl fun k _ => ?_
  rw [val_main_v29_apply]
  have hl : lidx_main_v30 (ix2 r a) k = ix2 r k := ix2_eq _ r k rfl rfl
  have hr : idx_main_v29 (ridx_main_v30 (ix2 r a) k) = ix2 a k := ix2_eq _ a k rfl rfl
  rw [hl, hr]

theorem v32_at (r : Fin 4096) (j : Fin 20000) :
    val_main_v32 (F := Ideal) x0 x4 x5 (ix2 r j) = Spec.z1 x0 x4 x5 r j := by
  rw [val_main_v32_apply]
  unfold Spec.z1 Spec.dotT'
  refine Finset.sum_congr rfl fun k _ => ?_
  rw [val_main_v31_apply]
  have hl : lidx_main_v32 (ix2 r j) k = ix2 r k := ix2_eq _ r k rfl rfl
  have hr : idx_main_v31 (ridx_main_v32 (ix2 r j) k) = ix2 j k := ix2_eq _ j k rfl rfl
  rw [hl, hr, v30_at x0 x4 r k]

theorem call2_v5_at (r : Fin 4096) (j : Fin 20000) :
    val_main_call2_v5 (F := Ideal) x0 x4 x5 (ix2 r j) = Spec.z1 x0 x4 x5 r j - Spec.rowMax (Spec.z1 x0 x4 x5 r) := by
  rw [val_main_call2_v5_apply, val_main_call2_v4_apply, val_main_call2_v3_apply, val_main_call2_v2_apply, val_main_call2_v1_apply,
    val_main_call2_cst_0_apply]
  have hi : idx_main_call2_v3 (idx_main_call2_v4 (ix2 r j)) = ix1 r := ix1_eq _ r rfl
  rw [hi]
  unfold val_main_call2_v0
  rw [reduce_max_row _ _ reducesTo_S4096x20000_S4096_d1 (by decide) h_S_ r, val_main_call2_cst_apply]
  simp only [Ideal.subf_def, Ideal.maximumf_def, Ideal.ofBits_def, ofBits_neg_inf, bot_le, max_eq_right]
  rw [v32_at x0 x4 x5 r j]
  have hf : (fun k : Fin 20000 => val_main_v32 (F := Ideal) x0 x4 x5 (ix2 r k)) = Spec.z1 x0 x4 x5 r := funext fun k => v32_at x0 x4 x5 r k
  unfold Spec.rowMax
  rw [hf]

theorem call2_v7_at (r : Fin 4096) :
    val_main_call2_v7 (F := Ideal) x0 x4 x5 (ix1 r)
      = ∑ k : Fin 20000, Ideal.exp (Spec.z1 x0 x4 x5 r k - Spec.rowMax (Spec.z1 x0 x4 x5 r)) := by
  rw [val_main_call2_v7_apply, val_main_call2_cst_1_apply]
  simp only [Ideal.ofBits_def, ofBits_zero, zero_add]
  refine Finset.sum_congr rfl fun k _ => ?_
  have hi : idx_main_call2_v7 (ix1 r) k = ix2 r k := ix2_eq _ r k rfl rfl
  rw [hi, val_main_call2_v6_apply, call2_v5_at x0 x4 x5 r k]
  rfl

theorem v33_at (r : Fin 4096) (j : Fin 20000) :
    val_main_v33 (F := Ideal) x0 x4 x5 (ix2 r j) = Spec.lsm (Spec.z1 x0 x4 x5 r) j := by
  rw [val_main_v33_apply, val_main_call2_v10_apply, val_main_call2_v9_apply, val_main_call2_v8_apply]
  have hi : idx_main_call2_v8 (idx_main_call2_v10 (ix2 r j)) = ix1 r := ix1_eq _ r rfl
  rw [hi, call2_v7_at x0 x4 x5 r, call2_v5_at x0 x4 x5 r j]
  simp only [Spec.lsm, Ideal.subf_def, Ideal.hostUnary_log_def]

end Cert.ReferenceIdeal.RefValue

end
-- ==== Proof.Ref.Tail2.lean ====
import proofs.«402100_j83614423319285_2_alg».proof.Proof.Ref.ReadP
import proofs.«402100_j83614423319285_2_alg».proof.Proof.Spec
import proofs.«402100_j83614423319285_2_alg».proof.Proof.Ref.Basics

noncomputable section

open scoped BigOperators

namespace Cert.ReferenceIdeal.RefValue

open Cert.ReferenceIdeal Cert.ReferenceIdeal.Gen Cert.ReferenceIdeal.ReadP Idealize.ShloMosaic Idealize.ShloMosaic.ValueIdx

variable (x0 : (⟨S4096x1024, .f32⟩ : BufTy).Contents (Elt Ideal)) (x1 : (⟨S4096, .i32⟩ : BufTy).Contents (Elt Ideal)) (x2 : (⟨S20000x1024, .f32⟩ : BufTy).Contents (Elt Ideal)) (x3 : (⟨S2x1024, .f32⟩ : BufTy).Contents (Elt Ideal)) (x4 : (⟨S256x1024, .f32⟩ : BufTy).Contents (Elt Ideal)) (x5 : (⟨S20000x256, .f32⟩ : BufTy).Contents (Elt Ideal)) (x6 : (⟨S64x1024, .f32⟩ : BufTy).Contents (Elt Ideal)) (x7 : (⟨S10257x64, .f32⟩ : BufTy).Contents (Elt Ideal))

theorem v57_at (r : Fin 4096) (a : Fin 64) :
    val_main_v57 (F := Ideal) x0 x6 (ix2 r a) = Spec.h2 x0 x6 r a := by
  rw [val_main_v57_apply]
  unfold Spec.h2 Spec.dotT
  refine Finset.sum_congr rfl fun k _ => ?_
  rw [val_main_v56_apply]
  have hl : lidx_main_v57 (ix2 r a) k = ix2 r k := ix2_eq _ r k rfl rfl
  have hr : idx_main_v56 (ridx_main_v57 (ix2 r a) k) = ix2 a k := ix2_eq _ a k rfl rfl
  rw [hl, hr]

theorem v59_at (r : Fin 4096) (j : Fin 10257) :
    val_main_v59 (F := Ideal) x0 x6 x7 (ix2 r j) = Spec.z2 x0 x6 x7 r j := by
  rw [val_main_v59_apply]
  unfold Spec.z2 Spec.dotT'
  refine Finset.sum_congr rfl fun k _ => ?_
  rw [val_main_v58_apply]
  have hl : lidx_main_v59 (ix2 r j) k = ix2 r k := ix2_eq _ r k rfl rfl
  have hr : idx_main_v58 (ridx_main_v59 (ix2 r j) k) = ix2 j k := ix2_eq _ j k rfl rfl
  rw [hl, hr, v57_at x0 x6 r k]

theorem call4_v5_at (r : Fin 4096) (j : Fin 10257) :
    val_main_call4_v5 (F := Ideal) x0 x6 x7 (ix2 r j) = Spec.z2 x0 x6 x7 r j - Spec.rowMax (Spec.z2 x0 x6 x7 r) := by
  rw [val_main_call4_v5_apply, val_main_call4_v4_apply, val_main_call4_v3_apply, val_main_call4_v2_apply, val_main_call4_v1_apply,
    val_main_call4_cst_0_apply]
  have hi : idx_main_call4_v3 (idx_main_call4_v4 (ix2 r j)) = ix1 r := ix1_eq _ r rfl
  rw [hi]
  unfold val_main_call4_v0
  rw [reduce_max_row _ _ reducesTo_S4096x10257_S4096_d1 (by decide) h_S_ r, val_main_call4_cst_apply]
  simp only [Ideal.subf_def, Ideal.maximumf_def, Ideal.ofBits_def, ofBits_neg_inf, bot_le, max_eq_right]
  rw [v59_at x0 x6 x7 r j]
  have hf : (fun k : Fin 10257 => val_main_v59 (F := Ideal) x0 x6 x7 (ix2 r k)) = Spec.z2 x0 x6 x7 r := funext fun k => v59_at x0 x6 x7 r k
  unfold Spec.rowMax
  rw [hf]

theorem call4_v7_at (r : Fin 4096) :
    val_main_call4_v7 (F := Ideal) x0 x6 x7 (ix1 r)
      = ∑ k : Fin 10257, Ideal.exp (Spec.z2 x0 x6 x7 r k - Spec.rowMax (Spec.z2 x0 x6 x7 r)) := by
  rw [val_main_call4_v7_apply, val_main_call4_cst_1_apply]
  simp only [Ideal.ofBits_def, ofBits_zero, zero_add]
  refine Finset.sum_congr rfl fun k _ => ?_
  have hi : idx_main_call4_v7 (ix1 r) k = ix2 r k := ix2_eq _ r k rfl rfl
  rw [hi, val_main_call4_v6_apply, call4_v5_at x0 x6 x7 r k]
  rfl

theorem v60_at (r : Fin 4096) (j : Fin 10257) :
    val_main_v60 (F := Ideal) x0 x6 x7 (ix2 r j) = Spec.lsm (Spec.z2 x0 x6 x7 r) j := by
  rw [val_main_v60_apply, val_main_call4_v10_apply, val_main_call4_v9_apply, val_main_call4_v8_apply]
  have hi : idx_main_call4_v8 (idx_main_call4_v10 (ix2 r j)) = ix1 r := ix1_eq _ r rfl
  rw [hi, call4_v7_at x0 x6 x7 r, call4_v5_at x0 x6 x7 r j]
  simp only [Spec.lsm, Ideal.subf_def, Ideal.hostUnary_log_def]

end Cert.ReferenceIdeal.RefValue

end
-- ==== Proof.RefValue.lean ====
import proofs.«402100_j83614423319285_2_alg».proof.Proof.Ref.ReadP
import proofs.«402100_j83614423319285_2_alg».proof.Proof.Spec
import proofs.«402100_j83614423319285_2_alg».proof.Proof.Ref.Basics
import proofs.«402100_j83614423319285_2_alg».proof.Proof.Ref.Result
import proofs.«402100_j83614423319285_2_alg».proof.Proof.Ref.Head
import proofs.«402100_j83614423319285_2_alg».proof.Proof.Ref.Tail1
import proofs.«402100_j83614423319285_2_alg».proof.Proof.Ref.Tail2

noncomputable section

open scoped BigOperators

namespace Cert.ReferenceIdeal.RefValue

open Cert.ReferenceIdeal Cert.ReferenceIdeal.Gen Cert.ReferenceIdeal.ReadP Idealize.ShloMosaic Idealize.ShloMosaic.TcCoe Idealize.SL.Sem Idealize.ShloMosaic.ValueIdx

variable (x0 : (⟨S4096x1024, .f32⟩ : BufTy).Contents (Elt Ideal)) (x1 : (⟨S4096, .i32⟩ : BufTy).Contents (Elt Ideal)) (x2 : (⟨S20000x1024, .f32⟩ : BufTy).Contents (Elt Ideal)) (x3 : (⟨S2x1024, .f32⟩ : BufTy).Contents (Elt Ideal)) (x4 : (⟨S256x1024, .f32⟩ : BufTy).Contents (Elt Ideal)) (x5 : (⟨S20000x256, .f32⟩ : BufTy).Contents (Elt Ideal)) (x6 : (⟨S64x1024, .f32⟩ : BufTy).Contents (Elt Ideal)) (x7 : (⟨S10257x64, .f32⟩ : BufTy).Contents (Elt Ideal))

theorem v8_at (r : Fin 4096) :
    val_main_v8 (F := Ideal) x1 (ix1 r) = if Spec.mask0 x1 r then 1#1 else 0#1 := by
  rw [val_main_v8_apply, val_main_v7_apply, val_main_c_apply, cmpi_slt, toInt_20000]
  exact if_congr Iff.rfl rfl rfl

theorem v28_at (r : Fin 4096) :
    val_main_v28 (F := Ideal) x1 (ix1 r) = if Spec.mask1 x1 r then 1#1 else 0#1 := by
  rw [val_main_v28_apply, val_main_v25_apply, val_main_v27_apply, val_main_v24_apply, val_main_c_5_apply, val_main_v26_apply,
    val_main_c_6_apply, cmpi_sge, cmpi_slt, andi_ite, toInt_20000, toInt_40000]
  exact if_congr Iff.rfl rfl rfl

theorem v55_at (r : Fin 4096) :
    val_main_v55 (F := Ideal) x1 (ix1 r) = if Spec.mask2 x1 r then 1#1 else 0#1 := by
  rw [val_main_v55_apply, val_main_v54_apply, val_main_c_13_apply, cmpi_sge, toInt_40000]
  exact if_congr Iff.rfl rfl rfl

theorem w0_toInt (ht : ∀ r : Fin 4096, 0 ≤ (x1 (ix1 r)).toInt ∧ (x1 (ix1 r)).toInt < 50257) (r : Fin 4096) :
    (val_main_v9 (F := Ideal) x1 (ix1 r)).toInt = if Spec.mask0 x1 r then Spec.tgt x1 r else 0 := by
  rw [val_main_v9_apply, v8_at, val_main_call1_v1_apply, val_main_call1_v0_apply, val_main_c_0_apply, select_ite]
  by_cases h : Spec.mask0 x1 r
  · rw [if_pos h, if_pos h]; rfl
  · rw [if_neg h, if_neg h, toInt_0]

theorem w1_toInt (ht : ∀ r : Fin 4096, 0 ≤ (x1 (ix1 r)).toInt ∧ (x1 (ix1 r)).toInt < 50257) (r : Fin 4096) :
    (val_main_v38 (F := Ideal) x1 (ix1 r)).toInt = if Spec.mask1 x1 r then Spec.tgt x1 r - 20000 else 0 := by
  rw [val_main_v38_apply, v28_at, val_main_v37_apply, val_main_v36_apply, val_main_c_7_apply, val_main_call3_v1_apply,
    val_main_call3_v0_apply, val_main_c_8_apply, select_ite]
  have h1 := (ht r).2
  by_cases h : Spec.mask1 x1 r
  · have ha : 20000 ≤ (x1 (ix1 r)).toInt := h.1
    rw [if_pos h, if_pos h, toInt_subi _ _ (by rw [toInt_20000]; omega) (by rw [toInt_20000]; omega), toInt_20000]; rfl
  · rw [if_neg h, if_neg h, toInt_0]

theorem w2_toInt (ht : ∀ r : Fin 4096, 0 ≤ (x1 (ix1 r)).toInt ∧ (x1 (ix1 r)).toInt < 50257) (r : Fin 4096) :
    (val_main_v65 (F := Ideal) x1 (ix1 r)).toInt = if Spec.mask2 x1 r then Spec.tgt x1 r - 40000 else 0 := by
  rw [val_main_v65_apply, v55_at, val_main_v64_apply, val_main_v63_apply, val_main_c_14_apply, val_main_call5_v1_apply,
    val_main_call5_v0_apply, val_main_c_15_apply, select_ite]
  have h1 := (ht r).2
  by_cases h : Spec.mask2 x1 r
  · have ha : 40000 ≤ (x1 (ix1 r)).toInt := h
    rw [if_pos h, if_pos h, toInt_subi _ _ (by rw [toInt_40000]; omega) (by rw [toInt_40000]; omega), toInt_40000]; rfl
  · rw [if_neg h, if_neg h, toInt_0]

theorem rowIdx0 (r : Fin 4096) : val_main_v14 (F := Ideal) (ix1 r) = BitVec.ofNat 32 r.val := by
  rw [val_main_v14_apply, val_main_v11_apply, val_main_v13_apply, val_main_v10_apply, val_main_c_1_apply, val_main_v0_apply]
  show Scalar.select (IntOp.cmpi .slt (BitVec.ofNat 32 r.val) 0#32) (IntOp.addi (BitVec.ofNat 32 r.val) _) (BitVec.ofNat 32 r.val)
    = BitVec.ofNat 32 r.val
  exact norm_nonneg _ _ (by rw [toInt_ofNat_small r.val (by have := r.isLt; omega)]; omega)

theorem rowIdx1 (r : Fin 4096) : val_main_v43 (F := Ideal) (ix1 r) = BitVec.ofNat 32 r.val := by
  rw [val_main_v43_apply, val_main_v40_apply, val_main_v42_apply, val_main_v39_apply, val_main_c_9_apply, val_main_v0_apply]
  show Scalar.select (IntOp.cmpi .slt (BitVec.ofNat 32 r.val) 0#32) (IntOp.addi (BitVec.ofNat 32 r.val) _) (BitVec.ofNat 32 r.val)
    = BitVec.ofNat 32 r.val
  exact norm_nonneg _ _ (by rw [toInt_ofNat_small r.val (by have := r.isLt; omega)]; omega)

theorem rowIdx2 (r : Fin 4096) : val_main_v70 (F := Ideal) (ix1 r) = BitVec.ofNat 32 r.val := by
  rw [val_main_v70_apply, val_main_v67_apply, val_main_v69_apply, val_main_v66_apply, val_main_c_16_apply, val_main_v0_apply]
  show Scalar.select (IntOp.cmpi .slt (BitVec.ofNat 32 r.val) 0#32) (IntOp.addi (BitVec.ofNat 32 r.val) _) (BitVec.ofNat 32 r.val)
    = BitVec.ofNat 32 r.val
  exact norm_nonneg _ _ (by rw [toInt_ofNat_small r.val (by have := r.isLt; omega)]; omega)

theorem colIdx0 (ht : ∀ r : Fin 4096, 0 ≤ (x1 (ix1 r)).toInt ∧ (x1 (ix1 r)).toInt < 50257) (r : Fin 4096) :
    val_main_v19 (F := Ideal) x1 (ix1 r) = val_main_v9 (F := Ideal) x1 (ix1 r) := by
  rw [val_main_v19_apply, val_main_v16_apply, val_main_v18_apply, val_main_v15_apply, val_main_c_3_apply]
  refine norm_nonneg _ _ ?_
  rw [w0_toInt x1 ht r]
  have h0 := (ht r).1
  by_cases h : Spec.mask0 x1 r
  · rw [if_pos h]; unfold Spec.tgt; exact h0
  · rw [if_neg h]

theorem colIdx1 (ht : ∀ r : Fin 4096, 0 ≤ (x1 (ix1 r)).toInt ∧ (x1 (ix1 r)).toInt < 50257) (r : Fin 4096) :
    val_main_v48 (F := Ideal) x1 (ix1 r) = val_main_v38 (F := Ideal) x1 (ix1 r) := by
  rw [val_main_v48_apply, val_main_v45_apply, val_main_v47_apply, val_main_v44_apply, val_main_c_11_apply]
  refine norm_nonneg _ _ ?_
  rw [w1_toInt x1 ht r]
  have h0 := (ht r).1
  by_cases h : Spec.mask1 x1 r
  · rw [if_pos h]; unfold Spec.tgt; have := h.1; unfold Spec.tgt at this; omega
  · rw [if_neg h]

theorem colIdx2 (ht : ∀ r : Fin 4096, 0 ≤ (x1 (ix1 r)).toInt ∧ (x1 (ix1 r)).toInt < 50257) (r : Fin 4096) :
    val_main_v75 (F := Ideal) x1 (ix1 r) = val_main_v65 (F := Ideal) x1 (ix1 r) := by
  rw [val_main_v75_apply, val_main_v72_apply, val_main_v74_apply, val_main_v71_apply, val_main_c_18_apply]
  refine norm_nonneg _ _ ?_
  rw [w2_toInt x1 ht r]
  have h0 := (ht r).1
  by_cases h : Spec.mask2 x1 r
  · rw [if_pos h]; unfold Spec.tgt; have h' : 40000 ≤ Spec.tgt x1 r := h; unfold Spec.tgt at h'; omega
  · rw [if_neg h]

theorem v22_row (r : Fin 4096) :
    val_main_v22 (F := Ideal) x1 (ix2 r (0 : Fin 2)) = val_main_v14 (F := Ideal) (ix1 r) := by
  unfold val_main_v22
  rw [concatenate_pair_apply_left (t := S4096x2) (s₁ := S4096x1) (s₂ := S4096x1) (1 : Fin 2) _ _
    concatenates_S4096x1_S4096x1_S4096x2_d1 (ix2 r (0 : Fin 2)) rfl
    (ix2 r (0 : Fin 1)) (fun b => by match b with | ⟨0, _⟩ => rfl | ⟨1, _⟩ => rfl), val_main_v20_apply]
  exact congrArg _ (ix1_eq _ r rfl)

theorem v22_col (r : Fin 4096) :
    val_main_v22 (F := Ideal) x1 (ix2 r (1 : Fin 2)) = val_main_v19 (F := Ideal) x1 (ix1 r) := by
  unfold val_main_v22
  rw [concatenate_pair_apply_right (t := S4096x2) (s₁ := S4096x1) (s₂ := S4096x1) (1 : Fin 2) _ _
    concatenates_S4096x1_S4096x1_S4096x2_d1 (ix2 r (1 : Fin 2)) rfl rfl
    (ix2 r (0 : Fin 1)) (fun b hb => by match b, hb with | ⟨0, _⟩, _ => rfl | ⟨1, _⟩, hb => exact absurd rfl hb) (by rfl),
    val_main_v21_apply]
  exact congrArg _ (ix1_eq _ r rfl)

theorem v51_row (r : Fin 4096) :
    val_main_v51 (F := Ideal) x1 (ix2 r (0 : Fin 2)) = val_main_v43 (F := Ideal) (ix1 r) := by
  unfold val_main_v51
  rw [concatenate_pair_apply_left (t := S4096x2) (s₁ := S4096x1) (s₂ := S4096x1) (1 : Fin 2) _ _
    concatenates_S4096x1_S4096x1_S4096x2_d1 (ix2 r (0 : Fin 2)) rfl
    (ix2 r (0 : Fin 1)) (fun b => by match b with | ⟨0, _⟩ => rfl | ⟨1, _⟩ => rfl), val_main_v49_apply]
  exact congrArg _ (ix1_eq _ r rfl)

theorem v51_col (r : Fin 4096) :
    val_main_v51 (F := Ideal) x1 (ix2 r (1 : Fin 2)) = val_main_v48 (F := Ideal) x1 (ix1 r) := by
  unfold val_main_v51
  rw [concatenate_pair_apply_right (t := S4096x2) (s₁ := S4096x1) (s₂ := S4096x1) (1 : Fin 2) _ _
    concatenates_S4096x1_S4096x1_S4096x2_d1 (ix2 r (1 : Fin 2)) rfl rfl
    (ix2 r (0 : Fin 1)) (fun b hb => by match b, hb with | ⟨0, _⟩, _ => rfl | ⟨1, _⟩, hb => exact absurd rfl hb) (by rfl),
    val_main_v50_apply]
  exact congrArg _ (ix1_eq _ r rfl)

theorem v78_row (r : Fin 4096) :
    val_main_v78 (F := Ideal) x1 (ix2 r (0 : Fin 2)) = val_main_v70 (F := Ideal) (ix1 r) := by
  unfold val_main_v78
  rw [concatenate_pair_apply_left (t := S4096x2) (s₁ := S4096x1) (s₂ := S4096x1) (1 : Fin 2) _ _
    concatenates_S4096x1_S4096x1_S4096x2_d1 (ix2 r (0 : Fin 2)) rfl
    (ix2 r (0 : Fin 1)) (fun b => by match b with | ⟨0, _⟩ => rfl | ⟨1, _⟩ => rfl), val_main_v76_apply]
  exact congrArg _ (ix1_eq _ r rfl)

theorem v78_col (r : Fin 4096) :
    val_main_v78 (F := Ideal) x1 (ix2 r (1 : Fin 2)) = val_main_v75 (F := Ideal) x1 (ix1 r) := by
  unfold val_main_v78
  rw [concatenate_pair_apply_right (t := S4096x2) (s₁ := S4096x1) (s₂ := S4096x1) (1 : Fin 2) _ _
    concatenates_S4096x1_S4096x1_S4096x2_d1 (ix2 r (1 : Fin 2)) rfl rfl
    (ix2 r (0 : Fin 1)) (fun b hb => by match b, hb with | ⟨0, _⟩, _ => rfl | ⟨1, _⟩, hb => exact absurd rfl hb) (by rfl),
    val_main_v77_apply]
  exact congrArg _ (ix1_eq _ r rfl)

theorem v23_at (ht : ∀ r : Fin 4096, 0 ≤ (x1 (ix1 r)).toInt ∧ (x1 (ix1 r)).toInt < 50257) (r : Fin 4096) :
    val_main_v23 (F := Ideal) x0 x1 x2 x3 (ix1 r)
      = Spec.pick (Spec.lsm (Spec.headLogits x0 x2 x3 r)) (if Spec.mask0 x1 r then Spec.tgt x1 r else 0) := by
  have h0 := (ht r).1
  have h1 := (ht r).2
  have hc : 0 ≤ (if Spec.mask0 x1 r then Spec.tgt x1 r else 0)
      ∧ (if Spec.mask0 x1 r then Spec.tgt x1 r else 0) < ((20002 : Nat) : Int) := by
    by_cases h : Spec.mask0 x1 r
    · rw [if_pos h]; have h' : Spec.tgt x1 r < 20000 := h; unfold Spec.tgt at h' ⊢; omega
    · rw [if_neg h]; omega
  have hrow : (val_main_v22 (F := Ideal) x1 (ix2 r (0 : Fin 2))).toInt = (r.val : Int) := by
    rw [v22_row, rowIdx0, toInt_ofNat_small _ (by have := r.isLt; omega)]
  have hcol : (val_main_v22 (F := Ideal) x1 (ix2 r (1 : Fin 2))).toInt
      = (((⟨(if Spec.mask0 x1 r then Spec.tgt x1 r else 0).toNat, by omega⟩ : Fin 20002).val : Nat) : Int) := by
    rw [v22_col, colIdx0 x1 ht r, w0_toInt x1 ht r]
    exact (Int.toNat_of_nonneg hc.1).symm
  unfold val_main_v23
  rw [gather2_at (by decide) (by decide) gather_S4096x20002_S4096x2_S4096_n_01_n_n_01_1_11 rfl rfl rfl rfl rfl rfl rfl _ _ r _ hrow hcol, v6_at x0 x2 x3 r]
  unfold Spec.pick
  rw [dif_pos hc]

theorem v52_at (ht : ∀ r : Fin 4096, 0 ≤ (x1 (ix1 r)).toInt ∧ (x1 (ix1 r)).toInt < 50257) (r : Fin 4096) :
    val_main_v52 (F := Ideal) x0 x1 x4 x5 (ix1 r)
      = Spec.pick (Spec.lsm (Spec.z1 x0 x4 x5 r)) (if Spec.mask1 x1 r then Spec.tgt x1 r - 20000 else 0) := by
  have h0 := (ht r).1
  have h1 := (ht r).2
  have hc : 0 ≤ (if Spec.mask1 x1 r then Spec.tgt x1 r - 20000 else 0)
      ∧ (if Spec.mask1 x1 r then Spec.tgt x1 r - 20000 else 0) < ((20000 : Nat) : Int) := by
    by_cases h : Spec.mask1 x1 r
    · rw [if_pos h]; have ha := h.1; have hb := h.2; unfold Spec.tgt at ha hb ⊢; omega
    · rw [if_neg h]; omega
  have hrow : (val_main_v51 (F := Ideal) x1 (ix2 r (0 : Fin 2))).toInt = (r.val : Int) := by
    rw [v51_row, rowIdx1, toInt_ofNat_small _ (by have := r.isLt; omega)]
  have hcol : (val_main_v51 (F := Ideal) x1 (ix2 r (1 : Fin 2))).toInt
      = (((⟨(if Spec.mask1 x1 r then Spec.tgt x1 r - 20000 else 0).toNat, by omega⟩ : Fin 20000).val : Nat) : Int) := by
    rw [v51_col, colIdx1 x1 ht r, w1_toInt x1 ht r]
    exact (Int.toNat_of_nonneg hc.1).symm
  unfold val_main_v52
  rw [gather2_at (by decide) (by decide) gather_S4096x20000_S4096x2_S4096_n_01_n_n_01_1_11 rfl rfl rfl rfl rfl rfl rfl _ _ r _ hrow hcol, v33_at x0 x4 x5 r]
  unfold Spec.pick
  rw [dif_pos hc]

theorem v79_at (ht : ∀ r : Fin 4096, 0 ≤ (x1 (ix1 r)).toInt ∧ (x1 (ix1 r)).toInt < 50257) (r : Fin 4096) :
    val_main_v79 (F := Ideal) x0 x1 x6 x7 (ix1 r)
      = Spec.pick (Spec.lsm (Spec.z2 x0 x6 x7 r)) (if Spec.mask2 x1 r then Spec.tgt x1 r - 40000 else 0) := by
  have h0 := (ht r).1
  have h1 := (ht r).2
  have hc : 0 ≤ (if Spec.mask2 x1 r then Spec.tgt x1 r - 40000 else 0)
      ∧ (if Spec.mask2 x1 r then Spec.tgt x1 r - 40000 else 0) < ((10257 : Nat) : Int) := by
    by_cases h : Spec.mask2 x1 r
    · rw [if_pos h]; have ha : 40000 ≤ Spec.tgt x1 r := h; unfold Spec.tgt at ha ⊢; omega
    · rw [if_neg h]; omega
  have hrow : (val_main_v78 (F := Ideal) x1 (ix2 r (0 : Fin 2))).toInt = (r.val : Int) := by
    rw [v78_row, rowIdx2, toInt_ofNat_small _ (by have := r.isLt; omega)]
  have hcol : (val_main_v78 (F := Ideal) x1 (ix2 r (1 : Fin 2))).toInt
      = (((⟨(if Spec.mask2 x1 r then Spec.tgt x1 r - 40000 else 0).toNat, by omega⟩ : Fin 10257).val : Nat) : Int) := by
    rw [v78_col, colIdx2 x1 ht r, w2_toInt x1 ht r]
    exact (Int.toNat_of_nonneg hc.1).symm
  unfold val_main_v79
  rw [gather2_at (by decide) (by decide) gather_S4096x10257_S4096x2_S4096_n_01_n_n_01_1_11 rfl rfl rfl rfl rfl rfl rfl _ _ r _ hrow hcol, v60_at x0 x6 x7 r]
  unfold Spec.pick
  rw [dif_pos hc]

theorem v35_at (r : Fin 4096) :
    val_main_v35 (F := Ideal) x0 x2 x3 (ix1 r) = Spec.lsmHead x0 x2 x3 r ⟨20000, by omega⟩ := by
  rw [val_main_v35_apply, val_main_v34_apply]
  have hi : idx_main_v34 (idx_main_v35 (ix1 r)) = ix2 r (⟨20000, by omega⟩ : Fin 20002) :=
    ix2_eq _ r _ (Nat.div_one _) rfl
  rw [hi, v6_at x0 x2 x3 r]
  rfl

theorem v62_at (r : Fin 4096) :
    val_main_v62 (F := Ideal) x0 x2 x3 (ix1 r) = Spec.lsmHead x0 x2 x3 r ⟨20001, by omega⟩ := by
  rw [val_main_v62_apply, val_main_v61_apply]
  have hi : idx_main_v61 (idx_main_v62 (ix1 r)) = ix2 r (⟨20001, by omega⟩ : Fin 20002) :=
    ix2_eq _ r _ (Nat.div_one _) rfl
  rw [hi, v6_at x0 x2 x3 r]
  rfl

theorem v81_at (ht : ∀ r : Fin 4096, 0 ≤ (x1 (ix1 r)).toInt ∧ (x1 (ix1 r)).toInt < 50257) (r : Fin 4096) :
    val_main_v81 (F := Ideal) x0 x1 x2 x3 (ix1 r) = if Spec.mask0 x1 r then Spec.lp0 x0 x1 x2 x3 r else 0 := by
  rw [val_main_v81_apply, v8_at, v23_at x0 x1 x2 x3 ht r, val_main_call6_v0_apply, val_main_cst_apply, select_ite]
  simp only [Ideal.ofBits_def, ofBits_zero]
  rfl

theorem v83_at (ht : ∀ r : Fin 4096, 0 ≤ (x1 (ix1 r)).toInt ∧ (x1 (ix1 r)).toInt < 50257) (r : Fin 4096) :
    val_main_v83 (F := Ideal) x0 x1 x2 x3 x4 x5 (ix1 r) = if Spec.mask1 x1 r then Spec.lp1 x0 x1 x2 x3 x4 x5 r else 0 := by
  rw [val_main_v83_apply, v28_at, val_main_v53_apply, v35_at, v52_at x0 x1 x4 x5 ht r, val_main_call7_v0_apply,
    val_main_cst_21_apply, select_ite]
  simp only [Ideal.ofBits_def, ofBits_zero, Ideal.addf_def]
  rfl

theorem v86_at (ht : ∀ r : Fin 4096, 0 ≤ (x1 (ix1 r)).toInt ∧ (x1 (ix1 r)).toInt < 50257) (r : Fin 4096) :
    val_main_v86 (F := Ideal) x0 x1 x2 x3 x6 x7 (ix1 r) = if Spec.mask2 x1 r then Spec.lp2 x0 x1 x2 x3 x6 x7 r else 0 := by
  rw [val_main_v86_apply, v55_at, val_main_v80_apply, v62_at, v79_at x0 x1 x6 x7 ht r, val_main_call8_v0_apply,
    val_main_cst_23_apply, select_ite]
  simp only [Ideal.ofBits_def, ofBits_zero, Ideal.addf_def]
  rfl

theorem ref_value (ht : ∀ r : Fin 4096, 0 ≤ (x1 (ix1 r)).toInt ∧ (x1 (ix1 r)).toInt < 50257) :
    val_main_v89 (F := Ideal) x0 x1 x2 x3 x4 x5 x6 x7 ix0 = Cert.Spec.nll x0 x1 x2 x3 x4 x5 x6 x7 := by
  rw [val_main_v89_apply, val_main_v88_apply, val_main_v85_apply, val_main_v82_apply, val_main_v84_apply, val_main_v87_apply,
    val_main_cst_20_apply, val_main_cst_22_apply, val_main_cst_24_apply, sum_idx1, sum_idx1, sum_idx1]
  simp only [Ideal.ofBits_def, ofBits_zero, zero_add, Ideal.addf_def, Ideal.hostNegf_def, Ideal.negf_def,
    v81_at x0 x1 x2 x3 ht, v83_at x0 x1 x2 x3 x4 x5 ht, v86_at x0 x1 x2 x3 x6 x7 ht]
  rfl

theorem ref_value_fun (ht : ∀ r : Fin 4096, 0 ≤ (x1 (ix1 r)).toInt ∧ (x1 (ix1 r)).toInt < 50257) :
    val_main_v89 (F := Ideal) x0 x1 x2 x3 x4 x5 x6 x7 = fun _ => Cert.Spec.nll x0 x1 x2 x3 x4 x5 x6 x7 := by
  funext i
  rw [eq_ix0 i]
  exact ref_value x0 x1 x2 x3 x4 x5 x6 x7 ht

theorem ref_result (m : (ℓ : Loc nD τ sig) → Buf (Elt Ideal) ℓ) (c : Dev nD)
    (ht : ∀ r : Fin 4096, 0 ≤ (m ((c.tc : Thread nD τ).loc main_arg1) (ix1 r)).toInt
      ∧ (m ((c.tc : Thread nD τ).loc main_arg1) (ix1 r)).toInt < 50257) :
    Cert.ReferenceIdeal.HandRun.res_out0 (F := Ideal) m c
      = fun _ => Cert.Spec.nll (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.HandRun.res_out0
  exact ref_value_fun _ _ _ _ _ _ _ _ ht

theorem ref_result_ix0 (m : (ℓ : Loc nD τ sig) → Buf (Elt Ideal) ℓ) (c : Dev nD)
    (ht : ∀ r : Fin 4096, 0 ≤ (m ((c.tc : Thread nD τ).loc main_arg1) (ix1 r)).toInt
      ∧ (m ((c.tc : Thread nD τ).loc main_arg1) (ix1 r)).toInt < 50257) :
    Cert.ReferenceIdeal.HandRun.res_out0 (F := Ideal) m c ix0
      = Cert.Spec.nll (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) :=
  congrFun (ref_result m c ht) ix0

end Cert.ReferenceIdeal.RefValue

end
-- ==== Proof.Algebraic.lean ====
import proofs.«402100_j83614423319285_2_alg».proof.Defs
import proofs.«402100_j83614423319285_2_alg».proof.Proof.Gen.KernelIdeal
import proofs.«402100_j83614423319285_2_alg».proof.Proof.Gen.ReferenceIdeal
import proofs.«402100_j83614423319285_2_alg».proof.Proof.Gen.Pre_finite_inputs
import proofs.«402100_j83614423319285_2_alg».proof.Proof.KI.RunMain
import proofs.«402100_j83614423319285_2_alg».proof.Proof.KI.HostTail
import proofs.«402100_j83614423319285_2_alg».proof.Proof.KI.HostCluster
import proofs.«402100_j83614423319285_2_alg».proof.Proof.KI.ValBridge
import proofs.«402100_j83614423319285_2_alg».proof.Proof.Math.Bridge
import proofs.«402100_j83614423319285_2_alg».proof.Proof.PreFacts
import proofs.«402100_j83614423319285_2_alg».proof.Proof.Ref.HandRun
import proofs.«402100_j83614423319285_2_alg».proof.Proof.RefValue

set_option maxRecDepth 16384

noncomputable section

namespace Cert.Proof.Hand

open Idealize.ShloMosaic Idealize.ShloMosaic.TcCoe Idealize.ShloMosaic.ValueIdx Idealize.SL.Sem
open Cert.KernelIdeal.Hand

theorem kernel_value (m : (ℓ : Loc Cert.KernelIdeal.nD Cert.KernelIdeal.τ Cert.KernelIdeal.sig) → Buf (Elt Ideal) ℓ)
    (c : Dev Cert.KernelIdeal.nD)
    (hpre : Cert.Pre_finite_inputs.fn (F := Ideal) (argX m c) (argT m c) (argWh m c) (argWc m c) (argP1 m c) (argW1 m c)
      (argP2 m c) (argW2 m c) = (fun _ => 1#1)) :
    Cert.KernelIdeal.Gen.V22 m (outs m) c Cert.KernelIdeal.main_v74
      = fun _ => Cert.Spec.nll (argX m c) (argT m c) (argWh m c) (argWc m c) (argP1 m c) (argW1 m c) (argP2 m c) (argW2 m c) := by
  funext i
  rw [eq_ix0 i, result_eq m (outs m) c]
  have hz : (fun (r : Fin 4096) (a : Fin 2) =>
      (Cert.KernelIdeal.Gen.V8 m c Cert.KernelIdeal.main_v27 : FVec Ideal Cert.KernelIdeal.S4096x2 .f32) (ix2 r a))
      = Cert.Spec.zCluster (argX m c) (argWc m c) := funext fun r => funext fun a => v27_apply m c r a
  rw [hz]
  exact Cert.Spec.bridge (argX m c) (argT m c) (argWh m c) (argWc m c) (argP1 m c) (argW1 m c) (argP2 m c) (argW2 m c)
    (Cert.PreFacts.finite_a0 hpre) (Cert.PreFacts.finite_a2 hpre) (Cert.PreFacts.finite_a3 hpre)
    (Cert.PreFacts.finite_a4 hpre) (Cert.PreFacts.finite_a5 hpre) (Cert.PreFacts.finite_a6 hpre)
    (Cert.PreFacts.finite_a7 hpre) (fun r => Cert.PreFacts.target_range hpre (ix1 r))
    _ _ _ _ _ _ _ _ _ (triple0 m c) (triple1 m c) (triple2 m c)

theorem algebraic : Cert.algebraic_KernelIdeal_ReferenceIdeal := by
  intro m ρ m' ρ' hpre hagree
  refine ⟨fun c => fun _ => Cert.Spec.nll (argX m c) (argT m c) (argWh m c) (argWc m c) (argP1 m c) (argW1 m c)
    (argP2 m c) (argW2 m c), ?_, ?_⟩
  · exact (θ_run (Cert.KernelIdeal.defs (F := Ideal)) _ _).mono
      (fun _ h c => ⟨(h c).1.trans (kernel_value m c (hpre c)), (h c).2⟩)
      (Cert.KernelIdeal.Hand.run_value (F := Ideal) m ρ)
  · refine (θ_run (Cert.ReferenceIdeal.defs (F := Ideal)) _ _).mono (fun _ h c => ⟨(h c).1.trans ?_, (h c).2⟩)
      (Cert.ReferenceIdeal.HandRun.run (F := Ideal) m' ρ')
    obtain ⟨e0, e1, e2, e3, e4, e5, e6, e7⟩ := hagree c
    have ht : ∀ r : Fin 4096,
        0 ≤ (m' ((c.tc : Thread Cert.ReferenceIdeal.nD Cert.ReferenceIdeal.τ).loc Cert.ReferenceIdeal.main_arg1) (ix1 r)).toInt
        ∧ (m' ((c.tc : Thread Cert.ReferenceIdeal.nD Cert.ReferenceIdeal.τ).loc Cert.ReferenceIdeal.main_arg1) (ix1 r)).toInt < 50257 := by
      intro r
      rw [e1]
      exact Cert.PreFacts.target_range (hpre c) (ix1 r)
    refine (Cert.ReferenceIdeal.RefValue.ref_result m' c ht).trans ?_
    rw [e0, e1, e2, e3, e4, e5, e6, e7]
    rfl

end Cert.Proof.Hand

end
-- ==== Proof.lean ====
/-
  Adaptive-softmax negative log-likelihood. Each of the three softmax clusters is streamed in column tiles with, per row,
  a running maximum, a sum of exponentials rescaled to that maximum, and the logit at the target column; padded columns
  carry −∞. Over the extended reals, for finite inputs and valid labels, the running triple ends at
  (max z, Σ exp (z − max z), z at the target), which is all a log-softmax at the target needs; the head's triple is merged
  with the two cluster logits by one more rescaling, and the masked per-row terms sum to the reference's value.
-/
import proofs.«402100_j83614423319285_2_alg».proof.Defs
import proofs.«402100_j83614423319285_2_alg».proof.Proof.Gen.Kernel
import proofs.«402100_j83614423319285_2_alg».proof.Proof.Gen.KernelIdeal
import proofs.«402100_j83614423319285_2_alg».proof.Proof.Gen.ReferenceIdeal
import proofs.«402100_j83614423319285_2_alg».proof.Proof.Ref.HandRun
import proofs.«402100_j83614423319285_2_alg».proof.Proof.Gen.Pre_finite_inputs
import proofs.«402100_j83614423319285_2_alg».proof.Proof.K.RunMain
import proofs.«402100_j83614423319285_2_alg».proof.Proof.KI.RunMain
import proofs.«402100_j83614423319285_2_alg».proof.Proof.Algebraic

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

theorem frame_ri : Cert.frame_ReferenceIdeal := fun m ρ _ =>
  (θ_run Cert.ReferenceIdeal.defs _ _).mono (fun _ h c => (h c).2) (Cert.ReferenceIdeal.HandRun.run (F := Ideal) m ρ)

theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl,
   IdealRules.named_const.statement Cert.KernelIdeal.κ "neg_big" .f32 0xFF333332#32 ⊥ rfl⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, Cert.Proof.Hand.algebraic⟩

end Cert.Proof

end
